-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100000 : Shape := ⟨2, ![1024, 100000]⟩
abbrev S_ : Shape := ⟨0, ![]⟩
abbrev S1024 : Shape := ⟨1, ![1024]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  reducesTo_S1024x100000_S1024_d1 : S1024x100000.ReducesTo [1] S1024
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_cst_0 : FVec F S_ .f32 := constant S_ .f32 0x00000000#32
  let main_v4 : FVec F S1024 .f32 := (fun x v => Host.reduceAdd x v reducesTo_S1024x100000_S1024_d1 h_S_) main_arg0 main_cst_0
  let main_cst_1 : FVec F S_ .f32 := constant S_ .f32 0x00000000#32
  let main_v5 : FVec F S1024 .f32 := broadcastInDim S1024 ![] bcast_S_S1024 main_cst_1
  let main_v6 : IVec S1024 1 := cmpf .une main_v4 main_v5
  let main_c_2 : IVec S_ 1 := constantI S_ 1 1#1
  let main_v7 : IVec S_ 1 := (fun x v => Host.reduce IntOp.andi x v reducesTo_S1024_S_d0 h_S_) main_v6 main_c_2
  let main_v8 : IVec S_ 1 := andi main_v3 main_v7
  main_v8
-- ==== Kernel.lean ====
abbrev S1024x100000 : Shape := ⟨2, ![1024, 100000]⟩
abbrev S12544x128 : Shape := ⟨2, ![12544, 128]⟩
abbrev S_ : Shape := ⟨0, ![]⟩
abbrev S768x1024 : Shape := ⟨2, ![768, 1024]⟩
abbrev S768x128 : Shape := ⟨2, ![768, 128]⟩
abbrev S64x100000 : Shape := ⟨2, ![64, 100000]⟩
abbrev S64x1024 : Shape := ⟨2, ![64, 1024]⟩
abbrev S64x128 : Shape := ⟨2, ![64, 128]⟩
abbrev S64x12544 : Shape := ⟨2, ![64, 12544]⟩
abbrev S64 : Shape := ⟨1, ![64]⟩
abbrev S64x1 : Shape := ⟨2, ![64, 1]⟩
abbrev S64x12192 : Shape := ⟨2, ![64, 12192]⟩
abbrev S12192x128 : Shape := ⟨2, ![12192, 128]⟩
abbrev S256x1024 : Shape := ⟨2, ![256, 1024]⟩
abbrev S50176 : Shape := ⟨1, ![50176]⟩
abbrev S49824 : Shape := ⟨1, ![49824]⟩
abbrev S1024 : Shape := ⟨1, ![1024]⟩
abbrev S272 : Shape := ⟨1, ![272]⟩
abbrev S16 : Shape := ⟨1, ![16]⟩
abbrev S1x50176 : Shape := ⟨2, ![1, 50176]⟩
abbrev S1x49824 : Shape := ⟨2, ![1, 49824]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S768x1 : Shape := ⟨2, ![768, 1]⟩
abbrev S1x256x1 : Shape := ⟨3, ![1, 256, 1]⟩
abbrev S1 : Shape := ⟨1, ![1]⟩
abbrev S1x1x1 : Shape := ⟨3, ![1, 1, 1]⟩
abbrev S1x768x1 : Shape := ⟨3, ![1, 768, 1]⟩
abbrev S768 : Shape := ⟨1, ![768]⟩

abbrev nBuf : Table → Nat
  | .hbm => 22
  | .local .tc .vmem => 15
  | .local .scVector .vmem => 6
  | _ => 0

abbrev bufTy : (tb : Table) → Fin (nBuf tb) → BufTy
  | .hbm, ⟨0, _⟩ => ⟨S1024x100000, .f32⟩
  | .hbm, ⟨1, _⟩ => ⟨S12544x128, .i32⟩
  | .hbm, ⟨2, _⟩ => ⟨S12544x128, .i32⟩
  | .hbm, ⟨3, _⟩ => ⟨S_, .i32⟩
  | .hbm, ⟨4, _⟩ => ⟨S12544x128, .i32⟩
  | .hbm, ⟨5, _⟩ => ⟨S12544x128, .i32⟩
  | .hbm, ⟨6, _⟩ => ⟨S12544x128, .i1⟩
  | .hbm, ⟨7, _⟩ => ⟨S_, .i32⟩
  | .hbm, ⟨8, _⟩ => ⟨S12544x128, .i32⟩
  | .hbm, ⟨9, _⟩ => ⟨S12544x128, .i32⟩
  | .hbm, ⟨10, _⟩ => ⟨S_, .i32⟩
  | .hbm, ⟨11, _⟩ => ⟨S12544x128, .i32⟩
  | .hbm, ⟨12, _⟩ => ⟨S12544x128, .i32⟩
  | .hbm, ⟨13, _⟩ => ⟨S12544x128, .i1⟩
  | .hbm, ⟨14, _⟩ => ⟨S12544x128, .i1⟩
  | .hbm, ⟨15, _⟩ => ⟨S12544x128, .bf16⟩
  | .hbm, ⟨16, _⟩ => ⟨S768x1024, .f32⟩
  | .hbm, ⟨17, _⟩ => ⟨S768x1024, .f32⟩
  | .hbm, ⟨18, _⟩ => ⟨S768x128, .f32⟩
  | .hbm, ⟨19, _⟩ => ⟨S256x1024, .f32⟩
  | .hbm, ⟨20, _⟩ => ⟨S256x1024, .f32⟩
  | .hbm, ⟨21, _⟩ => ⟨S1024x1024, .f32⟩
  | .local .tc .vmem, ⟨0, _⟩ => ⟨S64x100000, .f32⟩
  | .local .tc .vmem, ⟨1, _⟩ => ⟨S64x100000, .f32⟩
  | .local .tc .vmem, ⟨2, _⟩ => ⟨S12544x128, .bf16⟩
  | .local .tc .vmem, ⟨3, _⟩ => ⟨S64x1024, .f32⟩
  | .local .tc .vmem, ⟨4, _⟩ => ⟨S64x1024, .f32⟩
  | .local .tc .vmem, ⟨5, _⟩ => ⟨S64x1024, .f32⟩
  | .local .tc .vmem, ⟨6, _⟩ => ⟨S64x1024, .f32⟩
  | .local .tc .vmem, ⟨7, _⟩ => ⟨S64x128, .f32⟩
  | .local .tc .vmem, ⟨8, _⟩ => ⟨S64x128, .f32⟩
  | .local .tc .vmem, ⟨9, _⟩ => ⟨S256x1024, .f32⟩
  | .local .tc .vmem, ⟨10, _⟩ => ⟨S256x1024, .f32⟩
  | .local .tc .vmem, ⟨11, _⟩ => ⟨S768x1024, .f32⟩
  | .local .tc .vmem, ⟨12, _⟩ => ⟨S768x1024, .f32⟩
  | .local .tc .vmem, ⟨13, _⟩ => ⟨S768x128, .f32⟩
  | .local .tc .vmem, ⟨14, _⟩ => ⟨S1024x1024, .f32⟩
  | .local .scVector .vmem, ⟨0, _⟩ => ⟨S50176, .f32⟩
  | .local .scVector .vmem, ⟨1, _⟩ => ⟨S49824, .f32⟩
  | .local .scVector .vmem, ⟨2, _⟩ => ⟨S1024, .f32⟩
  | .local .scVector .vmem, ⟨3, _⟩ => ⟨S1024, .f32⟩
  | .local .scVector .vmem, ⟨4, _⟩ => ⟨S272, .f32⟩
  | .local .scVector .vmem, ⟨5, _⟩ => ⟨S272, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_arg0_scv : Ref sig .scVector := ⟨.hbm, 0, rfl⟩
abbrev main_v13_0_scv : Ref sig .scVector := ⟨.hbm, 19, rfl⟩
abbrev main_v13_1_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_19 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c50176_i32 : BitVec 32 := 50176#32
  ![v2.toNat, 50176]
@[reducible] def k1_t1_loop : Scf.Loop 32 :=
  let c0_i32_23 : BitVec 32 := 0#32
  let c8_i32_24 : BitVec 32 := 8#32
  let v109 : BitVec 32 := Scalar.addi c0_i32_23 c8_i32_24
  let c1_i32_25 : BitVec 32 := 1#32
  ⟨c0_i32_23, v109, c1_i32_25⟩
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_23 : BitVec 32 := 0#32
  let c1_i32_25 : BitVec 32 := 1#32
  let arg13 : BitVec 32 := Scf.iv c0_i32_23 c1_i32_25 k1_t1
  let v110 : BitVec 32 := Scalar.addi v2 arg13
  let c0_i32_27 : BitVec 32 := 0#32
  ![v110.toNat, 0]
@[reducible] def k1_t2_loop : Scf.Loop 32 :=
  let c0_i32_30 : BitVec 32 := 0#32
  let c32_i32 : BitVec 32 := 32#32
  let v115 : BitVec 32 := Scalar.addi c0_i32_30 c32_i32
  let c1_i32_31 : BitVec 32 := 1#32
  ⟨c0_i32_30, v115, c1_i32_31⟩
def k1_off4 (k1_t2 : Fin k1_t2_loop.trips) (c0_i32_122 : BitVec 32) : Fin 1 → Nat :=
  let c2_i32_105 : BitVec 32 := 2#32
  let c0_i32_30 : BitVec 32 := 0#32
  let c1_i32_31 : BitVec 32 := 1#32
  let arg14 : BitVec 32 := Scf.iv c0_i32_30 c1_i32_31 k1_t2
  let v633 : BitVec 32 := Scalar.muli c2_i32_105 arg14
  let c784_i32 : BitVec 32 := 784#32
  let v634 : BitVec 32 := Scalar.muli v633 c784_i32
  let v651 : BitVec 32 := Scalar.addi v634 c0_i32_122
  let v652 : Index := Scalar.indexCast v651
  ![v652.toNat]
def k1_off5 (k1_t2 : Fin k1_t2_loop.trips) (c0_i32_164 : BitVec 32) : Fin 1 → Nat :=
  let c2_i32_145 : BitVec 32 := 2#32
  let c0_i32_30 : BitVec 32 := 0#32
  let c1_i32_31 : BitVec 32 := 1#32
  let arg14 : BitVec 32 := Scf.iv c0_i32_30 c1_i32_31 k1_t2
  let v1015 : BitVec 32 := Scalar.muli c2_i32_145 arg14
  let c1_i32_146 : BitVec 32 := 1#32
  let v1016 : BitVec 32 := Scalar.addi v1015 c1_i32_146
  let c784_i32_147 : BitVec 32 := 784#32
  let v1017 : BitVec 32 := Scalar.muli v1016 c784_i32_147
  let v1034 : BitVec 32 := Scalar.addi v1017 c0_i32_164
  let v1035 : Index := Scalar.indexCast v1034
  ![v1035.toNat]
def k1_off6 (k1_t2 : Fin k1_t2_loop.trips) : Fin 1 → Nat :=
  let c0_i32_30 : BitVec 32 := 0#32
  let c1_i32_31 : BitVec 32 := 1#32
  let arg14 : BitVec 32 := Scf.iv c0_i32_30 c1_i32_31 k1_t2
  let c16_i32_234 : BitVec 32 := 16#32
  let v1398 : BitVec 32 := Scalar.muli arg14 c16_i32_234
  let v1461 : Index := Scalar.indexCast v1398
  ![v1461.toNat]
def k1_cond1 (k1_t1 : Fin k1_t1_loop.trips) : BitVec 1 :=
  let c0_i32_23 : BitVec 32 := 0#32
  let c1_i32_25 : BitVec 32 := 1#32
  let arg13 : BitVec 32 := Scf.iv c0_i32_23 c1_i32_25 k1_t1
  let c1_i32_33 : BitVec 32 := 1#32
  let v116 : BitVec 32 := Scalar.addi arg13 c1_i32_33
  let c8_i32_34 : BitVec 32 := 8#32
  let v117 : BitVec 1 := Scalar.cmpi .slt v116 c8_i32_34
  let v118 : BitVec 32 := Scalar.extui v117
  let c0_i32_35 : BitVec 32 := 0#32
  let v119 : BitVec 1 := Scalar.cmpi .ne v118 c0_i32_35
  v119

def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_23 : BitVec 32 := 0#32
  let c1_i32_25 : BitVec 32 := 1#32
  let arg13 : BitVec 32 := Scf.iv c0_i32_23 c1_i32_25 k1_t1
  let v110 : BitVec 32 := Scalar.addi v2 arg13
  let c1_i32_105 : BitVec 32 := 1#32
  let v633 : BitVec 32 := Scalar.addi v110 c1_i32_105
  let c0_i32_106 : BitVec 32 := 0#32
  ![v633.toNat, 0]
def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_23 : BitVec 32 := 0#32
  let c1_i32_25 : BitVec 32 := 1#32
  let arg13 : BitVec 32 := Scf.iv c0_i32_23 c1_i32_25 k1_t1
  let v110 : BitVec 32 := Scalar.addi v2 arg13
  let c50176_i32_36 : BitVec 32 := 50176#32
  ![v110.toNat, 50176]
@[reducible] def k1_t3_loop : Scf.Loop 32 :=
  let c0_i32_39 : BitVec 32 := 0#32
  let c31_i32 : BitVec 32 := 31#32
  let v124 : BitVec 32 := Scalar.addi c0_i32_39 c31_i32
  let c1_i32_40 : BitVec 32 := 1#32
  ⟨c0_i32_39, v124, c1_i32_40⟩
def k1_off9 (k1_t3 : Fin k1_t3_loop.trips) (c0_i32_122 : BitVec 32) : Fin 1 → Nat :=
  let c2_i32_105 : BitVec 32 := 2#32
  let c0_i32_39 : BitVec 32 := 0#32
  let c1_i32_40 : BitVec 32 := 1#32
  let arg14 : BitVec 32 := Scf.iv c0_i32_39 c1_i32_40 k1_t3
  let v633 : BitVec 32 := Scalar.muli c2_i32_105 arg14
  let c784_i32 : BitVec 32 := 784#32
  let v634 : BitVec 32 := Scalar.muli v633 c784_i32
  let v651 : BitVec 32 := Scalar.addi v634 c0_i32_122
  let v652 : Index := Scalar.indexCast v651
  ![v652.toNat]
def k1_off10 (k1_t3 : Fin k1_t3_loop.trips) (c0_i32_164 : BitVec 32) : Fin 1 → Nat :=
  let c2_i32_145 : BitVec 32 := 2#32
  let c0_i32_39 : BitVec 32 := 0#32
  let c1_i32_40 : BitVec 32 := 1#32
  let arg14 : BitVec 32 := Scf.iv c0_i32_39 c1_i32_40 k1_t3
  let v1015 : BitVec 32 := Scalar.muli c2_i32_145 arg14
  let c1_i32_146 : BitVec 32 := 1#32
  let v1016 : BitVec 32 := Scalar.addi v1015 c1_i32_146
  let c784_i32_147 : BitVec 32 := 784#32
  let v1017 : BitVec 32 := Scalar.muli v1016 c784_i32_147
  let v1034 : BitVec 32 := Scalar.addi v1017 c0_i32_164
  let v1035 : Index := Scalar.indexCast v1034
  ![v1035.toNat]
def k1_off11 (k1_t3 : Fin k1_t3_loop.trips) : Fin 1 → Nat :=
  let c512_i32_235 : BitVec 32 := 512#32
  let c0_i32_39 : BitVec 32 := 0#32
  let c1_i32_40 : BitVec 32 := 1#32
  let arg14 : BitVec 32 := Scf.iv c0_i32_39 c1_i32_40 k1_t3
  let c16_i32_234 : BitVec 32 := 16#32
  let v1398 : BitVec 32 := Scalar.muli arg14 c16_i32_234
  let v1399 : BitVec 32 := Scalar.addi c512_i32_235 v1398
  let v1462 : Index := Scalar.indexCast v1399
  ![v1462.toNat]

def k1_chk1 (v6 : IVec S16 32) : Prop :=
  (∀ a x, ((![v6] : Fin 1 → IVec S16 32) a x).toNat < S272.size a) ∧
  (∀ a x, ((![v6] : Fin 1 → IVec S16 32) a x).toNat < S272.size a) ∧
  (∀ a x, ((![v6] : Fin 1 → IVec S16 32) a x).toNat < S272.size a) ∧
  (∀ a x, ((![v6] : Fin 1 → IVec S16 32) a x).toNat < S272.size a) ∧
  (∀ a x, ((![v6] : Fin 1 → IVec S16 32) a x).toNat < S272.size a) ∧
  (∀ a x, ((![v6] : Fin 1 → IVec S16 32) a x).toNat < S272.size a)
instance k1_chk1.dec : ∀ (v6 : IVec S16 32), Decidable (k1_chk1 v6) := fun v6 => decidable_of_iff' _ (Iff.of_eq (k1_chk1.eq_1 v6))
theorem k1_idx1_inb : ∀ (v6 : IVec S16 32) (k1_hw1 : k1_chk1 v6), ∀ a x, ((![v6] : Fin 1 → IVec S16 32) a x).toNat < S272.size a := fun v6 k1_hw1 => k1_hw1.1
theorem k1_idx2_inb : ∀ (v6 : IVec S16 32) (k1_hw1 : k1_chk1 v6), ∀ a x, ((![v6] : Fin 1 → IVec S16 32) a x).toNat < S272.size a := fun v6 k1_hw1 => k1_hw1.2.1
theorem k1_idx65_inb : ∀ (v6 : IVec S16 32) (k1_hw1 : k1_chk1 v6), ∀ a x, ((![v6] : Fin 1 → IVec S16 32) a x).toNat < S272.size a := fun v6 k1_hw1 => k1_hw1.2.2.1
theorem k1_idx66_inb : ∀ (v6 : IVec S16 32) (k1_hw1 : k1_chk1 v6), ∀ a x, ((![v6] : Fin 1 → IVec S16 32) a x).toNat < S272.size a := fun v6 k1_hw1 => k1_hw1.2.2.2.1
theorem k1_idx129_inb : ∀ (v6 : IVec S16 32) (k1_hw1 : k1_chk1 v6), ∀ a x, ((![v6] : Fin 1 → IVec S16 32) a x).toNat < S272.size a := fun v6 k1_hw1 => k1_hw1.2.2.2.2.1
theorem k1_idx130_inb : ∀ (v6 : IVec S16 32) (k1_hw1 : k1_chk1 v6), ∀ a x, ((![v6] : Fin 1 → IVec S16 32) a x).toNat < S272.size a := fun v6 k1_hw1 => k1_hw1.2.2.2.2.2

def k1_chk2 (v8 : IVec S16 32) : Prop :=
  (∀ a x, ((![v8] : Fin 1 → IVec S16 32) a x).toNat < S272.size a) ∧
  (∀ a x, ((![v8] : Fin 1 → IVec S16 32) a x).toNat < S272.size a) ∧
  (∀ a x, ((![v8] : Fin 1 → IVec S16 32) a x).toNat < S272.size a) ∧
  (∀ a x, ((![v8] : Fin 1 → IVec S16 32) a x).toNat < S272.size a) ∧
  (∀ a x, ((![v8] : Fin 1 → IVec S16 32) a x).toNat < S272.size a) ∧
  (∀ a x, ((![v8] : Fin 1 → IVec S16 32) a x).toNat < S272.size a)
instance k1_chk2.dec : ∀ (v8 : IVec S16 32), Decidable (k1_chk2 v8) := fun v8 => decidable_of_iff' _ (Iff.of_eq (k1_chk2.eq_1 v8))
theorem k1_idx3_inb : ∀ (v8 : IVec S16 32) (k1_hw2 : k1_chk2 v8), ∀ a x, ((![v8] : Fin 1 → IVec S16 32) a x).toNat < S272.size a := fun v8 k1_hw2 => k1_hw2.1
theorem k1_idx4_inb : ∀ (v8 : IVec S16 32) (k1_hw2 : k1_chk2 v8), ∀ a x, ((![v8] : Fin 1 → IVec S16 32) a x).toNat < S272.size a := fun v8 k1_hw2 => k1_hw2.2.1
theorem k1_idx67_inb : ∀ (v8 : IVec S16 32) (k1_hw2 : k1_chk2 v8), ∀ a x, ((![v8] : Fin 1 → IVec S16 32) a x).toNat < S272.size a := fun v8 k1_hw2 => k1_hw2.2.2.1
theorem k1_idx68_inb : ∀ (v8 : IVec S16 32) (k1_hw2 : k1_chk2 v8), ∀ a x, ((![v8] : Fin 1 → IVec S16 32) a x).toNat < S272.size a := fun v8 k1_hw2 => k1_hw2.2.2.2.1
theorem k1_idx131_inb : ∀ (v8 : IVec S16 32) (k1_hw2 : k1_chk2 v8), ∀ a x, ((![v8] : Fin 1 → IVec S16 32) a x).toNat < S272.size a := fun v8 k1_hw2 => k1_hw2.2.2.2.2.1
theorem k1_idx132_inb : ∀ (v8 : IVec S16 32) (k1_hw2 : k1_chk2 v8), ∀ a x, ((![v8] : Fin 1 → IVec S16 32) a x).toNat < S272.size a := fun v8 k1_hw2 => k1_hw2.2.2.2.2.2

def k1_chk3 (v10 : IVec S16 32) : Prop :=
  (∀ a x, ((![v10] : Fin 1 → IVec S16 32) a x).toNat < S272.size a) ∧
  (∀ a x, ((![v10] : Fin 1 → IVec S16 32) a x).toNat < S272.size a) ∧
  (∀ a x, ((![v10] : Fin 1 → IVec S16 32) a x).toNat < S272.size a) ∧
  (∀ a x, ((![v10] : Fin 1 → IVec S16 32) a x).toNat < S272.size a) ∧
  (∀ a x, ((![v10] : Fin 1 → IVec S16 32) a x).toNat < S272.size a) ∧
  (∀ a x, ((![v10] : Fin 1 → IVec S16 32) a x).toNat < S272.size a)
instance k1_chk3.dec : ∀ (v10 : IVec S16 32), Decidable (k1_chk3 v10) := fun v10 => decidable_of_iff' _ (Iff.of_eq (k1_chk3.eq_1 v10))
theorem k1_idx5_inb : ∀ (v10 : IVec S16 32) (k1_hw3 : k1_chk3 v10), ∀ a x, ((![v10] : Fin 1 → IVec S16 32) a x).toNat < S272.size a := fun v10 k1_hw3 => k1_hw3.1
theorem k1_idx6_inb : ∀ (v10 : IVec S16 32) (k1_hw3 : k1_chk3 v10), ∀ a x, ((![v10] : Fin 1 → IVec S16 32) a x).toNat < S272.size a := fun v10 k1_hw3 => k1_hw3.2.1
theorem k1_idx69_inb : ∀ (v10 : IVec S16 32) (k1_hw3 : k1_chk3 v10), ∀ a x, ((![v10] : Fin 1 → IVec S16 32) a x).toNat < S272.size a := fun v10 k1_hw3 => k1_hw3.2.2.1
theorem k1_idx70_inb : ∀ (v10 : IVec S16 32) (k1_hw3 : k1_chk3 v10), ∀ a x, ((![v10] : Fin 1 → IVec S16 32) a x).toNat < S272.size a := fun v10 k1_hw3 => k1_hw3.2.2.2.1
theorem k1_idx133_inb : ∀ (v10 : IVec S16 32) (k1_hw3 : k1_chk3 v10), ∀ a x, ((![v10] : Fin 1 → IVec S16 32) a x).toNat < S272.size a := fun v10 k1_hw3 => k1_hw3.2.2.2.2.1
theorem k1_idx134_inb : ∀ (v10 : IVec S16 32) (k1_hw3 : k1_chk3 v10), ∀ a x, ((![v10] : Fin 1 → IVec S16 32) a x).toNat < S272.size a := fun v10 k1_hw3 => k1_hw3.2.2.2.2.2

def k1_chk4 (v12 : IVec S16 32) : Prop :=
  (∀ a x, ((![v12] : Fin 1 → IVec S16 32) a x).toNat < S272.size a) ∧
  (∀ a x, ((![v12] : Fin 1 → IVec S16 32) a x).toNat < S272.size a) ∧
  (∀ a x, ((![v12] : Fin 1 → IVec S16 32) a x).toNat < S272.size a) ∧
  (∀ a x, ((![v12] : Fin 1 → IVec S16 32) a x).toNat < S272.size a) ∧
  (∀ a x, ((![v12] : Fin 1 → IVec S16 32) a x).toNat < S272.size a) ∧
  (∀ a x, ((![v12] : Fin 1 → IVec S16 32) a x).toNat < S272.size a)
instance k1_chk4.dec : ∀ (v12 : IVec S16 32), Decidable (k1_chk4 v12) := fun v12 => decidable_of_iff' _ (Iff.of_eq (k1_chk4.eq_1 v12))
theorem k1_idx7_inb : ∀ (v12 : IVec S16 32) (k1_hw4 : k1_chk4 v12), ∀ a x, ((![v12] : Fin 1 → IVec S16 32) a x).toNat < S272.size a := fun v12 k1_hw4 => k1_hw4.1
theorem k1_idx8_inb : ∀ (v12 : IVec S16 32) (k1_hw4 : k1_chk4 v12), ∀ a x, ((![v12] : Fin 1 → IVec S16 32) a x).toNat < S272.size a := fun v12 k1_hw4 => k1_hw4.2.1
theorem k1_idx71_inb : ∀ (v12 : IVec S16 32) (k1_hw4 : k1_chk4 v12), ∀ a x, ((![v12] : Fin 1 → IVec S16 32) a x).toNat < S272.size a := fun v12 k1_hw4 => k1_hw4.2.2.1
theorem k1_idx72_inb : ∀ (v12 : IVec S16 32) (k1_hw4 : k1_chk4 v12), ∀ a x, ((![v12] : Fin 1 → IVec S16 32) a x).toNat < S272.size a := fun v12 k1_hw4 => k1_hw4.2.2.2.1
theorem k1_idx135_inb : ∀ (v12 : IVec S16 32) (k1_hw4 : k1_chk4 v12), ∀ a x, ((![v12] : Fin 1 → IVec S16 32) a x).toNat < S272.size a := fun v12 k1_hw4 => k1_hw4.2.2.2.2.1
theorem k1_idx136_inb : ∀ (v12 : IVec S16 32) (k1_hw4 : k1_chk4 v12), ∀ a x, ((![v12] : Fin 1 → IVec S16 32) a x).toNat < S272.size a := fun v12 k1_hw4 => k1_hw4.2.2.2.2.2

def k1_chk5 (v14 : IVec S16 32) : Prop :=
  (∀ a x, ((![v14] : Fin 1 → IVec S16 32) a x).toNat < S272.size a) ∧
  (∀ a x, ((![v14] : Fin 1 → IVec S16 32) a x).toNat < S272.size a) ∧
  (∀ a x, ((![v14] : Fin 1 → IVec S16 32) a x).toNat < S272.size a) ∧
  (∀ a x, ((![v14] : Fin 1 → IVec S16 32) a x).toNat < S272.size a) ∧
  (∀ a x, ((![v14] : Fin 1 → IVec S16 32) a x).toNat < S272.size a) ∧
  (∀ a x, ((![v14] : Fin 1 → IVec S16 32) a x).toNat < S272.size a)
instance k1_chk5.dec : ∀ (v14 : IVec S16 32), Decidable (k1_chk5 v14) := fun v14 => decidable_of_iff' _ (Iff.of_eq (k1_chk5.eq_1 v14))
theorem k1_idx9_inb : ∀ (v14 : IVec S16 32) (k1_hw5 : k1_chk5 v14), ∀ a x, ((![v14] : Fin 1 → IVec S16 32) a x).toNat < S272.size a := fun v14 k1_hw5 => k1_hw5.1
theorem k1_idx10_inb : ∀ (v14 : IVec S16 32) (k1_hw5 : k1_chk5 v14), ∀ a x, ((![v14] : Fin 1 → IVec S16 32) a x).toNat < S272.size a := fun v14 k1_hw5 => k1_hw5.2.1
theorem k1_idx73_inb : ∀ (v14 : IVec S16 32) (k1_hw5 : k1_chk5 v14), ∀ a x, ((![v14] : Fin 1 → IVec S16 32) a x).toNat < S272.size a := fun v14 k1_hw5 => k1_hw5.2.2.1
theorem k1_idx74_inb : ∀ (v14 : IVec S16 32) (k1_hw5 : k1_chk5 v14), ∀ a x, ((![v14] : Fin 1 → IVec S16 32) a x).toNat < S272.size a := fun v14 k1_hw5 => k1_hw5.2.2.2.1
theorem k1_idx137_inb : ∀ (v14 : IVec S16 32) (k1_hw5 : k1_chk5 v14), ∀ a x, ((![v14] : Fin 1 → IVec S16 32) a x).toNat < S272.size a := fun v14 k1_hw5 => k1_hw5.2.2.2.2.1
theorem k1_idx138_inb : ∀ (v14 : IVec S16 32) (k1_hw5 : k1_chk5 v14), ∀ a x, ((![v14] : Fin 1 → IVec S16 32) a x).toNat < S272.size a := fun v14 k1_hw5 => k1_hw5.2.2.2.2.2

def k1_chk6 (v16 : IVec S16 32) : Prop :=
  (∀ a x, ((![v16] : Fin 1 → IVec S16 32) a x).toNat < S272.size a) ∧
  (∀ a x, ((![v16] : Fin 1 → IVec S16 32) a x).toNat < S272.size a) ∧
  (∀ a x, ((![v16] : Fin 1 → IVec S16 32) a x).toNat < S272.size a) ∧
  (∀ a x, ((![v16] : Fin 1 → IVec S16 32) a x).toNat < S272.size a) ∧
  (∀ a x, ((![v16] : Fin 1 → IVec S16 32) a x).toNat < S272.size a) ∧
  (∀ a x, ((![v16] : Fin 1 → IVec S16 32) a x).toNat < S272.size a)
instance k1_chk6.dec : ∀ (v16 : IVec S16 32), Decidable (k1_chk6 v16) := fun v16 => decidable_of_iff' _ (Iff.of_eq (k1_chk6.eq_1 v16))
theorem k1_idx11_inb : ∀ (v16 : IVec S16 32) (k1_hw6 : k1_chk6 v16), ∀ a x, ((![v16] : Fin 1 → IVec S16 32) a x).toNat < S272.size a := fun v16 k1_hw6 => k1_hw6.1
theorem k1_idx12_inb : ∀ (v16 : IVec S16 32) (k1_hw6 : k1_chk6 v16), ∀ a x, ((![v16] : Fin 1 → IVec S16 32) a x).toNat < S272.size a := fun v16 k1_hw6 => k1_hw6.2.1
theorem k1_idx75_inb : ∀ (v16 : IVec S16 32) (k1_hw6 : k1_chk6 v16), ∀ a x, ((![v16] : Fin 1 → IVec S16 32) a x).toNat < S272.size a := fun v16 k1_hw6 => k1_hw6.2.2.1
theorem k1_idx76_inb : ∀ (v16 : IVec S16 32) (k1_hw6 : k1_chk6 v16), ∀ a x, ((![v16] : Fin 1 → IVec S16 32) a x).toNat < S272.size a := fun v16 k1_hw6 => k1_hw6.2.2.2.1
theorem k1_idx139_inb : ∀ (v16 : IVec S16 32) (k1_hw6 : k1_chk6 v16), ∀ a x, ((![v16] : Fin 1 → IVec S16 32) a x).toNat < S272.size a := fun v16 k1_hw6 => k1_hw6.2.2.2.2.1
theorem k1_idx140_inb : ∀ (v16 : IVec S16 32) (k1_hw6 : k1_chk6 v16), ∀ a x, ((![v16] : Fin 1 → IVec S16 32) a x).toNat < S272.size a := fun v16 k1_hw6 => k1_hw6.2.2.2.2.2

def k1_chk7 (v18 : IVec S16 32) : Prop :=
  (∀ a x, ((![v18] : Fin 1 → IVec S16 32) a x).toNat < S272.size a) ∧
  (∀ a x, ((![v18] : Fin 1 → IVec S16 32) a x).toNat < S272.size a) ∧
  (∀ a x, ((![v18] : Fin 1 → IVec S16 32) a x).toNat < S272.size a) ∧
  (∀ a x, ((![v18] : Fin 1 → IVec S16 32) a x).toNat < S272.size a) ∧
  (∀ a x, ((![v18] : Fin 1 → IVec S16 32) a x).toNat < S272.size a) ∧
  (∀ a x, ((![v18] : Fin 1 → IVec S16 32) a x).toNat < S272.size a)
instance k1_chk7.dec : ∀ (v18 : IVec S16 32), Decidable (k1_chk7 v18) := fun v18 => decidable_of_iff' _ (Iff.of_eq (k1_chk7.eq_1 v18))
theorem k1_idx13_inb : ∀ (v18 : IVec S16 32) (k1_hw7 : k1_chk7 v18), ∀ a x, ((![v18] : Fin 1 → IVec S16 32) a x).toNat < S272.size a := fun v18 k1_hw7 => k1_hw7.1
theorem k1_idx14_inb : ∀ (v18 : IVec S16 32) (k1_hw7 : k1_chk7 v18), ∀ a x, ((![v18] : Fin 1 → IVec S16 32) a x).toNat < S272.size a := fun v18 k1_hw7 => k1_hw7.2.1
theorem k1_idx77_inb : ∀ (v18 : IVec S16 32) (k1_hw7 : k1_chk7 v18), ∀ a x, ((![v18] : Fin 1 → IVec S16 32) a x).toNat < S272.size a := fun v18 k1_hw7 => k1_hw7.2.2.1
theorem k1_idx78_inb : ∀ (v18 : IVec S16 32) (k1_hw7 : k1_chk7 v18), ∀ a x, ((![v18] : Fin 1 → IVec S16 32) a x).toNat < S272.size a := fun v18 k1_hw7 => k1_hw7.2.2.2.1
theorem k1_idx141_inb : ∀ (v18 : IVec S16 32) (k1_hw7 : k1_chk7 v18), ∀ a x, ((![v18] : Fin 1 → IVec S16 32) a x).toNat < S272.size a := fun v18 k1_hw7 => k1_hw7.2.2.2.2.1
theorem k1_idx142_inb : ∀ (v18 : IVec S16 32) (k1_hw7 : k1_chk7 v18), ∀ a x, ((![v18] : Fin 1 → IVec S16 32) a x).toNat < S272.size a := fun v18 k1_hw7 => k1_hw7.2.2.2.2.2

def k1_chk8 (v20 : IVec S16 32) : Prop :=
  (∀ a x, ((![v20] : Fin 1 → IVec S16 32) a x).toNat < S272.size a) ∧
  (∀ a x, ((![v20] : Fin 1 → IVec S16 32) a x).toNat < S272.size a) ∧
  (∀ a x, ((![v20] : Fin 1 → IVec S16 32) a x).toNat < S272.size a) ∧
  (∀ a x, ((![v20] : Fin 1 → IVec S16 32) a x).toNat < S272.size a) ∧
  (∀ a x, ((![v20] : Fin 1 → IVec S16 32) a x).toNat < S272.size a) ∧
  (∀ a x, ((![v20] : Fin 1 → IVec S16 32) a x).toNat < S272.size a)
instance k1_chk8.dec : ∀ (v20 : IVec S16 32), Decidable (k1_chk8 v20) := fun v20 => decidable_of_iff' _ (Iff.of_eq (k1_chk8.eq_1 v20))
theorem k1_idx15_inb : ∀ (v20 : IVec S16 32) (k1_hw8 : k1_chk8 v20), ∀ a x, ((![v20] : Fin 1 → IVec S16 32) a x).toNat < S272.size a := fun v20 k1_hw8 => k1_hw8.1
theorem k1_idx16_inb : ∀ (v20 : IVec S16 32) (k1_hw8 : k1_chk8 v20), ∀ a x, ((![v20] : Fin 1 → IVec S16 32) a x).toNat < S272.size a := fun v20 k1_hw8 => k1_hw8.2.1
theorem k1_idx79_inb : ∀ (v20 : IVec S16 32) (k1_hw8 : k1_chk8 v20), ∀ a x, ((![v20] : Fin 1 → IVec S16 32) a x).toNat < S272.size a := fun v20 k1_hw8 => k1_hw8.2.2.1
theorem k1_idx80_inb : ∀ (v20 : IVec S16 32) (k1_hw8 : k1_chk8 v20), ∀ a x, ((![v20] : Fin 1 → IVec S16 32) a x).toNat < S272.size a := fun v20 k1_hw8 => k1_hw8.2.2.2.1
theorem k1_idx143_inb : ∀ (v20 : IVec S16 32) (k1_hw8 : k1_chk8 v20), ∀ a x, ((![v20] : Fin 1 → IVec S16 32) a x).toNat < S272.size a := fun v20 k1_hw8 => k1_hw8.2.2.2.2.1
theorem k1_idx144_inb : ∀ (v20 : IVec S16 32) (k1_hw8 : k1_chk8 v20), ∀ a x, ((![v20] : Fin 1 → IVec S16 32) a x).toNat < S272.size a := fun v20 k1_hw8 => k1_hw8.2.2.2.2.2

def k1_chk9 (v22 : IVec S16 32) : Prop :=
  (∀ a x, ((![v22] : Fin 1 → IVec S16 32) a x).toNat < S272.size a) ∧
  (∀ a x, ((![v22] : Fin 1 → IVec S16 32) a x).toNat < S272.size a) ∧
  (∀ a x, ((![v22] : Fin 1 → IVec S16 32) a x).toNat < S272.size a) ∧
  (∀ a x, ((![v22] : Fin 1 → IVec S16 32) a x).toNat < S272.size a) ∧
  (∀ a x, ((![v22] : Fin 1 → IVec S16 32) a x).toNat < S272.size a) ∧
  (∀ a x, ((![v22] : Fin 1 → IVec S16 32) a x).toNat < S272.size a)
instance k1_chk9.dec : ∀ (v22 : IVec S16 32), Decidable (k1_chk9 v22) := fun v22 => decidable_of_iff' _ (Iff.of_eq (k1_chk9.eq_1 v22))
theorem k1_idx17_inb : ∀ (v22 : IVec S16 32) (k1_hw9 : k1_chk9 v22), ∀ a x, ((![v22] : Fin 1 → IVec S16 32) a x).toNat < S272.size a := fun v22 k1_hw9 => k1_hw9.1
theorem k1_idx18_inb : ∀ (v22 : IVec S16 32) (k1_hw9 : k1_chk9 v22), ∀ a x, ((![v22] : Fin 1 → IVec S16 32) a x).toNat < S272.size a := fun v22 k1_hw9 => k1_hw9.2.1
theorem k1_idx81_inb : ∀ (v22 : IVec S16 32) (k1_hw9 : k1_chk9 v22), ∀ a x, ((![v22] : Fin 1 → IVec S16 32) a x).toNat < S272.size a := fun v22 k1_hw9 => k1_hw9.2.2.1
theorem k1_idx82_inb : ∀ (v22 : IVec S16 32) (k1_hw9 : k1_chk9 v22), ∀ a x, ((![v22] : Fin 1 → IVec S16 32) a x).toNat < S272.size a := fun v22 k1_hw9 => k1_hw9.2.2.2.1
theorem k1_idx145_inb : ∀ (v22 : IVec S16 32) (k1_hw9 : k1_chk9 v22), ∀ a x, ((![v22] : Fin 1 → IVec S16 32) a x).toNat < S272.size a := fun v22 k1_hw9 => k1_hw9.2.2.2.2.1
theorem k1_idx146_inb : ∀ (v22 : IVec S16 32) (k1_hw9 : k1_chk9 v22), ∀ a x, ((![v22] : Fin 1 → IVec S16 32) a x).toNat < S272.size a := fun v22 k1_hw9 => k1_hw9.2.2.2.2.2

def k1_chk10 (v24 : IVec S16 32) : Prop :=
  (∀ a x, ((![v24] : Fin 1 → IVec S16 32) a x).toNat < S272.size a) ∧
  (∀ a x, ((![v24] : Fin 1 → IVec S16 32) a x).toNat < S272.size a) ∧
  (∀ a x, ((![v24] : Fin 1 → IVec S16 32) a x).toNat < S272.size a) ∧
  (∀ a x, ((![v24] : Fin 1 → IVec S16 32) a x).toNat < S272.size a) ∧
  (∀ a x, ((![v24] : Fin 1 → IVec S16 32) a x).toNat < S272.size a) ∧
  (∀ a x, ((![v24] : Fin 1 → IVec S16 32) a x).toNat < S272.size a)
instance k1_chk10.dec : ∀ (v24 : IVec S16 32), Decidable (k1_chk10 v24) := fun v24 => decidable_of_iff' _ (Iff.of_eq (k1_chk10.eq_1 v24))
theorem k1_idx19_inb : ∀ (v24 : IVec S16 32) (k1_hw10 : k1_chk10 v24), ∀ a x, ((![v24] : Fin 1 → IVec S16 32) a x).toNat < S272.size a := fun v24 k1_hw10 => k1_hw10.1
theorem k1_idx20_inb : ∀ (v24 : IVec S16 32) (k1_hw10 : k1_chk10 v24), ∀ a x, ((![v24] : Fin 1 → IVec S16 32) a x).toNat < S272.size a := fun v24 k1_hw10 => k1_hw10.2.1
theorem k1_idx83_inb : ∀ (v24 : IVec S16 32) (k1_hw10 : k1_chk10 v24), ∀ a x, ((![v24] : Fin 1 → IVec S16 32) a x).toNat < S272.size a := fun v24 k1_hw10 => k1_hw10.2.2.1
theorem k1_idx84_inb : ∀ (v24 : IVec S16 32) (k1_hw10 : k1_chk10 v24), ∀ a x, ((![v24] : Fin 1 → IVec S16 32) a x).toNat < S272.size a := fun v24 k1_hw10 => k1_hw10.2.2.2.1
theorem k1_idx147_inb : ∀ (v24 : IVec S16 32) (k1_hw10 : k1_chk10 v24), ∀ a x, ((![v24] : Fin 1 → IVec S16 32) a x).toNat < S272.size a := fun v24 k1_hw10 => k1_hw10.2.2.2.2.1
theorem k1_idx148_inb : ∀ (v24 : IVec S16 32) (k1_hw10 : k1_chk10 v24), ∀ a x, ((![v24] : Fin 1 → IVec S16 32) a x).toNat < S272.size a := fun v24 k1_hw10 => k1_hw10.2.2.2.2.2

def k1_chk11 (v26 : IVec S16 32) : Prop :=
  (∀ a x, ((![v26] : Fin 1 → IVec S16 32) a x).toNat < S272.size a) ∧
  (∀ a x, ((![v26] : Fin 1 → IVec S16 32) a x).toNat < S272.size a) ∧
  (∀ a x, ((![v26] : Fin 1 → IVec S16 32) a x).toNat < S272.size a) ∧
  (∀ a x, ((![v26] : Fin 1 → IVec S16 32) a x).toNat < S272.size a) ∧
  (∀ a x, ((![v26] : Fin 1 → IVec S16 32) a x).toNat < S272.size a) ∧
  (∀ a x, ((![v26] : Fin 1 → IVec S16 32) a x).toNat < S272.size a)
instance k1_chk11.dec : ∀ (v26 : IVec S16 32), Decidable (k1_chk11 v26) := fun v26 => decidable_of_iff' _ (Iff.of_eq (k1_chk11.eq_1 v26))
theorem k1_idx21_inb : ∀ (v26 : IVec S16 32) (k1_hw11 : k1_chk11 v26), ∀ a x, ((![v26] : Fin 1 → IVec S16 32) a x).toNat < S272.size a := fun v26 k1_hw11 => k1_hw11.1
theorem k1_idx22_inb : ∀ (v26 : IVec S16 32) (k1_hw11 : k1_chk11 v26), ∀ a x, ((![v26] : Fin 1 → IVec S16 32) a x).toNat < S272.size a := fun v26 k1_hw11 => k1_hw11.2.1
theorem k1_idx85_inb : ∀ (v26 : IVec S16 32) (k1_hw11 : k1_chk11 v26), ∀ a x, ((![v26] : Fin 1 → IVec S16 32) a x).toNat < S272.size a := fun v26 k1_hw11 => k1_hw11.2.2.1
theorem k1_idx86_inb : ∀ (v26 : IVec S16 32) (k1_hw11 : k1_chk11 v26), ∀ a x, ((![v26] : Fin 1 → IVec S16 32) a x).toNat < S272.size a := fun v26 k1_hw11 => k1_hw11.2.2.2.1
theorem k1_idx149_inb : ∀ (v26 : IVec S16 32) (k1_hw11 : k1_chk11 v26), ∀ a x, ((![v26] : Fin 1 → IVec S16 32) a x).toNat < S272.size a := fun v26 k1_hw11 => k1_hw11.2.2.2.2.1
theorem k1_idx150_inb : ∀ (v26 : IVec S16 32) (k1_hw11 : k1_chk11 v26), ∀ a x, ((![v26] : Fin 1 → IVec S16 32) a x).toNat < S272.size a := fun v26 k1_hw11 => k1_hw11.2.2.2.2.2

def k1_chk12 (v28 : IVec S16 32) : Prop :=
  (∀ a x, ((![v28] : Fin 1 → IVec S16 32) a x).toNat < S272.size a) ∧
  (∀ a x, ((![v28] : Fin 1 → IVec S16 32) a x).toNat < S272.size a) ∧
  (∀ a x, ((![v28] : Fin 1 → IVec S16 32) a x).toNat < S272.size a) ∧
  (∀ a x, ((![v28] : Fin 1 → IVec S16 32) a x).toNat < S272.size a) ∧
  (∀ a x, ((![v28] : Fin 1 → IVec S16 32) a x).toNat < S272.size a) ∧
  (∀ a x, ((![v28] : Fin 1 → IVec S16 32) a x).toNat < S272.size a)
instance k1_chk12.dec : ∀ (v28 : IVec S16 32), Decidable (k1_chk12 v28) := fun v28 => decidable_of_iff' _ (Iff.of_eq (k1_chk12.eq_1 v28))
theorem k1_idx23_inb : ∀ (v28 : IVec S16 32) (k1_hw12 : k1_chk12 v28), ∀ a x, ((![v28] : Fin 1 → IVec S16 32) a x).toNat < S272.size a := fun v28 k1_hw12 => k1_hw12.1
theorem k1_idx24_inb : ∀ (v28 : IVec S16 32) (k1_hw12 : k1_chk12 v28), ∀ a x, ((![v28] : Fin 1 → IVec S16 32) a x).toNat < S272.size a := fun v28 k1_hw12 => k1_hw12.2.1
theorem k1_idx87_inb : ∀ (v28 : IVec S16 32) (k1_hw12 : k1_chk12 v28), ∀ a x, ((![v28] : Fin 1 → IVec S16 32) a x).toNat < S272.size a := fun v28 k1_hw12 => k1_hw12.2.2.1
theorem k1_idx88_inb : ∀ (v28 : IVec S16 32) (k1_hw12 : k1_chk12 v28), ∀ a x, ((![v28] : Fin 1 → IVec S16 32) a x).toNat < S272.size a := fun v28 k1_hw12 => k1_hw12.2.2.2.1
theorem k1_idx151_inb : ∀ (v28 : IVec S16 32) (k1_hw12 : k1_chk12 v28), ∀ a x, ((![v28] : Fin 1 → IVec S16 32) a x).toNat < S272.size a := fun v28 k1_hw12 => k1_hw12.2.2.2.2.1
theorem k1_idx152_inb : ∀ (v28 : IVec S16 32) (k1_hw12 : k1_chk12 v28), ∀ a x, ((![v28] : Fin 1 → IVec S16 32) a x).toNat < S272.size a := fun v28 k1_hw12 => k1_hw12.2.2.2.2.2

def k1_chk13 (v30 : IVec S16 32) : Prop :=
  (∀ a x, ((![v30] : Fin 1 → IVec S16 32) a x).toNat < S272.size a) ∧
  (∀ a x, ((![v30] : Fin 1 → IVec S16 32) a x).toNat < S272.size a) ∧
  (∀ a x, ((![v30] : Fin 1 → IVec S16 32) a x).toNat < S272.size a) ∧
  (∀ a x, ((![v30] : Fin 1 → IVec S16 32) a x).toNat < S272.size a) ∧
  (∀ a x, ((![v30] : Fin 1 → IVec S16 32) a x).toNat < S272.size a) ∧
  (∀ a x, ((![v30] : Fin 1 → IVec S16 32) a x).toNat < S272.size a)
instance k1_chk13.dec : ∀ (v30 : IVec S16 32), Decidable (k1_chk13 v30) := fun v30 => decidable_of_iff' _ (Iff.of_eq (k1_chk13.eq_1 v30))
theorem k1_idx25_inb : ∀ (v30 : IVec S16 32) (k1_hw13 : k1_chk13 v30), ∀ a x, ((![v30] : Fin 1 → IVec S16 32) a x).toNat < S272.size a := fun v30 k1_hw13 => k1_hw13.1
theorem k1_idx26_inb : ∀ (v30 : IVec S16 32) (k1_hw13 : k1_chk13 v30), ∀ a x, ((![v30] : Fin 1 → IVec S16 32) a x).toNat < S272.size a := fun v30 k1_hw13 => k1_hw13.2.1
theorem k1_idx89_inb : ∀ (v30 : IVec S16 32) (k1_hw13 : k1_chk13 v30), ∀ a x, ((![v30] : Fin 1 → IVec S16 32) a x).toNat < S272.size a := fun v30 k1_hw13 => k1_hw13.2.2.1
theorem k1_idx90_inb : ∀ (v30 : IVec S16 32) (k1_hw13 : k1_chk13 v30), ∀ a x, ((![v30] : Fin 1 → IVec S16 32) a x).toNat < S272.size a := fun v30 k1_hw13 => k1_hw13.2.2.2.1
theorem k1_idx153_inb : ∀ (v30 : IVec S16 32) (k1_hw13 : k1_chk13 v30), ∀ a x, ((![v30] : Fin 1 → IVec S16 32) a x).toNat < S272.size a := fun v30 k1_hw13 => k1_hw13.2.2.2.2.1
theorem k1_idx154_inb : ∀ (v30 : IVec S16 32) (k1_hw13 : k1_chk13 v30), ∀ a x, ((![v30] : Fin 1 → IVec S16 32) a x).toNat < S272.size a := fun v30 k1_hw13 => k1_hw13.2.2.2.2.2

def k1_chk14 (v32 : IVec S16 32) : Prop :=
  (∀ a x, ((![v32] : Fin 1 → IVec S16 32) a x).toNat < S272.size a) ∧
  (∀ a x, ((![v32] : Fin 1 → IVec S16 32) a x).toNat < S272.size a) ∧
  (∀ a x, ((![v32] : Fin 1 → IVec S16 32) a x).toNat < S272.size a) ∧
  (∀ a x, ((![v32] : Fin 1 → IVec S16 32) a x).toNat < S272.size a) ∧
  (∀ a x, ((![v32] : Fin 1 → IVec S16 32) a x).toNat < S272.size a) ∧
  (∀ a x, ((![v32] : Fin 1 → IVec S16 32) a x).toNat < S272.size a)
instance k1_chk14.dec : ∀ (v32 : IVec S16 32), Decidable (k1_chk14 v32) := fun v32 => decidable_of_iff' _ (Iff.of_eq (k1_chk14.eq_1 v32))
theorem k1_idx27_inb : ∀ (v32 : IVec S16 32) (k1_hw14 : k1_chk14 v32), ∀ a x, ((![v32] : Fin 1 → IVec S16 32) a x).toNat < S272.size a := fun v32 k1_hw14 => k1_hw14.1
theorem k1_idx28_inb : ∀ (v32 : IVec S16 32) (k1_hw14 : k1_chk14 v32), ∀ a x, ((![v32] : Fin 1 → IVec S16 32) a x).toNat < S272.size a := fun v32 k1_hw14 => k1_hw14.2.1
theorem k1_idx91_inb : ∀ (v32 : IVec S16 32) (k1_hw14 : k1_chk14 v32), ∀ a x, ((![v32] : Fin 1 → IVec S16 32) a x).toNat < S272.size a := fun v32 k1_hw14 => k1_hw14.2.2.1
theorem k1_idx92_inb : ∀ (v32 : IVec S16 32) (k1_hw14 : k1_chk14 v32), ∀ a x, ((![v32] : Fin 1 → IVec S16 32) a x).toNat < S272.size a := fun v32 k1_hw14 => k1_hw14.2.2.2.1
theorem k1_idx155_inb : ∀ (v32 : IVec S16 32) (k1_hw14 : k1_chk14 v32), ∀ a x, ((![v32] : Fin 1 → IVec S16 32) a x).toNat < S272.size a := fun v32 k1_hw14 => k1_hw14.2.2.2.2.1
theorem k1_idx156_inb : ∀ (v32 : IVec S16 32) (k1_hw14 : k1_chk14 v32), ∀ a x, ((![v32] : Fin 1 → IVec S16 32) a x).toNat < S272.size a := fun v32 k1_hw14 => k1_hw14.2.2.2.2.2

def k1_chk15 (v34 : IVec S16 32) : Prop :=
  (∀ a x, ((![v34] : Fin 1 → IVec S16 32) a x).toNat < S272.size a) ∧
  (∀ a x, ((![v34] : Fin 1 → IVec S16 32) a x).toNat < S272.size a) ∧
  (∀ a x, ((![v34] : Fin 1 → IVec S16 32) a x).toNat < S272.size a) ∧
  (∀ a x, ((![v34] : Fin 1 → IVec S16 32) a x).toNat < S272.size a) ∧
  (∀ a x, ((![v34] : Fin 1 → IVec S16 32) a x).toNat < S272.size a) ∧
  (∀ a x, ((![v34] : Fin 1 → IVec S16 32) a x).toNat < S272.size a)
instance k1_chk15.dec : ∀ (v34 : IVec S16 32), Decidable (k1_chk15 v34) := fun v34 => decidable_of_iff' _ (Iff.of_eq (k1_chk15.eq_1 v34))
theorem k1_idx29_inb : ∀ (v34 : IVec S16 32) (k1_hw15 : k1_chk15 v34), ∀ a x, ((![v34] : Fin 1 → IVec S16 32) a x).toNat < S272.size a := fun v34 k1_hw15 => k1_hw15.1
theorem k1_idx30_inb : ∀ (v34 : IVec S16 32) (k1_hw15 : k1_chk15 v34), ∀ a x, ((![v34] : Fin 1 → IVec S16 32) a x).toNat < S272.size a := fun v34 k1_hw15 => k1_hw15.2.1
theorem k1_idx93_inb : ∀ (v34 : IVec S16 32) (k1_hw15 : k1_chk15 v34), ∀ a x, ((![v34] : Fin 1 → IVec S16 32) a x).toNat < S272.size a := fun v34 k1_hw15 => k1_hw15.2.2.1
theorem k1_idx94_inb : ∀ (v34 : IVec S16 32) (k1_hw15 : k1_chk15 v34), ∀ a x, ((![v34] : Fin 1 → IVec S16 32) a x).toNat < S272.size a := fun v34 k1_hw15 => k1_hw15.2.2.2.1
theorem k1_idx157_inb : ∀ (v34 : IVec S16 32) (k1_hw15 : k1_chk15 v34), ∀ a x, ((![v34] : Fin 1 → IVec S16 32) a x).toNat < S272.size a := fun v34 k1_hw15 => k1_hw15.2.2.2.2.1
theorem k1_idx158_inb : ∀ (v34 : IVec S16 32) (k1_hw15 : k1_chk15 v34), ∀ a x, ((![v34] : Fin 1 → IVec S16 32) a x).toNat < S272.size a := fun v34 k1_hw15 => k1_hw15.2.2.2.2.2

def k1_chk16 (v36 : IVec S16 32) : Prop :=
  (∀ a x, ((![v36] : Fin 1 → IVec S16 32) a x).toNat < S272.size a) ∧
  (∀ a x, ((![v36] : Fin 1 → IVec S16 32) a x).toNat < S272.size a) ∧
  (∀ a x, ((![v36] : Fin 1 → IVec S16 32) a x).toNat < S272.size a) ∧
  (∀ a x, ((![v36] : Fin 1 → IVec S16 32) a x).toNat < S272.size a) ∧
  (∀ a x, ((![v36] : Fin 1 → IVec S16 32) a x).toNat < S272.size a) ∧
  (∀ a x, ((![v36] : Fin 1 → IVec S16 32) a x).toNat < S272.size a)
instance k1_chk16.dec : ∀ (v36 : IVec S16 32), Decidable (k1_chk16 v36) := fun v36 => decidable_of_iff' _ (Iff.of_eq (k1_chk16.eq_1 v36))
theorem k1_idx31_inb : ∀ (v36 : IVec S16 32) (k1_hw16 : k1_chk16 v36), ∀ a x, ((![v36] : Fin 1 → IVec S16 32) a x).toNat < S272.size a := fun v36 k1_hw16 => k1_hw16.1
theorem k1_idx32_inb : ∀ (v36 : IVec S16 32) (k1_hw16 : k1_chk16 v36), ∀ a x, ((![v36] : Fin 1 → IVec S16 32) a x).toNat < S272.size a := fun v36 k1_hw16 => k1_hw16.2.1
theorem k1_idx95_inb : ∀ (v36 : IVec S16 32) (k1_hw16 : k1_chk16 v36), ∀ a x, ((![v36] : Fin 1 → IVec S16 32) a x).toNat < S272.size a := fun v36 k1_hw16 => k1_hw16.2.2.1
theorem k1_idx96_inb : ∀ (v36 : IVec S16 32) (k1_hw16 : k1_chk16 v36), ∀ a x, ((![v36] : Fin 1 → IVec S16 32) a x).toNat < S272.size a := fun v36 k1_hw16 => k1_hw16.2.2.2.1
theorem k1_idx159_inb : ∀ (v36 : IVec S16 32) (k1_hw16 : k1_chk16 v36), ∀ a x, ((![v36] : Fin 1 → IVec S16 32) a x).toNat < S272.size a := fun v36 k1_hw16 => k1_hw16.2.2.2.2.1
theorem k1_idx160_inb : ∀ (v36 : IVec S16 32) (k1_hw16 : k1_chk16 v36), ∀ a x, ((![v36] : Fin 1 → IVec S16 32) a x).toNat < S272.size a := fun v36 k1_hw16 => k1_hw16.2.2.2.2.2

def k1_chk17 (v40 : IVec S16 32) : Prop :=
  (∀ a x, ((![v40] : Fin 1 → IVec S16 32) a x).toNat < S272.size a) ∧
  (∀ a x, ((![v40] : Fin 1 → IVec S16 32) a x).toNat < S272.size a) ∧
  (∀ a x, ((![v40] : Fin 1 → IVec S16 32) a x).toNat < S272.size a) ∧
  (∀ a x, ((![v40] : Fin 1 → IVec S16 32) a x).toNat < S272.size a) ∧
  (∀ a x, ((![v40] : Fin 1 → IVec S16 32) a x).toNat < S272.size a) ∧
  (∀ a x, ((![v40] : Fin 1 → IVec S16 32) a x).toNat < S272.size a)
instance k1_chk17.dec : ∀ (v40 : IVec S16 32), Decidable (k1_chk17 v40) := fun v40 => decidable_of_iff' _ (Iff.of_eq (k1_chk17.eq_1 v40))
theorem k1_idx33_inb : ∀ (v40 : IVec S16 32) (k1_hw17 : k1_chk17 v40), ∀ a x, ((![v40] : Fin 1 → IVec S16 32) a x).toNat < S272.size a := fun v40 k1_hw17 => k1_hw17.1
theorem k1_idx34_inb : ∀ (v40 : IVec S16 32) (k1_hw17 : k1_chk17 v40), ∀ a x, ((![v40] : Fin 1 → IVec S16 32) a x).toNat < S272.size a := fun v40 k1_hw17 => k1_hw17.2.1
theorem k1_idx97_inb : ∀ (v40 : IVec S16 32) (k1_hw17 : k1_chk17 v40), ∀ a x, ((![v40] : Fin 1 → IVec S16 32) a x).toNat < S272.size a := fun v40 k1_hw17 => k1_hw17.2.2.1
theorem k1_idx98_inb : ∀ (v40 : IVec S16 32) (k1_hw17 : k1_chk17 v40), ∀ a x, ((![v40] : Fin 1 → IVec S16 32) a x).toNat < S272.size a := fun v40 k1_hw17 => k1_hw17.2.2.2.1
theorem k1_idx161_inb : ∀ (v40 : IVec S16 32) (k1_hw17 : k1_chk17 v40), ∀ a x, ((![v40] : Fin 1 → IVec S16 32) a x).toNat < S272.size a := fun v40 k1_hw17 => k1_hw17.2.2.2.2.1
theorem k1_idx162_inb : ∀ (v40 : IVec S16 32) (k1_hw17 : k1_chk17 v40), ∀ a x, ((![v40] : Fin 1 → IVec S16 32) a x).toNat < S272.size a := fun v40 k1_hw17 => k1_hw17.2.2.2.2.2

def k1_chk18 (v44 : IVec S16 32) : Prop :=
  (∀ a x, ((![v44] : Fin 1 → IVec S16 32) a x).toNat < S272.size a) ∧
  (∀ a x, ((![v44] : Fin 1 → IVec S16 32) a x).toNat < S272.size a) ∧
  (∀ a x, ((![v44] : Fin 1 → IVec S16 32) a x).toNat < S272.size a) ∧
  (∀ a x, ((![v44] : Fin 1 → IVec S16 32) a x).toNat < S272.size a) ∧
  (∀ a x, ((![v44] : Fin 1 → IVec S16 32) a x).toNat < S272.size a) ∧
  (∀ a x, ((![v44] : Fin 1 → IVec S16 32) a x).toNat < S272.size a)
instance k1_chk18.dec : ∀ (v44 : IVec S16 32), Decidable (k1_chk18 v44) := fun v44 => decidable_of_iff' _ (Iff.of_eq (k1_chk18.eq_1 v44))
theorem k1_idx35_inb : ∀ (v44 : IVec S16 32) (k1_hw18 : k1_chk18 v44), ∀ a x, ((![v44] : Fin 1 → IVec S16 32) a x).toNat < S272.size a := fun v44 k1_hw18 => k1_hw18.1
theorem k1_idx36_inb : ∀ (v44 : IVec S16 32) (k1_hw18 : k1_chk18 v44), ∀ a x, ((![v44] : Fin 1 → IVec S16 32) a x).toNat < S272.size a := fun v44 k1_hw18 => k1_hw18.2.1
theorem k1_idx99_inb : ∀ (v44 : IVec S16 32) (k1_hw18 : k1_chk18 v44), ∀ a x, ((![v44] : Fin 1 → IVec S16 32) a x).toNat < S272.size a := fun v44 k1_hw18 => k1_hw18.2.2.1
theorem k1_idx100_inb : ∀ (v44 : IVec S16 32) (k1_hw18 : k1_chk18 v44), ∀ a x, ((![v44] : Fin 1 → IVec S16 32) a x).toNat < S272.size a := fun v44 k1_hw18 => k1_hw18.2.2.2.1
theorem k1_idx163_inb : ∀ (v44 : IVec S16 32) (k1_hw18 : k1_chk18 v44), ∀ a x, ((![v44] : Fin 1 → IVec S16 32) a x).toNat < S272.size a := fun v44 k1_hw18 => k1_hw18.2.2.2.2.1
theorem k1_idx164_inb : ∀ (v44 : IVec S16 32) (k1_hw18 : k1_chk18 v44), ∀ a x, ((![v44] : Fin 1 → IVec S16 32) a x).toNat < S272.size a := fun v44 k1_hw18 => k1_hw18.2.2.2.2.2

def k1_chk19 (v48 : IVec S16 32) : Prop :=
  (∀ a x, ((![v48] : Fin 1 → IVec S16 32) a x).toNat < S272.size a) ∧
  (∀ a x, ((![v48] : Fin 1 → IVec S16 32) a x).toNat < S272.size a) ∧
  (∀ a x, ((![v48] : Fin 1 → IVec S16 32) a x).toNat < S272.size a) ∧
  (∀ a x, ((![v48] : Fin 1 → IVec S16 32) a x).toNat < S272.size a) ∧
  (∀ a x, ((![v48] : Fin 1 → IVec S16 32) a x).toNat < S272.size a) ∧
  (∀ a x, ((![v48] : Fin 1 → IVec S16 32) a x).toNat < S272.size a)
instance k1_chk19.dec : ∀ (v48 : IVec S16 32), Decidable (k1_chk19 v48) := fun v48 => decidable_of_iff' _ (Iff.of_eq (k1_chk19.eq_1 v48))
theorem k1_idx37_inb : ∀ (v48 : IVec S16 32) (k1_hw19 : k1_chk19 v48), ∀ a x, ((![v48] : Fin 1 → IVec S16 32) a x).toNat < S272.size a := fun v48 k1_hw19 => k1_hw19.1
theorem k1_idx38_inb : ∀ (v48 : IVec S16 32) (k1_hw19 : k1_chk19 v48), ∀ a x, ((![v48] : Fin 1 → IVec S16 32) a x).toNat < S272.size a := fun v48 k1_hw19 => k1_hw19.2.1
theorem k1_idx101_inb : ∀ (v48 : IVec S16 32) (k1_hw19 : k1_chk19 v48), ∀ a x, ((![v48] : Fin 1 → IVec S16 32) a x).toNat < S272.size a := fun v48 k1_hw19 => k1_hw19.2.2.1
theorem k1_idx102_inb : ∀ (v48 : IVec S16 32) (k1_hw19 : k1_chk19 v48), ∀ a x, ((![v48] : Fin 1 → IVec S16 32) a x).toNat < S272.size a := fun v48 k1_hw19 => k1_hw19.2.2.2.1
theorem k1_idx165_inb : ∀ (v48 : IVec S16 32) (k1_hw19 : k1_chk19 v48), ∀ a x, ((![v48] : Fin 1 → IVec S16 32) a x).toNat < S272.size a := fun v48 k1_hw19 => k1_hw19.2.2.2.2.1
theorem k1_idx166_inb : ∀ (v48 : IVec S16 32) (k1_hw19 : k1_chk19 v48), ∀ a x, ((![v48] : Fin 1 → IVec S16 32) a x).toNat < S272.size a := fun v48 k1_hw19 => k1_hw19.2.2.2.2.2

def k1_chk20 (v52 : IVec S16 32) : Prop :=
  (∀ a x, ((![v52] : Fin 1 → IVec S16 32) a x).toNat < S272.size a) ∧
  (∀ a x, ((![v52] : Fin 1 → IVec S16 32) a x).toNat < S272.size a) ∧
  (∀ a x, ((![v52] : Fin 1 → IVec S16 32) a x).toNat < S272.size a) ∧
  (∀ a x, ((![v52] : Fin 1 → IVec S16 32) a x).toNat < S272.size a) ∧
  (∀ a x, ((![v52] : Fin 1 → IVec S16 32) a x).toNat < S272.size a) ∧
  (∀ a x, ((![v52] : Fin 1 → IVec S16 32) a x).toNat < S272.size a)
instance k1_chk20.dec : ∀ (v52 : IVec S16 32), Decidable (k1_chk20 v52) := fun v52 => decidable_of_iff' _ (Iff.of_eq (k1_chk20.eq_1 v52))
theorem k1_idx39_inb : ∀ (v52 : IVec S16 32) (k1_hw20 : k1_chk20 v52), ∀ a x, ((![v52] : Fin 1 → IVec S16 32) a x).toNat < S272.size a := fun v52 k1_hw20 => k1_hw20.1
theorem k1_idx40_inb : ∀ (v52 : IVec S16 32) (k1_hw20 : k1_chk20 v52), ∀ a x, ((![v52] : Fin 1 → IVec S16 32) a x).toNat < S272.size a := fun v52 k1_hw20 => k1_hw20.2.1
theorem k1_idx103_inb : ∀ (v52 : IVec S16 32) (k1_hw20 : k1_chk20 v52), ∀ a x, ((![v52] : Fin 1 → IVec S16 32) a x).toNat < S272.size a := fun v52 k1_hw20 => k1_hw20.2.2.1
theorem k1_idx104_inb : ∀ (v52 : IVec S16 32) (k1_hw20 : k1_chk20 v52), ∀ a x, ((![v52] : Fin 1 → IVec S16 32) a x).toNat < S272.size a := fun v52 k1_hw20 => k1_hw20.2.2.2.1
theorem k1_idx167_inb : ∀ (v52 : IVec S16 32) (k1_hw20 : k1_chk20 v52), ∀ a x, ((![v52] : Fin 1 → IVec S16 32) a x).toNat < S272.size a := fun v52 k1_hw20 => k1_hw20.2.2.2.2.1
theorem k1_idx168_inb : ∀ (v52 : IVec S16 32) (k1_hw20 : k1_chk20 v52), ∀ a x, ((![v52] : Fin 1 → IVec S16 32) a x).toNat < S272.size a := fun v52 k1_hw20 => k1_hw20.2.2.2.2.2

def k1_chk21 (v56 : IVec S16 32) : Prop :=
  (∀ a x, ((![v56] : Fin 1 → IVec S16 32) a x).toNat < S272.size a) ∧
  (∀ a x, ((![v56] : Fin 1 → IVec S16 32) a x).toNat < S272.size a) ∧
  (∀ a x, ((![v56] : Fin 1 → IVec S16 32) a x).toNat < S272.size a) ∧
  (∀ a x, ((![v56] : Fin 1 → IVec S16 32) a x).toNat < S272.size a) ∧
  (∀ a x, ((![v56] : Fin 1 → IVec S16 32) a x).toNat < S272.size a) ∧
  (∀ a x, ((![v56] : Fin 1 → IVec S16 32) a x).toNat < S272.size a)
instance k1_chk21.dec : ∀ (v56 : IVec S16 32), Decidable (k1_chk21 v56) := fun v56 => decidable_of_iff' _ (Iff.of_eq (k1_chk21.eq_1 v56))
theorem k1_idx41_inb : ∀ (v56 : IVec S16 32) (k1_hw21 : k1_chk21 v56), ∀ a x, ((![v56] : Fin 1 → IVec S16 32) a x).toNat < S272.size a := fun v56 k1_hw21 => k1_hw21.1
theorem k1_idx42_inb : ∀ (v56 : IVec S16 32) (k1_hw21 : k1_chk21 v56), ∀ a x, ((![v56] : Fin 1 → IVec S16 32) a x).toNat < S272.size a := fun v56 k1_hw21 => k1_hw21.2.1
theorem k1_idx105_inb : ∀ (v56 : IVec S16 32) (k1_hw21 : k1_chk21 v56), ∀ a x, ((![v56] : Fin 1 → IVec S16 32) a x).toNat < S272.size a := fun v56 k1_hw21 => k1_hw21.2.2.1
theorem k1_idx106_inb : ∀ (v56 : IVec S16 32) (k1_hw21 : k1_chk21 v56), ∀ a x, ((![v56] : Fin 1 → IVec S16 32) a x).toNat < S272.size a := fun v56 k1_hw21 => k1_hw21.2.2.2.1
theorem k1_idx169_inb : ∀ (v56 : IVec S16 32) (k1_hw21 : k1_chk21 v56), ∀ a x, ((![v56] : Fin 1 → IVec S16 32) a x).toNat < S272.size a := fun v56 k1_hw21 => k1_hw21.2.2.2.2.1
theorem k1_idx170_inb : ∀ (v56 : IVec S16 32) (k1_hw21 : k1_chk21 v56), ∀ a x, ((![v56] : Fin 1 → IVec S16 32) a x).toNat < S272.size a := fun v56 k1_hw21 => k1_hw21.2.2.2.2.2

def k1_chk22 (v60 : IVec S16 32) : Prop :=
  (∀ a x, ((![v60] : Fin 1 → IVec S16 32) a x).toNat < S272.size a) ∧
  (∀ a x, ((![v60] : Fin 1 → IVec S16 32) a x).toNat < S272.size a) ∧
  (∀ a x, ((![v60] : Fin 1 → IVec S16 32) a x).toNat < S272.size a) ∧
  (∀ a x, ((![v60] : Fin 1 → IVec S16 32) a x).toNat < S272.size a) ∧
  (∀ a x, ((![v60] : Fin 1 → IVec S16 32) a x).toNat < S272.size a) ∧
  (∀ a x, ((![v60] : Fin 1 → IVec S16 32) a x).toNat < S272.size a)
instance k1_chk22.dec : ∀ (v60 : IVec S16 32), Decidable (k1_chk22 v60) := fun v60 => decidable_of_iff' _ (Iff.of_eq (k1_chk22.eq_1 v60))
theorem k1_idx43_inb : ∀ (v60 : IVec S16 32) (k1_hw22 : k1_chk22 v60), ∀ a x, ((![v60] : Fin 1 → IVec S16 32) a x).toNat < S272.size a := fun v60 k1_hw22 => k1_hw22.1
theorem k1_idx44_inb : ∀ (v60 : IVec S16 32) (k1_hw22 : k1_chk22 v60), ∀ a x, ((![v60] : Fin 1 → IVec S16 32) a x).toNat < S272.size a := fun v60 k1_hw22 => k1_hw22.2.1
theorem k1_idx107_inb : ∀ (v60 : IVec S16 32) (k1_hw22 : k1_chk22 v60), ∀ a x, ((![v60] : Fin 1 → IVec S16 32) a x).toNat < S272.size a := fun v60 k1_hw22 => k1_hw22.2.2.1
theorem k1_idx108_inb : ∀ (v60 : IVec S16 32) (k1_hw22 : k1_chk22 v60), ∀ a x, ((![v60] : Fin 1 → IVec S16 32) a x).toNat < S272.size a := fun v60 k1_hw22 => k1_hw22.2.2.2.1
theorem k1_idx171_inb : ∀ (v60 : IVec S16 32) (k1_hw22 : k1_chk22 v60), ∀ a x, ((![v60] : Fin 1 → IVec S16 32) a x).toNat < S272.size a := fun v60 k1_hw22 => k1_hw22.2.2.2.2.1
theorem k1_idx172_inb : ∀ (v60 : IVec S16 32) (k1_hw22 : k1_chk22 v60), ∀ a x, ((![v60] : Fin 1 → IVec S16 32) a x).toNat < S272.size a := fun v60 k1_hw22 => k1_hw22.2.2.2.2.2

def k1_chk23 (v64 : IVec S16 32) : Prop :=
  (∀ a x, ((![v64] : Fin 1 → IVec S16 32) a x).toNat < S272.size a) ∧
  (∀ a x, ((![v64] : Fin 1 → IVec S16 32) a x).toNat < S272.size a) ∧
  (∀ a x, ((![v64] : Fin 1 → IVec S16 32) a x).toNat < S272.size a) ∧
  (∀ a x, ((![v64] : Fin 1 → IVec S16 32) a x).toNat < S272.size a) ∧
  (∀ a x, ((![v64] : Fin 1 → IVec S16 32) a x).toNat < S272.size a) ∧
  (∀ a x, ((![v64] : Fin 1 → IVec S16 32) a x).toNat < S272.size a)
instance k1_chk23.dec : ∀ (v64 : IVec S16 32), Decidable (k1_chk23 v64) := fun v64 => decidable_of_iff' _ (Iff.of_eq (k1_chk23.eq_1 v64))
theorem k1_idx45_inb : ∀ (v64 : IVec S16 32) (k1_hw23 : k1_chk23 v64), ∀ a x, ((![v64] : Fin 1 → IVec S16 32) a x).toNat < S272.size a := fun v64 k1_hw23 => k1_hw23.1
theorem k1_idx46_inb : ∀ (v64 : IVec S16 32) (k1_hw23 : k1_chk23 v64), ∀ a x, ((![v64] : Fin 1 → IVec S16 32) a x).toNat < S272.size a := fun v64 k1_hw23 => k1_hw23.2.1
theorem k1_idx109_inb : ∀ (v64 : IVec S16 32) (k1_hw23 : k1_chk23 v64), ∀ a x, ((![v64] : Fin 1 → IVec S16 32) a x).toNat < S272.size a := fun v64 k1_hw23 => k1_hw23.2.2.1
theorem k1_idx110_inb : ∀ (v64 : IVec S16 32) (k1_hw23 : k1_chk23 v64), ∀ a x, ((![v64] : Fin 1 → IVec S16 32) a x).toNat < S272.size a := fun v64 k1_hw23 => k1_hw23.2.2.2.1
theorem k1_idx173_inb : ∀ (v64 : IVec S16 32) (k1_hw23 : k1_chk23 v64), ∀ a x, ((![v64] : Fin 1 → IVec S16 32) a x).toNat < S272.size a := fun v64 k1_hw23 => k1_hw23.2.2.2.2.1
theorem k1_idx174_inb : ∀ (v64 : IVec S16 32) (k1_hw23 : k1_chk23 v64), ∀ a x, ((![v64] : Fin 1 → IVec S16 32) a x).toNat < S272.size a := fun v64 k1_hw23 => k1_hw23.2.2.2.2.2

def k1_chk24 (v68 : IVec S16 32) : Prop :=
  (∀ a x, ((![v68] : Fin 1 → IVec S16 32) a x).toNat < S272.size a) ∧
  (∀ a x, ((![v68] : Fin 1 → IVec S16 32) a x).toNat < S272.size a) ∧
  (∀ a x, ((![v68] : Fin 1 → IVec S16 32) a x).toNat < S272.size a) ∧
  (∀ a x, ((![v68] : Fin 1 → IVec S16 32) a x).toNat < S272.size a) ∧
  (∀ a x, ((![v68] : Fin 1 → IVec S16 32) a x).toNat < S272.size a) ∧
  (∀ a x, ((![v68] : Fin 1 → IVec S16 32) a x).toNat < S272.size a)
instance k1_chk24.dec : ∀ (v68 : IVec S16 32), Decidable (k1_chk24 v68) := fun v68 => decidable_of_iff' _ (Iff.of_eq (k1_chk24.eq_1 v68))
theorem k1_idx47_inb : ∀ (v68 : IVec S16 32) (k1_hw24 : k1_chk24 v68), ∀ a x, ((![v68] : Fin 1 → IVec S16 32) a x).toNat < S272.size a := fun v68 k1_hw24 => k1_hw24.1
theorem k1_idx48_inb : ∀ (v68 : IVec S16 32) (k1_hw24 : k1_chk24 v68), ∀ a x, ((![v68] : Fin 1 → IVec S16 32) a x).toNat < S272.size a := fun v68 k1_hw24 => k1_hw24.2.1
theorem k1_idx111_inb : ∀ (v68 : IVec S16 32) (k1_hw24 : k1_chk24 v68), ∀ a x, ((![v68] : Fin 1 → IVec S16 32) a x).toNat < S272.size a := fun v68 k1_hw24 => k1_hw24.2.2.1
theorem k1_idx112_inb : ∀ (v68 : IVec S16 32) (k1_hw24 : k1_chk24 v68), ∀ a x, ((![v68] : Fin 1 → IVec S16 32) a x).toNat < S272.size a := fun v68 k1_hw24 => k1_hw24.2.2.2.1
theorem k1_idx175_inb : ∀ (v68 : IVec S16 32) (k1_hw24 : k1_chk24 v68), ∀ a x, ((![v68] : Fin 1 → IVec S16 32) a x).toNat < S272.size a := fun v68 k1_hw24 => k1_hw24.2.2.2.2.1
theorem k1_idx176_inb : ∀ (v68 : IVec S16 32) (k1_hw24 : k1_chk24 v68), ∀ a x, ((![v68] : Fin 1 → IVec S16 32) a x).toNat < S272.size a := fun v68 k1_hw24 => k1_hw24.2.2.2.2.2

def k1_chk25 (v72 : IVec S16 32) : Prop :=
  (∀ a x, ((![v72] : Fin 1 → IVec S16 32) a x).toNat < S272.size a) ∧
  (∀ a x, ((![v72] : Fin 1 → IVec S16 32) a x).toNat < S272.size a) ∧
  (∀ a x, ((![v72] : Fin 1 → IVec S16 32) a x).toNat < S272.size a) ∧
  (∀ a x, ((![v72] : Fin 1 → IVec S16 32) a x).toNat < S272.size a) ∧
  (∀ a x, ((![v72] : Fin 1 → IVec S16 32) a x).toNat < S272.size a) ∧
  (∀ a x, ((![v72] : Fin 1 → IVec S16 32) a x).toNat < S272.size a)
instance k1_chk25.dec : ∀ (v72 : IVec S16 32), Decidable (k1_chk25 v72) := fun v72 => decidable_of_iff' _ (Iff.of_eq (k1_chk25.eq_1 v72))
theorem k1_idx49_inb : ∀ (v72 : IVec S16 32) (k1_hw25 : k1_chk25 v72), ∀ a x, ((![v72] : Fin 1 → IVec S16 32) a x).toNat < S272.size a := fun v72 k1_hw25 => k1_hw25.1
theorem k1_idx50_inb : ∀ (v72 : IVec S16 32) (k1_hw25 : k1_chk25 v72), ∀ a x, ((![v72] : Fin 1 → IVec S16 32) a x).toNat < S272.size a := fun v72 k1_hw25 => k1_hw25.2.1
theorem k1_idx113_inb : ∀ (v72 : IVec S16 32) (k1_hw25 : k1_chk25 v72), ∀ a x, ((![v72] : Fin 1 → IVec S16 32) a x).toNat < S272.size a := fun v72 k1_hw25 => k1_hw25.2.2.1
theorem k1_idx114_inb : ∀ (v72 : IVec S16 32) (k1_hw25 : k1_chk25 v72), ∀ a x, ((![v72] : Fin 1 → IVec S16 32) a x).toNat < S272.size a := fun v72 k1_hw25 => k1_hw25.2.2.2.1
theorem k1_idx177_inb : ∀ (v72 : IVec S16 32) (k1_hw25 : k1_chk25 v72), ∀ a x, ((![v72] : Fin 1 → IVec S16 32) a x).toNat < S272.size a := fun v72 k1_hw25 => k1_hw25.2.2.2.2.1
theorem k1_idx178_inb : ∀ (v72 : IVec S16 32) (k1_hw25 : k1_chk25 v72), ∀ a x, ((![v72] : Fin 1 → IVec S16 32) a x).toNat < S272.size a := fun v72 k1_hw25 => k1_hw25.2.2.2.2.2

def k1_chk26 (v76 : IVec S16 32) : Prop :=
  (∀ a x, ((![v76] : Fin 1 → IVec S16 32) a x).toNat < S272.size a) ∧
  (∀ a x, ((![v76] : Fin 1 → IVec S16 32) a x).toNat < S272.size a) ∧
  (∀ a x, ((![v76] : Fin 1 → IVec S16 32) a x).toNat < S272.size a) ∧
  (∀ a x, ((![v76] : Fin 1 → IVec S16 32) a x).toNat < S272.size a) ∧
  (∀ a x, ((![v76] : Fin 1 → IVec S16 32) a x).toNat < S272.size a) ∧
  (∀ a x, ((![v76] : Fin 1 → IVec S16 32) a x).toNat < S272.size a)
instance k1_chk26.dec : ∀ (v76 : IVec S16 32), Decidable (k1_chk26 v76) := fun v76 => decidable_of_iff' _ (Iff.of_eq (k1_chk26.eq_1 v76))
theorem k1_idx51_inb : ∀ (v76 : IVec S16 32) (k1_hw26 : k1_chk26 v76), ∀ a x, ((![v76] : Fin 1 → IVec S16 32) a x).toNat < S272.size a := fun v76 k1_hw26 => k1_hw26.1
theorem k1_idx52_inb : ∀ (v76 : IVec S16 32) (k1_hw26 : k1_chk26 v76), ∀ a x, ((![v76] : Fin 1 → IVec S16 32) a x).toNat < S272.size a := fun v76 k1_hw26 => k1_hw26.2.1
theorem k1_idx115_inb : ∀ (v76 : IVec S16 32) (k1_hw26 : k1_chk26 v76), ∀ a x, ((![v76] : Fin 1 → IVec S16 32) a x).toNat < S272.size a := fun v76 k1_hw26 => k1_hw26.2.2.1
theorem k1_idx116_inb : ∀ (v76 : IVec S16 32) (k1_hw26 : k1_chk26 v76), ∀ a x, ((![v76] : Fin 1 → IVec S16 32) a x).toNat < S272.size a := fun v76 k1_hw26 => k1_hw26.2.2.2.1
theorem k1_idx179_inb : ∀ (v76 : IVec S16 32) (k1_hw26 : k1_chk26 v76), ∀ a x, ((![v76] : Fin 1 → IVec S16 32) a x).toNat < S272.size a := fun v76 k1_hw26 => k1_hw26.2.2.2.2.1
theorem k1_idx180_inb : ∀ (v76 : IVec S16 32) (k1_hw26 : k1_chk26 v76), ∀ a x, ((![v76] : Fin 1 → IVec S16 32) a x).toNat < S272.size a := fun v76 k1_hw26 => k1_hw26.2.2.2.2.2

def k1_chk27 (v80 : IVec S16 32) : Prop :=
  (∀ a x, ((![v80] : Fin 1 → IVec S16 32) a x).toNat < S272.size a) ∧
  (∀ a x, ((![v80] : Fin 1 → IVec S16 32) a x).toNat < S272.size a) ∧
  (∀ a x, ((![v80] : Fin 1 → IVec S16 32) a x).toNat < S272.size a) ∧
  (∀ a x, ((![v80] : Fin 1 → IVec S16 32) a x).toNat < S272.size a) ∧
  (∀ a x, ((![v80] : Fin 1 → IVec S16 32) a x).toNat < S272.size a) ∧
  (∀ a x, ((![v80] : Fin 1 → IVec S16 32) a x).toNat < S272.size a)
instance k1_chk27.dec : ∀ (v80 : IVec S16 32), Decidable (k1_chk27 v80) := fun v80 => decidable_of_iff' _ (Iff.of_eq (k1_chk27.eq_1 v80))
theorem k1_idx53_inb : ∀ (v80 : IVec S16 32) (k1_hw27 : k1_chk27 v80), ∀ a x, ((![v80] : Fin 1 → IVec S16 32) a x).toNat < S272.size a := fun v80 k1_hw27 => k1_hw27.1
theorem k1_idx54_inb : ∀ (v80 : IVec S16 32) (k1_hw27 : k1_chk27 v80), ∀ a x, ((![v80] : Fin 1 → IVec S16 32) a x).toNat < S272.size a := fun v80 k1_hw27 => k1_hw27.2.1
theorem k1_idx117_inb : ∀ (v80 : IVec S16 32) (k1_hw27 : k1_chk27 v80), ∀ a x, ((![v80] : Fin 1 → IVec S16 32) a x).toNat < S272.size a := fun v80 k1_hw27 => k1_hw27.2.2.1
theorem k1_idx118_inb : ∀ (v80 : IVec S16 32) (k1_hw27 : k1_chk27 v80), ∀ a x, ((![v80] : Fin 1 → IVec S16 32) a x).toNat < S272.size a := fun v80 k1_hw27 => k1_hw27.2.2.2.1
theorem k1_idx181_inb : ∀ (v80 : IVec S16 32) (k1_hw27 : k1_chk27 v80), ∀ a x, ((![v80] : Fin 1 → IVec S16 32) a x).toNat < S272.size a := fun v80 k1_hw27 => k1_hw27.2.2.2.2.1
theorem k1_idx182_inb : ∀ (v80 : IVec S16 32) (k1_hw27 : k1_chk27 v80), ∀ a x, ((![v80] : Fin 1 → IVec S16 32) a x).toNat < S272.size a := fun v80 k1_hw27 => k1_hw27.2.2.2.2.2

def k1_chk28 (v84 : IVec S16 32) : Prop :=
  (∀ a x, ((![v84] : Fin 1 → IVec S16 32) a x).toNat < S272.size a) ∧
  (∀ a x, ((![v84] : Fin 1 → IVec S16 32) a x).toNat < S272.size a) ∧
  (∀ a x, ((![v84] : Fin 1 → IVec S16 32) a x).toNat < S272.size a) ∧
  (∀ a x, ((![v84] : Fin 1 → IVec S16 32) a x).toNat < S272.size a) ∧
  (∀ a x, ((![v84] : Fin 1 → IVec S16 32) a x).toNat < S272.size a) ∧
  (∀ a x, ((![v84] : Fin 1 → IVec S16 32) a x).toNat < S272.size a)
instance k1_chk28.dec : ∀ (v84 : IVec S16 32), Decidable (k1_chk28 v84) := fun v84 => decidable_of_iff' _ (Iff.of_eq (k1_chk28.eq_1 v84))
theorem k1_idx55_inb : ∀ (v84 : IVec S16 32) (k1_hw28 : k1_chk28 v84), ∀ a x, ((![v84] : Fin 1 → IVec S16 32) a x).toNat < S272.size a := fun v84 k1_hw28 => k1_hw28.1
theorem k1_idx56_inb : ∀ (v84 : IVec S16 32) (k1_hw28 : k1_chk28 v84), ∀ a x, ((![v84] : Fin 1 → IVec S16 32) a x).toNat < S272.size a := fun v84 k1_hw28 => k1_hw28.2.1
theorem k1_idx119_inb : ∀ (v84 : IVec S16 32) (k1_hw28 : k1_chk28 v84), ∀ a x, ((![v84] : Fin 1 → IVec S16 32) a x).toNat < S272.size a := fun v84 k1_hw28 => k1_hw28.2.2.1
theorem k1_idx120_inb : ∀ (v84 : IVec S16 32) (k1_hw28 : k1_chk28 v84), ∀ a x, ((![v84] : Fin 1 → IVec S16 32) a x).toNat < S272.size a := fun v84 k1_hw28 => k1_hw28.2.2.2.1
theorem k1_idx183_inb : ∀ (v84 : IVec S16 32) (k1_hw28 : k1_chk28 v84), ∀ a x, ((![v84] : Fin 1 → IVec S16 32) a x).toNat < S272.size a := fun v84 k1_hw28 => k1_hw28.2.2.2.2.1
theorem k1_idx184_inb : ∀ (v84 : IVec S16 32) (k1_hw28 : k1_chk28 v84), ∀ a x, ((![v84] : Fin 1 → IVec S16 32) a x).toNat < S272.size a := fun v84 k1_hw28 => k1_hw28.2.2.2.2.2

def k1_chk29 (v88 : IVec S16 32) : Prop :=
  (∀ a x, ((![v88] : Fin 1 → IVec S16 32) a x).toNat < S272.size a) ∧
  (∀ a x, ((![v88] : Fin 1 → IVec S16 32) a x).toNat < S272.size a) ∧
  (∀ a x, ((![v88] : Fin 1 → IVec S16 32) a x).toNat < S272.size a) ∧
  (∀ a x, ((![v88] : Fin 1 → IVec S16 32) a x).toNat < S272.size a) ∧
  (∀ a x, ((![v88] : Fin 1 → IVec S16 32) a x).toNat < S272.size a) ∧
  (∀ a x, ((![v88] : Fin 1 → IVec S16 32) a x).toNat < S272.size a)
instance k1_chk29.dec : ∀ (v88 : IVec S16 32), Decidable (k1_chk29 v88) := fun v88 => decidable_of_iff' _ (Iff.of_eq (k1_chk29.eq_1 v88))
theorem k1_idx57_inb : ∀ (v88 : IVec S16 32) (k1_hw29 : k1_chk29 v88), ∀ a x, ((![v88] : Fin 1 → IVec S16 32) a x).toNat < S272.size a := fun v88 k1_hw29 => k1_hw29.1
theorem k1_idx58_inb : ∀ (v88 : IVec S16 32) (k1_hw29 : k1_chk29 v88), ∀ a x, ((![v88] : Fin 1 → IVec S16 32) a x).toNat < S272.size a := fun v88 k1_hw29 => k1_hw29.2.1
theorem k1_idx121_inb : ∀ (v88 : IVec S16 32) (k1_hw29 : k1_chk29 v88), ∀ a x, ((![v88] : Fin 1 → IVec S16 32) a x).toNat < S272.size a := fun v88 k1_hw29 => k1_hw29.2.2.1
theorem k1_idx122_inb : ∀ (v88 : IVec S16 32) (k1_hw29 : k1_chk29 v88), ∀ a x, ((![v88] : Fin 1 → IVec S16 32) a x).toNat < S272.size a := fun v88 k1_hw29 => k1_hw29.2.2.2.1
theorem k1_idx185_inb : ∀ (v88 : IVec S16 32) (k1_hw29 : k1_chk29 v88), ∀ a x, ((![v88] : Fin 1 → IVec S16 32) a x).toNat < S272.size a := fun v88 k1_hw29 => k1_hw29.2.2.2.2.1
theorem k1_idx186_inb : ∀ (v88 : IVec S16 32) (k1_hw29 : k1_chk29 v88), ∀ a x, ((![v88] : Fin 1 → IVec S16 32) a x).toNat < S272.size a := fun v88 k1_hw29 => k1_hw29.2.2.2.2.2

def k1_chk30 (v92 : IVec S16 32) : Prop :=
  (∀ a x, ((![v92] : Fin 1 → IVec S16 32) a x).toNat < S272.size a) ∧
  (∀ a x, ((![v92] : Fin 1 → IVec S16 32) a x).toNat < S272.size a) ∧
  (∀ a x, ((![v92] : Fin 1 → IVec S16 32) a x).toNat < S272.size a) ∧
  (∀ a x, ((![v92] : Fin 1 → IVec S16 32) a x).toNat < S272.size a) ∧
  (∀ a x, ((![v92] : Fin 1 → IVec S16 32) a x).toNat < S272.size a) ∧
  (∀ a x, ((![v92] : Fin 1 → IVec S16 32) a x).toNat < S272.size a)
instance k1_chk30.dec : ∀ (v92 : IVec S16 32), Decidable (k1_chk30 v92) := fun v92 => decidable_of_iff' _ (Iff.of_eq (k1_chk30.eq_1 v92))
theorem k1_idx59_inb : ∀ (v92 : IVec S16 32) (k1_hw30 : k1_chk30 v92), ∀ a x, ((![v92] : Fin 1 → IVec S16 32) a x).toNat < S272.size a := fun v92 k1_hw30 => k1_hw30.1
theorem k1_idx60_inb : ∀ (v92 : IVec S16 32) (k1_hw30 : k1_chk30 v92), ∀ a x, ((![v92] : Fin 1 → IVec S16 32) a x).toNat < S272.size a := fun v92 k1_hw30 => k1_hw30.2.1
theorem k1_idx123_inb : ∀ (v92 : IVec S16 32) (k1_hw30 : k1_chk30 v92), ∀ a x, ((![v92] : Fin 1 → IVec S16 32) a x).toNat < S272.size a := fun v92 k1_hw30 => k1_hw30.2.2.1
theorem k1_idx124_inb : ∀ (v92 : IVec S16 32) (k1_hw30 : k1_chk30 v92), ∀ a x, ((![v92] : Fin 1 → IVec S16 32) a x).toNat < S272.size a := fun v92 k1_hw30 => k1_hw30.2.2.2.1
theorem k1_idx187_inb : ∀ (v92 : IVec S16 32) (k1_hw30 : k1_chk30 v92), ∀ a x, ((![v92] : Fin 1 → IVec S16 32) a x).toNat < S272.size a := fun v92 k1_hw30 => k1_hw30.2.2.2.2.1
theorem k1_idx188_inb : ∀ (v92 : IVec S16 32) (k1_hw30 : k1_chk30 v92), ∀ a x, ((![v92] : Fin 1 → IVec S16 32) a x).toNat < S272.size a := fun v92 k1_hw30 => k1_hw30.2.2.2.2.2

def k1_chk31 (v96 : IVec S16 32) : Prop :=
  (∀ a x, ((![v96] : Fin 1 → IVec S16 32) a x).toNat < S272.size a) ∧
  (∀ a x, ((![v96] : Fin 1 → IVec S16 32) a x).toNat < S272.size a) ∧
  (∀ a x, ((![v96] : Fin 1 → IVec S16 32) a x).toNat < S272.size a) ∧
  (∀ a x, ((![v96] : Fin 1 → IVec S16 32) a x).toNat < S272.size a) ∧
  (∀ a x, ((![v96] : Fin 1 → IVec S16 32) a x).toNat < S272.size a) ∧
  (∀ a x, ((![v96] : Fin 1 → IVec S16 32) a x).toNat < S272.size a)
instance k1_chk31.dec : ∀ (v96 : IVec S16 32), Decidable (k1_chk31 v96) := fun v96 => decidable_of_iff' _ (Iff.of_eq (k1_chk31.eq_1 v96))
theorem k1_idx61_inb : ∀ (v96 : IVec S16 32) (k1_hw31 : k1_chk31 v96), ∀ a x, ((![v96] : Fin 1 → IVec S16 32) a x).toNat < S272.size a := fun v96 k1_hw31 => k1_hw31.1
theorem k1_idx62_inb : ∀ (v96 : IVec S16 32) (k1_hw31 : k1_chk31 v96), ∀ a x, ((![v96] : Fin 1 → IVec S16 32) a x).toNat < S272.size a := fun v96 k1_hw31 => k1_hw31.2.1
theorem k1_idx125_inb : ∀ (v96 : IVec S16 32) (k1_hw31 : k1_chk31 v96), ∀ a x, ((![v96] : Fin 1 → IVec S16 32) a x).toNat < S272.size a := fun v96 k1_hw31 => k1_hw31.2.2.1
theorem k1_idx126_inb : ∀ (v96 : IVec S16 32) (k1_hw31 : k1_chk31 v96), ∀ a x, ((![v96] : Fin 1 → IVec S16 32) a x).toNat < S272.size a := fun v96 k1_hw31 => k1_hw31.2.2.2.1
theorem k1_idx189_inb : ∀ (v96 : IVec S16 32) (k1_hw31 : k1_chk31 v96), ∀ a x, ((![v96] : Fin 1 → IVec S16 32) a x).toNat < S272.size a := fun v96 k1_hw31 => k1_hw31.2.2.2.2.1
theorem k1_idx190_inb : ∀ (v96 : IVec S16 32) (k1_hw31 : k1_chk31 v96), ∀ a x, ((![v96] : Fin 1 → IVec S16 32) a x).toNat < S272.size a := fun v96 k1_hw31 => k1_hw31.2.2.2.2.2

def k1_chk32 (v100 : IVec S16 32) : Prop :=
  (∀ a x, ((![v100] : Fin 1 → IVec S16 32) a x).toNat < S272.size a) ∧
  (∀ a x, ((![v100] : Fin 1 → IVec S16 32) a x).toNat < S272.size a) ∧
  (∀ a x, ((![v100] : Fin 1 → IVec S16 32) a x).toNat < S272.size a) ∧
  (∀ a x, ((![v100] : Fin 1 → IVec S16 32) a x).toNat < S272.size a) ∧
  (∀ a x, ((![v100] : Fin 1 → IVec S16 32) a x).toNat < S272.size a) ∧
  (∀ a x, ((![v100] : Fin 1 → IVec S16 32) a x).toNat < S272.size a)
instance k1_chk32.dec : ∀ (v100 : IVec S16 32), Decidable (k1_chk32 v100) := fun v100 => decidable_of_iff' _ (Iff.of_eq (k1_chk32.eq_1 v100))
theorem k1_idx63_inb : ∀ (v100 : IVec S16 32) (k1_hw32 : k1_chk32 v100), ∀ a x, ((![v100] : Fin 1 → IVec S16 32) a x).toNat < S272.size a := fun v100 k1_hw32 => k1_hw32.1
theorem k1_idx64_inb : ∀ (v100 : IVec S16 32) (k1_hw32 : k1_chk32 v100), ∀ a x, ((![v100] : Fin 1 → IVec S16 32) a x).toNat < S272.size a := fun v100 k1_hw32 => k1_hw32.2.1
theorem k1_idx127_inb : ∀ (v100 : IVec S16 32) (k1_hw32 : k1_chk32 v100), ∀ a x, ((![v100] : Fin 1 → IVec S16 32) a x).toNat < S272.size a := fun v100 k1_hw32 => k1_hw32.2.2.1
theorem k1_idx128_inb : ∀ (v100 : IVec S16 32) (k1_hw32 : k1_chk32 v100), ∀ a x, ((![v100] : Fin 1 → IVec S16 32) a x).toNat < S272.size a := fun v100 k1_hw32 => k1_hw32.2.2.2.1
theorem k1_idx191_inb : ∀ (v100 : IVec S16 32) (k1_hw32 : k1_chk32 v100), ∀ a x, ((![v100] : Fin 1 → IVec S16 32) a x).toNat < S272.size a := fun v100 k1_hw32 => k1_hw32.2.2.2.2.1
theorem k1_idx192_inb : ∀ (v100 : IVec S16 32) (k1_hw32 : k1_chk32 v100), ∀ a x, ((![v100] : Fin 1 → IVec S16 32) a x).toNat < S272.size a := fun v100 k1_hw32 => k1_hw32.2.2.2.2.2
def k1_cond2 (k1_t1 : Fin k1_t1_loop.trips) : BitVec 1 :=
  let c0_i32_23 : BitVec 32 := 0#32
  let c1_i32_25 : BitVec 32 := 1#32
  let arg13 : BitVec 32 := Scf.iv c0_i32_23 c1_i32_25 k1_t1
  let c1_i32_102 : BitVec 32 := 1#32
  let v629 : BitVec 32 := Scalar.addi arg13 c1_i32_102
  let c8_i32_103 : BitVec 32 := 8#32
  let v630 : BitVec 1 := Scalar.cmpi .slt v629 c8_i32_103
  let v631 : BitVec 32 := Scalar.extui v630
  let c0_i32_104 : BitVec 32 := 0#32
  let v632 : BitVec 1 := Scalar.cmpi .ne v631 c0_i32_104
  v632

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_23 : BitVec 32 := 0#32
  let c1_i32_25 : BitVec 32 := 1#32
  let arg13 : BitVec 32 := Scf.iv c0_i32_23 c1_i32_25 k1_t1
  let v110 : BitVec 32 := Scalar.addi v2 arg13
  let c1_i32_105 : BitVec 32 := 1#32
  let v633 : BitVec 32 := Scalar.addi v110 c1_i32_105
  let c50176_i32_106 : BitVec 32 := 50176#32
  ![v633.toNat, 50176]
def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_23 : BitVec 32 := 0#32
  let c1_i32_25 : BitVec 32 := 1#32
  let arg13 : BitVec 32 := Scf.iv c0_i32_23 c1_i32_25 k1_t1
  let v110 : BitVec 32 := Scalar.addi v2 arg13
  let c0_i32_105_r0 : BitVec 32 := 0#32
  ![v110.toNat, 0]
abbrev grid2 : Pipeline.Grid := .none

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S768x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S768x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S768x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S12544x128 : S_.BroadcastsInDim S12544x128 (![] : Fin 0 → Fin S12544x128.rank)
  inb_S64x100000_S64x12544_0_0 : ∀ a, (![0, 0] : Fin 2 → Nat) a + S64x12544.size a ≤ S64x100000.size a
  h_S64x12544 : 0 < S64x12544.numel
  inb_S12544x128_S12544x128_0_0 : ∀ a, (![0, 0] : Fin 2 → Nat) a + S12544x128.size a ≤ S12544x128.size a
  h_S12544x128 : 0 < S12544x128.numel
  shapeCasts_S12544x128_S12544x128 : S12544x128.ShapeCasts S12544x128
  bitsLt_bf16_f32 : FTy.bits .bf16 < FTy.bits .f32
  inb_S64x1024_S64x128_0_0 : ∀ a, (![0, 0] : Fin 2 → Nat) a + S64x128.size a ≤ S64x1024.size a
  h_S64x128 : 0 < S64x128.numel
  reduces_S64x12544_S64 : S64x12544.Reduces [1] S64
  shapeCasts_S64_S64x1 : S64.ShapeCasts S64x1
  inb_S64x100000_S64x12544_0_12544 : ∀ a, (![0, 12544] : Fin 2 → Nat) a + S64x12544.size a ≤ S64x100000.size a
  inb_S64x1024_S64x128_0_128 : ∀ a, (![0, 128] : Fin 2 → Nat) a + S64x128.size a ≤ S64x1024.size a
  inb_S64x100000_S64x12544_0_25088 : ∀ a, (![0, 25088] : Fin 2 → Nat) a + S64x12544.size a ≤ S64x100000.size a
  inb_S64x1024_S64x128_0_256 : ∀ a, (![0, 256] : Fin 2 → Nat) a + S64x128.size a ≤ S64x1024.size a
  inb_S64x100000_S64x12544_0_37632 : ∀ a, (![0, 37632] : Fin 2 → Nat) a + S64x12544.size a ≤ S64x100000.size a
  inb_S64x1024_S64x128_0_384 : ∀ a, (![0, 384] : Fin 2 → Nat) a + S64x128.size a ≤ S64x1024.size a
  inb_S64x100000_S64x12544_0_50176 : ∀ a, (![0, 50176] : Fin 2 → Nat) a + S64x12544.size a ≤ S64x100000.size a
  inb_S64x1024_S64x128_0_512 : ∀ a, (![0, 512] : Fin 2 → Nat) a + S64x128.size a ≤ S64x1024.size a
  inb_S64x100000_S64x12544_0_62720 : ∀ a, (![0, 62720] : Fin 2 → Nat) a + S64x12544.size a ≤ S64x100000.size a
  inb_S64x1024_S64x128_0_640 : ∀ a, (![0, 640] : Fin 2 → Nat) a + S64x128.size a ≤ S64x1024.size a
  inb_S64x100000_S64x12544_0_75264 : ∀ a, (![0, 75264] : Fin 2 → Nat) a + S64x12544.size a ≤ S64x100000.size a
  inb_S64x1024_S64x128_0_768 : ∀ a, (![0, 768] : Fin 2 → Nat) a + S64x128.size a ≤ S64x1024.size a
  inb_S64x100000_S64x12192_0_87808 : ∀ a, (![0, 87808] : Fin 2 → Nat) a + S64x12192.size a ≤ S64x100000.size a
  h_S64x12192 : 0 < S64x12192.numel
  inb_S12544x128_S12192x128_0_0 : ∀ a, (![0, 0] : Fin 2 → Nat) a + S12192x128.size a ≤ S12544x128.size a
  h_S12192x128 : 0 < S12192x128.numel
  shapeCasts_S12192x128_S12192x128 : S12192x128.ShapeCasts S12192x128
  inb_S64x1024_S64x128_0_896 : ∀ a, (![0, 896] : Fin 2 → Nat) a + S64x128.size a ≤ S64x1024.size a
  reduces_S64x12192_S64 : S64x12192.Reduces [1] S64
  shapeCasts_S64x1_S64x1 : S64x1.ShapeCasts S64x1
  broadcasts_S64x1_S64x128 : S64x1.Broadcasts S64x128
  inb_S64x128_S64x128_0_0 : ∀ a, (![0, 0] : Fin 2 → Nat) a + S64x128.size a ≤ S64x128.size a
  iota_S16_d0_w32_scVector : S16.Iotas .scVector 32 [0]
  squeezes_S1x50176_S50176 : S1x50176.Squeezes S50176
  squeezes_S1x49824_S49824 : S1x49824.Squeezes S49824
  h_S16 : 0 < S16.numel
  h_S272 : 0 < S272.numel
  inb_S49824_S16_48608 : ∀ a, (![48608] : Fin 1 → Nat) a + S16.size a ≤ S49824.size a
  inb_S49824_S16_48624 : ∀ a, (![48624] : Fin 1 → Nat) a + S16.size a ≤ S49824.size a
  inb_S49824_S16_48640 : ∀ a, (![48640] : Fin 1 → Nat) a + S16.size a ≤ S49824.size a
  inb_S49824_S16_48656 : ∀ a, (![48656] : Fin 1 → Nat) a + S16.size a ≤ S49824.size a
  inb_S49824_S16_48672 : ∀ a, (![48672] : Fin 1 → Nat) a + S16.size a ≤ S49824.size a
  inb_S49824_S16_48688 : ∀ a, (![48688] : Fin 1 → Nat) a + S16.size a ≤ S49824.size a
  inb_S49824_S16_48704 : ∀ a, (![48704] : Fin 1 → Nat) a + S16.size a ≤ S49824.size a
  inb_S49824_S16_48720 : ∀ a, (![48720] : Fin 1 → Nat) a + S16.size a ≤ S49824.size a
  inb_S49824_S16_48736 : ∀ a, (![48736] : Fin 1 → Nat) a + S16.size a ≤ S49824.size a
  inb_S49824_S16_48752 : ∀ a, (![48752] : Fin 1 → Nat) a + S16.size a ≤ S49824.size a
  inb_S49824_S16_48768 : ∀ a, (![48768] : Fin 1 → Nat) a + S16.size a ≤ S49824.size a
  inb_S49824_S16_48784 : ∀ a, (![48784] : Fin 1 → Nat) a + S16.size a ≤ S49824.size a
  inb_S49824_S16_48800 : ∀ a, (![48800] : Fin 1 → Nat) a + S16.size a ≤ S49824.size a
  inb_S49824_S16_48816 : ∀ a, (![48816] : Fin 1 → Nat) a + S16.size a ≤ S49824.size a
  inb_S49824_S16_48832 : ∀ a, (![48832] : Fin 1 → Nat) a + S16.size a ≤ S49824.size a
  inb_S49824_S16_48848 : ∀ a, (![48848] : Fin 1 → Nat) a + S16.size a ≤ S49824.size a
  inb_S49824_S16_48864 : ∀ a, (![48864] : Fin 1 → Nat) a + S16.size a ≤ S49824.size a
  inb_S49824_S16_48880 : ∀ a, (![48880] : Fin 1 → Nat) a + S16.size a ≤ S49824.size a
  inb_S49824_S16_48896 : ∀ a, (![48896] : Fin 1 → Nat) a + S16.size a ≤ S49824.size a
  inb_S49824_S16_48912 : ∀ a, (![48912] : Fin 1 → Nat) a + S16.size a ≤ S49824.size a
  inb_S49824_S16_48928 : ∀ a, (![48928] : Fin 1 → Nat) a + S16.size a ≤ S49824.size a
  inb_S49824_S16_48944 : ∀ a, (![48944] : Fin 1 → Nat) a + S16.size a ≤ S49824.size a
  inb_S49824_S16_48960 : ∀ a, (![48960] : Fin 1 → Nat) a + S16.size a ≤ S49824.size a
  inb_S49824_S16_48976 : ∀ a, (![48976] : Fin 1 → Nat) a + S16.size a ≤ S49824.size a
  inb_S49824_S16_48992 : ∀ a, (![48992] : Fin 1 → Nat) a + S16.size a ≤ S49824.size a
  inb_S49824_S16_49008 : ∀ a, (![49008] : Fin 1 → Nat) a + S16.size a ≤ S49824.size a
  inb_S49824_S16_49024 : ∀ a, (![49024] : Fin 1 → Nat) a + S16.size a ≤ S49824.size a
  inb_S49824_S16_49040 : ∀ a, (![49040] : Fin 1 → Nat) a + S16.size a ≤ S49824.size a
  inb_S49824_S16_49056 : ∀ a, (![49056] : Fin 1 → Nat) a + S16.size a ≤ S49824.size a
  inb_S49824_S16_49072 : ∀ a, (![49072] : Fin 1 → Nat) a + S16.size a ≤ S49824.size a
  inb_S49824_S16_49088 : ∀ a, (![49088] : Fin 1 → Nat) a + S16.size a ≤ S49824.size a
  inb_S49824_S16_49104 : ∀ a, (![49104] : Fin 1 → Nat) a + S16.size a ≤ S49824.size a
  inb_S49824_S16_49120 : ∀ a, (![49120] : Fin 1 → Nat) a + S16.size a ≤ S49824.size a
  inb_S49824_S16_49136 : ∀ a, (![49136] : Fin 1 → Nat) a + S16.size a ≤ S49824.size a
  inb_S49824_S16_49152 : ∀ a, (![49152] : Fin 1 → Nat) a + S16.size a ≤ S49824.size a
  inb_S49824_S16_49168 : ∀ a, (![49168] : Fin 1 → Nat) a + S16.size a ≤ S49824.size a
  inb_S49824_S16_49184 : ∀ a, (![49184] : Fin 1 → Nat) a + S16.size a ≤ S49824.size a
  inb_S49824_S16_49200 : ∀ a, (![49200] : Fin 1 → Nat) a + S16.size a ≤ S49824.size a
  inb_S49824_S16_49216 : ∀ a, (![49216] : Fin 1 → Nat) a + S16.size a ≤ S49824.size a
  inb_S49824_S16_49232 : ∀ a, (![49232] : Fin 1 → Nat) a + S16.size a ≤ S49824.size a
  inb_S49824_S16_49248 : ∀ a, (![49248] : Fin 1 → Nat) a + S16.size a ≤ S49824.size a
  inb_S49824_S16_49264 : ∀ a, (![49264] : Fin 1 → Nat) a + S16.size a ≤ S49824.size a
  inb_S49824_S16_49280 : ∀ a, (![49280] : Fin 1 → Nat) a + S16.size a ≤ S49824.size a
  inb_S49824_S16_49296 : ∀ a, (![49296] : Fin 1 → Nat) a + S16.size a ≤ S49824.size a
  inb_S49824_S16_49312 : ∀ a, (![49312] : Fin 1 → Nat) a + S16.size a ≤ S49824.size a
  inb_S49824_S16_49328 : ∀ a, (![49328] : Fin 1 → Nat) a + S16.size a ≤ S49824.size a
  inb_S49824_S16_49344 : ∀ a, (![49344] : Fin 1 → Nat) a + S16.size a ≤ S49824.size a
  inb_S49824_S16_49360 : ∀ a, (![49360] : Fin 1 → Nat) a + S16.size a ≤ S49824.size a
  inb_S49824_S16_49376 : ∀ a, (![49376] : Fin 1 → Nat) a + S16.size a ≤ S49824.size a
  inb_S49824_S16_49392 : ∀ a, (![49392] : Fin 1 → Nat) a + S16.size a ≤ S49824.size a
  inb_S49824_S16_49408 : ∀ a, (![49408] : Fin 1 → Nat) a + S16.size a ≤ S49824.size a
  inb_S49824_S16_49424 : ∀ a, (![49424] : Fin 1 → Nat) a + S16.size a ≤ S49824.size a
  inb_S49824_S16_49440 : ∀ a, (![49440] : Fin 1 → Nat) a + S16.size a ≤ S49824.size a
  inb_S49824_S16_49456 : ∀ a, (![49456] : Fin 1 → Nat) a + S16.size a ≤ S49824.size a
  inb_S49824_S16_49472 : ∀ a, (![49472] : Fin 1 → Nat) a + S16.size a ≤ S49824.size a
  inb_S49824_S16_49488 : ∀ a, (![49488] : Fin 1 → Nat) a + S16.size a ≤ S49824.size a
  inb_S49824_S16_49504 : ∀ a, (![49504] : Fin 1 → Nat) a + S16.size a ≤ S49824.size a
  inb_S49824_S16_49520 : ∀ a, (![49520] : Fin 1 → Nat) a + S16.size a ≤ S49824.size a
  inb_S49824_S16_49536 : ∀ a, (![49536] : Fin 1 → Nat) a + S16.size a ≤ S49824.size a
  inb_S49824_S16_49552 : ∀ a, (![49552] : Fin 1 → Nat) a + S16.size a ≤ S49824.size a
  inb_S49824_S16_49568 : ∀ a, (![49568] : Fin 1 → Nat) a + S16.size a ≤ S49824.size a
  inb_S49824_S16_49584 : ∀ a, (![49584] : Fin 1 → Nat) a + S16.size a ≤ S49824.size a
  inb_S49824_S16_49600 : ∀ a, (![49600] : Fin 1 → Nat) a + S16.size a ≤ S49824.size a
  inb_S49824_S16_49616 : ∀ a, (![49616] : Fin 1 → Nat) a + S16.size a ≤ S49824.size a
  inb_S49824_S16_49632 : ∀ a, (![49632] : Fin 1 → Nat) a + S16.size a ≤ S49824.size a
  inb_S49824_S16_49648 : ∀ a, (![49648] : Fin 1 → Nat) a + S16.size a ≤ S49824.size a
  inb_S49824_S16_49664 : ∀ a, (![49664] : Fin 1 → Nat) a + S16.size a ≤ S49824.size a
  inb_S49824_S16_49680 : ∀ a, (![49680] : Fin 1 → Nat) a + S16.size a ≤ S49824.size a
  inb_S49824_S16_49696 : ∀ a, (![49696] : Fin 1 → Nat) a + S16.size a ≤ S49824.size a
  inb_S49824_S16_49712 : ∀ a, (![49712] : Fin 1 → Nat) a + S16.size a ≤ S49824.size a
  inb_S49824_S16_49728 : ∀ a, (![49728] : Fin 1 → Nat) a + S16.size a ≤ S49824.size a
  inb_S49824_S16_49744 : ∀ a, (![49744] : Fin 1 → Nat) a + S16.size a ≤ S49824.size a
  inb_S49824_S16_49760 : ∀ a, (![49760] : Fin 1 → Nat) a + S16.size a ≤ S49824.size a
  inb_S49824_S16_49776 : ∀ a, (![49776] : Fin 1 → Nat) a + S16.size a ≤ S49824.size a
  inb_S49824_S16_49792 : ∀ a, (![49792] : Fin 1 → Nat) a + S16.size a ≤ S49824.size a
  inb_S49824_S16_49808 : ∀ a, (![49808] : Fin 1 → Nat) a + S16.size a ≤ S49824.size a
  inb_S1024_S16_1008 : ∀ a, (![1008] : Fin 1 → Nat) a + S16.size a ≤ S1024.size a
  squeezes_S1x1024_S1024 : S1x1024.Squeezes S1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  reduces_S256x1024_S256 : S256x1024.Reduces [1] S256
  shapeCasts_S256_S256x1 : S256.ShapeCasts S256x1
  inb_S768x128_S768x1_0_0 : ∀ a, (![0, 0] : Fin 2 → Nat) a + S768x1.size a ≤ S768x128.size a
  h_S768x1 : 0 < S768x1.numel
  shapeCasts_S768x1_S768x1 : S768x1.ShapeCasts S768x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  shapeCasts_S768x1_S1x768x1 : S768x1.ShapeCasts S1x768x1
  reduces_S1x768x1_S1 : S1x768x1.Reduces [1, 2] S1
  reduces_S768x1024_S768 : S768x1024.Reduces [1] S768
  shapeCasts_S768_S768x1 : S768.ShapeCasts S768x1
  broadcasts_S256x1_S256x1024 : S256x1.Broadcasts S256x1024
  inb_S1024x1024_S256x1024_0_0 : ∀ a, (![0, 0] : Fin 2 → Nat) a + S256x1024.size a ≤ S1024x1024.size a
  broadcasts_S768x1_S768x1024 : S768x1.Broadcasts S768x1024
  inb_S1024x1024_S768x1024_256_0 : ∀ a, (![256, 0] : Fin 2 → Nat) a + S768x1024.size a ≤ S1024x1024.size a
  dot_S64x12544_S12544x128_S64x128_1_0_0_1_n_n_wf : DotDims.WF S64x12544 S12544x128 S64x128 [1] [0] [0] [1] [] []
  dot_S64x12192_S12192x128_S64x128_1_0_0_1_n_n_wf : DotDims.WF S64x12192 S12192x128 S64x128 [1] [0] [0] [1] [] []
  hcc1_scratch6 : 9 + S_.numel ≤ 19
  hcc1_scratch7 : 10 + S_.numel ≤ 19
  hcc1_scoped0 : 11 + S_.numel ≤ 19
  hcc1_scoped1 : 12 + S_.numel ≤ 19
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x100000.size a ≤ S1024x100000.size a
  hwx0_0 : ∀ i : grid0.Coords, EltTy.bits .f32 = 32 ∨ (Rect.block (s := S1024x100000) S64x100000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x128.size a ≤ S12544x128.size a
  hwx0_1 : ∀ i : grid0.Coords, EltTy.bits .bf16 = 32 ∨ (Rect.block (s := S12544x128) S12544x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S768x1024.size a
  hwx0_2 : ∀ i : grid0.Coords, EltTy.bits .f32 = 32 ∨ (Rect.block (s := S768x1024) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S768x1024.size a
  hwx0_3 : ∀ i : grid0.Coords, EltTy.bits .f32 = 32 ∨ (Rect.block (s := S768x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S768x128.size a
  hwx0_4 : ∀ i : grid0.Coords, EltTy.bits .f32 = 32 ∨ (Rect.block (s := S768x128) S64x128.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S1x50176.size a ≤ S1024x100000.size a
  k1_off2_inb : ∀ i : grid1.Coords, ∀ a, (k1_off2 i) a + S1x49824.size a ≤ S1024x100000.size a
  k1_t1_ok : k1_t1_loop.OK
  k1_off3_inb : ∀ (i : grid1.Coords) (k1_t1 : Fin k1_t1_loop.trips), ∀ a, (k1_off3 i k1_t1) a + S1x50176.size a ≤ S1024x100000.size a
  k1_t2_ok : k1_t2_loop.OK
  k1_off4_inb : ∀ k1_t2 : Fin k1_t2_loop.trips, ∀ (r : Fin 49), ∀ a, (k1_off4 k1_t2 (BitVec.ofNat 32 (16 * r.val))) a + S16.size a ≤ S50176.size a
  k1_off5_inb : ∀ k1_t2 : Fin k1_t2_loop.trips, ∀ (r : Fin 49), ∀ a, (k1_off5 k1_t2 (BitVec.ofNat 32 (16 * r.val))) a + S16.size a ≤ S50176.size a
  k1_off6_inb : ∀ k1_t2 : Fin k1_t2_loop.trips, ∀ a, (k1_off6 k1_t2) a + S16.size a ≤ S1024.size a
  k1_off7_inb : ∀ (i : grid1.Coords) (k1_t1 : Fin k1_t1_loop.trips), ∀ (k1_h1 : k1_cond1 k1_t1 = 1#1), ∀ a, (k1_off7 i k1_t1) a + S1x50176.size a ≤ S1024x100000.size a
  k1_off8_inb : ∀ (i : grid1.Coords) (k1_t1 : Fin k1_t1_loop.trips), ∀ a, (k1_off8 i k1_t1) a + S1x49824.size a ≤ S1024x100000.size a
  k1_t3_ok : k1_t3_loop.OK
  k1_off9_inb : ∀ k1_t3 : Fin k1_t3_loop.trips, ∀ (r : Fin 49), ∀ a, (k1_off9 k1_t3 (BitVec.ofNat 32 (16 * r.val))) a + S16.size a ≤ S49824.size a
  k1_off10_inb : ∀ k1_t3 : Fin k1_t3_loop.trips, ∀ (r : Fin 49), ∀ a, (k1_off10 k1_t3 (BitVec.ofNat 32 (16 * r.val))) a + S16.size a ≤ S49824.size a
  k1_off11_inb : ∀ k1_t3 : Fin k1_t3_loop.trips, ∀ a, (k1_off11 k1_t3) a + S16.size a ≤ S1024.size a
  k1_off12_inb : ∀ (i : grid1.Coords) (k1_t1 : Fin k1_t1_loop.trips), ∀ (k1_h2 : k1_cond2 k1_t1 = 1#1), ∀ a, (k1_off12 i k1_t1) a + S1x49824.size a ≤ S1024x100000.size a
  k1_off13_inb : ∀ (i : grid1.Coords) (k1_t1 : Fin k1_t1_loop.trips), ∀ a, (k1_off13 i k1_t1) a + S1x1024.size a ≤ S256x1024.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole

variable [Facts₀]

abbrev cc1_scratch6 : DmaSems sig S_ := SemArray.consecutive 9 S_ hcc1_scratch6
abbrev cc1_scratch7 : DmaSems sig S_ := SemArray.consecutive 10 S_ hcc1_scratch7
abbrev cc1_scoped0 : DmaSems sig S_ := SemArray.consecutive 11 S_ hcc1_scoped0
abbrev cc1_scoped1 : DmaSems sig S_ := SemArray.consecutive 12 S_ hcc1_scoped1
def dot_S64x12544_S12544x128_S64x128_1_0_0_1_n_n : DotDims S64x12544 S12544x128 S64x128 where
  lhsContracting := [1]
  rhsContracting := [0]
  lhsNonContracting := [0]
  rhsNonContracting := [1]
  lhsBatch := []
  rhsBatch := []
  wf := dot_S64x12544_S12544x128_S64x128_1_0_0_1_n_n_wf
def dot_S64x12192_S12192x128_S64x128_1_0_0_1_n_n : DotDims S64x12192 S12192x128 S64x128 where
  lhsContracting := [1]
  rhsContracting := [0]
  lhsNonContracting := [0]
  rhsNonContracting := [1]
  lhsBatch := []
  rhsBatch := []
  wf := dot_S64x12192_S12192x128_S64x128_1_0_0_1_n_n_wf

abbrev win0_0 : Pipeline.Window sig grid0 :=
  Pipeline.Window.ofSpec (Memref.whole main_arg0) S64x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S12544x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S64x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_2) S64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win2_0 : Pipeline.Window sig grid2 :=
  Pipeline.Window.whole (Memref.whole main_v13_0) false false (stage2_0 0) (sem2_0 0) (Memref.isWhole_whole _) (hstage2_0 0)

abbrev win2_1 : Pipeline.Window sig grid2 :=
  Pipeline.Window.whole (Memref.whole main_v13_1) false false (stage2_1 0) (sem2_1 0) (Memref.isWhole_whole _) (hstage2_1 0)

abbrev win2_2 : Pipeline.Window sig grid2 :=
  Pipeline.Window.whole (Memref.whole main_v12_0) false false (stage2_2 0) (sem2_2 0) (Memref.isWhole_whole _) (hstage2_2 0)

abbrev win2_3 : Pipeline.Window sig grid2 :=
  Pipeline.Window.whole (Memref.whole main_v12_1) false false (stage2_3 0) (sem2_3 0) (Memref.isWhole_whole _) (hstage2_3 0)

abbrev win2_4 : Pipeline.Window sig grid2 :=
  Pipeline.Window.whole (Memref.whole main_v12_2) false false (stage2_4 0) (sem2_4 0) (Memref.isWhole_whole _) (hstage2_4 0)

abbrev win2_5 : Pipeline.Window sig grid2 :=
  Pipeline.Window.whole (Memref.whole main_v14) true false (stage2_5 0) (sem2_5 0) (Memref.isWhole_whole _) (hstage2_5 0)

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1024x100000 : Shape := ⟨2, ![1024, 100000]⟩
abbrev S_ : Shape := ⟨0, ![]⟩
abbrev S1024 : Shape := ⟨1, ![1024]⟩
abbrev S1024x1 : Shape := ⟨2, ![1024, 1]⟩
abbrev S1024x100352 : Shape := ⟨2, ![1024, 100352]⟩
abbrev S1024x1024x98 : Shape := ⟨3, ![1024, 1024, 98]⟩
abbrev S1024x1024 : Shape := ⟨2, ![1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x100000, .f32⟩
  | .hbm, ⟨2, _⟩ => ⟨S1024x100000, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .i1⟩
  | .hbm, ⟨13, _⟩ => ⟨S_, .i1⟩
  | .hbm, ⟨14, _⟩ => ⟨S_, .i1⟩
  | .hbm, ⟨15, _⟩ => ⟨S1024x100000, .f32⟩
  | .hbm, ⟨16, _⟩ => ⟨S1024x100000, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S_, .i32⟩
  | .hbm, ⟨24, _⟩ => ⟨S_, .f32⟩
  | .hbm, ⟨25, _⟩ => ⟨S1024x100352, .f32⟩
  | .hbm, ⟨26, _⟩ => ⟨S1024x1024x98, .f32⟩
  | .hbm, ⟨27, _⟩ => ⟨S_, .f32⟩
  | .hbm, ⟨28, _⟩ => ⟨S1024x1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_call1_v0 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S1024x100000_S1024_d1 : S1024x100000.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S1024x1_S_d0_1 : S1024x1.ReducesTo [0, 1] S_
  bcast_S1024x1_S1024x100000_0_1 : S1024x1.BroadcastsInDim S1024x100000 (![0, 1] : Fin 2 → Fin S1024x100000.rank)
  bcast_S_S1024x100000 : S_.BroadcastsInDim S1024x100000 (![] : Fin 0 → Fin S1024x100000.rank)
  pads_S1024x100000_S1024x100352_000_03520 : S1024x100000.Pads (![0, 0] : Fin 2 → Nat) ![0, 352] ![0, 0] S1024x100352
  shapeCasts_S1024x100352_S1024x1024x98 : S1024x100352.ShapeCasts S1024x1024x98
  reducesTo_S1024x1024x98_S1024x1024_d2 : S1024x1024x98.ReducesTo [2] S1024x1024

variable [Facts₀]

class Facts : Prop extends Facts₀ where

variable [Facts]
-- ==== Proof.Ghost.lean ====
import proofs.«207604_g45191645889005_cont_8to1c4_5_22_alg».proof.Proof.Gen.KernelIdeal
import Idealize.ShloMosaic.Lib.SparseCore.Launch
import Idealize.ShloMosaic.Lib.Pipeline.Kit
import Idealize.ShloMosaic.Lib.Transfers

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev 𝕄' (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

abbrev ER : Emb (UP × Counters) (MT nD τ sig (HIx 1) (Elt F) ℕ UU ℕ) := embR

def EP : Emb UP (MT nD τ sig (HIx 1) (Elt F) ℕ UU ℕ) := (Emb.inl : Emb UP (UP × Counters)).trans ER

abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP ER; infer_instance

theorem ownU_triple (a : UH) (b : UP) (c : Counters) :
    (ownU ((a, (b, c)) : UU) : sProp 𝕄)
      ⊢ iprop(BI.own (EH a) ∗ BI.own (EP b) ∗ BI.own (((Emb.inr : Emb Counters (UP × Counters)).trans ER) c)) := by
  iintro Hu
  ihave H := (ownU_pair a (b, c)) $$ Hu
  icases H with ⟨HH, HR⟩
  isplitl [HH]; · iexact HH
  iapply (own_pair_emb (ER (F := F)) b c); iexact HR

abbrev xLoc (d : Dev nD) : Loc nD τ sig := (SparseCore.T d).loc main_arg0
abbrev gsLoc (d : Dev nD) : Loc nD τ sig := (SparseCore.T d).loc main_v13_0
abbrev gsqLoc (d : Dev nD) : Loc nD τ sig := (SparseCore.T d).loc main_v13_1

end Cert.KernelIdeal.Pf

end
-- ==== Proof.MainHost.lean ====
import proofs.«207604_g45191645889005_cont_8to1c4_5_22_alg».proof.Proof.Ghost
import Idealize.ShloMosaic.Lib.StableHlo.Run
import Idealize.ShloMosaic.Lib.Pipeline.Regions

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def hostOps : List (HloOp τ sig (Elt F)) :=
  [StableHlo.nullary main_v0 (iotaInDim S12544x128 32 0),
   StableHlo.nullary main_v1 (iotaInDim S12544x128 32 1),
   StableHlo.nullary main_c (constantI S_ 32 98#32),
   StableHlo.unary main_c main_v2 (broadcastInDim S12544x128 ![] bcast_S_S12544x128 : (⟨S_, .i32⟩ : BufTy).Contents (Elt F) → (⟨S12544x128, .i32⟩ : BufTy).Contents (Elt F)),
   StableHlo.binary main_v1 main_v2 main_v3 (muli : (⟨S12544x128, .i32⟩ : BufTy).Contents (Elt F) → (⟨S12544x128, .i32⟩ : BufTy).Contents (Elt F) → (⟨S12544x128, .i32⟩ : BufTy).Contents (Elt F)),
   StableHlo.binary main_v0 main_v3 main_v4 (cmpi .sge : (⟨S12544x128, .i32⟩ : BufTy).Contents (Elt F) → (⟨S12544x128, .i32⟩ : BufTy).Contents (Elt F) → (⟨S12544x128, .i1⟩ : BufTy).Contents (Elt F)),
   StableHlo.nullary main_c_0 (constantI S_ 32 1#32),
   StableHlo.unary main_c_0 main_v5 (broadcastInDim S12544x128 ![] bcast_S_S12544x128 : (⟨S_, .i32⟩ : BufTy).Contents (Elt F) → (⟨S12544x128, .i32⟩ : BufTy).Contents (Elt F)),
   StableHlo.binary main_v1 main_v5 main_v6 (addi : (⟨S12544x128, .i32⟩ : BufTy).Contents (Elt F) → (⟨S12544x128, .i32⟩ : BufTy).Contents (Elt F) → (⟨S12544x128, .i32⟩ : BufTy).Contents (Elt F)),
   StableHlo.nullary main_c_1 (constantI S_ 32 98#32),
   StableHlo.unary main_c_1 main_v7 (broadcastInDim S12544x128 ![] bcast_S_S12544x128 : (⟨S_, .i32⟩ : BufTy).Contents (Elt F) → (⟨S12544x128, .i32⟩ : BufTy).Contents (Elt F)),
   StableHlo.binary main_v6 main_v7 main_v8 (muli : (⟨S12544x128, .i32⟩ : BufTy).Contents (Elt F) → (⟨S12544x128, .i32⟩ : BufTy).Contents (Elt F) → (⟨S12544x128, .i32⟩ : BufTy).Contents (Elt F)),
   StableHlo.binary main_v0 main_v8 main_v9 (cmpi .slt : (⟨S12544x128, .i32⟩ : BufTy).Contents (Elt F) → (⟨S12544x128, .i32⟩ : BufTy).Contents (Elt F) → (⟨S12544x128, .i1⟩ : BufTy).Contents (Elt F)),
   StableHlo.binary main_v4 main_v9 main_v10 (andi : (⟨S12544x128, .i1⟩ : BufTy).Contents (Elt F) → (⟨S12544x128, .i1⟩ : BufTy).Contents (Elt F) → (⟨S12544x128, .i1⟩ : BufTy).Contents (Elt F)),
   StableHlo.unary main_v10 main_v11 (uitofp .bf16 : (⟨S12544x128, .i1⟩ : BufTy).Contents (Elt F) → (⟨S12544x128, .bf16⟩ : BufTy).Contents (Elt F))]

def mainTail (d : Dev nD) : Prog (TpuEff nD τ sig (Elt F) (SparseCore.Sig (ΛP (F := F)) 1) .tc) PUnit := do
  Prog.lift (.customCall (SparseCore.inner (Pipeline.entry 0)) ())
  (sc (F := F)).run d 0
  Prog.lift (.customCall (SparseCore.inner (Pipeline.entry 1)) ())
  pure ⟨⟩

theorem main_eq (d : Dev nD) : main (F := F) d = (StableHlo.seq (hostOps (F := F)) >>= fun _ => mainTail d) := by
  chain_rfl

def selVal : Vec F S12544x128 .bf16 :=
  (uitofp .bf16 (andi (cmpi .sge (iotaInDim S12544x128 32 0) (muli (iotaInDim S12544x128 32 1) (broadcastInDim S12544x128 ![] bcast_S_S12544x128 (constantI S_ 32 98#32))))
    (cmpi .slt (iotaInDim S12544x128 32 0) (muli (addi (iotaInDim S12544x128 32 1) (broadcastInDim S12544x128 ![] bcast_S_S12544x128 (constantI S_ 32 1#32))) (broadcastInDim S12544x128 ![] bcast_S_S12544x128 (constantI S_ 32 98#32))))) : FVec F S12544x128 .bf16)

theorem after_sel (W : Valuation τ sig (Elt F)) :
    StableHlo.after (hostOps (F := F)) W (Proc.devRef .tc main_v11) = (selVal (F := F) : Vec F S12544x128 .bf16) := by
  unfold hostOps
  after_results
  rfl

theorem after_arg0 (W : Valuation τ sig (Elt F)) :
    StableHlo.after (hostOps (F := F)) W (Proc.devRef .tc main_arg0) = W (Proc.devRef .tc main_arg0) := by
  unfold hostOps
  after_results

end Cert.KernelIdeal.Pf

end
-- ==== Proof.TilePay.lean ====
import proofs.«207604_g45191645889005_cont_8to1c4_5_22_alg».proof.Proof.Ghost

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's three arrays and six scratch buffers, whole. -/
scoped notation "aX" => (Memref.whole Cert.KernelIdeal.main_arg0_scv : Memref Cert.KernelIdeal.sig Kind.scVector Space.hbm Cert.KernelIdeal.S1024x100000 EltTy.f32)
scoped notation "aG" => (Memref.whole Cert.KernelIdeal.main_v13_0_scv : Memref Cert.KernelIdeal.sig Kind.scVector Space.hbm Cert.KernelIdeal.S256x1024 EltTy.f32)
scoped notation "aQ" => (Memref.whole Cert.KernelIdeal.main_v13_1_scv : Memref Cert.KernelIdeal.sig Kind.scVector Space.hbm Cert.KernelIdeal.S256x1024 EltTy.f32)
scoped notation "bA" => (Memref.whole Cert.KernelIdeal.cc1_scratch0 : Memref Cert.KernelIdeal.sig Kind.scVector Space.vmem Cert.KernelIdeal.S50176 EltTy.f32)
scoped notation "bB" => (Memref.whole Cert.KernelIdeal.cc1_scratch1 : Memref Cert.KernelIdeal.sig Kind.scVector Space.vmem Cert.KernelIdeal.S49824 EltTy.f32)
scoped notation "bO" => (Memref.whole Cert.KernelIdeal.cc1_scratch2 : Memref Cert.KernelIdeal.sig Kind.scVector Space.vmem Cert.KernelIdeal.S1024 EltTy.f32)
scoped notation "bP" => (Memref.whole Cert.KernelIdeal.cc1_scratch3 : Memref Cert.KernelIdeal.sig Kind.scVector Space.vmem Cert.KernelIdeal.S1024 EltTy.f32)
scoped notation "tS" => (Memref.whole Cert.KernelIdeal.cc1_scratch4 : Memref Cert.KernelIdeal.sig Kind.scVector Space.vmem Cert.KernelIdeal.S272 EltTy.f32)
scoped notation "tQ" => (Memref.whole Cert.KernelIdeal.cc1_scratch5 : Memref Cert.KernelIdeal.sig Kind.scVector Space.vmem Cert.KernelIdeal.S272 EltTy.f32)

def wOf (c : Fin 2) (i : Fin 16) : ℕ := 2 * i.val + c.val

theorem wOf_lt (c : Fin 2) (i : Fin 16) : wOf c i < 32 := by unfold wOf; omega

def rowsX (w : ℕ) : Finset S1024x100000.Idx := Finset.univ.filter fun j => 8 * w ≤ (j 0).val ∧ (j 0).val < 8 * w + 8

def rowsO (w : ℕ) : Finset S256x1024.Idx := Finset.univ.filter fun j => 8 * w ≤ (j 0).val ∧ (j 0).val < 8 * w + 8

theorem mem_rowsX {w : ℕ} {j : S1024x100000.Idx} : j ∈ rowsX w ↔ 8 * w ≤ (j 0).val ∧ (j 0).val < 8 * w + 8 := by
  unfold rowsX; rw [Finset.mem_filter]; exact ⟨fun h => h.2, fun h => ⟨Finset.mem_univ _, h⟩⟩
theorem mem_rowsO {w : ℕ} {j : S256x1024.Idx} : j ∈ rowsO w ↔ 8 * w ≤ (j 0).val ∧ (j 0).val < 8 * w + 8 := by
  unfold rowsO; rw [Finset.mem_filter]; exact ⟨fun h => h.2, fun h => ⟨Finset.mem_univ _, h⟩⟩

def tileGo (m : (ℓ : Loc nD τ sig) → Buf (Elt F) ℓ) (d : Dev nD) (c : Fin 2) (i : Fin 16) : sProp 𝕄 :=
  iprop((xLoc d ↦[rowsX (wOf c i)]{fullShare} m (xLoc d)) ∗ (gsLoc d ↦[rowsO (wOf c i)]{fullShare} m (gsLoc d))
    ∗ (gsqLoc d ↦[rowsO (wOf c i)]{fullShare} m (gsqLoc d)))

def tileTd (gs gsq : Vec F S1024x100000 .f32 → Vec F S256x1024 .f32) (m : (ℓ : Loc nD τ sig) → Buf (Elt F) ℓ) (d : Dev nD) (c : Fin 2) (i : Fin 16) :
    sProp 𝕄 :=
  iprop((xLoc d ↦[rowsX (wOf c i)]{fullShare} m (xLoc d)) ∗ (gsLoc d ↦[rowsO (wOf c i)]{fullShare} gs (m (xLoc d)))
    ∗ (gsqLoc d ↦[rowsO (wOf c i)]{fullShare} gsq (m (xLoc d))))

instance tileGo_storable (m : (ℓ : Loc nD τ sig) → Buf (Elt F) ℓ) (d : Dev nD) (c : Fin 2) (i : Fin 16) :
    BI.Storable (upEmb : UEmb _ 𝕄) (tileGo m d c i) := by
  unfold tileGo; infer_instance
instance tileTd_storable (gs gsq : Vec F S1024x100000 .f32 → Vec F S256x1024 .f32) (m : (ℓ : Loc nD τ sig) → Buf (Elt F) ℓ) (d : Dev nD)
    (c : Fin 2) (i : Fin 16) : BI.Storable (upEmb : UEmb _ 𝕄) (tileTd gs gsq m d c i) := by
  unfold tileTd; infer_instance

end Cert.KernelIdeal.Pf

end
-- ==== Proof.Pay.lean ====
import proofs.«207604_g45191645889005_cont_8to1c4_5_22_alg».proof.Proof.TilePay

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (gs gsq : Vec F S1024x100000 .f32 → Vec F S256x1024 .f32) (m : (ℓ : Loc nD τ sig) → Buf (Elt F) ℓ)

theorem nCore_eq (q : Fin 1) : (K (F := F)).nCore q = 2 := match q with | 0 => rfl
theorem nSub_eq (q : Fin 1) : (K (F := F)).nSub q = 16 := match q with | 0 => rfl

def coreX (c : Fin 2) : Finset S1024x100000.Idx := (Finset.univ : Finset (Fin 16)).biUnion fun i => rowsX (wOf c i)
def coreO (c : Fin 2) : Finset S256x1024.Idx := (Finset.univ : Finset (Fin 16)).biUnion fun i => rowsO (wOf c i)

def coreSt (d : Dev nD) (c : Fin 2) : sProp 𝕄 :=
  iprop((xLoc d ↦[coreX c]{fullShare} m (xLoc d)) ∗ (gsLoc d ↦[coreO c]{fullShare} m (gsLoc d)) ∗ (gsqLoc d ↦[coreO c]{fullShare} m (gsqLoc d)))

def coreDn (d : Dev nD) (c : Fin 2) : sProp 𝕄 :=
  iprop((xLoc d ↦[coreX c]{fullShare} m (xLoc d)) ∗ (gsLoc d ↦[coreO c]{fullShare} gs (m (xLoc d))) ∗ (gsqLoc d ↦[coreO c]{fullShare} gsq (m (xLoc d))))

def P : (K (F := F)).Pay (nD := nD) (Val := Elt F) (Name := ℕ) (U := UU) where
  st := fun q d c => coreSt m d (Fin.cast (nCore_eq q) c)
  dn := fun q d c => coreDn gs gsq m d (Fin.cast (nCore_eq q) c)
  go := fun q d c i => tileGo m d (Fin.cast (nCore_eq q) c) (Fin.cast (nSub_eq q) i)
  td := fun q d c i => tileTd gs gsq m d (Fin.cast (nCore_eq q) c) (Fin.cast (nSub_eq q) i)
  x := fun _ _ => iprop(emp)

theorem P_st (q : Fin 1) (d : Dev nD) (c : Fin ((K (F := F)).nCore q)) : (P gs gsq m).st q d c = coreSt m d (Fin.cast (nCore_eq q) c) := rfl
theorem P_dn (q : Fin 1) (d : Dev nD) (c : Fin ((K (F := F)).nCore q)) : (P gs gsq m).dn q d c = coreDn gs gsq m d (Fin.cast (nCore_eq q) c) := rfl
theorem P_go (q : Fin 1) (d : Dev nD) (c : Fin ((K (F := F)).nCore q)) (i : Fin ((K (F := F)).nSub q)) :
    (P gs gsq m).go q d c i = tileGo m d (Fin.cast (nCore_eq q) c) (Fin.cast (nSub_eq q) i) := rfl
theorem P_td (q : Fin 1) (d : Dev nD) (c : Fin ((K (F := F)).nCore q)) (i : Fin ((K (F := F)).nSub q)) :
    (P gs gsq m).td q d c i = tileTd gs gsq m d (Fin.cast (nCore_eq q) c) (Fin.cast (nSub_eq q) i) := rfl
theorem P_x (q : Fin 1) (thr : Thread nD τ) : (P gs gsq m).x q thr = iprop(emp) := rfl
theorem P_ox : (P gs gsq m).ox = fun _ _ => 0 := rfl

instance P_storable : (P (F := F) gs gsq m).IsStorable where
  st q d c := by rw [P_st]; unfold coreSt; infer_instance
  dn q d c := by rw [P_dn]; unfold coreDn; infer_instance
  go q d c i := by rw [P_go]; infer_instance
  td q d c i := by rw [P_td]; infer_instance

theorem rowsX_disjoint {w w' : ℕ} (h : w ≠ w') : Disjoint (rowsX w) (rowsX w') :=
  Finset.disjoint_left.mpr fun i hi hi' => by
    rw [mem_rowsX] at hi hi'; omega
theorem rowsO_disjoint {w w' : ℕ} (h : w ≠ w') : Disjoint (rowsO w) (rowsO w') :=
  Finset.disjoint_left.mpr fun i hi hi' => by
    rw [mem_rowsO] at hi hi'; omega

theorem wOf_inj {c c' : Fin 2} {i i' : Fin 16} (h : wOf c i = wOf c' i') : c = c' ∧ i = i' := by
  unfold wOf at h; exact ⟨Fin.ext (by omega), Fin.ext (by omega)⟩

theorem tilesX_disjoint (c : Fin 2) : ∀ i ∈ (Finset.univ : Finset (Fin 16)), ∀ j ∈ (Finset.univ : Finset (Fin 16)), i ≠ j →
    Disjoint (rowsX (wOf c i)) (rowsX (wOf c j)) :=
  fun _ _ _ _ h => rowsX_disjoint fun e => h (wOf_inj e).2
theorem tilesO_disjoint (c : Fin 2) : ∀ i ∈ (Finset.univ : Finset (Fin 16)), ∀ j ∈ (Finset.univ : Finset (Fin 16)), i ≠ j →
    Disjoint (rowsO (wOf c i)) (rowsO (wOf c j)) :=
  fun _ _ _ _ h => rowsO_disjoint fun e => h (wOf_inj e).2

theorem coresX_disjoint : ∀ c ∈ (Finset.univ : Finset (Fin 2)), ∀ c' ∈ (Finset.univ : Finset (Fin 2)), c ≠ c' → Disjoint (coreX c) (coreX c') :=
  fun c _ c' _ h => by
    unfold coreX
    rw [Finset.disjoint_biUnion_left]; intro i _
    rw [Finset.disjoint_biUnion_right]; intro j _
    exact rowsX_disjoint fun e => h (wOf_inj e).1
theorem coresO_disjoint : ∀ c ∈ (Finset.univ : Finset (Fin 2)), ∀ c' ∈ (Finset.univ : Finset (Fin 2)), c ≠ c' → Disjoint (coreO c) (coreO c') :=
  fun c _ c' _ h => by
    unfold coreO
    rw [Finset.disjoint_biUnion_left]; intro i _
    rw [Finset.disjoint_biUnion_right]; intro j _
    exact rowsO_disjoint fun e => h (wOf_inj e).1

def lowX : Finset S1024x100000.Idx := Finset.univ.filter fun i => (i 0).val < 256

theorem mem_lowX {i : S1024x100000.Idx} : i ∈ lowX ↔ (i 0).val < 256 := by
  unfold lowX; rw [Finset.mem_filter]; exact ⟨fun h => h.2, fun h => ⟨Finset.mem_univ _, h⟩⟩

theorem cores_X : (Finset.univ : Finset (Fin 2)).biUnion coreX = lowX := by
  ext i
  simp only [coreX, mem_lowX, Finset.mem_biUnion, Finset.mem_univ, true_and, mem_rowsX, wOf]
  constructor
  · rintro ⟨c, j, h⟩; omega
  · intro h
    exact ⟨⟨((i 0).val / 8) % 2, by omega⟩, ⟨(i 0).val / 16, by omega⟩, by dsimp only; omega⟩

theorem cores_O : (Finset.univ : Finset (Fin 2)).biUnion coreO = Finset.univ := by
  ext i
  have hi : (i 0).val < 256 := (i 0).isLt
  simp only [coreO, Finset.mem_biUnion, Finset.mem_univ, true_and, mem_rowsO, wOf, iff_true]
  exact ⟨⟨((i 0).val / 8) % 2, by omega⟩, ⟨(i 0).val / 16, by omega⟩, by dsimp only; omega⟩

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

theorem coreSt_tiles (d : Dev nD) (c : Fin 2) : coreSt m d c = bigSep Finset.univ fun i : Fin 16 => tileGo m d c i := by
  unfold coreSt tileGo coreX coreO
  rw [pointsTo_biUnion Finset.univ (ℓ := xLoc d) _ (tilesX_disjoint c), pointsTo_biUnion Finset.univ (ℓ := gsLoc d) _ (tilesO_disjoint c),
    pointsTo_biUnion Finset.univ (ℓ := gsqLoc d) _ (tilesO_disjoint c), bigSep_sep', bigSep_sep']
theorem coreDn_tiles (d : Dev nD) (c : Fin 2) : coreDn gs gsq m d c = bigSep Finset.univ fun i : Fin 16 => tileTd gs gsq m d c i := by
  unfold coreDn tileTd coreX coreO
  rw [pointsTo_biUnion Finset.univ (ℓ := xLoc d) _ (tilesX_disjoint c), pointsTo_biUnion Finset.univ (ℓ := gsLoc d) _ (tilesO_disjoint c),
    pointsTo_biUnion Finset.univ (ℓ := gsqLoc d) _ (tilesO_disjoint c), bigSep_sep', bigSep_sep']

theorem vecSplit : (K (F := F)).VecSplit' (P gs gsq m) 0 := by
  intro d c
  simp only [P_st, P_dn, P_go, P_td]
  rw [bigSep_tasks (F := F) (fun i => tileGo m d (Fin.cast (nCore_eq 0) c) i), bigSep_tasks (F := F) (fun i => tileTd gs gsq m d (Fin.cast (nCore_eq 0) c) i),
    coreSt_tiles, coreDn_tiles]
  iintro H; imodintro
  isplitl [H]; · iexact H
  iintro H; iexact H

theorem st_all (d : Dev nD) :
    (bigSep Finset.univ fun c : Fin ((K (F := F)).nCore 0) => (P gs gsq m).st 0 d c)
      = iprop((xLoc d ↦[lowX]{fullShare} m (xLoc d)) ∗ (gsLoc d ↦{fullShare} m (gsLoc d)) ∗ (gsqLoc d ↦{fullShare} m (gsqLoc d))) := by
  simp only [P_st]
  rw [bigSep_cores (F := F) (fun c => coreSt m d c)]
  unfold coreSt
  rw [bigSep_sep', bigSep_sep', ← pointsTo_biUnion Finset.univ (ℓ := xLoc d) coreX coresX_disjoint, ← pointsTo_biUnion Finset.univ (ℓ := gsLoc d) coreO coresO_disjoint,
    ← pointsTo_biUnion Finset.univ (ℓ := gsqLoc d) coreO coresO_disjoint, cores_X, cores_O]
theorem dn_all (d : Dev nD) :
    (bigSep Finset.univ fun c : Fin ((K (F := F)).nCore 0) => (P gs gsq m).dn 0 d c)
      = iprop((xLoc d ↦[lowX]{fullShare} m (xLoc d)) ∗ (gsLoc d ↦{fullShare} gs (m (xLoc d))) ∗ (gsqLoc d ↦{fullShare} gsq (m (xLoc d)))) := by
  simp only [P_dn]
  rw [bigSep_cores (F := F) (fun c => coreDn gs gsq m d c)]
  unfold coreDn
  rw [bigSep_sep', bigSep_sep', ← pointsTo_biUnion Finset.univ (ℓ := xLoc d) coreX coresX_disjoint, ← pointsTo_biUnion Finset.univ (ℓ := gsLoc d) coreO coresO_disjoint,
    ← pointsTo_biUnion Finset.univ (ℓ := gsqLoc d) coreO coresO_disjoint, cores_X, cores_O]

theorem x_rows (d : Dev nD) (f : Buf (Elt F) (xLoc d)) :
    (xLoc d ↦{fullShare} f : sProp 𝕄) ⊣⊢ iprop((xLoc d ↦[lowX]{fullShare} f) ∗ xLoc d ↦[Finset.univ \ lowX]{fullShare} f) :=
  pointsTo_split_subset (Finset.subset_univ _)

end Cert.KernelIdeal.Pf

end
-- ==== Proof.LaunchElem.lean ====
import proofs.«207604_g45191645889005_cont_8to1c4_5_22_alg».proof.Proof.Pay
import proofs.«207604_g45191645889005_cont_8to1c4_5_22_alg».proof.Proof.Gen.KernelIdeal.Launch
import Idealize.ShloMosaic.Lib.Pipeline.Sound
import Idealize.ShloMosaic.Lib.Pipeline.Regions

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev outLoc (d : Dev nD) : Loc nD τ sig := (SparseCore.T d).loc main_v14

variable (gs gsq : Vec F S1024x100000 .f32 → Vec F S256x1024 .f32) (r : (d : Dev nD) → Buf (Elt F) (outLoc d))
variable (m : (ℓ : Loc nD τ sig) → Buf (Elt F) ℓ) (ρ : Dev nD → PrngReg)

abbrev adm : (p : Fin 2) → (pcfgs (F := F) p).Adm := fun p => (cfgs p).toPCfg_adm

theorem phinj : Function.Injective (Pipeline.cellOf (nD := nD) (τ := τ) (Pipeline.pin (pcfgs (F := F)) adm)) := cellOf_inj

abbrev pipeGhost (p : Fin 2) (d : Dev nD) : sProp 𝕄 :=
  iprop(Pipeline.cellsGhost (Pipeline.pin (pcfgs (F := F)) adm) EP p d ∗ Pipeline.toksInit (Pipeline.pin (pcfgs (F := F)) adm) EP p d)

def G (d : Dev nD) : sProp 𝕄 := iprop(pipeGhost (F := F) 0 d ∗ pipeGhost (F := F) 1 d)

theorem G_eq (d : Dev nD) : G (F := F) d = iprop(pipeGhost (F := F) 0 d ∗ pipeGhost (F := F) 1 d) := rfl

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

theorem deal4 (A0 A1 B0 B1 : sProp 𝕄) : iprop((A0 ∗ A1) ∗ B0 ∗ B1) ⊢ iprop((A0 ∗ B0) ∗ (A1 ∗ B1)) := by
  iintro ⟨⟨Hc0, Hc1⟩, Ht0, Ht1⟩
  isplitl [Hc0 Ht0]
  · isplitl [Hc0] <;> iassumption
  · isplitl [Hc1] <;> iassumption

theorem ghost_deal :
    iprop((bigSep Finset.univ fun c : Dev nD => bigSep Finset.univ fun p : Fin 2 => (Pipeline.cellsGhost (Pipeline.pin (pcfgs (F := F)) adm) EP p c : sProp 𝕄))
        ∗ (bigSep Finset.univ fun c : Dev nD => bigSep Finset.univ fun p : Fin 2 => (Pipeline.toksInit (Pipeline.pin (pcfgs (F := F)) adm) EP p c : sProp 𝕄)))
      ⊢ bigSep Finset.univ fun d : Dev nD => G (F := F) d := by
  rw [← bigSep_sep']
  refine bigSep_mono fun d _ => ?_
  rw [bigSep_fin2, bigSep_fin2, G_eq]
  exact deal4 _ _ _ _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P gs gsq m).x q thr) := by
  unfold u₀
  iintro Hu
  ihave H := (ownU_triple _ _ _) $$ Hu
  icases H with ⟨HH, HP, -⟩
  imod (Pipeline.fund_ghost (Pipeline.pin (pcfgs (F := F)) adm) EP phinj) $$ HP with HG
  imodintro
  isplitl [HH]; · iexact HH
  isplitl [HG]; · iapply ghost_deal; iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem hu₀' : iprop(ownU (u₀ (F := F)) ∗ (P gs gsq m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P gs gsq m).x q thr) :=
  sep_elim_left.trans (hu₀ gs gsq m)

abbrev FIN (d : Dev nD) : sProp 𝕄 := iprop((xLoc d ↦{fullShare} m (xLoc d)) ∗ outLoc d ↦{fullShare} r d)

def fq (d : Dev nD) (s' : Phys nD τ sig (Elt F)) : Prop := s'.mem.mem (xLoc d) = m (xLoc d) ∧ s'.mem.mem (outLoc d) = r d

theorem hfin (d : Dev nD) (s' : Phys nD τ sig (Elt F)) : iprop(FIN r m d ∗ SI s') ⊢ (⌜fq r m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := outLoc d) (I := Finset.univ) (q := fullShare) (f := r d)) $$ [HSI Ho]
  · isplitl [HSI] <;> iassumption
  icases H with %h2
  ipureintro; exact ⟨funext fun i => h1 i (Finset.mem_univ i), funext fun i => h2 i (Finset.mem_univ i)⟩

def QC : PUnit × MemSt nD τ sig (Elt F) → Prop := fun rr => ∀ c : Dev nD, rr.2.mem (xLoc c) = m (xLoc c) ∧ rr.2.mem (outLoc c) = r c

variable [FloatOps F]

theorem run_of [∀ e, Nonempty (Elt F e)]
    (htile : (K (F := F)).TileObl (D (F := F)) 𝒱 (P gs gsq m) v₀ 0)
    (hmain : ∀ (κ : GSem nD τ sig → ℕ) (d : Dev nD),
      iprop((K (F := F)).ctx EH (P gs gsq m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN r m d)) :
    θ_run (Cert.KernelIdeal.defs (F := F)) (Cert.KernelIdeal.threads (F := F)) ⟨m, fun _ => 0, ρ⟩ (QC r m) :=
  SparseCore.Cfg.θ_run_sc (K := K (F := F)) (D := D (F := F)) (𝒱 := 𝒱) (EH := EH) (P := P gs gsq m) facts v₀
    (fun q hq => match q with | 0 => nomatch hq)
    (fun q _ => match q with | 0 => htile)
    (fun q _ => match q with | 0 => SparseCore.Cfg.VecSplit.of_plain (vecSplit gs gsq m))
    m ρ main (G (F := F)) (FIN r m) (u₀ (F := F)) (hu₀' gs gsq m) hmain (fq r m) (hfin r m) (QC r m) (fun _ h => h)

end Cert.KernelIdeal.Pf

end
-- ==== Proof.MainRegion.lean ====
import proofs.«207604_g45191645889005_cont_8to1c4_5_22_alg».proof.Proof.MainHost
import proofs.«207604_g45191645889005_cont_8to1c4_5_22_alg».proof.Proof.LaunchElem
import Idealize.ShloMosaic.Lib.Pipeline.Frame
import Idealize.ShloMosaic.Lib.Tactic

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

def W0 (d : Dev nD) : Valuation τ sig (Elt F) := fun b => m (d, b)
def Wh (d : Dev nD) : Valuation τ sig (Elt F) := StableHlo.after (hostOps (F := F)) (W0 m d)

theorem hostOps_tc : (hostOps (F := F)).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub ..⟩

theorem hostOps_sub : ∀ op ∈ (hostOps (F := F)), op.bufs ⊆ Pipeline.ucRefs τ sig :=
  fun op hop => Pipeline.sub_ucRefs op (List.forall_iff_forall_mem.mp hostOps_tc op hop)

theorem hostOps_fresh : ∀ op ∈ (hostOps (F := F)), op.fresh = ∅ := by
  intro op hop
  unfold hostOps at hop
  simp only [List.mem_cons, List.mem_nil_iff, or_false] at hop
  rcases hop with rfl | rfl | rfl | rfl | rfl | rfl | rfl | rfl | rfl | rfl | rfl | rfl | rfl | rfl | rfl <;> rfl

theorem wp_region
    (pdats : (p : Fin 2) → (c : Dev nD) → Pipeline.Dat τ (Elt F) (HIx 1) ℕ UU ℕ (Pipeline.pin (pcfgs (F := F)) adm p) c)
    (p : Fin 2) (R : Pipeline.RegionSeg (pcfgs (F := F)) adm pdats (none : HIx 1) (defs₀ (F := F)) 𝒱₀ (K (F := F)).L (K (F := F)).lev p)
    (d : Dev nD) {α : Type} (k : PUnit → Prog (TpuEff nD τ sig (Elt F) (SparseCore.Sig (ΛP (F := F)) 1) .tc) α) (Q : α → sProp 𝕄) :
    iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev ∗ pipeGhost (F := F) p d)
      ⊢ wp frame (wpE ((K (F := F)).defs (D (F := F))) 𝒱 (d.tc : Thread nD τ) none) Set.univ
          (Prog.lift (.customCall (SparseCore.inner (Pipeline.entry p)) ()) >>= k) Q := by
  have hprog : (Prog.lift (TpuEff.customCall (SparseCore.inner (Pipeline.entry p)) ()) : Prog (TpuEff nD τ sig (Elt F) (SparseCore.Sig (ΛP (F := F)) 1) .tc) PUnit)
      = SparseCore.liftProg (Q := 1) (Prog.op (TpuEff.customCall (Pipeline.entry p) ()) fun _ => Prog.ret PUnit.unit) := rfl
  rw [wp_bind, hprog]
  have hreg : iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev ∗ pipeGhost (F := F) p d)
      ⊢ wp frame (wpE (D (F := F)) 𝒱 (d.tc : Thread nD τ) none) Set.univ
          (Prog.op (TpuEff.customCall (Pipeline.entry p) ()) fun _ => Prog.ret PUnit.unit)
          (fun a => wp frame (wpE ((K (F := F)).defs (D (F := F))) 𝒱 (d.tc : Thread nD τ) none) Set.univ (k a) Q) := by
    iintro ⟨Hk, Hb, Hpre, Hlv, Hcg, Htk⟩
    iapply (Pipeline.RegionSeg.wp (pcfgs (F := F)) adm pdats (none : HIx 1) phinj EP (defs₀ (F := F)) 𝒱₀ (K (F := F)).L (K (F := F)).lev R d none
        (fun u hu => absurd hu (by simp)) (fun _ => Prog.ret PUnit.unit)
        (fun a => wp frame (wpE ((K (F := F)).defs (D (F := F))) 𝒱 (d.tc : Thread nD τ) none) Set.univ (k a) Q)) $$ [Hk Hb Hpre Hlv Hcg Htk]
    isplitl [Hk]
    · iintro H
      rw [wp_ret]; imodintro
      iapply Hk; iexact H
    isplitl [Hb]; · iexact Hb
    isplitl [Hpre]; · iexact Hpre
    isplitl [Hlv]; · iexact Hlv
    isplitl [Hcg]; · iexact Hcg
    iexact Htk
  exact hreg.trans (SparseCore.Cfg.wp_liftProg (K (F := F)) (D (F := F)) 𝒱 (d.tc : Thread nD τ) Set.univ none
    (Prog.op (TpuEff.customCall (Pipeline.entry p) ()) fun _ => Prog.ret PUnit.unit) _)

end Cert.KernelIdeal.Pf

end
-- ==== Proof.CallStep.lean ====
import proofs.«207604_g45191645889005_cont_8to1c4_5_22_alg».proof.Proof.Pay

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (gs gsq : Vec F S1024x100000 .f32 → Vec F S256x1024 .f32) (m : (ℓ : Loc nD τ sig) → Buf (Elt F) ℓ)

theorem wp_call [FloatOps F] (κ : GSem nD τ sig → ℕ) (d : Dev nD) {Φ : PUnit → sProp 𝕄} :
    iprop((K (F := F)).ctx EH (P gs gsq m) κ ∗ (K (F := F)).tcSt EH d 0
        ∗ (xLoc d ↦{fullShare} m (xLoc d)) ∗ (gsLoc d ↦{fullShare} m (gsLoc d)) ∗ (gsqLoc d ↦{fullShare} m (gsqLoc d))
        ∗ (iprop((K (F := F)).tcSt EH d 1 ∗ (xLoc d ↦{fullShare} m (xLoc d)) ∗ (gsLoc d ↦{fullShare} gs (m (xLoc d)))
            ∗ (gsqLoc d ↦{fullShare} gsq (m (xLoc d)))) -∗ Φ ⟨⟩))
      ⊢ wp frame (wpE ((K (F := F)).defs (D (F := F))) 𝒱 (SparseCore.T d) none) Set.univ ((sc (F := F)).run d 0) Φ := by
  iintro ⟨#Hctx, Hst, Hx, Hgs, Hgsq, Hk⟩
  ihave Hx' := (x_rows d (m (xLoc d))).1 $$ Hx
  icases Hx' with ⟨Hlo, Hhi⟩
  iapply ((K (F := F)).wp_run (D (F := F)) 𝒱 (EH := EH) (P := P gs gsq m) κ d 0) $$ [Hst Hlo Hgs Hgsq Hhi Hk]
  isplitr; · iexact Hctx
  isplitl [Hst]; · iexact Hst
  isplitl [Hlo Hgs Hgsq]
  · rw [st_all]
    isplitl [Hlo]; · iexact Hlo
    isplitl [Hgs]; · iexact Hgs
    iexact Hgsq
  iintro ⟨Hst, Hdn⟩
  ihave Hdn' := (Entails.of_eq (dn_all gs gsq m d)) $$ Hdn
  icases Hdn' with ⟨Hlo, Hgs, Hgsq⟩
  iapply Hk
  isplitl [Hst]; · iexact Hst
  isplitl [Hlo Hhi]
  · iapply (x_rows d (m (xLoc d))).2
    isplitl [Hlo] <;> iassumption
  isplitl [Hgs] <;> iassumption

end Cert.KernelIdeal.Pf

end
-- ==== Proof.TcOwes.lean ====
import proofs.«207604_g45191645889005_cont_8to1c4_5_22_alg».proof.Proof.Ghost
import Idealize.ShloMosaic.Lib.Pipeline.Dat

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

def recT (d : Dev nD) (n : ℕ) : Set (SemLoc sig × HIx 1) := {p | (K (F := F)).lev (T d, p.1) p.2 ≤ 8 * n}

theorem Otc_none (d : Dev nD) (n : ℕ) : ∀ g, (K (F := F)).Otc d n g none = 0 := by
  intro g
  by_contra h
  have := SparseCore.Cfg.lev_of_Otc_pos (K := K (F := F)) (Nat.pos_of_ne_zero h)
  rw [SparseCore.Cfg.lev_none] at this; omega

theorem wbelow_after (d : Dev nD) (n : ℕ) (cfg : Pipeline.Cfg sig Λ₀) (W : Waits sig (HIx 1))
    (h : (↑W : Set (SemLoc sig × HIx 1)) ⊆ recT (F := F) d n ∪ cfg.waitPairs (none : HIx 1)) : (K (F := F)).WBelow (T d) W (8 * n) := by
  intro p hp
  rcases h (Finset.mem_coe.mpr hp) with h | ⟨w, s, rfl⟩
  · exact h
  · rw [SparseCore.Cfg.lev_none]; exact Nat.zero_le _

theorem sub_recT (d : Dev nD) (n : ℕ) (W : Waits sig (HIx 1)) (h : (K (F := F)).WBelow (T d) W (8 * n)) :
    (↑W : Set (SemLoc sig × HIx 1)) ⊆ recT (F := F) d n :=
  fun p hp => h p (Finset.mem_coe.mp hp)

end Cert.KernelIdeal.Pf

end
-- ==== Proof.Main.lean ====
import proofs.«207604_g45191645889005_cont_8to1c4_5_22_alg».proof.Proof.MainRegion
import proofs.«207604_g45191645889005_cont_8to1c4_5_22_alg».proof.Proof.CallStep
import proofs.«207604_g45191645889005_cont_8to1c4_5_22_alg».proof.Proof.TcOwes

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe

variable {F : FTy → Type} [FloatOps F]

local notation "𝕄" => MT nD τ sig (HIx 1) (Elt F) ℕ UU ℕ

abbrev VT (F : FTy → Type) (d : Dev nD) : Type := (b : Ref sig .tc) → Buf (Elt F) ((d.tc : Thread nD τ).loc b)

abbrev ucR : Finset (Ref sig .tc) := Finset.univ.filter fun b : Ref sig .tc => ¬ b.isScoped

def restCall (d : Dev nD) (V : VT F d) : sProp 𝕄 :=
  bigSep (((ucR.erase main_arg0).erase main_v13_0).erase main_v13_1) fun b => ((d.tc : Thread nD τ).loc b) ↦{fullShare} V b

theorem unscoped_call (d : Dev nD) (V : VT F d) :
    (unscopedBufs d V : sProp 𝕄)
      = iprop((xLoc d ↦{fullShare} V main_arg0) ∗ (gsLoc d ↦{fullShare} V main_v13_0) ∗ (gsqLoc d ↦{fullShare} V main_v13_1) ∗ restCall d V) := by
  unfold unscopedBufs restCall
  rw [SparseCore.bigSep_erase' (show main_arg0 ∈ ucR by decide),
    SparseCore.bigSep_erase' (show main_v13_0 ∈ ucR.erase main_arg0 by decide),
    SparseCore.bigSep_erase' (show main_v13_1 ∈ (ucR.erase main_arg0).erase main_v13_0 by decide)]

def afterCall (d : Dev nD) (V : VT F d) (a : Buf (Elt F) (gsLoc d)) (b : Buf (Elt F) (gsqLoc d)) : VT F d :=
  Function.update (Function.update V main_v13_0 a) main_v13_1 b

theorem afterCall_gs (d : Dev nD) (V : VT F d) (a b) : afterCall d V a b main_v13_0 = a := by
  unfold afterCall
  rw [Function.update_of_ne (show (main_v13_0 : Ref sig .tc) ≠ main_v13_1 by decide), Function.update_self]
theorem afterCall_gsq (d : Dev nD) (V : VT F d) (a b) : afterCall d V a b main_v13_1 = b := by
  unfold afterCall; rw [Function.update_self]
theorem afterCall_ne (d : Dev nD) (V : VT F d) (a b) {r : Ref sig .tc} (h0 : r ≠ main_v13_0) (h1 : r ≠ main_v13_1) :
    afterCall d V a b r = V r := by
  unfold afterCall; rw [Function.update_of_ne h1, Function.update_of_ne h0]

theorem restCall_afterCall (d : Dev nD) (V : VT F d) (a b) : (restCall d (afterCall d V a b) : sProp 𝕄) = restCall d V := by
  unfold restCall
  refine bigSep_congr fun r hr => ?_
  have h1 : r ≠ main_v13_1 := (Finset.mem_erase.mp hr).1
  have h0 : r ≠ main_v13_0 := (Finset.mem_erase.mp (Finset.mem_erase.mp hr).2).1
  rw [afterCall_ne d V a b h0 h1]

theorem unscoped_fin (d : Dev nD) (V : VT F d) :
    (unscopedBufs d V : sProp 𝕄)
      = iprop((xLoc d ↦{fullShare} V main_arg0) ∗ (outLoc d ↦{fullShare} V main_v14)
          ∗ bigSep ((ucR.erase main_arg0).erase main_v14) fun b => ((d.tc : Thread nD τ).loc b) ↦{fullShare} V b) := by
  unfold unscopedBufs
  rw [SparseCore.bigSep_erase' (show main_arg0 ∈ ucR by decide),
    SparseCore.bigSep_erase' (show main_v14 ∈ ucR.erase main_arg0 by decide)]

variable (gs gsq : Vec F S1024x100000 .f32 → Vec F S256x1024 .f32)
variable (m : (ℓ : Loc nD τ sig) → Buf (Elt F) ℓ) (ρ : Dev nD → PrngReg)

abbrev owesT (d : Dev nD) (n : ℕ) : sProp 𝕄 :=
  iprop(∃ W, ⌜(K (F := F)).WBelow (SparseCore.T d) W (8 * n)⌝ ∗ owes (SparseCore.T d) ((K (F := F)).Otc d n) W)

def Vh (d : Dev nD) : VT F d := fun b => Wh m d b

theorem hmain_of
    (pdats : (p : Fin 2) → (c : Dev nD) → Pipeline.Dat τ (Elt F) (HIx 1) ℕ UU ℕ (Pipeline.pin (pcfgs (F := F)) adm p) c)
    (R0 : Pipeline.RegionSeg (pcfgs (F := F)) adm pdats (none : HIx 1) (defs₀ (F := F)) 𝒱₀ (K (F := F)).L (K (F := F)).lev 0)
    (R2 : Pipeline.RegionSeg (pcfgs (F := F)) adm pdats (none : HIx 1) (defs₀ (F := F)) 𝒱₀ (K (F := F)).L (K (F := F)).lev 1)
    (V1 V3 : (d : Dev nD) → VT F d) (r : (d : Dev nD) → Buf (Elt F) (outLoc d))
    (hpre0 : ∀ d, iprop(unscopedBufs d (Vh m d) ∗ owesT (F := F) d 0) ⊢ R0.pre d)
    (hpost0 : ∀ d, R0.post d ⊢ iprop(unscopedBufs d (V1 d) ∗ owesT (F := F) d 0))
    (hV1x : ∀ d, V1 d main_arg0 = m (xLoc d)) (hV1gs : ∀ d, V1 d main_v13_0 = m (gsLoc d)) (hV1gsq : ∀ d, V1 d main_v13_1 = m (gsqLoc d))
    (hpre2 : ∀ d, iprop(unscopedBufs d (afterCall d (V1 d) (gs (m (xLoc d))) (gsq (m (xLoc d)))) ∗ owesT (F := F) d 1) ⊢ R2.pre d)
    (hpost2 : ∀ d, R2.post d ⊢ iprop(unscopedBufs d (V3 d) ∗ owesT (F := F) d 1))
    (hV3x : ∀ d, V3 d main_arg0 = m (xLoc d)) (hV3o : ∀ d, V3 d main_v14 = r d)
    (κ : GSem nD τ sig → ℕ) (d : Dev nD) :
    iprop((K (F := F)).ctx EH (P gs gsq m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN r m d) := by
  unfold SparseCore.Cfg.tcRes
  rw [show (unscopedBufs d (fun b => m ((SparseCore.T d).loc b)) : sProp 𝕄) = StableHlo.held (d.tc : Thread nD τ) (Pipeline.ucRefs τ sig) (W0 m d) from
    Pipeline.unscopedBufs_held d (W0 m d), main_eq, G_eq, tcSt_eq d 0, tcSt_eq d 1]
  iintro ⟨#Hctx, ⟨HO, Hrest⟩, ⟨Hb, Hheld, -, -⟩, ⟨HG0, HG1⟩⟩
  ihave #Hlv := ((K (F := F)).ctx_levAts (EH := EH) (P := P gs gsq m) κ) $$ Hctx
  iapply (StableHlo.wp_seq 𝒱 none Set.univ d (Pipeline.ucRefs τ sig) (fun _ => mainTail d) (hostOps (F := F)) hostOps_sub hostOps_fresh (W0 m d)) $$ [Hb Hheld]
  · isplitl [Hb] <;> iassumption
  iintro ⟨Hb, Hheld⟩
  ihave Hu := (Entails.of_eq (show (StableHlo.held (d.tc : Thread nD τ) (Pipeline.ucRefs τ sig) (StableHlo.after (hostOps (F := F)) (W0 m d)) : sProp 𝕄) = unscopedBufs d (Vh m d) from
    (Pipeline.unscopedBufs_held (Ix := HIx 1) (Name := ℕ) (U := UU) (Lvl := ℕ) d (Wh m d)).symm)) $$ Hheld
  unfold mainTail

  iapply (wp_region pdats 0 R0 d _ _) $$ [Hb Hu HO HG0 Hrest HG1]
  isplitl [Hrest HG1]
  swap
  · isplitl [Hb]; · iexact Hb
    isplitl [Hu HO]
    · iapply (hpre0 d)
      isplitl [Hu]; · iexact Hu
      iexact HO
    isplitr; · iexact Hlv
    iexact HG0
  iintro ⟨Hb, Hpost⟩
  ihave Hp := (hpost0 d) $$ Hpost
  icases Hp with ⟨Hu, HO⟩
  ihave Hc := (Entails.of_eq ((unscoped_call d (V1 d)).trans (by rw [hV1x d, hV1gs d, hV1gsq d]))) $$ Hu
  icases Hc with ⟨Hx, Hgs, Hgsq, Hothers⟩

  rw [wp_bind]
  iapply (wp_call gs gsq m κ d) $$ [HO Hrest Hx Hgs Hgsq Hb Hothers HG1]
  isplitr; · iexact Hctx
  isplitl [HO Hrest]
  · rw [tcSt_eq d 0]
    isplitl [HO]; · iexact HO
    iexact Hrest
  isplitl [Hx]; · iexact Hx
  isplitl [Hgs]; · iexact Hgs
  isplitl [Hgsq]; · iexact Hgsq
  iintro ⟨Hst, Hx, Hgs, Hgsq⟩
  ihave Hst' := (Entails.of_eq (tcSt_eq (F := F) d 1)) $$ Hst
  icases Hst' with ⟨HO, Hrest⟩

  iapply (wp_region pdats 1 R2 d _ _) $$ [Hb Hx Hgs Hgsq Hothers HO HG1 Hrest]
  isplitl [Hrest]
  swap
  · isplitl [Hb]; · iexact Hb
    isplitl [Hx Hgs Hgsq Hothers HO]
    · iapply (hpre2 d)
      isplitr [HO]
      · rw [unscoped_call, afterCall_gs, afterCall_gsq, restCall_afterCall,
          afterCall_ne d (V1 d) _ _ (show (main_arg0 : Ref sig .tc) ≠ main_v13_0 by decide) (show (main_arg0 : Ref sig .tc) ≠ main_v13_1 by decide), hV1x d]
        isplitl [Hx]; · iexact Hx
        isplitl [Hgs]; · iexact Hgs
        isplitl [Hgsq]; · iexact Hgsq
        iexact Hothers
      iexact HO
    isplitr; · iexact Hlv
    iexact HG1
  iintro ⟨Hb, Hpost⟩
  ihave Hp := (hpost2 d) $$ Hpost
  icases Hp with ⟨Hu, HO⟩
  ihave Hf := (Entails.of_eq ((unscoped_fin d (V3 d)).trans (by rw [hV3x d, hV3o d]))) $$ Hu
  icases Hf with ⟨Hx, Hout, -⟩
  rw [wp_pure]; imodintro
  isplitl [HO Hrest]
  · isplitl [HO]; · iexact HO
    iexact Hrest
  isplitl [Hx]; · iexact Hx
  iexact Hout

end Cert.KernelIdeal.Pf

end
-- ==== Proof.Waits.lean ====
import proofs.«207604_g45191645889005_cont_8to1c4_5_22_alg».proof.Proof.LaunchElem
import proofs.«207604_g45191645889005_cont_8to1c4_5_22_alg».proof.Proof.TcOwes

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def pdats (d0 : (c : Dev nD) → Pipeline.Dat τ (Elt F) (HIx 1) ℕ UU ℕ cfg0 c) (d1 : (c : Dev nD) → Pipeline.Dat τ (Elt F) (HIx 1) ℕ UU ℕ cfg2 c) :
    (p : Fin 2) → (c : Dev nD) → Pipeline.Dat τ (Elt F) (HIx 1) ℕ UU ℕ (Pipeline.pin (pcfgs (F := F)) adm p) c
  | ⟨0, _⟩ => d0
  | ⟨1, _⟩ => d1
  | ⟨_ + 2, h⟩ => absurd h (Nat.not_lt.2 (Nat.le_add_left _ _))

theorem hwaits_of (ds : (p : Fin 2) → (c : Dev nD) → Pipeline.Dat τ (Elt F) (HIx 1) ℕ UU ℕ (Pipeline.pin (pcfgs (F := F)) adm p) c)
    (p : Fin 2) (c : Dev nD) (n : ℕ) (howed : ∀ t, (ds p c).owed t = (K (F := F)).Otc c n) :
    (levAts (K (F := F)).L (K (F := F)).lev : sProp 𝕄) ⊢ Pipeline.cellsWaits (Pipeline.pin (pcfgs (F := F)) adm) ds (none : HIx 1) p c :=
  Pipeline.cellsWaits_intro (Pipeline.pin (pcfgs (F := F)) adm) ds (none : HIx 1) p c fun w s t => by
    rw [howed t]; exact (K (F := F)).mayWait_none _ (Otc_none c n)

end Cert.KernelIdeal.Pf

end
-- ==== Proof.OwesGlue.lean ====
import proofs.«207604_g45191645889005_cont_8to1c4_5_22_alg».proof.Proof.TcOwes
import Idealize.ShloMosaic.Lib.Pipeline.Dat

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable {cfg : Pipeline.Cfg sig Λ₀} {c : Dev nD} (dat : Pipeline.Dat τ (Elt F) (HIx 1) ℕ UU ℕ cfg c) (n : ℕ)

end Cert.KernelIdeal.Pf

end
-- ==== Proof.R0Frame.lean ====
import proofs.«207604_g45191645889005_cont_8to1c4_5_22_alg».proof.Proof.Gen.KernelIdeal.Launch
import proofs.«207604_g45191645889005_cont_8to1c4_5_22_alg».proof.Proof.Gen.KernelIdeal.Skeleton
import proofs.«207604_g45191645889005_cont_8to1c4_5_22_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

abbrev rX0 : Rect S64x100000 := Rect.unit (s := S64x100000) ![0, 0] S64x12544.size inb_S64x100000_S64x12544_0_0
abbrev rX1 : Rect S64x100000 := Rect.unit (s := S64x100000) ![0, 12544] S64x12544.size inb_S64x100000_S64x12544_0_12544
abbrev rX2 : Rect S64x100000 := Rect.unit (s := S64x100000) ![0, 25088] S64x12544.size inb_S64x100000_S64x12544_0_25088
abbrev rX3 : Rect S64x100000 := Rect.unit (s := S64x100000) ![0, 37632] S64x12544.size inb_S64x100000_S64x12544_0_37632
abbrev rX4 : Rect S64x100000 := Rect.unit (s := S64x100000) ![0, 50176] S64x12544.size inb_S64x100000_S64x12544_0_50176
abbrev rX5 : Rect S64x100000 := Rect.unit (s := S64x100000) ![0, 62720] S64x12544.size inb_S64x100000_S64x12544_0_62720
abbrev rX6 : Rect S64x100000 := Rect.unit (s := S64x100000) ![0, 75264] S64x12544.size inb_S64x100000_S64x12544_0_75264
abbrev rX7 : Rect S64x100000 := Rect.unit (s := S64x100000) ![0, 87808] S64x12192.size inb_S64x100000_S64x12192_0_87808
abbrev rT : Rect S12544x128 := Rect.unit (s := S12544x128) ![0, 0] S12544x128.size inb_S12544x128_S12544x128_0_0
abbrev rT' : Rect S12544x128 := Rect.unit (s := S12544x128) ![0, 0] S12192x128.size inb_S12544x128_S12192x128_0_0
abbrev rA0 : Rect S64x1024 := Rect.unit (s := S64x1024) ![0, 0] S64x128.size inb_S64x1024_S64x128_0_0
abbrev rA1 : Rect S64x1024 := Rect.unit (s := S64x1024) ![0, 128] S64x128.size inb_S64x1024_S64x128_0_128
abbrev rA2 : Rect S64x1024 := Rect.unit (s := S64x1024) ![0, 256] S64x128.size inb_S64x1024_S64x128_0_256
abbrev rA3 : Rect S64x1024 := Rect.unit (s := S64x1024) ![0, 384] S64x128.size inb_S64x1024_S64x128_0_384
abbrev rA4 : Rect S64x1024 := Rect.unit (s := S64x1024) ![0, 512] S64x128.size inb_S64x1024_S64x128_0_512
abbrev rA5 : Rect S64x1024 := Rect.unit (s := S64x1024) ![0, 640] S64x128.size inb_S64x1024_S64x128_0_640
abbrev rA6 : Rect S64x1024 := Rect.unit (s := S64x1024) ![0, 768] S64x128.size inb_S64x1024_S64x128_0_768
abbrev rA7 : Rect S64x1024 := Rect.unit (s := S64x1024) ![0, 896] S64x128.size inb_S64x1024_S64x128_0_896
abbrev rN : Rect S64x128 := Rect.unit (s := S64x128) ![0, 0] S64x128.size inb_S64x128_S64x128_0_0

def out2 (x0 : Vec F S64x100000 .f32) (x1 : Vec F S12544x128 .bf16) : Vec F S64x1024 .f32 :=
  View.canon [⟨rA7, k0_pay3 (View.ld x0 rX7) (View.ld x1 rT')⟩,
    ⟨rA6, k0_pay36 (View.ld x0 rX6) (View.ld x1 rT)⟩,
    ⟨rA5, k0_pay31 (View.ld x0 rX5) (View.ld x1 rT)⟩,
    ⟨rA4, k0_pay26 (View.ld x0 rX4) (View.ld x1 rT)⟩,
    ⟨rA3, k0_pay21 (View.ld x0 rX3) (View.ld x1 rT)⟩,
    ⟨rA2, k0_pay17 (View.ld x0 rX2) (k0_pay16 (View.ld x1 rT))⟩,
    ⟨rA1, k0_pay12 (View.ld x0 rX1) (View.ld x1 rT)⟩,
    ⟨rA0, k0_pay8 (View.ld x0 rX0) (View.ld x1 rT)⟩]

def out3 (x0 : Vec F S64x100000 .f32) (x1 : Vec F S12544x128 .bf16) : Vec F S64x1024 .f32 :=
  View.canon [⟨rA7, k0_pay4 (View.ld x0 rX7) (View.ld x1 rT')⟩,
    ⟨rA6, k0_pay37 (View.ld x0 rX6) (View.ld x1 rT)⟩,
    ⟨rA5, k0_pay32 (View.ld x0 rX5) (View.ld x1 rT)⟩,
    ⟨rA4, k0_pay28 (k0_pay25 (View.ld x1 rT)) (k0_pay27 (View.ld x0 rX4))⟩,
    ⟨rA3, k0_pay22 (View.ld x0 rX3) (View.ld x1 rT)⟩,
    ⟨rA2, k0_pay18 (k0_pay15 (View.ld x0 rX2)) (k0_pay16 (View.ld x1 rT))⟩,
    ⟨rA1, k0_pay13 (View.ld x0 rX1) (View.ld x1 rT)⟩,
    ⟨rA0, k0_pay9 (View.ld x0 rX0) (View.ld x1 rT)⟩]

def out4 (x0 : Vec F S64x100000 .f32) (x1 : Vec F S12544x128 .bf16) : Vec F S64x128 .f32 :=
  View.canon [⟨rN, k0_pay5 (k0_pay33 (k0_pay23 (k0_pay14 (View.ld x0 rX0) (View.ld x0 rX1)) (k0_pay15 (View.ld x0 rX2)) (View.ld x0 rX3)) (k0_pay24 (View.ld x0 rX4)) (View.ld x0 rX5)) (k0_pay38 (View.ld x0 rX6)) (View.ld x0 rX7)⟩]

theorem coverA (p0 p1 p2 p3 p4 p5 p6 p7 : Vec F S64x128 .f32) (y : S64x1024.Idx) :
    ∃ pc ∈ ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt F) S64x1024 .f32)), y ∈ pc.1.set :=
  View.cover_of_tiled [⟨rA7, p7⟩, ⟨rA6, p6⟩, ⟨rA5, p5⟩, ⟨rA4, p4⟩, ⟨rA3, p3⟩, ⟨rA2, p2⟩, ⟨rA1, p1⟩, ⟨rA0, p0⟩] S64x128.size (by rfl) y

theorem coverN (p0 : Vec F S64x128 .f32) (y : S64x128.Idx) :
    ∃ pc ∈ ([⟨rN, p0⟩] : List (View.Piece (Elt F) S64x128 .f32)), y ∈ pc.1.set :=
  View.cover_of_tiled [⟨rN, p0⟩] S64x128.size (by rfl) y

variable (V : (c : Dev nD) → (b : Ref sig .tc) → Buf (Elt F) ((c : Thread nD τ).loc b))
variable (O : Dev nD → CellTallies nD τ sig Ix)

variable (Rec : Dev nD → Set (SemLoc sig × Ix))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def datsP (c : Dev nD) : Dat τ (Elt F) Ix Name U Lvl cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
    | ⟨3, _⟩ => out3 (iblk V c 0 t) (iblk V c 1 t)
    | ⟨4, _⟩ => out4 (iblk V c 0 t) (iblk V c 1 t)
  Φ _ := Pipeline.scopedRest spec0 c
  q _ := fullShare
  owed _ := O c
  recorded _ := Rec c

section
variable (c : Dev nD)
local notation "dat" => datsP (Name := Name) (U := U) (Lvl := Lvl) V O Rec c

theorem A_eq (w : Fin cfg0.W) : (dat).A w = V c (Pipeline.arrRef spec0 w) := by dsimp only [datsP]
theorem after0 (t : Fin cfg0.N) : (dat).after 0 t = iblk V c 0 t := by dsimp only [datsP]
theorem after1 (t : Fin cfg0.N) : (dat).after 1 t = iblk V c 1 t := by dsimp only [datsP]
theorem after2 (t : Fin cfg0.N) : (dat).after 2 t = out2 (iblk V c 0 t) (iblk V c 1 t) := by dsimp only [datsP]
theorem after3 (t : Fin cfg0.N) : (dat).after 3 t = out3 (iblk V c 0 t) (iblk V c 1 t) := by dsimp only [datsP]
theorem after4 (t : Fin cfg0.N) : (dat).after 4 t = out4 (iblk V c 0 t) (iblk V c 1 t) := by dsimp only [datsP]
theorem owed_eq (t : Fin (cfg0.N + 1)) : (dat).owed t = O c := by dsimp only [datsP]
theorem recorded_eq (t : Fin (cfg0.N + 1)) : (dat).recorded t = Rec c := by dsimp only [datsP]
theorem Φ_eq (t : Fin (cfg0.N + 1)) : (dat).Φ t = Pipeline.scopedRest spec0 c := by dsimp only [datsP]

theorem before0 (t : Fin cfg0.N) (d) : (dat).before 0 t d = iblk V c 0 t :=
  ((dat).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (t : Fin cfg0.N) (d) : (dat).before 1 t d = iblk V c 1 t :=
  ((dat).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end

end Cert.KernelIdeal.R0

end
-- ==== Proof.R0Body.lean ====
import proofs.«207604_g45191645889005_cont_8to1c4_5_22_alg».proof.Proof.R0Frame
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

section Body
variable [Preorder Lvl] (𝒱₀ : Variants)

set_option maxHeartbeats 4000000 in

theorem sound_kernel (c : Dev nD) (E : Set Name) (i : grid0.Coords)
    (arg1 : Memref sig .tc .vmem S64x100000 .f32) (harg1 : arg1.IsWhole) (arg2 : Memref sig .tc .vmem S12544x128 .bf16) (harg2 : arg2.IsWhole)
    (arg3 : Memref sig .tc .vmem S64x1024 .f32) (harg3 : arg3.IsWhole) (arg4 : Memref sig .tc .vmem S64x1024 .f32) (harg4 : arg4.IsWhole)
    (arg5 : Memref sig .tc .vmem S64x128 .f32) (harg5 : arg5.IsWhole)
    (x0 : Vec F S64x100000 .f32) (x1 : Vec F S12544x128 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)
            ∗ owns (c : Thread nD τ) arg5 fullShare (out4 x0 x1)) -∗ K ⟨⟩))
      ⊢ wp frame (wpE (defs₀ (F := F)) 𝒱₀ c none) E (cc0__tc_body i arg1 harg1 arg2 harg2 arg3 harg3 arg4 harg4 arg5 harg5) K := by
  simp only [cc0__tc_body_eq_skeleton]; unfold cc0__tc_body_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverA _ _ _ _ _ _ _ _)
  isplitl [H3]
  · iexists _; isplitr
    swap; · iexact H3
    ipureintro
    exact View.read_writes_eq_canon _ _ _ (coverA _ _ _ _ _ _ _ _)
  iexists _; isplitr
  swap; · iexact H4
  ipureintro
  exact View.read_writes_eq_canon _ _ _ (coverN _)

end Body

section Obligation
variable [Preorder Lvl] (𝒱₀ : Variants) (ι : Ix)
variable (V : (c : Dev nD) → (b : Ref sig .tc) → Buf (Elt F) ((c : Thread nD τ).loc b))
variable (O : Dev nD → CellTallies nD τ sig Ix) (Rec : Dev nD → Set (SemLoc sig × Ix)) (c : Dev nD)
local notation "dat" => datsP (Name := Name) (U := U) (Lvl := Lvl) V O Rec c

def bodyPre (t : Fin cfg0.N) : sProp 𝕄 :=
  iprop((dat).Φ t.castSucc ∗ (dat).owesAt ι t.castSucc
    ∗ (∃ d, owns (c : Thread nD τ) (st0_0 t) fullShare ((dat).before 0 t d))
    ∗ (∃ d, owns (c : Thread nD τ) (st0_1 t) fullShare ((dat).before 1 t d))
    ∗ (∃ d, owns (c : Thread nD τ) (st0_2 t) fullShare ((dat).before 2 t d))
    ∗ (∃ d, owns (c : Thread nD τ) (st0_3 t) fullShare ((dat).before 3 t d))
    ∗ (∃ d, owns (c : Thread nD τ) (st0_4 t) fullShare ((dat).before 4 t d)))

def bodyPost (t : Fin cfg0.N) : sProp 𝕄 :=
  iprop((dat).Φ t.succ ∗ (dat).owesAt ι t.succ
    ∗ owns (c : Thread nD τ) (st0_0 t) fullShare ((dat).after 0 t)
    ∗ owns (c : Thread nD τ) (st0_1 t) fullShare ((dat).after 1 t)
    ∗ owns (c : Thread nD τ) (st0_2 t) fullShare ((dat).after 2 t)
    ∗ owns (c : Thread nD τ) (st0_3 t) fullShare ((dat).after 3 t)
    ∗ owns (c : Thread nD τ) (st0_4 t) fullShare ((dat).after 4 t))

theorem sound_body (t : Fin cfg0.N) :
    bodyPre (Name := Name) (U := U) (Lvl := Lvl) ι V O Rec c t
      ⊢ wp frame (wpE (defs₀ (F := F)) 𝒱₀ c none) Set.univ (bodyAt0 t) (fun _ => bodyPost (Name := Name) (U := U) (Lvl := Lvl) ι V O Rec c t) := by
  unfold bodyPre bodyPost bodyAt0
  simp only [before0, before1]
  rw [show (dat).Φ t.succ = (dat).Φ t.castSucc from rfl,
    show (dat).owesAt ι t.succ = (dat).owesAt ι t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel 𝒱₀ c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation : BodyObligation (dat) (defs₀ (F := F)) 𝒱₀ ι Set.univ := fun t => by
  rw [bigSep_W0, bigSep_W0]
  exact sound_body 𝒱₀ ι V O Rec c t

theorem bodyP : BodyObligationLoose (dat) (defs₀ (F := F)) 𝒱₀ ι Set.univ :=
  (body_obligation 𝒱₀ ι V O Rec c).loose

end Obligation

end Cert.KernelIdeal.R0

end
-- ==== Proof.R0Arr.lean ====
import proofs.«207604_g45191645889005_cont_8to1c4_5_22_alg».proof.Proof.R0Frame
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

open Idealize.ShloMosaic.ValueIdx

theorem idx_facts : ∀ t : Fin cfg0.N, win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0)

theorem ix2_congr {n0 n1 : Nat} {a a' : Fin n0} {b b' : Fin n1} (ha : a.val = a'.val) (hb : b.val = b'.val) :
    ix2 a b = ix2 a' b' := by rw [Fin.ext ha, Fin.ext hb]

def ptOf (r : Fin 768) : Fin cfg0.N := ⟨r.val / 64, by have := N_0; show r.val / 64 < grid0.N; omega⟩

variable (V : (c : Dev nD) → (b : Ref sig .tc) → Buf (Elt F) ((c : Thread nD τ).loc b))
variable (O : Dev nD → CellTallies nD τ sig Ix) (Rec : Dev nD → Set (SemLoc sig × Ix)) (c : Dev nD)

def arr2 : Vec F S768x1024 .f32 := fun i =>
  out2 (iblk V c 0 (ptOf (i 0))) (iblk V c 1 (ptOf (i 0))) (ix2 ⟨(i 0).val % 64, Nat.mod_lt _ (by decide)⟩ (i 1))
def arr3 : Vec F S768x1024 .f32 := fun i =>
  out3 (iblk V c 0 (ptOf (i 0))) (iblk V c 1 (ptOf (i 0))) (ix2 ⟨(i 0).val % 64, Nat.mod_lt _ (by decide)⟩ (i 1))
def arr4 : Vec F S768x128 .f32 := fun i =>
  out4 (iblk V c 0 (ptOf (i 0))) (iblk V c 1 (ptOf (i 0))) (ix2 ⟨(i 0).val % 64, Nat.mod_lt _ (by decide)⟩ (i 1))

theorem out2_congr (p p' : Fin cfg0.N) (q q' : S64x1024.Idx) (hp : p = p') (hq : q = q') :
    out2 (iblk V c 0 p) (iblk V c 1 p) q = out2 (iblk V c 0 p') (iblk V c 1 p') q' := by subst hp hq; rfl
theorem out3_congr (p p' : Fin cfg0.N) (q q' : S64x1024.Idx) (hp : p = p') (hq : q = q') :
    out3 (iblk V c 0 p) (iblk V c 1 p) q = out3 (iblk V c 0 p') (iblk V c 1 p') q' := by subst hp hq; rfl
theorem out4_congr (p p' : Fin cfg0.N) (q q' : S64x128.Idx) (hp : p = p') (hq : q = q') :
    out4 (iblk V c 0 p) (iblk V c 1 p) q = out4 (iblk V c 0 p') (iblk V c 1 p') q' := by subst hp hq; rfl

local notation "dat" => datsP (Name := Name) (U := U) (Lvl := Lvl) V O Rec c

theorem flushed2_eq (t : Fin cfg0.N) :
    (dat).flushed 2 t = ((cfg0.win 2).blk t).view.read (Elt F) (arr2 V c) := by
  show (cfg0.win 2).cut (grid0.coords t) ((dat).after 2 t) = _
  rw [after2]
  have e0 : win0_2.index t (0 : Fin 2) = t.val := (idx_facts t).1
  have e1 : win0_2.index t (1 : Fin 2) = 0 := (idx_facts t).2.1
  funext j
  show out2 (iblk V c 0 t) (iblk V c 1 t) j = arr2 V c (((cfg0.win 2).blk t).view.emb j)
  have h0 : ((((cfg0.win 2).blk t).view.emb j) 0).val = win0_2.index t (0 : Fin 2) * 64 + 1 * (j 0).val := rfl
  have h1 : ((((cfg0.win 2).blk t).view.emb j) 1).val = win0_2.index t (1 : Fin 2) * 1024 + 1 * (j 1).val := rfl
  have hj0 : (j 0).val < 64 := (j 0).isLt
  have hj1 : (j 1).val < 1024 := (j 1).isLt
  have ht : t.val < 12 := by have h : t.val < grid0.N := t.isLt; rw [N_0] at h; exact h
  refine (out2_congr V c _ _ _ _ (Fin.ext ?_) ?_).symm
  · show ((((cfg0.win 2).blk t).view.emb j) 0).val / 64 = t.val
    rw [h0, e0]; omega
  · refine (ix2_congr ?_ ?_).trans (eq_ix2 j).symm
    · show ((((cfg0.win 2).blk t).view.emb j) 0).val % 64 = (j 0).val
      rw [h0, e0]; omega
    · rw [h1, e1]; omega

theorem mem_blk2 (t : Fin cfg0.N) (i : S768x1024.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v12_0).slice (win0_2.rect t)).set ↔ _
  rw [View.set_slice_whole, Rect.mem_set_unit]
  exact Iff.rfl

theorem cover2 (i : S768x1024.Idx) : ∃ t : Fin cfg0.N, (cfg0.win 2).flush t = true ∧ i ∈ ((cfg0.win 2).blk t).view.set := by
  have hi0 : (i 0).val < 768 := (i 0).isLt
  have hi1 : (i 1).val < 1024 := (i 1).isLt
  refine ⟨ptOf (i 0), flush0_2 _, ?_⟩
  rw [mem_blk2]
  have e0 : win0_2.index (ptOf (i 0)) (0 : Fin 2) = (i 0).val / 64 := (idx_facts (ptOf (i 0))).1
  have e1 : win0_2.index (ptOf (i 0)) (1 : Fin 2) = 0 := (idx_facts (ptOf (i 0))).2.1
  intro a
  match a with
  | ⟨0, _⟩ =>
    show win0_2.index (ptOf (i 0)) (0 : Fin 2) * 64 ≤ (i 0).val ∧ (i 0).val < win0_2.index (ptOf (i 0)) (0 : Fin 2) * 64 + 64
    rw [e0]; omega
  | ⟨1, _⟩ =>
    show win0_2.index (ptOf (i 0)) (1 : Fin 2) * 1024 ≤ (i 1).val ∧ (i 1).val < win0_2.index (ptOf (i 0)) (1 : Fin 2) * 1024 + 1024
    rw [e1]; omega

theorem arrAt2 : (dat).arrAt 2 cfg0.N = arr2 V c :=
  (dat).arrAt_eq_of_cover 2 (arr2 V c) (fun t _ => flushed2_eq V O Rec c t) (cover2)

theorem flushed3_eq (t : Fin cfg0.N) :
    (dat).flushed 3 t = ((cfg0.win 3).blk t).view.read (Elt F) (arr3 V c) := by
  show (cfg0.win 3).cut (grid0.coords t) ((dat).after 3 t) = _
  rw [after3]
  have e0 : win0_3.index t (0 : Fin 2) = t.val := (idx_facts t).2.2.1
  have e1 : win0_3.index t (1 : Fin 2) = 0 := (idx_facts t).2.2.2.1
  funext j
  show out3 (iblk V c 0 t) (iblk V c 1 t) j = arr3 V c (((cfg0.win 3).blk t).view.emb j)
  have h0 : ((((cfg0.win 3).blk t).view.emb j) 0).val = win0_3.index t (0 : Fin 2) * 64 + 1 * (j 0).val := rfl
  have h1 : ((((cfg0.win 3).blk t).view.emb j) 1).val = win0_3.index t (1 : Fin 2) * 1024 + 1 * (j 1).val := rfl
  have hj0 : (j 0).val < 64 := (j 0).isLt
  have hj1 : (j 1).val < 1024 := (j 1).isLt
  have ht : t.val < 12 := by have h : t.val < grid0.N := t.isLt; rw [N_0] at h; exact h
  refine (out3_congr V c _ _ _ _ (Fin.ext ?_) ?_).symm
  · show ((((cfg0.win 3).blk t).view.emb j) 0).val / 64 = t.val
    rw [h0, e0]; omega
  · refine (ix2_congr ?_ ?_).trans (eq_ix2 j).symm
    · show ((((cfg0.win 3).blk t).view.emb j) 0).val % 64 = (j 0).val
      rw [h0, e0]; omega
    · rw [h1, e1]; omega

theorem mem_blk3 (t : Fin cfg0.N) (i : S768x1024.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v12_1).slice (win0_3.rect t)).set ↔ _
  rw [View.set_slice_whole, Rect.mem_set_unit]
  exact Iff.rfl

theorem cover3 (i : S768x1024.Idx) : ∃ t : Fin cfg0.N, (cfg0.win 3).flush t = true ∧ i ∈ ((cfg0.win 3).blk t).view.set := by
  have hi0 : (i 0).val < 768 := (i 0).isLt
  have hi1 : (i 1).val < 1024 := (i 1).isLt
  refine ⟨ptOf (i 0), flush0_3 _, ?_⟩
  rw [mem_blk3]
  have e0 : win0_3.index (ptOf (i 0)) (0 : Fin 2) = (i 0).val / 64 := (idx_facts (ptOf (i 0))).2.2.1
  have e1 : win0_3.index (ptOf (i 0)) (1 : Fin 2) = 0 := (idx_facts (ptOf (i 0))).2.2.2.1
  intro a
  match a with
  | ⟨0, _⟩ =>
    show win0_3.index (ptOf (i 0)) (0 : Fin 2) * 64 ≤ (i 0).val ∧ (i 0).val < win0_3.index (ptOf (i 0)) (0 : Fin 2) * 64 + 64
    rw [e0]; omega
  | ⟨1, _⟩ =>
    show win0_3.index (ptOf (i 0)) (1 : Fin 2) * 1024 ≤ (i 1).val ∧ (i 1).val < win0_3.index (ptOf (i 0)) (1 : Fin 2) * 1024 + 1024
    rw [e1]; omega

theorem arrAt3 : (dat).arrAt 3 cfg0.N = arr3 V c :=
  (dat).arrAt_eq_of_cover 3 (arr3 V c) (fun t _ => flushed3_eq V O Rec c t) (cover3)

theorem flushed4_eq (t : Fin cfg0.N) :
    (dat).flushed 4 t = ((cfg0.win 4).blk t).view.read (Elt F) (arr4 V c) := by
  show (cfg0.win 4).cut (grid0.coords t) ((dat).after 4 t) = _
  rw [after4]
  have e0 : win0_4.index t (0 : Fin 2) = t.val := (idx_facts t).2.2.2.2.1
  have e1 : win0_4.index t (1 : Fin 2) = 0 := (idx_facts t).2.2.2.2.2
  funext j
  show out4 (iblk V c 0 t) (iblk V c 1 t) j = arr4 V c (((cfg0.win 4).blk t).view.emb j)
  have h0 : ((((cfg0.win 4).blk t).view.emb j) 0).val = win0_4.index t (0 : Fin 2) * 64 + 1 * (j 0).val := rfl
  have h1 : ((((cfg0.win 4).blk t).view.emb j) 1).val = win0_4.index t (1 : Fin 2) * 128 + 1 * (j 1).val := rfl
  have hj0 : (j 0).val < 64 := (j 0).isLt
  have hj1 : (j 1).val < 128 := (j 1).isLt
  have ht : t.val < 12 := by have h : t.val < grid0.N := t.isLt; rw [N_0] at h; exact h
  refine (out4_congr V c _ _ _ _ (Fin.ext ?_) ?_).symm
  · show ((((cfg0.win 4).blk t).view.emb j) 0).val / 64 = t.val
    rw [h0, e0]; omega
  · refine (ix2_congr ?_ ?_).trans (eq_ix2 j).symm
    · show ((((cfg0.win 4).blk t).view.emb j) 0).val % 64 = (j 0).val
      rw [h0, e0]; omega
    · rw [h1, e1]; omega

theorem mem_blk4 (t : Fin cfg0.N) (i : S768x128.Idx) :
    i ∈ ((cfg0.win 4).blk t).view.set ↔ ∀ a : Fin 2, win0_4.index t a * S64x128.size a ≤ (i a).val ∧ (i a).val < win0_4.index t a * S64x128.size a + S64x128.size a := by
  show i ∈ ((View.whole main_v12_2).slice (win0_4.rect t)).set ↔ _
  rw [View.set_slice_whole, Rect.mem_set_unit]
  exact Iff.rfl

theorem cover4 (i : S768x128.Idx) : ∃ t : Fin cfg0.N, (cfg0.win 4).flush t = true ∧ i ∈ ((cfg0.win 4).blk t).view.set := by
  have hi0 : (i 0).val < 768 := (i 0).isLt
  have hi1 : (i 1).val < 128 := (i 1).isLt
  refine ⟨ptOf (i 0), flush0_4 _, ?_⟩
  rw [mem_blk4]
  have e0 : win0_4.index (ptOf (i 0)) (0 : Fin 2) = (i 0).val / 64 := (idx_facts (ptOf (i 0))).2.2.2.2.1
  have e1 : win0_4.index (ptOf (i 0)) (1 : Fin 2) = 0 := (idx_facts (ptOf (i 0))).2.2.2.2.2
  intro a
  match a with
  | ⟨0, _⟩ =>
    show win0_4.index (ptOf (i 0)) (0 : Fin 2) * 64 ≤ (i 0).val ∧ (i 0).val < win0_4.index (ptOf (i 0)) (0 : Fin 2) * 64 + 64
    rw [e0]; omega
  | ⟨1, _⟩ =>
    show win0_4.index (ptOf (i 0)) (1 : Fin 2) * 128 ≤ (i 1).val ∧ (i 1).val < win0_4.index (ptOf (i 0)) (1 : Fin 2) * 128 + 128
    rw [e1]; omega

theorem arrAt4 : (dat).arrAt 4 cfg0.N = arr4 V c :=
  (dat).arrAt_eq_of_cover 4 (arr4 V c) (fun t _ => flushed4_eq V O Rec c t) (cover4)

theorem arrAt0 (n : Nat) : (dat).arrAt 0 n = V c main_arg0 := ((dat).arrAt_in 0 rfl n).trans (A_eq V O Rec c 0)
theorem arrAt1 (n : Nat) : (dat).arrAt 1 n = V c main_v11 := ((dat).arrAt_in 1 rfl n).trans (A_eq V O Rec c 1)

end Cert.KernelIdeal.R0

end
-- ==== Proof.R0Region.lean ====
import proofs.«207604_g45191645889005_cont_8to1c4_5_22_alg».proof.Proof.R0Body
import proofs.«207604_g45191645889005_cont_8to1c4_5_22_alg».proof.Proof.R0Arr
import proofs.«207604_g45191645889005_cont_8to1c4_5_22_alg».proof.Proof.Gen.KernelIdeal.Launch
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable (V : (c : Dev nD) → (b : Ref sig .tc) → Buf (Elt F) ((c : Thread nD τ).loc b))
variable (O : Dev nD → CellTallies nD τ sig Ix) (Rec : Dev nD → Set (SemLoc sig × Ix))

def V1 (c : Dev nD) (b : Ref sig .tc) : Buf (Elt F) ((c : Thread nD τ).loc b) :=
  if h : main_v12_0 = b then cast (congrArg (fun b' => Buf (Elt F) ((c : Thread nD τ).loc b')) h) (arr2 V c)
  else if h : main_v12_1 = b then cast (congrArg (fun b' => Buf (Elt F) ((c : Thread nD τ).loc b')) h) (arr3 V c)
  else if h : main_v12_2 = b then cast (congrArg (fun b' => Buf (Elt F) ((c : Thread nD τ).loc b')) h) (arr4 V c)
  else V c b

theorem V1_v12_0 (c : Dev nD) : V1 V c main_v12_0 = arr2 V c := by unfold V1; rw [dif_pos rfl]; rfl
theorem V1_v12_1 (c : Dev nD) : V1 V c main_v12_1 = arr3 V c := by
  unfold V1; rw [dif_neg (by decide), dif_pos rfl]; rfl
theorem V1_v12_2 (c : Dev nD) : V1 V c main_v12_2 = arr4 V c := by
  unfold V1; rw [dif_neg (by decide), dif_neg (by decide), dif_pos rfl]; rfl
theorem V1_of_ne (c : Dev nD) (b : Ref sig .tc) (h0 : main_v12_0 ≠ b) (h1 : main_v12_1 ≠ b) (h2 : main_v12_2 ≠ b) :
    V1 V c b = V c b := by
  unfold V1; rw [dif_neg h0, dif_neg h1, dif_neg h2]

section Region
variable [Preorder Lvl] (𝒱₀ : Variants) (ι : Ix) (L : GSem nD τ sig → Finset Ix) (lv : GSem nD τ sig → Ix → Lvl)

abbrev admP : (p : Fin 2) → (pcfgs (F := F) p).Adm := fun p => (cfgs p).toPCfg_adm

set_option backward.isDefEq.respectTransparency.types false in

def regionP (pdats : (p : Fin 2) → (c : Dev nD) → Dat τ (Elt F) Ix Name U Lvl (Pipeline.pin (pcfgs (F := F)) admP p) c)
    (h0 : ∀ c, pdats 0 c = datsP V O Rec c)
    (hwaits : ∀ c, (levAts L lv : sProp 𝕄) ⊢ Pipeline.cellsWaits (Pipeline.pin (pcfgs (F := F)) admP) pdats ι 0 c) :
    Pipeline.RegionSeg (pcfgs (F := F)) admP pdats ι (defs₀ (F := F)) 𝒱₀ L lv 0 where
  win := launch0.win.to₀
  block_pos := launch0.block_pos
  stage_whole := launch0.stage_whole
  K := PEmpty
  osem k := k.elim
  ho := Pipeline.OwnSemFacts.none _
  hbody c := by rw [h0 c]; exact bodyP 𝒱₀ ι V O Rec c
  hwaits := hwaits
  pre c := iprop(unscopedBufs c (V c) ∗ Pipeline.owesWithin c (O c) (Rec c))
  post c := iprop(unscopedBufs c (V1 V c) ∗ Pipeline.owesWithin c (O c) (Rec c ∪ cfg0.waitPairs ι))
  X _ := BI.emp
  Y _ := BI.emp
  Z c := Pipeline.unscopedRest spec0 c (V c)
  hentry c := by
    rw [Pipeline.ownSems0_none]
    have hO : ∀ t, (pdats 0 c).owed t = O c := fun t => by rw [h0 c]; rfl
    have hR : ∀ t, (pdats 0 c).recorded t = Rec c := fun t => by rw [h0 c]; rfl
    have hsplit := Pipeline.arrays_of_unscopedBufs (p := 0) (pcfgs (F := F)) admP pdats launch0.win launch0.arr_whole c
      (fun w => by rw [h0 c]; exact (datsP V O Rec c).share_full (fun _ => rfl) w) (V c) (fun w => by rw [h0 c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.Dat.bound Pipeline.owesWithin
      rw [hO, hR]
      icases HO with ⟨%W, %hW, HO⟩; iexists W; isplitr; · ipureintro; exact fun x hx => Or.inl (hW hx)
      iexact HO
    isplitr; · iempintro
    iexact Hrest
  hin c := by
    have hΦ : (pdats 0 c).Φ 0 = Pipeline.scopedRest spec0 c := by rw [h0 c]; rfl
    rw [hΦ]
    iintro ⟨-, -, Hr⟩
    iexact Hr
  hout c := by
    have hΦ : (pdats 0 c).Φ (Fin.last _) = Pipeline.scopedRest spec0 c := by rw [h0 c]; rfl
    rw [Pipeline.ownSems0_none, hΦ]
    iintro Hr
    isplitr; · iempintro
    isplitr; · iempintro
    iexact Hr
  hexit c := by
    have hO : ∀ t, (pdats 0 c).owed t = O c := fun t => by rw [h0 c]; rfl
    have hR : ∀ t, (pdats 0 c).recorded t = Rec c := fun t => by rw [h0 c]; rfl
    have hF : ∀ w, (pdats 0 c).arrAt w cfg0.N = V1 V c (Pipeline.arrRef spec0 w) := fun w => by
      rw [h0 c]
      match w with
      | ⟨0, _⟩ => exact (arrAt0 V O Rec c _).trans (V1_of_ne V c main_arg0 (by decide) (by decide) (by decide)).symm
      | ⟨1, _⟩ => exact (arrAt1 V O Rec c _).trans (V1_of_ne V c main_v11 (by decide) (by decide) (by decide)).symm
      | ⟨2, _⟩ => exact (arrAt2 V O Rec c).trans (V1_v12_0 V c).symm
      | ⟨3, _⟩ => exact (arrAt3 V O Rec c).trans (V1_v12_1 V c).symm
      | ⟨4, _⟩ => exact (arrAt4 V O Rec c).trans (V1_v12_2 V c).symm
    have hrest : ∀ b, b ∉ Finset.univ.image (Pipeline.arrRef spec0) → V1 V c b = V c b := fun b hb =>
      V1_of_ne V c b (fun e => hb (Finset.mem_image.mpr ⟨2, Finset.mem_univ _, e⟩))
        (fun e => hb (Finset.mem_image.mpr ⟨3, Finset.mem_univ _, e⟩))
        (fun e => hb (Finset.mem_image.mpr ⟨4, Finset.mem_univ _, e⟩))
    have hjoin := Pipeline.unscopedBufs_of_arrays (p := 0) (pcfgs (F := F)) admP (Ix := Ix) (Name := Name) (U := U) (Lvl := Lvl)
      launch0.win launch0.arr_whole c pdats (fun w => by rw [h0 c]; exact (datsP V O Rec c).share_full (fun _ => rfl) w)
      (V c) (V1 V c) ((pdats 0 c).arrAt · cfg0.N) hF hrest
    iintro ⟨Ha, HO, -, Hrest⟩
    imodintro
    isplitl [Ha Hrest]
    · iapply hjoin; isplitl [Ha] <;> iassumption
    unfold Pipeline.Dat.owesAt Pipeline.Dat.bound Pipeline.owesWithin
    rw [hO, hR]
    iexact HO

end Region

end Cert.KernelIdeal.R0

end
-- ==== Proof.R2Frame.lean ====
import proofs.«207604_g45191645889005_cont_8to1c4_5_22_alg».proof.Proof.Gen.KernelIdeal.Launch
import proofs.«207604_g45191645889005_cont_8to1c4_5_22_alg».proof.Proof.Gen.KernelIdeal.Skeleton
import proofs.«207604_g45191645889005_cont_8to1c4_5_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

variable (O : Dev nD → CellTallies nD τ sig Ix)

variable (Rec : Dev nD → Set (SemLoc sig × Ix))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section Before
variable {V}
variable {c : Dev nD} (dat : Dat τ (Elt F) Ix Name U Lvl cfg2 c)

theorem before_0_of (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Before

abbrev rSc : Rect S256x1024 := Rect.unit (s := S256x1024) ![0, 0] S256x1024.size inb_S256x1024_S256x1024_0_0
abbrev rTc : Rect S768x1024 := Rect.unit (s := S768x1024) ![0, 0] S768x1024.size inb_S768x1024_S768x1024_0_0
abbrev rNp : Rect S768x128 := Rect.unit (s := S768x128) ![0, 0] S768x1.size inb_S768x128_S768x1_0_0

abbrev rLo : Rect S1024x1024 := Rect.unit (s := S1024x1024) ![0, 0] S256x1024.size inb_S1024x1024_S256x1024_0_0
abbrev rHi : Rect S1024x1024 := Rect.unit (s := S1024x1024) ![256, 0] S768x1024.size inb_S1024x1024_S768x1024_256_0

def bitSc (x1 : Vec F S256x1024 .f32) : BitVec 1 := Scalar.cmpf .ogt (k2_pay7 (View.ld x1 rSc)) (Scalar.ofBits .f32 0x00000000#32)

def out5 (x0 x1 : Vec F S256x1024 .f32) (x2 x3 : Vec F S768x1024 .f32) (x4 : Vec F S768x128 .f32) : Vec F S1024x1024 .f32 :=
  View.canon [⟨rHi, k2_pay2 (k2_pay5 (View.ld x2 rTc)) (k2_pay6 (View.ld x3 rTc)) (bitSc x1) (k2_pay8 (View.ld x4 rNp)) (Scalar.ofBits .f32 0x00000000#32)⟩,
    ⟨rLo, k2_pay1 (k2_pay3 (View.ld x0 rSc)) (k2_pay4 (View.ld x1 rSc)) (bitSc x1) (k2_pay8 (View.ld x4 rNp)) (Scalar.ofBits .f32 0x00000000#32)⟩]

theorem cover5 (p0 : Vec F S768x1024 .f32) (p1 : Vec F S256x1024 .f32) (y : S1024x1024.Idx) :
    ∃ pc ∈ ([⟨rHi, p0⟩, ⟨rLo, p1⟩] : List (View.Piece (Elt F) S1024x1024 .f32)), y ∈ pc.1.set :=
by
  have h0 : (y 0).val < 1024 := (y 0).isLt
  have h1 : (y 1).val < 1024 := (y 1).isLt
  by_cases h : (y 0).val < 256
  · refine ⟨⟨rLo, p1⟩, List.mem_cons_of_mem _ List.mem_cons_self, ?_⟩
    show y ∈ rLo.set
    rw [Rect.mem_set_unit]
    intro a
    match a with
    | ⟨0, _⟩ => show (0 : ℕ) ≤ (y 0).val ∧ (y 0).val < 0 + 256; omega
    | ⟨1, _⟩ => show (0 : ℕ) ≤ (y 1).val ∧ (y 1).val < 0 + 1024; omega
  · refine ⟨⟨rHi, p0⟩, List.mem_cons_self, ?_⟩
    show y ∈ rHi.set
    rw [Rect.mem_set_unit]
    intro a
    match a with
    | ⟨0, _⟩ => show (256 : ℕ) ≤ (y 0).val ∧ (y 0).val < 256 + 768; omega
    | ⟨1, _⟩ => show (0 : ℕ) ≤ (y 1).val ∧ (y 1).val < 0 + 1024; omega

variable (𝒱₀ : Variants)

set_option maxHeartbeats 4000000 in

theorem sound_kernel (c : Dev nD) (E : Set Name)
    (arg0 : Memref sig .tc .vmem S256x1024 .f32) (harg0 : arg0.IsWhole) (arg1 : Memref sig .tc .vmem S256x1024 .f32) (harg1 : arg1.IsWhole)
    (arg2 : Memref sig .tc .vmem S768x1024 .f32) (harg2 : arg2.IsWhole) (arg3 : Memref sig .tc .vmem S768x1024 .f32) (harg3 : arg3.IsWhole)
    (arg4 : Memref sig .tc .vmem S768x128 .f32) (harg4 : arg4.IsWhole) (arg5 : Memref sig .tc .vmem S1024x1024 .f32) (harg5 : arg5.IsWhole)
    (x0 x1 : Vec F S256x1024 .f32) (x2 x3 : Vec F S768x1024 .f32) (x4 : Vec F S768x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5 x0 x1 x2 x3 x4)) -∗ K ⟨⟩))
      ⊢ wp frame (wpE (defs₀ (F := F)) 𝒱₀ c none) E (cc2__finalize_body arg0 harg0 arg1 harg1 arg2 harg2 arg3 harg3 arg4 harg4 arg5 harg5) K := by
  simp only [cc2__finalize_body_eq_skeleton]; unfold cc2__finalize_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

abbrev Φc (c : Dev nD) : sProp 𝕄 := Pipeline.scopedRest (Ix := Ix) (Name := Name) (U := U) (Lvl := Lvl) (Val := Elt F) spec2 c

def dat (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Φc c
  q _ := fullShare
  owed _ := O c
  recorded _ := Rec c

local notation "𝔇" => dat (Name := Name) (U := U) (Lvl := Lvl) V O Rec

theorem A_eq (c : Dev nD) (w : Fin cfg2.W) : (𝔇 c).A w = V c (Pipeline.arrRef spec2 w) := by
  dsimp only [dat]
theorem owed_eq (c : Dev nD) (t) : (𝔇 c).owed t = O c := rfl
theorem recorded_eq (c : Dev nD) (t) : (𝔇 c).recorded t = Rec c := rfl

theorem after_0 (c : Dev nD) (t : Fin cfg2.N) : (𝔇 c).after 0 t = iblk V c 0 t := by dsimp only [dat]
theorem after_1 (c : Dev nD) (t : Fin cfg2.N) : (𝔇 c).after 1 t = iblk V c 1 t := by dsimp only [dat]
theorem after_2 (c : Dev nD) (t : Fin cfg2.N) : (𝔇 c).after 2 t = iblk V c 2 t := by dsimp only [dat]
theorem after_3 (c : Dev nD) (t : Fin cfg2.N) : (𝔇 c).after 3 t = iblk V c 3 t := by dsimp only [dat]
theorem after_4 (c : Dev nD) (t : Fin cfg2.N) : (𝔇 c).after 4 t = iblk V c 4 t := by dsimp only [dat]
theorem after_5 (c : Dev nD) (t : Fin cfg2.N) :
    (𝔇 c).after 5 t = out5 (iblk V c 0 t) (iblk V c 1 t) (iblk V c 2 t) (iblk V c 3 t) (iblk V c 4 t) := by dsimp only [dat]

theorem before_0 (c : Dev nD) (t : Fin cfg2.N) (d) : (𝔇 c).before 0 t d = iblk V c 0 t :=
  before_0_of (𝔇 c) (A_eq V O Rec c 0) (after_0 V O Rec c) t d
theorem before_1 (c : Dev nD) (t : Fin cfg2.N) (d) : (𝔇 c).before 1 t d = iblk V c 1 t :=
  before_1_of (𝔇 c) (A_eq V O Rec c 1) (after_1 V O Rec c) t d
theorem before_2 (c : Dev nD) (t : Fin cfg2.N) (d) : (𝔇 c).before 2 t d = iblk V c 2 t :=
  before_2_of (𝔇 c) (A_eq V O Rec c 2) (after_2 V O Rec c) t d
theorem before_3 (c : Dev nD) (t : Fin cfg2.N) (d) : (𝔇 c).before 3 t d = iblk V c 3 t :=
  before_3_of (𝔇 c) (A_eq V O Rec c 3) (after_3 V O Rec c) t d
theorem before_4 (c : Dev nD) (t : Fin cfg2.N) (d) : (𝔇 c).before 4 t d = iblk V c 4 t :=
  before_4_of (𝔇 c) (A_eq V O Rec c 4) (after_4 V O Rec c) t d

variable (ι : Ix)

def bodyPre (c : Dev nD) (t : Fin cfg2.N) : sProp 𝕄 :=
  iprop((𝔇 c).Φ t.castSucc ∗ (𝔇 c).owesAt ι t.castSucc
    ∗ (∃ d, owns (c : Thread nD τ) (st2_0 t) fullShare ((𝔇 c).before 0 t d))
    ∗ (∃ d, owns (c : Thread nD τ) (st2_1 t) fullShare ((𝔇 c).before 1 t d))
    ∗ (∃ d, owns (c : Thread nD τ) (st2_2 t) fullShare ((𝔇 c).before 2 t d))
    ∗ (∃ d, owns (c : Thread nD τ) (st2_3 t) fullShare ((𝔇 c).before 3 t d))
    ∗ (∃ d, owns (c : Thread nD τ) (st2_4 t) fullShare ((𝔇 c).before 4 t d))
    ∗ (∃ d, owns (c : Thread nD τ) (st2_5 t) fullShare ((𝔇 c).before 5 t d)))

def bodyPost (c : Dev nD) (t : Fin cfg2.N) : sProp 𝕄 :=
  iprop((𝔇 c).Φ t.succ ∗ (𝔇 c).owesAt ι t.succ
    ∗ owns (c : Thread nD τ) (st2_0 t) fullShare ((𝔇 c).after 0 t)
    ∗ owns (c : Thread nD τ) (st2_1 t) fullShare ((𝔇 c).after 1 t)
    ∗ owns (c : Thread nD τ) (st2_2 t) fullShare ((𝔇 c).after 2 t)
    ∗ owns (c : Thread nD τ) (st2_3 t) fullShare ((𝔇 c).after 3 t)
    ∗ owns (c : Thread nD τ) (st2_4 t) fullShare ((𝔇 c).after 4 t)
    ∗ owns (c : Thread nD τ) (st2_5 t) fullShare ((𝔇 c).after 5 t))

theorem sound_body (c : Dev nD) (t : Fin cfg2.N) :
    (bodyPre V O Rec ι c t : sProp 𝕄) ⊢ wp frame (wpE (defs₀ (F := F)) 𝒱₀ c none) Set.univ (bodyAt2 t) (fun _ => (bodyPost V O Rec ι c t : sProp 𝕄)) := by
  unfold bodyPre bodyPost bodyAt2
  simp only [before_0, before_1, before_2, before_3, before_4]
  rw [show (𝔇 c).Φ t.succ = (𝔇 c).Φ t.castSucc from rfl,
    show (𝔇 c).owesAt ι t.succ = (𝔇 c).owesAt ι t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (𝔇 c) (defs₀ (F := F)) 𝒱₀ ι Set.univ := fun t => by
  rw [bigSep_W2, bigSep_W2]
  exact sound_body V O Rec 𝒱₀ ι c t

abbrev arr5 (c : Dev nD) : Vec F S1024x1024 .f32 :=
  out5 (V c main_v13_0) (V c main_v13_1) (V c main_v12_0) (V c main_v12_1) (V c main_v12_2)

theorem iblk_0 (c : Dev nD) (t : Fin cfg2.N) : iblk V c 0 t = (V c main_v13_0 : Vec F S256x1024 .f32) := by
  funext j
  show V c main_v13_0 (((cfg2.win 0).blk t).view.emb j) = V c main_v13_0 j
  congr 1
  funext a; apply Fin.ext
  match a with
  | ⟨0, _⟩ => show 0 * 256 + 1 * (j 0).val = (j 0).val; omega
  | ⟨1, _⟩ => show 0 * 1024 + 1 * (j 1).val = (j 1).val; omega
theorem iblk_1 (c : Dev nD) (t : Fin cfg2.N) : iblk V c 1 t = (V c main_v13_1 : Vec F S256x1024 .f32) := by
  funext j
  show V c main_v13_1 (((cfg2.win 1).blk t).view.emb j) = V c main_v13_1 j
  congr 1
  funext a; apply Fin.ext
  match a with
  | ⟨0, _⟩ => show 0 * 256 + 1 * (j 0).val = (j 0).val; omega
  | ⟨1, _⟩ => show 0 * 1024 + 1 * (j 1).val = (j 1).val; omega
theorem iblk_2 (c : Dev nD) (t : Fin cfg2.N) : iblk V c 2 t = (V c main_v12_0 : Vec F S768x1024 .f32) := by
  funext j
  show V c main_v12_0 (((cfg2.win 2).blk t).view.emb j) = V c main_v12_0 j
  congr 1
  funext a; apply Fin.ext
  match a with
  | ⟨0, _⟩ => show 0 * 768 + 1 * (j 0).val = (j 0).val; omega
  | ⟨1, _⟩ => show 0 * 1024 + 1 * (j 1).val = (j 1).val; omega
theorem iblk_3 (c : Dev nD) (t : Fin cfg2.N) : iblk V c 3 t = (V c main_v12_1 : Vec F S768x1024 .f32) := by
  funext j
  show V c main_v12_1 (((cfg2.win 3).blk t).view.emb j) = V c main_v12_1 j
  congr 1
  funext a; apply Fin.ext
  match a with
  | ⟨0, _⟩ => show 0 * 768 + 1 * (j 0).val = (j 0).val; omega
  | ⟨1, _⟩ => show 0 * 1024 + 1 * (j 1).val = (j 1).val; omega
theorem iblk_4 (c : Dev nD) (t : Fin cfg2.N) : iblk V c 4 t = (V c main_v12_2 : Vec F S768x128 .f32) := by
  funext j
  show V c main_v12_2 (((cfg2.win 4).blk t).view.emb j) = V c main_v12_2 j
  congr 1
  funext a; apply Fin.ext
  match a with
  | ⟨0, _⟩ => show 0 * 768 + 1 * (j 0).val = (j 0).val; omega
  | ⟨1, _⟩ => show 0 * 128 + 1 * (j 1).val = (j 1).val; omega

theorem cover_5 (i : S1024x1024.Idx) : ∃ t : Fin cfg2.N, (cfg2.win 5).flush t = true ∧ i ∈ ((cfg2.win 5).blk t).view.set := by
  refine ⟨t2_0, flush2_5 t2_0, ?_⟩
  show i ∈ ((View.whole main_v14).slice (win2_5.rect t2_0)).set
  rw [View.set_slice_whole, Rect.mem_set_unit]
  have h0 : (i 0).val < 1024 := (i 0).isLt
  have h1 : (i 1).val < 1024 := (i 1).isLt
  intro a
  match a with
  | ⟨0, _⟩ => show 0 * 1024 ≤ (i 0).val ∧ (i 0).val < 0 * 1024 + 1024; omega
  | ⟨1, _⟩ => show 0 * 1024 ≤ (i 1).val ∧ (i 1).val < 0 * 1024 + 1024; omega

theorem read_blk5 (G : Vec F S1024x1024 .f32) (t : Fin cfg2.N) (j : ((cfg2.win 5).xblock (cfg2.grid.coords t)).Idx) :
    ((cfg2.win 5).blk t).view.read (Elt F) G j = G (((cfg2.win 5).blk t).view.emb j) := rfl

theorem xinj5 (t : Fin cfg2.N) (j : ((cfg2.win 5).xblock (cfg2.grid.coords t)).Idx) :
   ((cfg2.win 5).xinj (grid2.coords t) j : S1024x1024.Idx) = ((cfg2.win 5).blk t).view.emb j := by
    funext a; apply Fin.ext
    match a with
    | ⟨0, _⟩ => show (j 0).val = 0 * 1024 + 1 * (j 0).val; omega
    | ⟨1, _⟩ => show (j 1).val = 0 * 1024 + 1 * (j 1).val; omega

theorem after5_eq (c : Dev nD) (t : Fin cfg2.N) : (𝔇 c).after 5 t = arr5 V c := by
  rw [after_5, iblk_0, iblk_1, iblk_2, iblk_3, iblk_4]

theorem flushed_of (c : Dev nD) (t : Fin cfg2.N) (G : Vec F S1024x1024 .f32) (hG : (𝔇 c).after 5 t = G) :
    (𝔇 c).flushed 5 t = ((cfg2.win 5).blk t).view.read (Elt F) G := by
  funext j
  rw [read_blk5 G t j, ← xinj5 t j, ← hG]

theorem arrAt_of (c : Dev nD) (G : Vec F S1024x1024 .f32) (hG : ∀ t, (𝔇 c).after 5 t = G) : (𝔇 c).arrAt 5 cfg2.N = G :=
  (𝔇 c).arrAt_eq_of_cover 5 G (fun t _ => flushed_of V O Rec c t G (hG t)) (cover_5)

theorem arrAt_5 (c : Dev nD) : (𝔇 c).arrAt 5 cfg2.N = arr5 V c :=
  arrAt_of V O Rec c _ (after5_eq V O Rec c)

def V1 (c : Dev nD) (b : Ref sig .tc) : Buf (Elt F) ((c : Thread nD τ).loc b) :=
  if h : b = main_v14 then cast (congrArg (fun b' : Ref sig .tc => Buf (Elt F) ((c : Thread nD τ).loc b')) h.symm) (arr5 V c) else V c b

theorem V1_out (c : Dev nD) : V1 V c main_v14 = arr5 V c := by
  unfold V1; rw [dif_pos rfl]; exact cast_eq _ _
theorem V1_ne (c : Dev nD) (b : Ref sig .tc) (h : b ≠ main_v14) : V1 V c b = V c b := by
  unfold V1; rw [dif_neg h]

section Region

variable (adm : (p : Fin 2) → (pcfgs (F := F) p).Adm)
variable (pdats : (p : Fin 2) → (c : Dev nD) → Dat τ (Elt F) Ix Name U Lvl (Pipeline.pin (pcfgs (F := F)) adm p) c)
variable (L : GSem nD τ sig → Finset Ix) (lv : GSem nD τ sig → Ix → Lvl)

variable (R : Dev nD → sProp (MT nD τ sig Ix (Elt F) Name U Lvl))

variable (h1 : ∀ c, pdats 1 c = dat V O Rec c)

include h1 in
theorem region_body (c : Dev nD) : Pipeline.BodyObligationLoose (pdats 1 c) (defs₀ (F := F)) 𝒱₀ ι Set.univ := by
  rw [h1 c]; exact (body_obligation V O Rec 𝒱₀ ι c).loose

include h1 in
theorem region_share (c : Dev nD) (w) : (pdats 1 c).share w = fullShare := by
  rw [h1 c]; exact (𝔇 c).share_full (fun _ => rfl) w

include h1 in
theorem region_A (c : Dev nD) (w) : (pdats 1 c).A w = V c (Pipeline.arrRef (Pipeline.pin (pcfgs (F := F)) adm 1).spec w) := by
  rw [h1 c]; rfl

include h1 in
theorem region_owesAt (c : Dev nD) (t) :
    (pdats 1 c).owesAt ι t = (Pipeline.owesWithin c (O c) (Rec c ∪ cfg2.waitPairs ι) : sProp 𝕄) := by
  rw [h1 c]; rfl

include h1 in
theorem region_Φ (c : Dev nD) (t) : (pdats 1 c).Φ t = (Φc c : sProp 𝕄) := by
  rw [h1 c]; rfl

include h1 in

theorem region_arrAt (c : Dev nD) (w : Fin (Pipeline.pin (pcfgs (F := F)) adm 1).W) :
    (pdats 1 c).arrAt w cfg2.N = V1 V c (Pipeline.arrRef (Pipeline.pin (pcfgs (F := F)) adm 1).spec w) := by
  rw [h1 c]
  fin_cases w
  · exact ((𝔇 c).arrAt_in 0 rfl _).trans (V1_ne V c main_v13_0 (by decide)).symm
  · exact ((𝔇 c).arrAt_in 1 rfl _).trans (V1_ne V c main_v13_1 (by decide)).symm
  · exact ((𝔇 c).arrAt_in 2 rfl _).trans (V1_ne V c main_v12_0 (by decide)).symm
  · exact ((𝔇 c).arrAt_in 3 rfl _).trans (V1_ne V c main_v12_1 (by decide)).symm
  · exact ((𝔇 c).arrAt_in 4 rfl _).trans (V1_ne V c main_v12_2 (by decide)).symm
  · exact (arrAt_5 V O Rec c).trans (V1_out V c).symm

set_option backward.isDefEq.respectTransparency.types false in

def region (hwaits : ∀ c, (levAts L lv : sProp 𝕄) ⊢ Pipeline.cellsWaits (Pipeline.pin (pcfgs (F := F)) adm) pdats ι 1 c) :
    Pipeline.RegionSeg (pcfgs (F := F)) adm pdats ι defs₀ 𝒱₀ L lv 1 where
  win := launch2.win.to₀
  block_pos := launch2.block_pos
  stage_whole := launch2.stage_whole
  K := PEmpty
  osem k := k.elim
  ho := Pipeline.OwnSemFacts.none _
  hbody c := region_body V O Rec 𝒱₀ ι adm pdats h1 c
  hwaits := hwaits
  pre c := iprop(unscopedBufs c (V c) ∗ R c ∗ Pipeline.owesWithin c (O c) (Rec c ∪ cfg2.waitPairs ι))
  post c := iprop(unscopedBufs c (V1 V c) ∗ R c ∗ Pipeline.owesWithin c (O c) (Rec c ∪ cfg2.waitPairs ι))
  X _ := BI.emp
  Y _ := BI.emp
  Z c := iprop(Pipeline.unscopedRest (Ix := Ix) (Name := Name) (U := U) (Lvl := Lvl) spec2 c (V c) ∗ R c)
  hentry c := by
    rw [Pipeline.ownSems0_none]
    have hsplit := Pipeline.arrays_of_unscopedBufs (p := 1) (pcfgs (F := F)) adm pdats launch2.win launch2.arr_whole c
      (region_share V O Rec adm pdats h1 c) (V c) (region_A V O Rec adm pdats h1 c)
    rw [region_owesAt V O Rec ι adm pdats h1 c]
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    isplitl [Hrest]; · iexact Hrest
    iexact HR
  hin c := by
    rw [region_Φ V O Rec adm pdats h1 c]
    iintro ⟨-, -, Hr⟩; iexact Hr
  hout c := by
    rw [Pipeline.ownSems0_none, region_Φ V O Rec adm pdats h1 c]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl) launch2.win launch2.arr_whole c
      pdats (region_share V O Rec adm pdats h1 c) (V c) (V1 V c) ((pdats 1 c).arrAt · cfg2.N)
      (region_arrAt V O Rec adm pdats h1 c)
      (fun b hb => V1_ne V c b fun h => hb (h ▸ Finset.mem_image.mpr ⟨5, Finset.mem_univ _, rfl⟩))
    rw [region_owesAt V O Rec ι adm pdats h1 c]
    iintro ⟨Ha, HO, -, Hrest, HR⟩
    imodintro
    isplitl [Ha Hrest]
    · iapply hjoin; isplitl [Ha]; · iexact Ha
      iexact Hrest
    isplitl [HR]; · iexact HR
    iexact HO

end Region

end Cert.KernelIdeal.R2

end
-- ==== Proof.Assemble.lean ====
import proofs.«207604_g45191645889005_cont_8to1c4_5_22_alg».proof.Proof.Main
import proofs.«207604_g45191645889005_cont_8to1c4_5_22_alg».proof.Proof.Waits
import proofs.«207604_g45191645889005_cont_8to1c4_5_22_alg».proof.Proof.OwesGlue
import proofs.«207604_g45191645889005_cont_8to1c4_5_22_alg».proof.Proof.R0Region
import proofs.«207604_g45191645889005_cont_8to1c4_5_22_alg».proof.Proof.R2Frame

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe

variable [FloatOps F]
variable (gs gsq : Vec F S1024x100000 .f32 → Vec F S256x1024 .f32)
variable (m : (ℓ : Loc nD τ sig) → Buf (Elt F) ℓ) (ρ : Dev nD → PrngReg)

abbrev Va : (c : Dev nD) → VT F c := fun c => Vh m c

abbrev Vb : (c : Dev nD) → VT F c := R0.V1 (Va m)

abbrev Vc : (c : Dev nD) → VT F c := fun c => afterCall c (Vb m c) (gs (m (xLoc c))) (gsq (m (xLoc c)))

abbrev Vd : (c : Dev nD) → VT F c := R2.V1 (Vc gs gsq m)

def rOut : (d : Dev nD) → Buf (Elt F) (outLoc d) := fun d => Vd gs gsq m d main_v14

abbrev d0 (c : Dev nD) : Pipeline.Dat τ (Elt F) (HIx 1) ℕ UU ℕ cfg0 c :=
  R0.datsP (Name := ℕ) (U := UU) (Lvl := ℕ) (Va m) (fun c => (K (F := F)).Otc c 0) (fun c => recT (F := F) c 0) c
abbrev d1 (c : Dev nD) : Pipeline.Dat τ (Elt F) (HIx 1) ℕ UU ℕ cfg2 c :=
  R2.dat (Name := ℕ) (U := UU) (Lvl := ℕ) (Vc gs gsq m) (fun c => (K (F := F)).Otc c 1) (fun c => recT (F := F) c 1) c
abbrev pd : (p : Fin 2) → (c : Dev nD) → Pipeline.Dat τ (Elt F) (HIx 1) ℕ UU ℕ (Pipeline.pin (pcfgs (F := F)) adm p) c :=
  pdats (d0 m) (d1 gs gsq m)

def Reg0 : Pipeline.RegionSeg (pcfgs (F := F)) adm (pd gs gsq m) (none : HIx 1) (defs₀ (F := F)) 𝒱₀ (K (F := F)).L (K (F := F)).lev 0 :=
  R0.regionP (Va m) (fun c => (K (F := F)).Otc c 0) (fun c => recT (F := F) c 0) 𝒱₀ (none : HIx 1) (K (F := F)).L (K (F := F)).lev (pd gs gsq m)
    (fun _ => rfl) (fun c => hwaits_of (pd gs gsq m) 0 c 0 (fun _ => rfl))

def Reg2 : Pipeline.RegionSeg (pcfgs (F := F)) adm (pd gs gsq m) (none : HIx 1) (defs₀ (F := F)) 𝒱₀ (K (F := F)).L (K (F := F)).lev 1 :=
  R2.region (Vc gs gsq m) (fun c => (K (F := F)).Otc c 1) (fun c => recT (F := F) c 1) 𝒱₀ (none : HIx 1) adm (pd gs gsq m) (K (F := F)).L (K (F := F)).lev
    (fun _ => iprop(emp)) (fun _ => rfl) (fun c => hwaits_of (pd gs gsq m) 1 c 1 (fun _ => rfl))

theorem Reg0_pre (d : Dev nD) : (Reg0 gs gsq m).pre d
    = iprop(unscopedBufs d (Va m d) ∗ Pipeline.owesWithin d ((K (F := F)).Otc d 0) (recT (F := F) d 0)) := rfl
theorem Reg0_post (d : Dev nD) : (Reg0 gs gsq m).post d
    = iprop(unscopedBufs d (Vb m d) ∗ Pipeline.owesWithin d ((K (F := F)).Otc d 0) (recT (F := F) d 0 ∪ cfg0.waitPairs (none : HIx 1))) := rfl
theorem Reg2_pre (d : Dev nD) : (Reg2 gs gsq m).pre d
    = iprop(unscopedBufs d (Vc gs gsq m d) ∗ emp ∗ Pipeline.owesWithin d ((K (F := F)).Otc d 1) (recT (F := F) d 1 ∪ cfg2.waitPairs (none : HIx 1))) := rfl
theorem Reg2_post (d : Dev nD) : (Reg2 gs gsq m).post d
    = iprop(unscopedBufs d (Vd gs gsq m d) ∗ emp ∗ Pipeline.owesWithin d ((K (F := F)).Otc d 1) (recT (F := F) d 1 ∪ cfg2.waitPairs (none : HIx 1))) := rfl

omit [FloatOps F] in
theorem owesT_in (d : Dev nD) (n : ℕ) :
    owesT (F := F) d n ⊢ (Pipeline.owesWithin d ((K (F := F)).Otc d n) (recT (F := F) d n) : sProp 𝕄) := by
  iintro ⟨%W, %hW, HO⟩; iexists W; isplitr
  · ipureintro; exact sub_recT d n W hW
  iexact HO
omit [FloatOps F] in
theorem owesT_in' (d : Dev nD) (n : ℕ) (cfg : Pipeline.Cfg sig Λ₀) :
    owesT (F := F) d n ⊢ (Pipeline.owesWithin d ((K (F := F)).Otc d n) (recT (F := F) d n ∪ cfg.waitPairs (none : HIx 1)) : sProp 𝕄) :=
  (owesT_in d n).trans (Pipeline.owesWithin_mono d _ Set.subset_union_left)
omit [FloatOps F] in
theorem owesT_out (d : Dev nD) (n : ℕ) (cfg : Pipeline.Cfg sig Λ₀) :
    (Pipeline.owesWithin d ((K (F := F)).Otc d n) (recT (F := F) d n ∪ cfg.waitPairs (none : HIx 1)) : sProp 𝕄) ⊢ owesT (F := F) d n := by
  iintro ⟨%W, %hW, HO⟩; iexists W; isplitr
  · ipureintro; exact wbelow_after d n cfg W hW
  iexact HO

theorem hpre0 (d : Dev nD) : iprop(unscopedBufs d (Vh m d) ∗ owesT (F := F) d 0) ⊢ (Reg0 gs gsq m).pre d := by
  rw [Reg0_pre]
  iintro ⟨Hu, HO⟩
  isplitl [Hu]; · iexact Hu
  iapply (owesT_in d 0); iexact HO
theorem hpost0 (d : Dev nD) : (Reg0 gs gsq m).post d ⊢ iprop(unscopedBufs d (Vb m d) ∗ owesT (F := F) d 0) := by
  rw [Reg0_post]
  iintro ⟨Hu, HO⟩
  isplitl [Hu]; · iexact Hu
  iapply (owesT_out d 0 cfg0); iexact HO
theorem hpre2 (d : Dev nD) :
    iprop(unscopedBufs d (afterCall d (Vb m d) (gs (m (xLoc d))) (gsq (m (xLoc d)))) ∗ owesT (F := F) d 1) ⊢ (Reg2 gs gsq m).pre d := by
  rw [Reg2_pre]
  iintro ⟨Hu, HO⟩
  isplitl [Hu]; · iexact Hu
  isplitr; · iempintro
  iapply (owesT_in' d 1 cfg2); iexact HO
theorem hpost2 (d : Dev nD) : (Reg2 gs gsq m).post d ⊢ iprop(unscopedBufs d (Vd gs gsq m d) ∗ owesT (F := F) d 1) := by
  rw [Reg2_post]
  iintro ⟨Hu, -, HO⟩
  isplitl [Hu]; · iexact Hu
  iapply (owesT_out d 1 cfg2); iexact HO

theorem after_v13_0 (W : Valuation τ sig (Elt F)) :
    StableHlo.after (hostOps (F := F)) W (Proc.devRef .tc main_v13_0) = W (Proc.devRef .tc main_v13_0) := by
  unfold hostOps
  after_results
theorem after_v13_1 (W : Valuation τ sig (Elt F)) :
    StableHlo.after (hostOps (F := F)) W (Proc.devRef .tc main_v13_1) = W (Proc.devRef .tc main_v13_1) := by
  unfold hostOps
  after_results

theorem Va_arg0 (d : Dev nD) : Va m d main_arg0 = m (xLoc d) := after_arg0 (W0 m d)
theorem Va_gs (d : Dev nD) : Va m d main_v13_0 = m (gsLoc d) := after_v13_0 (W0 m d)
theorem Va_gsq (d : Dev nD) : Va m d main_v13_1 = m (gsqLoc d) := after_v13_1 (W0 m d)
theorem Va_sel (d : Dev nD) : Va m d main_v11 = (selVal (F := F) : Vec F S12544x128 .bf16) := after_sel (W0 m d)

theorem Vb_arg0 (d : Dev nD) : Vb m d main_arg0 = m (xLoc d) :=
  (R0.V1_of_ne (Va m) d main_arg0 (by decide) (by decide) (by decide)).trans (Va_arg0 m d)
theorem Vb_gs (d : Dev nD) : Vb m d main_v13_0 = m (gsLoc d) :=
  (R0.V1_of_ne (Va m) d main_v13_0 (by decide) (by decide) (by decide)).trans (Va_gs m d)
theorem Vb_gsq (d : Dev nD) : Vb m d main_v13_1 = m (gsqLoc d) :=
  (R0.V1_of_ne (Va m) d main_v13_1 (by decide) (by decide) (by decide)).trans (Va_gsq m d)
theorem Vb_v12_0 (d : Dev nD) : Vb m d main_v12_0 = R0.arr2 (Va m) d := R0.V1_v12_0 (Va m) d
theorem Vb_v12_1 (d : Dev nD) : Vb m d main_v12_1 = R0.arr3 (Va m) d := R0.V1_v12_1 (Va m) d
theorem Vb_v12_2 (d : Dev nD) : Vb m d main_v12_2 = R0.arr4 (Va m) d := R0.V1_v12_2 (Va m) d

theorem Vc_gs (d : Dev nD) : Vc gs gsq m d main_v13_0 = gs (m (xLoc d)) := afterCall_gs d _ _ _
theorem Vc_gsq (d : Dev nD) : Vc gs gsq m d main_v13_1 = gsq (m (xLoc d)) := afterCall_gsq d _ _ _
theorem Vc_arg0 (d : Dev nD) : Vc gs gsq m d main_arg0 = m (xLoc d) :=
  (afterCall_ne d _ _ _ (by decide) (by decide)).trans (Vb_arg0 m d)
theorem Vc_v12_0 (d : Dev nD) : Vc gs gsq m d main_v12_0 = R0.arr2 (Va m) d :=
  (afterCall_ne d _ _ _ (by decide) (by decide)).trans (Vb_v12_0 m d)
theorem Vc_v12_1 (d : Dev nD) : Vc gs gsq m d main_v12_1 = R0.arr3 (Va m) d :=
  (afterCall_ne d _ _ _ (by decide) (by decide)).trans (Vb_v12_1 m d)
theorem Vc_v12_2 (d : Dev nD) : Vc gs gsq m d main_v12_2 = R0.arr4 (Va m) d :=
  (afterCall_ne d _ _ _ (by decide) (by decide)).trans (Vb_v12_2 m d)

theorem Vd_arg0 (d : Dev nD) : Vd gs gsq m d main_arg0 = m (xLoc d) :=
  (R2.V1_ne (Vc gs gsq m) d main_arg0 (by decide)).trans (Vc_arg0 gs gsq m d)
theorem rOut_eq (d : Dev nD) : rOut gs gsq m d = R2.arr5 (Vc gs gsq m) d := R2.V1_out (Vc gs gsq m) d

theorem hmain_F (κ : GSem nD τ sig → ℕ) (d : Dev nD) :
    iprop((K (F := F)).ctx EH (P gs gsq m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (rOut gs gsq m) m d) :=
  hmain_of gs gsq m ρ (pd gs gsq m) (Reg0 gs gsq m) (Reg2 gs gsq m) (Vb m) (Vd gs gsq m) (rOut gs gsq m)
    (hpre0 gs gsq m) (hpost0 gs gsq m) (Vb_arg0 m) (Vb_gs m) (Vb_gsq m) (hpre2 gs gsq m) (hpost2 gs gsq m) (Vd_arg0 gs gsq m) (fun _ => rfl) κ d

theorem run_F [∀ e, Nonempty (Elt F e)] (htile : (K (F := F)).TileObl (D (F := F)) 𝒱 (P gs gsq m) v₀ 0) :
    θ_run (Cert.KernelIdeal.defs (F := F)) (Cert.KernelIdeal.threads (F := F)) ⟨m, fun _ => 0, ρ⟩ (QC (rOut gs gsq m) m) :=
  run_of gs gsq (rOut gs gsq m) m ρ htile (hmain_F gs gsq m ρ)

end Cert.KernelIdeal.Pf

end
-- ==== Proof.TileFun.lean ====
import Idealize.ShloMosaic.PureOps
import Idealize.ShloMosaic.Lib.ValueIdx

noncomputable section

namespace Cert.Proof.Tile

open Idealize.ShloMosaic Idealize.ShloMosaic.ValueIdx

abbrev V16 : Shape := ⟨1, ![16]⟩
abbrev V272 : Shape := ⟨1, ![272]⟩
abbrev V1024 : Shape := ⟨1, ![1024]⟩
abbrev VA : Shape := ⟨1, ![50176]⟩
abbrev VB : Shape := ⟨1, ![49824]⟩
abbrev MX : Shape := ⟨2, ![1024, 100000]⟩
abbrev MO : Shape := ⟨2, ![256, 1024]⟩

variable {F : FTy → Type} [FloatOps F]

def lane : IVec V16 32 := iota .scVector V16 32 [0]

def zero16 : FVec F V16 .f32 := broadcast V16 (Scalar.ofBits .f32 0x00000000#32)

def stIdx (s : Nat) : IVec V16 32 := addi lane (broadcast V16 (BitVec.ofNat 32 (17 * s)))

def ldIdx (l : Nat) : IVec V16 32 := addi (muli lane (broadcast V16 17#32)) (broadcast V16 (BitVec.ofNat 32 l))

theorem lane_apply (x : V16.Idx) : lane x = BitVec.ofNat 32 (x 0).val := by
  simp [lane, iota]

theorem lane_toNat (x : V16.Idx) : (lane x).toNat = (x 0).val := by
  have h : (x 0).val < 16 := (x 0).isLt
  rw [lane_apply, BitVec.toNat_ofNat]; omega

theorem stIdx_toNat (s : Nat) (hs : s < 16) (x : V16.Idx) : (stIdx s x).toNat = 17 * s + (x 0).val := by
  have h : (x 0).val < 16 := (x 0).isLt
  show (lane x + BitVec.ofNat 32 (17 * s)).toNat = _
  rw [BitVec.toNat_add, lane_toNat, BitVec.toNat_ofNat]; omega

theorem ldIdx_toNat (l : Nat) (hl : l < 16) (x : V16.Idx) : (ldIdx l x).toNat = 17 * (x 0).val + l := by
  have h : (x 0).val < 16 := (x 0).isLt
  show (lane x * 17#32 + BitVec.ofNat 32 l).toNat = _
  rw [BitVec.toNat_add, BitVec.toNat_mul, lane_toNat, BitVec.toNat_ofNat]
  simp only [BitVec.toNat_ofNat]; omega

theorem stIdx_inb (s : Nat) (hs : s < 16) :
    ∀ (a : Fin V272.rank) (x : V16.Idx), ((![stIdx s] : Fin V272.rank → IVec V16 32) a x).toNat < V272.size a := by
  intro a x
  have h : (x 0).val < 16 := (x 0).isLt
  have ha : a = 0 := Fin.eq_zero a
  subst ha
  show (stIdx s x).toNat < 272
  rw [stIdx_toNat s hs]; omega

theorem ldIdx_inb (l : Nat) (hl : l < 16) :
    ∀ (a : Fin V272.rank) (x : V16.Idx), ((![ldIdx l] : Fin V272.rank → IVec V16 32) a x).toNat < V272.size a := by
  intro a x
  have h : (x 0).val < 16 := (x 0).isLt
  have ha : a = 0 := Fin.eq_zero a
  subst ha
  show (ldIdx l x).toNat < 272
  rw [ldIdx_toNat l hl]; omega

def vecAt {n : Nat} (a : Vec F ⟨1, ![n]⟩ .f32) (o : Nat) : Vec F V16 .f32 :=
  fun l => if h : o + (l 0).val < n then a (ix1 ⟨o + (l 0).val, h⟩) else Scalar.ofBits .f32 0x00000000#32

def stretch {n : Nat} (a : Vec F ⟨1, ![n]⟩ .f32) (o : Nat) : Nat → Vec F V16 .f32 := fun v => vecAt a (o + 16 * v)

def loPart (c : Nat) (x : FVec F V16 .f32) : FVec F V16 .f32 :=
  select (cmpi .slt lane (broadcast V16 (BitVec.ofNat 32 c))) x zero16

def accStep (m g : Nat) (a x : FVec F V16 .f32) : FVec F V16 .f32 :=
  if 16 * m / 98 = (16 * m + 15) / 98 then
    (if g = 16 * m / 98 then addf a x else a)
  else if g = 16 * m / 98 then addf a (loPart (98 * ((16 * m + 15) / 98) - 16 * m) x)
  else if g = (16 * m + 15) / 98 then addf a (subf x (loPart (98 * ((16 * m + 15) / 98) - 16 * m) x))
  else a

def acc (X : Nat → FVec F V16 .f32) : Nat → Nat → FVec F V16 .f32
  | 0, _ => zero16
  | m + 1, g => accStep m g (acc X m g) (X m)

def sq (X : Nat → FVec F V16 .f32) : Nat → FVec F V16 .f32 := fun v => mulf (X v) (X v)

def put (s : Nat) (hs : s < 16) (v : Vec F V16 .f32) (t : Vec F V272 .f32) : Vec F V272 .f32 :=
  storeIdx t ![stIdx s] v (fun _ => 1#1) false (stIdx_inb s hs)

def putN (A : Nat → FVec F V16 .f32) (s0 : Nat) : (n : Nat) → s0 + n ≤ 16 → Vec F V272 .f32 → Vec F V272 .f32
  | 0, _, t => t
  | n + 1, h, t => put (s0 + n) (by omega) (A n) (putN A s0 n (by omega) t)

def gat (t : Vec F V272 .f32) (l : Nat) (hl : l < 16) : Vec F V16 .f32 :=
  loadIdx t ![ldIdx l] (ldIdx_inb l hl)

def flush (t : Vec F V272 .f32) : FVec F V16 .f32 :=
  addf (addf (addf (addf (addf (addf (addf (addf (addf (addf (addf (addf (addf (addf (addf
    (gat t 0 (by omega)) (gat t 1 (by omega))) (gat t 2 (by omega))) (gat t 3 (by omega))) (gat t 4 (by omega)))
    (gat t 5 (by omega))) (gat t 6 (by omega))) (gat t 7 (by omega))) (gat t 8 (by omega))) (gat t 9 (by omega)))
    (gat t 10 (by omega))) (gat t 11 (by omega))) (gat t 12 (by omega))) (gat t 13 (by omega))) (gat t 14 (by omega)))
    (gat t 15 (by omega))

def tsum (A : Nat → FVec F V16 .f32) : FVec F V16 .f32 := fun s =>
  FloatOps.addf (FloatOps.addf (FloatOps.addf (FloatOps.addf (FloatOps.addf (FloatOps.addf (FloatOps.addf (FloatOps.addf
  (FloatOps.addf (FloatOps.addf (FloatOps.addf (FloatOps.addf (FloatOps.addf (FloatOps.addf (FloatOps.addf
    (A (s 0).val (ix1 (0 : Fin 16))) (A (s 0).val (ix1 (1 : Fin 16)))) (A (s 0).val (ix1 (2 : Fin 16))))
    (A (s 0).val (ix1 (3 : Fin 16)))) (A (s 0).val (ix1 (4 : Fin 16)))) (A (s 0).val (ix1 (5 : Fin 16))))
    (A (s 0).val (ix1 (6 : Fin 16)))) (A (s 0).val (ix1 (7 : Fin 16)))) (A (s 0).val (ix1 (8 : Fin 16))))
    (A (s 0).val (ix1 (9 : Fin 16)))) (A (s 0).val (ix1 (10 : Fin 16)))) (A (s 0).val (ix1 (11 : Fin 16))))
    (A (s 0).val (ix1 (12 : Fin 16)))) (A (s 0).val (ix1 (13 : Fin 16)))) (A (s 0).val (ix1 (14 : Fin 16))))
    (A (s 0).val (ix1 (15 : Fin 16)))

def slots2 (A1 A2 : Nat → FVec F V16 .f32) : Nat → FVec F V16 .f32 := fun s => if s < 8 then A1 s else A2 (s - 8)

def slotsT (A1 A2 : Nat → FVec F V16 .f32) : Nat → FVec F V16 .f32 :=
  fun s => if s < 8 then A1 s else if s < 13 then A2 (s - 8) else zero16

def pairS {n : Nat} (a : Vec F ⟨1, ![n]⟩ .f32) (o : Nat) : FVec F V16 .f32 :=
  tsum (slots2 (acc (stretch a o) 49) (acc (stretch a (o + 784)) 49))

def pairQ {n : Nat} (a : Vec F ⟨1, ![n]⟩ .f32) (o : Nat) : FVec F V16 .f32 :=
  tsum (slots2 (acc (sq (stretch a o)) 49) (acc (sq (stretch a (o + 784))) 49))

def tailS (b : Vec F VB .f32) : FVec F V16 .f32 :=
  tsum (slotsT (acc (stretch b 48608) 49) (acc (stretch b 49392) 27))

def tailQ (b : Vec F VB .f32) : FVec F V16 .f32 :=
  tsum (slotsT (acc (sq (stretch b 48608)) 49) (acc (sq (stretch b 49392)) 27))

theorem mod16_lt (j : V1024.Idx) : (j 0).val % 16 < 16 := Nat.mod_lt _ (by omega)

def rowS (a : Vec F VA .f32) (b : Vec F VB .f32) : Vec F V1024 .f32 := fun j =>
  if (j 0).val / 16 < 32 then pairS a (1568 * ((j 0).val / 16)) (ix1 ⟨(j 0).val % 16, mod16_lt j⟩)
  else if (j 0).val / 16 < 63 then pairS b (1568 * ((j 0).val / 16 - 32)) (ix1 ⟨(j 0).val % 16, mod16_lt j⟩)
  else tailS b (ix1 ⟨(j 0).val % 16, mod16_lt j⟩)

def rowQ (a : Vec F VA .f32) (b : Vec F VB .f32) : Vec F V1024 .f32 := fun j =>
  if (j 0).val / 16 < 32 then pairQ a (1568 * ((j 0).val / 16)) (ix1 ⟨(j 0).val % 16, mod16_lt j⟩)
  else if (j 0).val / 16 < 63 then pairQ b (1568 * ((j 0).val / 16 - 32)) (ix1 ⟨(j 0).val % 16, mod16_lt j⟩)
  else tailQ b (ix1 ⟨(j 0).val % 16, mod16_lt j⟩)

def hA (x : Vec F MX .f32) (r : Fin 1024) : Vec F VA .f32 :=
  fun j => x (ix2 r ⟨(j 0).val, by have h : (j 0).val < 50176 := (j 0).isLt; omega⟩)

def hB (x : Vec F MX .f32) (r : Fin 1024) : Vec F VB .f32 :=
  fun j => x (ix2 r ⟨50176 + (j 0).val, by have h : (j 0).val < 49824 := (j 0).isLt; omega⟩)

def row256 (r : Fin 256) : Fin 1024 := ⟨r.val, by omega⟩

def gsOf (x : Vec F MX .f32) : Vec F MO .f32 :=
  fun i => rowS (hA x (row256 (i 0))) (hB x (row256 (i 0))) (ix1 (i 1))

def gsqOf (x : Vec F MX .f32) : Vec F MO .f32 :=
  fun i => rowQ (hA x (row256 (i 0))) (hB x (row256 (i 0))) (ix1 (i 1))

theorem ofLane_eq (k : Fin 16) : (Shape.ofLane (d := ![16]) k : V16.Idx) = ix1 k := by
  funext a
  match a with
  | ⟨0, _⟩ => rfl

def stStep (s : Nat) (v : Vec F V16 .f32) (g : Vec F V272 .f32) (k : Fin 16) : Vec F V272 .f32 :=
  fun j => if (j 0).val = 17 * s + k.val then v (ix1 k) else g j

theorem put_eq_fold (s : Nat) (hs : s < 16) (v : Vec F V16 .f32) (t : Vec F V272 .f32) :
    put s hs v t = (List.finRange 16).foldl (stStep s v) t := by
  unfold put storeIdx
  show List.foldl _ t (List.finRange 16) = _
  refine List.foldl_ext _ _ _ ?_
  intro g k _
  have hk : ((idxAt (s := V272) (t := V16) ![stIdx s] (stIdx_inb s hs) (ix1 k)) 0).val = 17 * s + k.val := by
    show (stIdx s (ix1 k)).toNat = _
    rw [stIdx_toNat s hs]
  have e : (Shape.ofLane (d := ![16]) k : V16.Idx) = ix1 k := ofLane_eq k
  funext j
  unfold stStep
  simp only [e, if_pos, Bool.false_eq_true, if_false, Fin.forall_fin_one, hk]
  rfl

theorem fold_miss (s : Nat) (v : Vec F V16 .f32) (j : V272.Idx) (L : List (Fin 16)) (g : Vec F V272 .f32)
    (h : ∀ k ∈ L, (j 0).val ≠ 17 * s + k.val) : L.foldl (stStep s v) g j = g j := by
  induction L generalizing g with
  | nil => rfl
  | cons k L ih =>
    rw [List.foldl_cons, ih _ (fun k' hk' => h k' (List.mem_cons_of_mem _ hk'))]
    unfold stStep
    rw [if_neg (h k (List.mem_cons_self ..))]

theorem fold_hit (s : Nat) (v : Vec F V16 .f32) (j : V272.Idx) (k0 : Fin 16) (hj : (j 0).val = 17 * s + k0.val)
    (L : List (Fin 16)) (g : Vec F V272 .f32) (h : k0 ∈ L) : L.foldl (stStep s v) g j = v (ix1 k0) := by
  induction L using List.reverseRecOn with
  | nil => simp at h
  | append_singleton L k ih =>
    rw [List.foldl_append, List.foldl_cons, List.foldl_nil]
    by_cases hk : k = k0
    · subst hk; unfold stStep; rw [if_pos hj]
    · have hm : k0 ∈ L := by
        rcases List.mem_append.mp h with h | h
        · exact h
        · simp at h; exact absurd h.symm hk
      unfold stStep
      have hne : (j 0).val ≠ 17 * s + k.val := by
        intro e; apply hk; apply Fin.ext; omega
      rw [if_neg hne]; exact ih hm

theorem put_hit (s : Nat) (hs : s < 16) (v : Vec F V16 .f32) (t : Vec F V272 .f32) (j : V272.Idx) (k : Fin 16)
    (hj : (j 0).val = 17 * s + k.val) : put s hs v t j = v (ix1 k) := by
  rw [put_eq_fold]; exact fold_hit s v j k hj _ _ (List.mem_finRange k)

theorem put_miss (s : Nat) (hs : s < 16) (v : Vec F V16 .f32) (t : Vec F V272 .f32) (j : V272.Idx)
    (hj : (j 0).val < 17 * s ∨ 17 * s + 16 ≤ (j 0).val) : put s hs v t j = t j := by
  rw [put_eq_fold]; apply fold_miss
  intro k _; have := k.isLt; omega

theorem putN_hit (A : Nat → FVec F V16 .f32) (s0 n : Nat) (h : s0 + n ≤ 16) (t : Vec F V272 .f32) (j : V272.Idx)
    (s : Nat) (k : Fin 16) (hs0 : s0 ≤ s) (hsn : s < s0 + n) (hj : (j 0).val = 17 * s + k.val) :
    putN A s0 n h t j = A (s - s0) (ix1 k) := by
  induction n with
  | zero => omega
  | succ n ih =>
    unfold putN
    by_cases hs : s = s0 + n
    · subst hs
      rw [put_hit _ _ _ _ j k hj]; congr 2; omega
    · rw [put_miss _ _ _ _ j (by have := k.isLt; omega)]
      exact ih (by omega) (by omega)

theorem putN_miss (A : Nat → FVec F V16 .f32) (s0 n : Nat) (h : s0 + n ≤ 16) (t : Vec F V272 .f32) (j : V272.Idx)
    (hj : (j 0).val < 17 * s0 ∨ 17 * (s0 + n) ≤ (j 0).val) : putN A s0 n h t j = t j := by
  induction n with
  | zero => rfl
  | succ n ih =>
    unfold putN
    rw [put_miss _ _ _ _ j (by omega)]
    exact ih (by omega) (by omega)

theorem gat_apply (t : Vec F V272 .f32) (l : Nat) (hl : l < 16) (s : V16.Idx) :
    gat t l hl s = t (ix1 ⟨17 * (s 0).val + l, by have := (s 0).isLt; have h : (s 0).val < 16 := (s 0).isLt; omega⟩) := by
  unfold gat loadIdx
  congr 1
  funext a
  match a with
  | ⟨0, _⟩ =>
    apply Fin.ext
    show (ldIdx l s).toNat = _
    rw [ldIdx_toNat l hl]

theorem flush_apply (t : Vec F V272 .f32) (B : Nat → FVec F V16 .f32)
    (h : ∀ (s : V16.Idx) (l : Fin 16), t (ix1 ⟨17 * (s 0).val + l.val, by have h : (s 0).val < 16 := (s 0).isLt; have := l.isLt; omega⟩) = B (s 0).val (ix1 l)) :
    flush t = tsum B := by
  funext s
  unfold flush tsum
  simp only [addf, gat_apply]
  have e := fun l : Fin 16 => h s l
  rw [← e 0, ← e 1, ← e 2, ← e 3, ← e 4, ← e 5, ← e 6, ← e 7, ← e 8, ← e 9, ← e 10, ← e 11, ← e 12, ← e 13, ← e 14, ← e 15]
  rfl

theorem flush_pair (A1 A2 : Nat → FVec F V16 .f32) (t : Vec F V272 .f32) :
    flush (putN A2 8 8 (by omega) (putN A1 0 8 (by omega) t)) = tsum (slots2 A1 A2) := by
  apply flush_apply
  intro s l
  have hs : (s 0).val < 16 := (s 0).isLt
  unfold slots2
  by_cases h8 : (s 0).val < 8
  · rw [if_pos h8, putN_miss _ _ _ _ _ _ (Or.inl (by show 17 * (s 0).val + l.val < 17 * 8; have := l.isLt; omega))]
    rw [putN_hit A1 0 8 (by omega) t _ (s 0).val l (by omega) (by omega) rfl]; rfl
  · rw [if_neg h8, putN_hit A2 8 8 (by omega) _ _ (s 0).val l (by omega) (by omega) rfl]

theorem flush_tail (A1 A2 : Nat → FVec F V16 .f32) (t : Vec F V272 .f32) :
    flush (put 15 (by omega) zero16 (put 14 (by omega) zero16 (put 13 (by omega) zero16
      (putN A2 8 5 (by omega) (putN A1 0 8 (by omega) t))))) = tsum (slotsT A1 A2) := by
  apply flush_apply
  intro s l
  have hs : (s 0).val < 16 := (s 0).isLt
  have hl := l.isLt
  unfold slotsT
  by_cases h15 : (s 0).val = 15
  · rw [put_hit 15 _ _ _ _ l (by show 17 * (s 0).val + l.val = _; omega), if_neg (by omega), if_neg (by omega)]
  rw [put_miss 15 _ _ _ _ (by show 17 * (s 0).val + l.val < _ ∨ _ ≤ 17 * (s 0).val + l.val; omega)]
  by_cases h14 : (s 0).val = 14
  · rw [put_hit 14 _ _ _ _ l (by show 17 * (s 0).val + l.val = _; omega), if_neg (by omega), if_neg (by omega)]
  rw [put_miss 14 _ _ _ _ (by show 17 * (s 0).val + l.val < _ ∨ _ ≤ 17 * (s 0).val + l.val; omega)]
  by_cases h13 : (s 0).val = 13
  · rw [put_hit 13 _ _ _ _ l (by show 17 * (s 0).val + l.val = _; omega), if_neg (by omega), if_neg (by omega)]
  rw [put_miss 13 _ _ _ _ (by show 17 * (s 0).val + l.val < _ ∨ _ ≤ 17 * (s 0).val + l.val; omega)]
  by_cases h8 : (s 0).val < 8
  · rw [if_pos h8, putN_miss _ _ _ _ _ _ (Or.inl (by show 17 * (s 0).val + l.val < 17 * 8; omega))]
    rw [putN_hit A1 0 8 (by omega) t _ (s 0).val l (by omega) (by omega) rfl]; rfl
  · rw [if_neg h8, if_pos (by omega), putN_hit A2 8 5 (by omega) _ _ (s 0).val l (by omega) (by omega) rfl]

theorem rowS_A (a : Vec F VA .f32) (b : Vec F VB .f32) (p : Nat) (hp : p < 32) (s : Fin 16) :
    rowS a b (ix1 ⟨16 * p + s.val, by have := s.isLt; omega⟩) = pairS a (1568 * p) (ix1 s) := by
  have hs := s.isLt
  have h1 : (16 * p + s.val) / 16 = p := by omega
  have h2 : (16 * p + s.val) % 16 = s.val := by omega
  unfold rowS
  simp only [h1, h2, if_pos hp]

theorem rowS_B (a : Vec F VA .f32) (b : Vec F VB .f32) (p : Nat) (hp : p < 31) (s : Fin 16) :
    rowS a b (ix1 ⟨512 + 16 * p + s.val, by have := s.isLt; omega⟩) = pairS b (1568 * p) (ix1 s) := by
  have hs := s.isLt
  have h1 : (512 + 16 * p + s.val) / 16 = 32 + p := by omega
  have h2 : (512 + 16 * p + s.val) % 16 = s.val := by omega
  have h3 : ¬ (32 + p < 32) := by omega
  have h4 : 32 + p < 63 := by omega
  have h5 : 32 + p - 32 = p := by omega
  unfold rowS
  simp only [h1, h2, if_neg h3, if_pos h4, h5]

theorem rowS_T (a : Vec F VA .f32) (b : Vec F VB .f32) (s : Fin 16) :
    rowS a b (ix1 ⟨1008 + s.val, by have := s.isLt; omega⟩) = tailS b (ix1 s) := by
  have hs := s.isLt
  have h1 : (1008 + s.val) / 16 = 63 := by omega
  have h2 : (1008 + s.val) % 16 = s.val := by omega
  unfold rowS
  simp only [h1, h2]
  rw [if_neg (by omega), if_neg (by omega)]

theorem rowQ_A (a : Vec F VA .f32) (b : Vec F VB .f32) (p : Nat) (hp : p < 32) (s : Fin 16) :
    rowQ a b (ix1 ⟨16 * p + s.val, by have := s.isLt; omega⟩) = pairQ a (1568 * p) (ix1 s) := by
  have hs := s.isLt
  have h1 : (16 * p + s.val) / 16 = p := by omega
  have h2 : (16 * p + s.val) % 16 = s.val := by omega
  unfold rowQ
  simp only [h1, h2, if_pos hp]

theorem rowQ_B (a : Vec F VA .f32) (b : Vec F VB .f32) (p : Nat) (hp : p < 31) (s : Fin 16) :
    rowQ a b (ix1 ⟨512 + 16 * p + s.val, by have := s.isLt; omega⟩) = pairQ b (1568 * p) (ix1 s) := by
  have hs := s.isLt
  have h1 : (512 + 16 * p + s.val) / 16 = 32 + p := by omega
  have h2 : (512 + 16 * p + s.val) % 16 = s.val := by omega
  have h3 : ¬ (32 + p < 32) := by omega
  have h4 : 32 + p < 63 := by omega
  have h5 : 32 + p - 32 = p := by omega
  unfold rowQ
  simp only [h1, h2, if_neg h3, if_pos h4, h5]

theorem rowQ_T (a : Vec F VA .f32) (b : Vec F VB .f32) (s : Fin 16) :
    rowQ a b (ix1 ⟨1008 + s.val, by have := s.isLt; omega⟩) = tailQ b (ix1 s) := by
  have hs := s.isLt
  have h1 : (1008 + s.val) / 16 = 63 := by omega
  have h2 : (1008 + s.val) % 16 = s.val := by omega
  unfold rowQ
  simp only [h1, h2]
  rw [if_neg (by omega), if_neg (by omega)]

theorem acc_congr (X Y : Nat → FVec F V16 .f32) (m : Nat) (h : ∀ v, v < m → X v = Y v) (g : Nat) :
    acc X m g = acc Y m g := by
  induction m with
  | zero => rfl
  | succ m ih =>
    show accStep m g (acc X m g) (X m) = accStep m g (acc Y m g) (Y m)
    rw [ih (fun v hv => h v (by omega)), h m (by omega)]

theorem sq_congr (X Y : Nat → FVec F V16 .f32) (m : Nat) (h : ∀ v, v < m → X v = Y v) :
    ∀ v, v < m → sq X v = sq Y v := by
  intro v hv
  unfold sq
  rw [h v hv]

theorem pairS_of {n : Nat} (a : Vec F ⟨1, ![n]⟩ .f32) (o : Nat) (X0 X1 : Nat → FVec F V16 .f32)
    (h0 : ∀ v, v < 49 → X0 v = vecAt a (o + 16 * v)) (h1 : ∀ v, v < 49 → X1 v = vecAt a (o + 784 + 16 * v)) :
    tsum (slots2 (acc X0 49) (acc X1 49)) = pairS a o := by
  have e0 : acc X0 49 = acc (stretch a o) 49 := funext fun g => acc_congr X0 (stretch a o) 49 h0 g
  have e1 : acc X1 49 = acc (stretch a (o + 784)) 49 := funext fun g => acc_congr X1 (stretch a (o + 784)) 49 h1 g
  unfold pairS
  rw [e0, e1]

theorem pairQ_of {n : Nat} (a : Vec F ⟨1, ![n]⟩ .f32) (o : Nat) (X0 X1 : Nat → FVec F V16 .f32)
    (h0 : ∀ v, v < 49 → X0 v = vecAt a (o + 16 * v)) (h1 : ∀ v, v < 49 → X1 v = vecAt a (o + 784 + 16 * v)) :
    tsum (slots2 (acc (sq X0) 49) (acc (sq X1) 49)) = pairQ a o := by
  have e0 : acc (sq X0) 49 = acc (sq (stretch a o)) 49 :=
    funext fun g => acc_congr (sq X0) (sq (stretch a o)) 49 (sq_congr X0 (stretch a o) 49 h0) g
  have e1 : acc (sq X1) 49 = acc (sq (stretch a (o + 784))) 49 :=
    funext fun g => acc_congr (sq X1) (sq (stretch a (o + 784))) 49 (sq_congr X1 (stretch a (o + 784)) 49 h1) g
  unfold pairQ
  rw [e0, e1]

theorem tailS_of (b : Vec F VB .f32) (X0 X1 : Nat → FVec F V16 .f32)
    (h0 : ∀ v, v < 49 → X0 v = vecAt b (48608 + 16 * v)) (h1 : ∀ v, v < 27 → X1 v = vecAt b (49392 + 16 * v)) :
    tsum (slotsT (acc X0 49) (acc X1 27)) = tailS b := by
  have e0 : acc X0 49 = acc (stretch b 48608) 49 := funext fun g => acc_congr X0 (stretch b 48608) 49 h0 g
  have e1 : acc X1 27 = acc (stretch b 49392) 27 := funext fun g => acc_congr X1 (stretch b 49392) 27 h1 g
  unfold tailS
  rw [e0, e1]

theorem tailQ_of (b : Vec F VB .f32) (X0 X1 : Nat → FVec F V16 .f32)
    (h0 : ∀ v, v < 49 → X0 v = vecAt b (48608 + 16 * v)) (h1 : ∀ v, v < 27 → X1 v = vecAt b (49392 + 16 * v)) :
    tsum (slotsT (acc (sq X0) 49) (acc (sq X1) 27)) = tailQ b := by
  have e0 : acc (sq X0) 49 = acc (sq (stretch b 48608)) 49 :=
    funext fun g => acc_congr (sq X0) (sq (stretch b 48608)) 49 (sq_congr X0 (stretch b 48608) 49 h0) g
  have e1 : acc (sq X1) 27 = acc (sq (stretch b 49392)) 27 :=
    funext fun g => acc_congr (sq X1) (sq (stretch b 49392)) 27 (sq_congr X1 (stretch b 49392) 27 h1) g
  unfold tailQ
  rw [e0, e1]

theorem vecAt_unit {n : Nat} (A : Vec F ⟨1, ![n]⟩ .f32) (off : Fin 1 → Nat)
    (inb : ∀ a, off a + V16.size a ≤ (⟨1, ![n]⟩ : Shape).size a) :
    (fun l : V16.Idx => A ((Rect.unit (s := ⟨1, ![n]⟩) off V16.size inb).toLoadRect.idx l)) = vecAt A (off 0) := by
  funext l
  have hl : (l 0).val < 16 := (l 0).isLt
  have hb : off 0 + 16 ≤ n := inb 0
  unfold vecAt
  rw [dif_pos (by omega)]
  congr 1
  funext a
  match a with
  | ⟨0, _⟩ =>
    apply Fin.ext
    show off 0 + 1 * (l 0).val = off 0 + (l 0).val
    omega

end Cert.Proof.Tile
-- ==== Proof.TileSetup.lean ====
import proofs.«207604_g45191645889005_cont_8to1c4_5_22_alg».proof.Proof.Ghost
import proofs.«207604_g45191645889005_cont_8to1c4_5_22_alg».proof.Proof.TilePay
import proofs.«207604_g45191645889005_cont_8to1c4_5_22_alg».proof.Proof.TileFun
import proofs.«207604_g45191645889005_cont_8to1c4_5_22_alg».proof.Proof.Gen.KernelIdeal.Skeleton
import Idealize.ShloMosaic.Lib.Tactic
import Idealize.ShloMosaic.Lib.SparseCore.Ops
import Idealize.ShloMosaic.Lib.Writes
import Idealize.ShloMosaic.Lib.ValueIdx

noncomputable section

namespace Cert.KernelIdeal.Pf

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

theorem pts_bA (d : Dev nD) (L : grid1.Coords) (f : Buf (Elt F) ((thr d L).loc cc1_scratch0)) :
    ((bA).view.loc (thr d L) ↦{fullShare} f : sProp 𝕄) = (thr d L).loc cc1_scratch0 ↦{fullShare} f := rfl
theorem pts_bB (d : Dev nD) (L : grid1.Coords) (f : Buf (Elt F) ((thr d L).loc cc1_scratch1)) :
    ((bB).view.loc (thr d L) ↦{fullShare} f : sProp 𝕄) = (thr d L).loc cc1_scratch1 ↦{fullShare} f := rfl
theorem pts_bO (d : Dev nD) (L : grid1.Coords) (f : Buf (Elt F) ((thr d L).loc cc1_scratch2)) :
    ((bO).view.loc (thr d L) ↦{fullShare} f : sProp 𝕄) = (thr d L).loc cc1_scratch2 ↦{fullShare} f := rfl
theorem pts_bP (d : Dev nD) (L : grid1.Coords) (f : Buf (Elt F) ((thr d L).loc cc1_scratch3)) :
    ((bP).view.loc (thr d L) ↦{fullShare} f : sProp 𝕄) = (thr d L).loc cc1_scratch3 ↦{fullShare} f := rfl
theorem pts_tS (d : Dev nD) (L : grid1.Coords) (f : Buf (Elt F) ((thr d L).loc cc1_scratch4)) :
    ((tS).view.loc (thr d L) ↦{fullShare} f : sProp 𝕄) = (thr d L).loc cc1_scratch4 ↦{fullShare} f := rfl
theorem pts_tQ (d : Dev nD) (L : grid1.Coords) (f : Buf (Elt F) ((thr d L).loc cc1_scratch5)) :
    ((tQ).view.loc (thr d L) ↦{fullShare} f : sProp 𝕄) = (thr d L).loc cc1_scratch5 ↦{fullShare} f := rfl

theorem writesO_apply (d : Dev nD) (L : grid1.Coords) (f : Buf (Elt F) ((thr d L).loc cc1_scratch2)) (off : Fin 1 → ℕ) (h : ∀ a, off a + S16.size a ≤ S1024.size a)
    (w : FVec F S16 .f32) (j : S1024.Idx) :
    ((bO).view.writes (Elt F) f [⟨Rect.unit (s := S1024) off S16.size h, w⟩]) j
      = if hj : off 0 ≤ (j 0).val ∧ (j 0).val < off 0 + 16 then w (ValueIdx.ix1 ⟨(j 0).val - off 0, by omega⟩) else f j := by
  by_cases hj : off 0 ≤ (j 0).val ∧ (j 0).val < off 0 + 16
  · rw [dif_pos hj]
    have e : (Rect.unit (s := S1024) off S16.size h).emb (ValueIdx.ix1 ⟨(j 0).val - off 0, by omega⟩) = j := by
      funext a; apply Fin.ext
      obtain rfl : a = 0 := Subsingleton.elim _ _
      rw [Rect.emb_apply]
      show off 0 + 1 * ((j 0).val - off 0) = (j 0).val
      omega
    have := View.read_writes_cons_emb (bO).view (Val := Elt F) f (Rect.unit (s := S1024) off S16.size h) w [] (ValueIdx.ix1 ⟨(j 0).val - off 0, by omega⟩)
    rw [e] at this
    exact this
  · rw [dif_neg hj]
    have key := View.read_writes_apply_of_forall_not_mem (bO).view (Val := Elt F) f j [⟨Rect.unit (s := S1024) off S16.size h, w⟩] (by
      intro p hp
      rw [List.mem_singleton] at hp
      subst hp
      intro hm
      have hm' : j ∈ (Rect.unit (s := S1024) off S16.size h).set := hm
      have := ((Rect.mem_set_unit (s := S1024) (off := off) (size := S16.size) (inb := h) (i := j)).mp hm') 0
      exact hj ⟨this.1, this.2⟩)
    exact key

theorem writesP_apply (d : Dev nD) (L : grid1.Coords) (f : Buf (Elt F) ((thr d L).loc cc1_scratch3)) (off : Fin 1 → ℕ) (h : ∀ a, off a + S16.size a ≤ S1024.size a)
    (w : FVec F S16 .f32) (j : S1024.Idx) :
    ((bP).view.writes (Elt F) f [⟨Rect.unit (s := S1024) off S16.size h, w⟩]) j
      = if hj : off 0 ≤ (j 0).val ∧ (j 0).val < off 0 + 16 then w (ValueIdx.ix1 ⟨(j 0).val - off 0, by omega⟩) else f j := by
  by_cases hj : off 0 ≤ (j 0).val ∧ (j 0).val < off 0 + 16
  · rw [dif_pos hj]
    have e : (Rect.unit (s := S1024) off S16.size h).emb (ValueIdx.ix1 ⟨(j 0).val - off 0, by omega⟩) = j := by
      funext a; apply Fin.ext
      obtain rfl : a = 0 := Subsingleton.elim _ _
      rw [Rect.emb_apply]
      show off 0 + 1 * ((j 0).val - off 0) = (j 0).val
      omega
    have := View.read_writes_cons_emb (bP).view (Val := Elt F) f (Rect.unit (s := S1024) off S16.size h) w [] (ValueIdx.ix1 ⟨(j 0).val - off 0, by omega⟩)
    rw [e] at this
    exact this
  · rw [dif_neg hj]
    have key := View.read_writes_apply_of_forall_not_mem (bP).view (Val := Elt F) f j [⟨Rect.unit (s := S1024) off S16.size h, w⟩] (by
      intro p hp
      rw [List.mem_singleton] at hp
      subst hp
      intro hm
      have hm' : j ∈ (Rect.unit (s := S1024) off S16.size h).set := hm
      have := ((Rect.mem_set_unit (s := S1024) (off := off) (size := S16.size) (inb := h) (i := j)).mp hm') 0
      exact hj ⟨this.1, this.2⟩)
    exact key

def DoneS (b0 : ℕ) (val : ℕ → FVec F S16 .f32) (g : Vec F S1024 .f32) (k : ℕ) (f : Vec F S1024 .f32) : Prop :=
  (∀ j : S1024.Idx, (j 0).val < b0 → f j = g j)
    ∧ ∀ (q : ℕ) (s : Fin 16) (h : b0 + 16 * q + s.val < 1024), q < k → f (ValueIdx.ix1 ⟨b0 + 16 * q + s.val, h⟩) = val q (ValueIdx.ix1 s)

theorem DoneS_zero (b0 : ℕ) (val : ℕ → FVec F S16 .f32) (g : Vec F S1024 .f32) : DoneS b0 val g 0 g :=
  ⟨fun _ _ => rfl, fun _ _ _ h => absurd h (Nat.not_lt_zero _)⟩

theorem DoneS_step {b0 : ℕ} {val : ℕ → FVec F S16 .f32} {g : Vec F S1024 .f32} {k : ℕ} {f f' : Vec F S1024 .f32} {o : ℕ} {w : FVec F S16 .f32}
    (ho : o = b0 + 16 * k) (hw : w = val k) (hf : DoneS b0 val g k f)
    (hf' : ∀ j : S1024.Idx, f' j = if hj : o ≤ (j 0).val ∧ (j 0).val < o + 16 then w (ValueIdx.ix1 ⟨(j 0).val - o, by omega⟩) else f j) :
    DoneS b0 val g (k + 1) f' := by
  obtain ⟨h1, h2⟩ := hf
  refine ⟨fun j hj => ?_, fun q s h hq => ?_⟩
  · rw [hf' j, dif_neg (by omega)]; exact h1 j hj
  · rw [hf' _]
    by_cases e : q = k
    · subst e
      have hs := s.isLt
      rw [dif_pos (by show o ≤ b0 + 16 * q + s.val ∧ b0 + 16 * q + s.val < o + 16; omega), hw]
      congr 2
      apply Fin.ext
      show b0 + 16 * q + s.val - o = s.val
      omega
    · have hs := s.isLt
      rw [dif_neg (by show ¬ (o ≤ b0 + 16 * q + s.val ∧ b0 + 16 * q + s.val < o + 16); omega)]
      exact h2 q s h (by omega)

/-- Each index vector the tile makes stays inside the 272-word scratch: the side conditions the body assumes, as closed facts. -/
theorem chk1 : k1_chk1 (Tile.stIdx 0) := by unfold k1_chk1; decide
theorem chk2 : k1_chk2 (Tile.stIdx 1) := by unfold k1_chk2; decide
theorem chk3 : k1_chk3 (Tile.stIdx 2) := by unfold k1_chk3; decide
theorem chk4 : k1_chk4 (Tile.stIdx 3) := by unfold k1_chk4; decide
theorem chk5 : k1_chk5 (Tile.stIdx 4) := by unfold k1_chk5; decide
theorem chk6 : k1_chk6 (Tile.stIdx 5) := by unfold k1_chk6; decide
theorem chk7 : k1_chk7 (Tile.stIdx 6) := by unfold k1_chk7; decide
theorem chk8 : k1_chk8 (Tile.stIdx 7) := by unfold k1_chk8; decide
theorem chk9 : k1_chk9 (Tile.stIdx 8) := by unfold k1_chk9; decide
theorem chk10 : k1_chk10 (Tile.stIdx 9) := by unfold k1_chk10; decide
theorem chk11 : k1_chk11 (Tile.stIdx 10) := by unfold k1_chk11; decide
theorem chk12 : k1_chk12 (Tile.stIdx 11) := by unfold k1_chk12; decide
theorem chk13 : k1_chk13 (Tile.stIdx 12) := by unfold k1_chk13; decide
theorem chk14 : k1_chk14 (Tile.stIdx 13) := by unfold k1_chk14; decide
theorem chk15 : k1_chk15 (Tile.stIdx 14) := by unfold k1_chk15; decide
theorem chk16 : k1_chk16 (Tile.stIdx 15) := by unfold k1_chk16; decide
theorem chk17 : k1_chk17 (Tile.ldIdx 0) := by unfold k1_chk17; decide
theorem chk18 : k1_chk18 (Tile.ldIdx 1) := by unfold k1_chk18; decide
theorem chk19 : k1_chk19 (Tile.ldIdx 2) := by unfold k1_chk19; decide
theorem chk20 : k1_chk20 (Tile.ldIdx 3) := by unfold k1_chk20; decide
theorem chk21 : k1_chk21 (Tile.ldIdx 4) := by unfold k1_chk21; decide
theorem chk22 : k1_chk22 (Tile.ldIdx 5) := by unfold k1_chk22; decide
theorem chk23 : k1_chk23 (Tile.ldIdx 6) := by unfold k1_chk23; decide
theorem chk24 : k1_chk24 (Tile.ldIdx 7) := by unfold k1_chk24; decide
theorem chk25 : k1_chk25 (Tile.ldIdx 8) := by unfold k1_chk25; decide
theorem chk26 : k1_chk26 (Tile.ldIdx 9) := by unfold k1_chk26; decide
theorem chk27 : k1_chk27 (Tile.ldIdx 10) := by unfold k1_chk27; decide
theorem chk28 : k1_chk28 (Tile.ldIdx 11) := by unfold k1_chk28; decide
theorem chk29 : k1_chk29 (Tile.ldIdx 12) := by unfold k1_chk29; decide
theorem chk30 : k1_chk30 (Tile.ldIdx 13) := by unfold k1_chk30; decide
theorem chk31 : k1_chk31 (Tile.ldIdx 14) := by unfold k1_chk31; decide
theorem chk32 : k1_chk32 (Tile.ldIdx 15) := by unfold k1_chk32; decide

end Cert.KernelIdeal.Pf

end
-- ==== Proof.TileSets.lean ====
import proofs.«207604_g45191645889005_cont_8to1c4_5_22_alg».proof.Proof.TilePay
import proofs.«207604_g45191645889005_cont_8to1c4_5_22_alg».proof.Proof.TileFun
import Idealize.ShloMosaic.Lib.ValueIdx

noncomputable section

namespace Cert.KernelIdeal.Pf

open Cert.KernelIdeal Cert.KernelIdeal.Gen

open Idealize.ShloMosaic Idealize.ShloMosaic.ValueIdx

variable {F : FTy → Type} [FloatOps F]

def colsA (r : ℕ) : Finset S1024x100000.Idx := Finset.univ.filter fun j => (j 0).val = r ∧ (j 1).val < 50176
def colsB (r : ℕ) : Finset S1024x100000.Idx := Finset.univ.filter fun j => (j 0).val = r ∧ 50176 ≤ (j 1).val

def allA (w : ℕ) : Finset S1024x100000.Idx := (rowsX w).filter fun j => (j 1).val < 50176
def allB (w : ℕ) : Finset S1024x100000.Idx := (rowsX w).filter fun j => 50176 ≤ (j 1).val

def rowO (r : ℕ) : Finset S256x1024.Idx := Finset.univ.filter fun j => (j 0).val = r

omit [FloatOps F] in
theorem mem_colsA {r : ℕ} {j : S1024x100000.Idx} : j ∈ colsA r ↔ (j 0).val = r ∧ (j 1).val < 50176 := by
  unfold colsA; rw [Finset.mem_filter]; exact ⟨fun h => h.2, fun h => ⟨Finset.mem_univ _, h⟩⟩
omit [FloatOps F] in
theorem mem_colsB {r : ℕ} {j : S1024x100000.Idx} : j ∈ colsB r ↔ (j 0).val = r ∧ 50176 ≤ (j 1).val := by
  unfold colsB; rw [Finset.mem_filter]; exact ⟨fun h => h.2, fun h => ⟨Finset.mem_univ _, h⟩⟩
omit [FloatOps F] in
theorem mem_allA {w : ℕ} {j : S1024x100000.Idx} :
    j ∈ allA w ↔ (8 * w ≤ (j 0).val ∧ (j 0).val < 8 * w + 8) ∧ (j 1).val < 50176 := by
  unfold allA; rw [Finset.mem_filter, mem_rowsX]
omit [FloatOps F] in
theorem mem_allB {w : ℕ} {j : S1024x100000.Idx} :
    j ∈ allB w ↔ (8 * w ≤ (j 0).val ∧ (j 0).val < 8 * w + 8) ∧ 50176 ≤ (j 1).val := by
  unfold allB; rw [Finset.mem_filter, mem_rowsX]
omit [FloatOps F] in
theorem mem_rowO {r : ℕ} {j : S256x1024.Idx} : j ∈ rowO r ↔ (j 0).val = r := by
  unfold rowO; rw [Finset.mem_filter]; exact ⟨fun h => h.2, fun h => ⟨Finset.mem_univ _, h⟩⟩

abbrev slA (off : Fin 2 → ℕ) (h : ∀ a, off a + S1x50176.size a ≤ S1024x100000.size a) : Memref sig .scVector .hbm S50176 .f32 :=
  ((aX).slice (Rect.unit (s := S1024x100000) off S1x50176.size h) (fun _ => rfl)).squeeze S50176 squeezes_S1x50176_S50176
abbrev slB (off : Fin 2 → ℕ) (h : ∀ a, off a + S1x49824.size a ≤ S1024x100000.size a) : Memref sig .scVector .hbm S49824 .f32 :=
  ((aX).slice (Rect.unit (s := S1024x100000) off S1x49824.size h) (fun _ => rfl)).squeeze S49824 squeezes_S1x49824_S49824
abbrev slG (off : Fin 2 → ℕ) (h : ∀ a, off a + S1x1024.size a ≤ S256x1024.size a) : Memref sig .scVector .hbm S1024 .f32 :=
  ((aG).slice (Rect.unit (s := S256x1024) off S1x1024.size h) (fun _ => rfl)).squeeze S1024 squeezes_S1x1024_S1024
abbrev slQ (off : Fin 2 → ℕ) (h : ∀ a, off a + S1x1024.size a ≤ S256x1024.size a) : Memref sig .scVector .hbm S1024 .f32 :=
  ((aQ).slice (Rect.unit (s := S256x1024) off S1x1024.size h) (fun _ => rfl)).squeeze S1024 squeezes_S1x1024_S1024

omit [FloatOps F] in

theorem squeeze_row {n : ℕ} (hn : (⟨1, ![n]⟩ : Shape).numel = (⟨2, ![1, n]⟩ : Shape).numel) (j : (⟨1, ![n]⟩ : Shape).Idx) :
    ((Shape.reshapeEquiv hn j) 0).val = 0 ∧ ((Shape.reshapeEquiv hn j) 1).val = (j 0).val := by
  have e := Shape.rowMajor_reshapeEquiv hn j
  rw [Shape.rowMajor_val_two, Shape.rowMajor_val_one] at e
  have h0 : ((Shape.reshapeEquiv hn j) 0).val = 0 := by
    have := ((Shape.reshapeEquiv hn j) 0).isLt
    change _ < 1 at this
    omega
  rw [h0, Nat.zero_mul, Nat.zero_add] at e
  exact ⟨h0, e⟩

omit [FloatOps F] in
theorem set_slA (off : Fin 2 → ℕ) (h : ∀ a, off a + S1x50176.size a ≤ S1024x100000.size a) (r : ℕ) (hoff : off = ![r, 0]) :
    (slA off h).view.set = colsA r := by
  subst hoff
  show (((aX).view.slice (Rect.unit (s := S1024x100000) ![r, 0] S1x50176.size h)).reshape S50176 squeezes_S1x50176_S50176.numel_eq).set = _
  rw [View.set_reshape]
  show ((View.whole main_arg0_scv).slice (Rect.unit (s := S1024x100000) ![r, 0] S1x50176.size h)).set = _
  rw [View.set_slice_whole]
  ext j
  rw [Rect.mem_set_unit, mem_colsA]
  constructor
  · intro hj
    have h0 : r ≤ (j 0).val ∧ (j 0).val < r + 1 := hj 0
    have h1 : 0 ≤ (j 1).val ∧ (j 1).val < 0 + 50176 := hj 1
    omega
  · intro hj a
    match a with
    | ⟨0, _⟩ => show r ≤ (j 0).val ∧ (j 0).val < r + 1; omega
    | ⟨1, _⟩ => show 0 ≤ (j 1).val ∧ (j 1).val < 0 + 50176; omega

omit [FloatOps F] in
theorem set_slB (off : Fin 2 → ℕ) (h : ∀ a, off a + S1x49824.size a ≤ S1024x100000.size a) (r : ℕ) (hoff : off = ![r, 50176]) :
    (slB off h).view.set = colsB r := by
  subst hoff
  show (((aX).view.slice (Rect.unit (s := S1024x100000) ![r, 50176] S1x49824.size h)).reshape S49824 squeezes_S1x49824_S49824.numel_eq).set = _
  rw [View.set_reshape]
  show ((View.whole main_arg0_scv).slice (Rect.unit (s := S1024x100000) ![r, 50176] S1x49824.size h)).set = _
  rw [View.set_slice_whole]
  ext j
  rw [Rect.mem_set_unit, mem_colsB]
  constructor
  · intro hj
    have h0 : r ≤ (j 0).val ∧ (j 0).val < r + 1 := hj 0
    have h1 : 50176 ≤ (j 1).val ∧ (j 1).val < 50176 + 49824 := hj 1
    omega
  · intro hj a
    match a with
    | ⟨0, _⟩ => show r ≤ (j 0).val ∧ (j 0).val < r + 1; omega
    | ⟨1, _⟩ => show 50176 ≤ (j 1).val ∧ (j 1).val < 50176 + 49824; have := idx2_lt1 j; omega

omit [FloatOps F] in
theorem set_slG (off : Fin 2 → ℕ) (h : ∀ a, off a + S1x1024.size a ≤ S256x1024.size a) (r : ℕ) (hoff : off = ![r, 0]) :
    (slG off h).view.set = rowO r := by
  subst hoff
  show (((aG).view.slice (Rect.unit (s := S256x1024) ![r, 0] S1x1024.size h)).reshape S1024 squeezes_S1x1024_S1024.numel_eq).set = _
  rw [View.set_reshape]
  show ((View.whole main_v13_0_scv).slice (Rect.unit (s := S256x1024) ![r, 0] S1x1024.size h)).set = _
  rw [View.set_slice_whole]
  ext j
  rw [Rect.mem_set_unit, mem_rowO]
  constructor
  · intro hj
    have h0 : r ≤ (j 0).val ∧ (j 0).val < r + 1 := hj 0
    omega
  · intro hj a
    match a with
    | ⟨0, _⟩ => show r ≤ (j 0).val ∧ (j 0).val < r + 1; omega
    | ⟨1, _⟩ => show 0 ≤ (j 1).val ∧ (j 1).val < 0 + 1024; have := idx2_lt1 j; omega

omit [FloatOps F] in
theorem set_slQ (off : Fin 2 → ℕ) (h : ∀ a, off a + S1x1024.size a ≤ S256x1024.size a) (r : ℕ) (hoff : off = ![r, 0]) :
    (slQ off h).view.set = rowO r := by
  subst hoff
  show (((aQ).view.slice (Rect.unit (s := S256x1024) ![r, 0] S1x1024.size h)).reshape S1024 squeezes_S1x1024_S1024.numel_eq).set = _
  rw [View.set_reshape]
  show ((View.whole main_v13_1_scv).slice (Rect.unit (s := S256x1024) ![r, 0] S1x1024.size h)).set = _
  rw [View.set_slice_whole]
  ext j
  rw [Rect.mem_set_unit, mem_rowO]
  constructor
  · intro hj
    have h0 : r ≤ (j 0).val ∧ (j 0).val < r + 1 := hj 0
    omega
  · intro hj a
    match a with
    | ⟨0, _⟩ => show r ≤ (j 0).val ∧ (j 0).val < r + 1; omega
    | ⟨1, _⟩ => show 0 ≤ (j 1).val ∧ (j 1).val < 0 + 1024; have := idx2_lt1 j; omega

omit [FloatOps F] in
theorem emb_slA (off : Fin 2 → ℕ) (h : ∀ a, off a + S1x50176.size a ≤ S1024x100000.size a) (r : ℕ) (hoff : off = ![r, 0]) (j : S50176.Idx) :
    (((slA off h).view.emb j : S1024x100000.Idx) 0).val = r ∧ (((slA off h).view.emb j : S1024x100000.Idx) 1).val = (j 0).val := by
  subst hoff
  have hq := squeeze_row squeezes_S1x50176_S50176.numel_eq j
  constructor
  · show (![r, 0] : Fin 2 → ℕ) 0 + 1 * ((Shape.reshapeEquiv squeezes_S1x50176_S50176.numel_eq j) 0).val = r
    rw [hq.1]; simp
  · show (![r, 0] : Fin 2 → ℕ) 1 + 1 * ((Shape.reshapeEquiv squeezes_S1x50176_S50176.numel_eq j) 1).val = (j 0).val
    rw [hq.2]; simp

omit [FloatOps F] in
theorem emb_slB (off : Fin 2 → ℕ) (h : ∀ a, off a + S1x49824.size a ≤ S1024x100000.size a) (r : ℕ) (hoff : off = ![r, 50176]) (j : S49824.Idx) :
    (((slB off h).view.emb j : S1024x100000.Idx) 0).val = r ∧ (((slB off h).view.emb j : S1024x100000.Idx) 1).val = 50176 + (j 0).val := by
  subst hoff
  have hq := squeeze_row squeezes_S1x49824_S49824.numel_eq j
  constructor
  · show (![r, 50176] : Fin 2 → ℕ) 0 + 1 * ((Shape.reshapeEquiv squeezes_S1x49824_S49824.numel_eq j) 0).val = r
    rw [hq.1]; simp
  · show (![r, 50176] : Fin 2 → ℕ) 1 + 1 * ((Shape.reshapeEquiv squeezes_S1x49824_S49824.numel_eq j) 1).val = 50176 + (j 0).val
    rw [hq.2]; simp

omit [FloatOps F] in
theorem emb_slG (off : Fin 2 → ℕ) (h : ∀ a, off a + S1x1024.size a ≤ S256x1024.size a) (r : ℕ) (hoff : off = ![r, 0]) (j : S1024.Idx) :
    (((slG off h).view.emb j : S256x1024.Idx) 0).val = r ∧ (((slG off h).view.emb j : S256x1024.Idx) 1).val = (j 0).val := by
  subst hoff
  have hq := squeeze_row squeezes_S1x1024_S1024.numel_eq j
  constructor
  · show (![r, 0] : Fin 2 → ℕ) 0 + 1 * ((Shape.reshapeEquiv squeezes_S1x1024_S1024.numel_eq j) 0).val = r
    rw [hq.1]; simp
  · show (![r, 0] : Fin 2 → ℕ) 1 + 1 * ((Shape.reshapeEquiv squeezes_S1x1024_S1024.numel_eq j) 1).val = (j 0).val
    rw [hq.2]; simp

omit [FloatOps F] in
theorem emb_slQ (off : Fin 2 → ℕ) (h : ∀ a, off a + S1x1024.size a ≤ S256x1024.size a) (r : ℕ) (hoff : off = ![r, 0]) (j : S1024.Idx) :
    (((slQ off h).view.emb j : S256x1024.Idx) 0).val = r ∧ (((slQ off h).view.emb j : S256x1024.Idx) 1).val = (j 0).val := by
  subst hoff
  have hq := squeeze_row squeezes_S1x1024_S1024.numel_eq j
  constructor
  · show (![r, 0] : Fin 2 → ℕ) 0 + 1 * ((Shape.reshapeEquiv squeezes_S1x1024_S1024.numel_eq j) 0).val = r
    rw [hq.1]; simp
  · show (![r, 0] : Fin 2 → ℕ) 1 + 1 * ((Shape.reshapeEquiv squeezes_S1x1024_S1024.numel_eq j) 1).val = (j 0).val
    rw [hq.2]; simp

theorem read_slA (off : Fin 2 → ℕ) (h : ∀ a, off a + S1x50176.size a ≤ S1024x100000.size a) (r : Fin 1024) (hoff : off = ![r.val, 0])
    (x : Vec F S1024x100000 .f32) : (slA off h).view.read (Elt F) x = Cert.Proof.Tile.hA x r := by
  funext j
  have he := emb_slA off h r.val hoff j
  rw [View.read_apply]
  refine (cast_eq _ _).trans ?_
  refine congrArg x (funext fun a => Fin.ext ?_)
  match a with
  | ⟨0, _⟩ => exact he.1
  | ⟨1, _⟩ => exact he.2

theorem read_slB (off : Fin 2 → ℕ) (h : ∀ a, off a + S1x49824.size a ≤ S1024x100000.size a) (r : Fin 1024) (hoff : off = ![r.val, 50176])
    (x : Vec F S1024x100000 .f32) : (slB off h).view.read (Elt F) x = Cert.Proof.Tile.hB x r := by
  funext j
  have he := emb_slB off h r.val hoff j
  rw [View.read_apply]
  refine (cast_eq _ _).trans ?_
  refine congrArg x (funext fun a => Fin.ext ?_)
  match a with
  | ⟨0, _⟩ => exact he.1
  | ⟨1, _⟩ => exact he.2

theorem write_slG (off : Fin 2 → ℕ) (h : ∀ a, off a + S1x1024.size a ≤ S256x1024.size a) (r : Fin 256) (hoff : off = ![r.val, 0])
    (g : Vec F S256x1024 .f32) (w : Vec F S1024 .f32) :
    (slG off h).view.write (Elt F) g w Finset.univ = fun j => if (j 0).val = r.val then w (ix1 (j 1)) else g j := by
  funext j
  by_cases hj : (j 0).val = r.val
  · rw [if_pos hj]
    have he := emb_slG off h r.val hoff (ix1 (j 1))
    have hje : (slG off h).view.emb (ix1 (j 1)) = j := funext fun a => Fin.ext (by
      match a with
      | ⟨0, _⟩ => exact he.1.trans hj.symm
      | ⟨1, _⟩ => exact he.2)
    exact (congrArg ((slG off h).view.write (Elt F) g w Finset.univ) hje.symm).trans
      ((View.write_emb_of_mem _ _ (Finset.mem_univ _)).trans (cast_eq _ _))
  · rw [if_neg hj]
    refine View.write_of_not_mem _ _ _ ?_
    rw [View.setOn_univ, set_slG off h r.val hoff, mem_rowO]
    exact hj

theorem write_slQ (off : Fin 2 → ℕ) (h : ∀ a, off a + S1x1024.size a ≤ S256x1024.size a) (r : Fin 256) (hoff : off = ![r.val, 0])
    (g : Vec F S256x1024 .f32) (w : Vec F S1024 .f32) :
    (slQ off h).view.write (Elt F) g w Finset.univ = fun j => if (j 0).val = r.val then w (ix1 (j 1)) else g j := by
  funext j
  by_cases hj : (j 0).val = r.val
  · rw [if_pos hj]
    have he := emb_slQ off h r.val hoff (ix1 (j 1))
    have hje : (slQ off h).view.emb (ix1 (j 1)) = j := funext fun a => Fin.ext (by
      match a with
      | ⟨0, _⟩ => exact he.1.trans hj.symm
      | ⟨1, _⟩ => exact he.2)
    exact (congrArg ((slQ off h).view.write (Elt F) g w Finset.univ) hje.symm).trans
      ((View.write_emb_of_mem _ _ (Finset.mem_univ _)).trans (cast_eq _ _))
  · rw [if_neg hj]
    refine View.write_of_not_mem _ _ _ ?_
    rw [View.setOn_univ, set_slQ off h r.val hoff, mem_rowO]
    exact hj

omit [FloatOps F] in
theorem colsA_subset_allA {w r : ℕ} (h1 : 8 * w ≤ r) (h2 : r < 8 * w + 8) : colsA r ⊆ allA w := fun j hj => by
  rw [mem_colsA] at hj; rw [mem_allA]; omega
omit [FloatOps F] in
theorem colsB_subset_allB {w r : ℕ} (h1 : 8 * w ≤ r) (h2 : r < 8 * w + 8) : colsB r ⊆ allB w := fun j hj => by
  rw [mem_colsB] at hj; rw [mem_allB]; omega
omit [FloatOps F] in
theorem disjoint_allA_allB (w : ℕ) : Disjoint (allA w) (allB w) :=
  Finset.disjoint_left.mpr fun j ha hb => by rw [mem_allA] at ha; rw [mem_allB] at hb; omega
omit [FloatOps F] in
theorem allA_union_allB (w : ℕ) : allA w ∪ allB w = rowsX w := by
  ext j
  rw [Finset.mem_union, mem_allA, mem_allB, mem_rowsX]
  omega
omit [FloatOps F] in
theorem rowO_subset_rowsO {w r : ℕ} (h1 : 8 * w ≤ r) (h2 : r < 8 * w + 8) : rowO r ⊆ rowsO w := fun j hj => by
  rw [mem_rowO] at hj; rw [mem_rowsO]; omega
omit [FloatOps F] in
theorem disjoint_colsA_allA {w r : ℕ} (hr : r = 8 * w + 8) : Disjoint (colsA r) (allA w) :=
  Finset.disjoint_left.mpr fun j ha hb => by rw [mem_colsA] at ha; rw [mem_allA] at hb; omega
omit [FloatOps F] in
theorem disjoint_colsB_allB {w r : ℕ} (hr : r = 8 * w + 8) : Disjoint (colsB r) (allB w) :=
  Finset.disjoint_left.mpr fun j ha hb => by rw [mem_colsB] at ha; rw [mem_allB] at hb; omega
omit [FloatOps F] in
theorem allA_sdiff_colsA {w r : ℕ} (hr : r = 8 * w + 8) : allA w \ colsA r = allA w :=
  Finset.sdiff_eq_self_of_disjoint (disjoint_colsA_allA hr).symm
omit [FloatOps F] in
theorem allB_sdiff_colsB {w r : ℕ} (hr : r = 8 * w + 8) : allB w \ colsB r = allB w :=
  Finset.sdiff_eq_self_of_disjoint (disjoint_colsB_allB hr).symm

abbrev cL (L : grid1.Coords) : Fin 2 := Fin.cast (rfl : grid1.bound 0 = 2) (L 0)
abbrev iL (L : grid1.Coords) : Fin 16 := Fin.cast (rfl : grid1.bound 1 = 16) (L 1)

omit [FloatOps F] in
theorem row_num (L : grid1.Coords) : 16 * (L 1).val + 8 * (L 0).val = 8 * wOf (cL L) (iL L) := by
  show 16 * (L 1).val + 8 * (L 0).val = 8 * (2 * (L 1).val + (L 0).val)
  omega

omit [FloatOps F] in
theorem off1_row (L : grid1.Coords) : k1_off1 L = ![8 * wOf (cL L) (iL L), 0] := by
  rw [k1_off1_eq, row_num]
omit [FloatOps F] in
theorem off2_row (L : grid1.Coords) : k1_off2 L = ![8 * wOf (cL L) (iL L), 50176] := by
  rw [k1_off2_eq, row_num]
omit [FloatOps F] in
theorem off7_row (L : grid1.Coords) (t : Fin k1_t1_loop.trips) : k1_off7 L t = ![8 * wOf (cL L) (iL L) + t.val + 1, 0] := by
  rw [k1_off7_eq, row_num]
omit [FloatOps F] in
theorem off12_row (L : grid1.Coords) (t : Fin k1_t1_loop.trips) : k1_off12 L t = ![8 * wOf (cL L) (iL L) + t.val + 1, 50176] := by
  rw [k1_off12_eq, row_num]
omit [FloatOps F] in
theorem off13_row (L : grid1.Coords) (t : Fin k1_t1_loop.trips) : k1_off13 L t = ![8 * wOf (cL L) (iL L) + t.val, 0] := by
  rw [k1_off13_eq, row_num]

end Cert.KernelIdeal.Pf

end
-- ==== Proof.TileInv.lean ====
import proofs.«207604_g45191645889005_cont_8to1c4_5_22_alg».proof.Proof.TileSetup
import proofs.«207604_g45191645889005_cont_8to1c4_5_22_alg».proof.Proof.TileSets
import proofs.«207604_g45191645889005_cont_8to1c4_5_22_alg».proof.Proof.TileFun

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

theorem cond1_iff : ∀ t : Fin k1_t1_loop.trips, (k1_cond1 t = 1#1 ↔ t.val + 1 < 8) := by decide
theorem cond2_iff : ∀ t : Fin k1_t1_loop.trips, (k1_cond2 t = 1#1 ↔ t.val + 1 < 8) := by decide

theorem idx_eq (j : S1024.Idx) (b : ℕ) (hb : b < 1024) (h : (j 0).val = b) : j = ValueIdx.ix1 ⟨b, hb⟩ := by
  funext a
  obtain rfl : a = 0 := Subsingleton.elim _ _
  exact Fin.ext h

theorem rowS_of_done (RS : Vec F S50176 .f32 → Vec F S49824 .f32 → Vec F S1024 .f32) (PA : Vec F S50176 .f32 → ℕ → FVec F S16 .f32)
    (PB : Vec F S49824 .f32 → ℕ → FVec F S16 .f32) (TB : Vec F S49824 .f32 → FVec F S16 .f32)
    (hRA : ∀ a b (p : ℕ) (hp : p < 32) (s : Fin 16), RS a b (ValueIdx.ix1 ⟨16 * p + s.val, by have := s.isLt; omega⟩) = PA a (1568 * p) (ValueIdx.ix1 s))
    (hRB : ∀ a b (p : ℕ) (hp : p < 31) (s : Fin 16), RS a b (ValueIdx.ix1 ⟨512 + 16 * p + s.val, by have := s.isLt; omega⟩) = PB b (1568 * p) (ValueIdx.ix1 s))
    (hRT : ∀ a b (s : Fin 16), RS a b (ValueIdx.ix1 ⟨1008 + s.val, by have := s.isLt; omega⟩) = TB b (ValueIdx.ix1 s))
    (A : Vec F S50176 .f32) (B : Vec F S49824 .f32) (g0 f1 f2 f3 : Vec F S1024 .f32) (vs : FVec F S16 .f32)
    (h1 : DoneS 0 (fun q => PA A (1568 * q)) g0 32 f1) (h2 : DoneS 512 (fun q => PB B (1568 * q)) f1 31 f2)
    (h3 : ∀ j : S1024.Idx, f3 j = if hj : 1008 ≤ (j 0).val ∧ (j 0).val < 1008 + 16 then vs (ValueIdx.ix1 ⟨(j 0).val - 1008, by omega⟩) else f2 j)
    (hv : vs = TB B) : f3 = RS A B := by
  funext j
  have hj : (j 0).val < 1024 := (j 0).isLt
  by_cases c1 : (j 0).val < 512
  · let s : Fin 16 := ⟨(j 0).val % 16, Nat.mod_lt _ (by omega)⟩
    have e0 : j = ValueIdx.ix1 ⟨0 + 16 * ((j 0).val / 16) + s.val, by show 0 + 16 * ((j 0).val / 16) + (j 0).val % 16 < 1024; omega⟩ :=
      idx_eq j _ _ (by show (j 0).val = 0 + 16 * ((j 0).val / 16) + (j 0).val % 16; omega)
    have e1 : j = ValueIdx.ix1 ⟨16 * ((j 0).val / 16) + s.val, by show 16 * ((j 0).val / 16) + (j 0).val % 16 < 1024; omega⟩ :=
      idx_eq j _ _ (by show (j 0).val = 16 * ((j 0).val / 16) + (j 0).val % 16; omega)
    have s1 : f3 j = f2 j := by rw [h3 j, dif_neg (by omega)]
    have s2 : f2 j = f1 j := h2.1 j c1
    have s3 : f1 j = PA A (1568 * ((j 0).val / 16)) (ValueIdx.ix1 s) := by
      have := h1.2 ((j 0).val / 16) s (by show 0 + 16 * ((j 0).val / 16) + (j 0).val % 16 < 1024; omega) (by omega)
      rwa [← e0] at this
    have s4 : RS A B j = PA A (1568 * ((j 0).val / 16)) (ValueIdx.ix1 s) := by
      have := hRA A B ((j 0).val / 16) (by omega) s
      rwa [← e1] at this
    exact s1.trans (s2.trans (s3.trans s4.symm))
  · by_cases c2 : (j 0).val < 1008
    · let s : Fin 16 := ⟨((j 0).val - 512) % 16, Nat.mod_lt _ (by omega)⟩
      have e0 : j = ValueIdx.ix1 ⟨512 + 16 * (((j 0).val - 512) / 16) + s.val, by show 512 + 16 * (((j 0).val - 512) / 16) + ((j 0).val - 512) % 16 < 1024; omega⟩ :=
        idx_eq j _ _ (by show (j 0).val = 512 + 16 * (((j 0).val - 512) / 16) + ((j 0).val - 512) % 16; omega)
      have s1 : f3 j = f2 j := by rw [h3 j, dif_neg (by omega)]
      have s3 : f2 j = PB B (1568 * (((j 0).val - 512) / 16)) (ValueIdx.ix1 s) := by
        have := h2.2 (((j 0).val - 512) / 16) s (by show 512 + 16 * (((j 0).val - 512) / 16) + ((j 0).val - 512) % 16 < 1024; omega) (by omega)
        rwa [← e0] at this
      have s4 : RS A B j = PB B (1568 * (((j 0).val - 512) / 16)) (ValueIdx.ix1 s) := by
        have := hRB A B (((j 0).val - 512) / 16) (by omega) s
        rwa [← e0] at this
      exact s1.trans (s3.trans s4.symm)
    · let s : Fin 16 := ⟨(j 0).val - 1008, by omega⟩
      have e0 : j = ValueIdx.ix1 ⟨1008 + s.val, by show 1008 + ((j 0).val - 1008) < 1024; omega⟩ :=
        idx_eq j _ _ (by show (j 0).val = 1008 + ((j 0).val - 1008); omega)
      have s1 : f3 j = TB B (ValueIdx.ix1 s) := by rw [h3 j, dif_pos (by omega), hv]
      have s4 : RS A B j = TB B (ValueIdx.ix1 s) := by
        have := hRT A B s
        rwa [← e0] at this
      exact s1.trans s4.symm

abbrev cellV (d : Dev nD) (L : grid1.Coords) (s : DmaSems sig S_) : GSem nD τ sig := (thr d L, SemLoc.dma s.sem)

abbrev wL (L : grid1.Coords) : ℕ := wOf (cL L) (iL L)
theorem wL_lt (L : grid1.Coords) : wL L < 32 := wOf_lt _ _

def Kept (P : sProp 𝕄) : sProp 𝕄 := P
theorem kept_eq (P : sProp 𝕄) : Kept P = P := rfl
attribute [irreducible] Kept

section Row

variable (m : (ℓ : Loc nD τ sig) → Buf (Elt F) ℓ) (d : Dev nD) (L : grid1.Coords)

abbrev xv : Vec F S1024x100000 .f32 := m (xLoc d)

abbrev DA (r : ℕ) (hr : r < 1024) : sProp 𝕄 :=
  iprop(((bA).view.loc (thr d L) ↦{fullShare} (Tile.hA (xv m d) ⟨r, hr⟩ : Vec F S50176 .f32)) ∗ (xLoc d ↦[colsA r]{fullShare} m (xLoc d)))

abbrev DB (r : ℕ) (hr : r < 1024) : sProp 𝕄 :=
  iprop(((bB).view.loc (thr d L) ↦{fullShare} (Tile.hB (xv m d) ⟨r, hr⟩ : Vec F S49824 .f32)) ∗ (xLoc d ↦[colsB r]{fullShare} m (xLoc d)))

theorem row_lt (t : ℕ) (ht : t < 8) : 8 * wL L + t < 1024 := by have := wL_lt L; omega

def pendA (t : ℕ) : sProp 𝕄 :=
  if h : t < 8 then Transfers.Flight countersEmb (thr d L) (SemLoc.dma cc1_scratch6.sem) (none : HIx 1) 1605632 (DA m d L (8 * wL L + t) (row_lt L t h))
  else iprop(semVal (cellV d L cc1_scratch6) 0 ∗ ∃ f, (bA).view.loc (thr d L) ↦{fullShare} f)
def pendB (t : ℕ) : sProp 𝕄 :=
  if h : t < 8 then Transfers.Flight countersEmb (thr d L) (SemLoc.dma cc1_scratch7.sem) (none : HIx 1) 1594368 (DB m d L (8 * wL L + t) (row_lt L t h))
  else iprop(semVal (cellV d L cc1_scratch7) 0 ∗ ∃ f, (bB).view.loc (thr d L) ↦{fullShare} f)

def gval (t : ℕ) : Vec F S256x1024 .f32 := fun j => if (j 0).val < 8 * wL L + t then Tile.gsOf (xv m d) j else m (gsLoc d) j
def qval (t : ℕ) : Vec F S256x1024 .f32 := fun j => if (j 0).val < 8 * wL L + t then Tile.gsqOf (xv m d) j else m (gsqLoc d) j

variable (O : CellTallies nD τ sig (HIx 1)) (W : Waits sig (HIx 1))

def invR (t : ℕ) (_ : Unit) : sProp 𝕄 :=
  iprop(Transfers.MayWaits (thr d L) (none : HIx 1) O
    ∗ pendA m d L t ∗ pendB m d L t
    ∗ (xLoc d ↦[allA (wL L) \ colsA (8 * wL L + t)]{fullShare} m (xLoc d)) ∗ (xLoc d ↦[allB (wL L) \ colsB (8 * wL L + t)]{fullShare} m (xLoc d))
    ∗ (∃ f, (bO).view.loc (thr d L) ↦{fullShare} f) ∗ (∃ f, (bP).view.loc (thr d L) ↦{fullShare} f)
    ∗ (∃ f, (tS).view.loc (thr d L) ↦{fullShare} f) ∗ (∃ f, (tQ).view.loc (thr d L) ↦{fullShare} f)
    ∗ semVal (cellV d L cc1_scoped0) 0 ∗ semVal (cellV d L cc1_scoped1) 0
    ∗ (gsLoc d ↦[rowsO (wL L)]{fullShare} gval m d L t) ∗ (gsqLoc d ↦[rowsO (wL L)]{fullShare} qval m d L t)
    ∗ ∃ W', ⌜∀ p ∈ W', p ∈ W ∨ p.2 = none⌝ ∗ owes (thr d L) O W')

theorem gval_step (t : ℕ) (ht : t < 8) (fin : Vec F S1024 .f32)
    (hfin : fin = Tile.rowS (Tile.hA (xv m d) ⟨8 * wL L + t, row_lt L t ht⟩) (Tile.hB (xv m d) ⟨8 * wL L + t, row_lt L t ht⟩)) :
    ∀ j ∈ rowsO (wL L), ((rowO (8 * wL L + t)).piecewise
        (fun j : S256x1024.Idx => if (j 0).val = 8 * wL L + t then fin (ValueIdx.ix1 (j 1)) else gval m d L t j) (gval m d L t)) j = gval m d L (t + 1) j := by
  intro j hj
  by_cases hr : (j 0).val = 8 * wL L + t
  · rw [Finset.piecewise_eq_of_mem _ _ _ (mem_rowO.mpr hr)]
    show (if (j 0).val = 8 * wL L + t then fin (ValueIdx.ix1 (j 1)) else gval m d L t j) = gval m d L (t + 1) j
    rw [if_pos hr, hfin]
    unfold gval
    rw [if_pos (by omega)]
    show _ = Tile.rowS (Tile.hA (xv m d) (Tile.row256 (j 0))) (Tile.hB (xv m d) (Tile.row256 (j 0))) (ValueIdx.ix1 (j 1))
    have e : Tile.row256 (j 0) = ⟨8 * wL L + t, row_lt L t ht⟩ := Fin.ext hr
    rw [e]
  · rw [Finset.piecewise_eq_of_notMem _ _ _ (fun h => hr (mem_rowO.mp h))]
    unfold gval
    by_cases hl : (j 0).val < 8 * wL L + t
    · rw [if_pos hl, if_pos (by omega)]
    · rw [if_neg hl, if_neg (by omega)]

theorem qval_step (t : ℕ) (ht : t < 8) (fin : Vec F S1024 .f32)
    (hfin : fin = Tile.rowQ (Tile.hA (xv m d) ⟨8 * wL L + t, row_lt L t ht⟩) (Tile.hB (xv m d) ⟨8 * wL L + t, row_lt L t ht⟩)) :
    ∀ j ∈ rowsO (wL L), ((rowO (8 * wL L + t)).piecewise
        (fun j : S256x1024.Idx => if (j 0).val = 8 * wL L + t then fin (ValueIdx.ix1 (j 1)) else qval m d L t j) (qval m d L t)) j = qval m d L (t + 1) j := by
  intro j hj
  by_cases hr : (j 0).val = 8 * wL L + t
  · rw [Finset.piecewise_eq_of_mem _ _ _ (mem_rowO.mpr hr)]
    show (if (j 0).val = 8 * wL L + t then fin (ValueIdx.ix1 (j 1)) else qval m d L t j) = qval m d L (t + 1) j
    rw [if_pos hr, hfin]
    unfold qval
    rw [if_pos (by omega)]
    show _ = Tile.rowQ (Tile.hA (xv m d) (Tile.row256 (j 0))) (Tile.hB (xv m d) (Tile.row256 (j 0))) (ValueIdx.ix1 (j 1))
    have e : Tile.row256 (j 0) = ⟨8 * wL L + t, row_lt L t ht⟩ := Fin.ext hr
    rw [e]
  · rw [Finset.piecewise_eq_of_notMem _ _ _ (fun h => hr (mem_rowO.mp h))]
    unfold qval
    by_cases hl : (j 0).val < 8 * wL L + t
    · rw [if_pos hl, if_pos (by omega)]
    · rw [if_neg hl, if_neg (by omega)]

theorem flightA_canon (off : Fin 2 → ℕ) (h) (r : ℕ) (hr : r < 1024) (hoff : off = ![r, 0])
    (f0 : Buf (Elt F) ((thr d L).loc cc1_scratch0)) (w : Buf (Elt F) ((thr d L).loc cc1_scratch0)) (hw : w = (slA off h).view.read (Elt F) (m (xLoc d))) (ι : HIx 1) :
    Transfers.Flight countersEmb (thr d L) (SemLoc.dma cc1_scratch6.sem) ι 1605632
        (iprop(((bA).view.loc (thr d L) ↦{fullShare} View.write (Elt F) (bA).view f0 w Finset.univ)
          ∗ ((slA off h).view.loc (thr d L) ↦[(slA off h).view.set]{fullShare} m (xLoc d))) : sProp 𝕄)
      ⊢ Transfers.Flight countersEmb (thr d L) (SemLoc.dma cc1_scratch6.sem) ι 1605632 (DA m d L r hr) := by
  refine Transfers.Flight_mono countersEmb (thr d L) ?_
  unfold DA
  iintro ⟨H1, H2⟩
  isplitl [H1]
  · rw [View.write_whole_univ, hw, read_slA off h ⟨r, hr⟩ hoff]; iexact H1
  · rw [set_slA off h r hoff]; iexact H2

theorem flightB_canon (off : Fin 2 → ℕ) (h) (r : ℕ) (hr : r < 1024) (hoff : off = ![r, 50176])
    (f0 : Buf (Elt F) ((thr d L).loc cc1_scratch1)) (w : Buf (Elt F) ((thr d L).loc cc1_scratch1)) (hw : w = (slB off h).view.read (Elt F) (m (xLoc d))) (ι : HIx 1) :
    Transfers.Flight countersEmb (thr d L) (SemLoc.dma cc1_scratch7.sem) ι 1594368
        (iprop(((bB).view.loc (thr d L) ↦{fullShare} View.write (Elt F) (bB).view f0 w Finset.univ)
          ∗ ((slB off h).view.loc (thr d L) ↦[(slB off h).view.set]{fullShare} m (xLoc d))) : sProp 𝕄)
      ⊢ Transfers.Flight countersEmb (thr d L) (SemLoc.dma cc1_scratch7.sem) ι 1594368 (DB m d L r hr) := by
  refine Transfers.Flight_mono countersEmb (thr d L) ?_
  unfold DB
  iintro ⟨H1, H2⟩
  isplitl [H1]
  · rw [View.write_whole_univ, hw, read_slB off h ⟨r, hr⟩ hoff]; iexact H1
  · rw [set_slB off h r hoff]; iexact H2

theorem trips2_eq : Scf.trips k1_t2_loop.lb k1_t2_loop.ub k1_t2_loop.st = 32 := by decide
theorem trips3_eq : Scf.trips k1_t3_loop.lb k1_t3_loop.ub k1_t3_loop.st = 31 := by decide

end Row

end Cert.KernelIdeal.Pf

end
-- ==== Proof.TileLoopA.lean ====
import proofs.«207604_g45191645889005_cont_8to1c4_5_22_alg».proof.Proof.TileSetup
import proofs.«207604_g45191645889005_cont_8to1c4_5_22_alg».proof.Proof.TileFun

noncomputable section

namespace Cert.KernelIdeal.Pf

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 4000000 in

def trA (d : Dev nD) (L : grid1.Coords) (v2 : BitVec 32) (c0 c1 : BitVec 32) (t1 : Fin k1_t1_loop.trips) (p : Fin k1_t2_loop.trips)
    (fA : Buf (Elt F) ((thr d L).loc cc1_scratch0)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch0 ↦{fullShare} fA) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (k1_t2_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p ())
          fun _ => iprop(((thr d L).loc cc1_scratch0 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off6 p) S16.size (k1_off6_inb p), vs⟩])
        ∗ ((thr d L).loc cc1_scratch3 ↦{fullShare} (bP).view.writes (Elt F) fP [⟨Rect.unit (s := S1024) (k1_off6 p) S16.size (k1_off6_inb p), vq⟩])) :=
  ⟨_, _, _, _, by
    intro fO fP
    unfold k1_t2_body
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel
    simp only [SparseCore.vectorLoadIdx_bind (thr d L), SparseCore.vectorStoreIdx_bind (thr d L)]
    iintro ⟨HA, HS, HQ, HO, HP⟩
    ihave HA' := (Entails.of_eq (pts_bA (F := F) d L _).symm) $$ HA
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HA']; · iexact HA'
    isplitl [HS']; · iexact HS'
    isplitl [HQ']; · iexact HQ'
    isplitl [HO']; · iexact HO'
    iexact HP'⟩

def invA (d : Dev nD) (L : grid1.Coords) (fA : Buf (Elt F) ((thr d L).loc cc1_scratch0)) (VS VQ : ℕ → FVec F S16 .f32) (gO gP : Vec F S1024 .f32)
    (k : ℕ) (_ : Unit) : sProp 𝕄 :=
  iprop(((thr d L).loc cc1_scratch0 ↦{fullShare} fA) ∗ (∃ f, (thr d L).loc cc1_scratch4 ↦{fullShare} f) ∗ (∃ f, (thr d L).loc cc1_scratch5 ↦{fullShare} f)
    ∗ (∃ f : Buf (Elt F) ((thr d L).loc cc1_scratch2), ((thr d L).loc cc1_scratch2 ↦{fullShare} f) ∗ ⌜DoneS 0 VS gO k f⌝)
    ∗ (∃ f : Buf (Elt F) ((thr d L).loc cc1_scratch3), ((thr d L).loc cc1_scratch3 ↦{fullShare} f) ∗ ⌜DoneS 0 VQ gP k f⌝))

theorem k1_off6_zero (p : Fin k1_t2_loop.trips) : k1_off6 p 0 = 0 + 16 * p.val := by
  rw [k1_off6_eq p]; show 16 * p.val = _; omega

theorem postA (d : Dev nD) (L : grid1.Coords) (fA : Buf (Elt F) ((thr d L).loc cc1_scratch0)) (VS VQ : ℕ → FVec F S16 .f32) (gO gP : Vec F S1024 .f32)
    (p : Fin k1_t2_loop.trips) (fS' : Buf (Elt F) ((thr d L).loc cc1_scratch4)) (fQ' : Buf (Elt F) ((thr d L).loc cc1_scratch5)) (vs vq : FVec F S16 .f32)
    (fO : Buf (Elt F) ((thr d L).loc cc1_scratch2)) (fP : Buf (Elt F) ((thr d L).loc cc1_scratch3))
    (hs : vs = VS p.val) (hq : vq = VQ p.val) (hO : DoneS 0 VS gO p.val fO) (hP : DoneS 0 VQ gP p.val fP) :
    (iprop(((thr d L).loc cc1_scratch0 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off6 p) S16.size (k1_off6_inb p), vs⟩])
        ∗ ((thr d L).loc cc1_scratch3 ↦{fullShare} (bP).view.writes (Elt F) fP [⟨Rect.unit (s := S1024) (k1_off6 p) S16.size (k1_off6_inb p), vq⟩])) : sProp 𝕄) ⊢ invA d L fA VS VQ gO gP (p.val + 1) () := by
  unfold invA
  iintro ⟨HA, HS, HQ, HO, HP⟩
  isplitl [HA]; · iexact HA
  isplitl [HS]; · iexists _; iexact HS
  isplitl [HQ]; · iexists _; iexact HQ
  isplitl [HO]
  · iexists _; isplitl [HO]; · iexact HO
    ipureintro
    exact DoneS_step (k1_off6_zero p) hs hO (fun j => writesO_apply d L fO (k1_off6 p) (k1_off6_inb p) vs j)
  · iexists _; isplitl [HP]; · iexact HP
    ipureintro
    exact DoneS_step (k1_off6_zero p) hq hP (fun j => writesP_apply d L fP (k1_off6 p) (k1_off6_inb p) vq j)

theorem tripA (d : Dev nD) (L : grid1.Coords) (v2 : BitVec 32) (c0 c1 : BitVec 32) (t1 : Fin k1_t1_loop.trips)
    (fA : Buf (Elt F) ((thr d L).loc cc1_scratch0)) (VS VQ : ℕ → FVec F S16 .f32) (gO gP : Vec F S1024 .f32)
    (hbS : ∀ p fS fQ, (trA d L v2 c0 c1 t1 p fA fS fQ).2.2.1 = VS p.val)
    (hbQ : ∀ p fS fQ, (trA d L v2 c0 c1 t1 p fA fS fQ).2.2.2.1 = VQ p.val)
    (p : Fin k1_t2_loop.trips) (acc : Unit) :
    invA d L fA VS VQ gO gP p.val acc
      ⊢ wp frame (wpE (defs₀ (F := F)) 𝒱₀ (thr d L) none) Set.univ
          (k1_t2_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p acc) (invA d L fA VS VQ gO gP (p.val + 1)) := by
  unfold invA
  iintro ⟨HA, ⟨%fS, HS⟩, ⟨%fQ, HQ⟩, ⟨%fO, HO, %hO⟩, ⟨%fP, HP, %hP⟩⟩
  iapply (((trA d L v2 c0 c1 t1 p fA fS fQ).2.2.2.2 fO fP).trans (wp_mono frame _ _ fun _ =>
    postA d L fA VS VQ gO gP p _ _ _ _ fO fP (hbS p fS fQ) (hbQ p fS fQ) hO hP)) $$ [HA HS HQ HO HP]
  isplitl [HA]; · iexact HA
  isplitl [HS]; · iexact HS
  isplitl [HQ]; · iexact HQ
  isplitl [HO]; · iexact HO
  iexact HP

end Cert.KernelIdeal.Pf

end
-- ==== Proof.TileBridge.lean ====
import proofs.«207604_g45191645889005_cont_8to1c4_5_22_alg».proof.Proof.Gen.KernelIdeal
import proofs.«207604_g45191645889005_cont_8to1c4_5_22_alg».proof.Proof.TileFun
import Idealize.ShloMosaic.Lib.WholeRead

noncomputable section

namespace Cert.KernelIdeal.Pf

open Idealize.ShloMosaic Cert.KernelIdeal Cert.KernelIdeal.Gen Cert.Proof.Tile

variable {F : FTy → Type} [FloatOps F] [Facts]

theorem loadA0 (A : Vec F S50176 .f32) (p : Fin k1_t2_loop.trips) (v : Fin 49) :
    (Memref.whole cc1_scratch0).view.readAt (Elt F)
        (Rect.unit (s := S50176) (k1_off4 p (BitVec.ofNat 32 (16 * v.val))) S16.size (k1_off4_inb p v)).toLoadRect A
      = vecAt A (1568 * p.val + 16 * v.val) := by
  rw [View.readAt_unit_congr_cast _ (Gen.k1_off4_eq p v)]
  exact vecAt_unit A ![1568 * p.val + 16 * v.val] _

theorem loadA1 (A : Vec F S50176 .f32) (p : Fin k1_t2_loop.trips) (v : Fin 49) :
    (Memref.whole cc1_scratch0).view.readAt (Elt F)
        (Rect.unit (s := S50176) (k1_off5 p (BitVec.ofNat 32 (16 * v.val))) S16.size (k1_off5_inb p v)).toLoadRect A
      = vecAt A (1568 * p.val + 784 + 16 * v.val) := by
  rw [View.readAt_unit_congr_cast _ (Gen.k1_off5_eq p v)]
  have e := vecAt_unit A ![1568 * p.val + 16 * v.val + 784] (by
    intro a; have := (Gen.k1_off5_eq p v) ▸ k1_off5_inb p v a; exact this)
  rw [show 1568 * p.val + 784 + 16 * v.val = 1568 * p.val + 16 * v.val + 784 by omega]
  exact e

theorem loadB0 (B : Vec F S49824 .f32) (p : Fin k1_t3_loop.trips) (v : Fin 49) :
    (Memref.whole cc1_scratch1).view.readAt (Elt F)
        (Rect.unit (s := S49824) (k1_off9 p (BitVec.ofNat 32 (16 * v.val))) S16.size (k1_off9_inb p v)).toLoadRect B
      = vecAt B (1568 * p.val + 16 * v.val) := by
  rw [View.readAt_unit_congr_cast _ (Gen.k1_off9_eq p v)]
  exact vecAt_unit B ![1568 * p.val + 16 * v.val] _

theorem loadB1 (B : Vec F S49824 .f32) (p : Fin k1_t3_loop.trips) (v : Fin 49) :
    (Memref.whole cc1_scratch1).view.readAt (Elt F)
        (Rect.unit (s := S49824) (k1_off10 p (BitVec.ofNat 32 (16 * v.val))) S16.size (k1_off10_inb p v)).toLoadRect B
      = vecAt B (1568 * p.val + 784 + 16 * v.val) := by
  rw [View.readAt_unit_congr_cast _ (Gen.k1_off10_eq p v)]
  have e := vecAt_unit B ![1568 * p.val + 16 * v.val + 784] (by
    intro a; have := (Gen.k1_off10_eq p v) ▸ k1_off10_inb p v a; exact this)
  rw [show 1568 * p.val + 784 + 16 * v.val = 1568 * p.val + 16 * v.val + 784 by omega]
  exact e

theorem loadT (B : Vec F S49824 .f32) (o : Nat) (inb : ∀ a, (![o] : Fin 1 → Nat) a + S16.size a ≤ S49824.size a) :
    (Memref.whole cc1_scratch1).view.readAt (Elt F) (Rect.unit (s := S49824) ![o] S16.size inb).toLoadRect B = vecAt B o :=
  vecAt_unit B ![o] inb

end Cert.KernelIdeal.Pf
-- ==== Proof.BridgeLib.lean ====
import proofs.«207604_g45191645889005_cont_8to1c4_5_22_alg».proof.Proof.TileBridge
import Idealize.ShloMosaic.Lib.Pipeline.FrameBody

noncomputable section

namespace Cert.KernelIdeal.Pf

open Idealize.ShloMosaic Cert.KernelIdeal Cert.KernelIdeal.Gen Cert.Proof Cert.Proof.Tile

variable {F : FTy → Type} [FloatOps F]

theorem readCov_whole_cons {sig : RefSig} {κ : Kind} {sp : Space} {s : Shape} {e : EltTy} {Val : EltTy → Type} [∀ e, Nonempty (Val e)]
    (v : View sig κ sp s e) (w : (Rect.whole s).shape.Idx → Val e) (L : List (View.Piece Val s e)) :
    v.readCov (⟨Rect.whole s, w⟩ :: L) (LoadRect.whole s) = w :=
  View.readCov_cons_toLoadRect v (Rect.whole s) w L

theorem storeIdx_eq_put (s : Nat) (hs : s < 16) (t t' : Vec F V272 .f32) (w w' : Vec F V16 .f32)
    (h : ∀ a x, ((![stIdx s] : Fin V272.rank → IVec V16 32) a x).toNat < V272.size a) (ht : t = t') (hw : w = w') :
    storeIdx t ![stIdx s] w (fun _ => 1#1) false h = put s hs w' t' := by
  subst ht hw; rfl

/-- Storing no accumulators leaves the scratch as it is. -/
theorem putN_zero (A : Nat → FVec F V16 .f32) (s0 : Nat) (h : s0 + 0 ≤ 16) (t : Vec F V272 .f32) : putN A s0 0 h t = t := rfl

def XA0 (fA : Vec F S50176 .f32) (p : Fin k1_t2_loop.trips) : Nat → FVec F V16 .f32 := fun v =>
  if h : v < 49 then
    (Memref.whole cc1_scratch0).view.readAt (Elt F)
      (Rect.unit (s := S50176) (k1_off4 p (BitVec.ofNat 32 (16 * v))) S16.size (k1_off4_inb p ⟨v, h⟩)).toLoadRect fA
  else zero16

def XA1 (fA : Vec F S50176 .f32) (p : Fin k1_t2_loop.trips) : Nat → FVec F V16 .f32 := fun v =>
  if h : v < 49 then
    (Memref.whole cc1_scratch0).view.readAt (Elt F)
      (Rect.unit (s := S50176) (k1_off5 p (BitVec.ofNat 32 (16 * v))) S16.size (k1_off5_inb p ⟨v, h⟩)).toLoadRect fA
  else zero16

theorem XA0_eq (fA : Vec F S50176 .f32) (p : Fin k1_t2_loop.trips) (v : Nat) (hv : v < 49) :
    XA0 fA p v = vecAt fA (1568 * p.val + 16 * v) := by
  unfold XA0; rw [dif_pos hv]; exact loadA0 fA p ⟨v, hv⟩

theorem XA1_eq (fA : Vec F S50176 .f32) (p : Fin k1_t2_loop.trips) (v : Nat) (hv : v < 49) :
    XA1 fA p v = vecAt fA (1568 * p.val + 784 + 16 * v) := by
  unfold XA1; rw [dif_pos hv]; exact loadA1 fA p ⟨v, hv⟩

def XB0 (fB : Vec F S49824 .f32) (p : Fin k1_t3_loop.trips) : Nat → FVec F V16 .f32 := fun v =>
  if h : v < 49 then
    (Memref.whole cc1_scratch1).view.readAt (Elt F)
      (Rect.unit (s := S49824) (k1_off9 p (BitVec.ofNat 32 (16 * v))) S16.size (k1_off9_inb p ⟨v, h⟩)).toLoadRect fB
  else zero16

def XB1 (fB : Vec F S49824 .f32) (p : Fin k1_t3_loop.trips) : Nat → FVec F V16 .f32 := fun v =>
  if h : v < 49 then
    (Memref.whole cc1_scratch1).view.readAt (Elt F)
      (Rect.unit (s := S49824) (k1_off10 p (BitVec.ofNat 32 (16 * v))) S16.size (k1_off10_inb p ⟨v, h⟩)).toLoadRect fB
  else zero16

theorem XB0_eq (fB : Vec F S49824 .f32) (p : Fin k1_t3_loop.trips) (v : Nat) (hv : v < 49) :
    XB0 fB p v = vecAt fB (1568 * p.val + 16 * v) := by
  unfold XB0; rw [dif_pos hv]; exact loadB0 fB p ⟨v, hv⟩

theorem XB1_eq (fB : Vec F S49824 .f32) (p : Fin k1_t3_loop.trips) (v : Nat) (hv : v < 49) :
    XB1 fB p v = vecAt fB (1568 * p.val + 784 + 16 * v) := by
  unfold XB1; rw [dif_pos hv]; exact loadB1 fB p ⟨v, hv⟩

theorem inbT (o : Nat) (h : o + 16 ≤ 49824) : ∀ a, (![o] : Fin 1 → Nat) a + S16.size a ≤ S49824.size a := by
  intro a
  obtain rfl : a = 0 := Subsingleton.elim _ _
  exact h

def XT0 (fB : Vec F S49824 .f32) : Nat → FVec F V16 .f32 := fun v =>
  if h : v < 49 then
    (Memref.whole cc1_scratch1).view.readAt (Elt F)
      (Rect.unit (s := S49824) ![48608 + 16 * v] S16.size (inbT _ (by omega))).toLoadRect fB
  else zero16

def XT1 (fB : Vec F S49824 .f32) : Nat → FVec F V16 .f32 := fun v =>
  if h : v < 27 then
    (Memref.whole cc1_scratch1).view.readAt (Elt F)
      (Rect.unit (s := S49824) ![49392 + 16 * v] S16.size (inbT _ (by omega))).toLoadRect fB
  else zero16

theorem XT0_eq (fB : Vec F S49824 .f32) (v : Nat) (hv : v < 49) : XT0 fB v = vecAt fB (48608 + 16 * v) := by
  unfold XT0; rw [dif_pos hv]; exact loadT fB _ _

theorem XT1_eq (fB : Vec F S49824 .f32) (v : Nat) (hv : v < 27) : XT1 fB v = vecAt fB (49392 + 16 * v) := by
  unfold XT1; rw [dif_pos hv]; exact loadT fB _ _

end Cert.KernelIdeal.Pf
-- ==== Proof.BridgeA.lean ====
import proofs.«207604_g45191645889005_cont_8to1c4_5_22_alg».proof.Proof.TileLoopA
import proofs.«207604_g45191645889005_cont_8to1c4_5_22_alg».proof.Proof.BridgeLib

noncomputable section

namespace Cert.KernelIdeal.Pf

open Idealize.ShloMosaic Cert.KernelIdeal Cert.KernelIdeal.Gen Cert.Proof Cert.Proof.Tile

variable {F : FTy → Type} [FloatOps F]

variable (d : Dev nD) (L : grid1.Coords) (v2 c0 c1 : BitVec 32) (t1 : Fin k1_t1_loop.trips) (p : Fin k1_t2_loop.trips)
  (fA : Vec F S50176 .f32) (fS fQ : Vec F S272 .f32)

set_option maxHeartbeats 1000000 in
theorem trA_S4 : trA.sl.f_6 d L p fA fS = putN (acc (XA0 fA p) 49) 0 4 (by omega) fS := by
  unfold trA.sl.f_6 trA.sl.HS'_4; erw [readCov_whole_cons]; refine storeIdx_eq_put _ _ _ _ _ _ _ ?_ rfl
  unfold trA.sl.f_4 trA.sl.HS'_3; erw [readCov_whole_cons]; refine storeIdx_eq_put _ _ _ _ _ _ _ ?_ rfl
  unfold trA.sl.f_2 trA.sl.HS'_2; erw [readCov_whole_cons]; refine storeIdx_eq_put _ _ _ _ _ _ _ ?_ rfl
  unfold trA.sl.f trA.sl.HS'_1; erw [readCov_whole_cons]; exact storeIdx_eq_put _ _ _ _ _ _ _ (Memref.readAt_whole _ _ _) rfl

set_option maxHeartbeats 1000000 in
theorem trA_S8 : trA.sl.f_14 d L p fA fS = putN (acc (XA0 fA p) 49) 0 8 (by omega) fS := by
  unfold trA.sl.f_14 trA.sl.HS'_8; erw [readCov_whole_cons]; refine storeIdx_eq_put _ _ _ _ _ _ _ ?_ rfl
  unfold trA.sl.f_12 trA.sl.HS'_7; erw [readCov_whole_cons]; refine storeIdx_eq_put _ _ _ _ _ _ _ ?_ rfl
  unfold trA.sl.f_10 trA.sl.HS'_6; erw [readCov_whole_cons]; refine storeIdx_eq_put _ _ _ _ _ _ _ ?_ rfl
  unfold trA.sl.f_8 trA.sl.HS'_5; erw [readCov_whole_cons]; exact storeIdx_eq_put _ _ _ _ _ _ _ (trA_S4 d L p fA fS) rfl

set_option maxHeartbeats 1000000 in
theorem trA_S12 : trA.sl.f_22 d L p fA fS = putN (acc (XA1 fA p) 49) 8 4 (by omega) (putN (acc (XA0 fA p) 49) 0 8 (by omega) fS) := by
  unfold trA.sl.f_22 trA.sl.HS'_12; erw [readCov_whole_cons]; refine storeIdx_eq_put _ _ _ _ _ _ _ ?_ rfl
  unfold trA.sl.f_20 trA.sl.HS'_11; erw [readCov_whole_cons]; refine storeIdx_eq_put _ _ _ _ _ _ _ ?_ rfl
  unfold trA.sl.f_18 trA.sl.HS'_10; erw [readCov_whole_cons]; refine storeIdx_eq_put _ _ _ _ _ _ _ ?_ rfl
  unfold trA.sl.f_16 trA.sl.HS'_9; erw [readCov_whole_cons]; exact storeIdx_eq_put _ _ _ _ _ _ _ ((trA_S8 d L p fA fS).trans (putN_zero _ _ _ _).symm) rfl

set_option maxHeartbeats 1000000 in
theorem trA_S16 : trA.sl.f_30 d L p fA fS = putN (acc (XA1 fA p) 49) 8 8 (by omega) (putN (acc (XA0 fA p) 49) 0 8 (by omega) fS) := by
  unfold trA.sl.f_30 trA.sl.HS'_16; erw [readCov_whole_cons]; refine storeIdx_eq_put _ _ _ _ _ _ _ ?_ rfl
  unfold trA.sl.f_28 trA.sl.HS'_15; erw [readCov_whole_cons]; refine storeIdx_eq_put _ _ _ _ _ _ _ ?_ rfl
  unfold trA.sl.f_26 trA.sl.HS'_14; erw [readCov_whole_cons]; refine storeIdx_eq_put _ _ _ _ _ _ _ ?_ rfl
  unfold trA.sl.f_24 trA.sl.HS'_13; erw [readCov_whole_cons]; exact storeIdx_eq_put _ _ _ _ _ _ _ (trA_S12 d L p fA fS) rfl

set_option maxHeartbeats 1000000 in
/-- A trip's sixteen slot stores are two runs of eight accumulators; their transposed sums are the pair's sixteen group sums. -/
theorem bridgeAS : (trA d L v2 c0 c1 t1 p fA fS fQ).2.2.1 = pairS (n := 50176) fA (1568 * p.val) :=
  (congrArg flush (trA_S16 d L p fA fS)).trans ((flush_pair (acc (XA0 fA p) 49) (acc (XA1 fA p) 49) fS).trans
    (pairS_of fA (1568 * p.val) (XA0 fA p) (XA1 fA p) (XA0_eq fA p) (XA1_eq fA p)))

set_option maxHeartbeats 1000000 in
theorem trA_Q4 : trA.sl.f_7 d L p fA fQ = putN (acc (sq (XA0 fA p)) 49) 0 4 (by omega) fQ := by
  unfold trA.sl.f_7 trA.sl.HQ'_4; erw [readCov_whole_cons]; refine storeIdx_eq_put _ _ _ _ _ _ _ ?_ rfl
  unfold trA.sl.f_5 trA.sl.HQ'_3; erw [readCov_whole_cons]; refine storeIdx_eq_put _ _ _ _ _ _ _ ?_ rfl
  unfold trA.sl.f_3 trA.sl.HQ'_2; erw [readCov_whole_cons]; refine storeIdx_eq_put _ _ _ _ _ _ _ ?_ rfl
  unfold trA.sl.f_1 trA.sl.HQ'_1; erw [readCov_whole_cons]; exact storeIdx_eq_put _ _ _ _ _ _ _ (Memref.readAt_whole _ _ _) rfl

set_option maxHeartbeats 1000000 in
theorem trA_Q8 : trA.sl.f_15 d L p fA fQ = putN (acc (sq (XA0 fA p)) 49) 0 8 (by omega) fQ := by
  unfold trA.sl.f_15 trA.sl.HQ'_8; erw [readCov_whole_cons]; refine storeIdx_eq_put _ _ _ _ _ _ _ ?_ rfl
  unfold trA.sl.f_13 trA.sl.HQ'_7; erw [readCov_whole_cons]; refine storeIdx_eq_put _ _ _ _ _ _ _ ?_ rfl
  unfold trA.sl.f_11 trA.sl.HQ'_6; erw [readCov_whole_cons]; refine storeIdx_eq_put _ _ _ _ _ _ _ ?_ rfl
  unfold trA.sl.f_9 trA.sl.HQ'_5; erw [readCov_whole_cons]; exact storeIdx_eq_put _ _ _ _ _ _ _ (trA_Q4 d L p fA fQ) rfl

set_option maxHeartbeats 1000000 in
theorem trA_Q12 : trA.sl.f_23 d L p fA fQ = putN (acc (sq (XA1 fA p)) 49) 8 4 (by omega) (putN (acc (sq (XA0 fA p)) 49) 0 8 (by omega) fQ) := by
  unfold trA.sl.f_23 trA.sl.HQ'_12; erw [readCov_whole_cons]; refine storeIdx_eq_put _ _ _ _ _ _ _ ?_ rfl
  unfold trA.sl.f_21 trA.sl.HQ'_11; erw [readCov_whole_cons]; refine storeIdx_eq_put _ _ _ _ _ _ _ ?_ rfl
  unfold trA.sl.f_19 trA.sl.HQ'_10; erw [readCov_whole_cons]; refine storeIdx_eq_put _ _ _ _ _ _ _ ?_ rfl
  unfold trA.sl.f_17 trA.sl.HQ'_9; erw [readCov_whole_cons]; exact storeIdx_eq_put _ _ _ _ _ _ _ ((trA_Q8 d L p fA fQ).trans (putN_zero _ _ _ _).symm) rfl

set_option maxHeartbeats 1000000 in
theorem trA_Q16 : trA.sl.f_31 d L p fA fQ = putN (acc (sq (XA1 fA p)) 49) 8 8 (by omega) (putN (acc (sq (XA0 fA p)) 49) 0 8 (by omega) fQ) := by
  unfold trA.sl.f_31 trA.sl.HQ'_16; erw [readCov_whole_cons]; refine storeIdx_eq_put _ _ _ _ _ _ _ ?_ rfl
  unfold trA.sl.f_29 trA.sl.HQ'_15; erw [readCov_whole_cons]; refine storeIdx_eq_put _ _ _ _ _ _ _ ?_ rfl
  unfold trA.sl.f_27 trA.sl.HQ'_14; erw [readCov_whole_cons]; refine storeIdx_eq_put _ _ _ _ _ _ _ ?_ rfl
  unfold trA.sl.f_25 trA.sl.HQ'_13; erw [readCov_whole_cons]; exact storeIdx_eq_put _ _ _ _ _ _ _ (trA_Q12 d L p fA fQ) rfl

set_option maxHeartbeats 1000000 in
/-- A trip's sixteen slot stores are two runs of eight accumulators; their transposed sums are the pair's sixteen sums of squares. -/
theorem bridgeAQ : (trA d L v2 c0 c1 t1 p fA fS fQ).2.2.2.1 = pairQ (n := 50176) fA (1568 * p.val) :=
  (congrArg flush (trA_Q16 d L p fA fQ)).trans ((flush_pair (acc (sq (XA0 fA p)) 49) (acc (sq (XA1 fA p)) 49) fQ).trans
    (pairQ_of fA (1568 * p.val) (XA0 fA p) (XA1 fA p) (XA0_eq fA p) (XA1_eq fA p)))

end Cert.KernelIdeal.Pf

end
-- ==== Proof.TileLoopB.lean ====
import proofs.«207604_g45191645889005_cont_8to1c4_5_22_alg».proof.Proof.TileSetup
import proofs.«207604_g45191645889005_cont_8to1c4_5_22_alg».proof.Proof.TileFun

noncomputable section

namespace Cert.KernelIdeal.Pf

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 4000000 in

def trB (d : Dev nD) (L : grid1.Coords) (v2 : BitVec 32) (c0 c1 : BitVec 32) (t1 : Fin k1_t1_loop.trips) (p : Fin k1_t3_loop.trips)
    (fA : Buf (Elt F) ((thr d L).loc cc1_scratch1)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch1 ↦{fullShare} fA) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (k1_t3_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p ())
          fun _ => iprop(((thr d L).loc cc1_scratch1 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off11 p) S16.size (k1_off11_inb p), vs⟩])
        ∗ ((thr d L).loc cc1_scratch3 ↦{fullShare} (bP).view.writes (Elt F) fP [⟨Rect.unit (s := S1024) (k1_off11 p) S16.size (k1_off11_inb p), vq⟩])) :=
  ⟨_, _, _, _, by
    intro fO fP
    unfold k1_t3_body
    simp only [k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel
    simp only [SparseCore.vectorLoadIdx_bind (thr d L), SparseCore.vectorStoreIdx_bind (thr d L)]
    iintro ⟨HA, HS, HQ, HO, HP⟩
    ihave HA' := (Entails.of_eq (pts_bB (F := F) d L _).symm) $$ HA
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HA']; · iexact HA'
    isplitl [HS']; · iexact HS'
    isplitl [HQ']; · iexact HQ'
    isplitl [HO']; · iexact HO'
    iexact HP'⟩

def invB (d : Dev nD) (L : grid1.Coords) (fA : Buf (Elt F) ((thr d L).loc cc1_scratch1)) (VS VQ : ℕ → FVec F S16 .f32) (gO gP : Vec F S1024 .f32)
    (k : ℕ) (_ : Unit) : sProp 𝕄 :=
  iprop(((thr d L).loc cc1_scratch1 ↦{fullShare} fA) ∗ (∃ f, (thr d L).loc cc1_scratch4 ↦{fullShare} f) ∗ (∃ f, (thr d L).loc cc1_scratch5 ↦{fullShare} f)
    ∗ (∃ f : Buf (Elt F) ((thr d L).loc cc1_scratch2), ((thr d L).loc cc1_scratch2 ↦{fullShare} f) ∗ ⌜DoneS 512 VS gO k f⌝)
    ∗ (∃ f : Buf (Elt F) ((thr d L).loc cc1_scratch3), ((thr d L).loc cc1_scratch3 ↦{fullShare} f) ∗ ⌜DoneS 512 VQ gP k f⌝))

theorem k1_off11_zero (p : Fin k1_t3_loop.trips) : k1_off11 p 0 = 512 + 16 * p.val := by
  rw [k1_off11_eq p]; show 16 * p.val + 512 = _; omega

theorem postB (d : Dev nD) (L : grid1.Coords) (fA : Buf (Elt F) ((thr d L).loc cc1_scratch1)) (VS VQ : ℕ → FVec F S16 .f32) (gO gP : Vec F S1024 .f32)
    (p : Fin k1_t3_loop.trips) (fS' : Buf (Elt F) ((thr d L).loc cc1_scratch4)) (fQ' : Buf (Elt F) ((thr d L).loc cc1_scratch5)) (vs vq : FVec F S16 .f32)
    (fO : Buf (Elt F) ((thr d L).loc cc1_scratch2)) (fP : Buf (Elt F) ((thr d L).loc cc1_scratch3))
    (hs : vs = VS p.val) (hq : vq = VQ p.val) (hO : DoneS 512 VS gO p.val fO) (hP : DoneS 512 VQ gP p.val fP) :
    (iprop(((thr d L).loc cc1_scratch1 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off11 p) S16.size (k1_off11_inb p), vs⟩])
        ∗ ((thr d L).loc cc1_scratch3 ↦{fullShare} (bP).view.writes (Elt F) fP [⟨Rect.unit (s := S1024) (k1_off11 p) S16.size (k1_off11_inb p), vq⟩])) : sProp 𝕄) ⊢ invB d L fA VS VQ gO gP (p.val + 1) () := by
  unfold invB
  iintro ⟨HA, HS, HQ, HO, HP⟩
  isplitl [HA]; · iexact HA
  isplitl [HS]; · iexists _; iexact HS
  isplitl [HQ]; · iexists _; iexact HQ
  isplitl [HO]
  · iexists _; isplitl [HO]; · iexact HO
    ipureintro
    exact DoneS_step (k1_off11_zero p) hs hO (fun j => writesO_apply d L fO (k1_off11 p) (k1_off11_inb p) vs j)
  · iexists _; isplitl [HP]; · iexact HP
    ipureintro
    exact DoneS_step (k1_off11_zero p) hq hP (fun j => writesP_apply d L fP (k1_off11 p) (k1_off11_inb p) vq j)

theorem tripB (d : Dev nD) (L : grid1.Coords) (v2 : BitVec 32) (c0 c1 : BitVec 32) (t1 : Fin k1_t1_loop.trips)
    (fA : Buf (Elt F) ((thr d L).loc cc1_scratch1)) (VS VQ : ℕ → FVec F S16 .f32) (gO gP : Vec F S1024 .f32)
    (hbS : ∀ p fS fQ, (trB d L v2 c0 c1 t1 p fA fS fQ).2.2.1 = VS p.val)
    (hbQ : ∀ p fS fQ, (trB d L v2 c0 c1 t1 p fA fS fQ).2.2.2.1 = VQ p.val)
    (p : Fin k1_t3_loop.trips) (acc : Unit) :
    invB d L fA VS VQ gO gP p.val acc
      ⊢ wp frame (wpE (defs₀ (F := F)) 𝒱₀ (thr d L) none) Set.univ
          (k1_t3_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p acc) (invB d L fA VS VQ gO gP (p.val + 1)) := by
  unfold invB
  iintro ⟨HA, ⟨%fS, HS⟩, ⟨%fQ, HQ⟩, ⟨%fO, HO, %hO⟩, ⟨%fP, HP, %hP⟩⟩
  iapply (((trB d L v2 c0 c1 t1 p fA fS fQ).2.2.2.2 fO fP).trans (wp_mono frame _ _ fun _ =>
    postB d L fA VS VQ gO gP p _ _ _ _ fO fP (hbS p fS fQ) (hbQ p fS fQ) hO hP)) $$ [HA HS HQ HO HP]
  isplitl [HA]; · iexact HA
  isplitl [HS]; · iexact HS
  isplitl [HQ]; · iexact HQ
  isplitl [HO]; · iexact HO
  iexact HP

end Cert.KernelIdeal.Pf

end
-- ==== Proof.BridgeB.lean ====
import proofs.«207604_g45191645889005_cont_8to1c4_5_22_alg».proof.Proof.TileLoopB
import proofs.«207604_g45191645889005_cont_8to1c4_5_22_alg».proof.Proof.BridgeLib

noncomputable section

namespace Cert.KernelIdeal.Pf

open Idealize.ShloMosaic Cert.KernelIdeal Cert.KernelIdeal.Gen Cert.Proof Cert.Proof.Tile

variable {F : FTy → Type} [FloatOps F]

variable (d : Dev nD) (L : grid1.Coords) (v2 c0 c1 : BitVec 32) (t1 : Fin k1_t1_loop.trips) (p : Fin k1_t3_loop.trips)
  (fB : Vec F S49824 .f32) (fS fQ : Vec F S272 .f32)

set_option maxHeartbeats 1000000 in
theorem trB_S4 : trB.sl.f_6 d L p fB fS = putN (acc (XB0 fB p) 49) 0 4 (by omega) fS := by
  unfold trB.sl.f_6 trB.sl.HS'_4; erw [readCov_whole_cons]; refine storeIdx_eq_put _ _ _ _ _ _ _ ?_ rfl
  unfold trB.sl.f_4 trB.sl.HS'_3; erw [readCov_whole_cons]; refine storeIdx_eq_put _ _ _ _ _ _ _ ?_ rfl
  unfold trB.sl.f_2 trB.sl.HS'_2; erw [readCov_whole_cons]; refine storeIdx_eq_put _ _ _ _ _ _ _ ?_ rfl
  unfold trB.sl.f trB.sl.HS'_1; erw [readCov_whole_cons]; exact storeIdx_eq_put _ _ _ _ _ _ _ (Memref.readAt_whole _ _ _) rfl

set_option maxHeartbeats 1000000 in
theorem trB_S8 : trB.sl.f_14 d L p fB fS = putN (acc (XB0 fB p) 49) 0 8 (by omega) fS := by
  unfold trB.sl.f_14 trB.sl.HS'_8; erw [readCov_whole_cons]; refine storeIdx_eq_put _ _ _ _ _ _ _ ?_ rfl
  unfold trB.sl.f_12 trB.sl.HS'_7; erw [readCov_whole_cons]; refine storeIdx_eq_put _ _ _ _ _ _ _ ?_ rfl
  unfold trB.sl.f_10 trB.sl.HS'_6; erw [readCov_whole_cons]; refine storeIdx_eq_put _ _ _ _ _ _ _ ?_ rfl
  unfold trB.sl.f_8 trB.sl.HS'_5; erw [readCov_whole_cons]; exact storeIdx_eq_put _ _ _ _ _ _ _ (trB_S4 d L p fB fS) rfl

set_option maxHeartbeats 1000000 in
theorem trB_S12 : trB.sl.f_22 d L p fB fS = putN (acc (XB1 fB p) 49) 8 4 (by omega) (putN (acc (XB0 fB p) 49) 0 8 (by omega) fS) := by
  unfold trB.sl.f_22 trB.sl.HS'_12; erw [readCov_whole_cons]; refine storeIdx_eq_put _ _ _ _ _ _ _ ?_ rfl
  unfold trB.sl.f_20 trB.sl.HS'_11; erw [readCov_whole_cons]; refine storeIdx_eq_put _ _ _ _ _ _ _ ?_ rfl
  unfold trB.sl.f_18 trB.sl.HS'_10; erw [readCov_whole_cons]; refine storeIdx_eq_put _ _ _ _ _ _ _ ?_ rfl
  unfold trB.sl.f_16 trB.sl.HS'_9; erw [readCov_whole_cons]; exact storeIdx_eq_put _ _ _ _ _ _ _ ((trB_S8 d L p fB fS).trans (putN_zero _ _ _ _).symm) rfl

set_option maxHeartbeats 1000000 in
theorem trB_S16 : trB.sl.f_30 d L p fB fS = putN (acc (XB1 fB p) 49) 8 8 (by omega) (putN (acc (XB0 fB p) 49) 0 8 (by omega) fS) := by
  unfold trB.sl.f_30 trB.sl.HS'_16; erw [readCov_whole_cons]; refine storeIdx_eq_put _ _ _ _ _ _ _ ?_ rfl
  unfold trB.sl.f_28 trB.sl.HS'_15; erw [readCov_whole_cons]; refine storeIdx_eq_put _ _ _ _ _ _ _ ?_ rfl
  unfold trB.sl.f_26 trB.sl.HS'_14; erw [readCov_whole_cons]; refine storeIdx_eq_put _ _ _ _ _ _ _ ?_ rfl
  unfold trB.sl.f_24 trB.sl.HS'_13; erw [readCov_whole_cons]; exact storeIdx_eq_put _ _ _ _ _ _ _ (trB_S12 d L p fB fS) rfl

set_option maxHeartbeats 1000000 in
/-- A trip's sixteen slot stores are two runs of eight accumulators; their transposed sums are the pair's sixteen group sums. -/
theorem bridgeBS : (trB d L v2 c0 c1 t1 p fB fS fQ).2.2.1 = pairS (n := 49824) fB (1568 * p.val) :=
  (congrArg flush (trB_S16 d L p fB fS)).trans ((flush_pair (acc (XB0 fB p) 49) (acc (XB1 fB p) 49) fS).trans
    (pairS_of fB (1568 * p.val) (XB0 fB p) (XB1 fB p) (XB0_eq fB p) (XB1_eq fB p)))

set_option maxHeartbeats 1000000 in
theorem trB_Q4 : trB.sl.f_7 d L p fB fQ = putN (acc (sq (XB0 fB p)) 49) 0 4 (by omega) fQ := by
  unfold trB.sl.f_7 trB.sl.HQ'_4; erw [readCov_whole_cons]; refine storeIdx_eq_put _ _ _ _ _ _ _ ?_ rfl
  unfold trB.sl.f_5 trB.sl.HQ'_3; erw [readCov_whole_cons]; refine storeIdx_eq_put _ _ _ _ _ _ _ ?_ rfl
  unfold trB.sl.f_3 trB.sl.HQ'_2; erw [readCov_whole_cons]; refine storeIdx_eq_put _ _ _ _ _ _ _ ?_ rfl
  unfold trB.sl.f_1 trB.sl.HQ'_1; erw [readCov_whole_cons]; exact storeIdx_eq_put _ _ _ _ _ _ _ (Memref.readAt_whole _ _ _) rfl

set_option maxHeartbeats 1000000 in
theorem trB_Q8 : trB.sl.f_15 d L p fB fQ = putN (acc (sq (XB0 fB p)) 49) 0 8 (by omega) fQ := by
  unfold trB.sl.f_15 trB.sl.HQ'_8; erw [readCov_whole_cons]; refine storeIdx_eq_put _ _ _ _ _ _ _ ?_ rfl
  unfold trB.sl.f_13 trB.sl.HQ'_7; erw [readCov_whole_cons]; refine storeIdx_eq_put _ _ _ _ _ _ _ ?_ rfl
  unfold trB.sl.f_11 trB.sl.HQ'_6; erw [readCov_whole_cons]; refine storeIdx_eq_put _ _ _ _ _ _ _ ?_ rfl
  unfold trB.sl.f_9 trB.sl.HQ'_5; erw [readCov_whole_cons]; exact storeIdx_eq_put _ _ _ _ _ _ _ (trB_Q4 d L p fB fQ) rfl

set_option maxHeartbeats 1000000 in
theorem trB_Q12 : trB.sl.f_23 d L p fB fQ = putN (acc (sq (XB1 fB p)) 49) 8 4 (by omega) (putN (acc (sq (XB0 fB p)) 49) 0 8 (by omega) fQ) := by
  unfold trB.sl.f_23 trB.sl.HQ'_12; erw [readCov_whole_cons]; refine storeIdx_eq_put _ _ _ _ _ _ _ ?_ rfl
  unfold trB.sl.f_21 trB.sl.HQ'_11; erw [readCov_whole_cons]; refine storeIdx_eq_put _ _ _ _ _ _ _ ?_ rfl
  unfold trB.sl.f_19 trB.sl.HQ'_10; erw [readCov_whole_cons]; refine storeIdx_eq_put _ _ _ _ _ _ _ ?_ rfl
  unfold trB.sl.f_17 trB.sl.HQ'_9; erw [readCov_whole_cons]; exact storeIdx_eq_put _ _ _ _ _ _ _ ((trB_Q8 d L p fB fQ).trans (putN_zero _ _ _ _).symm) rfl

set_option maxHeartbeats 1000000 in
theorem trB_Q16 : trB.sl.f_31 d L p fB fQ = putN (acc (sq (XB1 fB p)) 49) 8 8 (by omega) (putN (acc (sq (XB0 fB p)) 49) 0 8 (by omega) fQ) := by
  unfold trB.sl.f_31 trB.sl.HQ'_16; erw [readCov_whole_cons]; refine storeIdx_eq_put _ _ _ _ _ _ _ ?_ rfl
  unfold trB.sl.f_29 trB.sl.HQ'_15; erw [readCov_whole_cons]; refine storeIdx_eq_put _ _ _ _ _ _ _ ?_ rfl
  unfold trB.sl.f_27 trB.sl.HQ'_14; erw [readCov_whole_cons]; refine storeIdx_eq_put _ _ _ _ _ _ _ ?_ rfl
  unfold trB.sl.f_25 trB.sl.HQ'_13; erw [readCov_whole_cons]; exact storeIdx_eq_put _ _ _ _ _ _ _ (trB_Q12 d L p fB fQ) rfl

set_option maxHeartbeats 1000000 in
/-- A trip's sixteen slot stores are two runs of eight accumulators; their transposed sums are the pair's sixteen sums of squares. -/
theorem bridgeBQ : (trB d L v2 c0 c1 t1 p fB fS fQ).2.2.2.1 = pairQ (n := 49824) fB (1568 * p.val) :=
  (congrArg flush (trB_Q16 d L p fB fQ)).trans ((flush_pair (acc (sq (XB0 fB p)) 49) (acc (sq (XB1 fB p)) 49) fQ).trans
    (pairQ_of fB (1568 * p.val) (XB0 fB p) (XB1 fB p) (XB0_eq fB p) (XB1_eq fB p)))

end Cert.KernelIdeal.Pf

end
-- ==== Proof.TileTail.lean ====
import proofs.«207604_g45191645889005_cont_8to1c4_5_22_alg».proof.Proof.TileSetup

noncomputable section

namespace Cert.KernelIdeal.Pf

open Cert.KernelIdeal Cert.KernelIdeal.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option cleanup.letToHave false in set_option maxHeartbeats 40000000 in

noncomputable def tailProg (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (arg13 : BitVec 32) (v110 : BitVec 32) (v125 : FVec F S16 .f32) (v126 : FVec F S16 .f32) (v127 : FVec F S16 .f32) (v128 : FVec F S16 .f32) (v129 : FVec F S16 .f32) (v130 : FVec F S16 .f32) (v131 : FVec F S16 .f32) (v132 : FVec F S16 .f32) (v133 : FVec F S16 .f32) (v134 : FVec F S16 .f32) (v135 : FVec F S16 .f32) : Prog (TpuEff nD τ sig (Elt F) Λ₀ (.scVector ((i 0).castLE hcore1) ((i 1).castLE hsub1))) PUnit := do
    let ⟨v136, v137, v138, v139, v140, v173, v175, v176, v178, v179⟩ : Σ' (v136 : FVec F S16 .f32) (v137 : FVec F S16 .f32) (v138 : FVec F S16 .f32) (v139 : FVec F S16 .f32) (v140 : FVec F S16 .f32) (v173 : FVec F S16 .f32) (v175 : FVec F S16 .f32) (v176 : FVec F S16 .f32) (v178 : FVec F S16 .f32), Vec F S16 .f32 ← k1_part36 i arg2 harg2 arg3 harg3 arg4 harg4 arg5 harg5 arg6 harg6 arg7 harg7 arg8 harg8 arg9 harg9 arg10 harg10 arg11 arg12 v633_r0 v633_r1 v3 v125 v126 v133 v134
    let ⟨v207, v210, v224, v226, v227⟩ : Σ' (v207 : FVec F S16 .f32) (v210 : FVec F S16 .f32) (v224 : FVec F S16 .f32) (v226 : FVec F S16 .f32), FVec F S16 .f32 ← k1_part37 i arg2 harg2 arg3 harg3 arg4 harg4 arg5 harg5 arg6 harg6 arg7 harg7 arg8 harg8 arg9 harg9 arg10 harg10 arg11 arg12 v633_r0 v633_r1 v3 v127 v135 v175 v178 v179
    let ⟨v241, v244, v265, v266, v267, v268, v270, v272, v273⟩ : Σ' (v241 : FVec F S16 .f32) (v244 : FVec F S16 .f32) (v265 : FVec F S16 .f32) (v266 : FVec F S16 .f32) (v267 : Vec F S16 .f32) (v268 : FVec F S16 .f32) (v270 : IVec S16 1) (v272 : Vec F S16 .f32), FVec F S16 .f32 ← k1_part38 i arg2 harg2 arg3 harg3 arg4 harg4 arg5 harg5 arg6 harg6 arg7 harg7 arg8 harg8 arg9 harg9 arg10 harg10 arg11 arg12 v633_r0 v633_r1 v3 v128 v136 v224 v226 v227
    let ⟨v275, v278, v309, v312, v321, v322⟩ : Σ' (v275 : FVec F S16 .f32) (v278 : FVec F S16 .f32) (v309 : FVec F S16 .f32) (v312 : FVec F S16 .f32) (v321 : FVec F S16 .f32), FVec F S16 .f32 ← k1_part39 i arg2 harg2 arg3 harg3 arg4 harg4 arg5 harg5 arg6 harg6 arg7 harg7 arg8 harg8 arg9 harg9 arg10 harg10 arg11 arg12 v633_r0 v633_r1 v3 v129 v130 v137 v138 v265 v266 v267 v268 v270 v272 v273
    let ⟨v343, v346, v367, v368, v369⟩ : Σ' (v343 : FVec F S16 .f32) (v346 : FVec F S16 .f32) (v367 : FVec F S16 .f32) (v368 : FVec F S16 .f32), Vec F S16 .f32 ← k1_part40 i arg2 harg2 arg3 harg3 arg4 harg4 arg5 harg5 arg6 harg6 arg7 harg7 arg8 harg8 arg9 harg9 arg10 harg10 arg11 arg12 v633_r0 v633_r1 v3 v131 v139 v321 v322
    let ⟨v405, v406⟩ : Σ' (v405 : FVec F S16 .f32), FVec F S16 .f32 ← k1_part41 i arg2 harg2 arg3 harg3 arg4 harg4 arg5 harg5 arg6 harg6 arg7 harg7 arg8 harg8 arg9 harg9 arg10 harg10 arg11 arg12 v633_r0 v633_r1 v3 v6 k1_hw1 v8 k1_hw2 v10 k1_hw3 v12 k1_hw4 v14 k1_hw5 v16 k1_hw6 v18 k1_hw7 v132 v140 v173 v176 v207 v210 v241 v244 v275 v278 v309 v312 v343 v346 v367 v368 v369
    let ⟨v408, v409, v410, v411, v413, v414, v415, v416, v439, v440, v441, v442, v444, v445⟩ : Σ' (v408 : FVec F S16 .f32) (v409 : FVec F S16 .f32) (v410 : FVec F S16 .f32) (v411 : FVec F S16 .f32) (v413 : FVec F S16 .f32) (v414 : FVec F S16 .f32) (v415 : FVec F S16 .f32) (v416 : FVec F S16 .f32) (v439 : FVec F S16 .f32) (v440 : FVec F S16 .f32) (v441 : Vec F S16 .f32) (v442 : FVec F S16 .f32) (v444 : IVec S16 1), FVec F S16 .f32 ← k1_part42 i arg2 harg2 arg3 harg3 arg4 harg4 arg5 harg5 arg6 harg6 arg7 harg7 arg8 harg8 arg9 harg9 arg10 harg10 arg11 arg12 v633_r0 v633_r1 v3 v20 k1_hw8 v405 v406
    let ⟨v449, v452, v483, v486, v491, v492, v493⟩ : Σ' (v449 : FVec F S16 .f32) (v452 : FVec F S16 .f32) (v483 : FVec F S16 .f32) (v486 : FVec F S16 .f32) (v491 : FVec F S16 .f32) (v492 : FVec F S16 .f32), Vec F S16 .f32 ← k1_part43 i arg2 harg2 arg3 harg3 arg4 harg4 arg5 harg5 arg6 harg6 arg7 harg7 arg8 harg8 arg9 harg9 arg10 harg10 arg11 arg12 v633_r0 v633_r1 v3 v408 v409 v413 v414 v439 v440 v441 v442 v444 v445
    let ⟨v517, v520, v538, v540, v541⟩ : Σ' (v517 : FVec F S16 .f32) (v520 : FVec F S16 .f32) (v538 : FVec F S16 .f32) (v540 : FVec F S16 .f32), FVec F S16 .f32 ← k1_part44 i arg2 harg2 arg3 harg3 arg4 harg4 arg5 harg5 arg6 harg6 arg7 harg7 arg8 harg8 arg9 harg9 arg10 harg10 arg11 arg12 v633_r0 v633_r1 v3 v410 v415 v491 v492 v493
    let ⟨v576, v578, v579⟩ : Σ' (v576 : FVec F S16 .f32) (v578 : FVec F S16 .f32), Vec F S16 .f32 ← k1_part45 i arg2 harg2 arg3 harg3 arg4 harg4 arg5 harg5 arg6 harg6 arg7 harg7 arg8 harg8 arg9 harg9 arg10 harg10 arg11 arg12 v633_r0 v633_r1 v3 v4 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v411 v416 v449 v452 v483 v486 v517 v520 v538 v540 v541
    k1_part46 i arg2 harg2 arg3 harg3 arg4 harg4 arg5 harg5 arg6 harg6 arg7 harg7 arg8 harg8 arg9 harg9 arg10 harg10 arg11 arg12 v633_r0 v633_r1 v56 k1_hw21 v60 k1_hw22 v64 k1_hw23 v68 k1_hw24 v72 k1_hw25 v76 k1_hw26 v80 k1_hw27 v84 k1_hw28 v88 k1_hw29 v92 k1_hw30 v96 k1_hw31 v100 k1_hw32 arg13 v576 v578 v579

set_option cleanup.letToHave false in set_option maxHeartbeats 40000000 in

noncomputable def restProg (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (k1_t1 : Fin k1_t1_loop.trips) : Prog (TpuEff nD τ sig (Elt F) Λ₀ (.scVector ((i 0).castLE hcore1) ((i 1).castLE hsub1))) PUnit := do
    if k1_h2 : k1_cond2 k1_t1 = 1#1 then do
      let v636 : Memref sig .scVector .hbm S1x49824 .f32 := arg2.slice (Rect.unit (s := S1024x100000) (k1_off12 i k1_t1) S1x49824.size (k1_off12_inb i k1_t1 k1_h2)) (fun _ => rfl)
      let v637 : Memref sig .scVector .hbm S49824 .f32 := v636.squeeze S49824 squeezes_S1x49824_S49824
      Prog.lift (.enqueueDma v637 (.here arg6) (.dma arg12.sem) ((View.wordExact_bits rfl).reshape _ _) harg6.wordExact ⟨Or.inl rfl, trivial⟩)
      pure ⟨⟩
    else do
      pure ⟨⟩
    let v636_r0 : Memref sig .scVector .hbm S1x1024 .f32 := arg3.slice (Rect.unit (s := S256x1024) (k1_off13 i k1_t1) S1x1024.size (k1_off13_inb i k1_t1)) (fun _ => rfl)
    let v637_r0 : Memref sig .scVector .hbm S1024 .f32 := v636_r0.squeeze S1024 squeezes_S1x1024_S1024
    Prog.lift (.enqueueDma arg7 (.here v637_r0) (.dma v633_r0.sem) harg7.wordExact ((View.wordExact_bits rfl).reshape _ _) ⟨Or.inl rfl, trivial⟩)
    let v640_r0 : Memref sig .scVector .hbm S1x1024 .f32 := arg3.slice (Rect.unit (s := S256x1024) (k1_off13 i k1_t1) S1x1024.size (k1_off13_inb i k1_t1)) (fun _ => rfl)
    let v641_r0 : Memref sig .scVector .hbm S1024 .f32 := v640_r0.squeeze S1024 squeezes_S1x1024_S1024
    Prog.lift (.waitDma2 v633_r0.sem arg7 v641_r0 harg7.wordExact ((View.wordExact_bits rfl).reshape _ _))
    let v636_r1 : Memref sig .scVector .hbm S1x1024 .f32 := arg4.slice (Rect.unit (s := S256x1024) (k1_off13 i k1_t1) S1x1024.size (k1_off13_inb i k1_t1)) (fun _ => rfl)
    let v637_r1 : Memref sig .scVector .hbm S1024 .f32 := v636_r1.squeeze S1024 squeezes_S1x1024_S1024
    Prog.lift (.enqueueDma arg8 (.here v637_r1) (.dma v633_r1.sem) harg8.wordExact ((View.wordExact_bits rfl).reshape _ _) ⟨Or.inl rfl, trivial⟩)
    let v640_r1 : Memref sig .scVector .hbm S1x1024 .f32 := arg4.slice (Rect.unit (s := S256x1024) (k1_off13 i k1_t1) S1x1024.size (k1_off13_inb i k1_t1)) (fun _ => rfl)
    let v641_r1 : Memref sig .scVector .hbm S1024 .f32 := v640_r1.squeeze S1024 squeezes_S1x1024_S1024
    Prog.lift (.waitDma2 v633_r1.sem arg8 v641_r1 harg8.wordExact ((View.wordExact_bits rfl).reshape _ _))
    pure ⟨⟩

set_option maxRecDepth 65536 in set_option maxHeartbeats 40000000 in

theorem k1_t1_body_cut (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (k1_t1 : Fin k1_t1_loop.trips) (u : Unit) :
    k1_t1_body i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 k1_t1 u = (do
      let ⟨arg13, v110, v125, v126, v127, v128, v129, v130, v131, v132, v133, v134, v135⟩ : Σ' (arg13 : BitVec 32) (v110 : BitVec 32) (v125 : FVec F S16 .f32) (v126 : FVec F S16 .f32) (v127 : FVec F S16 .f32) (v128 : FVec F S16 .f32) (v129 : FVec F S16 .f32) (v130 : FVec F S16 .f32) (v131 : FVec F S16 .f32) (v132 : FVec F S16 .f32) (v133 : FVec F S16 .f32) (v134 : FVec F S16 .f32), FVec F S16 .f32 ← k1_part35 i arg2 harg2 arg3 harg3 arg4 harg4 arg5 harg5 arg6 harg6 arg7 harg7 arg8 harg8 arg9 harg9 arg10 harg10 arg11 arg12 v633_r0 v633_r1 v2 v3 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 0#32 1#32 k1_t1
      tailProg i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 arg13 v110 v125 v126 v127 v128 v129 v130 v131 v132 v133 v134 v135
      restProg i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 k1_t1) := rfl

set_option maxHeartbeats 4000000 in

def trT (d : Dev nD) (L : grid1.Coords) (v2 : BitVec 32) (arg13 : BitVec 32) (v110 : BitVec 32)
    (fB : Buf (Elt F) ((thr d L).loc cc1_scratch1)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch1 ↦{fullShare} fB) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (tailProg L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane Tile.zero16 (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 arg13 v110 (k1_pay304 (F := F)) (k1_pay305 (F := F)) (k1_pay306 (F := F)) (k1_pay307 (F := F)) (k1_pay308 (F := F)) (k1_pay309 (F := F)) (k1_pay310 (F := F)) (k1_pay311 (F := F)) (k1_pay312 (F := F)) (k1_pay313 (F := F)) (k1_pay314 (F := F)))
          fun _ => iprop(((thr d L).loc cc1_scratch1 ↦{fullShare} fB) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) ![1008] S16.size inb_S1024_S16_1008, vs⟩])
        ∗ ((thr d L).loc cc1_scratch3 ↦{fullShare} (bP).view.writes (Elt F) fP [⟨Rect.unit (s := S1024) ![1008] S16.size inb_S1024_S16_1008, vq⟩])) :=
  ⟨_, _, _, _, by
    intro fO fP
    unfold tailProg
    simp only [k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton]
    unfold k1_part36_skel k1_part37_skel k1_part38_skel k1_part39_skel k1_part40_skel k1_part41_skel k1_part42_skel k1_part43_skel k1_part44_skel k1_part45_skel k1_part46_skel
    simp only [SparseCore.vectorLoadIdx_bind (thr d L), SparseCore.vectorStoreIdx_bind (thr d L)]
    iintro ⟨HB, HS, HQ, HO, HP⟩
    ihave HB' := (Entails.of_eq (pts_bB (F := F) d L _).symm) $$ HB
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HB']; · iexact HB'
    isplitl [HS']; · iexact HS'
    isplitl [HQ']; · iexact HQ'
    isplitl [HO']; · iexact HO'
    iexact HP'⟩

end Cert.KernelIdeal.Pf

end
-- ==== Proof.BridgeT.lean ====
import proofs.«207604_g45191645889005_cont_8to1c4_5_22_alg».proof.Proof.TileTail
import proofs.«207604_g45191645889005_cont_8to1c4_5_22_alg».proof.Proof.BridgeLib

noncomputable section

namespace Cert.KernelIdeal.Pf

open Idealize.ShloMosaic Cert.KernelIdeal Cert.KernelIdeal.Gen Cert.Proof Cert.Proof.Tile

variable {F : FTy → Type} [FloatOps F]

variable (d : Dev nD) (L : grid1.Coords) (v2 a13 v110 : BitVec 32) (fB : Vec F S49824 .f32) (fS fQ : Vec F S272 .f32)

set_option maxHeartbeats 1000000 in
theorem trT_S4 : trT.sl.f_6 d L fB fS = putN (acc (XT0 fB) 49) 0 4 (by omega) fS := by
  unfold trT.sl.f_6 trT.sl.HS'_4; erw [readCov_whole_cons]; refine storeIdx_eq_put _ _ _ _ _ _ _ ?_ rfl
  unfold trT.sl.f_4 trT.sl.HS'_3; erw [readCov_whole_cons]; refine storeIdx_eq_put _ _ _ _ _ _ _ ?_ rfl
  unfold trT.sl.f_2 trT.sl.HS'_2; erw [readCov_whole_cons]; refine storeIdx_eq_put _ _ _ _ _ _ _ ?_ rfl
  unfold trT.sl.f trT.sl.HS'_1; erw [readCov_whole_cons]; exact storeIdx_eq_put _ _ _ _ _ _ _ (Memref.readAt_whole _ _ _) rfl

set_option maxHeartbeats 1000000 in
theorem trT_S8 : trT.sl.f_14 d L fB fS = putN (acc (XT0 fB) 49) 0 8 (by omega) fS := by
  unfold trT.sl.f_14 trT.sl.HS'_8; erw [readCov_whole_cons]; refine storeIdx_eq_put _ _ _ _ _ _ _ ?_ rfl
  unfold trT.sl.f_12 trT.sl.HS'_7; erw [readCov_whole_cons]; refine storeIdx_eq_put _ _ _ _ _ _ _ ?_ rfl
  unfold trT.sl.f_10 trT.sl.HS'_6; erw [readCov_whole_cons]; refine storeIdx_eq_put _ _ _ _ _ _ _ ?_ rfl
  unfold trT.sl.f_8 trT.sl.HS'_5; erw [readCov_whole_cons]; exact storeIdx_eq_put _ _ _ _ _ _ _ (trT_S4 d L fB fS) rfl

set_option maxHeartbeats 1000000 in
theorem trT_S12 : trT.sl.f_22 d L fB fS = putN (acc (XT1 fB) 27) 8 4 (by omega) (putN (acc (XT0 fB) 49) 0 8 (by omega) fS) := by
  unfold trT.sl.f_22 trT.sl.HS'_12; erw [readCov_whole_cons]; refine storeIdx_eq_put _ _ _ _ _ _ _ ?_ rfl
  unfold trT.sl.f_20 trT.sl.HS'_11; erw [readCov_whole_cons]; refine storeIdx_eq_put _ _ _ _ _ _ _ ?_ rfl
  unfold trT.sl.f_18 trT.sl.HS'_10; erw [readCov_whole_cons]; refine storeIdx_eq_put _ _ _ _ _ _ _ ?_ rfl
  unfold trT.sl.f_16 trT.sl.HS'_9; erw [readCov_whole_cons]; exact storeIdx_eq_put _ _ _ _ _ _ _ ((trT_S8 d L fB fS).trans (putN_zero _ _ _ _).symm) rfl

set_option maxHeartbeats 1000000 in
theorem trT_S16 : trT.sl.f_30 d L fB fS = put 15 (by omega) zero16 (put 14 (by omega) zero16 (put 13 (by omega) zero16 (putN (acc (XT1 fB) 27) 8 5 (by omega) (putN (acc (XT0 fB) 49) 0 8 (by omega) fS)))) := by
  unfold trT.sl.f_30 trT.sl.HS'_16; erw [readCov_whole_cons]; refine storeIdx_eq_put _ _ _ _ _ _ _ ?_ rfl
  unfold trT.sl.f_28 trT.sl.HS'_15; erw [readCov_whole_cons]; refine storeIdx_eq_put _ _ _ _ _ _ _ ?_ rfl
  unfold trT.sl.f_26 trT.sl.HS'_14; erw [readCov_whole_cons]; refine storeIdx_eq_put _ _ _ _ _ _ _ ?_ rfl
  unfold trT.sl.f_24 trT.sl.HS'_13; erw [readCov_whole_cons]; exact storeIdx_eq_put _ _ _ _ _ _ _ (trT_S12 d L fB fS) rfl

set_option maxHeartbeats 1000000 in
/-- The row's last sixteen slot stores are eight accumulators, five, and three zero vectors; their transposed sums are the row's last group sums. -/
theorem bridgeTS : (trT d L v2 a13 v110 fB fS fQ).2.2.1 = tailS fB :=
  (congrArg flush (trT_S16 d L fB fS)).trans ((flush_tail (acc (XT0 fB) 49) (acc (XT1 fB) 27) fS).trans
    (tailS_of fB (XT0 fB) (XT1 fB) (XT0_eq fB) (XT1_eq fB)))

set_option maxHeartbeats 1000000 in
theorem trT_Q4 : trT.sl.f_7 d L fB fQ = putN (acc (sq (XT0 fB)) 49) 0 4 (by omega) fQ := by
  unfold trT.sl.f_7 trT.sl.HQ'_4; erw [readCov_whole_cons]; refine storeIdx_eq_put _ _ _ _ _ _ _ ?_ rfl
  unfold trT.sl.f_5 trT.sl.HQ'_3; erw [readCov_whole_cons]; refine storeIdx_eq_put _ _ _ _ _ _ _ ?_ rfl
  unfold trT.sl.f_3 trT.sl.HQ'_2; erw [readCov_whole_cons]; refine storeIdx_eq_put _ _ _ _ _ _ _ ?_ rfl
  unfold trT.sl.f_1 trT.sl.HQ'_1; erw [readCov_whole_cons]; exact storeIdx_eq_put _ _ _ _ _ _ _ (Memref.readAt_whole _ _ _) rfl

set_option maxHeartbeats 1000000 in
theorem trT_Q8 : trT.sl.f_15 d L fB fQ = putN (acc (sq (XT0 fB)) 49) 0 8 (by omega) fQ := by
  unfold trT.sl.f_15 trT.sl.HQ'_8; erw [readCov_whole_cons]; refine storeIdx_eq_put _ _ _ _ _ _ _ ?_ rfl
  unfold trT.sl.f_13 trT.sl.HQ'_7; erw [readCov_whole_cons]; refine storeIdx_eq_put _ _ _ _ _ _ _ ?_ rfl
  unfold trT.sl.f_11 trT.sl.HQ'_6; erw [readCov_whole_cons]; refine storeIdx_eq_put _ _ _ _ _ _ _ ?_ rfl
  unfold trT.sl.f_9 trT.sl.HQ'_5; erw [readCov_whole_cons]; exact storeIdx_eq_put _ _ _ _ _ _ _ (trT_Q4 d L fB fQ) rfl

set_option maxHeartbeats 1000000 in
theorem trT_Q12 : trT.sl.f_23 d L fB fQ = putN (acc (sq (XT1 fB)) 27) 8 4 (by omega) (putN (acc (sq (XT0 fB)) 49) 0 8 (by omega) fQ) := by
  unfold trT.sl.f_23 trT.sl.HQ'_12; erw [readCov_whole_cons]; refine storeIdx_eq_put _ _ _ _ _ _ _ ?_ rfl
  unfold trT.sl.f_21 trT.sl.HQ'_11; erw [readCov_whole_cons]; refine storeIdx_eq_put _ _ _ _ _ _ _ ?_ rfl
  unfold trT.sl.f_19 trT.sl.HQ'_10; erw [readCov_whole_cons]; refine storeIdx_eq_put _ _ _ _ _ _ _ ?_ rfl
  unfold trT.sl.f_17 trT.sl.HQ'_9; erw [readCov_whole_cons]; exact storeIdx_eq_put _ _ _ _ _ _ _ ((trT_Q8 d L fB fQ).trans (putN_zero _ _ _ _).symm) rfl

set_option maxHeartbeats 1000000 in
theorem trT_Q16 : trT.sl.f_31 d L fB fQ = put 15 (by omega) zero16 (put 14 (by omega) zero16 (put 13 (by omega) zero16 (putN (acc (sq (XT1 fB)) 27) 8 5 (by omega) (putN (acc (sq (XT0 fB)) 49) 0 8 (by omega) fQ)))) := by
  unfold trT.sl.f_31 trT.sl.HQ'_16; erw [readCov_whole_cons]; refine storeIdx_eq_put _ _ _ _ _ _ _ ?_ rfl
  unfold trT.sl.f_29 trT.sl.HQ'_15; erw [readCov_whole_cons]; refine storeIdx_eq_put _ _ _ _ _ _ _ ?_ rfl
  unfold trT.sl.f_27 trT.sl.HQ'_14; erw [readCov_whole_cons]; refine storeIdx_eq_put _ _ _ _ _ _ _ ?_ rfl
  unfold trT.sl.f_25 trT.sl.HQ'_13; erw [readCov_whole_cons]; exact storeIdx_eq_put _ _ _ _ _ _ _ (trT_Q12 d L fB fQ) rfl

set_option maxHeartbeats 1000000 in
/-- The row's last sixteen slot stores are eight accumulators, five, and three zero vectors; their transposed sums are the row's last sums of squares. -/
theorem bridgeTQ : (trT d L v2 a13 v110 fB fS fQ).2.2.2.1 = tailQ fB :=
  (congrArg flush (trT_Q16 d L fB fQ)).trans ((flush_tail (acc (sq (XT0 fB)) 49) (acc (sq (XT1 fB)) 27) fQ).trans
    (tailQ_of fB (XT0 fB) (XT1 fB) (XT0_eq fB) (XT1_eq fB)))

end Cert.KernelIdeal.Pf

end
-- ==== Proof.TileRow.lean ====
import proofs.«207604_g45191645889005_cont_8to1c4_5_22_alg».proof.Proof.TileInv
import proofs.«207604_g45191645889005_cont_8to1c4_5_22_alg».proof.Proof.BridgeA
import proofs.«207604_g45191645889005_cont_8to1c4_5_22_alg».proof.Proof.BridgeB
import proofs.«207604_g45191645889005_cont_8to1c4_5_22_alg».proof.Proof.BridgeT

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

section Row

variable (m : (ℓ : Loc nD τ sig) → Buf (Elt F) ℓ) (d : Dev nD) (L : grid1.Coords)
variable (O : CellTallies nD τ sig (HIx 1)) (W : Waits sig (HIx 1))

set_option maxHeartbeats 4000000 in
/-- One row of the tile; the cases `next row exists` / `last row` differ only in issuing and handing on the next row's two copies. -/
theorem rowStep (v2 : BitVec 32) (t : Fin k1_t1_loop.trips) (acc : Unit) :
    invR m d L O W t.val acc
      ⊢ wp frame (wpE (defs₀ (F := F)) 𝒱₀ (thr d L) none) Set.univ
          (k1_t1_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane Tile.zero16 (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 t acc) (invR m d L O W (t.val + 1)) := by
  have ht : t.val < 8 := lt_of_lt_of_le t.isLt k1_t1_abs.2.1
  rw [k1_t1_body_cut]
  unfold invR pendA pendB
  rw [dif_pos ht, dif_pos ht]
  unfold DA DB
  iintro ⟨#Hmw, HFA, HFB, HxA, HxB, ⟨%fO, HO⟩, ⟨%fP, HP⟩, ⟨%fS, HS⟩, ⟨%fQ, HQ⟩, Hc0, Hc1, Hg, Hq, %W', %hW', HOw⟩
  have hw := wL_lt L
  have hsubA : colsA (8 * wL L + t.val) ⊆ allA (wL L) := colsA_subset_allA (by omega) (by omega)
  have hsubB : colsB (8 * wL L + t.val) ⊆ allB (wL L) := colsB_subset_allB (by omega) (by omega)
  ihave KxA := (Entails.of_eq (kept_eq _).symm) $$ HxA
  ihave KxB := (Entails.of_eq (kept_eq _).symm) $$ HxB
  sl_exec

  sl_for (invA d L (Tile.hA (xv m d) ⟨(8 * wL L + t.val), row_lt L t.val ht⟩ : Vec F S50176 .f32)
      (fun q => Tile.pairS (n := 50176) (Tile.hA (xv m d) ⟨(8 * wL L + t.val), row_lt L t.val ht⟩) (1568 * q))
      (fun q => Tile.pairQ (n := 50176) (Tile.hA (xv m d) ⟨(8 * wL L + t.val), row_lt L t.val ht⟩) (1568 * q)) fO fP) $$ [HFA_dst HS HQ HO HP]
  case region =>
    intro k acc
    exact tripA d L v2 (0#32) (1#32) t _ _ _ fO fP (fun p fS fQ => bridgeAS d L v2 _ _ _ p _ fS fQ) (fun p fS fQ => bridgeAQ d L v2 _ _ _ p _ fS fQ) k acc
  · unfold invA
    isplitl [HFA_dst]; · iexact HFA_dst
    isplitl [HS]; · iexists _; iexact HS
    isplitl [HQ]; · iexists _; iexact HQ
    isplitl [HO]
    · iexists fO; isplitl [HO]; · iexact HO
      ipureintro; exact DoneS_zero _ _ _
    · iexists fP; isplitl [HP]; · iexact HP
      ipureintro; exact DoneS_zero _ _ _
  iintro %acc1 HI
  unfold invA
  icases HI with ⟨HA, ⟨%fS1, HS⟩, ⟨%fQ1, HQ⟩, ⟨%fO1, HO, %hO1⟩, ⟨%fP1, HP, %hP1⟩⟩
  by_cases hc : t.val + 1 < 8
  all_goals
    first
    | (have hc1 : k1_cond1 t = 1#1 := (cond1_iff t).2 hc
       have hc2 : k1_cond2 t = 1#1 := (cond2_iff t).2 hc)
    | (have hc1 : ¬ k1_cond1 t = 1#1 := fun h => hc ((cond1_iff t).1 h)
       have hc2 : ¬ k1_cond2 t = 1#1 := fun h => hc ((cond2_iff t).1 h))
    ihave HA2 := (Entails.of_eq (pts_bA (F := F) d L _).symm) $$ HA
    ihave HS2 := (Entails.of_eq (pts_tS (F := F) d L _).symm) $$ HS
    ihave HQ2 := (Entails.of_eq (pts_tQ (F := F) d L _).symm) $$ HQ
    ihave HO2 := (Entails.of_eq (pts_bO (F := F) d L _).symm) $$ HO
    ihave HP2 := (Entails.of_eq (pts_bP (F := F) d L _).symm) $$ HP

    ihave HxA := (Entails.of_eq (kept_eq _)) $$ KxA
    ihave HxAll := ((pointsTo_split_subset (ℓ := xLoc d) hsubA).2) $$ [HFA_src HxA]
    · isplitl [HFA_src]; · iexact HFA_src
      iexact HxA
    first
    | (have hsubA' : colsA (8 * wL L + t.val + 1) ⊆ allA (wL L) := colsA_subset_allA (by omega) (by omega)
       ihave Hsp := ((pointsTo_split_subset (ℓ := xLoc d) hsubA').1) $$ HxAll
       icases Hsp with ⟨HxN, HxRest⟩
       have eN : (((slA (k1_off7 L t) (k1_off7_inb L t hc1)).view.loc (thr d L) ↦[(slA (k1_off7 L t) (k1_off7_inb L t hc1)).view.set]{fullShare} m (xLoc d) : sProp 𝕄))
           = (xLoc d ↦[colsA (8 * wL L + t.val + 1)]{fullShare} m (xLoc d)) := by
         rw [set_slA _ _ _ (off7_row L t)]
       ihave HxN' := (Entails.of_eq eN.symm) $$ HxN
       ihave KxA2 := (Entails.of_eq (kept_eq _).symm) $$ HxRest)
    | (ihave KxA2 := (Entails.of_eq ((congrArg (fun S => (xLoc d ↦[S]{fullShare} m (xLoc d) : sProp 𝕄))
         (allA_sdiff_colsA (w := wL L) (r := 8 * wL L + (t.val + 1)) (by omega)).symm).trans (kept_eq _).symm)) $$ HxAll)
    sl_exec

    sl_for (invB d L (Tile.hB (xv m d) ⟨(8 * wL L + t.val), row_lt L t.val ht⟩ : Vec F S49824 .f32)
        (fun q => Tile.pairS (n := 49824) (Tile.hB (xv m d) ⟨(8 * wL L + t.val), row_lt L t.val ht⟩) (1568 * q))
        (fun q => Tile.pairQ (n := 49824) (Tile.hB (xv m d) ⟨(8 * wL L + t.val), row_lt L t.val ht⟩) (1568 * q)) fO1 fP1) $$ [HFB_dst HS2 HQ2 HO2 HP2]
    case region =>
      intro k acc
      exact tripB d L v2 (0#32) (1#32) t _ _ _ fO1 fP1 (fun p fS fQ => bridgeBS d L v2 _ _ _ p _ fS fQ) (fun p fS fQ => bridgeBQ d L v2 _ _ _ p _ fS fQ) k acc
    · unfold invB
      isplitl [HFB_dst]; · iexact HFB_dst
      isplitl [HS2]; · iexists _; iexact HS2
      isplitl [HQ2]; · iexists _; iexact HQ2
      isplitl [HO2]
      · iexists fO1; isplitl [HO2]; · iexact HO2
        ipureintro; exact DoneS_zero _ _ _
      · iexists fP1; isplitl [HP2]; · iexact HP2
        ipureintro; exact DoneS_zero _ _ _
    iintro %acc2 HI
    unfold invB
    icases HI with ⟨HB, ⟨%fS3, HS⟩, ⟨%fQ3, HQ⟩, ⟨%fO3, HO, %hO3⟩, ⟨%fP3, HP, %hP3⟩⟩
    sl_step
    dsimp only
    rw [wp_bind]

    iapply (wp_wand_r frame _ _)
    isplitl [HB HS HQ HO HP]
    · iapply ((trT d L v2 _ _ _ fS3 fQ3).2.2.2.2 fO3 fP3)
      isplitl [HB]; · iexact HB
      isplitl [HS]; · iexact HS
      isplitl [HQ]; · iexact HQ
      isplitl [HO]; · iexact HO
      iexact HP
    iintro %u1 ⟨HB, HS, HQ, HO, HP⟩
    ihave HB3 := (Entails.of_eq (pts_bB (F := F) d L _).symm) $$ HB
    ihave HS3 := (Entails.of_eq (pts_tS (F := F) d L _).symm) $$ HS
    ihave HQ3 := (Entails.of_eq (pts_tQ (F := F) d L _).symm) $$ HQ
    ihave HO3 := (Entails.of_eq (pts_bO (F := F) d L _).symm) $$ HO
    ihave HP3 := (Entails.of_eq (pts_bP (F := F) d L _).symm) $$ HP

    ihave HxB := (Entails.of_eq (kept_eq _)) $$ KxB
    ihave HxBll := ((pointsTo_split_subset (ℓ := xLoc d) hsubB).2) $$ [HFB_src HxB]
    · isplitl [HFB_src]; · iexact HFB_src
      iexact HxB
    first
    | (have hsubB' : colsB (8 * wL L + t.val + 1) ⊆ allB (wL L) := colsB_subset_allB (by omega) (by omega)
       ihave HspB := ((pointsTo_split_subset (ℓ := xLoc d) hsubB').1) $$ HxBll
       icases HspB with ⟨HxNB, HxRestB⟩
       have eNB : (((slB (k1_off12 L t) (k1_off12_inb L t hc2)).view.loc (thr d L) ↦[(slB (k1_off12 L t) (k1_off12_inb L t hc2)).view.set]{fullShare} m (xLoc d) : sProp 𝕄))
           = (xLoc d ↦[colsB (8 * wL L + t.val + 1)]{fullShare} m (xLoc d)) := by
         rw [set_slB _ _ _ (off12_row L t)]
       ihave HxNB' := (Entails.of_eq eNB.symm) $$ HxNB
       ihave KxB2 := (Entails.of_eq (kept_eq _).symm) $$ HxRestB)
    | (ihave KxB2 := (Entails.of_eq ((congrArg (fun S => (xLoc d ↦[S]{fullShare} m (xLoc d) : sProp 𝕄))
         (allB_sdiff_colsB (w := wL L) (r := 8 * wL L + (t.val + 1)) (by omega)).symm).trans (kept_eq _).symm)) $$ HxBll)

    have hsubO : rowO (8 * wL L + t.val) ⊆ rowsO (wL L) := rowO_subset_rowsO (by omega) (by omega)
    ihave Hsg := ((pointsTo_split_subset (ℓ := gsLoc d) hsubO).1) $$ Hg
    icases Hsg with ⟨HgN, HgRest⟩
    have eG : (((slG (k1_off13 L t) (k1_off13_inb L t)).view.loc (thr d L) ↦[(slG (k1_off13 L t) (k1_off13_inb L t)).view.set]{fullShare} gval m d L t.val : sProp 𝕄))
        = (gsLoc d ↦[rowO (8 * wL L + t.val)]{fullShare} gval m d L t.val) := by
      rw [set_slG _ _ _ (off13_row L t)]
    ihave HgN' := (Entails.of_eq eG.symm) $$ HgN
    ihave KgRest := (Entails.of_eq (kept_eq _).symm) $$ HgRest
    ihave Hsq := ((pointsTo_split_subset (ℓ := gsqLoc d) hsubO).1) $$ Hq
    icases Hsq with ⟨HqN, HqRest⟩
    have eQ : (((slQ (k1_off13 L t) (k1_off13_inb L t)).view.loc (thr d L) ↦[(slQ (k1_off13 L t) (k1_off13_inb L t)).view.set]{fullShare} qval m d L t.val : sProp 𝕄))
        = (gsqLoc d ↦[rowO (8 * wL L + t.val)]{fullShare} qval m d L t.val) := by
      rw [set_slQ _ _ _ (off13_row L t)]
    ihave HqN' := (Entails.of_eq eQ.symm) $$ HqN
    ihave KqRest := (Entails.of_eq (kept_eq _).symm) $$ HqRest
    sl_exec
    sl_step

    rw [trips2_eq] at hO1 hP1
    rw [trips3_eq] at hO3 hP3
    have hfinO : ∀ a13 v110, (bO).view.writes (Elt F) fO3 [⟨Rect.unit (s := S1024) ![1008] S16.size inb_S1024_S16_1008,
          (trT d L v2 a13 v110 (Tile.hB (xv m d) ⟨(8 * wL L + t.val), row_lt L t.val ht⟩ : Vec F S49824 .f32) fS3 fQ3).2.2.1⟩]
        = Tile.rowS (Tile.hA (xv m d) ⟨(8 * wL L + t.val), row_lt L t.val ht⟩) (Tile.hB (xv m d) ⟨(8 * wL L + t.val), row_lt L t.val ht⟩) := fun a13 v110 =>
      rowS_of_done Tile.rowS (fun a o => Tile.pairS (n := 50176) a o) (fun b o => Tile.pairS (n := 49824) b o) Tile.tailS
        (fun a b p hp s => Tile.rowS_A a b p hp s) (fun a b p hp s => Tile.rowS_B a b p hp s) (fun a b s => Tile.rowS_T a b s)
        _ _ fO fO1 fO3 _ _ hO1 hO3 (fun j => writesO_apply d L fO3 ![1008] inb_S1024_S16_1008 _ j)
        (bridgeTS d L v2 a13 v110 _ fS3 fQ3)
    have hfinP : ∀ a13 v110, (bP).view.writes (Elt F) fP3 [⟨Rect.unit (s := S1024) ![1008] S16.size inb_S1024_S16_1008,
          (trT d L v2 a13 v110 (Tile.hB (xv m d) ⟨(8 * wL L + t.val), row_lt L t.val ht⟩ : Vec F S49824 .f32) fS3 fQ3).2.2.2.1⟩]
        = Tile.rowQ (Tile.hA (xv m d) ⟨(8 * wL L + t.val), row_lt L t.val ht⟩) (Tile.hB (xv m d) ⟨(8 * wL L + t.val), row_lt L t.val ht⟩) := fun a13 v110 =>
      rowS_of_done Tile.rowQ (fun a o => Tile.pairQ (n := 50176) a o) (fun b o => Tile.pairQ (n := 49824) b o) Tile.tailQ
        (fun a b p hp s => Tile.rowQ_A a b p hp s) (fun a b p hp s => Tile.rowQ_B a b p hp s) (fun a b s => Tile.rowQ_T a b s)
        _ _ fP fP1 fP3 _ _ hP1 hP3 (fun j => writesP_apply d L fP3 ![1008] inb_S1024_S16_1008 _ j)
        (bridgeTQ d L v2 a13 v110 _ fS3 fQ3)
    have hR256 : (8 * wL L + t.val) < 256 := by omega
    have eCg : ∀ (fin : Vec F S1024 .f32), (slG (k1_off13 L t) (k1_off13_inb L t)).view.writes (Elt F) (gval m d L t.val) [⟨Rect.whole S1024, fin⟩]
        = fun j : S256x1024.Idx => if (j 0).val = (8 * wL L + t.val) then fin (ValueIdx.ix1 (j 1)) else gval m d L t.val j := fun fin =>
      (View.write_univ_eq_writes_whole _ _ [] _).symm.trans (write_slG (k1_off13 L t) (k1_off13_inb L t) ⟨(8 * wL L + t.val), hR256⟩ (off13_row L t) (gval m d L t.val) fin)
    have eCq : ∀ (fin : Vec F S1024 .f32), (slQ (k1_off13 L t) (k1_off13_inb L t)).view.writes (Elt F) (qval m d L t.val) [⟨Rect.whole S1024, fin⟩]
        = fun j : S256x1024.Idx => if (j 0).val = (8 * wL L + t.val) then fin (ValueIdx.ix1 (j 1)) else qval m d L t.val j := fun fin =>
      (View.write_univ_eq_writes_whole _ _ [] _).symm.trans (write_slQ (k1_off13 L t) (k1_off13_inb L t) ⟨(8 * wL L + t.val), hR256⟩ (off13_row L t) (qval m d L t.val) fin)
    have eG2 : ∀ c, (((slG (k1_off13 L t) (k1_off13_inb L t)).view.loc (thr d L) ↦[(slG (k1_off13 L t) (k1_off13_inb L t)).view.set]{fullShare} c : sProp 𝕄))
        = (gsLoc d ↦[rowO (8 * wL L + t.val)]{fullShare} c) := by
      intro c; rw [set_slG _ _ _ (off13_row L t)]
    have eQ2 : ∀ c, (((slQ (k1_off13 L t) (k1_off13_inb L t)).view.loc (thr d L) ↦[(slQ (k1_off13 L t) (k1_off13_inb L t)).view.set]{fullShare} c : sProp 𝕄))
        = (gsqLoc d ↦[rowO (8 * wL L + t.val)]{fullShare} c) := by
      intro c; rw [set_slQ _ _ _ (off13_row L t)]
    first
    | (rw [dif_pos hc, dif_pos hc])
    | (rw [dif_neg hc, dif_neg hc])
    isplitr; · iexact Hmw
    first
    | (isplitl [HFA]
       · iapply (flightA_canon m d L (k1_off7 L t) (k1_off7_inb L t hc1) _ _ (off7_row L t) _ _ rfl _)
         iexact HFA
       isplitl [HFB]
       · iapply (flightB_canon m d L (k1_off12 L t) (k1_off12_inb L t hc2) _ _ (off12_row L t) _ _ rfl _)
         iexact HFB)
    | (isplitl [HFA HA2]
       · isplitl [HFA]; · iexact HFA
         iexists _; iexact HA2
       isplitl [HFB HB3]
       · isplitl [HFB]; · iexact HFB
         iexists _; iexact HB3)
    isplitl [KxA2]; · iapply (Entails.of_eq (kept_eq _)); iexact KxA2
    isplitl [KxB2]; · iapply (Entails.of_eq (kept_eq _)); iexact KxB2
    isplitl [HO3]; · iexists _; iexact HO3
    isplitl [HP3]; · iexists _; iexact HP3
    isplitl [HS3]; · iexists _; iexact HS3
    isplitl [HQ3]; · iexists _; iexact HQ3
    isplitl [Hc0]; · iexact Hc0
    isplitl [Hc1]; · iexact Hc1
    isplitl [HgN' KgRest]
    · ihave HgN2 := (Entails.of_eq (eG2 _)) $$ HgN'
      ihave HgR := (Entails.of_eq (kept_eq _)) $$ KgRest
      ihave HgJ := (pointsTo_join_subset (ℓ := gsLoc d) hsubO) $$ [HgN2 HgR]
      · isplitl [HgN2]; · iexact HgN2
        iexact HgR
      iapply (Entails.of_eq (pointsTo_congr (ℓ := gsLoc d) (g := gval m d L (t.val + 1)) (fun j hj =>
        (congrFun (congrArg (fun c => (rowO (8 * wL L + t.val)).piecewise c (gval m d L t.val)) (eCg _)) j).trans
          (gval_step m d L t.val ht _ (hfinO _ _) j hj))))
      iexact HgJ
    isplitl [HqN' KqRest]
    · ihave HqN2 := (Entails.of_eq (eQ2 _)) $$ HqN'
      ihave HqR := (Entails.of_eq (kept_eq _)) $$ KqRest
      ihave HqJ := (pointsTo_join_subset (ℓ := gsqLoc d) hsubO) $$ [HqN2 HqR]
      · isplitl [HqN2]; · iexact HqN2
        iexact HqR
      iapply (Entails.of_eq (pointsTo_congr (ℓ := gsqLoc d) (g := qval m d L (t.val + 1)) (fun j hj =>
        (congrFun (congrArg (fun c => (rowO (8 * wL L + t.val)).piecewise c (qval m d L t.val)) (eCq _)) j).trans
          (qval_step m d L t.val ht _ (hfinP _ _) j hj))))
      iexact HqJ
    iexists _; isplitr
    pick_goal 2
    · iexact HOw
    · ipureintro
      intro p hp
      simp only [Finset.mem_insert] at hp
      rcases hp with rfl | rfl | rfl | rfl | hp
      · exact .inr rfl
      · exact .inr rfl
      · exact .inr rfl
      · exact .inr rfl
      · exact hW' p hp

end Row

end Cert.KernelIdeal.Pf

end
-- ==== Proof.TileObl.lean ====
import proofs.«207604_g45191645889005_cont_8to1c4_5_22_alg».proof.Proof.Pay
import proofs.«207604_g45191645889005_cont_8to1c4_5_22_alg».proof.Proof.TileSetup
import proofs.«207604_g45191645889005_cont_8to1c4_5_22_alg».proof.Proof.TileSets
import proofs.«207604_g45191645889005_cont_8to1c4_5_22_alg».proof.Proof.TileFun

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.Tile (gsOf gsqOf)

variable [FloatOps F]
variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

abbrev tileProg (L : grid1.Coords) : Prog (TpuEff nD τ sig (Elt F) Λ₀ (.scVector ((L 0).castLE hcore1) ((L 1).castLE hsub1))) PUnit :=
  cc1__sc_body L (Memref.whole main_arg0_scv) (Memref.isWhole_whole _) (Memref.whole main_v13_0_scv) (Memref.isWhole_whole _)
    (Memref.whole main_v13_1_scv) (Memref.isWhole_whole _) (Memref.whole cc1_scratch0) (Memref.isWhole_whole _)
    (Memref.whole cc1_scratch1) (Memref.isWhole_whole _) (Memref.whole cc1_scratch2) (Memref.isWhole_whole _)
    (Memref.whole cc1_scratch3) (Memref.isWhole_whole _) (Memref.whole cc1_scratch4) (Memref.isWhole_whole _)
    (Memref.whole cc1_scratch5) (Memref.isWhole_whole _) cc1_scratch6 cc1_scratch7 cc1_scoped0 cc1_scoped1

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X B C E Y : sProp 𝕄} : iprop(A ∗ X ∗ B ∗ C ∗ E ∗ Y) ⊢ iprop(A ∗ B ∗ C ∗ E ∗ Y) := by
  iintro ⟨HA, -, HB, HC, HE, HY⟩
  isplitl [HA]; · iexact HA
  isplitl [HB]; · iexact HB
  isplitl [HC]; · iexact HC
  isplitl [HE]; · iexact HE
  iexact HY

theorem tileObl_of
    (hbody : ∀ (d : Dev nD) (L : grid1.Coords) (O : CellTallies nD τ sig (HIx 1)) (W : Waits sig (HIx 1)), (∀ g, O g none = 0) →
      iprop(levAts (K (F := F)).L (K (F := F)).lev ∗ tileGo m d (cL L) (iL L) ∗ scopedBufs (thr d L) ∗ scopedSems0 (thr d L) ∗ owes (thr d L) O W)
        ⊢ wp frame (wpE (defs₀ (F := F)) 𝒱₀ (thr d L) none) Set.univ (tileProg (F := F) L)
            fun _ => iprop(tileTd gsOf gsqOf m d (cL L) (iL L) ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P gsOf gsqOf m) v₀ 0 := by
  intro d c i O W hO _ _
  simp only [P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((hbody d (coordsV ⟨_, hc.1⟩ ⟨_, hc.2⟩) O W hO).trans (wp_mono frame _ _ fun _ => obl_post))

end Cert.KernelIdeal.Pf

end
-- ==== Proof.TileBody.lean ====
import proofs.«207604_g45191645889005_cont_8to1c4_5_22_alg».proof.Proof.TileRow
import proofs.«207604_g45191645889005_cont_8to1c4_5_22_alg».proof.Proof.TileObl

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

omit [FloatOps F] in

theorem ownSems0_V (d : Dev nD) (L : grid1.Coords) :
    (ownSems0 (thr d L) : sProp 𝕄)
      = iprop(semVal (cellV d L cc1_scratch6) 0 ∗ semVal (cellV d L cc1_scratch7) 0 ∗ semVal (cellV d L cc1_scoped0) 0 ∗ semVal (cellV d L cc1_scoped1) 0
          ∗ bigSep (((((ownCells (thr d L)).erase (cellV d L cc1_scratch6)).erase (cellV d L cc1_scratch7)).erase (cellV d L cc1_scoped0)).erase (cellV d L cc1_scoped1)) fun g => semVal g 0) := by
  unfold SparseCore.Cfg.ownSems0
  rw [SparseCore.bigSep_erase' ((mem_ownCells (g := (cellV d L cc1_scratch6))).mpr ⟨rfl, by show (SemLoc.dma cc1_scratch6.sem : SemLoc sig).isScoped .scVector = true; decide⟩),
    SparseCore.bigSep_erase' (Finset.mem_erase.mpr ⟨(fun e => absurd (congrArg Prod.snd e) (show (SemLoc.dma cc1_scratch7.sem : SemLoc sig) ≠ SemLoc.dma cc1_scratch6.sem by decide)), (mem_ownCells (g := (cellV d L cc1_scratch7))).mpr ⟨rfl, by show (SemLoc.dma cc1_scratch7.sem : SemLoc sig).isScoped .scVector = true; decide⟩⟩),
    SparseCore.bigSep_erase' (Finset.mem_erase.mpr ⟨(fun e => absurd (congrArg Prod.snd e) (show (SemLoc.dma cc1_scoped0.sem : SemLoc sig) ≠ SemLoc.dma cc1_scratch7.sem by decide)), Finset.mem_erase.mpr ⟨(fun e => absurd (congrArg Prod.snd e) (show (SemLoc.dma cc1_scoped0.sem : SemLoc sig) ≠ SemLoc.dma cc1_scratch6.sem by decide)), (mem_ownCells (g := (cellV d L cc1_scoped0))).mpr ⟨rfl, by show (SemLoc.dma cc1_scoped0.sem : SemLoc sig).isScoped .scVector = true; decide⟩⟩⟩),
    SparseCore.bigSep_erase' (Finset.mem_erase.mpr ⟨(fun e => absurd (congrArg Prod.snd e) (show (SemLoc.dma cc1_scoped1.sem : SemLoc sig) ≠ SemLoc.dma cc1_scoped0.sem by decide)), Finset.mem_erase.mpr ⟨(fun e => absurd (congrArg Prod.snd e) (show (SemLoc.dma cc1_scoped1.sem : SemLoc sig) ≠ SemLoc.dma cc1_scratch7.sem by decide)), Finset.mem_erase.mpr ⟨(fun e => absurd (congrArg Prod.snd e) (show (SemLoc.dma cc1_scoped1.sem : SemLoc sig) ≠ SemLoc.dma cc1_scratch6.sem by decide)), (mem_ownCells (g := (cellV d L cc1_scoped1))).mpr ⟨rfl, by show (SemLoc.dma cc1_scoped1.sem : SemLoc sig).isScoped .scVector = true; decide⟩⟩⟩⟩)]

omit [FloatOps F] in

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

theorem trips1_eq' : Scf.trips k1_t1_loop.lb k1_t1_loop.ub k1_t1_loop.st = 8 := by decide

set_option maxHeartbeats 4000000 in
theorem tile_body (hF : (K (F := F)).Facts) (m : (ℓ : Loc nD τ sig) → Buf (Elt F) ℓ) (d : Dev nD) (L : grid1.Coords)
    (O : CellTallies nD τ sig (HIx 1)) (W : Waits sig (HIx 1)) (hO : ∀ g, O g none = 0) :
    (iprop(levAts (K (F := F)).L (K (F := F)).lev ∗ tileGo m d (cL L) (iL L) ∗ scopedBufs (thr d L) ∗ scopedSems0 (thr d L) ∗ owes (thr d L) O W) : sProp 𝕄)
      ⊢ wp frame (wpE (defs₀ (F := F)) 𝒱₀ (thr d L) none) Set.univ (tileProg (F := F) L)
          fun _ => iprop(tileTd Tile.gsOf Tile.gsqOf m d (cL L) (iL L) ∗ scopedBufs (thr d L) ∗ scopedSems0 (thr d L)
            ∗ ∃ W', ⌜∀ p ∈ W', p ∈ W ∨ p.2 = none⌝ ∗ owes (thr d L) O W') := by
  show _ ⊢ wp _ _ _ (cc1__sc_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1) _
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold tileGo tileTd
  iintro ⟨#Hlv, ⟨Hx, Hg, Hq⟩, ⟨⟨%fA, HA⟩, ⟨%fB, HB⟩, ⟨%fO, HO⟩, ⟨%fP, HP⟩, ⟨%fS, HS⟩, ⟨%fQ, HQ⟩, Hbufs⟩, ⟨Hs6, Hs7, Hc0, Hc1, Hsems⟩, HOw⟩
  ihave Hmw := ((K (F := F)).mayWaits_none (thr := thr d L) hO) $$ Hlv
  ihave HA' := (Entails.of_eq (pts_bA (F := F) d L _).symm) $$ HA
  ihave HB' := (Entails.of_eq (pts_bB (F := F) d L _).symm) $$ HB
  ihave HO' := (Entails.of_eq (pts_bO (F := F) d L _).symm) $$ HO
  ihave HP' := (Entails.of_eq (pts_bP (F := F) d L _).symm) $$ HP
  ihave HS' := (Entails.of_eq (pts_tS (F := F) d L _).symm) $$ HS
  ihave HQ' := (Entails.of_eq (pts_tQ (F := F) d L _).symm) $$ HQ
  have hw := wL_lt L

  have eX : (xLoc d ↦[rowsX (wL L)]{fullShare} m (xLoc d) : sProp 𝕄) = (xLoc d ↦[allA (wL L) ∪ allB (wL L)]{fullShare} m (xLoc d)) := by
    rw [allA_union_allB]
  ihave Hx1 := (Entails.of_eq eX) $$ Hx
  ihave Hx2 := ((pointsTo_union (ℓ := xLoc d) (disjoint_allA_allB (wL L))).1) $$ Hx1
  icases Hx2 with ⟨HxA, HxB⟩
  have hsA0 : colsA (8 * wL L + 0) ⊆ allA (wL L) := colsA_subset_allA (by omega) (by omega)
  have hsB0 : colsB (8 * wL L + 0) ⊆ allB (wL L) := colsB_subset_allB (by omega) (by omega)
  ihave HspA := ((pointsTo_split_subset (ℓ := xLoc d) hsA0).1) $$ HxA
  icases HspA with ⟨HxA0, HxAr⟩
  ihave HspB := ((pointsTo_split_subset (ℓ := xLoc d) hsB0).1) $$ HxB
  icases HspB with ⟨HxB0, HxBr⟩
  have eA0 : (((slA (k1_off1 L) (k1_off1_inb L)).view.loc (thr d L) ↦[(slA (k1_off1 L) (k1_off1_inb L)).view.set]{fullShare} m (xLoc d) : sProp 𝕄))
      = (xLoc d ↦[colsA (8 * wL L)]{fullShare} m (xLoc d)) := by
    rw [set_slA _ _ _ (off1_row L)]
  have eB0 : (((slB (k1_off2 L) (k1_off2_inb L)).view.loc (thr d L) ↦[(slB (k1_off2 L) (k1_off2_inb L)).view.set]{fullShare} m (xLoc d) : sProp 𝕄))
      = (xLoc d ↦[colsB (8 * wL L)]{fullShare} m (xLoc d)) := by
    rw [set_slB _ _ _ (off2_row L)]
  ihave HxA0' := (Entails.of_eq eA0.symm) $$ HxA0
  ihave HxB0' := (Entails.of_eq eB0.symm) $$ HxB0
  ihave KxA := (Entails.of_eq (kept_eq _).symm) $$ HxAr
  ihave KxB := (Entails.of_eq (kept_eq _).symm) $$ HxBr
  sl_exec (disch := decide)

  sl_for (invR m d L O W) $$ [Hmw Hs6 Hs7 KxA KxB HO' HP' HS' HQ' Hc0 Hc1 Hg Hq HOw]
  case region =>
    intro t acc
    exact rowStep m d L O W _ t acc
  · unfold invR pendA pendB
    rw [dif_pos (by omega : 0 < 8), dif_pos (by omega : 0 < 8)]
    isplitr; · iexact Hmw
    isplitl [Hs6]
    · iapply (flightA_canon m d L (k1_off1 L) (k1_off1_inb L) _ _ (off1_row L) _ _ rfl _)
      iexact Hs6
    isplitl [Hs7]
    · iapply (flightB_canon m d L (k1_off2 L) (k1_off2_inb L) _ _ (off2_row L) _ _ rfl _)
      iexact Hs7
    isplitl [KxA]; · iapply (Entails.of_eq (kept_eq _)); iexact KxA
    isplitl [KxB]; · iapply (Entails.of_eq (kept_eq _)); iexact KxB
    isplitl [HO']; · iexists _; iexact HO'
    isplitl [HP']; · iexists _; iexact HP'
    isplitl [HS']; · iexists _; iexact HS'
    isplitl [HQ']; · iexists _; iexact HQ'
    isplitl [Hc0]; · iexact Hc0
    isplitl [Hc1]; · iexact Hc1
    isplitl [Hg]
    · iapply (Entails.of_eq (pointsTo_congr (ℓ := gsLoc d) (g := gval m d L 0) (fun j hj => by
        have := (mem_rowsO.mp hj).1
        show m (gsLoc d) j = if (j 0).val < 8 * wL L + 0 then Tile.gsOf (xv m d) j else m (gsLoc d) j
        rw [if_neg (by omega)])))
      iexact Hg
    isplitl [Hq]
    · iapply (Entails.of_eq (pointsTo_congr (ℓ := gsqLoc d) (g := qval m d L 0) (fun j hj => by
        have := (mem_rowsO.mp hj).1
        show m (gsqLoc d) j = if (j 0).val < 8 * wL L + 0 then Tile.gsqOf (xv m d) j else m (gsqLoc d) j
        rw [if_neg (by omega)])))
      iexact Hq
    iexists W; isplitr
    · ipureintro; exact fun p hp => .inl hp
    · iexact HOw
  iintro %acc HI
  rw [trips1_eq']
  unfold invR pendA pendB
  rw [dif_neg (by omega : ¬ 8 < 8), dif_neg (by omega : ¬ 8 < 8)]
  icases HI with ⟨-, ⟨Hs6, %fA', HA⟩, ⟨Hs7, %fB', HB⟩, HxA, HxB, ⟨%fO', HO⟩, ⟨%fP', HP⟩, ⟨%fS', HS⟩, ⟨%fQ', HQ⟩, Hc0, Hc1, Hg, Hq, %W', %hW', HOw⟩
  sl_step

  have eA8 : allA (wL L) \ colsA (8 * wL L + 8) = allA (wL L) := allA_sdiff_colsA rfl
  have eB8 : allB (wL L) \ colsB (8 * wL L + 8) = allB (wL L) := allB_sdiff_colsB rfl
  isplitl [HxA HxB Hg Hq]
  · isplitl [HxA HxB]
    · ihave HxA' := (Entails.of_eq (congrArg (fun S => (xLoc d ↦[S]{fullShare} m (xLoc d) : sProp 𝕄)) eA8)) $$ HxA
      ihave HxB' := (Entails.of_eq (congrArg (fun S => (xLoc d ↦[S]{fullShare} m (xLoc d) : sProp 𝕄)) eB8)) $$ HxB
      ihave Hx := ((pointsTo_union (ℓ := xLoc d) (disjoint_allA_allB (wL L))).2) $$ [HxA' HxB']
      · isplitl [HxA']; · iexact HxA'
        iexact HxB'
      iapply (Entails.of_eq eX.symm); iexact Hx
    isplitl [Hg]
    · iapply (Entails.of_eq (pointsTo_congr (ℓ := gsLoc d) (g := Tile.gsOf (m (xLoc d))) (fun j hj => by
        have := (mem_rowsO.mp hj).2
        show (if (j 0).val < 8 * wL L + 8 then Tile.gsOf (xv m d) j else m (gsLoc d) j) = _
        rw [if_pos (by omega)])))
      iexact Hg
    · iapply (Entails.of_eq (pointsTo_congr (ℓ := gsqLoc d) (g := Tile.gsqOf (m (xLoc d))) (fun j hj => by
        have := (mem_rowsO.mp hj).2
        show (if (j 0).val < 8 * wL L + 8 then Tile.gsqOf (xv m d) j else m (gsqLoc d) j) = _
        rw [if_pos (by omega)])))
      iexact Hq
  isplitl [HA HB HO HP HS HQ Hbufs]
  · isplitl [HA]; · iexists _; iexact HA
    isplitl [HB]; · iexists _; iexact HB
    isplitl [HO]; · iexists _; iexact HO
    isplitl [HP]; · iexists _; iexact HP
    isplitl [HS]; · iexists _; iexact HS
    isplitl [HQ]; · iexists _; iexact HQ
    iexact Hbufs
  isplitl [Hs6 Hs7 Hc0 Hc1 Hsems]
  · isplitl [Hs6]; · iexact Hs6
    isplitl [Hs7]; · iexact Hs7
    isplitl [Hc0]; · iexact Hc0
    isplitl [Hc1]; · iexact Hc1
    iexact Hsems
  iexists W'; isplitr
  · ipureintro; exact hW'
  · iexact HOw

/-- The launch theorem's obligation for the one vector-subcore kernel, from the tile's body. -/
theorem tileObl_closed (m : (ℓ : Loc nD τ sig) → Buf (Elt F) ℓ) :
    (K (F := F)).TileObl (D (F := F)) 𝒱 (P Tile.gsOf Tile.gsqOf m) v₀ 0 :=
  tileObl_of m (fun d L O W hO => tile_body facts m d L O W hO)

end Cert.KernelIdeal.Pf

end
-- ==== Proof.B.Ghost.lean ====
import proofs.«207604_g45191645889005_cont_8to1c4_5_22_alg».proof.Proof.Gen.Kernel
import Idealize.ShloMosaic.Lib.SparseCore.Launch
import Idealize.ShloMosaic.Lib.Pipeline.Kit
import Idealize.ShloMosaic.Lib.Transfers

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

abbrev 𝕄' (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

abbrev ER : Emb (UP × Counters) (MT nD τ sig (HIx 1) (Elt F) ℕ UU ℕ) := embR

def EP : Emb UP (MT nD τ sig (HIx 1) (Elt F) ℕ UU ℕ) := (Emb.inl : Emb UP (UP × Counters)).trans ER

abbrev EC : UEmb Counters (MT nD τ sig (HIx 1) (Elt F) ℕ UU ℕ) := countersEmb

instance EH_landsIn : (EH : Emb UH 𝕄).LandsIn (upEmb : UEmb _ 𝕄) := by unfold EH; infer_instance
instance EP_landsIn : (EP : Emb UP 𝕄).LandsIn (upEmb : UEmb _ 𝕄) := by unfold EP ER; infer_instance

theorem ownU_triple (a : UH) (b : UP) (c : Counters) :
    (ownU ((a, (b, c)) : UU) : sProp 𝕄)
      ⊢ iprop(BI.own (EH a) ∗ BI.own (EP b) ∗ BI.own (((Emb.inr : Emb Counters (UP × Counters)).trans ER) c)) := by
  iintro Hu
  ihave H := (ownU_pair a (b, c)) $$ Hu
  icases H with ⟨HH, HR⟩
  isplitl [HH]; · iexact HH
  iapply (own_pair_emb (ER (F := F)) b c); iexact HR

abbrev xLoc (d : Dev nD) : Loc nD τ sig := (SparseCore.T d).loc main_arg0
abbrev gsLoc (d : Dev nD) : Loc nD τ sig := (SparseCore.T d).loc main_v13_0
abbrev gsqLoc (d : Dev nD) : Loc nD τ sig := (SparseCore.T d).loc main_v13_1

end Cert.Kernel.Pf

end
-- ==== Proof.B.MainHost.lean ====
import proofs.«207604_g45191645889005_cont_8to1c4_5_22_alg».proof.Proof.B.Ghost
import Idealize.ShloMosaic.Lib.StableHlo.Run
import Idealize.ShloMosaic.Lib.Pipeline.Regions

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

def hostOps : List (HloOp τ sig (Elt F)) :=
  [StableHlo.nullary main_v0 (iotaInDim S12544x128 32 0),
   StableHlo.nullary main_v1 (iotaInDim S12544x128 32 1),
   StableHlo.nullary main_c (constantI S_ 32 98#32),
   StableHlo.unary main_c main_v2 (broadcastInDim S12544x128 ![] bcast_S_S12544x128 : (⟨S_, .i32⟩ : BufTy).Contents (Elt F) → (⟨S12544x128, .i32⟩ : BufTy).Contents (Elt F)),
   StableHlo.binary main_v1 main_v2 main_v3 (muli : (⟨S12544x128, .i32⟩ : BufTy).Contents (Elt F) → (⟨S12544x128, .i32⟩ : BufTy).Contents (Elt F) → (⟨S12544x128, .i32⟩ : BufTy).Contents (Elt F)),
   StableHlo.binary main_v0 main_v3 main_v4 (cmpi .sge : (⟨S12544x128, .i32⟩ : BufTy).Contents (Elt F) → (⟨S12544x128, .i32⟩ : BufTy).Contents (Elt F) → (⟨S12544x128, .i1⟩ : BufTy).Contents (Elt F)),
   StableHlo.nullary main_c_0 (constantI S_ 32 1#32),
   StableHlo.unary main_c_0 main_v5 (broadcastInDim S12544x128 ![] bcast_S_S12544x128 : (⟨S_, .i32⟩ : BufTy).Contents (Elt F) → (⟨S12544x128, .i32⟩ : BufTy).Contents (Elt F)),
   StableHlo.binary main_v1 main_v5 main_v6 (addi : (⟨S12544x128, .i32⟩ : BufTy).Contents (Elt F) → (⟨S12544x128, .i32⟩ : BufTy).Contents (Elt F) → (⟨S12544x128, .i32⟩ : BufTy).Contents (Elt F)),
   StableHlo.nullary main_c_1 (constantI S_ 32 98#32),
   StableHlo.unary main_c_1 main_v7 (broadcastInDim S12544x128 ![] bcast_S_S12544x128 : (⟨S_, .i32⟩ : BufTy).Contents (Elt F) → (⟨S12544x128, .i32⟩ : BufTy).Contents (Elt F)),
   StableHlo.binary main_v6 main_v7 main_v8 (muli : (⟨S12544x128, .i32⟩ : BufTy).Contents (Elt F) → (⟨S12544x128, .i32⟩ : BufTy).Contents (Elt F) → (⟨S12544x128, .i32⟩ : BufTy).Contents (Elt F)),
   StableHlo.binary main_v0 main_v8 main_v9 (cmpi .slt : (⟨S12544x128, .i32⟩ : BufTy).Contents (Elt F) → (⟨S12544x128, .i32⟩ : BufTy).Contents (Elt F) → (⟨S12544x128, .i1⟩ : BufTy).Contents (Elt F)),
   StableHlo.binary main_v4 main_v9 main_v10 (andi : (⟨S12544x128, .i1⟩ : BufTy).Contents (Elt F) → (⟨S12544x128, .i1⟩ : BufTy).Contents (Elt F) → (⟨S12544x128, .i1⟩ : BufTy).Contents (Elt F)),
   StableHlo.unary main_v10 main_v11 (uitofp .bf16 : (⟨S12544x128, .i1⟩ : BufTy).Contents (Elt F) → (⟨S12544x128, .bf16⟩ : BufTy).Contents (Elt F))]

def mainTail (d : Dev nD) : Prog (TpuEff nD τ sig (Elt F) (SparseCore.Sig (ΛP (F := F)) 1) .tc) PUnit := do
  Prog.lift (.customCall (SparseCore.inner (Pipeline.entry 0)) ())
  (sc (F := F)).run d 0
  Prog.lift (.customCall (SparseCore.inner (Pipeline.entry 1)) ())
  pure ⟨⟩

theorem main_eq (d : Dev nD) : main (F := F) d = (StableHlo.seq (hostOps (F := F)) >>= fun _ => mainTail d) := by
  chain_rfl

def selVal : Vec F S12544x128 .bf16 :=
  (uitofp .bf16 (andi (cmpi .sge (iotaInDim S12544x128 32 0) (muli (iotaInDim S12544x128 32 1) (broadcastInDim S12544x128 ![] bcast_S_S12544x128 (constantI S_ 32 98#32))))
    (cmpi .slt (iotaInDim S12544x128 32 0) (muli (addi (iotaInDim S12544x128 32 1) (broadcastInDim S12544x128 ![] bcast_S_S12544x128 (constantI S_ 32 1#32))) (broadcastInDim S12544x128 ![] bcast_S_S12544x128 (constantI S_ 32 98#32))))) : FVec F S12544x128 .bf16)

theorem after_sel (W : Valuation τ sig (Elt F)) :
    StableHlo.after (hostOps (F := F)) W (Proc.devRef .tc main_v11) = (selVal (F := F) : Vec F S12544x128 .bf16) := by
  unfold hostOps
  after_results
  rfl

theorem after_arg0 (W : Valuation τ sig (Elt F)) :
    StableHlo.after (hostOps (F := F)) W (Proc.devRef .tc main_arg0) = W (Proc.devRef .tc main_arg0) := by
  unfold hostOps
  after_results

end Cert.Kernel.Pf

end
-- ==== Proof.B.TilePay.lean ====
import proofs.«207604_g45191645889005_cont_8to1c4_5_22_alg».proof.Proof.B.Ghost

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The kernel's three arrays and six scratch buffers, whole. -/
scoped notation "aX" => (Memref.whole Cert.Kernel.main_arg0_scv : Memref Cert.Kernel.sig Kind.scVector Space.hbm Cert.Kernel.S1024x100000 EltTy.f32)
scoped notation "aG" => (Memref.whole Cert.Kernel.main_v13_0_scv : Memref Cert.Kernel.sig Kind.scVector Space.hbm Cert.Kernel.S256x1024 EltTy.f32)
scoped notation "aQ" => (Memref.whole Cert.Kernel.main_v13_1_scv : Memref Cert.Kernel.sig Kind.scVector Space.hbm Cert.Kernel.S256x1024 EltTy.f32)
scoped notation "bA" => (Memref.whole Cert.Kernel.cc1_scratch0 : Memref Cert.Kernel.sig Kind.scVector Space.vmem Cert.Kernel.S50176 EltTy.f32)
scoped notation "bB" => (Memref.whole Cert.Kernel.cc1_scratch1 : Memref Cert.Kernel.sig Kind.scVector Space.vmem Cert.Kernel.S49824 EltTy.f32)
scoped notation "bO" => (Memref.whole Cert.Kernel.cc1_scratch2 : Memref Cert.Kernel.sig Kind.scVector Space.vmem Cert.Kernel.S1024 EltTy.f32)
scoped notation "bP" => (Memref.whole Cert.Kernel.cc1_scratch3 : Memref Cert.Kernel.sig Kind.scVector Space.vmem Cert.Kernel.S1024 EltTy.f32)
scoped notation "tS" => (Memref.whole Cert.Kernel.cc1_scratch4 : Memref Cert.Kernel.sig Kind.scVector Space.vmem Cert.Kernel.S272 EltTy.f32)
scoped notation "tQ" => (Memref.whole Cert.Kernel.cc1_scratch5 : Memref Cert.Kernel.sig Kind.scVector Space.vmem Cert.Kernel.S272 EltTy.f32)

def wOf (c : Fin 2) (i : Fin 16) : ℕ := 2 * i.val + c.val

theorem wOf_lt (c : Fin 2) (i : Fin 16) : wOf c i < 32 := by unfold wOf; omega

def rowsX (w : ℕ) : Finset S1024x100000.Idx := Finset.univ.filter fun j => 8 * w ≤ (j 0).val ∧ (j 0).val < 8 * w + 8

def rowsO (w : ℕ) : Finset S256x1024.Idx := Finset.univ.filter fun j => 8 * w ≤ (j 0).val ∧ (j 0).val < 8 * w + 8

theorem mem_rowsX {w : ℕ} {j : S1024x100000.Idx} : j ∈ rowsX w ↔ 8 * w ≤ (j 0).val ∧ (j 0).val < 8 * w + 8 := by
  unfold rowsX; rw [Finset.mem_filter]; exact ⟨fun h => h.2, fun h => ⟨Finset.mem_univ _, h⟩⟩
theorem mem_rowsO {w : ℕ} {j : S256x1024.Idx} : j ∈ rowsO w ↔ 8 * w ≤ (j 0).val ∧ (j 0).val < 8 * w + 8 := by
  unfold rowsO; rw [Finset.mem_filter]; exact ⟨fun h => h.2, fun h => ⟨Finset.mem_univ _, h⟩⟩

def tileGo (m : (ℓ : Loc nD τ sig) → Buf (Elt F) ℓ) (d : Dev nD) (c : Fin 2) (i : Fin 16) : sProp 𝕄 :=
  iprop((xLoc d ↦[rowsX (wOf c i)]{fullShare} m (xLoc d)) ∗ (gsLoc d ↦[rowsO (wOf c i)]{fullShare} m (gsLoc d))
    ∗ (gsqLoc d ↦[rowsO (wOf c i)]{fullShare} m (gsqLoc d)))

def tileTd (gs gsq : Vec F S1024x100000 .f32 → Vec F S256x1024 .f32) (m : (ℓ : Loc nD τ sig) → Buf (Elt F) ℓ) (d : Dev nD) (c : Fin 2) (i : Fin 16) :
    sProp 𝕄 :=
  iprop((xLoc d ↦[rowsX (wOf c i)]{fullShare} m (xLoc d)) ∗ (gsLoc d ↦[rowsO (wOf c i)]{fullShare} gs (m (xLoc d)))
    ∗ (gsqLoc d ↦[rowsO (wOf c i)]{fullShare} gsq (m (xLoc d))))

instance tileGo_storable (m : (ℓ : Loc nD τ sig) → Buf (Elt F) ℓ) (d : Dev nD) (c : Fin 2) (i : Fin 16) :
    BI.Storable (upEmb : UEmb _ 𝕄) (tileGo m d c i) := by
  unfold tileGo; infer_instance
instance tileTd_storable (gs gsq : Vec F S1024x100000 .f32 → Vec F S256x1024 .f32) (m : (ℓ : Loc nD τ sig) → Buf (Elt F) ℓ) (d : Dev nD)
    (c : Fin 2) (i : Fin 16) : BI.Storable (upEmb : UEmb _ 𝕄) (tileTd gs gsq m d c i) := by
  unfold tileTd; infer_instance

end Cert.Kernel.Pf

end
-- ==== Proof.B.Pay.lean ====
import proofs.«207604_g45191645889005_cont_8to1c4_5_22_alg».proof.Proof.B.TilePay

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (gs gsq : Vec F S1024x100000 .f32 → Vec F S256x1024 .f32) (m : (ℓ : Loc nD τ sig) → Buf (Elt F) ℓ)

theorem nCore_eq (q : Fin 1) : (K (F := F)).nCore q = 2 := match q with | 0 => rfl
theorem nSub_eq (q : Fin 1) : (K (F := F)).nSub q = 16 := match q with | 0 => rfl

def coreX (c : Fin 2) : Finset S1024x100000.Idx := (Finset.univ : Finset (Fin 16)).biUnion fun i => rowsX (wOf c i)
def coreO (c : Fin 2) : Finset S256x1024.Idx := (Finset.univ : Finset (Fin 16)).biUnion fun i => rowsO (wOf c i)

def coreSt (d : Dev nD) (c : Fin 2) : sProp 𝕄 :=
  iprop((xLoc d ↦[coreX c]{fullShare} m (xLoc d)) ∗ (gsLoc d ↦[coreO c]{fullShare} m (gsLoc d)) ∗ (gsqLoc d ↦[coreO c]{fullShare} m (gsqLoc d)))

def coreDn (d : Dev nD) (c : Fin 2) : sProp 𝕄 :=
  iprop((xLoc d ↦[coreX c]{fullShare} m (xLoc d)) ∗ (gsLoc d ↦[coreO c]{fullShare} gs (m (xLoc d))) ∗ (gsqLoc d ↦[coreO c]{fullShare} gsq (m (xLoc d))))

def P : (K (F := F)).Pay (nD := nD) (Val := Elt F) (Name := ℕ) (U := UU) where
  st := fun q d c => coreSt m d (Fin.cast (nCore_eq q) c)
  dn := fun q d c => coreDn gs gsq m d (Fin.cast (nCore_eq q) c)
  go := fun q d c i => tileGo m d (Fin.cast (nCore_eq q) c) (Fin.cast (nSub_eq q) i)
  td := fun q d c i => tileTd gs gsq m d (Fin.cast (nCore_eq q) c) (Fin.cast (nSub_eq q) i)
  x := fun _ _ => iprop(emp)

theorem P_st (q : Fin 1) (d : Dev nD) (c : Fin ((K (F := F)).nCore q)) : (P gs gsq m).st q d c = coreSt m d (Fin.cast (nCore_eq q) c) := rfl
theorem P_dn (q : Fin 1) (d : Dev nD) (c : Fin ((K (F := F)).nCore q)) : (P gs gsq m).dn q d c = coreDn gs gsq m d (Fin.cast (nCore_eq q) c) := rfl
theorem P_go (q : Fin 1) (d : Dev nD) (c : Fin ((K (F := F)).nCore q)) (i : Fin ((K (F := F)).nSub q)) :
    (P gs gsq m).go q d c i = tileGo m d (Fin.cast (nCore_eq q) c) (Fin.cast (nSub_eq q) i) := rfl
theorem P_td (q : Fin 1) (d : Dev nD) (c : Fin ((K (F := F)).nCore q)) (i : Fin ((K (F := F)).nSub q)) :
    (P gs gsq m).td q d c i = tileTd gs gsq m d (Fin.cast (nCore_eq q) c) (Fin.cast (nSub_eq q) i) := rfl
theorem P_x (q : Fin 1) (thr : Thread nD τ) : (P gs gsq m).x q thr = iprop(emp) := rfl
theorem P_ox : (P gs gsq m).ox = fun _ _ => 0 := rfl

instance P_storable : (P (F := F) gs gsq m).IsStorable where
  st q d c := by rw [P_st]; unfold coreSt; infer_instance
  dn q d c := by rw [P_dn]; unfold coreDn; infer_instance
  go q d c i := by rw [P_go]; infer_instance
  td q d c i := by rw [P_td]; infer_instance

theorem rowsX_disjoint {w w' : ℕ} (h : w ≠ w') : Disjoint (rowsX w) (rowsX w') :=
  Finset.disjoint_left.mpr fun i hi hi' => by
    rw [mem_rowsX] at hi hi'; omega
theorem rowsO_disjoint {w w' : ℕ} (h : w ≠ w') : Disjoint (rowsO w) (rowsO w') :=
  Finset.disjoint_left.mpr fun i hi hi' => by
    rw [mem_rowsO] at hi hi'; omega

theorem wOf_inj {c c' : Fin 2} {i i' : Fin 16} (h : wOf c i = wOf c' i') : c = c' ∧ i = i' := by
  unfold wOf at h; exact ⟨Fin.ext (by omega), Fin.ext (by omega)⟩

theorem tilesX_disjoint (c : Fin 2) : ∀ i ∈ (Finset.univ : Finset (Fin 16)), ∀ j ∈ (Finset.univ : Finset (Fin 16)), i ≠ j →
    Disjoint (rowsX (wOf c i)) (rowsX (wOf c j)) :=
  fun _ _ _ _ h => rowsX_disjoint fun e => h (wOf_inj e).2
theorem tilesO_disjoint (c : Fin 2) : ∀ i ∈ (Finset.univ : Finset (Fin 16)), ∀ j ∈ (Finset.univ : Finset (Fin 16)), i ≠ j →
    Disjoint (rowsO (wOf c i)) (rowsO (wOf c j)) :=
  fun _ _ _ _ h => rowsO_disjoint fun e => h (wOf_inj e).2

theorem coresX_disjoint : ∀ c ∈ (Finset.univ : Finset (Fin 2)), ∀ c' ∈ (Finset.univ : Finset (Fin 2)), c ≠ c' → Disjoint (coreX c) (coreX c') :=
  fun c _ c' _ h => by
    unfold coreX
    rw [Finset.disjoint_biUnion_left]; intro i _
    rw [Finset.disjoint_biUnion_right]; intro j _
    exact rowsX_disjoint fun e => h (wOf_inj e).1
theorem coresO_disjoint : ∀ c ∈ (Finset.univ : Finset (Fin 2)), ∀ c' ∈ (Finset.univ : Finset (Fin 2)), c ≠ c' → Disjoint (coreO c) (coreO c') :=
  fun c _ c' _ h => by
    unfold coreO
    rw [Finset.disjoint_biUnion_left]; intro i _
    rw [Finset.disjoint_biUnion_right]; intro j _
    exact rowsO_disjoint fun e => h (wOf_inj e).1

def lowX : Finset S1024x100000.Idx := Finset.univ.filter fun i => (i 0).val < 256

theorem mem_lowX {i : S1024x100000.Idx} : i ∈ lowX ↔ (i 0).val < 256 := by
  unfold lowX; rw [Finset.mem_filter]; exact ⟨fun h => h.2, fun h => ⟨Finset.mem_univ _, h⟩⟩

theorem cores_X : (Finset.univ : Finset (Fin 2)).biUnion coreX = lowX := by
  ext i
  simp only [coreX, mem_lowX, Finset.mem_biUnion, Finset.mem_univ, true_and, mem_rowsX, wOf]
  constructor
  · rintro ⟨c, j, h⟩; omega
  · intro h
    exact ⟨⟨((i 0).val / 8) % 2, by omega⟩, ⟨(i 0).val / 16, by omega⟩, by dsimp only; omega⟩

theorem cores_O : (Finset.univ : Finset (Fin 2)).biUnion coreO = Finset.univ := by
  ext i
  have hi : (i 0).val < 256 := (i 0).isLt
  simp only [coreO, Finset.mem_biUnion, Finset.mem_univ, true_and, mem_rowsO, wOf, iff_true]
  exact ⟨⟨((i 0).val / 8) % 2, by omega⟩, ⟨(i 0).val / 16, by omega⟩, by dsimp only; omega⟩

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

theorem coreSt_tiles (d : Dev nD) (c : Fin 2) : coreSt m d c = bigSep Finset.univ fun i : Fin 16 => tileGo m d c i := by
  unfold coreSt tileGo coreX coreO
  rw [pointsTo_biUnion Finset.univ (ℓ := xLoc d) _ (tilesX_disjoint c), pointsTo_biUnion Finset.univ (ℓ := gsLoc d) _ (tilesO_disjoint c),
    pointsTo_biUnion Finset.univ (ℓ := gsqLoc d) _ (tilesO_disjoint c), bigSep_sep', bigSep_sep']
theorem coreDn_tiles (d : Dev nD) (c : Fin 2) : coreDn gs gsq m d c = bigSep Finset.univ fun i : Fin 16 => tileTd gs gsq m d c i := by
  unfold coreDn tileTd coreX coreO
  rw [pointsTo_biUnion Finset.univ (ℓ := xLoc d) _ (tilesX_disjoint c), pointsTo_biUnion Finset.univ (ℓ := gsLoc d) _ (tilesO_disjoint c),
    pointsTo_biUnion Finset.univ (ℓ := gsqLoc d) _ (tilesO_disjoint c), bigSep_sep', bigSep_sep']

theorem vecSplit : (K (F := F)).VecSplit' (P gs gsq m) 0 := by
  intro d c
  simp only [P_st, P_dn, P_go, P_td]
  rw [bigSep_tasks (F := F) (fun i => tileGo m d (Fin.cast (nCore_eq 0) c) i), bigSep_tasks (F := F) (fun i => tileTd gs gsq m d (Fin.cast (nCore_eq 0) c) i),
    coreSt_tiles, coreDn_tiles]
  iintro H; imodintro
  isplitl [H]; · iexact H
  iintro H; iexact H

theorem st_all (d : Dev nD) :
    (bigSep Finset.univ fun c : Fin ((K (F := F)).nCore 0) => (P gs gsq m).st 0 d c)
      = iprop((xLoc d ↦[lowX]{fullShare} m (xLoc d)) ∗ (gsLoc d ↦{fullShare} m (gsLoc d)) ∗ (gsqLoc d ↦{fullShare} m (gsqLoc d))) := by
  simp only [P_st]
  rw [bigSep_cores (F := F) (fun c => coreSt m d c)]
  unfold coreSt
  rw [bigSep_sep', bigSep_sep', ← pointsTo_biUnion Finset.univ (ℓ := xLoc d) coreX coresX_disjoint, ← pointsTo_biUnion Finset.univ (ℓ := gsLoc d) coreO coresO_disjoint,
    ← pointsTo_biUnion Finset.univ (ℓ := gsqLoc d) coreO coresO_disjoint, cores_X, cores_O]
theorem dn_all (d : Dev nD) :
    (bigSep Finset.univ fun c : Fin ((K (F := F)).nCore 0) => (P gs gsq m).dn 0 d c)
      = iprop((xLoc d ↦[lowX]{fullShare} m (xLoc d)) ∗ (gsLoc d ↦{fullShare} gs (m (xLoc d))) ∗ (gsqLoc d ↦{fullShare} gsq (m (xLoc d)))) := by
  simp only [P_dn]
  rw [bigSep_cores (F := F) (fun c => coreDn gs gsq m d c)]
  unfold coreDn
  rw [bigSep_sep', bigSep_sep', ← pointsTo_biUnion Finset.univ (ℓ := xLoc d) coreX coresX_disjoint, ← pointsTo_biUnion Finset.univ (ℓ := gsLoc d) coreO coresO_disjoint,
    ← pointsTo_biUnion Finset.univ (ℓ := gsqLoc d) coreO coresO_disjoint, cores_X, cores_O]

theorem x_rows (d : Dev nD) (f : Buf (Elt F) (xLoc d)) :
    (xLoc d ↦{fullShare} f : sProp 𝕄) ⊣⊢ iprop((xLoc d ↦[lowX]{fullShare} f) ∗ xLoc d ↦[Finset.univ \ lowX]{fullShare} f) :=
  pointsTo_split_subset (Finset.subset_univ _)

end Cert.Kernel.Pf

end
-- ==== Proof.B.LaunchElem.lean ====
import proofs.«207604_g45191645889005_cont_8to1c4_5_22_alg».proof.Proof.B.Pay
import proofs.«207604_g45191645889005_cont_8to1c4_5_22_alg».proof.Proof.Gen.Kernel.Launch
import Idealize.ShloMosaic.Lib.Pipeline.Sound
import Idealize.ShloMosaic.Lib.Pipeline.Regions

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev outLoc (d : Dev nD) : Loc nD τ sig := (SparseCore.T d).loc main_v14

variable (gs gsq : Vec F S1024x100000 .f32 → Vec F S256x1024 .f32) (r : (d : Dev nD) → Buf (Elt F) (outLoc d))
variable (m : (ℓ : Loc nD τ sig) → Buf (Elt F) ℓ) (ρ : Dev nD → PrngReg)

abbrev adm : (p : Fin 2) → (pcfgs (F := F) p).Adm := fun p => (cfgs p).toPCfg_adm

theorem phinj : Function.Injective (Pipeline.cellOf (nD := nD) (τ := τ) (Pipeline.pin (pcfgs (F := F)) adm)) := cellOf_inj

abbrev pipeGhost (p : Fin 2) (d : Dev nD) : sProp 𝕄 :=
  iprop(Pipeline.cellsGhost (Pipeline.pin (pcfgs (F := F)) adm) EP p d ∗ Pipeline.toksInit (Pipeline.pin (pcfgs (F := F)) adm) EP p d)

def G (d : Dev nD) : sProp 𝕄 := iprop(pipeGhost (F := F) 0 d ∗ pipeGhost (F := F) 1 d)

theorem G_eq (d : Dev nD) : G (F := F) d = iprop(pipeGhost (F := F) 0 d ∗ pipeGhost (F := F) 1 d) := rfl

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem bigSep_emp' {I : Type} (s : Finset I) : (bigSep s fun _ => iprop(emp)) = (iprop(emp) : sProp 𝕄) := bigSep_emp_const s

def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

theorem deal4 (A0 A1 B0 B1 : sProp 𝕄) : iprop((A0 ∗ A1) ∗ B0 ∗ B1) ⊢ iprop((A0 ∗ B0) ∗ (A1 ∗ B1)) := by
  iintro ⟨⟨Hc0, Hc1⟩, Ht0, Ht1⟩
  isplitl [Hc0 Ht0]
  · isplitl [Hc0] <;> iassumption
  · isplitl [Hc1] <;> iassumption

theorem ghost_deal :
    iprop((bigSep Finset.univ fun c : Dev nD => bigSep Finset.univ fun p : Fin 2 => (Pipeline.cellsGhost (Pipeline.pin (pcfgs (F := F)) adm) EP p c : sProp 𝕄))
        ∗ (bigSep Finset.univ fun c : Dev nD => bigSep Finset.univ fun p : Fin 2 => (Pipeline.toksInit (Pipeline.pin (pcfgs (F := F)) adm) EP p c : sProp 𝕄)))
      ⊢ bigSep Finset.univ fun d : Dev nD => G (F := F) d := by
  rw [← bigSep_sep']
  refine bigSep_mono fun d _ => ?_
  rw [bigSep_fin2, bigSep_fin2, G_eq]
  exact deal4 _ _ _ _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P gs gsq m).x q thr) := by
  unfold u₀
  iintro Hu
  ihave H := (ownU_triple _ _ _) $$ Hu
  icases H with ⟨HH, HP, -⟩
  imod (Pipeline.fund_ghost (Pipeline.pin (pcfgs (F := F)) adm) EP phinj) $$ HP with HG
  imodintro
  isplitl [HH]; · iexact HH
  isplitl [HG]; · iapply ghost_deal; iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

theorem hu₀' : iprop(ownU (u₀ (F := F)) ∗ (P gs gsq m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P gs gsq m).x q thr) :=
  sep_elim_left.trans (hu₀ gs gsq m)

abbrev FIN (d : Dev nD) : sProp 𝕄 := iprop((xLoc d ↦{fullShare} m (xLoc d)) ∗ outLoc d ↦{fullShare} r d)

def fq (d : Dev nD) (s' : Phys nD τ sig (Elt F)) : Prop := s'.mem.mem (xLoc d) = m (xLoc d) ∧ s'.mem.mem (outLoc d) = r d

theorem hfin (d : Dev nD) (s' : Phys nD τ sig (Elt F)) : iprop(FIN r m d ∗ SI s') ⊢ (⌜fq r m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := outLoc d) (I := Finset.univ) (q := fullShare) (f := r d)) $$ [HSI Ho]
  · isplitl [HSI] <;> iassumption
  icases H with %h2
  ipureintro; exact ⟨funext fun i => h1 i (Finset.mem_univ i), funext fun i => h2 i (Finset.mem_univ i)⟩

def QC : PUnit × MemSt nD τ sig (Elt F) → Prop := fun rr => ∀ c : Dev nD, rr.2.mem (xLoc c) = m (xLoc c) ∧ rr.2.mem (outLoc c) = r c

variable [FloatOps F]

theorem run_of [∀ e, Nonempty (Elt F e)]
    (htile : (K (F := F)).TileObl (D (F := F)) 𝒱 (P gs gsq m) v₀ 0)
    (hmain : ∀ (κ : GSem nD τ sig → ℕ) (d : Dev nD),
      iprop((K (F := F)).ctx EH (P gs gsq m) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN r m d)) :
    θ_run (Cert.Kernel.defs (F := F)) (Cert.Kernel.threads (F := F)) ⟨m, fun _ => 0, ρ⟩ (QC r m) :=
  SparseCore.Cfg.θ_run_sc (K := K (F := F)) (D := D (F := F)) (𝒱 := 𝒱) (EH := EH) (P := P gs gsq m) facts v₀
    (fun q hq => match q with | 0 => nomatch hq)
    (fun q _ => match q with | 0 => htile)
    (fun q _ => match q with | 0 => SparseCore.Cfg.VecSplit.of_plain (vecSplit gs gsq m))
    m ρ main (G (F := F)) (FIN r m) (u₀ (F := F)) (hu₀' gs gsq m) hmain (fq r m) (hfin r m) (QC r m) (fun _ h => h)

end Cert.Kernel.Pf

end
-- ==== Proof.B.MainRegion.lean ====
import proofs.«207604_g45191645889005_cont_8to1c4_5_22_alg».proof.Proof.B.MainHost
import proofs.«207604_g45191645889005_cont_8to1c4_5_22_alg».proof.Proof.B.LaunchElem
import Idealize.ShloMosaic.Lib.Pipeline.Frame
import Idealize.ShloMosaic.Lib.Tactic

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

def W0 (d : Dev nD) : Valuation τ sig (Elt F) := fun b => m (d, b)
def Wh (d : Dev nD) : Valuation τ sig (Elt F) := StableHlo.after (hostOps (F := F)) (W0 m d)

theorem hostOps_tc : (hostOps (F := F)).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub ..⟩

theorem hostOps_sub : ∀ op ∈ (hostOps (F := F)), op.bufs ⊆ Pipeline.ucRefs τ sig :=
  fun op hop => Pipeline.sub_ucRefs op (List.forall_iff_forall_mem.mp hostOps_tc op hop)

theorem hostOps_fresh : ∀ op ∈ (hostOps (F := F)), op.fresh = ∅ := by
  intro op hop
  unfold hostOps at hop
  simp only [List.mem_cons, List.mem_nil_iff, or_false] at hop
  rcases hop with rfl | rfl | rfl | rfl | rfl | rfl | rfl | rfl | rfl | rfl | rfl | rfl | rfl | rfl | rfl <;> rfl

theorem wp_region
    (pdats : (p : Fin 2) → (c : Dev nD) → Pipeline.Dat τ (Elt F) (HIx 1) ℕ UU ℕ (Pipeline.pin (pcfgs (F := F)) adm p) c)
    (p : Fin 2) (R : Pipeline.RegionSeg (pcfgs (F := F)) adm pdats (none : HIx 1) (defs₀ (F := F)) 𝒱₀ (K (F := F)).L (K (F := F)).lev p)
    (d : Dev nD) {α : Type} (k : PUnit → Prog (TpuEff nD τ sig (Elt F) (SparseCore.Sig (ΛP (F := F)) 1) .tc) α) (Q : α → sProp 𝕄) :
    iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev ∗ pipeGhost (F := F) p d)
      ⊢ wp frame (wpE ((K (F := F)).defs (D (F := F))) 𝒱 (d.tc : Thread nD τ) none) Set.univ
          (Prog.lift (.customCall (SparseCore.inner (Pipeline.entry p)) ()) >>= k) Q := by
  have hprog : (Prog.lift (TpuEff.customCall (SparseCore.inner (Pipeline.entry p)) ()) : Prog (TpuEff nD τ sig (Elt F) (SparseCore.Sig (ΛP (F := F)) 1) .tc) PUnit)
      = SparseCore.liftProg (Q := 1) (Prog.op (TpuEff.customCall (Pipeline.entry p) ()) fun _ => Prog.ret PUnit.unit) := rfl
  rw [wp_bind, hprog]
  have hreg : iprop((iprop(boundary (d.tc : Thread nD τ) ∗ R.post d) -∗ wp frame (wpE ((K (F := F)).defs (D (F := F))) 𝒱 (d.tc : Thread nD τ) none) Set.univ (k ⟨⟩) Q)
        ∗ boundary (d.tc : Thread nD τ) ∗ R.pre d ∗ levAts (K (F := F)).L (K (F := F)).lev ∗ pipeGhost (F := F) p d)
      ⊢ wp frame (wpE (D (F := F)) 𝒱 (d.tc : Thread nD τ) none) Set.univ
          (Prog.op (TpuEff.customCall (Pipeline.entry p) ()) fun _ => Prog.ret PUnit.unit)
          (fun a => wp frame (wpE ((K (F := F)).defs (D (F := F))) 𝒱 (d.tc : Thread nD τ) none) Set.univ (k a) Q) := by
    iintro ⟨Hk, Hb, Hpre, Hlv, Hcg, Htk⟩
    iapply (Pipeline.RegionSeg.wp (pcfgs (F := F)) adm pdats (none : HIx 1) phinj EP (defs₀ (F := F)) 𝒱₀ (K (F := F)).L (K (F := F)).lev R d none
        (fun u hu => absurd hu (by simp)) (fun _ => Prog.ret PUnit.unit)
        (fun a => wp frame (wpE ((K (F := F)).defs (D (F := F))) 𝒱 (d.tc : Thread nD τ) none) Set.univ (k a) Q)) $$ [Hk Hb Hpre Hlv Hcg Htk]
    isplitl [Hk]
    · iintro H
      rw [wp_ret]; imodintro
      iapply Hk; iexact H
    isplitl [Hb]; · iexact Hb
    isplitl [Hpre]; · iexact Hpre
    isplitl [Hlv]; · iexact Hlv
    isplitl [Hcg]; · iexact Hcg
    iexact Htk
  exact hreg.trans (SparseCore.Cfg.wp_liftProg (K (F := F)) (D (F := F)) 𝒱 (d.tc : Thread nD τ) Set.univ none
    (Prog.op (TpuEff.customCall (Pipeline.entry p) ()) fun _ => Prog.ret PUnit.unit) _)

end Cert.Kernel.Pf

end
-- ==== Proof.B.CallStep.lean ====
import proofs.«207604_g45191645889005_cont_8to1c4_5_22_alg».proof.Proof.B.Pay

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (gs gsq : Vec F S1024x100000 .f32 → Vec F S256x1024 .f32) (m : (ℓ : Loc nD τ sig) → Buf (Elt F) ℓ)

theorem wp_call [FloatOps F] (κ : GSem nD τ sig → ℕ) (d : Dev nD) {Φ : PUnit → sProp 𝕄} :
    iprop((K (F := F)).ctx EH (P gs gsq m) κ ∗ (K (F := F)).tcSt EH d 0
        ∗ (xLoc d ↦{fullShare} m (xLoc d)) ∗ (gsLoc d ↦{fullShare} m (gsLoc d)) ∗ (gsqLoc d ↦{fullShare} m (gsqLoc d))
        ∗ (iprop((K (F := F)).tcSt EH d 1 ∗ (xLoc d ↦{fullShare} m (xLoc d)) ∗ (gsLoc d ↦{fullShare} gs (m (xLoc d)))
            ∗ (gsqLoc d ↦{fullShare} gsq (m (xLoc d)))) -∗ Φ ⟨⟩))
      ⊢ wp frame (wpE ((K (F := F)).defs (D (F := F))) 𝒱 (SparseCore.T d) none) Set.univ ((sc (F := F)).run d 0) Φ := by
  iintro ⟨#Hctx, Hst, Hx, Hgs, Hgsq, Hk⟩
  ihave Hx' := (x_rows d (m (xLoc d))).1 $$ Hx
  icases Hx' with ⟨Hlo, Hhi⟩
  iapply ((K (F := F)).wp_run (D (F := F)) 𝒱 (EH := EH) (P := P gs gsq m) κ d 0) $$ [Hst Hlo Hgs Hgsq Hhi Hk]
  isplitr; · iexact Hctx
  isplitl [Hst]; · iexact Hst
  isplitl [Hlo Hgs Hgsq]
  · rw [st_all]
    isplitl [Hlo]; · iexact Hlo
    isplitl [Hgs]; · iexact Hgs
    iexact Hgsq
  iintro ⟨Hst, Hdn⟩
  ihave Hdn' := (Entails.of_eq (dn_all gs gsq m d)) $$ Hdn
  icases Hdn' with ⟨Hlo, Hgs, Hgsq⟩
  iapply Hk
  isplitl [Hst]; · iexact Hst
  isplitl [Hlo Hhi]
  · iapply (x_rows d (m (xLoc d))).2
    isplitl [Hlo] <;> iassumption
  isplitl [Hgs] <;> iassumption

end Cert.Kernel.Pf

end
-- ==== Proof.B.TcOwes.lean ====
import proofs.«207604_g45191645889005_cont_8to1c4_5_22_alg».proof.Proof.B.Ghost
import Idealize.ShloMosaic.Lib.Pipeline.Dat

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄)
      = iprop((∃ W, ⌜(K (F := F)).WBelow (T d) W (8 * n)⌝ ∗ owes (T d) ((K (F := F)).Otc d n) W) ∗ tcRest (F := F) d n) := rfl

def recT (d : Dev nD) (n : ℕ) : Set (SemLoc sig × HIx 1) := {p | (K (F := F)).lev (T d, p.1) p.2 ≤ 8 * n}

theorem Otc_none (d : Dev nD) (n : ℕ) : ∀ g, (K (F := F)).Otc d n g none = 0 := by
  intro g
  by_contra h
  have := SparseCore.Cfg.lev_of_Otc_pos (K := K (F := F)) (Nat.pos_of_ne_zero h)
  rw [SparseCore.Cfg.lev_none] at this; omega

theorem wbelow_after (d : Dev nD) (n : ℕ) (cfg : Pipeline.Cfg sig Λ₀) (W : Waits sig (HIx 1))
    (h : (↑W : Set (SemLoc sig × HIx 1)) ⊆ recT (F := F) d n ∪ cfg.waitPairs (none : HIx 1)) : (K (F := F)).WBelow (T d) W (8 * n) := by
  intro p hp
  rcases h (Finset.mem_coe.mpr hp) with h | ⟨w, s, rfl⟩
  · exact h
  · rw [SparseCore.Cfg.lev_none]; exact Nat.zero_le _

theorem sub_recT (d : Dev nD) (n : ℕ) (W : Waits sig (HIx 1)) (h : (K (F := F)).WBelow (T d) W (8 * n)) :
    (↑W : Set (SemLoc sig × HIx 1)) ⊆ recT (F := F) d n :=
  fun p hp => h p (Finset.mem_coe.mp hp)

end Cert.Kernel.Pf

end
-- ==== Proof.B.Main.lean ====
import proofs.«207604_g45191645889005_cont_8to1c4_5_22_alg».proof.Proof.B.MainRegion
import proofs.«207604_g45191645889005_cont_8to1c4_5_22_alg».proof.Proof.B.CallStep
import proofs.«207604_g45191645889005_cont_8to1c4_5_22_alg».proof.Proof.B.TcOwes

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.TcCoe

variable {F : FTy → Type} [FloatOps F]

local notation "𝕄" => MT nD τ sig (HIx 1) (Elt F) ℕ UU ℕ

abbrev VT (F : FTy → Type) (d : Dev nD) : Type := (b : Ref sig .tc) → Buf (Elt F) ((d.tc : Thread nD τ).loc b)

abbrev ucR : Finset (Ref sig .tc) := Finset.univ.filter fun b : Ref sig .tc => ¬ b.isScoped

def restCall (d : Dev nD) (V : VT F d) : sProp 𝕄 :=
  bigSep (((ucR.erase main_arg0).erase main_v13_0).erase main_v13_1) fun b => ((d.tc : Thread nD τ).loc b) ↦{fullShare} V b

theorem unscoped_call (d : Dev nD) (V : VT F d) :
    (unscopedBufs d V : sProp 𝕄)
      = iprop((xLoc d ↦{fullShare} V main_arg0) ∗ (gsLoc d ↦{fullShare} V main_v13_0) ∗ (gsqLoc d ↦{fullShare} V main_v13_1) ∗ restCall d V) := by
  unfold unscopedBufs restCall
  rw [SparseCore.bigSep_erase' (show main_arg0 ∈ ucR by decide),
    SparseCore.bigSep_erase' (show main_v13_0 ∈ ucR.erase main_arg0 by decide),
    SparseCore.bigSep_erase' (show main_v13_1 ∈ (ucR.erase main_arg0).erase main_v13_0 by decide)]

def afterCall (d : Dev nD) (V : VT F d) (a : Buf (Elt F) (gsLoc d)) (b : Buf (Elt F) (gsqLoc d)) : VT F d :=
  Function.update (Function.update V main_v13_0 a) main_v13_1 b

theorem afterCall_gs (d : Dev nD) (V : VT F d) (a b) : afterCall d V a b main_v13_0 = a := by
  unfold afterCall
  rw [Function.update_of_ne (show (main_v13_0 : Ref sig .tc) ≠ main_v13_1 by decide), Function.update_self]
theorem afterCall_gsq (d : Dev nD) (V : VT F d) (a b) : afterCall d V a b main_v13_1 = b := by
  unfold afterCall; rw [Function.update_self]
theorem afterCall_ne (d : Dev nD) (V : VT F d) (a b) {r : Ref sig .tc} (h0 : r ≠ main_v13_0) (h1 : r ≠ main_v13_1) :
    afterCall d V a b r = V r := by
  unfold afterCall; rw [Function.update_of_ne h1, Function.update_of_ne h0]

theorem restCall_afterCall (d : Dev nD) (V : VT F d) (a b) : (restCall d (afterCall d V a b) : sProp 𝕄) = restCall d V := by
  unfold restCall
  refine bigSep_congr fun r hr => ?_
  have h1 : r ≠ main_v13_1 := (Finset.mem_erase.mp hr).1
  have h0 : r ≠ main_v13_0 := (Finset.mem_erase.mp (Finset.mem_erase.mp hr).2).1
  rw [afterCall_ne d V a b h0 h1]

theorem unscoped_fin (d : Dev nD) (V : VT F d) :
    (unscopedBufs d V : sProp 𝕄)
      = iprop((xLoc d ↦{fullShare} V main_arg0) ∗ (outLoc d ↦{fullShare} V main_v14)
          ∗ bigSep ((ucR.erase main_arg0).erase main_v14) fun b => ((d.tc : Thread nD τ).loc b) ↦{fullShare} V b) := by
  unfold unscopedBufs
  rw [SparseCore.bigSep_erase' (show main_arg0 ∈ ucR by decide),
    SparseCore.bigSep_erase' (show main_v14 ∈ ucR.erase main_arg0 by decide)]

variable (gs gsq : Vec F S1024x100000 .f32 → Vec F S256x1024 .f32)
variable (m : (ℓ : Loc nD τ sig) → Buf (Elt F) ℓ) (ρ : Dev nD → PrngReg)

abbrev owesT (d : Dev nD) (n : ℕ) : sProp 𝕄 :=
  iprop(∃ W, ⌜(K (F := F)).WBelow (SparseCore.T d) W (8 * n)⌝ ∗ owes (SparseCore.T d) ((K (F := F)).Otc d n) W)

def Vh (d : Dev nD) : VT F d := fun b => Wh m d b

theorem hmain_of
    (pdats : (p : Fin 2) → (c : Dev nD) → Pipeline.Dat τ (Elt F) (HIx 1) ℕ UU ℕ (Pipeline.pin (pcfgs (F := F)) adm p) c)
    (R0 : Pipeline.RegionSeg (pcfgs (F := F)) adm pdats (none : HIx 1) (defs₀ (F := F)) 𝒱₀ (K (F := F)).L (K (F := F)).lev 0)
    (R2 : Pipeline.RegionSeg (pcfgs (F := F)) adm pdats (none : HIx 1) (defs₀ (F := F)) 𝒱₀ (K (F := F)).L (K (F := F)).lev 1)
    (V1 V3 : (d : Dev nD) → VT F d) (r : (d : Dev nD) → Buf (Elt F) (outLoc d))
    (hpre0 : ∀ d, iprop(unscopedBufs d (Vh m d) ∗ owesT (F := F) d 0) ⊢ R0.pre d)
    (hpost0 : ∀ d, R0.post d ⊢ iprop(unscopedBufs d (V1 d) ∗ owesT (F := F) d 0))
    (hV1x : ∀ d, V1 d main_arg0 = m (xLoc d)) (hV1gs : ∀ d, V1 d main_v13_0 = m (gsLoc d)) (hV1gsq : ∀ d, V1 d main_v13_1 = m (gsqLoc d))
    (hpre2 : ∀ d, iprop(unscopedBufs d (afterCall d (V1 d) (gs (m (xLoc d))) (gsq (m (xLoc d)))) ∗ owesT (F := F) d 1) ⊢ R2.pre d)
    (hpost2 : ∀ d, R2.post d ⊢ iprop(unscopedBufs d (V3 d) ∗ owesT (F := F) d 1))
    (hV3x : ∀ d, V3 d main_arg0 = m (xLoc d)) (hV3o : ∀ d, V3 d main_v14 = r d)
    (κ : GSem nD τ sig → ℕ) (d : Dev nD) :
    iprop((K (F := F)).ctx EH (P gs gsq m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN r m d) := by
  unfold SparseCore.Cfg.tcRes
  rw [show (unscopedBufs d (fun b => m ((SparseCore.T d).loc b)) : sProp 𝕄) = StableHlo.held (d.tc : Thread nD τ) (Pipeline.ucRefs τ sig) (W0 m d) from
    Pipeline.unscopedBufs_held d (W0 m d), main_eq, G_eq, tcSt_eq d 0, tcSt_eq d 1]
  iintro ⟨#Hctx, ⟨HO, Hrest⟩, ⟨Hb, Hheld, -, -⟩, ⟨HG0, HG1⟩⟩
  ihave #Hlv := ((K (F := F)).ctx_levAts (EH := EH) (P := P gs gsq m) κ) $$ Hctx
  iapply (StableHlo.wp_seq 𝒱 none Set.univ d (Pipeline.ucRefs τ sig) (fun _ => mainTail d) (hostOps (F := F)) hostOps_sub hostOps_fresh (W0 m d)) $$ [Hb Hheld]
  · isplitl [Hb] <;> iassumption
  iintro ⟨Hb, Hheld⟩
  ihave Hu := (Entails.of_eq (show (StableHlo.held (d.tc : Thread nD τ) (Pipeline.ucRefs τ sig) (StableHlo.after (hostOps (F := F)) (W0 m d)) : sProp 𝕄) = unscopedBufs d (Vh m d) from
    (Pipeline.unscopedBufs_held (Ix := HIx 1) (Name := ℕ) (U := UU) (Lvl := ℕ) d (Wh m d)).symm)) $$ Hheld
  unfold mainTail

  iapply (wp_region pdats 0 R0 d _ _) $$ [Hb Hu HO HG0 Hrest HG1]
  isplitl [Hrest HG1]
  swap
  · isplitl [Hb]; · iexact Hb
    isplitl [Hu HO]
    · iapply (hpre0 d)
      isplitl [Hu]; · iexact Hu
      iexact HO
    isplitr; · iexact Hlv
    iexact HG0
  iintro ⟨Hb, Hpost⟩
  ihave Hp := (hpost0 d) $$ Hpost
  icases Hp with ⟨Hu, HO⟩
  ihave Hc := (Entails.of_eq ((unscoped_call d (V1 d)).trans (by rw [hV1x d, hV1gs d, hV1gsq d]))) $$ Hu
  icases Hc with ⟨Hx, Hgs, Hgsq, Hothers⟩

  rw [wp_bind]
  iapply (wp_call gs gsq m κ d) $$ [HO Hrest Hx Hgs Hgsq Hb Hothers HG1]
  isplitr; · iexact Hctx
  isplitl [HO Hrest]
  · rw [tcSt_eq d 0]
    isplitl [HO]; · iexact HO
    iexact Hrest
  isplitl [Hx]; · iexact Hx
  isplitl [Hgs]; · iexact Hgs
  isplitl [Hgsq]; · iexact Hgsq
  iintro ⟨Hst, Hx, Hgs, Hgsq⟩
  ihave Hst' := (Entails.of_eq (tcSt_eq (F := F) d 1)) $$ Hst
  icases Hst' with ⟨HO, Hrest⟩

  iapply (wp_region pdats 1 R2 d _ _) $$ [Hb Hx Hgs Hgsq Hothers HO HG1 Hrest]
  isplitl [Hrest]
  swap
  · isplitl [Hb]; · iexact Hb
    isplitl [Hx Hgs Hgsq Hothers HO]
    · iapply (hpre2 d)
      isplitr [HO]
      · rw [unscoped_call, afterCall_gs, afterCall_gsq, restCall_afterCall,
          afterCall_ne d (V1 d) _ _ (show (main_arg0 : Ref sig .tc) ≠ main_v13_0 by decide) (show (main_arg0 : Ref sig .tc) ≠ main_v13_1 by decide), hV1x d]
        isplitl [Hx]; · iexact Hx
        isplitl [Hgs]; · iexact Hgs
        isplitl [Hgsq]; · iexact Hgsq
        iexact Hothers
      iexact HO
    isplitr; · iexact Hlv
    iexact HG1
  iintro ⟨Hb, Hpost⟩
  ihave Hp := (hpost2 d) $$ Hpost
  icases Hp with ⟨Hu, HO⟩
  ihave Hf := (Entails.of_eq ((unscoped_fin d (V3 d)).trans (by rw [hV3x d, hV3o d]))) $$ Hu
  icases Hf with ⟨Hx, Hout, -⟩
  rw [wp_pure]; imodintro
  isplitl [HO Hrest]
  · isplitl [HO]; · iexact HO
    iexact Hrest
  isplitl [Hx]; · iexact Hx
  iexact Hout

end Cert.Kernel.Pf

end
-- ==== Proof.B.Waits.lean ====
import proofs.«207604_g45191645889005_cont_8to1c4_5_22_alg».proof.Proof.B.LaunchElem
import proofs.«207604_g45191645889005_cont_8to1c4_5_22_alg».proof.Proof.B.TcOwes

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def pdats (d0 : (c : Dev nD) → Pipeline.Dat τ (Elt F) (HIx 1) ℕ UU ℕ cfg0 c) (d1 : (c : Dev nD) → Pipeline.Dat τ (Elt F) (HIx 1) ℕ UU ℕ cfg2 c) :
    (p : Fin 2) → (c : Dev nD) → Pipeline.Dat τ (Elt F) (HIx 1) ℕ UU ℕ (Pipeline.pin (pcfgs (F := F)) adm p) c
  | ⟨0, _⟩ => d0
  | ⟨1, _⟩ => d1
  | ⟨_ + 2, h⟩ => absurd h (Nat.not_lt.2 (Nat.le_add_left _ _))

theorem hwaits_of (ds : (p : Fin 2) → (c : Dev nD) → Pipeline.Dat τ (Elt F) (HIx 1) ℕ UU ℕ (Pipeline.pin (pcfgs (F := F)) adm p) c)
    (p : Fin 2) (c : Dev nD) (n : ℕ) (howed : ∀ t, (ds p c).owed t = (K (F := F)).Otc c n) :
    (levAts (K (F := F)).L (K (F := F)).lev : sProp 𝕄) ⊢ Pipeline.cellsWaits (Pipeline.pin (pcfgs (F := F)) adm) ds (none : HIx 1) p c :=
  Pipeline.cellsWaits_intro (Pipeline.pin (pcfgs (F := F)) adm) ds (none : HIx 1) p c fun w s t => by
    rw [howed t]; exact (K (F := F)).mayWait_none _ (Otc_none c n)

end Cert.Kernel.Pf

end
-- ==== Proof.B.OwesGlue.lean ====
import proofs.«207604_g45191645889005_cont_8to1c4_5_22_alg».proof.Proof.B.TcOwes
import Idealize.ShloMosaic.Lib.Pipeline.Dat

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable {cfg : Pipeline.Cfg sig Λ₀} {c : Dev nD} (dat : Pipeline.Dat τ (Elt F) (HIx 1) ℕ UU ℕ cfg c) (n : ℕ)

end Cert.Kernel.Pf

end
-- ==== Proof.B.R0Frame.lean ====
import proofs.«207604_g45191645889005_cont_8to1c4_5_22_alg».proof.Proof.Gen.Kernel.Launch
import proofs.«207604_g45191645889005_cont_8to1c4_5_22_alg».proof.Proof.Gen.Kernel.Skeleton
import proofs.«207604_g45191645889005_cont_8to1c4_5_22_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

abbrev rX0 : Rect S64x100000 := Rect.unit (s := S64x100000) ![0, 0] S64x12544.size inb_S64x100000_S64x12544_0_0
abbrev rX1 : Rect S64x100000 := Rect.unit (s := S64x100000) ![0, 12544] S64x12544.size inb_S64x100000_S64x12544_0_12544
abbrev rX2 : Rect S64x100000 := Rect.unit (s := S64x100000) ![0, 25088] S64x12544.size inb_S64x100000_S64x12544_0_25088
abbrev rX3 : Rect S64x100000 := Rect.unit (s := S64x100000) ![0, 37632] S64x12544.size inb_S64x100000_S64x12544_0_37632
abbrev rX4 : Rect S64x100000 := Rect.unit (s := S64x100000) ![0, 50176] S64x12544.size inb_S64x100000_S64x12544_0_50176
abbrev rX5 : Rect S64x100000 := Rect.unit (s := S64x100000) ![0, 62720] S64x12544.size inb_S64x100000_S64x12544_0_62720
abbrev rX6 : Rect S64x100000 := Rect.unit (s := S64x100000) ![0, 75264] S64x12544.size inb_S64x100000_S64x12544_0_75264
abbrev rX7 : Rect S64x100000 := Rect.unit (s := S64x100000) ![0, 87808] S64x12192.size inb_S64x100000_S64x12192_0_87808
abbrev rT : Rect S12544x128 := Rect.unit (s := S12544x128) ![0, 0] S12544x128.size inb_S12544x128_S12544x128_0_0
abbrev rT' : Rect S12544x128 := Rect.unit (s := S12544x128) ![0, 0] S12192x128.size inb_S12544x128_S12192x128_0_0
abbrev rA0 : Rect S64x1024 := Rect.unit (s := S64x1024) ![0, 0] S64x128.size inb_S64x1024_S64x128_0_0
abbrev rA1 : Rect S64x1024 := Rect.unit (s := S64x1024) ![0, 128] S64x128.size inb_S64x1024_S64x128_0_128
abbrev rA2 : Rect S64x1024 := Rect.unit (s := S64x1024) ![0, 256] S64x128.size inb_S64x1024_S64x128_0_256
abbrev rA3 : Rect S64x1024 := Rect.unit (s := S64x1024) ![0, 384] S64x128.size inb_S64x1024_S64x128_0_384
abbrev rA4 : Rect S64x1024 := Rect.unit (s := S64x1024) ![0, 512] S64x128.size inb_S64x1024_S64x128_0_512
abbrev rA5 : Rect S64x1024 := Rect.unit (s := S64x1024) ![0, 640] S64x128.size inb_S64x1024_S64x128_0_640
abbrev rA6 : Rect S64x1024 := Rect.unit (s := S64x1024) ![0, 768] S64x128.size inb_S64x1024_S64x128_0_768
abbrev rA7 : Rect S64x1024 := Rect.unit (s := S64x1024) ![0, 896] S64x128.size inb_S64x1024_S64x128_0_896
abbrev rN : Rect S64x128 := Rect.unit (s := S64x128) ![0, 0] S64x128.size inb_S64x128_S64x128_0_0

def out2 (x0 : Vec F S64x100000 .f32) (x1 : Vec F S12544x128 .bf16) : Vec F S64x1024 .f32 :=
  View.canon [⟨rA7, k0_pay3 (View.ld x0 rX7) (View.ld x1 rT')⟩,
    ⟨rA6, k0_pay36 (View.ld x0 rX6) (View.ld x1 rT)⟩,
    ⟨rA5, k0_pay31 (View.ld x0 rX5) (View.ld x1 rT)⟩,
    ⟨rA4, k0_pay26 (View.ld x0 rX4) (View.ld x1 rT)⟩,
    ⟨rA3, k0_pay21 (View.ld x0 rX3) (View.ld x1 rT)⟩,
    ⟨rA2, k0_pay17 (View.ld x0 rX2) (k0_pay16 (View.ld x1 rT))⟩,
    ⟨rA1, k0_pay12 (View.ld x0 rX1) (View.ld x1 rT)⟩,
    ⟨rA0, k0_pay8 (View.ld x0 rX0) (View.ld x1 rT)⟩]

def out3 (x0 : Vec F S64x100000 .f32) (x1 : Vec F S12544x128 .bf16) : Vec F S64x1024 .f32 :=
  View.canon [⟨rA7, k0_pay4 (View.ld x0 rX7) (View.ld x1 rT')⟩,
    ⟨rA6, k0_pay37 (View.ld x0 rX6) (View.ld x1 rT)⟩,
    ⟨rA5, k0_pay32 (View.ld x0 rX5) (View.ld x1 rT)⟩,
    ⟨rA4, k0_pay28 (k0_pay25 (View.ld x1 rT)) (k0_pay27 (View.ld x0 rX4))⟩,
    ⟨rA3, k0_pay22 (View.ld x0 rX3) (View.ld x1 rT)⟩,
    ⟨rA2, k0_pay18 (k0_pay15 (View.ld x0 rX2)) (k0_pay16 (View.ld x1 rT))⟩,
    ⟨rA1, k0_pay13 (View.ld x0 rX1) (View.ld x1 rT)⟩,
    ⟨rA0, k0_pay9 (View.ld x0 rX0) (View.ld x1 rT)⟩]

def out4 (x0 : Vec F S64x100000 .f32) (x1 : Vec F S12544x128 .bf16) : Vec F S64x128 .f32 :=
  View.canon [⟨rN, k0_pay5 (k0_pay33 (k0_pay23 (k0_pay14 (View.ld x0 rX0) (View.ld x0 rX1)) (k0_pay15 (View.ld x0 rX2)) (View.ld x0 rX3)) (k0_pay24 (View.ld x0 rX4)) (View.ld x0 rX5)) (k0_pay38 (View.ld x0 rX6)) (View.ld x0 rX7)⟩]

theorem coverA (p0 p1 p2 p3 p4 p5 p6 p7 : Vec F S64x128 .f32) (y : S64x1024.Idx) :
    ∃ pc ∈ ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt F) S64x1024 .f32)), y ∈ pc.1.set :=
  View.cover_of_tiled [⟨rA7, p7⟩, ⟨rA6, p6⟩, ⟨rA5, p5⟩, ⟨rA4, p4⟩, ⟨rA3, p3⟩, ⟨rA2, p2⟩, ⟨rA1, p1⟩, ⟨rA0, p0⟩] S64x128.size (by rfl) y

theorem coverN (p0 : Vec F S64x128 .f32) (y : S64x128.Idx) :
    ∃ pc ∈ ([⟨rN, p0⟩] : List (View.Piece (Elt F) S64x128 .f32)), y ∈ pc.1.set :=
  View.cover_of_tiled [⟨rN, p0⟩] S64x128.size (by rfl) y

variable (V : (c : Dev nD) → (b : Ref sig .tc) → Buf (Elt F) ((c : Thread nD τ).loc b))
variable (O : Dev nD → CellTallies nD τ sig Ix)

variable (Rec : Dev nD → Set (SemLoc sig × Ix))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def datsP (c : Dev nD) : Dat τ (Elt F) Ix Name U Lvl cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
    | ⟨3, _⟩ => out3 (iblk V c 0 t) (iblk V c 1 t)
    | ⟨4, _⟩ => out4 (iblk V c 0 t) (iblk V c 1 t)
  Φ _ := Pipeline.scopedRest spec0 c
  q _ := fullShare
  owed _ := O c
  recorded _ := Rec c

section
variable (c : Dev nD)
local notation "dat" => datsP (Name := Name) (U := U) (Lvl := Lvl) V O Rec c

theorem A_eq (w : Fin cfg0.W) : (dat).A w = V c (Pipeline.arrRef spec0 w) := by dsimp only [datsP]
theorem after0 (t : Fin cfg0.N) : (dat).after 0 t = iblk V c 0 t := by dsimp only [datsP]
theorem after1 (t : Fin cfg0.N) : (dat).after 1 t = iblk V c 1 t := by dsimp only [datsP]
theorem after2 (t : Fin cfg0.N) : (dat).after 2 t = out2 (iblk V c 0 t) (iblk V c 1 t) := by dsimp only [datsP]
theorem after3 (t : Fin cfg0.N) : (dat).after 3 t = out3 (iblk V c 0 t) (iblk V c 1 t) := by dsimp only [datsP]
theorem after4 (t : Fin cfg0.N) : (dat).after 4 t = out4 (iblk V c 0 t) (iblk V c 1 t) := by dsimp only [datsP]
theorem owed_eq (t : Fin (cfg0.N + 1)) : (dat).owed t = O c := by dsimp only [datsP]
theorem recorded_eq (t : Fin (cfg0.N + 1)) : (dat).recorded t = Rec c := by dsimp only [datsP]
theorem Φ_eq (t : Fin (cfg0.N + 1)) : (dat).Φ t = Pipeline.scopedRest spec0 c := by dsimp only [datsP]

theorem before0 (t : Fin cfg0.N) (d) : (dat).before 0 t d = iblk V c 0 t :=
  ((dat).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (t : Fin cfg0.N) (d) : (dat).before 1 t d = iblk V c 1 t :=
  ((dat).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

end

end Cert.Kernel.R0

end
-- ==== Proof.B.R0Body.lean ====
import proofs.«207604_g45191645889005_cont_8to1c4_5_22_alg».proof.Proof.B.R0Frame
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

section Body
variable [Preorder Lvl] (𝒱₀ : Variants)

set_option maxHeartbeats 4000000 in

theorem sound_kernel (c : Dev nD) (E : Set Name) (i : grid0.Coords)
    (arg1 : Memref sig .tc .vmem S64x100000 .f32) (harg1 : arg1.IsWhole) (arg2 : Memref sig .tc .vmem S12544x128 .bf16) (harg2 : arg2.IsWhole)
    (arg3 : Memref sig .tc .vmem S64x1024 .f32) (harg3 : arg3.IsWhole) (arg4 : Memref sig .tc .vmem S64x1024 .f32) (harg4 : arg4.IsWhole)
    (arg5 : Memref sig .tc .vmem S64x128 .f32) (harg5 : arg5.IsWhole)
    (x0 : Vec F S64x100000 .f32) (x1 : Vec F S12544x128 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)
            ∗ owns (c : Thread nD τ) arg5 fullShare (out4 x0 x1)) -∗ K ⟨⟩))
      ⊢ wp frame (wpE (defs₀ (F := F)) 𝒱₀ c none) E (cc0__tc_body i arg1 harg1 arg2 harg2 arg3 harg3 arg4 harg4 arg5 harg5) K := by
  simp only [cc0__tc_body_eq_skeleton]; unfold cc0__tc_body_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverA _ _ _ _ _ _ _ _)
  isplitl [H3]
  · iexists _; isplitr
    swap; · iexact H3
    ipureintro
    exact View.read_writes_eq_canon _ _ _ (coverA _ _ _ _ _ _ _ _)
  iexists _; isplitr
  swap; · iexact H4
  ipureintro
  exact View.read_writes_eq_canon _ _ _ (coverN _)

end Body

section Obligation
variable [Preorder Lvl] (𝒱₀ : Variants) (ι : Ix)
variable (V : (c : Dev nD) → (b : Ref sig .tc) → Buf (Elt F) ((c : Thread nD τ).loc b))
variable (O : Dev nD → CellTallies nD τ sig Ix) (Rec : Dev nD → Set (SemLoc sig × Ix)) (c : Dev nD)
local notation "dat" => datsP (Name := Name) (U := U) (Lvl := Lvl) V O Rec c

def bodyPre (t : Fin cfg0.N) : sProp 𝕄 :=
  iprop((dat).Φ t.castSucc ∗ (dat).owesAt ι t.castSucc
    ∗ (∃ d, owns (c : Thread nD τ) (st0_0 t) fullShare ((dat).before 0 t d))
    ∗ (∃ d, owns (c : Thread nD τ) (st0_1 t) fullShare ((dat).before 1 t d))
    ∗ (∃ d, owns (c : Thread nD τ) (st0_2 t) fullShare ((dat).before 2 t d))
    ∗ (∃ d, owns (c : Thread nD τ) (st0_3 t) fullShare ((dat).before 3 t d))
    ∗ (∃ d, owns (c : Thread nD τ) (st0_4 t) fullShare ((dat).before 4 t d)))

def bodyPost (t : Fin cfg0.N) : sProp 𝕄 :=
  iprop((dat).Φ t.succ ∗ (dat).owesAt ι t.succ
    ∗ owns (c : Thread nD τ) (st0_0 t) fullShare ((dat).after 0 t)
    ∗ owns (c : Thread nD τ) (st0_1 t) fullShare ((dat).after 1 t)
    ∗ owns (c : Thread nD τ) (st0_2 t) fullShare ((dat).after 2 t)
    ∗ owns (c : Thread nD τ) (st0_3 t) fullShare ((dat).after 3 t)
    ∗ owns (c : Thread nD τ) (st0_4 t) fullShare ((dat).after 4 t))

theorem sound_body (t : Fin cfg0.N) :
    bodyPre (Name := Name) (U := U) (Lvl := Lvl) ι V O Rec c t
      ⊢ wp frame (wpE (defs₀ (F := F)) 𝒱₀ c none) Set.univ (bodyAt0 t) (fun _ => bodyPost (Name := Name) (U := U) (Lvl := Lvl) ι V O Rec c t) := by
  unfold bodyPre bodyPost bodyAt0
  simp only [before0, before1]
  rw [show (dat).Φ t.succ = (dat).Φ t.castSucc from rfl,
    show (dat).owesAt ι t.succ = (dat).owesAt ι t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel 𝒱₀ c Set.univ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation : BodyObligation (dat) (defs₀ (F := F)) 𝒱₀ ι Set.univ := fun t => by
  rw [bigSep_W0, bigSep_W0]
  exact sound_body 𝒱₀ ι V O Rec c t

theorem bodyP : BodyObligationLoose (dat) (defs₀ (F := F)) 𝒱₀ ι Set.univ :=
  (body_obligation 𝒱₀ ι V O Rec c).loose

end Obligation

end Cert.Kernel.R0

end
-- ==== Proof.B.R0Arr.lean ====
import proofs.«207604_g45191645889005_cont_8to1c4_5_22_alg».proof.Proof.B.R0Frame
import Idealize.ShloMosaic.Lib.Pipeline.Value
import Idealize.ShloMosaic.Lib.ValueIdx

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

open Idealize.ShloMosaic.ValueIdx

theorem idx_facts : ∀ t : Fin cfg0.N, win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0)

theorem ix2_congr {n0 n1 : Nat} {a a' : Fin n0} {b b' : Fin n1} (ha : a.val = a'.val) (hb : b.val = b'.val) :
    ix2 a b = ix2 a' b' := by rw [Fin.ext ha, Fin.ext hb]

def ptOf (r : Fin 768) : Fin cfg0.N := ⟨r.val / 64, by have := N_0; show r.val / 64 < grid0.N; omega⟩

variable (V : (c : Dev nD) → (b : Ref sig .tc) → Buf (Elt F) ((c : Thread nD τ).loc b))
variable (O : Dev nD → CellTallies nD τ sig Ix) (Rec : Dev nD → Set (SemLoc sig × Ix)) (c : Dev nD)

def arr2 : Vec F S768x1024 .f32 := fun i =>
  out2 (iblk V c 0 (ptOf (i 0))) (iblk V c 1 (ptOf (i 0))) (ix2 ⟨(i 0).val % 64, Nat.mod_lt _ (by decide)⟩ (i 1))
def arr3 : Vec F S768x1024 .f32 := fun i =>
  out3 (iblk V c 0 (ptOf (i 0))) (iblk V c 1 (ptOf (i 0))) (ix2 ⟨(i 0).val % 64, Nat.mod_lt _ (by decide)⟩ (i 1))
def arr4 : Vec F S768x128 .f32 := fun i =>
  out4 (iblk V c 0 (ptOf (i 0))) (iblk V c 1 (ptOf (i 0))) (ix2 ⟨(i 0).val % 64, Nat.mod_lt _ (by decide)⟩ (i 1))

theorem out2_congr (p p' : Fin cfg0.N) (q q' : S64x1024.Idx) (hp : p = p') (hq : q = q') :
    out2 (iblk V c 0 p) (iblk V c 1 p) q = out2 (iblk V c 0 p') (iblk V c 1 p') q' := by subst hp hq; rfl
theorem out3_congr (p p' : Fin cfg0.N) (q q' : S64x1024.Idx) (hp : p = p') (hq : q = q') :
    out3 (iblk V c 0 p) (iblk V c 1 p) q = out3 (iblk V c 0 p') (iblk V c 1 p') q' := by subst hp hq; rfl
theorem out4_congr (p p' : Fin cfg0.N) (q q' : S64x128.Idx) (hp : p = p') (hq : q = q') :
    out4 (iblk V c 0 p) (iblk V c 1 p) q = out4 (iblk V c 0 p') (iblk V c 1 p') q' := by subst hp hq; rfl

local notation "dat" => datsP (Name := Name) (U := U) (Lvl := Lvl) V O Rec c

theorem flushed2_eq (t : Fin cfg0.N) :
    (dat).flushed 2 t = ((cfg0.win 2).blk t).view.read (Elt F) (arr2 V c) := by
  show (cfg0.win 2).cut (grid0.coords t) ((dat).after 2 t) = _
  rw [after2]
  have e0 : win0_2.index t (0 : Fin 2) = t.val := (idx_facts t).1
  have e1 : win0_2.index t (1 : Fin 2) = 0 := (idx_facts t).2.1
  funext j
  show out2 (iblk V c 0 t) (iblk V c 1 t) j = arr2 V c (((cfg0.win 2).blk t).view.emb j)
  have h0 : ((((cfg0.win 2).blk t).view.emb j) 0).val = win0_2.index t (0 : Fin 2) * 64 + 1 * (j 0).val := rfl
  have h1 : ((((cfg0.win 2).blk t).view.emb j) 1).val = win0_2.index t (1 : Fin 2) * 1024 + 1 * (j 1).val := rfl
  have hj0 : (j 0).val < 64 := (j 0).isLt
  have hj1 : (j 1).val < 1024 := (j 1).isLt
  have ht : t.val < 12 := by have h : t.val < grid0.N := t.isLt; rw [N_0] at h; exact h
  refine (out2_congr V c _ _ _ _ (Fin.ext ?_) ?_).symm
  · show ((((cfg0.win 2).blk t).view.emb j) 0).val / 64 = t.val
    rw [h0, e0]; omega
  · refine (ix2_congr ?_ ?_).trans (eq_ix2 j).symm
    · show ((((cfg0.win 2).blk t).view.emb j) 0).val % 64 = (j 0).val
      rw [h0, e0]; omega
    · rw [h1, e1]; omega

theorem mem_blk2 (t : Fin cfg0.N) (i : S768x1024.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v12_0).slice (win0_2.rect t)).set ↔ _
  rw [View.set_slice_whole, Rect.mem_set_unit]
  exact Iff.rfl

theorem cover2 (i : S768x1024.Idx) : ∃ t : Fin cfg0.N, (cfg0.win 2).flush t = true ∧ i ∈ ((cfg0.win 2).blk t).view.set := by
  have hi0 : (i 0).val < 768 := (i 0).isLt
  have hi1 : (i 1).val < 1024 := (i 1).isLt
  refine ⟨ptOf (i 0), flush0_2 _, ?_⟩
  rw [mem_blk2]
  have e0 : win0_2.index (ptOf (i 0)) (0 : Fin 2) = (i 0).val / 64 := (idx_facts (ptOf (i 0))).1
  have e1 : win0_2.index (ptOf (i 0)) (1 : Fin 2) = 0 := (idx_facts (ptOf (i 0))).2.1
  intro a
  match a with
  | ⟨0, _⟩ =>
    show win0_2.index (ptOf (i 0)) (0 : Fin 2) * 64 ≤ (i 0).val ∧ (i 0).val < win0_2.index (ptOf (i 0)) (0 : Fin 2) * 64 + 64
    rw [e0]; omega
  | ⟨1, _⟩ =>
    show win0_2.index (ptOf (i 0)) (1 : Fin 2) * 1024 ≤ (i 1).val ∧ (i 1).val < win0_2.index (ptOf (i 0)) (1 : Fin 2) * 1024 + 1024
    rw [e1]; omega

theorem arrAt2 : (dat).arrAt 2 cfg0.N = arr2 V c :=
  (dat).arrAt_eq_of_cover 2 (arr2 V c) (fun t _ => flushed2_eq V O Rec c t) (cover2)

theorem flushed3_eq (t : Fin cfg0.N) :
    (dat).flushed 3 t = ((cfg0.win 3).blk t).view.read (Elt F) (arr3 V c) := by
  show (cfg0.win 3).cut (grid0.coords t) ((dat).after 3 t) = _
  rw [after3]
  have e0 : win0_3.index t (0 : Fin 2) = t.val := (idx_facts t).2.2.1
  have e1 : win0_3.index t (1 : Fin 2) = 0 := (idx_facts t).2.2.2.1
  funext j
  show out3 (iblk V c 0 t) (iblk V c 1 t) j = arr3 V c (((cfg0.win 3).blk t).view.emb j)
  have h0 : ((((cfg0.win 3).blk t).view.emb j) 0).val = win0_3.index t (0 : Fin 2) * 64 + 1 * (j 0).val := rfl
  have h1 : ((((cfg0.win 3).blk t).view.emb j) 1).val = win0_3.index t (1 : Fin 2) * 1024 + 1 * (j 1).val := rfl
  have hj0 : (j 0).val < 64 := (j 0).isLt
  have hj1 : (j 1).val < 1024 := (j 1).isLt
  have ht : t.val < 12 := by have h : t.val < grid0.N := t.isLt; rw [N_0] at h; exact h
  refine (out3_congr V c _ _ _ _ (Fin.ext ?_) ?_).symm
  · show ((((cfg0.win 3).blk t).view.emb j) 0).val / 64 = t.val
    rw [h0, e0]; omega
  · refine (ix2_congr ?_ ?_).trans (eq_ix2 j).symm
    · show ((((cfg0.win 3).blk t).view.emb j) 0).val % 64 = (j 0).val
      rw [h0, e0]; omega
    · rw [h1, e1]; omega

theorem mem_blk3 (t : Fin cfg0.N) (i : S768x1024.Idx) :
    i ∈ ((cfg0.win 3).blk t).view.set ↔ ∀ a : Fin 2, win0_3.index t a * S64x1024.size a ≤ (i a).val ∧ (i a).val < win0_3.index t a * S64x1024.size a + S64x1024.size a := by
  show i ∈ ((View.whole main_v12_1).slice (win0_3.rect t)).set ↔ _
  rw [View.set_slice_whole, Rect.mem_set_unit]
  exact Iff.rfl

theorem cover3 (i : S768x1024.Idx) : ∃ t : Fin cfg0.N, (cfg0.win 3).flush t = true ∧ i ∈ ((cfg0.win 3).blk t).view.set := by
  have hi0 : (i 0).val < 768 := (i 0).isLt
  have hi1 : (i 1).val < 1024 := (i 1).isLt
  refine ⟨ptOf (i 0), flush0_3 _, ?_⟩
  rw [mem_blk3]
  have e0 : win0_3.index (ptOf (i 0)) (0 : Fin 2) = (i 0).val / 64 := (idx_facts (ptOf (i 0))).2.2.1
  have e1 : win0_3.index (ptOf (i 0)) (1 : Fin 2) = 0 := (idx_facts (ptOf (i 0))).2.2.2.1
  intro a
  match a with
  | ⟨0, _⟩ =>
    show win0_3.index (ptOf (i 0)) (0 : Fin 2) * 64 ≤ (i 0).val ∧ (i 0).val < win0_3.index (ptOf (i 0)) (0 : Fin 2) * 64 + 64
    rw [e0]; omega
  | ⟨1, _⟩ =>
    show win0_3.index (ptOf (i 0)) (1 : Fin 2) * 1024 ≤ (i 1).val ∧ (i 1).val < win0_3.index (ptOf (i 0)) (1 : Fin 2) * 1024 + 1024
    rw [e1]; omega

theorem arrAt3 : (dat).arrAt 3 cfg0.N = arr3 V c :=
  (dat).arrAt_eq_of_cover 3 (arr3 V c) (fun t _ => flushed3_eq V O Rec c t) (cover3)

theorem flushed4_eq (t : Fin cfg0.N) :
    (dat).flushed 4 t = ((cfg0.win 4).blk t).view.read (Elt F) (arr4 V c) := by
  show (cfg0.win 4).cut (grid0.coords t) ((dat).after 4 t) = _
  rw [after4]
  have e0 : win0_4.index t (0 : Fin 2) = t.val := (idx_facts t).2.2.2.2.1
  have e1 : win0_4.index t (1 : Fin 2) = 0 := (idx_facts t).2.2.2.2.2
  funext j
  show out4 (iblk V c 0 t) (iblk V c 1 t) j = arr4 V c (((cfg0.win 4).blk t).view.emb j)
  have h0 : ((((cfg0.win 4).blk t).view.emb j) 0).val = win0_4.index t (0 : Fin 2) * 64 + 1 * (j 0).val := rfl
  have h1 : ((((cfg0.win 4).blk t).view.emb j) 1).val = win0_4.index t (1 : Fin 2) * 128 + 1 * (j 1).val := rfl
  have hj0 : (j 0).val < 64 := (j 0).isLt
  have hj1 : (j 1).val < 128 := (j 1).isLt
  have ht : t.val < 12 := by have h : t.val < grid0.N := t.isLt; rw [N_0] at h; exact h
  refine (out4_congr V c _ _ _ _ (Fin.ext ?_) ?_).symm
  · show ((((cfg0.win 4).blk t).view.emb j) 0).val / 64 = t.val
    rw [h0, e0]; omega
  · refine (ix2_congr ?_ ?_).trans (eq_ix2 j).symm
    · show ((((cfg0.win 4).blk t).view.emb j) 0).val % 64 = (j 0).val
      rw [h0, e0]; omega
    · rw [h1, e1]; omega

theorem mem_blk4 (t : Fin cfg0.N) (i : S768x128.Idx) :
    i ∈ ((cfg0.win 4).blk t).view.set ↔ ∀ a : Fin 2, win0_4.index t a * S64x128.size a ≤ (i a).val ∧ (i a).val < win0_4.index t a * S64x128.size a + S64x128.size a := by
  show i ∈ ((View.whole main_v12_2).slice (win0_4.rect t)).set ↔ _
  rw [View.set_slice_whole, Rect.mem_set_unit]
  exact Iff.rfl

theorem cover4 (i : S768x128.Idx) : ∃ t : Fin cfg0.N, (cfg0.win 4).flush t = true ∧ i ∈ ((cfg0.win 4).blk t).view.set := by
  have hi0 : (i 0).val < 768 := (i 0).isLt
  have hi1 : (i 1).val < 128 := (i 1).isLt
  refine ⟨ptOf (i 0), flush0_4 _, ?_⟩
  rw [mem_blk4]
  have e0 : win0_4.index (ptOf (i 0)) (0 : Fin 2) = (i 0).val / 64 := (idx_facts (ptOf (i 0))).2.2.2.2.1
  have e1 : win0_4.index (ptOf (i 0)) (1 : Fin 2) = 0 := (idx_facts (ptOf (i 0))).2.2.2.2.2
  intro a
  match a with
  | ⟨0, _⟩ =>
    show win0_4.index (ptOf (i 0)) (0 : Fin 2) * 64 ≤ (i 0).val ∧ (i 0).val < win0_4.index (ptOf (i 0)) (0 : Fin 2) * 64 + 64
    rw [e0]; omega
  | ⟨1, _⟩ =>
    show win0_4.index (ptOf (i 0)) (1 : Fin 2) * 128 ≤ (i 1).val ∧ (i 1).val < win0_4.index (ptOf (i 0)) (1 : Fin 2) * 128 + 128
    rw [e1]; omega

theorem arrAt4 : (dat).arrAt 4 cfg0.N = arr4 V c :=
  (dat).arrAt_eq_of_cover 4 (arr4 V c) (fun t _ => flushed4_eq V O Rec c t) (cover4)

theorem arrAt0 (n : Nat) : (dat).arrAt 0 n = V c main_arg0 := ((dat).arrAt_in 0 rfl n).trans (A_eq V O Rec c 0)
theorem arrAt1 (n : Nat) : (dat).arrAt 1 n = V c main_v11 := ((dat).arrAt_in 1 rfl n).trans (A_eq V O Rec c 1)

end Cert.Kernel.R0

end
-- ==== Proof.B.R0Region.lean ====
import proofs.«207604_g45191645889005_cont_8to1c4_5_22_alg».proof.Proof.B.R0Body
import proofs.«207604_g45191645889005_cont_8to1c4_5_22_alg».proof.Proof.B.R0Arr
import proofs.«207604_g45191645889005_cont_8to1c4_5_22_alg».proof.Proof.Gen.Kernel.Launch
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type}

local notation "𝕄" => MT nD τ sig Ix (Elt F) Name U Lvl

variable (V : (c : Dev nD) → (b : Ref sig .tc) → Buf (Elt F) ((c : Thread nD τ).loc b))
variable (O : Dev nD → CellTallies nD τ sig Ix) (Rec : Dev nD → Set (SemLoc sig × Ix))

def V1 (c : Dev nD) (b : Ref sig .tc) : Buf (Elt F) ((c : Thread nD τ).loc b) :=
  if h : main_v12_0 = b then cast (congrArg (fun b' => Buf (Elt F) ((c : Thread nD τ).loc b')) h) (arr2 V c)
  else if h : main_v12_1 = b then cast (congrArg (fun b' => Buf (Elt F) ((c : Thread nD τ).loc b')) h) (arr3 V c)
  else if h : main_v12_2 = b then cast (congrArg (fun b' => Buf (Elt F) ((c : Thread nD τ).loc b')) h) (arr4 V c)
  else V c b

theorem V1_v12_0 (c : Dev nD) : V1 V c main_v12_0 = arr2 V c := by unfold V1; rw [dif_pos rfl]; rfl
theorem V1_v12_1 (c : Dev nD) : V1 V c main_v12_1 = arr3 V c := by
  unfold V1; rw [dif_neg (by decide), dif_pos rfl]; rfl
theorem V1_v12_2 (c : Dev nD) : V1 V c main_v12_2 = arr4 V c := by
  unfold V1; rw [dif_neg (by decide), dif_neg (by decide), dif_pos rfl]; rfl
theorem V1_of_ne (c : Dev nD) (b : Ref sig .tc) (h0 : main_v12_0 ≠ b) (h1 : main_v12_1 ≠ b) (h2 : main_v12_2 ≠ b) :
    V1 V c b = V c b := by
  unfold V1; rw [dif_neg h0, dif_neg h1, dif_neg h2]

section Region
variable [Preorder Lvl] (𝒱₀ : Variants) (ι : Ix) (L : GSem nD τ sig → Finset Ix) (lv : GSem nD τ sig → Ix → Lvl)

abbrev admP : (p : Fin 2) → (pcfgs (F := F) p).Adm := fun p => (cfgs p).toPCfg_adm

set_option backward.isDefEq.respectTransparency.types false in

def regionP (pdats : (p : Fin 2) → (c : Dev nD) → Dat τ (Elt F) Ix Name U Lvl (Pipeline.pin (pcfgs (F := F)) admP p) c)
    (h0 : ∀ c, pdats 0 c = datsP V O Rec c)
    (hwaits : ∀ c, (levAts L lv : sProp 𝕄) ⊢ Pipeline.cellsWaits (Pipeline.pin (pcfgs (F := F)) admP) pdats ι 0 c) :
    Pipeline.RegionSeg (pcfgs (F := F)) admP pdats ι (defs₀ (F := F)) 𝒱₀ L lv 0 where
  win := launch0.win.to₀
  block_pos := launch0.block_pos
  stage_whole := launch0.stage_whole
  K := PEmpty
  osem k := k.elim
  ho := Pipeline.OwnSemFacts.none _
  hbody c := by rw [h0 c]; exact bodyP 𝒱₀ ι V O Rec c
  hwaits := hwaits
  pre c := iprop(unscopedBufs c (V c) ∗ Pipeline.owesWithin c (O c) (Rec c))
  post c := iprop(unscopedBufs c (V1 V c) ∗ Pipeline.owesWithin c (O c) (Rec c ∪ cfg0.waitPairs ι))
  X _ := BI.emp
  Y _ := BI.emp
  Z c := Pipeline.unscopedRest spec0 c (V c)
  hentry c := by
    rw [Pipeline.ownSems0_none]
    have hO : ∀ t, (pdats 0 c).owed t = O c := fun t => by rw [h0 c]; rfl
    have hR : ∀ t, (pdats 0 c).recorded t = Rec c := fun t => by rw [h0 c]; rfl
    have hsplit := Pipeline.arrays_of_unscopedBufs (p := 0) (pcfgs (F := F)) admP pdats launch0.win launch0.arr_whole c
      (fun w => by rw [h0 c]; exact (datsP V O Rec c).share_full (fun _ => rfl) w) (V c) (fun w => by rw [h0 c]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.Dat.bound Pipeline.owesWithin
      rw [hO, hR]
      icases HO with ⟨%W, %hW, HO⟩; iexists W; isplitr; · ipureintro; exact fun x hx => Or.inl (hW hx)
      iexact HO
    isplitr; · iempintro
    iexact Hrest
  hin c := by
    have hΦ : (pdats 0 c).Φ 0 = Pipeline.scopedRest spec0 c := by rw [h0 c]; rfl
    rw [hΦ]
    iintro ⟨-, -, Hr⟩
    iexact Hr
  hout c := by
    have hΦ : (pdats 0 c).Φ (Fin.last _) = Pipeline.scopedRest spec0 c := by rw [h0 c]; rfl
    rw [Pipeline.ownSems0_none, hΦ]
    iintro Hr
    isplitr; · iempintro
    isplitr; · iempintro
    iexact Hr
  hexit c := by
    have hO : ∀ t, (pdats 0 c).owed t = O c := fun t => by rw [h0 c]; rfl
    have hR : ∀ t, (pdats 0 c).recorded t = Rec c := fun t => by rw [h0 c]; rfl
    have hF : ∀ w, (pdats 0 c).arrAt w cfg0.N = V1 V c (Pipeline.arrRef spec0 w) := fun w => by
      rw [h0 c]
      match w with
      | ⟨0, _⟩ => exact (arrAt0 V O Rec c _).trans (V1_of_ne V c main_arg0 (by decide) (by decide) (by decide)).symm
      | ⟨1, _⟩ => exact (arrAt1 V O Rec c _).trans (V1_of_ne V c main_v11 (by decide) (by decide) (by decide)).symm
      | ⟨2, _⟩ => exact (arrAt2 V O Rec c).trans (V1_v12_0 V c).symm
      | ⟨3, _⟩ => exact (arrAt3 V O Rec c).trans (V1_v12_1 V c).symm
      | ⟨4, _⟩ => exact (arrAt4 V O Rec c).trans (V1_v12_2 V c).symm
    have hrest : ∀ b, b ∉ Finset.univ.image (Pipeline.arrRef spec0) → V1 V c b = V c b := fun b hb =>
      V1_of_ne V c b (fun e => hb (Finset.mem_image.mpr ⟨2, Finset.mem_univ _, e⟩))
        (fun e => hb (Finset.mem_image.mpr ⟨3, Finset.mem_univ _, e⟩))
        (fun e => hb (Finset.mem_image.mpr ⟨4, Finset.mem_univ _, e⟩))
    have hjoin := Pipeline.unscopedBufs_of_arrays (p := 0) (pcfgs (F := F)) admP (Ix := Ix) (Name := Name) (U := U) (Lvl := Lvl)
      launch0.win launch0.arr_whole c pdats (fun w => by rw [h0 c]; exact (datsP V O Rec c).share_full (fun _ => rfl) w)
      (V c) (V1 V c) ((pdats 0 c).arrAt · cfg0.N) hF hrest
    iintro ⟨Ha, HO, -, Hrest⟩
    imodintro
    isplitl [Ha Hrest]
    · iapply hjoin; isplitl [Ha] <;> iassumption
    unfold Pipeline.Dat.owesAt Pipeline.Dat.bound Pipeline.owesWithin
    rw [hO, hR]
    iexact HO

end Region

end Cert.Kernel.R0

end
-- ==== Proof.B.R2Frame.lean ====
import proofs.«207604_g45191645889005_cont_8to1c4_5_22_alg».proof.Proof.Gen.Kernel.Launch
import proofs.«207604_g45191645889005_cont_8to1c4_5_22_alg».proof.Proof.Gen.Kernel.Skeleton
import proofs.«207604_g45191645889005_cont_8to1c4_5_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R2

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

variable (O : Dev nD → CellTallies nD τ sig Ix)

variable (Rec : Dev nD → Set (SemLoc sig × Ix))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

section Before
variable {V}
variable {c : Dev nD} (dat : Dat τ (Elt F) Ix Name U Lvl cfg2 c)

theorem before_0_of (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
end Before

abbrev rSc : Rect S256x1024 := Rect.unit (s := S256x1024) ![0, 0] S256x1024.size inb_S256x1024_S256x1024_0_0
abbrev rTc : Rect S768x1024 := Rect.unit (s := S768x1024) ![0, 0] S768x1024.size inb_S768x1024_S768x1024_0_0
abbrev rNp : Rect S768x128 := Rect.unit (s := S768x128) ![0, 0] S768x1.size inb_S768x128_S768x1_0_0

abbrev rLo : Rect S1024x1024 := Rect.unit (s := S1024x1024) ![0, 0] S256x1024.size inb_S1024x1024_S256x1024_0_0
abbrev rHi : Rect S1024x1024 := Rect.unit (s := S1024x1024) ![256, 0] S768x1024.size inb_S1024x1024_S768x1024_256_0

def bitSc (x1 : Vec F S256x1024 .f32) : BitVec 1 := Scalar.cmpf .ogt (k2_pay7 (View.ld x1 rSc)) (Scalar.ofBits .f32 0x00000000#32)

def out5 (x0 x1 : Vec F S256x1024 .f32) (x2 x3 : Vec F S768x1024 .f32) (x4 : Vec F S768x128 .f32) : Vec F S1024x1024 .f32 :=
  View.canon [⟨rHi, k2_pay2 (k2_pay5 (View.ld x2 rTc)) (k2_pay6 (View.ld x3 rTc)) (bitSc x1) (k2_pay8 (View.ld x4 rNp)) (Scalar.ofBits .f32 0x00000000#32)⟩,
    ⟨rLo, k2_pay1 (k2_pay3 (View.ld x0 rSc)) (k2_pay4 (View.ld x1 rSc)) (bitSc x1) (k2_pay8 (View.ld x4 rNp)) (Scalar.ofBits .f32 0x00000000#32)⟩]

theorem cover5 (p0 : Vec F S768x1024 .f32) (p1 : Vec F S256x1024 .f32) (y : S1024x1024.Idx) :
    ∃ pc ∈ ([⟨rHi, p0⟩, ⟨rLo, p1⟩] : List (View.Piece (Elt F) S1024x1024 .f32)), y ∈ pc.1.set :=
by
  have h0 : (y 0).val < 1024 := (y 0).isLt
  have h1 : (y 1).val < 1024 := (y 1).isLt
  by_cases h : (y 0).val < 256
  · refine ⟨⟨rLo, p1⟩, List.mem_cons_of_mem _ List.mem_cons_self, ?_⟩
    show y ∈ rLo.set
    rw [Rect.mem_set_unit]
    intro a
    match a with
    | ⟨0, _⟩ => show (0 : ℕ) ≤ (y 0).val ∧ (y 0).val < 0 + 256; omega
    | ⟨1, _⟩ => show (0 : ℕ) ≤ (y 1).val ∧ (y 1).val < 0 + 1024; omega
  · refine ⟨⟨rHi, p0⟩, List.mem_cons_self, ?_⟩
    show y ∈ rHi.set
    rw [Rect.mem_set_unit]
    intro a
    match a with
    | ⟨0, _⟩ => show (256 : ℕ) ≤ (y 0).val ∧ (y 0).val < 256 + 768; omega
    | ⟨1, _⟩ => show (0 : ℕ) ≤ (y 1).val ∧ (y 1).val < 0 + 1024; omega

variable (𝒱₀ : Variants)

set_option maxHeartbeats 4000000 in

theorem sound_kernel (c : Dev nD) (E : Set Name)
    (arg0 : Memref sig .tc .vmem S256x1024 .f32) (harg0 : arg0.IsWhole) (arg1 : Memref sig .tc .vmem S256x1024 .f32) (harg1 : arg1.IsWhole)
    (arg2 : Memref sig .tc .vmem S768x1024 .f32) (harg2 : arg2.IsWhole) (arg3 : Memref sig .tc .vmem S768x1024 .f32) (harg3 : arg3.IsWhole)
    (arg4 : Memref sig .tc .vmem S768x128 .f32) (harg4 : arg4.IsWhole) (arg5 : Memref sig .tc .vmem S1024x1024 .f32) (harg5 : arg5.IsWhole)
    (x0 x1 : Vec F S256x1024 .f32) (x2 x3 : Vec F S768x1024 .f32) (x4 : Vec F S768x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5 x0 x1 x2 x3 x4)) -∗ K ⟨⟩))
      ⊢ wp frame (wpE (defs₀ (F := F)) 𝒱₀ c none) E (cc2__finalize_body arg0 harg0 arg1 harg1 arg2 harg2 arg3 harg3 arg4 harg4 arg5 harg5) K := by
  simp only [cc2__finalize_body_eq_skeleton]; unfold cc2__finalize_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _)

abbrev Φc (c : Dev nD) : sProp 𝕄 := Pipeline.scopedRest (Ix := Ix) (Name := Name) (U := U) (Lvl := Lvl) (Val := Elt F) spec2 c

def dat (c : Dev nD) : Dat τ (Elt F) Ix Name U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Φc c
  q _ := fullShare
  owed _ := O c
  recorded _ := Rec c

local notation "𝔇" => dat (Name := Name) (U := U) (Lvl := Lvl) V O Rec

theorem A_eq (c : Dev nD) (w : Fin cfg2.W) : (𝔇 c).A w = V c (Pipeline.arrRef spec2 w) := by
  dsimp only [dat]
theorem owed_eq (c : Dev nD) (t) : (𝔇 c).owed t = O c := rfl
theorem recorded_eq (c : Dev nD) (t) : (𝔇 c).recorded t = Rec c := rfl

theorem after_0 (c : Dev nD) (t : Fin cfg2.N) : (𝔇 c).after 0 t = iblk V c 0 t := by dsimp only [dat]
theorem after_1 (c : Dev nD) (t : Fin cfg2.N) : (𝔇 c).after 1 t = iblk V c 1 t := by dsimp only [dat]
theorem after_2 (c : Dev nD) (t : Fin cfg2.N) : (𝔇 c).after 2 t = iblk V c 2 t := by dsimp only [dat]
theorem after_3 (c : Dev nD) (t : Fin cfg2.N) : (𝔇 c).after 3 t = iblk V c 3 t := by dsimp only [dat]
theorem after_4 (c : Dev nD) (t : Fin cfg2.N) : (𝔇 c).after 4 t = iblk V c 4 t := by dsimp only [dat]
theorem after_5 (c : Dev nD) (t : Fin cfg2.N) :
    (𝔇 c).after 5 t = out5 (iblk V c 0 t) (iblk V c 1 t) (iblk V c 2 t) (iblk V c 3 t) (iblk V c 4 t) := by dsimp only [dat]

theorem before_0 (c : Dev nD) (t : Fin cfg2.N) (d) : (𝔇 c).before 0 t d = iblk V c 0 t :=
  before_0_of (𝔇 c) (A_eq V O Rec c 0) (after_0 V O Rec c) t d
theorem before_1 (c : Dev nD) (t : Fin cfg2.N) (d) : (𝔇 c).before 1 t d = iblk V c 1 t :=
  before_1_of (𝔇 c) (A_eq V O Rec c 1) (after_1 V O Rec c) t d
theorem before_2 (c : Dev nD) (t : Fin cfg2.N) (d) : (𝔇 c).before 2 t d = iblk V c 2 t :=
  before_2_of (𝔇 c) (A_eq V O Rec c 2) (after_2 V O Rec c) t d
theorem before_3 (c : Dev nD) (t : Fin cfg2.N) (d) : (𝔇 c).before 3 t d = iblk V c 3 t :=
  before_3_of (𝔇 c) (A_eq V O Rec c 3) (after_3 V O Rec c) t d
theorem before_4 (c : Dev nD) (t : Fin cfg2.N) (d) : (𝔇 c).before 4 t d = iblk V c 4 t :=
  before_4_of (𝔇 c) (A_eq V O Rec c 4) (after_4 V O Rec c) t d

variable (ι : Ix)

def bodyPre (c : Dev nD) (t : Fin cfg2.N) : sProp 𝕄 :=
  iprop((𝔇 c).Φ t.castSucc ∗ (𝔇 c).owesAt ι t.castSucc
    ∗ (∃ d, owns (c : Thread nD τ) (st2_0 t) fullShare ((𝔇 c).before 0 t d))
    ∗ (∃ d, owns (c : Thread nD τ) (st2_1 t) fullShare ((𝔇 c).before 1 t d))
    ∗ (∃ d, owns (c : Thread nD τ) (st2_2 t) fullShare ((𝔇 c).before 2 t d))
    ∗ (∃ d, owns (c : Thread nD τ) (st2_3 t) fullShare ((𝔇 c).before 3 t d))
    ∗ (∃ d, owns (c : Thread nD τ) (st2_4 t) fullShare ((𝔇 c).before 4 t d))
    ∗ (∃ d, owns (c : Thread nD τ) (st2_5 t) fullShare ((𝔇 c).before 5 t d)))

def bodyPost (c : Dev nD) (t : Fin cfg2.N) : sProp 𝕄 :=
  iprop((𝔇 c).Φ t.succ ∗ (𝔇 c).owesAt ι t.succ
    ∗ owns (c : Thread nD τ) (st2_0 t) fullShare ((𝔇 c).after 0 t)
    ∗ owns (c : Thread nD τ) (st2_1 t) fullShare ((𝔇 c).after 1 t)
    ∗ owns (c : Thread nD τ) (st2_2 t) fullShare ((𝔇 c).after 2 t)
    ∗ owns (c : Thread nD τ) (st2_3 t) fullShare ((𝔇 c).after 3 t)
    ∗ owns (c : Thread nD τ) (st2_4 t) fullShare ((𝔇 c).after 4 t)
    ∗ owns (c : Thread nD τ) (st2_5 t) fullShare ((𝔇 c).after 5 t))

theorem sound_body (c : Dev nD) (t : Fin cfg2.N) :
    (bodyPre V O Rec ι c t : sProp 𝕄) ⊢ wp frame (wpE (defs₀ (F := F)) 𝒱₀ c none) Set.univ (bodyAt2 t) (fun _ => (bodyPost V O Rec ι c t : sProp 𝕄)) := by
  unfold bodyPre bodyPost bodyAt2
  simp only [before_0, before_1, before_2, before_3, before_4]
  rw [show (𝔇 c).Φ t.succ = (𝔇 c).Φ t.castSucc from rfl,
    show (𝔇 c).owesAt ι t.succ = (𝔇 c).owesAt ι t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel 𝒱₀ c Set.univ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (𝔇 c) (defs₀ (F := F)) 𝒱₀ ι Set.univ := fun t => by
  rw [bigSep_W2, bigSep_W2]
  exact sound_body V O Rec 𝒱₀ ι c t

abbrev arr5 (c : Dev nD) : Vec F S1024x1024 .f32 :=
  out5 (V c main_v13_0) (V c main_v13_1) (V c main_v12_0) (V c main_v12_1) (V c main_v12_2)

theorem iblk_0 (c : Dev nD) (t : Fin cfg2.N) : iblk V c 0 t = (V c main_v13_0 : Vec F S256x1024 .f32) := by
  funext j
  show V c main_v13_0 (((cfg2.win 0).blk t).view.emb j) = V c main_v13_0 j
  congr 1
  funext a; apply Fin.ext
  match a with
  | ⟨0, _⟩ => show 0 * 256 + 1 * (j 0).val = (j 0).val; omega
  | ⟨1, _⟩ => show 0 * 1024 + 1 * (j 1).val = (j 1).val; omega
theorem iblk_1 (c : Dev nD) (t : Fin cfg2.N) : iblk V c 1 t = (V c main_v13_1 : Vec F S256x1024 .f32) := by
  funext j
  show V c main_v13_1 (((cfg2.win 1).blk t).view.emb j) = V c main_v13_1 j
  congr 1
  funext a; apply Fin.ext
  match a with
  | ⟨0, _⟩ => show 0 * 256 + 1 * (j 0).val = (j 0).val; omega
  | ⟨1, _⟩ => show 0 * 1024 + 1 * (j 1).val = (j 1).val; omega
theorem iblk_2 (c : Dev nD) (t : Fin cfg2.N) : iblk V c 2 t = (V c main_v12_0 : Vec F S768x1024 .f32) := by
  funext j
  show V c main_v12_0 (((cfg2.win 2).blk t).view.emb j) = V c main_v12_0 j
  congr 1
  funext a; apply Fin.ext
  match a with
  | ⟨0, _⟩ => show 0 * 768 + 1 * (j 0).val = (j 0).val; omega
  | ⟨1, _⟩ => show 0 * 1024 + 1 * (j 1).val = (j 1).val; omega
theorem iblk_3 (c : Dev nD) (t : Fin cfg2.N) : iblk V c 3 t = (V c main_v12_1 : Vec F S768x1024 .f32) := by
  funext j
  show V c main_v12_1 (((cfg2.win 3).blk t).view.emb j) = V c main_v12_1 j
  congr 1
  funext a; apply Fin.ext
  match a with
  | ⟨0, _⟩ => show 0 * 768 + 1 * (j 0).val = (j 0).val; omega
  | ⟨1, _⟩ => show 0 * 1024 + 1 * (j 1).val = (j 1).val; omega
theorem iblk_4 (c : Dev nD) (t : Fin cfg2.N) : iblk V c 4 t = (V c main_v12_2 : Vec F S768x128 .f32) := by
  funext j
  show V c main_v12_2 (((cfg2.win 4).blk t).view.emb j) = V c main_v12_2 j
  congr 1
  funext a; apply Fin.ext
  match a with
  | ⟨0, _⟩ => show 0 * 768 + 1 * (j 0).val = (j 0).val; omega
  | ⟨1, _⟩ => show 0 * 128 + 1 * (j 1).val = (j 1).val; omega

theorem cover_5 (i : S1024x1024.Idx) : ∃ t : Fin cfg2.N, (cfg2.win 5).flush t = true ∧ i ∈ ((cfg2.win 5).blk t).view.set := by
  refine ⟨t2_0, flush2_5 t2_0, ?_⟩
  show i ∈ ((View.whole main_v14).slice (win2_5.rect t2_0)).set
  rw [View.set_slice_whole, Rect.mem_set_unit]
  have h0 : (i 0).val < 1024 := (i 0).isLt
  have h1 : (i 1).val < 1024 := (i 1).isLt
  intro a
  match a with
  | ⟨0, _⟩ => show 0 * 1024 ≤ (i 0).val ∧ (i 0).val < 0 * 1024 + 1024; omega
  | ⟨1, _⟩ => show 0 * 1024 ≤ (i 1).val ∧ (i 1).val < 0 * 1024 + 1024; omega

theorem read_blk5 (G : Vec F S1024x1024 .f32) (t : Fin cfg2.N) (j : ((cfg2.win 5).xblock (cfg2.grid.coords t)).Idx) :
    ((cfg2.win 5).blk t).view.read (Elt F) G j = G (((cfg2.win 5).blk t).view.emb j) := rfl

theorem xinj5 (t : Fin cfg2.N) (j : ((cfg2.win 5).xblock (cfg2.grid.coords t)).Idx) :
   ((cfg2.win 5).xinj (grid2.coords t) j : S1024x1024.Idx) = ((cfg2.win 5).blk t).view.emb j := by
    funext a; apply Fin.ext
    match a with
    | ⟨0, _⟩ => show (j 0).val = 0 * 1024 + 1 * (j 0).val; omega
    | ⟨1, _⟩ => show (j 1).val = 0 * 1024 + 1 * (j 1).val; omega

theorem after5_eq (c : Dev nD) (t : Fin cfg2.N) : (𝔇 c).after 5 t = arr5 V c := by
  rw [after_5, iblk_0, iblk_1, iblk_2, iblk_3, iblk_4]

theorem flushed_of (c : Dev nD) (t : Fin cfg2.N) (G : Vec F S1024x1024 .f32) (hG : (𝔇 c).after 5 t = G) :
    (𝔇 c).flushed 5 t = ((cfg2.win 5).blk t).view.read (Elt F) G := by
  funext j
  rw [read_blk5 G t j, ← xinj5 t j, ← hG]

theorem arrAt_of (c : Dev nD) (G : Vec F S1024x1024 .f32) (hG : ∀ t, (𝔇 c).after 5 t = G) : (𝔇 c).arrAt 5 cfg2.N = G :=
  (𝔇 c).arrAt_eq_of_cover 5 G (fun t _ => flushed_of V O Rec c t G (hG t)) (cover_5)

theorem arrAt_5 (c : Dev nD) : (𝔇 c).arrAt 5 cfg2.N = arr5 V c :=
  arrAt_of V O Rec c _ (after5_eq V O Rec c)

def V1 (c : Dev nD) (b : Ref sig .tc) : Buf (Elt F) ((c : Thread nD τ).loc b) :=
  if h : b = main_v14 then cast (congrArg (fun b' : Ref sig .tc => Buf (Elt F) ((c : Thread nD τ).loc b')) h.symm) (arr5 V c) else V c b

theorem V1_out (c : Dev nD) : V1 V c main_v14 = arr5 V c := by
  unfold V1; rw [dif_pos rfl]; exact cast_eq _ _
theorem V1_ne (c : Dev nD) (b : Ref sig .tc) (h : b ≠ main_v14) : V1 V c b = V c b := by
  unfold V1; rw [dif_neg h]

section Region

variable (adm : (p : Fin 2) → (pcfgs (F := F) p).Adm)
variable (pdats : (p : Fin 2) → (c : Dev nD) → Dat τ (Elt F) Ix Name U Lvl (Pipeline.pin (pcfgs (F := F)) adm p) c)
variable (L : GSem nD τ sig → Finset Ix) (lv : GSem nD τ sig → Ix → Lvl)

variable (R : Dev nD → sProp (MT nD τ sig Ix (Elt F) Name U Lvl))

variable (h1 : ∀ c, pdats 1 c = dat V O Rec c)

include h1 in
theorem region_body (c : Dev nD) : Pipeline.BodyObligationLoose (pdats 1 c) (defs₀ (F := F)) 𝒱₀ ι Set.univ := by
  rw [h1 c]; exact (body_obligation V O Rec 𝒱₀ ι c).loose

include h1 in
theorem region_share (c : Dev nD) (w) : (pdats 1 c).share w = fullShare := by
  rw [h1 c]; exact (𝔇 c).share_full (fun _ => rfl) w

include h1 in
theorem region_A (c : Dev nD) (w) : (pdats 1 c).A w = V c (Pipeline.arrRef (Pipeline.pin (pcfgs (F := F)) adm 1).spec w) := by
  rw [h1 c]; rfl

include h1 in
theorem region_owesAt (c : Dev nD) (t) :
    (pdats 1 c).owesAt ι t = (Pipeline.owesWithin c (O c) (Rec c ∪ cfg2.waitPairs ι) : sProp 𝕄) := by
  rw [h1 c]; rfl

include h1 in
theorem region_Φ (c : Dev nD) (t) : (pdats 1 c).Φ t = (Φc c : sProp 𝕄) := by
  rw [h1 c]; rfl

include h1 in

theorem region_arrAt (c : Dev nD) (w : Fin (Pipeline.pin (pcfgs (F := F)) adm 1).W) :
    (pdats 1 c).arrAt w cfg2.N = V1 V c (Pipeline.arrRef (Pipeline.pin (pcfgs (F := F)) adm 1).spec w) := by
  rw [h1 c]
  fin_cases w
  · exact ((𝔇 c).arrAt_in 0 rfl _).trans (V1_ne V c main_v13_0 (by decide)).symm
  · exact ((𝔇 c).arrAt_in 1 rfl _).trans (V1_ne V c main_v13_1 (by decide)).symm
  · exact ((𝔇 c).arrAt_in 2 rfl _).trans (V1_ne V c main_v12_0 (by decide)).symm
  · exact ((𝔇 c).arrAt_in 3 rfl _).trans (V1_ne V c main_v12_1 (by decide)).symm
  · exact ((𝔇 c).arrAt_in 4 rfl _).trans (V1_ne V c main_v12_2 (by decide)).symm
  · exact (arrAt_5 V O Rec c).trans (V1_out V c).symm

set_option backward.isDefEq.respectTransparency.types false in

def region (hwaits : ∀ c, (levAts L lv : sProp 𝕄) ⊢ Pipeline.cellsWaits (Pipeline.pin (pcfgs (F := F)) adm) pdats ι 1 c) :
    Pipeline.RegionSeg (pcfgs (F := F)) adm pdats ι defs₀ 𝒱₀ L lv 1 where
  win := launch2.win.to₀
  block_pos := launch2.block_pos
  stage_whole := launch2.stage_whole
  K := PEmpty
  osem k := k.elim
  ho := Pipeline.OwnSemFacts.none _
  hbody c := region_body V O Rec 𝒱₀ ι adm pdats h1 c
  hwaits := hwaits
  pre c := iprop(unscopedBufs c (V c) ∗ R c ∗ Pipeline.owesWithin c (O c) (Rec c ∪ cfg2.waitPairs ι))
  post c := iprop(unscopedBufs c (V1 V c) ∗ R c ∗ Pipeline.owesWithin c (O c) (Rec c ∪ cfg2.waitPairs ι))
  X _ := BI.emp
  Y _ := BI.emp
  Z c := iprop(Pipeline.unscopedRest (Ix := Ix) (Name := Name) (U := U) (Lvl := Lvl) spec2 c (V c) ∗ R c)
  hentry c := by
    rw [Pipeline.ownSems0_none]
    have hsplit := Pipeline.arrays_of_unscopedBufs (p := 1) (pcfgs (F := F)) adm pdats launch2.win launch2.arr_whole c
      (region_share V O Rec adm pdats h1 c) (V c) (region_A V O Rec adm pdats h1 c)
    rw [region_owesAt V O Rec ι adm pdats h1 c]
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    isplitl [Hrest]; · iexact Hrest
    iexact HR
  hin c := by
    rw [region_Φ V O Rec adm pdats h1 c]
    iintro ⟨-, -, Hr⟩; iexact Hr
  hout c := by
    rw [Pipeline.ownSems0_none, region_Φ V O Rec adm pdats h1 c]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl) launch2.win launch2.arr_whole c
      pdats (region_share V O Rec adm pdats h1 c) (V c) (V1 V c) ((pdats 1 c).arrAt · cfg2.N)
      (region_arrAt V O Rec adm pdats h1 c)
      (fun b hb => V1_ne V c b fun h => hb (h ▸ Finset.mem_image.mpr ⟨5, Finset.mem_univ _, rfl⟩))
    rw [region_owesAt V O Rec ι adm pdats h1 c]
    iintro ⟨Ha, HO, -, Hrest, HR⟩
    imodintro
    isplitl [Ha Hrest]
    · iapply hjoin; isplitl [Ha]; · iexact Ha
      iexact Hrest
    isplitl [HR]; · iexact HR
    iexact HO

end Region

end Cert.Kernel.R2

end
-- ==== Proof.B.Assemble.lean ====
import proofs.«207604_g45191645889005_cont_8to1c4_5_22_alg».proof.Proof.B.Main
import proofs.«207604_g45191645889005_cont_8to1c4_5_22_alg».proof.Proof.B.Waits
import proofs.«207604_g45191645889005_cont_8to1c4_5_22_alg».proof.Proof.B.OwesGlue
import proofs.«207604_g45191645889005_cont_8to1c4_5_22_alg».proof.Proof.B.R0Region
import proofs.«207604_g45191645889005_cont_8to1c4_5_22_alg».proof.Proof.B.R2Frame

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe

variable [FloatOps F]
variable (gs gsq : Vec F S1024x100000 .f32 → Vec F S256x1024 .f32)
variable (m : (ℓ : Loc nD τ sig) → Buf (Elt F) ℓ) (ρ : Dev nD → PrngReg)

abbrev Va : (c : Dev nD) → VT F c := fun c => Vh m c

abbrev Vb : (c : Dev nD) → VT F c := R0.V1 (Va m)

abbrev Vc : (c : Dev nD) → VT F c := fun c => afterCall c (Vb m c) (gs (m (xLoc c))) (gsq (m (xLoc c)))

abbrev Vd : (c : Dev nD) → VT F c := R2.V1 (Vc gs gsq m)

def rOut : (d : Dev nD) → Buf (Elt F) (outLoc d) := fun d => Vd gs gsq m d main_v14

abbrev d0 (c : Dev nD) : Pipeline.Dat τ (Elt F) (HIx 1) ℕ UU ℕ cfg0 c :=
  R0.datsP (Name := ℕ) (U := UU) (Lvl := ℕ) (Va m) (fun c => (K (F := F)).Otc c 0) (fun c => recT (F := F) c 0) c
abbrev d1 (c : Dev nD) : Pipeline.Dat τ (Elt F) (HIx 1) ℕ UU ℕ cfg2 c :=
  R2.dat (Name := ℕ) (U := UU) (Lvl := ℕ) (Vc gs gsq m) (fun c => (K (F := F)).Otc c 1) (fun c => recT (F := F) c 1) c
abbrev pd : (p : Fin 2) → (c : Dev nD) → Pipeline.Dat τ (Elt F) (HIx 1) ℕ UU ℕ (Pipeline.pin (pcfgs (F := F)) adm p) c :=
  pdats (d0 m) (d1 gs gsq m)

def Reg0 : Pipeline.RegionSeg (pcfgs (F := F)) adm (pd gs gsq m) (none : HIx 1) (defs₀ (F := F)) 𝒱₀ (K (F := F)).L (K (F := F)).lev 0 :=
  R0.regionP (Va m) (fun c => (K (F := F)).Otc c 0) (fun c => recT (F := F) c 0) 𝒱₀ (none : HIx 1) (K (F := F)).L (K (F := F)).lev (pd gs gsq m)
    (fun _ => rfl) (fun c => hwaits_of (pd gs gsq m) 0 c 0 (fun _ => rfl))

def Reg2 : Pipeline.RegionSeg (pcfgs (F := F)) adm (pd gs gsq m) (none : HIx 1) (defs₀ (F := F)) 𝒱₀ (K (F := F)).L (K (F := F)).lev 1 :=
  R2.region (Vc gs gsq m) (fun c => (K (F := F)).Otc c 1) (fun c => recT (F := F) c 1) 𝒱₀ (none : HIx 1) adm (pd gs gsq m) (K (F := F)).L (K (F := F)).lev
    (fun _ => iprop(emp)) (fun _ => rfl) (fun c => hwaits_of (pd gs gsq m) 1 c 1 (fun _ => rfl))

theorem Reg0_pre (d : Dev nD) : (Reg0 gs gsq m).pre d
    = iprop(unscopedBufs d (Va m d) ∗ Pipeline.owesWithin d ((K (F := F)).Otc d 0) (recT (F := F) d 0)) := rfl
theorem Reg0_post (d : Dev nD) : (Reg0 gs gsq m).post d
    = iprop(unscopedBufs d (Vb m d) ∗ Pipeline.owesWithin d ((K (F := F)).Otc d 0) (recT (F := F) d 0 ∪ cfg0.waitPairs (none : HIx 1))) := rfl
theorem Reg2_pre (d : Dev nD) : (Reg2 gs gsq m).pre d
    = iprop(unscopedBufs d (Vc gs gsq m d) ∗ emp ∗ Pipeline.owesWithin d ((K (F := F)).Otc d 1) (recT (F := F) d 1 ∪ cfg2.waitPairs (none : HIx 1))) := rfl
theorem Reg2_post (d : Dev nD) : (Reg2 gs gsq m).post d
    = iprop(unscopedBufs d (Vd gs gsq m d) ∗ emp ∗ Pipeline.owesWithin d ((K (F := F)).Otc d 1) (recT (F := F) d 1 ∪ cfg2.waitPairs (none : HIx 1))) := rfl

omit [FloatOps F] in
theorem owesT_in (d : Dev nD) (n : ℕ) :
    owesT (F := F) d n ⊢ (Pipeline.owesWithin d ((K (F := F)).Otc d n) (recT (F := F) d n) : sProp 𝕄) := by
  iintro ⟨%W, %hW, HO⟩; iexists W; isplitr
  · ipureintro; exact sub_recT d n W hW
  iexact HO
omit [FloatOps F] in
theorem owesT_in' (d : Dev nD) (n : ℕ) (cfg : Pipeline.Cfg sig Λ₀) :
    owesT (F := F) d n ⊢ (Pipeline.owesWithin d ((K (F := F)).Otc d n) (recT (F := F) d n ∪ cfg.waitPairs (none : HIx 1)) : sProp 𝕄) :=
  (owesT_in d n).trans (Pipeline.owesWithin_mono d _ Set.subset_union_left)
omit [FloatOps F] in
theorem owesT_out (d : Dev nD) (n : ℕ) (cfg : Pipeline.Cfg sig Λ₀) :
    (Pipeline.owesWithin d ((K (F := F)).Otc d n) (recT (F := F) d n ∪ cfg.waitPairs (none : HIx 1)) : sProp 𝕄) ⊢ owesT (F := F) d n := by
  iintro ⟨%W, %hW, HO⟩; iexists W; isplitr
  · ipureintro; exact wbelow_after d n cfg W hW
  iexact HO

theorem hpre0 (d : Dev nD) : iprop(unscopedBufs d (Vh m d) ∗ owesT (F := F) d 0) ⊢ (Reg0 gs gsq m).pre d := by
  rw [Reg0_pre]
  iintro ⟨Hu, HO⟩
  isplitl [Hu]; · iexact Hu
  iapply (owesT_in d 0); iexact HO
theorem hpost0 (d : Dev nD) : (Reg0 gs gsq m).post d ⊢ iprop(unscopedBufs d (Vb m d) ∗ owesT (F := F) d 0) := by
  rw [Reg0_post]
  iintro ⟨Hu, HO⟩
  isplitl [Hu]; · iexact Hu
  iapply (owesT_out d 0 cfg0); iexact HO
theorem hpre2 (d : Dev nD) :
    iprop(unscopedBufs d (afterCall d (Vb m d) (gs (m (xLoc d))) (gsq (m (xLoc d)))) ∗ owesT (F := F) d 1) ⊢ (Reg2 gs gsq m).pre d := by
  rw [Reg2_pre]
  iintro ⟨Hu, HO⟩
  isplitl [Hu]; · iexact Hu
  isplitr; · iempintro
  iapply (owesT_in' d 1 cfg2); iexact HO
theorem hpost2 (d : Dev nD) : (Reg2 gs gsq m).post d ⊢ iprop(unscopedBufs d (Vd gs gsq m d) ∗ owesT (F := F) d 1) := by
  rw [Reg2_post]
  iintro ⟨Hu, -, HO⟩
  isplitl [Hu]; · iexact Hu
  iapply (owesT_out d 1 cfg2); iexact HO

theorem after_v13_0 (W : Valuation τ sig (Elt F)) :
    StableHlo.after (hostOps (F := F)) W (Proc.devRef .tc main_v13_0) = W (Proc.devRef .tc main_v13_0) := by
  unfold hostOps
  after_results
theorem after_v13_1 (W : Valuation τ sig (Elt F)) :
    StableHlo.after (hostOps (F := F)) W (Proc.devRef .tc main_v13_1) = W (Proc.devRef .tc main_v13_1) := by
  unfold hostOps
  after_results

theorem Va_arg0 (d : Dev nD) : Va m d main_arg0 = m (xLoc d) := after_arg0 (W0 m d)
theorem Va_gs (d : Dev nD) : Va m d main_v13_0 = m (gsLoc d) := after_v13_0 (W0 m d)
theorem Va_gsq (d : Dev nD) : Va m d main_v13_1 = m (gsqLoc d) := after_v13_1 (W0 m d)
theorem Va_sel (d : Dev nD) : Va m d main_v11 = (selVal (F := F) : Vec F S12544x128 .bf16) := after_sel (W0 m d)

theorem Vb_arg0 (d : Dev nD) : Vb m d main_arg0 = m (xLoc d) :=
  (R0.V1_of_ne (Va m) d main_arg0 (by decide) (by decide) (by decide)).trans (Va_arg0 m d)
theorem Vb_gs (d : Dev nD) : Vb m d main_v13_0 = m (gsLoc d) :=
  (R0.V1_of_ne (Va m) d main_v13_0 (by decide) (by decide) (by decide)).trans (Va_gs m d)
theorem Vb_gsq (d : Dev nD) : Vb m d main_v13_1 = m (gsqLoc d) :=
  (R0.V1_of_ne (Va m) d main_v13_1 (by decide) (by decide) (by decide)).trans (Va_gsq m d)
theorem Vb_v12_0 (d : Dev nD) : Vb m d main_v12_0 = R0.arr2 (Va m) d := R0.V1_v12_0 (Va m) d
theorem Vb_v12_1 (d : Dev nD) : Vb m d main_v12_1 = R0.arr3 (Va m) d := R0.V1_v12_1 (Va m) d
theorem Vb_v12_2 (d : Dev nD) : Vb m d main_v12_2 = R0.arr4 (Va m) d := R0.V1_v12_2 (Va m) d

theorem Vc_gs (d : Dev nD) : Vc gs gsq m d main_v13_0 = gs (m (xLoc d)) := afterCall_gs d _ _ _
theorem Vc_gsq (d : Dev nD) : Vc gs gsq m d main_v13_1 = gsq (m (xLoc d)) := afterCall_gsq d _ _ _
theorem Vc_arg0 (d : Dev nD) : Vc gs gsq m d main_arg0 = m (xLoc d) :=
  (afterCall_ne d _ _ _ (by decide) (by decide)).trans (Vb_arg0 m d)
theorem Vc_v12_0 (d : Dev nD) : Vc gs gsq m d main_v12_0 = R0.arr2 (Va m) d :=
  (afterCall_ne d _ _ _ (by decide) (by decide)).trans (Vb_v12_0 m d)
theorem Vc_v12_1 (d : Dev nD) : Vc gs gsq m d main_v12_1 = R0.arr3 (Va m) d :=
  (afterCall_ne d _ _ _ (by decide) (by decide)).trans (Vb_v12_1 m d)
theorem Vc_v12_2 (d : Dev nD) : Vc gs gsq m d main_v12_2 = R0.arr4 (Va m) d :=
  (afterCall_ne d _ _ _ (by decide) (by decide)).trans (Vb_v12_2 m d)

theorem Vd_arg0 (d : Dev nD) : Vd gs gsq m d main_arg0 = m (xLoc d) :=
  (R2.V1_ne (Vc gs gsq m) d main_arg0 (by decide)).trans (Vc_arg0 gs gsq m d)
theorem rOut_eq (d : Dev nD) : rOut gs gsq m d = R2.arr5 (Vc gs gsq m) d := R2.V1_out (Vc gs gsq m) d

theorem hmain_F (κ : GSem nD τ sig → ℕ) (d : Dev nD) :
    iprop((K (F := F)).ctx EH (P gs gsq m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN (rOut gs gsq m) m d) :=
  hmain_of gs gsq m ρ (pd gs gsq m) (Reg0 gs gsq m) (Reg2 gs gsq m) (Vb m) (Vd gs gsq m) (rOut gs gsq m)
    (hpre0 gs gsq m) (hpost0 gs gsq m) (Vb_arg0 m) (Vb_gs m) (Vb_gsq m) (hpre2 gs gsq m) (hpost2 gs gsq m) (Vd_arg0 gs gsq m) (fun _ => rfl) κ d

theorem run_F [∀ e, Nonempty (Elt F e)] (htile : (K (F := F)).TileObl (D (F := F)) 𝒱 (P gs gsq m) v₀ 0) :
    θ_run (Cert.Kernel.defs (F := F)) (Cert.Kernel.threads (F := F)) ⟨m, fun _ => 0, ρ⟩ (QC (rOut gs gsq m) m) :=
  run_of gs gsq (rOut gs gsq m) m ρ htile (hmain_F gs gsq m ρ)

end Cert.Kernel.Pf

end
-- ==== Proof.B.TileSetup.lean ====
import proofs.«207604_g45191645889005_cont_8to1c4_5_22_alg».proof.Proof.B.Ghost
import proofs.«207604_g45191645889005_cont_8to1c4_5_22_alg».proof.Proof.B.TilePay
import proofs.«207604_g45191645889005_cont_8to1c4_5_22_alg».proof.Proof.TileFun
import proofs.«207604_g45191645889005_cont_8to1c4_5_22_alg».proof.Proof.Gen.Kernel.Skeleton
import Idealize.ShloMosaic.Lib.Tactic
import Idealize.ShloMosaic.Lib.SparseCore.Ops
import Idealize.ShloMosaic.Lib.Writes
import Idealize.ShloMosaic.Lib.ValueIdx

noncomputable section

namespace Cert.Kernel.Pf

open Cert.Kernel Cert.Kernel.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

theorem pts_bA (d : Dev nD) (L : grid1.Coords) (f : Buf (Elt F) ((thr d L).loc cc1_scratch0)) :
    ((bA).view.loc (thr d L) ↦{fullShare} f : sProp 𝕄) = (thr d L).loc cc1_scratch0 ↦{fullShare} f := rfl
theorem pts_bB (d : Dev nD) (L : grid1.Coords) (f : Buf (Elt F) ((thr d L).loc cc1_scratch1)) :
    ((bB).view.loc (thr d L) ↦{fullShare} f : sProp 𝕄) = (thr d L).loc cc1_scratch1 ↦{fullShare} f := rfl
theorem pts_bO (d : Dev nD) (L : grid1.Coords) (f : Buf (Elt F) ((thr d L).loc cc1_scratch2)) :
    ((bO).view.loc (thr d L) ↦{fullShare} f : sProp 𝕄) = (thr d L).loc cc1_scratch2 ↦{fullShare} f := rfl
theorem pts_bP (d : Dev nD) (L : grid1.Coords) (f : Buf (Elt F) ((thr d L).loc cc1_scratch3)) :
    ((bP).view.loc (thr d L) ↦{fullShare} f : sProp 𝕄) = (thr d L).loc cc1_scratch3 ↦{fullShare} f := rfl
theorem pts_tS (d : Dev nD) (L : grid1.Coords) (f : Buf (Elt F) ((thr d L).loc cc1_scratch4)) :
    ((tS).view.loc (thr d L) ↦{fullShare} f : sProp 𝕄) = (thr d L).loc cc1_scratch4 ↦{fullShare} f := rfl
theorem pts_tQ (d : Dev nD) (L : grid1.Coords) (f : Buf (Elt F) ((thr d L).loc cc1_scratch5)) :
    ((tQ).view.loc (thr d L) ↦{fullShare} f : sProp 𝕄) = (thr d L).loc cc1_scratch5 ↦{fullShare} f := rfl

theorem writesO_apply (d : Dev nD) (L : grid1.Coords) (f : Buf (Elt F) ((thr d L).loc cc1_scratch2)) (off : Fin 1 → ℕ) (h : ∀ a, off a + S16.size a ≤ S1024.size a)
    (w : FVec F S16 .f32) (j : S1024.Idx) :
    ((bO).view.writes (Elt F) f [⟨Rect.unit (s := S1024) off S16.size h, w⟩]) j
      = if hj : off 0 ≤ (j 0).val ∧ (j 0).val < off 0 + 16 then w (ValueIdx.ix1 ⟨(j 0).val - off 0, by omega⟩) else f j := by
  by_cases hj : off 0 ≤ (j 0).val ∧ (j 0).val < off 0 + 16
  · rw [dif_pos hj]
    have e : (Rect.unit (s := S1024) off S16.size h).emb (ValueIdx.ix1 ⟨(j 0).val - off 0, by omega⟩) = j := by
      funext a; apply Fin.ext
      obtain rfl : a = 0 := Subsingleton.elim _ _
      rw [Rect.emb_apply]
      show off 0 + 1 * ((j 0).val - off 0) = (j 0).val
      omega
    have := View.read_writes_cons_emb (bO).view (Val := Elt F) f (Rect.unit (s := S1024) off S16.size h) w [] (ValueIdx.ix1 ⟨(j 0).val - off 0, by omega⟩)
    rw [e] at this
    exact this
  · rw [dif_neg hj]
    have key := View.read_writes_apply_of_forall_not_mem (bO).view (Val := Elt F) f j [⟨Rect.unit (s := S1024) off S16.size h, w⟩] (by
      intro p hp
      rw [List.mem_singleton] at hp
      subst hp
      intro hm
      have hm' : j ∈ (Rect.unit (s := S1024) off S16.size h).set := hm
      have := ((Rect.mem_set_unit (s := S1024) (off := off) (size := S16.size) (inb := h) (i := j)).mp hm') 0
      exact hj ⟨this.1, this.2⟩)
    exact key

theorem writesP_apply (d : Dev nD) (L : grid1.Coords) (f : Buf (Elt F) ((thr d L).loc cc1_scratch3)) (off : Fin 1 → ℕ) (h : ∀ a, off a + S16.size a ≤ S1024.size a)
    (w : FVec F S16 .f32) (j : S1024.Idx) :
    ((bP).view.writes (Elt F) f [⟨Rect.unit (s := S1024) off S16.size h, w⟩]) j
      = if hj : off 0 ≤ (j 0).val ∧ (j 0).val < off 0 + 16 then w (ValueIdx.ix1 ⟨(j 0).val - off 0, by omega⟩) else f j := by
  by_cases hj : off 0 ≤ (j 0).val ∧ (j 0).val < off 0 + 16
  · rw [dif_pos hj]
    have e : (Rect.unit (s := S1024) off S16.size h).emb (ValueIdx.ix1 ⟨(j 0).val - off 0, by omega⟩) = j := by
      funext a; apply Fin.ext
      obtain rfl : a = 0 := Subsingleton.elim _ _
      rw [Rect.emb_apply]
      show off 0 + 1 * ((j 0).val - off 0) = (j 0).val
      omega
    have := View.read_writes_cons_emb (bP).view (Val := Elt F) f (Rect.unit (s := S1024) off S16.size h) w [] (ValueIdx.ix1 ⟨(j 0).val - off 0, by omega⟩)
    rw [e] at this
    exact this
  · rw [dif_neg hj]
    have key := View.read_writes_apply_of_forall_not_mem (bP).view (Val := Elt F) f j [⟨Rect.unit (s := S1024) off S16.size h, w⟩] (by
      intro p hp
      rw [List.mem_singleton] at hp
      subst hp
      intro hm
      have hm' : j ∈ (Rect.unit (s := S1024) off S16.size h).set := hm
      have := ((Rect.mem_set_unit (s := S1024) (off := off) (size := S16.size) (inb := h) (i := j)).mp hm') 0
      exact hj ⟨this.1, this.2⟩)
    exact key

def DoneS (b0 : ℕ) (val : ℕ → FVec F S16 .f32) (g : Vec F S1024 .f32) (k : ℕ) (f : Vec F S1024 .f32) : Prop :=
  (∀ j : S1024.Idx, (j 0).val < b0 → f j = g j)
    ∧ ∀ (q : ℕ) (s : Fin 16) (h : b0 + 16 * q + s.val < 1024), q < k → f (ValueIdx.ix1 ⟨b0 + 16 * q + s.val, h⟩) = val q (ValueIdx.ix1 s)

theorem DoneS_zero (b0 : ℕ) (val : ℕ → FVec F S16 .f32) (g : Vec F S1024 .f32) : DoneS b0 val g 0 g :=
  ⟨fun _ _ => rfl, fun _ _ _ h => absurd h (Nat.not_lt_zero _)⟩

theorem DoneS_step {b0 : ℕ} {val : ℕ → FVec F S16 .f32} {g : Vec F S1024 .f32} {k : ℕ} {f f' : Vec F S1024 .f32} {o : ℕ} {w : FVec F S16 .f32}
    (ho : o = b0 + 16 * k) (hw : w = val k) (hf : DoneS b0 val g k f)
    (hf' : ∀ j : S1024.Idx, f' j = if hj : o ≤ (j 0).val ∧ (j 0).val < o + 16 then w (ValueIdx.ix1 ⟨(j 0).val - o, by omega⟩) else f j) :
    DoneS b0 val g (k + 1) f' := by
  obtain ⟨h1, h2⟩ := hf
  refine ⟨fun j hj => ?_, fun q s h hq => ?_⟩
  · rw [hf' j, dif_neg (by omega)]; exact h1 j hj
  · rw [hf' _]
    by_cases e : q = k
    · subst e
      have hs := s.isLt
      rw [dif_pos (by show o ≤ b0 + 16 * q + s.val ∧ b0 + 16 * q + s.val < o + 16; omega), hw]
      congr 2
      apply Fin.ext
      show b0 + 16 * q + s.val - o = s.val
      omega
    · have hs := s.isLt
      rw [dif_neg (by show ¬ (o ≤ b0 + 16 * q + s.val ∧ b0 + 16 * q + s.val < o + 16); omega)]
      exact h2 q s h (by omega)

/-- Each index vector the tile makes stays inside the 272-word scratch: the side conditions the body assumes, as closed facts. -/
theorem chk1 : k1_chk1 (Tile.stIdx 0) := by unfold k1_chk1; decide
theorem chk2 : k1_chk2 (Tile.stIdx 1) := by unfold k1_chk2; decide
theorem chk3 : k1_chk3 (Tile.stIdx 2) := by unfold k1_chk3; decide
theorem chk4 : k1_chk4 (Tile.stIdx 3) := by unfold k1_chk4; decide
theorem chk5 : k1_chk5 (Tile.stIdx 4) := by unfold k1_chk5; decide
theorem chk6 : k1_chk6 (Tile.stIdx 5) := by unfold k1_chk6; decide
theorem chk7 : k1_chk7 (Tile.stIdx 6) := by unfold k1_chk7; decide
theorem chk8 : k1_chk8 (Tile.stIdx 7) := by unfold k1_chk8; decide
theorem chk9 : k1_chk9 (Tile.stIdx 8) := by unfold k1_chk9; decide
theorem chk10 : k1_chk10 (Tile.stIdx 9) := by unfold k1_chk10; decide
theorem chk11 : k1_chk11 (Tile.stIdx 10) := by unfold k1_chk11; decide
theorem chk12 : k1_chk12 (Tile.stIdx 11) := by unfold k1_chk12; decide
theorem chk13 : k1_chk13 (Tile.stIdx 12) := by unfold k1_chk13; decide
theorem chk14 : k1_chk14 (Tile.stIdx 13) := by unfold k1_chk14; decide
theorem chk15 : k1_chk15 (Tile.stIdx 14) := by unfold k1_chk15; decide
theorem chk16 : k1_chk16 (Tile.stIdx 15) := by unfold k1_chk16; decide
theorem chk17 : k1_chk17 (Tile.ldIdx 0) := by unfold k1_chk17; decide
theorem chk18 : k1_chk18 (Tile.ldIdx 1) := by unfold k1_chk18; decide
theorem chk19 : k1_chk19 (Tile.ldIdx 2) := by unfold k1_chk19; decide
theorem chk20 : k1_chk20 (Tile.ldIdx 3) := by unfold k1_chk20; decide
theorem chk21 : k1_chk21 (Tile.ldIdx 4) := by unfold k1_chk21; decide
theorem chk22 : k1_chk22 (Tile.ldIdx 5) := by unfold k1_chk22; decide
theorem chk23 : k1_chk23 (Tile.ldIdx 6) := by unfold k1_chk23; decide
theorem chk24 : k1_chk24 (Tile.ldIdx 7) := by unfold k1_chk24; decide
theorem chk25 : k1_chk25 (Tile.ldIdx 8) := by unfold k1_chk25; decide
theorem chk26 : k1_chk26 (Tile.ldIdx 9) := by unfold k1_chk26; decide
theorem chk27 : k1_chk27 (Tile.ldIdx 10) := by unfold k1_chk27; decide
theorem chk28 : k1_chk28 (Tile.ldIdx 11) := by unfold k1_chk28; decide
theorem chk29 : k1_chk29 (Tile.ldIdx 12) := by unfold k1_chk29; decide
theorem chk30 : k1_chk30 (Tile.ldIdx 13) := by unfold k1_chk30; decide
theorem chk31 : k1_chk31 (Tile.ldIdx 14) := by unfold k1_chk31; decide
theorem chk32 : k1_chk32 (Tile.ldIdx 15) := by unfold k1_chk32; decide

end Cert.Kernel.Pf

end
-- ==== Proof.B.TileSets.lean ====
import proofs.«207604_g45191645889005_cont_8to1c4_5_22_alg».proof.Proof.B.TilePay
import proofs.«207604_g45191645889005_cont_8to1c4_5_22_alg».proof.Proof.TileFun
import Idealize.ShloMosaic.Lib.ValueIdx

noncomputable section

namespace Cert.Kernel.Pf

open Cert.Kernel Cert.Kernel.Gen

open Idealize.ShloMosaic Idealize.ShloMosaic.ValueIdx

variable {F : FTy → Type} [FloatOps F]

def colsA (r : ℕ) : Finset S1024x100000.Idx := Finset.univ.filter fun j => (j 0).val = r ∧ (j 1).val < 50176
def colsB (r : ℕ) : Finset S1024x100000.Idx := Finset.univ.filter fun j => (j 0).val = r ∧ 50176 ≤ (j 1).val

def allA (w : ℕ) : Finset S1024x100000.Idx := (rowsX w).filter fun j => (j 1).val < 50176
def allB (w : ℕ) : Finset S1024x100000.Idx := (rowsX w).filter fun j => 50176 ≤ (j 1).val

def rowO (r : ℕ) : Finset S256x1024.Idx := Finset.univ.filter fun j => (j 0).val = r

omit [FloatOps F] in
theorem mem_colsA {r : ℕ} {j : S1024x100000.Idx} : j ∈ colsA r ↔ (j 0).val = r ∧ (j 1).val < 50176 := by
  unfold colsA; rw [Finset.mem_filter]; exact ⟨fun h => h.2, fun h => ⟨Finset.mem_univ _, h⟩⟩
omit [FloatOps F] in
theorem mem_colsB {r : ℕ} {j : S1024x100000.Idx} : j ∈ colsB r ↔ (j 0).val = r ∧ 50176 ≤ (j 1).val := by
  unfold colsB; rw [Finset.mem_filter]; exact ⟨fun h => h.2, fun h => ⟨Finset.mem_univ _, h⟩⟩
omit [FloatOps F] in
theorem mem_allA {w : ℕ} {j : S1024x100000.Idx} :
    j ∈ allA w ↔ (8 * w ≤ (j 0).val ∧ (j 0).val < 8 * w + 8) ∧ (j 1).val < 50176 := by
  unfold allA; rw [Finset.mem_filter, mem_rowsX]
omit [FloatOps F] in
theorem mem_allB {w : ℕ} {j : S1024x100000.Idx} :
    j ∈ allB w ↔ (8 * w ≤ (j 0).val ∧ (j 0).val < 8 * w + 8) ∧ 50176 ≤ (j 1).val := by
  unfold allB; rw [Finset.mem_filter, mem_rowsX]
omit [FloatOps F] in
theorem mem_rowO {r : ℕ} {j : S256x1024.Idx} : j ∈ rowO r ↔ (j 0).val = r := by
  unfold rowO; rw [Finset.mem_filter]; exact ⟨fun h => h.2, fun h => ⟨Finset.mem_univ _, h⟩⟩

abbrev slA (off : Fin 2 → ℕ) (h : ∀ a, off a + S1x50176.size a ≤ S1024x100000.size a) : Memref sig .scVector .hbm S50176 .f32 :=
  ((aX).slice (Rect.unit (s := S1024x100000) off S1x50176.size h) (fun _ => rfl)).squeeze S50176 squeezes_S1x50176_S50176
abbrev slB (off : Fin 2 → ℕ) (h : ∀ a, off a + S1x49824.size a ≤ S1024x100000.size a) : Memref sig .scVector .hbm S49824 .f32 :=
  ((aX).slice (Rect.unit (s := S1024x100000) off S1x49824.size h) (fun _ => rfl)).squeeze S49824 squeezes_S1x49824_S49824
abbrev slG (off : Fin 2 → ℕ) (h : ∀ a, off a + S1x1024.size a ≤ S256x1024.size a) : Memref sig .scVector .hbm S1024 .f32 :=
  ((aG).slice (Rect.unit (s := S256x1024) off S1x1024.size h) (fun _ => rfl)).squeeze S1024 squeezes_S1x1024_S1024
abbrev slQ (off : Fin 2 → ℕ) (h : ∀ a, off a + S1x1024.size a ≤ S256x1024.size a) : Memref sig .scVector .hbm S1024 .f32 :=
  ((aQ).slice (Rect.unit (s := S256x1024) off S1x1024.size h) (fun _ => rfl)).squeeze S1024 squeezes_S1x1024_S1024

omit [FloatOps F] in

theorem squeeze_row {n : ℕ} (hn : (⟨1, ![n]⟩ : Shape).numel = (⟨2, ![1, n]⟩ : Shape).numel) (j : (⟨1, ![n]⟩ : Shape).Idx) :
    ((Shape.reshapeEquiv hn j) 0).val = 0 ∧ ((Shape.reshapeEquiv hn j) 1).val = (j 0).val := by
  have e := Shape.rowMajor_reshapeEquiv hn j
  rw [Shape.rowMajor_val_two, Shape.rowMajor_val_one] at e
  have h0 : ((Shape.reshapeEquiv hn j) 0).val = 0 := by
    have := ((Shape.reshapeEquiv hn j) 0).isLt
    change _ < 1 at this
    omega
  rw [h0, Nat.zero_mul, Nat.zero_add] at e
  exact ⟨h0, e⟩

omit [FloatOps F] in
theorem set_slA (off : Fin 2 → ℕ) (h : ∀ a, off a + S1x50176.size a ≤ S1024x100000.size a) (r : ℕ) (hoff : off = ![r, 0]) :
    (slA off h).view.set = colsA r := by
  subst hoff
  show (((aX).view.slice (Rect.unit (s := S1024x100000) ![r, 0] S1x50176.size h)).reshape S50176 squeezes_S1x50176_S50176.numel_eq).set = _
  rw [View.set_reshape]
  show ((View.whole main_arg0_scv).slice (Rect.unit (s := S1024x100000) ![r, 0] S1x50176.size h)).set = _
  rw [View.set_slice_whole]
  ext j
  rw [Rect.mem_set_unit, mem_colsA]
  constructor
  · intro hj
    have h0 : r ≤ (j 0).val ∧ (j 0).val < r + 1 := hj 0
    have h1 : 0 ≤ (j 1).val ∧ (j 1).val < 0 + 50176 := hj 1
    omega
  · intro hj a
    match a with
    | ⟨0, _⟩ => show r ≤ (j 0).val ∧ (j 0).val < r + 1; omega
    | ⟨1, _⟩ => show 0 ≤ (j 1).val ∧ (j 1).val < 0 + 50176; omega

omit [FloatOps F] in
theorem set_slB (off : Fin 2 → ℕ) (h : ∀ a, off a + S1x49824.size a ≤ S1024x100000.size a) (r : ℕ) (hoff : off = ![r, 50176]) :
    (slB off h).view.set = colsB r := by
  subst hoff
  show (((aX).view.slice (Rect.unit (s := S1024x100000) ![r, 50176] S1x49824.size h)).reshape S49824 squeezes_S1x49824_S49824.numel_eq).set = _
  rw [View.set_reshape]
  show ((View.whole main_arg0_scv).slice (Rect.unit (s := S1024x100000) ![r, 50176] S1x49824.size h)).set = _
  rw [View.set_slice_whole]
  ext j
  rw [Rect.mem_set_unit, mem_colsB]
  constructor
  · intro hj
    have h0 : r ≤ (j 0).val ∧ (j 0).val < r + 1 := hj 0
    have h1 : 50176 ≤ (j 1).val ∧ (j 1).val < 50176 + 49824 := hj 1
    omega
  · intro hj a
    match a with
    | ⟨0, _⟩ => show r ≤ (j 0).val ∧ (j 0).val < r + 1; omega
    | ⟨1, _⟩ => show 50176 ≤ (j 1).val ∧ (j 1).val < 50176 + 49824; have := idx2_lt1 j; omega

omit [FloatOps F] in
theorem set_slG (off : Fin 2 → ℕ) (h : ∀ a, off a + S1x1024.size a ≤ S256x1024.size a) (r : ℕ) (hoff : off = ![r, 0]) :
    (slG off h).view.set = rowO r := by
  subst hoff
  show (((aG).view.slice (Rect.unit (s := S256x1024) ![r, 0] S1x1024.size h)).reshape S1024 squeezes_S1x1024_S1024.numel_eq).set = _
  rw [View.set_reshape]
  show ((View.whole main_v13_0_scv).slice (Rect.unit (s := S256x1024) ![r, 0] S1x1024.size h)).set = _
  rw [View.set_slice_whole]
  ext j
  rw [Rect.mem_set_unit, mem_rowO]
  constructor
  · intro hj
    have h0 : r ≤ (j 0).val ∧ (j 0).val < r + 1 := hj 0
    omega
  · intro hj a
    match a with
    | ⟨0, _⟩ => show r ≤ (j 0).val ∧ (j 0).val < r + 1; omega
    | ⟨1, _⟩ => show 0 ≤ (j 1).val ∧ (j 1).val < 0 + 1024; have := idx2_lt1 j; omega

omit [FloatOps F] in
theorem set_slQ (off : Fin 2 → ℕ) (h : ∀ a, off a + S1x1024.size a ≤ S256x1024.size a) (r : ℕ) (hoff : off = ![r, 0]) :
    (slQ off h).view.set = rowO r := by
  subst hoff
  show (((aQ).view.slice (Rect.unit (s := S256x1024) ![r, 0] S1x1024.size h)).reshape S1024 squeezes_S1x1024_S1024.numel_eq).set = _
  rw [View.set_reshape]
  show ((View.whole main_v13_1_scv).slice (Rect.unit (s := S256x1024) ![r, 0] S1x1024.size h)).set = _
  rw [View.set_slice_whole]
  ext j
  rw [Rect.mem_set_unit, mem_rowO]
  constructor
  · intro hj
    have h0 : r ≤ (j 0).val ∧ (j 0).val < r + 1 := hj 0
    omega
  · intro hj a
    match a with
    | ⟨0, _⟩ => show r ≤ (j 0).val ∧ (j 0).val < r + 1; omega
    | ⟨1, _⟩ => show 0 ≤ (j 1).val ∧ (j 1).val < 0 + 1024; have := idx2_lt1 j; omega

omit [FloatOps F] in
theorem emb_slA (off : Fin 2 → ℕ) (h : ∀ a, off a + S1x50176.size a ≤ S1024x100000.size a) (r : ℕ) (hoff : off = ![r, 0]) (j : S50176.Idx) :
    (((slA off h).view.emb j : S1024x100000.Idx) 0).val = r ∧ (((slA off h).view.emb j : S1024x100000.Idx) 1).val = (j 0).val := by
  subst hoff
  have hq := squeeze_row squeezes_S1x50176_S50176.numel_eq j
  constructor
  · show (![r, 0] : Fin 2 → ℕ) 0 + 1 * ((Shape.reshapeEquiv squeezes_S1x50176_S50176.numel_eq j) 0).val = r
    rw [hq.1]; simp
  · show (![r, 0] : Fin 2 → ℕ) 1 + 1 * ((Shape.reshapeEquiv squeezes_S1x50176_S50176.numel_eq j) 1).val = (j 0).val
    rw [hq.2]; simp

omit [FloatOps F] in
theorem emb_slB (off : Fin 2 → ℕ) (h : ∀ a, off a + S1x49824.size a ≤ S1024x100000.size a) (r : ℕ) (hoff : off = ![r, 50176]) (j : S49824.Idx) :
    (((slB off h).view.emb j : S1024x100000.Idx) 0).val = r ∧ (((slB off h).view.emb j : S1024x100000.Idx) 1).val = 50176 + (j 0).val := by
  subst hoff
  have hq := squeeze_row squeezes_S1x49824_S49824.numel_eq j
  constructor
  · show (![r, 50176] : Fin 2 → ℕ) 0 + 1 * ((Shape.reshapeEquiv squeezes_S1x49824_S49824.numel_eq j) 0).val = r
    rw [hq.1]; simp
  · show (![r, 50176] : Fin 2 → ℕ) 1 + 1 * ((Shape.reshapeEquiv squeezes_S1x49824_S49824.numel_eq j) 1).val = 50176 + (j 0).val
    rw [hq.2]; simp

omit [FloatOps F] in
theorem emb_slG (off : Fin 2 → ℕ) (h : ∀ a, off a + S1x1024.size a ≤ S256x1024.size a) (r : ℕ) (hoff : off = ![r, 0]) (j : S1024.Idx) :
    (((slG off h).view.emb j : S256x1024.Idx) 0).val = r ∧ (((slG off h).view.emb j : S256x1024.Idx) 1).val = (j 0).val := by
  subst hoff
  have hq := squeeze_row squeezes_S1x1024_S1024.numel_eq j
  constructor
  · show (![r, 0] : Fin 2 → ℕ) 0 + 1 * ((Shape.reshapeEquiv squeezes_S1x1024_S1024.numel_eq j) 0).val = r
    rw [hq.1]; simp
  · show (![r, 0] : Fin 2 → ℕ) 1 + 1 * ((Shape.reshapeEquiv squeezes_S1x1024_S1024.numel_eq j) 1).val = (j 0).val
    rw [hq.2]; simp

omit [FloatOps F] in
theorem emb_slQ (off : Fin 2 → ℕ) (h : ∀ a, off a + S1x1024.size a ≤ S256x1024.size a) (r : ℕ) (hoff : off = ![r, 0]) (j : S1024.Idx) :
    (((slQ off h).view.emb j : S256x1024.Idx) 0).val = r ∧ (((slQ off h).view.emb j : S256x1024.Idx) 1).val = (j 0).val := by
  subst hoff
  have hq := squeeze_row squeezes_S1x1024_S1024.numel_eq j
  constructor
  · show (![r, 0] : Fin 2 → ℕ) 0 + 1 * ((Shape.reshapeEquiv squeezes_S1x1024_S1024.numel_eq j) 0).val = r
    rw [hq.1]; simp
  · show (![r, 0] : Fin 2 → ℕ) 1 + 1 * ((Shape.reshapeEquiv squeezes_S1x1024_S1024.numel_eq j) 1).val = (j 0).val
    rw [hq.2]; simp

theorem read_slA (off : Fin 2 → ℕ) (h : ∀ a, off a + S1x50176.size a ≤ S1024x100000.size a) (r : Fin 1024) (hoff : off = ![r.val, 0])
    (x : Vec F S1024x100000 .f32) : (slA off h).view.read (Elt F) x = Cert.Proof.Tile.hA x r := by
  funext j
  have he := emb_slA off h r.val hoff j
  rw [View.read_apply]
  refine (cast_eq _ _).trans ?_
  refine congrArg x (funext fun a => Fin.ext ?_)
  match a with
  | ⟨0, _⟩ => exact he.1
  | ⟨1, _⟩ => exact he.2

theorem read_slB (off : Fin 2 → ℕ) (h : ∀ a, off a + S1x49824.size a ≤ S1024x100000.size a) (r : Fin 1024) (hoff : off = ![r.val, 50176])
    (x : Vec F S1024x100000 .f32) : (slB off h).view.read (Elt F) x = Cert.Proof.Tile.hB x r := by
  funext j
  have he := emb_slB off h r.val hoff j
  rw [View.read_apply]
  refine (cast_eq _ _).trans ?_
  refine congrArg x (funext fun a => Fin.ext ?_)
  match a with
  | ⟨0, _⟩ => exact he.1
  | ⟨1, _⟩ => exact he.2

theorem write_slG (off : Fin 2 → ℕ) (h : ∀ a, off a + S1x1024.size a ≤ S256x1024.size a) (r : Fin 256) (hoff : off = ![r.val, 0])
    (g : Vec F S256x1024 .f32) (w : Vec F S1024 .f32) :
    (slG off h).view.write (Elt F) g w Finset.univ = fun j => if (j 0).val = r.val then w (ix1 (j 1)) else g j := by
  funext j
  by_cases hj : (j 0).val = r.val
  · rw [if_pos hj]
    have he := emb_slG off h r.val hoff (ix1 (j 1))
    have hje : (slG off h).view.emb (ix1 (j 1)) = j := funext fun a => Fin.ext (by
      match a with
      | ⟨0, _⟩ => exact he.1.trans hj.symm
      | ⟨1, _⟩ => exact he.2)
    exact (congrArg ((slG off h).view.write (Elt F) g w Finset.univ) hje.symm).trans
      ((View.write_emb_of_mem _ _ (Finset.mem_univ _)).trans (cast_eq _ _))
  · rw [if_neg hj]
    refine View.write_of_not_mem _ _ _ ?_
    rw [View.setOn_univ, set_slG off h r.val hoff, mem_rowO]
    exact hj

theorem write_slQ (off : Fin 2 → ℕ) (h : ∀ a, off a + S1x1024.size a ≤ S256x1024.size a) (r : Fin 256) (hoff : off = ![r.val, 0])
    (g : Vec F S256x1024 .f32) (w : Vec F S1024 .f32) :
    (slQ off h).view.write (Elt F) g w Finset.univ = fun j => if (j 0).val = r.val then w (ix1 (j 1)) else g j := by
  funext j
  by_cases hj : (j 0).val = r.val
  · rw [if_pos hj]
    have he := emb_slQ off h r.val hoff (ix1 (j 1))
    have hje : (slQ off h).view.emb (ix1 (j 1)) = j := funext fun a => Fin.ext (by
      match a with
      | ⟨0, _⟩ => exact he.1.trans hj.symm
      | ⟨1, _⟩ => exact he.2)
    exact (congrArg ((slQ off h).view.write (Elt F) g w Finset.univ) hje.symm).trans
      ((View.write_emb_of_mem _ _ (Finset.mem_univ _)).trans (cast_eq _ _))
  · rw [if_neg hj]
    refine View.write_of_not_mem _ _ _ ?_
    rw [View.setOn_univ, set_slQ off h r.val hoff, mem_rowO]
    exact hj

omit [FloatOps F] in
theorem colsA_subset_allA {w r : ℕ} (h1 : 8 * w ≤ r) (h2 : r < 8 * w + 8) : colsA r ⊆ allA w := fun j hj => by
  rw [mem_colsA] at hj; rw [mem_allA]; omega
omit [FloatOps F] in
theorem colsB_subset_allB {w r : ℕ} (h1 : 8 * w ≤ r) (h2 : r < 8 * w + 8) : colsB r ⊆ allB w := fun j hj => by
  rw [mem_colsB] at hj; rw [mem_allB]; omega
omit [FloatOps F] in
theorem disjoint_allA_allB (w : ℕ) : Disjoint (allA w) (allB w) :=
  Finset.disjoint_left.mpr fun j ha hb => by rw [mem_allA] at ha; rw [mem_allB] at hb; omega
omit [FloatOps F] in
theorem allA_union_allB (w : ℕ) : allA w ∪ allB w = rowsX w := by
  ext j
  rw [Finset.mem_union, mem_allA, mem_allB, mem_rowsX]
  omega
omit [FloatOps F] in
theorem rowO_subset_rowsO {w r : ℕ} (h1 : 8 * w ≤ r) (h2 : r < 8 * w + 8) : rowO r ⊆ rowsO w := fun j hj => by
  rw [mem_rowO] at hj; rw [mem_rowsO]; omega
omit [FloatOps F] in
theorem disjoint_colsA_allA {w r : ℕ} (hr : r = 8 * w + 8) : Disjoint (colsA r) (allA w) :=
  Finset.disjoint_left.mpr fun j ha hb => by rw [mem_colsA] at ha; rw [mem_allA] at hb; omega
omit [FloatOps F] in
theorem disjoint_colsB_allB {w r : ℕ} (hr : r = 8 * w + 8) : Disjoint (colsB r) (allB w) :=
  Finset.disjoint_left.mpr fun j ha hb => by rw [mem_colsB] at ha; rw [mem_allB] at hb; omega
omit [FloatOps F] in
theorem allA_sdiff_colsA {w r : ℕ} (hr : r = 8 * w + 8) : allA w \ colsA r = allA w :=
  Finset.sdiff_eq_self_of_disjoint (disjoint_colsA_allA hr).symm
omit [FloatOps F] in
theorem allB_sdiff_colsB {w r : ℕ} (hr : r = 8 * w + 8) : allB w \ colsB r = allB w :=
  Finset.sdiff_eq_self_of_disjoint (disjoint_colsB_allB hr).symm

abbrev cL (L : grid1.Coords) : Fin 2 := Fin.cast (rfl : grid1.bound 0 = 2) (L 0)
abbrev iL (L : grid1.Coords) : Fin 16 := Fin.cast (rfl : grid1.bound 1 = 16) (L 1)

omit [FloatOps F] in
theorem row_num (L : grid1.Coords) : 16 * (L 1).val + 8 * (L 0).val = 8 * wOf (cL L) (iL L) := by
  show 16 * (L 1).val + 8 * (L 0).val = 8 * (2 * (L 1).val + (L 0).val)
  omega

omit [FloatOps F] in
theorem off1_row (L : grid1.Coords) : k1_off1 L = ![8 * wOf (cL L) (iL L), 0] := by
  rw [k1_off1_eq, row_num]
omit [FloatOps F] in
theorem off2_row (L : grid1.Coords) : k1_off2 L = ![8 * wOf (cL L) (iL L), 50176] := by
  rw [k1_off2_eq, row_num]
omit [FloatOps F] in
theorem off7_row (L : grid1.Coords) (t : Fin k1_t1_loop.trips) : k1_off7 L t = ![8 * wOf (cL L) (iL L) + t.val + 1, 0] := by
  rw [k1_off7_eq, row_num]
omit [FloatOps F] in
theorem off12_row (L : grid1.Coords) (t : Fin k1_t1_loop.trips) : k1_off12 L t = ![8 * wOf (cL L) (iL L) + t.val + 1, 50176] := by
  rw [k1_off12_eq, row_num]
omit [FloatOps F] in
theorem off13_row (L : grid1.Coords) (t : Fin k1_t1_loop.trips) : k1_off13 L t = ![8 * wOf (cL L) (iL L) + t.val, 0] := by
  rw [k1_off13_eq, row_num]

end Cert.Kernel.Pf

end
-- ==== Proof.B.TileInv.lean ====
import proofs.«207604_g45191645889005_cont_8to1c4_5_22_alg».proof.Proof.B.TileSetup
import proofs.«207604_g45191645889005_cont_8to1c4_5_22_alg».proof.Proof.B.TileSets
import proofs.«207604_g45191645889005_cont_8to1c4_5_22_alg».proof.Proof.TileFun

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

theorem cond1_iff : ∀ t : Fin k1_t1_loop.trips, (k1_cond1 t = 1#1 ↔ t.val + 1 < 8) := by decide
theorem cond2_iff : ∀ t : Fin k1_t1_loop.trips, (k1_cond2 t = 1#1 ↔ t.val + 1 < 8) := by decide

theorem idx_eq (j : S1024.Idx) (b : ℕ) (hb : b < 1024) (h : (j 0).val = b) : j = ValueIdx.ix1 ⟨b, hb⟩ := by
  funext a
  obtain rfl : a = 0 := Subsingleton.elim _ _
  exact Fin.ext h

theorem rowS_of_done (RS : Vec F S50176 .f32 → Vec F S49824 .f32 → Vec F S1024 .f32) (PA : Vec F S50176 .f32 → ℕ → FVec F S16 .f32)
    (PB : Vec F S49824 .f32 → ℕ → FVec F S16 .f32) (TB : Vec F S49824 .f32 → FVec F S16 .f32)
    (hRA : ∀ a b (p : ℕ) (hp : p < 32) (s : Fin 16), RS a b (ValueIdx.ix1 ⟨16 * p + s.val, by have := s.isLt; omega⟩) = PA a (1568 * p) (ValueIdx.ix1 s))
    (hRB : ∀ a b (p : ℕ) (hp : p < 31) (s : Fin 16), RS a b (ValueIdx.ix1 ⟨512 + 16 * p + s.val, by have := s.isLt; omega⟩) = PB b (1568 * p) (ValueIdx.ix1 s))
    (hRT : ∀ a b (s : Fin 16), RS a b (ValueIdx.ix1 ⟨1008 + s.val, by have := s.isLt; omega⟩) = TB b (ValueIdx.ix1 s))
    (A : Vec F S50176 .f32) (B : Vec F S49824 .f32) (g0 f1 f2 f3 : Vec F S1024 .f32) (vs : FVec F S16 .f32)
    (h1 : DoneS 0 (fun q => PA A (1568 * q)) g0 32 f1) (h2 : DoneS 512 (fun q => PB B (1568 * q)) f1 31 f2)
    (h3 : ∀ j : S1024.Idx, f3 j = if hj : 1008 ≤ (j 0).val ∧ (j 0).val < 1008 + 16 then vs (ValueIdx.ix1 ⟨(j 0).val - 1008, by omega⟩) else f2 j)
    (hv : vs = TB B) : f3 = RS A B := by
  funext j
  have hj : (j 0).val < 1024 := (j 0).isLt
  by_cases c1 : (j 0).val < 512
  · let s : Fin 16 := ⟨(j 0).val % 16, Nat.mod_lt _ (by omega)⟩
    have e0 : j = ValueIdx.ix1 ⟨0 + 16 * ((j 0).val / 16) + s.val, by show 0 + 16 * ((j 0).val / 16) + (j 0).val % 16 < 1024; omega⟩ :=
      idx_eq j _ _ (by show (j 0).val = 0 + 16 * ((j 0).val / 16) + (j 0).val % 16; omega)
    have e1 : j = ValueIdx.ix1 ⟨16 * ((j 0).val / 16) + s.val, by show 16 * ((j 0).val / 16) + (j 0).val % 16 < 1024; omega⟩ :=
      idx_eq j _ _ (by show (j 0).val = 16 * ((j 0).val / 16) + (j 0).val % 16; omega)
    have s1 : f3 j = f2 j := by rw [h3 j, dif_neg (by omega)]
    have s2 : f2 j = f1 j := h2.1 j c1
    have s3 : f1 j = PA A (1568 * ((j 0).val / 16)) (ValueIdx.ix1 s) := by
      have := h1.2 ((j 0).val / 16) s (by show 0 + 16 * ((j 0).val / 16) + (j 0).val % 16 < 1024; omega) (by omega)
      rwa [← e0] at this
    have s4 : RS A B j = PA A (1568 * ((j 0).val / 16)) (ValueIdx.ix1 s) := by
      have := hRA A B ((j 0).val / 16) (by omega) s
      rwa [← e1] at this
    exact s1.trans (s2.trans (s3.trans s4.symm))
  · by_cases c2 : (j 0).val < 1008
    · let s : Fin 16 := ⟨((j 0).val - 512) % 16, Nat.mod_lt _ (by omega)⟩
      have e0 : j = ValueIdx.ix1 ⟨512 + 16 * (((j 0).val - 512) / 16) + s.val, by show 512 + 16 * (((j 0).val - 512) / 16) + ((j 0).val - 512) % 16 < 1024; omega⟩ :=
        idx_eq j _ _ (by show (j 0).val = 512 + 16 * (((j 0).val - 512) / 16) + ((j 0).val - 512) % 16; omega)
      have s1 : f3 j = f2 j := by rw [h3 j, dif_neg (by omega)]
      have s3 : f2 j = PB B (1568 * (((j 0).val - 512) / 16)) (ValueIdx.ix1 s) := by
        have := h2.2 (((j 0).val - 512) / 16) s (by show 512 + 16 * (((j 0).val - 512) / 16) + ((j 0).val - 512) % 16 < 1024; omega) (by omega)
        rwa [← e0] at this
      have s4 : RS A B j = PB B (1568 * (((j 0).val - 512) / 16)) (ValueIdx.ix1 s) := by
        have := hRB A B (((j 0).val - 512) / 16) (by omega) s
        rwa [← e0] at this
      exact s1.trans (s3.trans s4.symm)
    · let s : Fin 16 := ⟨(j 0).val - 1008, by omega⟩
      have e0 : j = ValueIdx.ix1 ⟨1008 + s.val, by show 1008 + ((j 0).val - 1008) < 1024; omega⟩ :=
        idx_eq j _ _ (by show (j 0).val = 1008 + ((j 0).val - 1008); omega)
      have s1 : f3 j = TB B (ValueIdx.ix1 s) := by rw [h3 j, dif_pos (by omega), hv]
      have s4 : RS A B j = TB B (ValueIdx.ix1 s) := by
        have := hRT A B s
        rwa [← e0] at this
      exact s1.trans s4.symm

abbrev cellV (d : Dev nD) (L : grid1.Coords) (s : DmaSems sig S_) : GSem nD τ sig := (thr d L, SemLoc.dma s.sem)

abbrev wL (L : grid1.Coords) : ℕ := wOf (cL L) (iL L)
theorem wL_lt (L : grid1.Coords) : wL L < 32 := wOf_lt _ _

def Kept (P : sProp 𝕄) : sProp 𝕄 := P
theorem kept_eq (P : sProp 𝕄) : Kept P = P := rfl
attribute [irreducible] Kept

section Row

variable (m : (ℓ : Loc nD τ sig) → Buf (Elt F) ℓ) (d : Dev nD) (L : grid1.Coords)

abbrev xv : Vec F S1024x100000 .f32 := m (xLoc d)

abbrev DA (r : ℕ) (hr : r < 1024) : sProp 𝕄 :=
  iprop(((bA).view.loc (thr d L) ↦{fullShare} (Tile.hA (xv m d) ⟨r, hr⟩ : Vec F S50176 .f32)) ∗ (xLoc d ↦[colsA r]{fullShare} m (xLoc d)))

abbrev DB (r : ℕ) (hr : r < 1024) : sProp 𝕄 :=
  iprop(((bB).view.loc (thr d L) ↦{fullShare} (Tile.hB (xv m d) ⟨r, hr⟩ : Vec F S49824 .f32)) ∗ (xLoc d ↦[colsB r]{fullShare} m (xLoc d)))

theorem row_lt (t : ℕ) (ht : t < 8) : 8 * wL L + t < 1024 := by have := wL_lt L; omega

def pendA (t : ℕ) : sProp 𝕄 :=
  if h : t < 8 then Transfers.Flight countersEmb (thr d L) (SemLoc.dma cc1_scratch6.sem) (none : HIx 1) 1605632 (DA m d L (8 * wL L + t) (row_lt L t h))
  else iprop(semVal (cellV d L cc1_scratch6) 0 ∗ ∃ f, (bA).view.loc (thr d L) ↦{fullShare} f)
def pendB (t : ℕ) : sProp 𝕄 :=
  if h : t < 8 then Transfers.Flight countersEmb (thr d L) (SemLoc.dma cc1_scratch7.sem) (none : HIx 1) 1594368 (DB m d L (8 * wL L + t) (row_lt L t h))
  else iprop(semVal (cellV d L cc1_scratch7) 0 ∗ ∃ f, (bB).view.loc (thr d L) ↦{fullShare} f)

def gval (t : ℕ) : Vec F S256x1024 .f32 := fun j => if (j 0).val < 8 * wL L + t then Tile.gsOf (xv m d) j else m (gsLoc d) j
def qval (t : ℕ) : Vec F S256x1024 .f32 := fun j => if (j 0).val < 8 * wL L + t then Tile.gsqOf (xv m d) j else m (gsqLoc d) j

variable (O : CellTallies nD τ sig (HIx 1)) (W : Waits sig (HIx 1))

def invR (t : ℕ) (_ : Unit) : sProp 𝕄 :=
  iprop(Transfers.MayWaits (thr d L) (none : HIx 1) O
    ∗ pendA m d L t ∗ pendB m d L t
    ∗ (xLoc d ↦[allA (wL L) \ colsA (8 * wL L + t)]{fullShare} m (xLoc d)) ∗ (xLoc d ↦[allB (wL L) \ colsB (8 * wL L + t)]{fullShare} m (xLoc d))
    ∗ (∃ f, (bO).view.loc (thr d L) ↦{fullShare} f) ∗ (∃ f, (bP).view.loc (thr d L) ↦{fullShare} f)
    ∗ (∃ f, (tS).view.loc (thr d L) ↦{fullShare} f) ∗ (∃ f, (tQ).view.loc (thr d L) ↦{fullShare} f)
    ∗ semVal (cellV d L cc1_scoped0) 0 ∗ semVal (cellV d L cc1_scoped1) 0
    ∗ (gsLoc d ↦[rowsO (wL L)]{fullShare} gval m d L t) ∗ (gsqLoc d ↦[rowsO (wL L)]{fullShare} qval m d L t)
    ∗ ∃ W', ⌜∀ p ∈ W', p ∈ W ∨ p.2 = none⌝ ∗ owes (thr d L) O W')

theorem gval_step (t : ℕ) (ht : t < 8) (fin : Vec F S1024 .f32)
    (hfin : fin = Tile.rowS (Tile.hA (xv m d) ⟨8 * wL L + t, row_lt L t ht⟩) (Tile.hB (xv m d) ⟨8 * wL L + t, row_lt L t ht⟩)) :
    ∀ j ∈ rowsO (wL L), ((rowO (8 * wL L + t)).piecewise
        (fun j : S256x1024.Idx => if (j 0).val = 8 * wL L + t then fin (ValueIdx.ix1 (j 1)) else gval m d L t j) (gval m d L t)) j = gval m d L (t + 1) j := by
  intro j hj
  by_cases hr : (j 0).val = 8 * wL L + t
  · rw [Finset.piecewise_eq_of_mem _ _ _ (mem_rowO.mpr hr)]
    show (if (j 0).val = 8 * wL L + t then fin (ValueIdx.ix1 (j 1)) else gval m d L t j) = gval m d L (t + 1) j
    rw [if_pos hr, hfin]
    unfold gval
    rw [if_pos (by omega)]
    show _ = Tile.rowS (Tile.hA (xv m d) (Tile.row256 (j 0))) (Tile.hB (xv m d) (Tile.row256 (j 0))) (ValueIdx.ix1 (j 1))
    have e : Tile.row256 (j 0) = ⟨8 * wL L + t, row_lt L t ht⟩ := Fin.ext hr
    rw [e]
  · rw [Finset.piecewise_eq_of_notMem _ _ _ (fun h => hr (mem_rowO.mp h))]
    unfold gval
    by_cases hl : (j 0).val < 8 * wL L + t
    · rw [if_pos hl, if_pos (by omega)]
    · rw [if_neg hl, if_neg (by omega)]

theorem qval_step (t : ℕ) (ht : t < 8) (fin : Vec F S1024 .f32)
    (hfin : fin = Tile.rowQ (Tile.hA (xv m d) ⟨8 * wL L + t, row_lt L t ht⟩) (Tile.hB (xv m d) ⟨8 * wL L + t, row_lt L t ht⟩)) :
    ∀ j ∈ rowsO (wL L), ((rowO (8 * wL L + t)).piecewise
        (fun j : S256x1024.Idx => if (j 0).val = 8 * wL L + t then fin (ValueIdx.ix1 (j 1)) else qval m d L t j) (qval m d L t)) j = qval m d L (t + 1) j := by
  intro j hj
  by_cases hr : (j 0).val = 8 * wL L + t
  · rw [Finset.piecewise_eq_of_mem _ _ _ (mem_rowO.mpr hr)]
    show (if (j 0).val = 8 * wL L + t then fin (ValueIdx.ix1 (j 1)) else qval m d L t j) = qval m d L (t + 1) j
    rw [if_pos hr, hfin]
    unfold qval
    rw [if_pos (by omega)]
    show _ = Tile.rowQ (Tile.hA (xv m d) (Tile.row256 (j 0))) (Tile.hB (xv m d) (Tile.row256 (j 0))) (ValueIdx.ix1 (j 1))
    have e : Tile.row256 (j 0) = ⟨8 * wL L + t, row_lt L t ht⟩ := Fin.ext hr
    rw [e]
  · rw [Finset.piecewise_eq_of_notMem _ _ _ (fun h => hr (mem_rowO.mp h))]
    unfold qval
    by_cases hl : (j 0).val < 8 * wL L + t
    · rw [if_pos hl, if_pos (by omega)]
    · rw [if_neg hl, if_neg (by omega)]

theorem flightA_canon (off : Fin 2 → ℕ) (h) (r : ℕ) (hr : r < 1024) (hoff : off = ![r, 0])
    (f0 : Buf (Elt F) ((thr d L).loc cc1_scratch0)) (w : Buf (Elt F) ((thr d L).loc cc1_scratch0)) (hw : w = (slA off h).view.read (Elt F) (m (xLoc d))) (ι : HIx 1) :
    Transfers.Flight countersEmb (thr d L) (SemLoc.dma cc1_scratch6.sem) ι 1605632
        (iprop(((bA).view.loc (thr d L) ↦{fullShare} View.write (Elt F) (bA).view f0 w Finset.univ)
          ∗ ((slA off h).view.loc (thr d L) ↦[(slA off h).view.set]{fullShare} m (xLoc d))) : sProp 𝕄)
      ⊢ Transfers.Flight countersEmb (thr d L) (SemLoc.dma cc1_scratch6.sem) ι 1605632 (DA m d L r hr) := by
  refine Transfers.Flight_mono countersEmb (thr d L) ?_
  unfold DA
  iintro ⟨H1, H2⟩
  isplitl [H1]
  · rw [View.write_whole_univ, hw, read_slA off h ⟨r, hr⟩ hoff]; iexact H1
  · rw [set_slA off h r hoff]; iexact H2

theorem flightB_canon (off : Fin 2 → ℕ) (h) (r : ℕ) (hr : r < 1024) (hoff : off = ![r, 50176])
    (f0 : Buf (Elt F) ((thr d L).loc cc1_scratch1)) (w : Buf (Elt F) ((thr d L).loc cc1_scratch1)) (hw : w = (slB off h).view.read (Elt F) (m (xLoc d))) (ι : HIx 1) :
    Transfers.Flight countersEmb (thr d L) (SemLoc.dma cc1_scratch7.sem) ι 1594368
        (iprop(((bB).view.loc (thr d L) ↦{fullShare} View.write (Elt F) (bB).view f0 w Finset.univ)
          ∗ ((slB off h).view.loc (thr d L) ↦[(slB off h).view.set]{fullShare} m (xLoc d))) : sProp 𝕄)
      ⊢ Transfers.Flight countersEmb (thr d L) (SemLoc.dma cc1_scratch7.sem) ι 1594368 (DB m d L r hr) := by
  refine Transfers.Flight_mono countersEmb (thr d L) ?_
  unfold DB
  iintro ⟨H1, H2⟩
  isplitl [H1]
  · rw [View.write_whole_univ, hw, read_slB off h ⟨r, hr⟩ hoff]; iexact H1
  · rw [set_slB off h r hoff]; iexact H2

theorem trips2_eq : Scf.trips k1_t2_loop.lb k1_t2_loop.ub k1_t2_loop.st = 32 := by decide
theorem trips3_eq : Scf.trips k1_t3_loop.lb k1_t3_loop.ub k1_t3_loop.st = 31 := by decide

end Row

end Cert.Kernel.Pf

end
-- ==== Proof.B.TileLoopA.lean ====
import proofs.«207604_g45191645889005_cont_8to1c4_5_22_alg».proof.Proof.B.TileSetup
import proofs.«207604_g45191645889005_cont_8to1c4_5_22_alg».proof.Proof.TileFun

noncomputable section

namespace Cert.Kernel.Pf

open Cert.Kernel Cert.Kernel.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 4000000 in

def trA (d : Dev nD) (L : grid1.Coords) (v2 : BitVec 32) (c0 c1 : BitVec 32) (t1 : Fin k1_t1_loop.trips) (p : Fin k1_t2_loop.trips)
    (fA : Buf (Elt F) ((thr d L).loc cc1_scratch0)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch0 ↦{fullShare} fA) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (k1_t2_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p ())
          fun _ => iprop(((thr d L).loc cc1_scratch0 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off6 p) S16.size (k1_off6_inb p), vs⟩])
        ∗ ((thr d L).loc cc1_scratch3 ↦{fullShare} (bP).view.writes (Elt F) fP [⟨Rect.unit (s := S1024) (k1_off6 p) S16.size (k1_off6_inb p), vq⟩])) :=
  ⟨_, _, _, _, by
    intro fO fP
    unfold k1_t2_body
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel k1_part17_skel
    simp only [SparseCore.vectorLoadIdx_bind (thr d L), SparseCore.vectorStoreIdx_bind (thr d L)]
    iintro ⟨HA, HS, HQ, HO, HP⟩
    ihave HA' := (Entails.of_eq (pts_bA (F := F) d L _).symm) $$ HA
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HA']; · iexact HA'
    isplitl [HS']; · iexact HS'
    isplitl [HQ']; · iexact HQ'
    isplitl [HO']; · iexact HO'
    iexact HP'⟩

def invA (d : Dev nD) (L : grid1.Coords) (fA : Buf (Elt F) ((thr d L).loc cc1_scratch0)) (VS VQ : ℕ → FVec F S16 .f32) (gO gP : Vec F S1024 .f32)
    (k : ℕ) (_ : Unit) : sProp 𝕄 :=
  iprop(((thr d L).loc cc1_scratch0 ↦{fullShare} fA) ∗ (∃ f, (thr d L).loc cc1_scratch4 ↦{fullShare} f) ∗ (∃ f, (thr d L).loc cc1_scratch5 ↦{fullShare} f)
    ∗ (∃ f : Buf (Elt F) ((thr d L).loc cc1_scratch2), ((thr d L).loc cc1_scratch2 ↦{fullShare} f) ∗ ⌜DoneS 0 VS gO k f⌝)
    ∗ (∃ f : Buf (Elt F) ((thr d L).loc cc1_scratch3), ((thr d L).loc cc1_scratch3 ↦{fullShare} f) ∗ ⌜DoneS 0 VQ gP k f⌝))

theorem k1_off6_zero (p : Fin k1_t2_loop.trips) : k1_off6 p 0 = 0 + 16 * p.val := by
  rw [k1_off6_eq p]; show 16 * p.val = _; omega

theorem postA (d : Dev nD) (L : grid1.Coords) (fA : Buf (Elt F) ((thr d L).loc cc1_scratch0)) (VS VQ : ℕ → FVec F S16 .f32) (gO gP : Vec F S1024 .f32)
    (p : Fin k1_t2_loop.trips) (fS' : Buf (Elt F) ((thr d L).loc cc1_scratch4)) (fQ' : Buf (Elt F) ((thr d L).loc cc1_scratch5)) (vs vq : FVec F S16 .f32)
    (fO : Buf (Elt F) ((thr d L).loc cc1_scratch2)) (fP : Buf (Elt F) ((thr d L).loc cc1_scratch3))
    (hs : vs = VS p.val) (hq : vq = VQ p.val) (hO : DoneS 0 VS gO p.val fO) (hP : DoneS 0 VQ gP p.val fP) :
    (iprop(((thr d L).loc cc1_scratch0 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off6 p) S16.size (k1_off6_inb p), vs⟩])
        ∗ ((thr d L).loc cc1_scratch3 ↦{fullShare} (bP).view.writes (Elt F) fP [⟨Rect.unit (s := S1024) (k1_off6 p) S16.size (k1_off6_inb p), vq⟩])) : sProp 𝕄) ⊢ invA d L fA VS VQ gO gP (p.val + 1) () := by
  unfold invA
  iintro ⟨HA, HS, HQ, HO, HP⟩
  isplitl [HA]; · iexact HA
  isplitl [HS]; · iexists _; iexact HS
  isplitl [HQ]; · iexists _; iexact HQ
  isplitl [HO]
  · iexists _; isplitl [HO]; · iexact HO
    ipureintro
    exact DoneS_step (k1_off6_zero p) hs hO (fun j => writesO_apply d L fO (k1_off6 p) (k1_off6_inb p) vs j)
  · iexists _; isplitl [HP]; · iexact HP
    ipureintro
    exact DoneS_step (k1_off6_zero p) hq hP (fun j => writesP_apply d L fP (k1_off6 p) (k1_off6_inb p) vq j)

theorem tripA (d : Dev nD) (L : grid1.Coords) (v2 : BitVec 32) (c0 c1 : BitVec 32) (t1 : Fin k1_t1_loop.trips)
    (fA : Buf (Elt F) ((thr d L).loc cc1_scratch0)) (VS VQ : ℕ → FVec F S16 .f32) (gO gP : Vec F S1024 .f32)
    (hbS : ∀ p fS fQ, (trA d L v2 c0 c1 t1 p fA fS fQ).2.2.1 = VS p.val)
    (hbQ : ∀ p fS fQ, (trA d L v2 c0 c1 t1 p fA fS fQ).2.2.2.1 = VQ p.val)
    (p : Fin k1_t2_loop.trips) (acc : Unit) :
    invA d L fA VS VQ gO gP p.val acc
      ⊢ wp frame (wpE (defs₀ (F := F)) 𝒱₀ (thr d L) none) Set.univ
          (k1_t2_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p acc) (invA d L fA VS VQ gO gP (p.val + 1)) := by
  unfold invA
  iintro ⟨HA, ⟨%fS, HS⟩, ⟨%fQ, HQ⟩, ⟨%fO, HO, %hO⟩, ⟨%fP, HP, %hP⟩⟩
  iapply (((trA d L v2 c0 c1 t1 p fA fS fQ).2.2.2.2 fO fP).trans (wp_mono frame _ _ fun _ =>
    postA d L fA VS VQ gO gP p _ _ _ _ fO fP (hbS p fS fQ) (hbQ p fS fQ) hO hP)) $$ [HA HS HQ HO HP]
  isplitl [HA]; · iexact HA
  isplitl [HS]; · iexact HS
  isplitl [HQ]; · iexact HQ
  isplitl [HO]; · iexact HO
  iexact HP

end Cert.Kernel.Pf

end
-- ==== Proof.B.TileBridge.lean ====
import proofs.«207604_g45191645889005_cont_8to1c4_5_22_alg».proof.Proof.Gen.Kernel
import proofs.«207604_g45191645889005_cont_8to1c4_5_22_alg».proof.Proof.TileFun
import Idealize.ShloMosaic.Lib.WholeRead

noncomputable section

namespace Cert.Kernel.Pf

open Idealize.ShloMosaic Cert.Kernel Cert.Kernel.Gen Cert.Proof.Tile

variable {F : FTy → Type} [FloatOps F] [Facts]

theorem loadA0 (A : Vec F S50176 .f32) (p : Fin k1_t2_loop.trips) (v : Fin 49) :
    (Memref.whole cc1_scratch0).view.readAt (Elt F)
        (Rect.unit (s := S50176) (k1_off4 p (BitVec.ofNat 32 (16 * v.val))) S16.size (k1_off4_inb p v)).toLoadRect A
      = vecAt A (1568 * p.val + 16 * v.val) := by
  rw [View.readAt_unit_congr_cast _ (Gen.k1_off4_eq p v)]
  exact vecAt_unit A ![1568 * p.val + 16 * v.val] _

theorem loadA1 (A : Vec F S50176 .f32) (p : Fin k1_t2_loop.trips) (v : Fin 49) :
    (Memref.whole cc1_scratch0).view.readAt (Elt F)
        (Rect.unit (s := S50176) (k1_off5 p (BitVec.ofNat 32 (16 * v.val))) S16.size (k1_off5_inb p v)).toLoadRect A
      = vecAt A (1568 * p.val + 784 + 16 * v.val) := by
  rw [View.readAt_unit_congr_cast _ (Gen.k1_off5_eq p v)]
  have e := vecAt_unit A ![1568 * p.val + 16 * v.val + 784] (by
    intro a; have := (Gen.k1_off5_eq p v) ▸ k1_off5_inb p v a; exact this)
  rw [show 1568 * p.val + 784 + 16 * v.val = 1568 * p.val + 16 * v.val + 784 by omega]
  exact e

theorem loadB0 (B : Vec F S49824 .f32) (p : Fin k1_t3_loop.trips) (v : Fin 49) :
    (Memref.whole cc1_scratch1).view.readAt (Elt F)
        (Rect.unit (s := S49824) (k1_off9 p (BitVec.ofNat 32 (16 * v.val))) S16.size (k1_off9_inb p v)).toLoadRect B
      = vecAt B (1568 * p.val + 16 * v.val) := by
  rw [View.readAt_unit_congr_cast _ (Gen.k1_off9_eq p v)]
  exact vecAt_unit B ![1568 * p.val + 16 * v.val] _

theorem loadB1 (B : Vec F S49824 .f32) (p : Fin k1_t3_loop.trips) (v : Fin 49) :
    (Memref.whole cc1_scratch1).view.readAt (Elt F)
        (Rect.unit (s := S49824) (k1_off10 p (BitVec.ofNat 32 (16 * v.val))) S16.size (k1_off10_inb p v)).toLoadRect B
      = vecAt B (1568 * p.val + 784 + 16 * v.val) := by
  rw [View.readAt_unit_congr_cast _ (Gen.k1_off10_eq p v)]
  have e := vecAt_unit B ![1568 * p.val + 16 * v.val + 784] (by
    intro a; have := (Gen.k1_off10_eq p v) ▸ k1_off10_inb p v a; exact this)
  rw [show 1568 * p.val + 784 + 16 * v.val = 1568 * p.val + 16 * v.val + 784 by omega]
  exact e

theorem loadT (B : Vec F S49824 .f32) (o : Nat) (inb : ∀ a, (![o] : Fin 1 → Nat) a + S16.size a ≤ S49824.size a) :
    (Memref.whole cc1_scratch1).view.readAt (Elt F) (Rect.unit (s := S49824) ![o] S16.size inb).toLoadRect B = vecAt B o :=
  vecAt_unit B ![o] inb

end Cert.Kernel.Pf
-- ==== Proof.B.BridgeLib.lean ====
import proofs.«207604_g45191645889005_cont_8to1c4_5_22_alg».proof.Proof.B.TileBridge
import Idealize.ShloMosaic.Lib.Pipeline.FrameBody

noncomputable section

namespace Cert.Kernel.Pf

open Idealize.ShloMosaic Cert.Kernel Cert.Kernel.Gen Cert.Proof Cert.Proof.Tile

variable {F : FTy → Type} [FloatOps F]

theorem readCov_whole_cons {sig : RefSig} {κ : Kind} {sp : Space} {s : Shape} {e : EltTy} {Val : EltTy → Type} [∀ e, Nonempty (Val e)]
    (v : View sig κ sp s e) (w : (Rect.whole s).shape.Idx → Val e) (L : List (View.Piece Val s e)) :
    v.readCov (⟨Rect.whole s, w⟩ :: L) (LoadRect.whole s) = w :=
  View.readCov_cons_toLoadRect v (Rect.whole s) w L

theorem storeIdx_eq_put (s : Nat) (hs : s < 16) (t t' : Vec F V272 .f32) (w w' : Vec F V16 .f32)
    (h : ∀ a x, ((![stIdx s] : Fin V272.rank → IVec V16 32) a x).toNat < V272.size a) (ht : t = t') (hw : w = w') :
    storeIdx t ![stIdx s] w (fun _ => 1#1) false h = put s hs w' t' := by
  subst ht hw; rfl

/-- Storing no accumulators leaves the scratch as it is. -/
theorem putN_zero (A : Nat → FVec F V16 .f32) (s0 : Nat) (h : s0 + 0 ≤ 16) (t : Vec F V272 .f32) : putN A s0 0 h t = t := rfl

def XA0 (fA : Vec F S50176 .f32) (p : Fin k1_t2_loop.trips) : Nat → FVec F V16 .f32 := fun v =>
  if h : v < 49 then
    (Memref.whole cc1_scratch0).view.readAt (Elt F)
      (Rect.unit (s := S50176) (k1_off4 p (BitVec.ofNat 32 (16 * v))) S16.size (k1_off4_inb p ⟨v, h⟩)).toLoadRect fA
  else zero16

def XA1 (fA : Vec F S50176 .f32) (p : Fin k1_t2_loop.trips) : Nat → FVec F V16 .f32 := fun v =>
  if h : v < 49 then
    (Memref.whole cc1_scratch0).view.readAt (Elt F)
      (Rect.unit (s := S50176) (k1_off5 p (BitVec.ofNat 32 (16 * v))) S16.size (k1_off5_inb p ⟨v, h⟩)).toLoadRect fA
  else zero16

theorem XA0_eq (fA : Vec F S50176 .f32) (p : Fin k1_t2_loop.trips) (v : Nat) (hv : v < 49) :
    XA0 fA p v = vecAt fA (1568 * p.val + 16 * v) := by
  unfold XA0; rw [dif_pos hv]; exact loadA0 fA p ⟨v, hv⟩

theorem XA1_eq (fA : Vec F S50176 .f32) (p : Fin k1_t2_loop.trips) (v : Nat) (hv : v < 49) :
    XA1 fA p v = vecAt fA (1568 * p.val + 784 + 16 * v) := by
  unfold XA1; rw [dif_pos hv]; exact loadA1 fA p ⟨v, hv⟩

def XB0 (fB : Vec F S49824 .f32) (p : Fin k1_t3_loop.trips) : Nat → FVec F V16 .f32 := fun v =>
  if h : v < 49 then
    (Memref.whole cc1_scratch1).view.readAt (Elt F)
      (Rect.unit (s := S49824) (k1_off9 p (BitVec.ofNat 32 (16 * v))) S16.size (k1_off9_inb p ⟨v, h⟩)).toLoadRect fB
  else zero16

def XB1 (fB : Vec F S49824 .f32) (p : Fin k1_t3_loop.trips) : Nat → FVec F V16 .f32 := fun v =>
  if h : v < 49 then
    (Memref.whole cc1_scratch1).view.readAt (Elt F)
      (Rect.unit (s := S49824) (k1_off10 p (BitVec.ofNat 32 (16 * v))) S16.size (k1_off10_inb p ⟨v, h⟩)).toLoadRect fB
  else zero16

theorem XB0_eq (fB : Vec F S49824 .f32) (p : Fin k1_t3_loop.trips) (v : Nat) (hv : v < 49) :
    XB0 fB p v = vecAt fB (1568 * p.val + 16 * v) := by
  unfold XB0; rw [dif_pos hv]; exact loadB0 fB p ⟨v, hv⟩

theorem XB1_eq (fB : Vec F S49824 .f32) (p : Fin k1_t3_loop.trips) (v : Nat) (hv : v < 49) :
    XB1 fB p v = vecAt fB (1568 * p.val + 784 + 16 * v) := by
  unfold XB1; rw [dif_pos hv]; exact loadB1 fB p ⟨v, hv⟩

theorem inbT (o : Nat) (h : o + 16 ≤ 49824) : ∀ a, (![o] : Fin 1 → Nat) a + S16.size a ≤ S49824.size a := by
  intro a
  obtain rfl : a = 0 := Subsingleton.elim _ _
  exact h

def XT0 (fB : Vec F S49824 .f32) : Nat → FVec F V16 .f32 := fun v =>
  if h : v < 49 then
    (Memref.whole cc1_scratch1).view.readAt (Elt F)
      (Rect.unit (s := S49824) ![48608 + 16 * v] S16.size (inbT _ (by omega))).toLoadRect fB
  else zero16

def XT1 (fB : Vec F S49824 .f32) : Nat → FVec F V16 .f32 := fun v =>
  if h : v < 27 then
    (Memref.whole cc1_scratch1).view.readAt (Elt F)
      (Rect.unit (s := S49824) ![49392 + 16 * v] S16.size (inbT _ (by omega))).toLoadRect fB
  else zero16

theorem XT0_eq (fB : Vec F S49824 .f32) (v : Nat) (hv : v < 49) : XT0 fB v = vecAt fB (48608 + 16 * v) := by
  unfold XT0; rw [dif_pos hv]; exact loadT fB _ _

theorem XT1_eq (fB : Vec F S49824 .f32) (v : Nat) (hv : v < 27) : XT1 fB v = vecAt fB (49392 + 16 * v) := by
  unfold XT1; rw [dif_pos hv]; exact loadT fB _ _

end Cert.Kernel.Pf
-- ==== Proof.B.BridgeA.lean ====
import proofs.«207604_g45191645889005_cont_8to1c4_5_22_alg».proof.Proof.B.TileLoopA
import proofs.«207604_g45191645889005_cont_8to1c4_5_22_alg».proof.Proof.B.BridgeLib

noncomputable section

namespace Cert.Kernel.Pf

open Idealize.ShloMosaic Cert.Kernel Cert.Kernel.Gen Cert.Proof Cert.Proof.Tile

variable {F : FTy → Type} [FloatOps F]

variable (d : Dev nD) (L : grid1.Coords) (v2 c0 c1 : BitVec 32) (t1 : Fin k1_t1_loop.trips) (p : Fin k1_t2_loop.trips)
  (fA : Vec F S50176 .f32) (fS fQ : Vec F S272 .f32)

set_option maxHeartbeats 1000000 in
theorem trA_S4 : trA.sl.f_6 d L p fA fS = putN (acc (XA0 fA p) 49) 0 4 (by omega) fS := by
  unfold trA.sl.f_6 trA.sl.HS'_4; erw [readCov_whole_cons]; refine storeIdx_eq_put _ _ _ _ _ _ _ ?_ rfl
  unfold trA.sl.f_4 trA.sl.HS'_3; erw [readCov_whole_cons]; refine storeIdx_eq_put _ _ _ _ _ _ _ ?_ rfl
  unfold trA.sl.f_2 trA.sl.HS'_2; erw [readCov_whole_cons]; refine storeIdx_eq_put _ _ _ _ _ _ _ ?_ rfl
  unfold trA.sl.f trA.sl.HS'_1; erw [readCov_whole_cons]; exact storeIdx_eq_put _ _ _ _ _ _ _ (Memref.readAt_whole _ _ _) rfl

set_option maxHeartbeats 1000000 in
theorem trA_S8 : trA.sl.f_14 d L p fA fS = putN (acc (XA0 fA p) 49) 0 8 (by omega) fS := by
  unfold trA.sl.f_14 trA.sl.HS'_8; erw [readCov_whole_cons]; refine storeIdx_eq_put _ _ _ _ _ _ _ ?_ rfl
  unfold trA.sl.f_12 trA.sl.HS'_7; erw [readCov_whole_cons]; refine storeIdx_eq_put _ _ _ _ _ _ _ ?_ rfl
  unfold trA.sl.f_10 trA.sl.HS'_6; erw [readCov_whole_cons]; refine storeIdx_eq_put _ _ _ _ _ _ _ ?_ rfl
  unfold trA.sl.f_8 trA.sl.HS'_5; erw [readCov_whole_cons]; exact storeIdx_eq_put _ _ _ _ _ _ _ (trA_S4 d L p fA fS) rfl

set_option maxHeartbeats 1000000 in
theorem trA_S12 : trA.sl.f_22 d L p fA fS = putN (acc (XA1 fA p) 49) 8 4 (by omega) (putN (acc (XA0 fA p) 49) 0 8 (by omega) fS) := by
  unfold trA.sl.f_22 trA.sl.HS'_12; erw [readCov_whole_cons]; refine storeIdx_eq_put _ _ _ _ _ _ _ ?_ rfl
  unfold trA.sl.f_20 trA.sl.HS'_11; erw [readCov_whole_cons]; refine storeIdx_eq_put _ _ _ _ _ _ _ ?_ rfl
  unfold trA.sl.f_18 trA.sl.HS'_10; erw [readCov_whole_cons]; refine storeIdx_eq_put _ _ _ _ _ _ _ ?_ rfl
  unfold trA.sl.f_16 trA.sl.HS'_9; erw [readCov_whole_cons]; exact storeIdx_eq_put _ _ _ _ _ _ _ ((trA_S8 d L p fA fS).trans (putN_zero _ _ _ _).symm) rfl

set_option maxHeartbeats 1000000 in
theorem trA_S16 : trA.sl.f_30 d L p fA fS = putN (acc (XA1 fA p) 49) 8 8 (by omega) (putN (acc (XA0 fA p) 49) 0 8 (by omega) fS) := by
  unfold trA.sl.f_30 trA.sl.HS'_16; erw [readCov_whole_cons]; refine storeIdx_eq_put _ _ _ _ _ _ _ ?_ rfl
  unfold trA.sl.f_28 trA.sl.HS'_15; erw [readCov_whole_cons]; refine storeIdx_eq_put _ _ _ _ _ _ _ ?_ rfl
  unfold trA.sl.f_26 trA.sl.HS'_14; erw [readCov_whole_cons]; refine storeIdx_eq_put _ _ _ _ _ _ _ ?_ rfl
  unfold trA.sl.f_24 trA.sl.HS'_13; erw [readCov_whole_cons]; exact storeIdx_eq_put _ _ _ _ _ _ _ (trA_S12 d L p fA fS) rfl

set_option maxHeartbeats 1000000 in
/-- A trip's sixteen slot stores are two runs of eight accumulators; their transposed sums are the pair's sixteen group sums. -/
theorem bridgeAS : (trA d L v2 c0 c1 t1 p fA fS fQ).2.2.1 = pairS (n := 50176) fA (1568 * p.val) :=
  (congrArg flush (trA_S16 d L p fA fS)).trans ((flush_pair (acc (XA0 fA p) 49) (acc (XA1 fA p) 49) fS).trans
    (pairS_of fA (1568 * p.val) (XA0 fA p) (XA1 fA p) (XA0_eq fA p) (XA1_eq fA p)))

set_option maxHeartbeats 1000000 in
theorem trA_Q4 : trA.sl.f_7 d L p fA fQ = putN (acc (sq (XA0 fA p)) 49) 0 4 (by omega) fQ := by
  unfold trA.sl.f_7 trA.sl.HQ'_4; erw [readCov_whole_cons]; refine storeIdx_eq_put _ _ _ _ _ _ _ ?_ rfl
  unfold trA.sl.f_5 trA.sl.HQ'_3; erw [readCov_whole_cons]; refine storeIdx_eq_put _ _ _ _ _ _ _ ?_ rfl
  unfold trA.sl.f_3 trA.sl.HQ'_2; erw [readCov_whole_cons]; refine storeIdx_eq_put _ _ _ _ _ _ _ ?_ rfl
  unfold trA.sl.f_1 trA.sl.HQ'_1; erw [readCov_whole_cons]; exact storeIdx_eq_put _ _ _ _ _ _ _ (Memref.readAt_whole _ _ _) rfl

set_option maxHeartbeats 1000000 in
theorem trA_Q8 : trA.sl.f_15 d L p fA fQ = putN (acc (sq (XA0 fA p)) 49) 0 8 (by omega) fQ := by
  unfold trA.sl.f_15 trA.sl.HQ'_8; erw [readCov_whole_cons]; refine storeIdx_eq_put _ _ _ _ _ _ _ ?_ rfl
  unfold trA.sl.f_13 trA.sl.HQ'_7; erw [readCov_whole_cons]; refine storeIdx_eq_put _ _ _ _ _ _ _ ?_ rfl
  unfold trA.sl.f_11 trA.sl.HQ'_6; erw [readCov_whole_cons]; refine storeIdx_eq_put _ _ _ _ _ _ _ ?_ rfl
  unfold trA.sl.f_9 trA.sl.HQ'_5; erw [readCov_whole_cons]; exact storeIdx_eq_put _ _ _ _ _ _ _ (trA_Q4 d L p fA fQ) rfl

set_option maxHeartbeats 1000000 in
theorem trA_Q12 : trA.sl.f_23 d L p fA fQ = putN (acc (sq (XA1 fA p)) 49) 8 4 (by omega) (putN (acc (sq (XA0 fA p)) 49) 0 8 (by omega) fQ) := by
  unfold trA.sl.f_23 trA.sl.HQ'_12; erw [readCov_whole_cons]; refine storeIdx_eq_put _ _ _ _ _ _ _ ?_ rfl
  unfold trA.sl.f_21 trA.sl.HQ'_11; erw [readCov_whole_cons]; refine storeIdx_eq_put _ _ _ _ _ _ _ ?_ rfl
  unfold trA.sl.f_19 trA.sl.HQ'_10; erw [readCov_whole_cons]; refine storeIdx_eq_put _ _ _ _ _ _ _ ?_ rfl
  unfold trA.sl.f_17 trA.sl.HQ'_9; erw [readCov_whole_cons]; exact storeIdx_eq_put _ _ _ _ _ _ _ ((trA_Q8 d L p fA fQ).trans (putN_zero _ _ _ _).symm) rfl

set_option maxHeartbeats 1000000 in
theorem trA_Q16 : trA.sl.f_31 d L p fA fQ = putN (acc (sq (XA1 fA p)) 49) 8 8 (by omega) (putN (acc (sq (XA0 fA p)) 49) 0 8 (by omega) fQ) := by
  unfold trA.sl.f_31 trA.sl.HQ'_16; erw [readCov_whole_cons]; refine storeIdx_eq_put _ _ _ _ _ _ _ ?_ rfl
  unfold trA.sl.f_29 trA.sl.HQ'_15; erw [readCov_whole_cons]; refine storeIdx_eq_put _ _ _ _ _ _ _ ?_ rfl
  unfold trA.sl.f_27 trA.sl.HQ'_14; erw [readCov_whole_cons]; refine storeIdx_eq_put _ _ _ _ _ _ _ ?_ rfl
  unfold trA.sl.f_25 trA.sl.HQ'_13; erw [readCov_whole_cons]; exact storeIdx_eq_put _ _ _ _ _ _ _ (trA_Q12 d L p fA fQ) rfl

set_option maxHeartbeats 1000000 in
/-- A trip's sixteen slot stores are two runs of eight accumulators; their transposed sums are the pair's sixteen sums of squares. -/
theorem bridgeAQ : (trA d L v2 c0 c1 t1 p fA fS fQ).2.2.2.1 = pairQ (n := 50176) fA (1568 * p.val) :=
  (congrArg flush (trA_Q16 d L p fA fQ)).trans ((flush_pair (acc (sq (XA0 fA p)) 49) (acc (sq (XA1 fA p)) 49) fQ).trans
    (pairQ_of fA (1568 * p.val) (XA0 fA p) (XA1 fA p) (XA0_eq fA p) (XA1_eq fA p)))

end Cert.Kernel.Pf

end
-- ==== Proof.B.TileLoopB.lean ====
import proofs.«207604_g45191645889005_cont_8to1c4_5_22_alg».proof.Proof.B.TileSetup
import proofs.«207604_g45191645889005_cont_8to1c4_5_22_alg».proof.Proof.TileFun

noncomputable section

namespace Cert.Kernel.Pf

open Cert.Kernel Cert.Kernel.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 4000000 in

def trB (d : Dev nD) (L : grid1.Coords) (v2 : BitVec 32) (c0 c1 : BitVec 32) (t1 : Fin k1_t1_loop.trips) (p : Fin k1_t3_loop.trips)
    (fA : Buf (Elt F) ((thr d L).loc cc1_scratch1)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch1 ↦{fullShare} fA) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (k1_t3_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p ())
          fun _ => iprop(((thr d L).loc cc1_scratch1 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off11 p) S16.size (k1_off11_inb p), vs⟩])
        ∗ ((thr d L).loc cc1_scratch3 ↦{fullShare} (bP).view.writes (Elt F) fP [⟨Rect.unit (s := S1024) (k1_off11 p) S16.size (k1_off11_inb p), vq⟩])) :=
  ⟨_, _, _, _, by
    intro fO fP
    unfold k1_t3_body
    simp only [k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton]
    unfold k1_part18_skel k1_part19_skel k1_part20_skel k1_part21_skel k1_part22_skel k1_part23_skel k1_part24_skel k1_part25_skel k1_part26_skel k1_part27_skel k1_part28_skel k1_part29_skel k1_part30_skel k1_part31_skel k1_part32_skel k1_part33_skel k1_part34_skel
    simp only [SparseCore.vectorLoadIdx_bind (thr d L), SparseCore.vectorStoreIdx_bind (thr d L)]
    iintro ⟨HA, HS, HQ, HO, HP⟩
    ihave HA' := (Entails.of_eq (pts_bB (F := F) d L _).symm) $$ HA
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HA']; · iexact HA'
    isplitl [HS']; · iexact HS'
    isplitl [HQ']; · iexact HQ'
    isplitl [HO']; · iexact HO'
    iexact HP'⟩

def invB (d : Dev nD) (L : grid1.Coords) (fA : Buf (Elt F) ((thr d L).loc cc1_scratch1)) (VS VQ : ℕ → FVec F S16 .f32) (gO gP : Vec F S1024 .f32)
    (k : ℕ) (_ : Unit) : sProp 𝕄 :=
  iprop(((thr d L).loc cc1_scratch1 ↦{fullShare} fA) ∗ (∃ f, (thr d L).loc cc1_scratch4 ↦{fullShare} f) ∗ (∃ f, (thr d L).loc cc1_scratch5 ↦{fullShare} f)
    ∗ (∃ f : Buf (Elt F) ((thr d L).loc cc1_scratch2), ((thr d L).loc cc1_scratch2 ↦{fullShare} f) ∗ ⌜DoneS 512 VS gO k f⌝)
    ∗ (∃ f : Buf (Elt F) ((thr d L).loc cc1_scratch3), ((thr d L).loc cc1_scratch3 ↦{fullShare} f) ∗ ⌜DoneS 512 VQ gP k f⌝))

theorem k1_off11_zero (p : Fin k1_t3_loop.trips) : k1_off11 p 0 = 512 + 16 * p.val := by
  rw [k1_off11_eq p]; show 16 * p.val + 512 = _; omega

theorem postB (d : Dev nD) (L : grid1.Coords) (fA : Buf (Elt F) ((thr d L).loc cc1_scratch1)) (VS VQ : ℕ → FVec F S16 .f32) (gO gP : Vec F S1024 .f32)
    (p : Fin k1_t3_loop.trips) (fS' : Buf (Elt F) ((thr d L).loc cc1_scratch4)) (fQ' : Buf (Elt F) ((thr d L).loc cc1_scratch5)) (vs vq : FVec F S16 .f32)
    (fO : Buf (Elt F) ((thr d L).loc cc1_scratch2)) (fP : Buf (Elt F) ((thr d L).loc cc1_scratch3))
    (hs : vs = VS p.val) (hq : vq = VQ p.val) (hO : DoneS 512 VS gO p.val fO) (hP : DoneS 512 VQ gP p.val fP) :
    (iprop(((thr d L).loc cc1_scratch1 ↦{fullShare} fA) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) (k1_off11 p) S16.size (k1_off11_inb p), vs⟩])
        ∗ ((thr d L).loc cc1_scratch3 ↦{fullShare} (bP).view.writes (Elt F) fP [⟨Rect.unit (s := S1024) (k1_off11 p) S16.size (k1_off11_inb p), vq⟩])) : sProp 𝕄) ⊢ invB d L fA VS VQ gO gP (p.val + 1) () := by
  unfold invB
  iintro ⟨HA, HS, HQ, HO, HP⟩
  isplitl [HA]; · iexact HA
  isplitl [HS]; · iexists _; iexact HS
  isplitl [HQ]; · iexists _; iexact HQ
  isplitl [HO]
  · iexists _; isplitl [HO]; · iexact HO
    ipureintro
    exact DoneS_step (k1_off11_zero p) hs hO (fun j => writesO_apply d L fO (k1_off11 p) (k1_off11_inb p) vs j)
  · iexists _; isplitl [HP]; · iexact HP
    ipureintro
    exact DoneS_step (k1_off11_zero p) hq hP (fun j => writesP_apply d L fP (k1_off11 p) (k1_off11_inb p) vq j)

theorem tripB (d : Dev nD) (L : grid1.Coords) (v2 : BitVec 32) (c0 c1 : BitVec 32) (t1 : Fin k1_t1_loop.trips)
    (fA : Buf (Elt F) ((thr d L).loc cc1_scratch1)) (VS VQ : ℕ → FVec F S16 .f32) (gO gP : Vec F S1024 .f32)
    (hbS : ∀ p fS fQ, (trB d L v2 c0 c1 t1 p fA fS fQ).2.2.1 = VS p.val)
    (hbQ : ∀ p fS fQ, (trB d L v2 c0 c1 t1 p fA fS fQ).2.2.2.1 = VQ p.val)
    (p : Fin k1_t3_loop.trips) (acc : Unit) :
    invB d L fA VS VQ gO gP p.val acc
      ⊢ wp frame (wpE (defs₀ (F := F)) 𝒱₀ (thr d L) none) Set.univ
          (k1_t3_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 c0 c1 t1 p acc) (invB d L fA VS VQ gO gP (p.val + 1)) := by
  unfold invB
  iintro ⟨HA, ⟨%fS, HS⟩, ⟨%fQ, HQ⟩, ⟨%fO, HO, %hO⟩, ⟨%fP, HP, %hP⟩⟩
  iapply (((trB d L v2 c0 c1 t1 p fA fS fQ).2.2.2.2 fO fP).trans (wp_mono frame _ _ fun _ =>
    postB d L fA VS VQ gO gP p _ _ _ _ fO fP (hbS p fS fQ) (hbQ p fS fQ) hO hP)) $$ [HA HS HQ HO HP]
  isplitl [HA]; · iexact HA
  isplitl [HS]; · iexact HS
  isplitl [HQ]; · iexact HQ
  isplitl [HO]; · iexact HO
  iexact HP

end Cert.Kernel.Pf

end
-- ==== Proof.B.BridgeB.lean ====
import proofs.«207604_g45191645889005_cont_8to1c4_5_22_alg».proof.Proof.B.TileLoopB
import proofs.«207604_g45191645889005_cont_8to1c4_5_22_alg».proof.Proof.B.BridgeLib

noncomputable section

namespace Cert.Kernel.Pf

open Idealize.ShloMosaic Cert.Kernel Cert.Kernel.Gen Cert.Proof Cert.Proof.Tile

variable {F : FTy → Type} [FloatOps F]

variable (d : Dev nD) (L : grid1.Coords) (v2 c0 c1 : BitVec 32) (t1 : Fin k1_t1_loop.trips) (p : Fin k1_t3_loop.trips)
  (fB : Vec F S49824 .f32) (fS fQ : Vec F S272 .f32)

set_option maxHeartbeats 1000000 in
theorem trB_S4 : trB.sl.f_6 d L p fB fS = putN (acc (XB0 fB p) 49) 0 4 (by omega) fS := by
  unfold trB.sl.f_6 trB.sl.HS'_4; erw [readCov_whole_cons]; refine storeIdx_eq_put _ _ _ _ _ _ _ ?_ rfl
  unfold trB.sl.f_4 trB.sl.HS'_3; erw [readCov_whole_cons]; refine storeIdx_eq_put _ _ _ _ _ _ _ ?_ rfl
  unfold trB.sl.f_2 trB.sl.HS'_2; erw [readCov_whole_cons]; refine storeIdx_eq_put _ _ _ _ _ _ _ ?_ rfl
  unfold trB.sl.f trB.sl.HS'_1; erw [readCov_whole_cons]; exact storeIdx_eq_put _ _ _ _ _ _ _ (Memref.readAt_whole _ _ _) rfl

set_option maxHeartbeats 1000000 in
theorem trB_S8 : trB.sl.f_14 d L p fB fS = putN (acc (XB0 fB p) 49) 0 8 (by omega) fS := by
  unfold trB.sl.f_14 trB.sl.HS'_8; erw [readCov_whole_cons]; refine storeIdx_eq_put _ _ _ _ _ _ _ ?_ rfl
  unfold trB.sl.f_12 trB.sl.HS'_7; erw [readCov_whole_cons]; refine storeIdx_eq_put _ _ _ _ _ _ _ ?_ rfl
  unfold trB.sl.f_10 trB.sl.HS'_6; erw [readCov_whole_cons]; refine storeIdx_eq_put _ _ _ _ _ _ _ ?_ rfl
  unfold trB.sl.f_8 trB.sl.HS'_5; erw [readCov_whole_cons]; exact storeIdx_eq_put _ _ _ _ _ _ _ (trB_S4 d L p fB fS) rfl

set_option maxHeartbeats 1000000 in
theorem trB_S12 : trB.sl.f_22 d L p fB fS = putN (acc (XB1 fB p) 49) 8 4 (by omega) (putN (acc (XB0 fB p) 49) 0 8 (by omega) fS) := by
  unfold trB.sl.f_22 trB.sl.HS'_12; erw [readCov_whole_cons]; refine storeIdx_eq_put _ _ _ _ _ _ _ ?_ rfl
  unfold trB.sl.f_20 trB.sl.HS'_11; erw [readCov_whole_cons]; refine storeIdx_eq_put _ _ _ _ _ _ _ ?_ rfl
  unfold trB.sl.f_18 trB.sl.HS'_10; erw [readCov_whole_cons]; refine storeIdx_eq_put _ _ _ _ _ _ _ ?_ rfl
  unfold trB.sl.f_16 trB.sl.HS'_9; erw [readCov_whole_cons]; exact storeIdx_eq_put _ _ _ _ _ _ _ ((trB_S8 d L p fB fS).trans (putN_zero _ _ _ _).symm) rfl

set_option maxHeartbeats 1000000 in
theorem trB_S16 : trB.sl.f_30 d L p fB fS = putN (acc (XB1 fB p) 49) 8 8 (by omega) (putN (acc (XB0 fB p) 49) 0 8 (by omega) fS) := by
  unfold trB.sl.f_30 trB.sl.HS'_16; erw [readCov_whole_cons]; refine storeIdx_eq_put _ _ _ _ _ _ _ ?_ rfl
  unfold trB.sl.f_28 trB.sl.HS'_15; erw [readCov_whole_cons]; refine storeIdx_eq_put _ _ _ _ _ _ _ ?_ rfl
  unfold trB.sl.f_26 trB.sl.HS'_14; erw [readCov_whole_cons]; refine storeIdx_eq_put _ _ _ _ _ _ _ ?_ rfl
  unfold trB.sl.f_24 trB.sl.HS'_13; erw [readCov_whole_cons]; exact storeIdx_eq_put _ _ _ _ _ _ _ (trB_S12 d L p fB fS) rfl

set_option maxHeartbeats 1000000 in
/-- A trip's sixteen slot stores are two runs of eight accumulators; their transposed sums are the pair's sixteen group sums. -/
theorem bridgeBS : (trB d L v2 c0 c1 t1 p fB fS fQ).2.2.1 = pairS (n := 49824) fB (1568 * p.val) :=
  (congrArg flush (trB_S16 d L p fB fS)).trans ((flush_pair (acc (XB0 fB p) 49) (acc (XB1 fB p) 49) fS).trans
    (pairS_of fB (1568 * p.val) (XB0 fB p) (XB1 fB p) (XB0_eq fB p) (XB1_eq fB p)))

set_option maxHeartbeats 1000000 in
theorem trB_Q4 : trB.sl.f_7 d L p fB fQ = putN (acc (sq (XB0 fB p)) 49) 0 4 (by omega) fQ := by
  unfold trB.sl.f_7 trB.sl.HQ'_4; erw [readCov_whole_cons]; refine storeIdx_eq_put _ _ _ _ _ _ _ ?_ rfl
  unfold trB.sl.f_5 trB.sl.HQ'_3; erw [readCov_whole_cons]; refine storeIdx_eq_put _ _ _ _ _ _ _ ?_ rfl
  unfold trB.sl.f_3 trB.sl.HQ'_2; erw [readCov_whole_cons]; refine storeIdx_eq_put _ _ _ _ _ _ _ ?_ rfl
  unfold trB.sl.f_1 trB.sl.HQ'_1; erw [readCov_whole_cons]; exact storeIdx_eq_put _ _ _ _ _ _ _ (Memref.readAt_whole _ _ _) rfl

set_option maxHeartbeats 1000000 in
theorem trB_Q8 : trB.sl.f_15 d L p fB fQ = putN (acc (sq (XB0 fB p)) 49) 0 8 (by omega) fQ := by
  unfold trB.sl.f_15 trB.sl.HQ'_8; erw [readCov_whole_cons]; refine storeIdx_eq_put _ _ _ _ _ _ _ ?_ rfl
  unfold trB.sl.f_13 trB.sl.HQ'_7; erw [readCov_whole_cons]; refine storeIdx_eq_put _ _ _ _ _ _ _ ?_ rfl
  unfold trB.sl.f_11 trB.sl.HQ'_6; erw [readCov_whole_cons]; refine storeIdx_eq_put _ _ _ _ _ _ _ ?_ rfl
  unfold trB.sl.f_9 trB.sl.HQ'_5; erw [readCov_whole_cons]; exact storeIdx_eq_put _ _ _ _ _ _ _ (trB_Q4 d L p fB fQ) rfl

set_option maxHeartbeats 1000000 in
theorem trB_Q12 : trB.sl.f_23 d L p fB fQ = putN (acc (sq (XB1 fB p)) 49) 8 4 (by omega) (putN (acc (sq (XB0 fB p)) 49) 0 8 (by omega) fQ) := by
  unfold trB.sl.f_23 trB.sl.HQ'_12; erw [readCov_whole_cons]; refine storeIdx_eq_put _ _ _ _ _ _ _ ?_ rfl
  unfold trB.sl.f_21 trB.sl.HQ'_11; erw [readCov_whole_cons]; refine storeIdx_eq_put _ _ _ _ _ _ _ ?_ rfl
  unfold trB.sl.f_19 trB.sl.HQ'_10; erw [readCov_whole_cons]; refine storeIdx_eq_put _ _ _ _ _ _ _ ?_ rfl
  unfold trB.sl.f_17 trB.sl.HQ'_9; erw [readCov_whole_cons]; exact storeIdx_eq_put _ _ _ _ _ _ _ ((trB_Q8 d L p fB fQ).trans (putN_zero _ _ _ _).symm) rfl

set_option maxHeartbeats 1000000 in
theorem trB_Q16 : trB.sl.f_31 d L p fB fQ = putN (acc (sq (XB1 fB p)) 49) 8 8 (by omega) (putN (acc (sq (XB0 fB p)) 49) 0 8 (by omega) fQ) := by
  unfold trB.sl.f_31 trB.sl.HQ'_16; erw [readCov_whole_cons]; refine storeIdx_eq_put _ _ _ _ _ _ _ ?_ rfl
  unfold trB.sl.f_29 trB.sl.HQ'_15; erw [readCov_whole_cons]; refine storeIdx_eq_put _ _ _ _ _ _ _ ?_ rfl
  unfold trB.sl.f_27 trB.sl.HQ'_14; erw [readCov_whole_cons]; refine storeIdx_eq_put _ _ _ _ _ _ _ ?_ rfl
  unfold trB.sl.f_25 trB.sl.HQ'_13; erw [readCov_whole_cons]; exact storeIdx_eq_put _ _ _ _ _ _ _ (trB_Q12 d L p fB fQ) rfl

set_option maxHeartbeats 1000000 in
/-- A trip's sixteen slot stores are two runs of eight accumulators; their transposed sums are the pair's sixteen sums of squares. -/
theorem bridgeBQ : (trB d L v2 c0 c1 t1 p fB fS fQ).2.2.2.1 = pairQ (n := 49824) fB (1568 * p.val) :=
  (congrArg flush (trB_Q16 d L p fB fQ)).trans ((flush_pair (acc (sq (XB0 fB p)) 49) (acc (sq (XB1 fB p)) 49) fQ).trans
    (pairQ_of fB (1568 * p.val) (XB0 fB p) (XB1 fB p) (XB0_eq fB p) (XB1_eq fB p)))

end Cert.Kernel.Pf

end
-- ==== Proof.B.TileTail.lean ====
import proofs.«207604_g45191645889005_cont_8to1c4_5_22_alg».proof.Proof.B.TileSetup

noncomputable section

namespace Cert.Kernel.Pf

open Cert.Kernel Cert.Kernel.Gen Cert.Proof

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option cleanup.letToHave false in set_option maxHeartbeats 40000000 in

noncomputable def tailProg (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (arg13 : BitVec 32) (v110 : BitVec 32) (v125 : FVec F S16 .f32) (v126 : FVec F S16 .f32) (v127 : FVec F S16 .f32) (v128 : FVec F S16 .f32) (v129 : FVec F S16 .f32) (v130 : FVec F S16 .f32) (v131 : FVec F S16 .f32) (v132 : FVec F S16 .f32) (v133 : FVec F S16 .f32) (v134 : FVec F S16 .f32) (v135 : FVec F S16 .f32) : Prog (TpuEff nD τ sig (Elt F) Λ₀ (.scVector ((i 0).castLE hcore1) ((i 1).castLE hsub1))) PUnit := do
    let ⟨v136, v137, v138, v139, v140, v173, v175, v176, v178, v179⟩ : Σ' (v136 : FVec F S16 .f32) (v137 : FVec F S16 .f32) (v138 : FVec F S16 .f32) (v139 : FVec F S16 .f32) (v140 : FVec F S16 .f32) (v173 : FVec F S16 .f32) (v175 : FVec F S16 .f32) (v176 : FVec F S16 .f32) (v178 : FVec F S16 .f32), Vec F S16 .f32 ← k1_part36 i arg2 harg2 arg3 harg3 arg4 harg4 arg5 harg5 arg6 harg6 arg7 harg7 arg8 harg8 arg9 harg9 arg10 harg10 arg11 arg12 v633_r0 v633_r1 v3 v125 v126 v133 v134
    let ⟨v207, v210, v224, v226, v227⟩ : Σ' (v207 : FVec F S16 .f32) (v210 : FVec F S16 .f32) (v224 : FVec F S16 .f32) (v226 : FVec F S16 .f32), FVec F S16 .f32 ← k1_part37 i arg2 harg2 arg3 harg3 arg4 harg4 arg5 harg5 arg6 harg6 arg7 harg7 arg8 harg8 arg9 harg9 arg10 harg10 arg11 arg12 v633_r0 v633_r1 v3 v127 v135 v175 v178 v179
    let ⟨v241, v244, v265, v266, v267, v268, v270, v272, v273⟩ : Σ' (v241 : FVec F S16 .f32) (v244 : FVec F S16 .f32) (v265 : FVec F S16 .f32) (v266 : FVec F S16 .f32) (v267 : Vec F S16 .f32) (v268 : FVec F S16 .f32) (v270 : IVec S16 1) (v272 : Vec F S16 .f32), FVec F S16 .f32 ← k1_part38 i arg2 harg2 arg3 harg3 arg4 harg4 arg5 harg5 arg6 harg6 arg7 harg7 arg8 harg8 arg9 harg9 arg10 harg10 arg11 arg12 v633_r0 v633_r1 v3 v128 v136 v224 v226 v227
    let ⟨v275, v278, v309, v312, v321, v322⟩ : Σ' (v275 : FVec F S16 .f32) (v278 : FVec F S16 .f32) (v309 : FVec F S16 .f32) (v312 : FVec F S16 .f32) (v321 : FVec F S16 .f32), FVec F S16 .f32 ← k1_part39 i arg2 harg2 arg3 harg3 arg4 harg4 arg5 harg5 arg6 harg6 arg7 harg7 arg8 harg8 arg9 harg9 arg10 harg10 arg11 arg12 v633_r0 v633_r1 v3 v129 v130 v137 v138 v265 v266 v267 v268 v270 v272 v273
    let ⟨v343, v346, v367, v368, v369⟩ : Σ' (v343 : FVec F S16 .f32) (v346 : FVec F S16 .f32) (v367 : FVec F S16 .f32) (v368 : FVec F S16 .f32), Vec F S16 .f32 ← k1_part40 i arg2 harg2 arg3 harg3 arg4 harg4 arg5 harg5 arg6 harg6 arg7 harg7 arg8 harg8 arg9 harg9 arg10 harg10 arg11 arg12 v633_r0 v633_r1 v3 v131 v139 v321 v322
    let ⟨v405, v406⟩ : Σ' (v405 : FVec F S16 .f32), FVec F S16 .f32 ← k1_part41 i arg2 harg2 arg3 harg3 arg4 harg4 arg5 harg5 arg6 harg6 arg7 harg7 arg8 harg8 arg9 harg9 arg10 harg10 arg11 arg12 v633_r0 v633_r1 v3 v6 k1_hw1 v8 k1_hw2 v10 k1_hw3 v12 k1_hw4 v14 k1_hw5 v16 k1_hw6 v18 k1_hw7 v132 v140 v173 v176 v207 v210 v241 v244 v275 v278 v309 v312 v343 v346 v367 v368 v369
    let ⟨v408, v409, v410, v411, v413, v414, v415, v416, v439, v440, v441, v442, v444, v445⟩ : Σ' (v408 : FVec F S16 .f32) (v409 : FVec F S16 .f32) (v410 : FVec F S16 .f32) (v411 : FVec F S16 .f32) (v413 : FVec F S16 .f32) (v414 : FVec F S16 .f32) (v415 : FVec F S16 .f32) (v416 : FVec F S16 .f32) (v439 : FVec F S16 .f32) (v440 : FVec F S16 .f32) (v441 : Vec F S16 .f32) (v442 : FVec F S16 .f32) (v444 : IVec S16 1), FVec F S16 .f32 ← k1_part42 i arg2 harg2 arg3 harg3 arg4 harg4 arg5 harg5 arg6 harg6 arg7 harg7 arg8 harg8 arg9 harg9 arg10 harg10 arg11 arg12 v633_r0 v633_r1 v3 v20 k1_hw8 v405 v406
    let ⟨v449, v452, v483, v486, v491, v492, v493⟩ : Σ' (v449 : FVec F S16 .f32) (v452 : FVec F S16 .f32) (v483 : FVec F S16 .f32) (v486 : FVec F S16 .f32) (v491 : FVec F S16 .f32) (v492 : FVec F S16 .f32), Vec F S16 .f32 ← k1_part43 i arg2 harg2 arg3 harg3 arg4 harg4 arg5 harg5 arg6 harg6 arg7 harg7 arg8 harg8 arg9 harg9 arg10 harg10 arg11 arg12 v633_r0 v633_r1 v3 v408 v409 v413 v414 v439 v440 v441 v442 v444 v445
    let ⟨v517, v520, v538, v540, v541⟩ : Σ' (v517 : FVec F S16 .f32) (v520 : FVec F S16 .f32) (v538 : FVec F S16 .f32) (v540 : FVec F S16 .f32), FVec F S16 .f32 ← k1_part44 i arg2 harg2 arg3 harg3 arg4 harg4 arg5 harg5 arg6 harg6 arg7 harg7 arg8 harg8 arg9 harg9 arg10 harg10 arg11 arg12 v633_r0 v633_r1 v3 v410 v415 v491 v492 v493
    let ⟨v576, v578, v579⟩ : Σ' (v576 : FVec F S16 .f32) (v578 : FVec F S16 .f32), Vec F S16 .f32 ← k1_part45 i arg2 harg2 arg3 harg3 arg4 harg4 arg5 harg5 arg6 harg6 arg7 harg7 arg8 harg8 arg9 harg9 arg10 harg10 arg11 arg12 v633_r0 v633_r1 v3 v4 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v411 v416 v449 v452 v483 v486 v517 v520 v538 v540 v541
    k1_part46 i arg2 harg2 arg3 harg3 arg4 harg4 arg5 harg5 arg6 harg6 arg7 harg7 arg8 harg8 arg9 harg9 arg10 harg10 arg11 arg12 v633_r0 v633_r1 v56 k1_hw21 v60 k1_hw22 v64 k1_hw23 v68 k1_hw24 v72 k1_hw25 v76 k1_hw26 v80 k1_hw27 v84 k1_hw28 v88 k1_hw29 v92 k1_hw30 v96 k1_hw31 v100 k1_hw32 arg13 v576 v578 v579

set_option cleanup.letToHave false in set_option maxHeartbeats 40000000 in

noncomputable def restProg (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (k1_t1 : Fin k1_t1_loop.trips) : Prog (TpuEff nD τ sig (Elt F) Λ₀ (.scVector ((i 0).castLE hcore1) ((i 1).castLE hsub1))) PUnit := do
    if k1_h2 : k1_cond2 k1_t1 = 1#1 then do
      let v636 : Memref sig .scVector .hbm S1x49824 .f32 := arg2.slice (Rect.unit (s := S1024x100000) (k1_off12 i k1_t1) S1x49824.size (k1_off12_inb i k1_t1 k1_h2)) (fun _ => rfl)
      let v637 : Memref sig .scVector .hbm S49824 .f32 := v636.squeeze S49824 squeezes_S1x49824_S49824
      Prog.lift (.enqueueDma v637 (.here arg6) (.dma arg12.sem) ((View.wordExact_bits rfl).reshape _ _) harg6.wordExact ⟨Or.inl rfl, trivial⟩)
      pure ⟨⟩
    else do
      pure ⟨⟩
    let v636_r0 : Memref sig .scVector .hbm S1x1024 .f32 := arg3.slice (Rect.unit (s := S256x1024) (k1_off13 i k1_t1) S1x1024.size (k1_off13_inb i k1_t1)) (fun _ => rfl)
    let v637_r0 : Memref sig .scVector .hbm S1024 .f32 := v636_r0.squeeze S1024 squeezes_S1x1024_S1024
    Prog.lift (.enqueueDma arg7 (.here v637_r0) (.dma v633_r0.sem) harg7.wordExact ((View.wordExact_bits rfl).reshape _ _) ⟨Or.inl rfl, trivial⟩)
    let v640_r0 : Memref sig .scVector .hbm S1x1024 .f32 := arg3.slice (Rect.unit (s := S256x1024) (k1_off13 i k1_t1) S1x1024.size (k1_off13_inb i k1_t1)) (fun _ => rfl)
    let v641_r0 : Memref sig .scVector .hbm S1024 .f32 := v640_r0.squeeze S1024 squeezes_S1x1024_S1024
    Prog.lift (.waitDma2 v633_r0.sem arg7 v641_r0 harg7.wordExact ((View.wordExact_bits rfl).reshape _ _))
    let v636_r1 : Memref sig .scVector .hbm S1x1024 .f32 := arg4.slice (Rect.unit (s := S256x1024) (k1_off13 i k1_t1) S1x1024.size (k1_off13_inb i k1_t1)) (fun _ => rfl)
    let v637_r1 : Memref sig .scVector .hbm S1024 .f32 := v636_r1.squeeze S1024 squeezes_S1x1024_S1024
    Prog.lift (.enqueueDma arg8 (.here v637_r1) (.dma v633_r1.sem) harg8.wordExact ((View.wordExact_bits rfl).reshape _ _) ⟨Or.inl rfl, trivial⟩)
    let v640_r1 : Memref sig .scVector .hbm S1x1024 .f32 := arg4.slice (Rect.unit (s := S256x1024) (k1_off13 i k1_t1) S1x1024.size (k1_off13_inb i k1_t1)) (fun _ => rfl)
    let v641_r1 : Memref sig .scVector .hbm S1024 .f32 := v640_r1.squeeze S1024 squeezes_S1x1024_S1024
    Prog.lift (.waitDma2 v633_r1.sem arg8 v641_r1 harg8.wordExact ((View.wordExact_bits rfl).reshape _ _))
    pure ⟨⟩

set_option maxRecDepth 65536 in set_option maxHeartbeats 40000000 in

theorem k1_t1_body_cut (i : grid1.Coords) (arg2 : Memref sig .scVector .hbm S1024x100000 .f32) (harg2 : arg2.IsWhole) (arg3 : Memref sig .scVector .hbm S256x1024 .f32) (harg3 : arg3.IsWhole) (arg4 : Memref sig .scVector .hbm S256x1024 .f32) (harg4 : arg4.IsWhole) (arg5 : Memref sig .scVector .vmem S50176 .f32) (harg5 : arg5.IsWhole) (arg6 : Memref sig .scVector .vmem S49824 .f32) (harg6 : arg6.IsWhole) (arg7 : Memref sig .scVector .vmem S1024 .f32) (harg7 : arg7.IsWhole) (arg8 : Memref sig .scVector .vmem S1024 .f32) (harg8 : arg8.IsWhole) (arg9 : Memref sig .scVector .vmem S272 .f32) (harg9 : arg9.IsWhole) (arg10 : Memref sig .scVector .vmem S272 .f32) (harg10 : arg10.IsWhole) (arg11 : DmaSems sig S_) (arg12 : DmaSems sig S_) (v633_r0 : DmaSems sig S_) (v633_r1 : DmaSems sig S_) (v2 : BitVec 32) (v3 : IVec S16 32) (v4 : FVec F S16 .f32) (v6 : IVec S16 32) (k1_hw1 : k1_chk1 v6) (v8 : IVec S16 32) (k1_hw2 : k1_chk2 v8) (v10 : IVec S16 32) (k1_hw3 : k1_chk3 v10) (v12 : IVec S16 32) (k1_hw4 : k1_chk4 v12) (v14 : IVec S16 32) (k1_hw5 : k1_chk5 v14) (v16 : IVec S16 32) (k1_hw6 : k1_chk6 v16) (v18 : IVec S16 32) (k1_hw7 : k1_chk7 v18) (v20 : IVec S16 32) (k1_hw8 : k1_chk8 v20) (v22 : IVec S16 32) (k1_hw9 : k1_chk9 v22) (v24 : IVec S16 32) (k1_hw10 : k1_chk10 v24) (v26 : IVec S16 32) (k1_hw11 : k1_chk11 v26) (v28 : IVec S16 32) (k1_hw12 : k1_chk12 v28) (v30 : IVec S16 32) (k1_hw13 : k1_chk13 v30) (v32 : IVec S16 32) (k1_hw14 : k1_chk14 v32) (v34 : IVec S16 32) (k1_hw15 : k1_chk15 v34) (v36 : IVec S16 32) (k1_hw16 : k1_chk16 v36) (v40 : IVec S16 32) (k1_hw17 : k1_chk17 v40) (v44 : IVec S16 32) (k1_hw18 : k1_chk18 v44) (v48 : IVec S16 32) (k1_hw19 : k1_chk19 v48) (v52 : IVec S16 32) (k1_hw20 : k1_chk20 v52) (v56 : IVec S16 32) (k1_hw21 : k1_chk21 v56) (v60 : IVec S16 32) (k1_hw22 : k1_chk22 v60) (v64 : IVec S16 32) (k1_hw23 : k1_chk23 v64) (v68 : IVec S16 32) (k1_hw24 : k1_chk24 v68) (v72 : IVec S16 32) (k1_hw25 : k1_chk25 v72) (v76 : IVec S16 32) (k1_hw26 : k1_chk26 v76) (v80 : IVec S16 32) (k1_hw27 : k1_chk27 v80) (v84 : IVec S16 32) (k1_hw28 : k1_chk28 v84) (v88 : IVec S16 32) (k1_hw29 : k1_chk29 v88) (v92 : IVec S16 32) (k1_hw30 : k1_chk30 v92) (v96 : IVec S16 32) (k1_hw31 : k1_chk31 v96) (v100 : IVec S16 32) (k1_hw32 : k1_chk32 v100) (k1_t1 : Fin k1_t1_loop.trips) (u : Unit) :
    k1_t1_body i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 k1_t1 u = (do
      let ⟨arg13, v110, v125, v126, v127, v128, v129, v130, v131, v132, v133, v134, v135⟩ : Σ' (arg13 : BitVec 32) (v110 : BitVec 32) (v125 : FVec F S16 .f32) (v126 : FVec F S16 .f32) (v127 : FVec F S16 .f32) (v128 : FVec F S16 .f32) (v129 : FVec F S16 .f32) (v130 : FVec F S16 .f32) (v131 : FVec F S16 .f32) (v132 : FVec F S16 .f32) (v133 : FVec F S16 .f32) (v134 : FVec F S16 .f32), FVec F S16 .f32 ← k1_part35 i arg2 harg2 arg3 harg3 arg4 harg4 arg5 harg5 arg6 harg6 arg7 harg7 arg8 harg8 arg9 harg9 arg10 harg10 arg11 arg12 v633_r0 v633_r1 v2 v3 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 0#32 1#32 k1_t1
      tailProg i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 arg13 v110 v125 v126 v127 v128 v129 v130 v131 v132 v133 v134 v135
      restProg i arg2 harg2 arg3 harg3 arg4 harg4 arg5 harg5 arg6 harg6 arg7 harg7 arg8 harg8 arg9 harg9 arg10 harg10 arg11 arg12 v633_r0 v633_r1 v2 v3 v4 v6 k1_hw1 v8 k1_hw2 v10 k1_hw3 v12 k1_hw4 v14 k1_hw5 v16 k1_hw6 v18 k1_hw7 v20 k1_hw8 v22 k1_hw9 v24 k1_hw10 v26 k1_hw11 v28 k1_hw12 v30 k1_hw13 v32 k1_hw14 v34 k1_hw15 v36 k1_hw16 v40 k1_hw17 v44 k1_hw18 v48 k1_hw19 v52 k1_hw20 v56 k1_hw21 v60 k1_hw22 v64 k1_hw23 v68 k1_hw24 v72 k1_hw25 v76 k1_hw26 v80 k1_hw27 v84 k1_hw28 v88 k1_hw29 v92 k1_hw30 v96 k1_hw31 v100 k1_hw32 k1_t1) := rfl

set_option maxHeartbeats 4000000 in

def trT (d : Dev nD) (L : grid1.Coords) (v2 : BitVec 32) (arg13 : BitVec 32) (v110 : BitVec 32)
    (fB : Buf (Elt F) ((thr d L).loc cc1_scratch1)) (fS : Buf (Elt F) ((thr d L).loc cc1_scratch4)) (fQ : Buf (Elt F) ((thr d L).loc cc1_scratch5)) :
    Σ' (fS' : Buf (Elt F) ((thr d L).loc cc1_scratch4)) (fQ' : Buf (Elt F) ((thr d L).loc cc1_scratch5)) (vs vq : FVec F S16 .f32),
      ∀ (fO : Buf (Elt F) ((thr d L).loc cc1_scratch2)) (fP : Buf (Elt F) ((thr d L).loc cc1_scratch3)),
    (iprop(((thr d L).loc cc1_scratch1 ↦{fullShare} fB) ∗ ((thr d L).loc cc1_scratch4 ↦{fullShare} fS) ∗ ((thr d L).loc cc1_scratch5 ↦{fullShare} fQ)
        ∗ ((thr d L).loc cc1_scratch2 ↦{fullShare} fO) ∗ ((thr d L).loc cc1_scratch3 ↦{fullShare} fP)) : sProp 𝕄)
      ⊢ wp frame (wpE (defs₀ (F := F)) 𝒱₀ (thr d L) none) Set.univ
          (tailProg L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane Tile.zero16 (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 arg13 v110 (k1_pay304 (F := F)) (k1_pay305 (F := F)) (k1_pay306 (F := F)) (k1_pay307 (F := F)) (k1_pay308 (F := F)) (k1_pay309 (F := F)) (k1_pay310 (F := F)) (k1_pay311 (F := F)) (k1_pay312 (F := F)) (k1_pay313 (F := F)) (k1_pay314 (F := F)))
          fun _ => iprop(((thr d L).loc cc1_scratch1 ↦{fullShare} fB) ∗ ((thr d L).loc cc1_scratch4 ↦{fullShare} fS') ∗ ((thr d L).loc cc1_scratch5 ↦{fullShare} fQ')
        ∗ ((thr d L).loc cc1_scratch2 ↦{fullShare} (bO).view.writes (Elt F) fO [⟨Rect.unit (s := S1024) ![1008] S16.size inb_S1024_S16_1008, vs⟩])
        ∗ ((thr d L).loc cc1_scratch3 ↦{fullShare} (bP).view.writes (Elt F) fP [⟨Rect.unit (s := S1024) ![1008] S16.size inb_S1024_S16_1008, vq⟩])) :=
  ⟨_, _, _, _, by
    intro fO fP
    unfold tailProg
    simp only [k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton]
    unfold k1_part36_skel k1_part37_skel k1_part38_skel k1_part39_skel k1_part40_skel k1_part41_skel k1_part42_skel k1_part43_skel k1_part44_skel k1_part45_skel k1_part46_skel
    simp only [SparseCore.vectorLoadIdx_bind (thr d L), SparseCore.vectorStoreIdx_bind (thr d L)]
    iintro ⟨HB, HS, HQ, HO, HP⟩
    ihave HB' := (Entails.of_eq (pts_bB (F := F) d L _).symm) $$ HB
    ihave HS' := (Entails.of_eq (pts_tS (F := F) d L _).symm) $$ HS
    ihave HQ' := (Entails.of_eq (pts_tQ (F := F) d L _).symm) $$ HQ
    ihave HO' := (Entails.of_eq (pts_bO (F := F) d L _).symm) $$ HO
    ihave HP' := (Entails.of_eq (pts_bP (F := F) d L _).symm) $$ HP
    sl_exec
    sl_step
    isplitl [HB']; · iexact HB'
    isplitl [HS']; · iexact HS'
    isplitl [HQ']; · iexact HQ'
    isplitl [HO']; · iexact HO'
    iexact HP'⟩

end Cert.Kernel.Pf

end
-- ==== Proof.B.BridgeT.lean ====
import proofs.«207604_g45191645889005_cont_8to1c4_5_22_alg».proof.Proof.B.TileTail
import proofs.«207604_g45191645889005_cont_8to1c4_5_22_alg».proof.Proof.B.BridgeLib

noncomputable section

namespace Cert.Kernel.Pf

open Idealize.ShloMosaic Cert.Kernel Cert.Kernel.Gen Cert.Proof Cert.Proof.Tile

variable {F : FTy → Type} [FloatOps F]

variable (d : Dev nD) (L : grid1.Coords) (v2 a13 v110 : BitVec 32) (fB : Vec F S49824 .f32) (fS fQ : Vec F S272 .f32)

set_option maxHeartbeats 1000000 in
theorem trT_S4 : trT.sl.f_6 d L fB fS = putN (acc (XT0 fB) 49) 0 4 (by omega) fS := by
  unfold trT.sl.f_6 trT.sl.HS'_4; erw [readCov_whole_cons]; refine storeIdx_eq_put _ _ _ _ _ _ _ ?_ rfl
  unfold trT.sl.f_4 trT.sl.HS'_3; erw [readCov_whole_cons]; refine storeIdx_eq_put _ _ _ _ _ _ _ ?_ rfl
  unfold trT.sl.f_2 trT.sl.HS'_2; erw [readCov_whole_cons]; refine storeIdx_eq_put _ _ _ _ _ _ _ ?_ rfl
  unfold trT.sl.f trT.sl.HS'_1; erw [readCov_whole_cons]; exact storeIdx_eq_put _ _ _ _ _ _ _ (Memref.readAt_whole _ _ _) rfl

set_option maxHeartbeats 1000000 in
theorem trT_S8 : trT.sl.f_14 d L fB fS = putN (acc (XT0 fB) 49) 0 8 (by omega) fS := by
  unfold trT.sl.f_14 trT.sl.HS'_8; erw [readCov_whole_cons]; refine storeIdx_eq_put _ _ _ _ _ _ _ ?_ rfl
  unfold trT.sl.f_12 trT.sl.HS'_7; erw [readCov_whole_cons]; refine storeIdx_eq_put _ _ _ _ _ _ _ ?_ rfl
  unfold trT.sl.f_10 trT.sl.HS'_6; erw [readCov_whole_cons]; refine storeIdx_eq_put _ _ _ _ _ _ _ ?_ rfl
  unfold trT.sl.f_8 trT.sl.HS'_5; erw [readCov_whole_cons]; exact storeIdx_eq_put _ _ _ _ _ _ _ (trT_S4 d L fB fS) rfl

set_option maxHeartbeats 1000000 in
theorem trT_S12 : trT.sl.f_22 d L fB fS = putN (acc (XT1 fB) 27) 8 4 (by omega) (putN (acc (XT0 fB) 49) 0 8 (by omega) fS) := by
  unfold trT.sl.f_22 trT.sl.HS'_12; erw [readCov_whole_cons]; refine storeIdx_eq_put _ _ _ _ _ _ _ ?_ rfl
  unfold trT.sl.f_20 trT.sl.HS'_11; erw [readCov_whole_cons]; refine storeIdx_eq_put _ _ _ _ _ _ _ ?_ rfl
  unfold trT.sl.f_18 trT.sl.HS'_10; erw [readCov_whole_cons]; refine storeIdx_eq_put _ _ _ _ _ _ _ ?_ rfl
  unfold trT.sl.f_16 trT.sl.HS'_9; erw [readCov_whole_cons]; exact storeIdx_eq_put _ _ _ _ _ _ _ ((trT_S8 d L fB fS).trans (putN_zero _ _ _ _).symm) rfl

set_option maxHeartbeats 1000000 in
theorem trT_S16 : trT.sl.f_30 d L fB fS = put 15 (by omega) zero16 (put 14 (by omega) zero16 (put 13 (by omega) zero16 (putN (acc (XT1 fB) 27) 8 5 (by omega) (putN (acc (XT0 fB) 49) 0 8 (by omega) fS)))) := by
  unfold trT.sl.f_30 trT.sl.HS'_16; erw [readCov_whole_cons]; refine storeIdx_eq_put _ _ _ _ _ _ _ ?_ rfl
  unfold trT.sl.f_28 trT.sl.HS'_15; erw [readCov_whole_cons]; refine storeIdx_eq_put _ _ _ _ _ _ _ ?_ rfl
  unfold trT.sl.f_26 trT.sl.HS'_14; erw [readCov_whole_cons]; refine storeIdx_eq_put _ _ _ _ _ _ _ ?_ rfl
  unfold trT.sl.f_24 trT.sl.HS'_13; erw [readCov_whole_cons]; exact storeIdx_eq_put _ _ _ _ _ _ _ (trT_S12 d L fB fS) rfl

set_option maxHeartbeats 1000000 in
/-- The row's last sixteen slot stores are eight accumulators, five, and three zero vectors; their transposed sums are the row's last group sums. -/
theorem bridgeTS : (trT d L v2 a13 v110 fB fS fQ).2.2.1 = tailS fB :=
  (congrArg flush (trT_S16 d L fB fS)).trans ((flush_tail (acc (XT0 fB) 49) (acc (XT1 fB) 27) fS).trans
    (tailS_of fB (XT0 fB) (XT1 fB) (XT0_eq fB) (XT1_eq fB)))

set_option maxHeartbeats 1000000 in
theorem trT_Q4 : trT.sl.f_7 d L fB fQ = putN (acc (sq (XT0 fB)) 49) 0 4 (by omega) fQ := by
  unfold trT.sl.f_7 trT.sl.HQ'_4; erw [readCov_whole_cons]; refine storeIdx_eq_put _ _ _ _ _ _ _ ?_ rfl
  unfold trT.sl.f_5 trT.sl.HQ'_3; erw [readCov_whole_cons]; refine storeIdx_eq_put _ _ _ _ _ _ _ ?_ rfl
  unfold trT.sl.f_3 trT.sl.HQ'_2; erw [readCov_whole_cons]; refine storeIdx_eq_put _ _ _ _ _ _ _ ?_ rfl
  unfold trT.sl.f_1 trT.sl.HQ'_1; erw [readCov_whole_cons]; exact storeIdx_eq_put _ _ _ _ _ _ _ (Memref.readAt_whole _ _ _) rfl

set_option maxHeartbeats 1000000 in
theorem trT_Q8 : trT.sl.f_15 d L fB fQ = putN (acc (sq (XT0 fB)) 49) 0 8 (by omega) fQ := by
  unfold trT.sl.f_15 trT.sl.HQ'_8; erw [readCov_whole_cons]; refine storeIdx_eq_put _ _ _ _ _ _ _ ?_ rfl
  unfold trT.sl.f_13 trT.sl.HQ'_7; erw [readCov_whole_cons]; refine storeIdx_eq_put _ _ _ _ _ _ _ ?_ rfl
  unfold trT.sl.f_11 trT.sl.HQ'_6; erw [readCov_whole_cons]; refine storeIdx_eq_put _ _ _ _ _ _ _ ?_ rfl
  unfold trT.sl.f_9 trT.sl.HQ'_5; erw [readCov_whole_cons]; exact storeIdx_eq_put _ _ _ _ _ _ _ (trT_Q4 d L fB fQ) rfl

set_option maxHeartbeats 1000000 in
theorem trT_Q12 : trT.sl.f_23 d L fB fQ = putN (acc (sq (XT1 fB)) 27) 8 4 (by omega) (putN (acc (sq (XT0 fB)) 49) 0 8 (by omega) fQ) := by
  unfold trT.sl.f_23 trT.sl.HQ'_12; erw [readCov_whole_cons]; refine storeIdx_eq_put _ _ _ _ _ _ _ ?_ rfl
  unfold trT.sl.f_21 trT.sl.HQ'_11; erw [readCov_whole_cons]; refine storeIdx_eq_put _ _ _ _ _ _ _ ?_ rfl
  unfold trT.sl.f_19 trT.sl.HQ'_10; erw [readCov_whole_cons]; refine storeIdx_eq_put _ _ _ _ _ _ _ ?_ rfl
  unfold trT.sl.f_17 trT.sl.HQ'_9; erw [readCov_whole_cons]; exact storeIdx_eq_put _ _ _ _ _ _ _ ((trT_Q8 d L fB fQ).trans (putN_zero _ _ _ _).symm) rfl

set_option maxHeartbeats 1000000 in
theorem trT_Q16 : trT.sl.f_31 d L fB fQ = put 15 (by omega) zero16 (put 14 (by omega) zero16 (put 13 (by omega) zero16 (putN (acc (sq (XT1 fB)) 27) 8 5 (by omega) (putN (acc (sq (XT0 fB)) 49) 0 8 (by omega) fQ)))) := by
  unfold trT.sl.f_31 trT.sl.HQ'_16; erw [readCov_whole_cons]; refine storeIdx_eq_put _ _ _ _ _ _ _ ?_ rfl
  unfold trT.sl.f_29 trT.sl.HQ'_15; erw [readCov_whole_cons]; refine storeIdx_eq_put _ _ _ _ _ _ _ ?_ rfl
  unfold trT.sl.f_27 trT.sl.HQ'_14; erw [readCov_whole_cons]; refine storeIdx_eq_put _ _ _ _ _ _ _ ?_ rfl
  unfold trT.sl.f_25 trT.sl.HQ'_13; erw [readCov_whole_cons]; exact storeIdx_eq_put _ _ _ _ _ _ _ (trT_Q12 d L fB fQ) rfl

set_option maxHeartbeats 1000000 in
/-- The row's last sixteen slot stores are eight accumulators, five, and three zero vectors; their transposed sums are the row's last sums of squares. -/
theorem bridgeTQ : (trT d L v2 a13 v110 fB fS fQ).2.2.2.1 = tailQ fB :=
  (congrArg flush (trT_Q16 d L fB fQ)).trans ((flush_tail (acc (sq (XT0 fB)) 49) (acc (sq (XT1 fB)) 27) fQ).trans
    (tailQ_of fB (XT0 fB) (XT1 fB) (XT0_eq fB) (XT1_eq fB)))

end Cert.Kernel.Pf

end
-- ==== Proof.B.TileRow.lean ====
import proofs.«207604_g45191645889005_cont_8to1c4_5_22_alg».proof.Proof.B.TileInv
import proofs.«207604_g45191645889005_cont_8to1c4_5_22_alg».proof.Proof.B.BridgeA
import proofs.«207604_g45191645889005_cont_8to1c4_5_22_alg».proof.Proof.B.BridgeB
import proofs.«207604_g45191645889005_cont_8to1c4_5_22_alg».proof.Proof.B.BridgeT

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

section Row

variable (m : (ℓ : Loc nD τ sig) → Buf (Elt F) ℓ) (d : Dev nD) (L : grid1.Coords)
variable (O : CellTallies nD τ sig (HIx 1)) (W : Waits sig (HIx 1))

set_option maxHeartbeats 4000000 in
/-- One row of the tile; the cases `next row exists` / `last row` differ only in issuing and handing on the next row's two copies. -/
theorem rowStep (v2 : BitVec 32) (t : Fin k1_t1_loop.trips) (acc : Unit) :
    invR m d L O W t.val acc
      ⊢ wp frame (wpE (defs₀ (F := F)) 𝒱₀ (thr d L) none) Set.univ
          (k1_t1_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1 v2 Tile.lane Tile.zero16 (Tile.stIdx 0) chk1 (Tile.stIdx 1) chk2 (Tile.stIdx 2) chk3 (Tile.stIdx 3) chk4 (Tile.stIdx 4) chk5 (Tile.stIdx 5) chk6 (Tile.stIdx 6) chk7 (Tile.stIdx 7) chk8 (Tile.stIdx 8) chk9 (Tile.stIdx 9) chk10 (Tile.stIdx 10) chk11 (Tile.stIdx 11) chk12 (Tile.stIdx 12) chk13 (Tile.stIdx 13) chk14 (Tile.stIdx 14) chk15 (Tile.stIdx 15) chk16 (Tile.ldIdx 0) chk17 (Tile.ldIdx 1) chk18 (Tile.ldIdx 2) chk19 (Tile.ldIdx 3) chk20 (Tile.ldIdx 4) chk21 (Tile.ldIdx 5) chk22 (Tile.ldIdx 6) chk23 (Tile.ldIdx 7) chk24 (Tile.ldIdx 8) chk25 (Tile.ldIdx 9) chk26 (Tile.ldIdx 10) chk27 (Tile.ldIdx 11) chk28 (Tile.ldIdx 12) chk29 (Tile.ldIdx 13) chk30 (Tile.ldIdx 14) chk31 (Tile.ldIdx 15) chk32 t acc) (invR m d L O W (t.val + 1)) := by
  have ht : t.val < 8 := lt_of_lt_of_le t.isLt k1_t1_abs.2.1
  rw [k1_t1_body_cut]
  unfold invR pendA pendB
  rw [dif_pos ht, dif_pos ht]
  unfold DA DB
  iintro ⟨#Hmw, HFA, HFB, HxA, HxB, ⟨%fO, HO⟩, ⟨%fP, HP⟩, ⟨%fS, HS⟩, ⟨%fQ, HQ⟩, Hc0, Hc1, Hg, Hq, %W', %hW', HOw⟩
  have hw := wL_lt L
  have hsubA : colsA (8 * wL L + t.val) ⊆ allA (wL L) := colsA_subset_allA (by omega) (by omega)
  have hsubB : colsB (8 * wL L + t.val) ⊆ allB (wL L) := colsB_subset_allB (by omega) (by omega)
  ihave KxA := (Entails.of_eq (kept_eq _).symm) $$ HxA
  ihave KxB := (Entails.of_eq (kept_eq _).symm) $$ HxB
  sl_exec

  sl_for (invA d L (Tile.hA (xv m d) ⟨(8 * wL L + t.val), row_lt L t.val ht⟩ : Vec F S50176 .f32)
      (fun q => Tile.pairS (n := 50176) (Tile.hA (xv m d) ⟨(8 * wL L + t.val), row_lt L t.val ht⟩) (1568 * q))
      (fun q => Tile.pairQ (n := 50176) (Tile.hA (xv m d) ⟨(8 * wL L + t.val), row_lt L t.val ht⟩) (1568 * q)) fO fP) $$ [HFA_dst HS HQ HO HP]
  case region =>
    intro k acc
    exact tripA d L v2 (0#32) (1#32) t _ _ _ fO fP (fun p fS fQ => bridgeAS d L v2 _ _ _ p _ fS fQ) (fun p fS fQ => bridgeAQ d L v2 _ _ _ p _ fS fQ) k acc
  · unfold invA
    isplitl [HFA_dst]; · iexact HFA_dst
    isplitl [HS]; · iexists _; iexact HS
    isplitl [HQ]; · iexists _; iexact HQ
    isplitl [HO]
    · iexists fO; isplitl [HO]; · iexact HO
      ipureintro; exact DoneS_zero _ _ _
    · iexists fP; isplitl [HP]; · iexact HP
      ipureintro; exact DoneS_zero _ _ _
  iintro %acc1 HI
  unfold invA
  icases HI with ⟨HA, ⟨%fS1, HS⟩, ⟨%fQ1, HQ⟩, ⟨%fO1, HO, %hO1⟩, ⟨%fP1, HP, %hP1⟩⟩
  by_cases hc : t.val + 1 < 8
  all_goals
    first
    | (have hc1 : k1_cond1 t = 1#1 := (cond1_iff t).2 hc
       have hc2 : k1_cond2 t = 1#1 := (cond2_iff t).2 hc)
    | (have hc1 : ¬ k1_cond1 t = 1#1 := fun h => hc ((cond1_iff t).1 h)
       have hc2 : ¬ k1_cond2 t = 1#1 := fun h => hc ((cond2_iff t).1 h))
    ihave HA2 := (Entails.of_eq (pts_bA (F := F) d L _).symm) $$ HA
    ihave HS2 := (Entails.of_eq (pts_tS (F := F) d L _).symm) $$ HS
    ihave HQ2 := (Entails.of_eq (pts_tQ (F := F) d L _).symm) $$ HQ
    ihave HO2 := (Entails.of_eq (pts_bO (F := F) d L _).symm) $$ HO
    ihave HP2 := (Entails.of_eq (pts_bP (F := F) d L _).symm) $$ HP

    ihave HxA := (Entails.of_eq (kept_eq _)) $$ KxA
    ihave HxAll := ((pointsTo_split_subset (ℓ := xLoc d) hsubA).2) $$ [HFA_src HxA]
    · isplitl [HFA_src]; · iexact HFA_src
      iexact HxA
    first
    | (have hsubA' : colsA (8 * wL L + t.val + 1) ⊆ allA (wL L) := colsA_subset_allA (by omega) (by omega)
       ihave Hsp := ((pointsTo_split_subset (ℓ := xLoc d) hsubA').1) $$ HxAll
       icases Hsp with ⟨HxN, HxRest⟩
       have eN : (((slA (k1_off7 L t) (k1_off7_inb L t hc1)).view.loc (thr d L) ↦[(slA (k1_off7 L t) (k1_off7_inb L t hc1)).view.set]{fullShare} m (xLoc d) : sProp 𝕄))
           = (xLoc d ↦[colsA (8 * wL L + t.val + 1)]{fullShare} m (xLoc d)) := by
         rw [set_slA _ _ _ (off7_row L t)]
       ihave HxN' := (Entails.of_eq eN.symm) $$ HxN
       ihave KxA2 := (Entails.of_eq (kept_eq _).symm) $$ HxRest)
    | (ihave KxA2 := (Entails.of_eq ((congrArg (fun S => (xLoc d ↦[S]{fullShare} m (xLoc d) : sProp 𝕄))
         (allA_sdiff_colsA (w := wL L) (r := 8 * wL L + (t.val + 1)) (by omega)).symm).trans (kept_eq _).symm)) $$ HxAll)
    sl_exec

    sl_for (invB d L (Tile.hB (xv m d) ⟨(8 * wL L + t.val), row_lt L t.val ht⟩ : Vec F S49824 .f32)
        (fun q => Tile.pairS (n := 49824) (Tile.hB (xv m d) ⟨(8 * wL L + t.val), row_lt L t.val ht⟩) (1568 * q))
        (fun q => Tile.pairQ (n := 49824) (Tile.hB (xv m d) ⟨(8 * wL L + t.val), row_lt L t.val ht⟩) (1568 * q)) fO1 fP1) $$ [HFB_dst HS2 HQ2 HO2 HP2]
    case region =>
      intro k acc
      exact tripB d L v2 (0#32) (1#32) t _ _ _ fO1 fP1 (fun p fS fQ => bridgeBS d L v2 _ _ _ p _ fS fQ) (fun p fS fQ => bridgeBQ d L v2 _ _ _ p _ fS fQ) k acc
    · unfold invB
      isplitl [HFB_dst]; · iexact HFB_dst
      isplitl [HS2]; · iexists _; iexact HS2
      isplitl [HQ2]; · iexists _; iexact HQ2
      isplitl [HO2]
      · iexists fO1; isplitl [HO2]; · iexact HO2
        ipureintro; exact DoneS_zero _ _ _
      · iexists fP1; isplitl [HP2]; · iexact HP2
        ipureintro; exact DoneS_zero _ _ _
    iintro %acc2 HI
    unfold invB
    icases HI with ⟨HB, ⟨%fS3, HS⟩, ⟨%fQ3, HQ⟩, ⟨%fO3, HO, %hO3⟩, ⟨%fP3, HP, %hP3⟩⟩
    sl_step
    dsimp only
    rw [wp_bind]

    iapply (wp_wand_r frame _ _)
    isplitl [HB HS HQ HO HP]
    · iapply ((trT d L v2 _ _ _ fS3 fQ3).2.2.2.2 fO3 fP3)
      isplitl [HB]; · iexact HB
      isplitl [HS]; · iexact HS
      isplitl [HQ]; · iexact HQ
      isplitl [HO]; · iexact HO
      iexact HP
    iintro %u1 ⟨HB, HS, HQ, HO, HP⟩
    ihave HB3 := (Entails.of_eq (pts_bB (F := F) d L _).symm) $$ HB
    ihave HS3 := (Entails.of_eq (pts_tS (F := F) d L _).symm) $$ HS
    ihave HQ3 := (Entails.of_eq (pts_tQ (F := F) d L _).symm) $$ HQ
    ihave HO3 := (Entails.of_eq (pts_bO (F := F) d L _).symm) $$ HO
    ihave HP3 := (Entails.of_eq (pts_bP (F := F) d L _).symm) $$ HP

    ihave HxB := (Entails.of_eq (kept_eq _)) $$ KxB
    ihave HxBll := ((pointsTo_split_subset (ℓ := xLoc d) hsubB).2) $$ [HFB_src HxB]
    · isplitl [HFB_src]; · iexact HFB_src
      iexact HxB
    first
    | (have hsubB' : colsB (8 * wL L + t.val + 1) ⊆ allB (wL L) := colsB_subset_allB (by omega) (by omega)
       ihave HspB := ((pointsTo_split_subset (ℓ := xLoc d) hsubB').1) $$ HxBll
       icases HspB with ⟨HxNB, HxRestB⟩
       have eNB : (((slB (k1_off12 L t) (k1_off12_inb L t hc2)).view.loc (thr d L) ↦[(slB (k1_off12 L t) (k1_off12_inb L t hc2)).view.set]{fullShare} m (xLoc d) : sProp 𝕄))
           = (xLoc d ↦[colsB (8 * wL L + t.val + 1)]{fullShare} m (xLoc d)) := by
         rw [set_slB _ _ _ (off12_row L t)]
       ihave HxNB' := (Entails.of_eq eNB.symm) $$ HxNB
       ihave KxB2 := (Entails.of_eq (kept_eq _).symm) $$ HxRestB)
    | (ihave KxB2 := (Entails.of_eq ((congrArg (fun S => (xLoc d ↦[S]{fullShare} m (xLoc d) : sProp 𝕄))
         (allB_sdiff_colsB (w := wL L) (r := 8 * wL L + (t.val + 1)) (by omega)).symm).trans (kept_eq _).symm)) $$ HxBll)

    have hsubO : rowO (8 * wL L + t.val) ⊆ rowsO (wL L) := rowO_subset_rowsO (by omega) (by omega)
    ihave Hsg := ((pointsTo_split_subset (ℓ := gsLoc d) hsubO).1) $$ Hg
    icases Hsg with ⟨HgN, HgRest⟩
    have eG : (((slG (k1_off13 L t) (k1_off13_inb L t)).view.loc (thr d L) ↦[(slG (k1_off13 L t) (k1_off13_inb L t)).view.set]{fullShare} gval m d L t.val : sProp 𝕄))
        = (gsLoc d ↦[rowO (8 * wL L + t.val)]{fullShare} gval m d L t.val) := by
      rw [set_slG _ _ _ (off13_row L t)]
    ihave HgN' := (Entails.of_eq eG.symm) $$ HgN
    ihave KgRest := (Entails.of_eq (kept_eq _).symm) $$ HgRest
    ihave Hsq := ((pointsTo_split_subset (ℓ := gsqLoc d) hsubO).1) $$ Hq
    icases Hsq with ⟨HqN, HqRest⟩
    have eQ : (((slQ (k1_off13 L t) (k1_off13_inb L t)).view.loc (thr d L) ↦[(slQ (k1_off13 L t) (k1_off13_inb L t)).view.set]{fullShare} qval m d L t.val : sProp 𝕄))
        = (gsqLoc d ↦[rowO (8 * wL L + t.val)]{fullShare} qval m d L t.val) := by
      rw [set_slQ _ _ _ (off13_row L t)]
    ihave HqN' := (Entails.of_eq eQ.symm) $$ HqN
    ihave KqRest := (Entails.of_eq (kept_eq _).symm) $$ HqRest
    sl_exec
    sl_step

    rw [trips2_eq] at hO1 hP1
    rw [trips3_eq] at hO3 hP3
    have hfinO : ∀ a13 v110, (bO).view.writes (Elt F) fO3 [⟨Rect.unit (s := S1024) ![1008] S16.size inb_S1024_S16_1008,
          (trT d L v2 a13 v110 (Tile.hB (xv m d) ⟨(8 * wL L + t.val), row_lt L t.val ht⟩ : Vec F S49824 .f32) fS3 fQ3).2.2.1⟩]
        = Tile.rowS (Tile.hA (xv m d) ⟨(8 * wL L + t.val), row_lt L t.val ht⟩) (Tile.hB (xv m d) ⟨(8 * wL L + t.val), row_lt L t.val ht⟩) := fun a13 v110 =>
      rowS_of_done Tile.rowS (fun a o => Tile.pairS (n := 50176) a o) (fun b o => Tile.pairS (n := 49824) b o) Tile.tailS
        (fun a b p hp s => Tile.rowS_A a b p hp s) (fun a b p hp s => Tile.rowS_B a b p hp s) (fun a b s => Tile.rowS_T a b s)
        _ _ fO fO1 fO3 _ _ hO1 hO3 (fun j => writesO_apply d L fO3 ![1008] inb_S1024_S16_1008 _ j)
        (bridgeTS d L v2 a13 v110 _ fS3 fQ3)
    have hfinP : ∀ a13 v110, (bP).view.writes (Elt F) fP3 [⟨Rect.unit (s := S1024) ![1008] S16.size inb_S1024_S16_1008,
          (trT d L v2 a13 v110 (Tile.hB (xv m d) ⟨(8 * wL L + t.val), row_lt L t.val ht⟩ : Vec F S49824 .f32) fS3 fQ3).2.2.2.1⟩]
        = Tile.rowQ (Tile.hA (xv m d) ⟨(8 * wL L + t.val), row_lt L t.val ht⟩) (Tile.hB (xv m d) ⟨(8 * wL L + t.val), row_lt L t.val ht⟩) := fun a13 v110 =>
      rowS_of_done Tile.rowQ (fun a o => Tile.pairQ (n := 50176) a o) (fun b o => Tile.pairQ (n := 49824) b o) Tile.tailQ
        (fun a b p hp s => Tile.rowQ_A a b p hp s) (fun a b p hp s => Tile.rowQ_B a b p hp s) (fun a b s => Tile.rowQ_T a b s)
        _ _ fP fP1 fP3 _ _ hP1 hP3 (fun j => writesP_apply d L fP3 ![1008] inb_S1024_S16_1008 _ j)
        (bridgeTQ d L v2 a13 v110 _ fS3 fQ3)
    have hR256 : (8 * wL L + t.val) < 256 := by omega
    have eCg : ∀ (fin : Vec F S1024 .f32), (slG (k1_off13 L t) (k1_off13_inb L t)).view.writes (Elt F) (gval m d L t.val) [⟨Rect.whole S1024, fin⟩]
        = fun j : S256x1024.Idx => if (j 0).val = (8 * wL L + t.val) then fin (ValueIdx.ix1 (j 1)) else gval m d L t.val j := fun fin =>
      (View.write_univ_eq_writes_whole _ _ [] _).symm.trans (write_slG (k1_off13 L t) (k1_off13_inb L t) ⟨(8 * wL L + t.val), hR256⟩ (off13_row L t) (gval m d L t.val) fin)
    have eCq : ∀ (fin : Vec F S1024 .f32), (slQ (k1_off13 L t) (k1_off13_inb L t)).view.writes (Elt F) (qval m d L t.val) [⟨Rect.whole S1024, fin⟩]
        = fun j : S256x1024.Idx => if (j 0).val = (8 * wL L + t.val) then fin (ValueIdx.ix1 (j 1)) else qval m d L t.val j := fun fin =>
      (View.write_univ_eq_writes_whole _ _ [] _).symm.trans (write_slQ (k1_off13 L t) (k1_off13_inb L t) ⟨(8 * wL L + t.val), hR256⟩ (off13_row L t) (qval m d L t.val) fin)
    have eG2 : ∀ c, (((slG (k1_off13 L t) (k1_off13_inb L t)).view.loc (thr d L) ↦[(slG (k1_off13 L t) (k1_off13_inb L t)).view.set]{fullShare} c : sProp 𝕄))
        = (gsLoc d ↦[rowO (8 * wL L + t.val)]{fullShare} c) := by
      intro c; rw [set_slG _ _ _ (off13_row L t)]
    have eQ2 : ∀ c, (((slQ (k1_off13 L t) (k1_off13_inb L t)).view.loc (thr d L) ↦[(slQ (k1_off13 L t) (k1_off13_inb L t)).view.set]{fullShare} c : sProp 𝕄))
        = (gsqLoc d ↦[rowO (8 * wL L + t.val)]{fullShare} c) := by
      intro c; rw [set_slQ _ _ _ (off13_row L t)]
    first
    | (rw [dif_pos hc, dif_pos hc])
    | (rw [dif_neg hc, dif_neg hc])
    isplitr; · iexact Hmw
    first
    | (isplitl [HFA]
       · iapply (flightA_canon m d L (k1_off7 L t) (k1_off7_inb L t hc1) _ _ (off7_row L t) _ _ rfl _)
         iexact HFA
       isplitl [HFB]
       · iapply (flightB_canon m d L (k1_off12 L t) (k1_off12_inb L t hc2) _ _ (off12_row L t) _ _ rfl _)
         iexact HFB)
    | (isplitl [HFA HA2]
       · isplitl [HFA]; · iexact HFA
         iexists _; iexact HA2
       isplitl [HFB HB3]
       · isplitl [HFB]; · iexact HFB
         iexists _; iexact HB3)
    isplitl [KxA2]; · iapply (Entails.of_eq (kept_eq _)); iexact KxA2
    isplitl [KxB2]; · iapply (Entails.of_eq (kept_eq _)); iexact KxB2
    isplitl [HO3]; · iexists _; iexact HO3
    isplitl [HP3]; · iexists _; iexact HP3
    isplitl [HS3]; · iexists _; iexact HS3
    isplitl [HQ3]; · iexists _; iexact HQ3
    isplitl [Hc0]; · iexact Hc0
    isplitl [Hc1]; · iexact Hc1
    isplitl [HgN' KgRest]
    · ihave HgN2 := (Entails.of_eq (eG2 _)) $$ HgN'
      ihave HgR := (Entails.of_eq (kept_eq _)) $$ KgRest
      ihave HgJ := (pointsTo_join_subset (ℓ := gsLoc d) hsubO) $$ [HgN2 HgR]
      · isplitl [HgN2]; · iexact HgN2
        iexact HgR
      iapply (Entails.of_eq (pointsTo_congr (ℓ := gsLoc d) (g := gval m d L (t.val + 1)) (fun j hj =>
        (congrFun (congrArg (fun c => (rowO (8 * wL L + t.val)).piecewise c (gval m d L t.val)) (eCg _)) j).trans
          (gval_step m d L t.val ht _ (hfinO _ _) j hj))))
      iexact HgJ
    isplitl [HqN' KqRest]
    · ihave HqN2 := (Entails.of_eq (eQ2 _)) $$ HqN'
      ihave HqR := (Entails.of_eq (kept_eq _)) $$ KqRest
      ihave HqJ := (pointsTo_join_subset (ℓ := gsqLoc d) hsubO) $$ [HqN2 HqR]
      · isplitl [HqN2]; · iexact HqN2
        iexact HqR
      iapply (Entails.of_eq (pointsTo_congr (ℓ := gsqLoc d) (g := qval m d L (t.val + 1)) (fun j hj =>
        (congrFun (congrArg (fun c => (rowO (8 * wL L + t.val)).piecewise c (qval m d L t.val)) (eCq _)) j).trans
          (qval_step m d L t.val ht _ (hfinP _ _) j hj))))
      iexact HqJ
    iexists _; isplitr
    pick_goal 2
    · iexact HOw
    · ipureintro
      intro p hp
      simp only [Finset.mem_insert] at hp
      rcases hp with rfl | rfl | rfl | rfl | hp
      · exact .inr rfl
      · exact .inr rfl
      · exact .inr rfl
      · exact .inr rfl
      · exact hW' p hp

end Row

end Cert.Kernel.Pf

end
-- ==== Proof.B.TileObl.lean ====
import proofs.«207604_g45191645889005_cont_8to1c4_5_22_alg».proof.Proof.B.Pay
import proofs.«207604_g45191645889005_cont_8to1c4_5_22_alg».proof.Proof.B.TileSetup
import proofs.«207604_g45191645889005_cont_8to1c4_5_22_alg».proof.Proof.B.TileSets
import proofs.«207604_g45191645889005_cont_8to1c4_5_22_alg».proof.Proof.TileFun

noncomputable section

namespace Cert.Kernel.Pf

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.Tile (gsOf gsqOf)

variable [FloatOps F]
variable (m : (ℓ : Loc nD τ sig) → Buf (Elt F) ℓ)

def coordsV (c : Fin (grid1.bound 0)) (s : Fin (grid1.bound 1)) : grid1.Coords :=
  fun | 0 => c | 1 => s | ⟨_ + 2, h⟩ => absurd h (Nat.not_lt.2 (Nat.le_add_left _ _))

abbrev tileProg (L : grid1.Coords) : Prog (TpuEff nD τ sig (Elt F) Λ₀ (.scVector ((L 0).castLE hcore1) ((L 1).castLE hsub1))) PUnit :=
  cc1__sc_body L (Memref.whole main_arg0_scv) (Memref.isWhole_whole _) (Memref.whole main_v13_0_scv) (Memref.isWhole_whole _)
    (Memref.whole main_v13_1_scv) (Memref.isWhole_whole _) (Memref.whole cc1_scratch0) (Memref.isWhole_whole _)
    (Memref.whole cc1_scratch1) (Memref.isWhole_whole _) (Memref.whole cc1_scratch2) (Memref.isWhole_whole _)
    (Memref.whole cc1_scratch3) (Memref.isWhole_whole _) (Memref.whole cc1_scratch4) (Memref.isWhole_whole _)
    (Memref.whole cc1_scratch5) (Memref.isWhole_whole _) cc1_scratch6 cc1_scratch7 cc1_scoped0 cc1_scoped1

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X B C E Y : sProp 𝕄} : iprop(A ∗ X ∗ B ∗ C ∗ E ∗ Y) ⊢ iprop(A ∗ B ∗ C ∗ E ∗ Y) := by
  iintro ⟨HA, -, HB, HC, HE, HY⟩
  isplitl [HA]; · iexact HA
  isplitl [HB]; · iexact HB
  isplitl [HC]; · iexact HC
  isplitl [HE]; · iexact HE
  iexact HY

theorem tileObl_of
    (hbody : ∀ (d : Dev nD) (L : grid1.Coords) (O : CellTallies nD τ sig (HIx 1)) (W : Waits sig (HIx 1)), (∀ g, O g none = 0) →
      iprop(levAts (K (F := F)).L (K (F := F)).lev ∗ tileGo m d (cL L) (iL L) ∗ scopedBufs (thr d L) ∗ scopedSems0 (thr d L) ∗ owes (thr d L) O W)
        ⊢ wp frame (wpE (defs₀ (F := F)) 𝒱₀ (thr d L) none) Set.univ (tileProg (F := F) L)
            fun _ => iprop(tileTd gsOf gsqOf m d (cL L) (iL L) ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P gsOf gsqOf m) v₀ 0 := by
  intro d c i O W hO _ _
  simp only [P_ox, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact obl_pre.trans ((hbody d (coordsV ⟨_, hc.1⟩ ⟨_, hc.2⟩) O W hO).trans (wp_mono frame _ _ fun _ => obl_post))

end Cert.Kernel.Pf

end
-- ==== Proof.B.TileBody.lean ====
import proofs.«207604_g45191645889005_cont_8to1c4_5_22_alg».proof.Proof.B.TileRow
import proofs.«207604_g45191645889005_cont_8to1c4_5_22_alg».proof.Proof.B.TileObl

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

open Cert.Proof

omit [FloatOps F] in

theorem ownSems0_V (d : Dev nD) (L : grid1.Coords) :
    (ownSems0 (thr d L) : sProp 𝕄)
      = iprop(semVal (cellV d L cc1_scratch6) 0 ∗ semVal (cellV d L cc1_scratch7) 0 ∗ semVal (cellV d L cc1_scoped0) 0 ∗ semVal (cellV d L cc1_scoped1) 0
          ∗ bigSep (((((ownCells (thr d L)).erase (cellV d L cc1_scratch6)).erase (cellV d L cc1_scratch7)).erase (cellV d L cc1_scoped0)).erase (cellV d L cc1_scoped1)) fun g => semVal g 0) := by
  unfold SparseCore.Cfg.ownSems0
  rw [SparseCore.bigSep_erase' ((mem_ownCells (g := (cellV d L cc1_scratch6))).mpr ⟨rfl, by show (SemLoc.dma cc1_scratch6.sem : SemLoc sig).isScoped .scVector = true; decide⟩),
    SparseCore.bigSep_erase' (Finset.mem_erase.mpr ⟨(fun e => absurd (congrArg Prod.snd e) (show (SemLoc.dma cc1_scratch7.sem : SemLoc sig) ≠ SemLoc.dma cc1_scratch6.sem by decide)), (mem_ownCells (g := (cellV d L cc1_scratch7))).mpr ⟨rfl, by show (SemLoc.dma cc1_scratch7.sem : SemLoc sig).isScoped .scVector = true; decide⟩⟩),
    SparseCore.bigSep_erase' (Finset.mem_erase.mpr ⟨(fun e => absurd (congrArg Prod.snd e) (show (SemLoc.dma cc1_scoped0.sem : SemLoc sig) ≠ SemLoc.dma cc1_scratch7.sem by decide)), Finset.mem_erase.mpr ⟨(fun e => absurd (congrArg Prod.snd e) (show (SemLoc.dma cc1_scoped0.sem : SemLoc sig) ≠ SemLoc.dma cc1_scratch6.sem by decide)), (mem_ownCells (g := (cellV d L cc1_scoped0))).mpr ⟨rfl, by show (SemLoc.dma cc1_scoped0.sem : SemLoc sig).isScoped .scVector = true; decide⟩⟩⟩),
    SparseCore.bigSep_erase' (Finset.mem_erase.mpr ⟨(fun e => absurd (congrArg Prod.snd e) (show (SemLoc.dma cc1_scoped1.sem : SemLoc sig) ≠ SemLoc.dma cc1_scoped0.sem by decide)), Finset.mem_erase.mpr ⟨(fun e => absurd (congrArg Prod.snd e) (show (SemLoc.dma cc1_scoped1.sem : SemLoc sig) ≠ SemLoc.dma cc1_scratch7.sem by decide)), Finset.mem_erase.mpr ⟨(fun e => absurd (congrArg Prod.snd e) (show (SemLoc.dma cc1_scoped1.sem : SemLoc sig) ≠ SemLoc.dma cc1_scratch6.sem by decide)), (mem_ownCells (g := (cellV d L cc1_scoped1))).mpr ⟨rfl, by show (SemLoc.dma cc1_scoped1.sem : SemLoc sig).isScoped .scVector = true; decide⟩⟩⟩⟩)]

omit [FloatOps F] in

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc1_scratch0)) rfl)).trans ?_
  rw [SparseCore.bigSep_erase' (Finset.mem_erase.mpr ⟨(fun e => absurd (Proc.devRef_injective _ e) (show (cc1_scratch1 : Ref sig .scVector) ≠ cc1_scratch0 by decide)), SparseCore.Cfg.mem_ownRefs_of_owner (p := Proc.scVector (cV L) (jV L)) (b := ((Proc.scVector (cV L) (jV L)).devRef cc1_scratch1)) rfl⟩),
    SparseCore.bigSep_erase' (Finset.mem_erase.mpr ⟨(fun e => absurd (Proc.devRef_injective _ e) (show (cc1_scratch2 : Ref sig .scVector) ≠ cc1_scratch1 by decide)), Finset.mem_erase.mpr ⟨(fun e => absurd (Proc.devRef_injective _ e) (show (cc1_scratch2 : Ref sig .scVector) ≠ cc1_scratch0 by decide)), SparseCore.Cfg.mem_ownRefs_of_owner (p := Proc.scVector (cV L) (jV L)) (b := ((Proc.scVector (cV L) (jV L)).devRef cc1_scratch2)) rfl⟩⟩),
    SparseCore.bigSep_erase' (Finset.mem_erase.mpr ⟨(fun e => absurd (Proc.devRef_injective _ e) (show (cc1_scratch3 : Ref sig .scVector) ≠ cc1_scratch2 by decide)), Finset.mem_erase.mpr ⟨(fun e => absurd (Proc.devRef_injective _ e) (show (cc1_scratch3 : Ref sig .scVector) ≠ cc1_scratch1 by decide)), Finset.mem_erase.mpr ⟨(fun e => absurd (Proc.devRef_injective _ e) (show (cc1_scratch3 : Ref sig .scVector) ≠ cc1_scratch0 by decide)), SparseCore.Cfg.mem_ownRefs_of_owner (p := Proc.scVector (cV L) (jV L)) (b := ((Proc.scVector (cV L) (jV L)).devRef cc1_scratch3)) rfl⟩⟩⟩),
    SparseCore.bigSep_erase' (Finset.mem_erase.mpr ⟨(fun e => absurd (Proc.devRef_injective _ e) (show (cc1_scratch4 : Ref sig .scVector) ≠ cc1_scratch3 by decide)), Finset.mem_erase.mpr ⟨(fun e => absurd (Proc.devRef_injective _ e) (show (cc1_scratch4 : Ref sig .scVector) ≠ cc1_scratch2 by decide)), Finset.mem_erase.mpr ⟨(fun e => absurd (Proc.devRef_injective _ e) (show (cc1_scratch4 : Ref sig .scVector) ≠ cc1_scratch1 by decide)), Finset.mem_erase.mpr ⟨(fun e => absurd (Proc.devRef_injective _ e) (show (cc1_scratch4 : Ref sig .scVector) ≠ cc1_scratch0 by decide)), SparseCore.Cfg.mem_ownRefs_of_owner (p := Proc.scVector (cV L) (jV L)) (b := ((Proc.scVector (cV L) (jV L)).devRef cc1_scratch4)) rfl⟩⟩⟩⟩),
    SparseCore.bigSep_erase' (Finset.mem_erase.mpr ⟨(fun e => absurd (Proc.devRef_injective _ e) (show (cc1_scratch5 : Ref sig .scVector) ≠ cc1_scratch4 by decide)), Finset.mem_erase.mpr ⟨(fun e => absurd (Proc.devRef_injective _ e) (show (cc1_scratch5 : Ref sig .scVector) ≠ cc1_scratch3 by decide)), Finset.mem_erase.mpr ⟨(fun e => absurd (Proc.devRef_injective _ e) (show (cc1_scratch5 : Ref sig .scVector) ≠ cc1_scratch2 by decide)), Finset.mem_erase.mpr ⟨(fun e => absurd (Proc.devRef_injective _ e) (show (cc1_scratch5 : Ref sig .scVector) ≠ cc1_scratch1 by decide)), Finset.mem_erase.mpr ⟨(fun e => absurd (Proc.devRef_injective _ e) (show (cc1_scratch5 : Ref sig .scVector) ≠ cc1_scratch0 by decide)), SparseCore.Cfg.mem_ownRefs_of_owner (p := Proc.scVector (cV L) (jV L)) (b := ((Proc.scVector (cV L) (jV L)).devRef cc1_scratch5)) rfl⟩⟩⟩⟩⟩)]

theorem trips1_eq' : Scf.trips k1_t1_loop.lb k1_t1_loop.ub k1_t1_loop.st = 8 := by decide

set_option maxHeartbeats 4000000 in
theorem tile_body (hF : (K (F := F)).Facts) (m : (ℓ : Loc nD τ sig) → Buf (Elt F) ℓ) (d : Dev nD) (L : grid1.Coords)
    (O : CellTallies nD τ sig (HIx 1)) (W : Waits sig (HIx 1)) (hO : ∀ g, O g none = 0) :
    (iprop(levAts (K (F := F)).L (K (F := F)).lev ∗ tileGo m d (cL L) (iL L) ∗ scopedBufs (thr d L) ∗ scopedSems0 (thr d L) ∗ owes (thr d L) O W) : sProp 𝕄)
      ⊢ wp frame (wpE (defs₀ (F := F)) 𝒱₀ (thr d L) none) Set.univ (tileProg (F := F) L)
          fun _ => iprop(tileTd Tile.gsOf Tile.gsqOf m d (cL L) (iL L) ∗ scopedBufs (thr d L) ∗ scopedSems0 (thr d L)
            ∗ ∃ W', ⌜∀ p ∈ W', p ∈ W ∨ p.2 = none⌝ ∗ owes (thr d L) O W') := by
  show _ ⊢ wp _ _ _ (cc1__sc_body L aX (Memref.isWhole_whole _) aG (Memref.isWhole_whole _) aQ (Memref.isWhole_whole _) bA (Memref.isWhole_whole _) bB (Memref.isWhole_whole _) bO (Memref.isWhole_whole _) bP (Memref.isWhole_whole _) tS (Memref.isWhole_whole _) tQ (Memref.isWhole_whole _) cc1_scratch6 cc1_scratch7 cc1_scoped0 cc1_scoped1) _
  simp only [cc1__sc_body_eq_skeleton]; unfold cc1__sc_body_skel
  rw [(K (F := F)).scopedBufs_V hF d (cV L) (jV L), SparseCore.Cfg.scopedSems0_V (Val := Elt F) d (cV L) (jV L), ownSems0_V, ownBufs_V]
  unfold tileGo tileTd
  iintro ⟨#Hlv, ⟨Hx, Hg, Hq⟩, ⟨⟨%fA, HA⟩, ⟨%fB, HB⟩, ⟨%fO, HO⟩, ⟨%fP, HP⟩, ⟨%fS, HS⟩, ⟨%fQ, HQ⟩, Hbufs⟩, ⟨Hs6, Hs7, Hc0, Hc1, Hsems⟩, HOw⟩
  ihave Hmw := ((K (F := F)).mayWaits_none (thr := thr d L) hO) $$ Hlv
  ihave HA' := (Entails.of_eq (pts_bA (F := F) d L _).symm) $$ HA
  ihave HB' := (Entails.of_eq (pts_bB (F := F) d L _).symm) $$ HB
  ihave HO' := (Entails.of_eq (pts_bO (F := F) d L _).symm) $$ HO
  ihave HP' := (Entails.of_eq (pts_bP (F := F) d L _).symm) $$ HP
  ihave HS' := (Entails.of_eq (pts_tS (F := F) d L _).symm) $$ HS
  ihave HQ' := (Entails.of_eq (pts_tQ (F := F) d L _).symm) $$ HQ
  have hw := wL_lt L

  have eX : (xLoc d ↦[rowsX (wL L)]{fullShare} m (xLoc d) : sProp 𝕄) = (xLoc d ↦[allA (wL L) ∪ allB (wL L)]{fullShare} m (xLoc d)) := by
    rw [allA_union_allB]
  ihave Hx1 := (Entails.of_eq eX) $$ Hx
  ihave Hx2 := ((pointsTo_union (ℓ := xLoc d) (disjoint_allA_allB (wL L))).1) $$ Hx1
  icases Hx2 with ⟨HxA, HxB⟩
  have hsA0 : colsA (8 * wL L + 0) ⊆ allA (wL L) := colsA_subset_allA (by omega) (by omega)
  have hsB0 : colsB (8 * wL L + 0) ⊆ allB (wL L) := colsB_subset_allB (by omega) (by omega)
  ihave HspA := ((pointsTo_split_subset (ℓ := xLoc d) hsA0).1) $$ HxA
  icases HspA with ⟨HxA0, HxAr⟩
  ihave HspB := ((pointsTo_split_subset (ℓ := xLoc d) hsB0).1) $$ HxB
  icases HspB with ⟨HxB0, HxBr⟩
  have eA0 : (((slA (k1_off1 L) (k1_off1_inb L)).view.loc (thr d L) ↦[(slA (k1_off1 L) (k1_off1_inb L)).view.set]{fullShare} m (xLoc d) : sProp 𝕄))
      = (xLoc d ↦[colsA (8 * wL L)]{fullShare} m (xLoc d)) := by
    rw [set_slA _ _ _ (off1_row L)]
  have eB0 : (((slB (k1_off2 L) (k1_off2_inb L)).view.loc (thr d L) ↦[(slB (k1_off2 L) (k1_off2_inb L)).view.set]{fullShare} m (xLoc d) : sProp 𝕄))
      = (xLoc d ↦[colsB (8 * wL L)]{fullShare} m (xLoc d)) := by
    rw [set_slB _ _ _ (off2_row L)]
  ihave HxA0' := (Entails.of_eq eA0.symm) $$ HxA0
  ihave HxB0' := (Entails.of_eq eB0.symm) $$ HxB0
  ihave KxA := (Entails.of_eq (kept_eq _).symm) $$ HxAr
  ihave KxB := (Entails.of_eq (kept_eq _).symm) $$ HxBr
  sl_exec (disch := decide)

  sl_for (invR m d L O W) $$ [Hmw Hs6 Hs7 KxA KxB HO' HP' HS' HQ' Hc0 Hc1 Hg Hq HOw]
  case region =>
    intro t acc
    exact rowStep m d L O W _ t acc
  · unfold invR pendA pendB
    rw [dif_pos (by omega : 0 < 8), dif_pos (by omega : 0 < 8)]
    isplitr; · iexact Hmw
    isplitl [Hs6]
    · iapply (flightA_canon m d L (k1_off1 L) (k1_off1_inb L) _ _ (off1_row L) _ _ rfl _)
      iexact Hs6
    isplitl [Hs7]
    · iapply (flightB_canon m d L (k1_off2 L) (k1_off2_inb L) _ _ (off2_row L) _ _ rfl _)
      iexact Hs7
    isplitl [KxA]; · iapply (Entails.of_eq (kept_eq _)); iexact KxA
    isplitl [KxB]; · iapply (Entails.of_eq (kept_eq _)); iexact KxB
    isplitl [HO']; · iexists _; iexact HO'
    isplitl [HP']; · iexists _; iexact HP'
    isplitl [HS']; · iexists _; iexact HS'
    isplitl [HQ']; · iexists _; iexact HQ'
    isplitl [Hc0]; · iexact Hc0
    isplitl [Hc1]; · iexact Hc1
    isplitl [Hg]
    · iapply (Entails.of_eq (pointsTo_congr (ℓ := gsLoc d) (g := gval m d L 0) (fun j hj => by
        have := (mem_rowsO.mp hj).1
        show m (gsLoc d) j = if (j 0).val < 8 * wL L + 0 then Tile.gsOf (xv m d) j else m (gsLoc d) j
        rw [if_neg (by omega)])))
      iexact Hg
    isplitl [Hq]
    · iapply (Entails.of_eq (pointsTo_congr (ℓ := gsqLoc d) (g := qval m d L 0) (fun j hj => by
        have := (mem_rowsO.mp hj).1
        show m (gsqLoc d) j = if (j 0).val < 8 * wL L + 0 then Tile.gsqOf (xv m d) j else m (gsqLoc d) j
        rw [if_neg (by omega)])))
      iexact Hq
    iexists W; isplitr
    · ipureintro; exact fun p hp => .inl hp
    · iexact HOw
  iintro %acc HI
  rw [trips1_eq']
  unfold invR pendA pendB
  rw [dif_neg (by omega : ¬ 8 < 8), dif_neg (by omega : ¬ 8 < 8)]
  icases HI with ⟨-, ⟨Hs6, %fA', HA⟩, ⟨Hs7, %fB', HB⟩, HxA, HxB, ⟨%fO', HO⟩, ⟨%fP', HP⟩, ⟨%fS', HS⟩, ⟨%fQ', HQ⟩, Hc0, Hc1, Hg, Hq, %W', %hW', HOw⟩
  sl_step

  have eA8 : allA (wL L) \ colsA (8 * wL L + 8) = allA (wL L) := allA_sdiff_colsA rfl
  have eB8 : allB (wL L) \ colsB (8 * wL L + 8) = allB (wL L) := allB_sdiff_colsB rfl
  isplitl [HxA HxB Hg Hq]
  · isplitl [HxA HxB]
    · ihave HxA' := (Entails.of_eq (congrArg (fun S => (xLoc d ↦[S]{fullShare} m (xLoc d) : sProp 𝕄)) eA8)) $$ HxA
      ihave HxB' := (Entails.of_eq (congrArg (fun S => (xLoc d ↦[S]{fullShare} m (xLoc d) : sProp 𝕄)) eB8)) $$ HxB
      ihave Hx := ((pointsTo_union (ℓ := xLoc d) (disjoint_allA_allB (wL L))).2) $$ [HxA' HxB']
      · isplitl [HxA']; · iexact HxA'
        iexact HxB'
      iapply (Entails.of_eq eX.symm); iexact Hx
    isplitl [Hg]
    · iapply (Entails.of_eq (pointsTo_congr (ℓ := gsLoc d) (g := Tile.gsOf (m (xLoc d))) (fun j hj => by
        have := (mem_rowsO.mp hj).2
        show (if (j 0).val < 8 * wL L + 8 then Tile.gsOf (xv m d) j else m (gsLoc d) j) = _
        rw [if_pos (by omega)])))
      iexact Hg
    · iapply (Entails.of_eq (pointsTo_congr (ℓ := gsqLoc d) (g := Tile.gsqOf (m (xLoc d))) (fun j hj => by
        have := (mem_rowsO.mp hj).2
        show (if (j 0).val < 8 * wL L + 8 then Tile.gsqOf (xv m d) j else m (gsqLoc d) j) = _
        rw [if_pos (by omega)])))
      iexact Hq
  isplitl [HA HB HO HP HS HQ Hbufs]
  · isplitl [HA]; · iexists _; iexact HA
    isplitl [HB]; · iexists _; iexact HB
    isplitl [HO]; · iexists _; iexact HO
    isplitl [HP]; · iexists _; iexact HP
    isplitl [HS]; · iexists _; iexact HS
    isplitl [HQ]; · iexists _; iexact HQ
    iexact Hbufs
  isplitl [Hs6 Hs7 Hc0 Hc1 Hsems]
  · isplitl [Hs6]; · iexact Hs6
    isplitl [Hs7]; · iexact Hs7
    isplitl [Hc0]; · iexact Hc0
    isplitl [Hc1]; · iexact Hc1
    iexact Hsems
  iexists W'; isplitr
  · ipureintro; exact hW'
  · iexact HOw

/-- The launch theorem's obligation for the one vector-subcore kernel, from the tile's body. -/
theorem tileObl_closed (m : (ℓ : Loc nD τ sig) → Buf (Elt F) ℓ) :
    (K (F := F)).TileObl (D (F := F)) 𝒱 (P Tile.gsOf Tile.gsqOf m) v₀ 0 :=
  tileObl_of m (fun d L O W hO => tile_body facts m d L O W hO)

end Cert.Kernel.Pf

end
-- ==== Proof.Spec.lean ====
import Idealize.ShloMosaic.PureOps.Ideal
import Idealize.ShloMosaic.Lib.ValueIdx

noncomputable section

namespace Cert.Proof.Spec

open Idealize.ShloMosaic Idealize.ShloMosaic.ValueIdx

abbrev SX : Shape := ⟨2, ![1024, 100000]⟩
abbrev SO : Shape := ⟨2, ![1024, 1024]⟩
abbrev SscO : Shape := ⟨2, ![256, 1024]⟩
abbrev StcO : Shape := ⟨2, ![768, 1024]⟩
abbrev StcN : Shape := ⟨2, ![768, 128]⟩
abbrev Ssel : Shape := ⟨2, ![12544, 128]⟩

abbrev X : Type := SX.Idx → EReal

def ent (x : X) (r : Fin 1024) (g : Fin 1024) (k : Fin 98) : EReal :=
  if h : 98 * g.val + k.val < 100000 then x (ix2 r ⟨98 * g.val + k.val, h⟩) else 0

def gsum (x : X) (r g : Fin 1024) : EReal := ∑ k : Fin 98, ent x r g k

def gsq (x : X) (r g : Fin 1024) : EReal := ∑ k : Fin 98, ent x r g k * ent x r g k

def tot (x : X) (r : Fin 1024) : EReal := ∑ j : Fin 100000, x (ix2 r j)

def nrm (x : X) (r : Fin 1024) : EReal := ∑ j : Fin 100000, x (ix2 r j) * x (ix2 r j)

def tol : EReal := Ideal.ofBits .f32 0x37388CA4#32

def one : EReal := Ideal.ofBits .f32 0x3F800000#32

def IsAmp (x : X) : Prop := ∀ r : Fin 1024, max (nrm x r - one) (-(nrm x r - one)) ≤ tol

open Classical in

def G (x : X) : SO.Idx → EReal := fun i =>
  if IsAmp x then gsq x (i 0) (i 1) else Ideal.div (gsum x (i 0) (i 1)) (tot x (i 0))

def AllReal (x : X) : Prop := ∀ i, ∃ v : ℝ, x i = (v : EReal)

def TotNe (x : X) : Prop := ∀ r : Fin 1024, tot x r ≠ 0

def rowSc (r : Fin 256) : Fin 1024 := ⟨r.val, by omega⟩
def rowTc (r : Fin 768) : Fin 1024 := ⟨256 + r.val, by omega⟩

def GSsc (x : X) : SscO.Idx → EReal := fun i => gsum x (rowSc (i 0)) (i 1)
def GSQsc (x : X) : SscO.Idx → EReal := fun i => gsq x (rowSc (i 0)) (i 1)

def GStc (x : X) : StcO.Idx → EReal := fun i => gsum x (rowTc (i 0)) (i 1)
def GSQtc (x : X) : StcO.Idx → EReal := fun i => gsq x (rowTc (i 0)) (i 1)
def NPtc (x : X) : StcN.Idx → EReal := fun i => nrm x (rowTc (i 0))

def SEL : Ssel.Idx → EReal := fun i =>
  if 98 * (i 1).val ≤ (i 0).val ∧ (i 0).val < 98 * ((i 1).val + 1) then 1 else 0

end Cert.Proof.Spec

end
-- ==== Proof.TileValue.lean ====
import proofs.«207604_g45191645889005_cont_8to1c4_5_22_alg».proof.Proof.TileFun
import proofs.«207604_g45191645889005_cont_8to1c4_5_22_alg».proof.Proof.Spec
import Idealize.ShloMosaic.PureOps.Ideal.Laws
import Idealize.ShloMosaic.Lib.StableHlo.Predicate
import Mathlib.Algebra.BigOperators.Fin
import Mathlib.Algebra.BigOperators.Intervals

noncomputable section

namespace Cert.Proof.Tile

open Idealize.ShloMosaic Idealize.ShloMosaic.ValueIdx Finset

def ln16 (l : Nat) : V16.Idx := ix1 ⟨l % 16, Nat.mod_lt _ (by omega)⟩

theorem ln16_congr {a b : Nat} (h : a % 16 = b % 16) : ln16 a = ln16 b := by
  unfold ln16
  have e : (⟨a % 16, Nat.mod_lt _ (by omega)⟩ : Fin 16) = ⟨b % 16, Nat.mod_lt _ (by omega)⟩ := Fin.ext h
  rw [e]

theorem zero16_apply (l : V16.Idx) : zero16 (F := Ideal) l = 0 := Ideal.ofBits_zero_f32

theorem loPart_apply (c : Nat) (hc : c < 2 ^ 31) (x : FVec Ideal V16 .f32) (l : V16.Idx) :
    loPart c x l = if (l 0).val < c then x l else 0 := by
  have hl : (l 0).val < 16 := (l 0).isLt
  have h1 : (lane l).toNat < 2 ^ 31 := by rw [lane_toNat]; omega
  have h2 : (BitVec.ofNat 32 c).toNat < 2 ^ 31 := by rw [BitVec.toNat_ofNat]; omega
  have h3 : (BitVec.ofNat 32 c).toNat = c := by rw [BitVec.toNat_ofNat]; omega
  show Scalar.select (IntOp.cmpi .slt (lane l) (BitVec.ofNat 32 c)) (x l) (zero16 l) = _
  by_cases h : (l 0).val < c
  · have e : IntOp.cmpi .slt (lane l) (BitVec.ofNat 32 c) = 1#1 :=
      (StableHlo.Predicate.slt_iff_toNat h1 h2).mpr (by rw [lane_toNat, h3]; exact h)
    rw [e, select_one, if_pos h]
  · have e : IntOp.cmpi .slt (lane l) (BitVec.ofNat 32 c) = 0#1 :=
      eq_zero_of_ne_one fun e => h (by have := (StableHlo.Predicate.slt_iff_toNat h1 h2).mp e; rwa [lane_toNat, h3] at this)
    rw [e, select_zero, if_neg h, zero16_apply]

theorem acc_succ_lane (X : Nat → FVec Ideal V16 .f32) (hX : ∀ v l, ∃ r : ℝ, X v l = (r : EReal)) (m g : Nat) (l : V16.Idx) :
    acc X (m + 1) g l = acc X m g l + (if (16 * m + (l 0).val) / 98 = g then X m l else 0) := by
  have hl : (l 0).val < 16 := (l 0).isLt
  rw [acc]
  unfold accStep
  by_cases h1 : 16 * m / 98 = (16 * m + 15) / 98
  · rw [if_pos h1]
    by_cases hg : g = 16 * m / 98
    · rw [if_pos hg, addf_apply, if_pos (by omega)]
    · rw [if_neg hg, if_neg (by omega), add_zero]
  · rw [if_neg h1]
    have hc : 98 * ((16 * m + 15) / 98) - 16 * m < 2 ^ 31 := by omega
    by_cases hg : g = 16 * m / 98
    · rw [if_pos hg, addf_apply, loPart_apply _ hc]
      congr 1
      by_cases hcut : (l 0).val < 98 * ((16 * m + 15) / 98) - 16 * m
      · rw [if_pos hcut, if_pos (by omega)]
      · rw [if_neg hcut, if_neg (by omega)]
    · rw [if_neg hg]
      by_cases hg2 : g = (16 * m + 15) / 98
      · rw [if_pos hg2, addf_apply, subf_apply, loPart_apply _ hc]
        congr 1
        by_cases hcut : (l 0).val < 98 * ((16 * m + 15) / 98) - 16 * m
        · rw [if_pos hcut, if_neg (by omega)]
          obtain ⟨r, hr⟩ := hX m l
          rw [hr, ← EReal.coe_sub, sub_self, EReal.coe_zero]
        · rw [if_neg hcut, if_pos (by omega), sub_zero]
      · rw [if_neg hg2, if_neg (by omega), add_zero]

theorem acc_lanes (X : Nat → FVec Ideal V16 .f32) (hX : ∀ v l, ∃ r : ℝ, X v l = (r : EReal)) (m g : Nat) :
    ∑ l ∈ range 16, acc X m g (ln16 l) = ∑ w ∈ range (16 * m), if w / 98 = g then X (w / 16) (ln16 w) else 0 := by
  induction m with
  | zero =>
    simp only [Nat.mul_zero, range_zero, sum_empty]
    apply sum_eq_zero
    intro l _
    show zero16 (F := Ideal) (ln16 l) = 0
    exact zero16_apply _
  | succ m ih =>
    rw [show 16 * (m + 1) = 16 * m + 16 by ring, sum_range_add, ← ih, ← sum_add_distrib]
    apply sum_congr rfl
    intro l hl
    have hl' : l < 16 := mem_range.mp hl
    rw [acc_succ_lane X hX]
    congr 1
    have e1 : ((ln16 l) 0).val = l := Nat.mod_eq_of_lt hl'
    have e2 : (16 * m + l) / 16 = m := by omega
    have e3 : ln16 (16 * m + l) = ln16 l := ln16_congr (by omega)
    rw [e1, e2, e3]

theorem group_reindex (f : Nat → EReal) (N g : Nat) :
    (∑ w ∈ range N, if w / 98 = g then f w else 0) = ∑ k ∈ range 98, if 98 * g + k < N then f (98 * g + k) else 0 := by
  rw [← sum_filter, ← sum_filter]
  apply sum_nbij' (fun w => w - 98 * g) (fun k => 98 * g + k)
  · intro w hw
    simp only [mem_filter, mem_range] at hw ⊢
    omega
  · intro k hk
    simp only [mem_filter, mem_range] at hk ⊢
    omega
  · intro w hw
    simp only [mem_filter, mem_range] at hw
    show 98 * g + (w - 98 * g) = w
    omega
  · intro k hk
    show 98 * g + k - 98 * g = k
    omega
  · intro w hw
    simp only [mem_filter, mem_range] at hw
    show f w = f (98 * g + (w - 98 * g))
    congr 1
    omega

theorem tsum_apply (A : Nat → FVec Ideal V16 .f32) (s : V16.Idx) :
    tsum A s = ∑ l ∈ range 16, A (s 0).val (ln16 l) := by
  simp only [sum_range_succ, sum_range_zero, zero_add]
  rfl

def xw (x : Spec.X) (r : Fin 1024) (c : Nat) : EReal := if h : c < 100000 then x (ix2 r ⟨c, h⟩) else 0

def wd {n : Nat} (a : Vec Ideal ⟨1, ![n]⟩ .f32) (i : Nat) : EReal := if h : i < n then a (ix1 ⟨i, h⟩) else 0

theorem vecAt_apply {n : Nat} (a : Vec Ideal ⟨1, ![n]⟩ .f32) (o : Nat) (l : V16.Idx) :
    vecAt a o l = wd a (o + (l 0).val) := by
  unfold vecAt wd
  split_ifs
  · rfl
  · exact Ideal.ofBits_zero_f32

theorem wd_hA (x : Spec.X) (r : Fin 1024) (i : Nat) :
    wd (hA (F := Ideal) x r) i = if i < 50176 then xw x r i else 0 := by
  unfold wd xw
  by_cases h : i < 50176
  · rw [dif_pos h, if_pos h, dif_pos (by omega)]; rfl
  · rw [dif_neg h, if_neg h]

theorem wd_hB (x : Spec.X) (r : Fin 1024) (i : Nat) :
    wd (hB (F := Ideal) x r) i = if i < 49824 then xw x r (50176 + i) else 0 := by
  unfold wd xw
  by_cases h : i < 49824
  · rw [dif_pos h, if_pos h, dif_pos (by omega)]; rfl
  · rw [dif_neg h, if_neg h]

def stretchφ (φ : EReal → EReal) {n : Nat} (a : Vec Ideal ⟨1, ![n]⟩ .f32) (o : Nat) : Nat → FVec Ideal V16 .f32 :=
  fun v l => φ (stretch a o v l)

theorem stretchφ_apply (φ : EReal → EReal) {n : Nat} (a : Vec Ideal ⟨1, ![n]⟩ .f32) (o v w : Nat) :
    stretchφ φ a o v (ln16 w) = φ (wd a (o + 16 * v + w % 16)) := by
  show φ (vecAt a (o + 16 * v) (ln16 w)) = _
  rw [vecAt_apply]; rfl

theorem stretchφ_real (φ : EReal → EReal) (hφ : ∀ r : ℝ, ∃ r' : ℝ, φ r = (r' : EReal)) (hφ0 : φ 0 = 0) {n : Nat}
    (a : Vec Ideal ⟨1, ![n]⟩ .f32) (ha : ∀ j, ∃ r : ℝ, a j = (r : EReal)) (o v : Nat) (l : V16.Idx) :
    ∃ r : ℝ, stretchφ φ a o v l = (r : EReal) := by
  show ∃ r : ℝ, φ (vecAt a (o + 16 * v) l) = (r : EReal)
  rw [vecAt_apply]; unfold wd
  split_ifs with h
  · obtain ⟨r, hr⟩ := ha (ix1 ⟨_, h⟩); rw [hr]; exact hφ r
  · exact ⟨0, by rw [hφ0]; rfl⟩

theorem stretch_group (φ : EReal → EReal) (hφ : ∀ r : ℝ, ∃ r' : ℝ, φ r = (r' : EReal)) (hφ0 : φ 0 = 0) {n : Nat}
    (a : Vec Ideal ⟨1, ![n]⟩ .f32) (ha : ∀ j, ∃ r : ℝ, a j = (r : EReal)) (o m g : Nat) :
    ∑ l ∈ range 16, acc (stretchφ φ a o) m g (ln16 l)
      = ∑ k ∈ range 98, if 98 * g + k < 16 * m then φ (wd a (o + (98 * g + k))) else 0 := by
  refine (acc_lanes _ (stretchφ_real φ hφ hφ0 a ha o) m g).trans ((group_reindex _ _ _).trans ?_)
  apply sum_congr rfl
  intro k _
  by_cases h : 98 * g + k < 16 * m
  · rw [if_pos h, if_pos h, stretchφ_apply]
    congr 2; omega
  · rw [if_neg h, if_neg h]

theorem grpA (φ : EReal → EReal) (hφ : ∀ r : ℝ, ∃ r' : ℝ, φ r = (r' : EReal)) (hφ0 : φ 0 = 0) (x : Spec.X)
    (hx : Spec.AllReal x) (r : Fin 1024) (o g m G : Nat) (ho : o + 16 * m ≤ 50176) (hg : 98 * g + 98 ≤ 16 * m)
    (hcol : o + 98 * g = 98 * G) :
    ∑ l ∈ range 16, acc (stretchφ φ (hA (F := Ideal) x r) o) m g (ln16 l) = ∑ k ∈ range 98, φ (xw x r (98 * G + k)) := by
  rw [stretch_group φ hφ hφ0 (hA (F := Ideal) x r) (fun j => hx _)]
  apply sum_congr rfl
  intro k hk
  have hk' := mem_range.mp hk
  rw [if_pos (by omega), wd_hA, if_pos (by omega)]
  congr 2; omega

theorem grpB (φ : EReal → EReal) (hφ : ∀ r : ℝ, ∃ r' : ℝ, φ r = (r' : EReal)) (hφ0 : φ 0 = 0) (x : Spec.X)
    (hx : Spec.AllReal x) (r : Fin 1024) (o g m G : Nat) (ho : o + 16 * m ≤ 49824)
    (hcol : 50176 + o + 98 * g = 98 * G) (htail : 16 * m < 98 * g + 98 → 50176 + o + 16 * m = 100000) :
    ∑ l ∈ range 16, acc (stretchφ φ (hB (F := Ideal) x r) o) m g (ln16 l) = ∑ k ∈ range 98, φ (xw x r (98 * G + k)) := by
  rw [stretch_group φ hφ hφ0 (hB (F := Ideal) x r) (fun j => hx _)]
  apply sum_congr rfl
  intro k hk
  have hk' := mem_range.mp hk
  by_cases h : 98 * g + k < 16 * m
  · rw [if_pos h, wd_hB, if_pos (by omega)]
    congr 2; omega
  · rw [if_neg h]
    have e : xw x r (98 * G + k) = 0 := by
      unfold xw; rw [dif_neg (by omega)]
    rw [e, hφ0]

theorem grpZ (φ : EReal → EReal) (hφ0 : φ 0 = 0) (x : Spec.X) (r : Fin 1024) (G : Nat) (hG : 100000 ≤ 98 * G) :
    ∑ k ∈ range 98, φ (xw x r (98 * G + k)) = 0 := by
  apply sum_eq_zero
  intro k _
  unfold xw; rw [dif_neg (by omega), hφ0]

theorem tsum_slot (A : Nat → FVec Ideal V16 .f32) (s : Fin 16) :
    tsum A (ix1 s) = ∑ l ∈ range 16, A s.val (ln16 l) := tsum_apply A (ix1 s)

def pairφ (φ : EReal → EReal) {n : Nat} (a : Vec Ideal ⟨1, ![n]⟩ .f32) (o : Nat) : FVec Ideal V16 .f32 :=
  tsum (slots2 (acc (stretchφ φ a o) 49) (acc (stretchφ φ a (o + 784)) 49))

def tailφ (φ : EReal → EReal) (b : Vec Ideal VB .f32) : FVec Ideal V16 .f32 :=
  tsum (slotsT (acc (stretchφ φ b 48608) 49) (acc (stretchφ φ b 49392) 27))

def rowφ (φ : EReal → EReal) (a : Vec Ideal VA .f32) (b : Vec Ideal VB .f32) : Vec Ideal V1024 .f32 := fun j =>
  if (j 0).val / 16 < 32 then pairφ φ a (1568 * ((j 0).val / 16)) (ix1 ⟨(j 0).val % 16, mod16_lt j⟩)
  else if (j 0).val / 16 < 63 then pairφ φ b (1568 * ((j 0).val / 16 - 32)) (ix1 ⟨(j 0).val % 16, mod16_lt j⟩)
  else tailφ φ b (ix1 ⟨(j 0).val % 16, mod16_lt j⟩)

section Row
variable (φ : EReal → EReal) (hφ : ∀ r : ℝ, ∃ r' : ℝ, φ r = (r' : EReal)) (hφ0 : φ 0 = 0)
variable (x : Spec.X) (hx : Spec.AllReal x) (r : Fin 1024)
include hφ hφ0 hx

theorem pairφ_A (p : Nat) (hp : p < 32) (s : Fin 16) :
    pairφ φ (hA (F := Ideal) x r) (1568 * p) (ix1 s) = ∑ k ∈ range 98, φ (xw x r (98 * (16 * p + s.val) + k)) := by
  have hs := s.isLt
  unfold pairφ
  rw [tsum_slot]
  unfold slots2
  by_cases h8 : s.val < 8
  · simp only [if_pos h8]
    exact grpA φ hφ hφ0 x hx r _ _ 49 _ (by omega) (by omega) (by omega)
  · simp only [if_neg h8]
    exact grpA φ hφ hφ0 x hx r _ _ 49 _ (by omega) (by omega) (by omega)

theorem pairφ_B (p : Nat) (hp : p < 31) (s : Fin 16) :
    pairφ φ (hB (F := Ideal) x r) (1568 * p) (ix1 s) = ∑ k ∈ range 98, φ (xw x r (98 * (512 + 16 * p + s.val) + k)) := by
  have hs := s.isLt
  unfold pairφ
  rw [tsum_slot]
  unfold slots2
  by_cases h8 : s.val < 8
  · simp only [if_pos h8]
    exact grpB φ hφ hφ0 x hx r _ _ 49 _ (by omega) (by omega) (by omega)
  · simp only [if_neg h8]
    exact grpB φ hφ hφ0 x hx r _ _ 49 _ (by omega) (by omega) (by omega)

theorem tailφ_spec (s : Fin 16) :
    tailφ φ (hB (F := Ideal) x r) (ix1 s) = ∑ k ∈ range 98, φ (xw x r (98 * (1008 + s.val) + k)) := by
  have hs := s.isLt
  unfold tailφ
  rw [tsum_slot]
  unfold slotsT
  by_cases h8 : s.val < 8
  · simp only [if_pos h8]
    exact grpB φ hφ hφ0 x hx r _ _ 49 _ (by omega) (by omega) (by omega)
  · simp only [if_neg h8]
    by_cases h13 : s.val < 13
    · simp only [if_pos h13]
      exact grpB φ hφ hφ0 x hx r _ _ 27 _ (by omega) (by omega) (by omega)
    · simp only [if_neg h13]
      rw [grpZ φ hφ0 x r _ (by omega)]
      apply sum_eq_zero
      intro l _
      exact zero16_apply _

theorem rowφ_spec (G : Fin 1024) :
    rowφ φ (hA (F := Ideal) x r) (hB (F := Ideal) x r) (ix1 G) = ∑ k ∈ range 98, φ (xw x r (98 * G.val + k)) := by
  have hG := G.isLt
  show (if G.val / 16 < 32 then pairφ φ (hA (F := Ideal) x r) (1568 * (G.val / 16)) (ix1 ⟨G.val % 16, _⟩)
    else if G.val / 16 < 63 then pairφ φ (hB (F := Ideal) x r) (1568 * (G.val / 16 - 32)) (ix1 ⟨G.val % 16, _⟩)
    else tailφ φ (hB (F := Ideal) x r) (ix1 ⟨G.val % 16, _⟩)) = _
  by_cases h1 : G.val / 16 < 32
  · rw [if_pos h1, pairφ_A φ hφ hφ0 x hx r _ h1]
    apply sum_congr rfl; intro k _; congr 2
    show 98 * (16 * (G.val / 16) + G.val % 16) + k = _
    omega
  · rw [if_neg h1]
    by_cases h2 : G.val / 16 < 63
    · rw [if_pos h2, pairφ_B φ hφ hφ0 x hx r _ (by omega)]
      apply sum_congr rfl; intro k _; congr 2
      show 98 * (512 + 16 * (G.val / 16 - 32) + G.val % 16) + k = _
      omega
    · rw [if_neg h2, tailφ_spec φ hφ hφ0 x hx r]
      apply sum_congr rfl; intro k _; congr 2
      show 98 * (1008 + G.val % 16) + k = _
      omega

end Row

theorem gsOf_spec (x : Spec.X) (hr : Spec.AllReal x) : gsOf (F := Ideal) x = Spec.GSsc x := by
  have key : ∀ (a : Fin 256) (G : Fin 1024),
      rowS (hA (F := Ideal) x (row256 a)) (hB (F := Ideal) x (row256 a)) (ix1 G) = Spec.gsum x (Spec.rowSc a) G := by
    intro a G
    refine (rowφ_spec id (fun r => ⟨r, rfl⟩) rfl x hr (row256 a) G).trans ?_
    unfold Spec.gsum
    refine (Fin.sum_univ_eq_sum_range (fun k => id (xw x (row256 a) (98 * G.val + k))) 98).symm.trans ?_
    exact Finset.sum_congr rfl (fun k _ => rfl)
  funext i
  exact key (i 0) (i 1)

theorem gsqOf_spec (x : Spec.X) (hr : Spec.AllReal x) : gsqOf (F := Ideal) x = Spec.GSQsc x := by
  have key : ∀ (a : Fin 256) (G : Fin 1024),
      rowQ (hA (F := Ideal) x (row256 a)) (hB (F := Ideal) x (row256 a)) (ix1 G) = Spec.gsq x (Spec.rowSc a) G := by
    intro a G
    refine (rowφ_spec (fun z => z * z) (fun r => ⟨r * r, (EReal.coe_mul r r).symm⟩) (mul_zero 0) x hr (row256 a) G).trans ?_
    unfold Spec.gsq
    refine (Fin.sum_univ_eq_sum_range (fun k => (fun z : EReal => z * z) (xw x (row256 a) (98 * G.val + k))) 98).symm.trans ?_
    exact Finset.sum_congr rfl (fun k _ => rfl)
  funext i
  exact key (i 0) (i 1)

end Cert.Proof.Tile
-- ==== Proof.SelLaws.lean ====
import proofs.«207604_g45191645889005_cont_8to1c4_5_22_alg».proof.Proof.Spec
import Mathlib.Data.EReal.Operations
import Mathlib.Algebra.BigOperators.Fin
import Mathlib.Algebra.BigOperators.Intervals
import Mathlib.Algebra.BigOperators.Group.Finset.Basic

noncomputable section

namespace Cert.Proof.SelLaws

open Cert.Proof.Spec Idealize.ShloMosaic Idealize.ShloMosaic.ValueIdx
open scoped BigOperators

def ext (f : Fin 100000 → EReal) (n : ℕ) : EReal := if h : n < 100000 then f ⟨n, h⟩ else 0

theorem ext_of_lt (f : Fin 100000 → EReal) {n : ℕ} (h : n < 100000) : ext f n = f ⟨n, h⟩ := dif_pos h

theorem sel_window (F : ℕ → EReal) (N base : ℕ) (hN : N ≤ 12544) (q : Fin 128) :
    ∑ k : Fin N, F (base + k.val) * SEL (ix2 (⟨k.val, lt_of_lt_of_le k.isLt hN⟩ : Fin 12544) q)
      = ∑ k' : Fin 98, if 98 * q.val + k'.val < N then F (base + (98 * q.val + k'.val)) else 0 := by
  let A : ℕ → EReal := fun n => if 98 * q.val ≤ n ∧ n < 98 * (q.val + 1) then F (base + n) else 0
  let B : ℕ → EReal := fun n => if n < N then F (base + n) else 0
  have hL : ∀ k : Fin N, F (base + k.val) * SEL (ix2 (⟨k.val, lt_of_lt_of_le k.isLt hN⟩ : Fin 12544) q)
      = A k.val := by
    intro k
    show F (base + k.val) * (if 98 * q.val ≤ k.val ∧ k.val < 98 * (q.val + 1) then (1 : EReal) else 0)
      = if 98 * q.val ≤ k.val ∧ k.val < 98 * (q.val + 1) then F (base + k.val) else 0
    split_ifs
    · exact mul_one _
    · exact mul_zero _
  calc ∑ k : Fin N, F (base + k.val) * SEL (ix2 (⟨k.val, lt_of_lt_of_le k.isLt hN⟩ : Fin 12544) q)
      = ∑ k : Fin N, A k.val := Finset.sum_congr rfl fun k _ => hL k
    _ = ∑ n ∈ Finset.range N, A n := (Finset.sum_range A).symm
    _ = ∑ n ∈ (Finset.range N).filter (fun n => 98 * q.val ≤ n ∧ n < 98 * (q.val + 1)), F (base + n) :=
          (Finset.sum_filter _ _).symm
    _ = ∑ n ∈ (Finset.Ico (98 * q.val) (98 * q.val + 98)).filter (fun n => n < N), F (base + n) := by
          refine Finset.sum_congr ?_ fun _ _ => rfl
          ext n
          simp only [Finset.mem_filter, Finset.mem_range, Finset.mem_Ico]
          omega
    _ = ∑ n ∈ Finset.Ico (98 * q.val) (98 * q.val + 98), B n := Finset.sum_filter _ _
    _ = ∑ m ∈ Finset.range 98, B (98 * q.val + m) := by
          rw [Finset.sum_Ico_eq_sum_range, Nat.add_sub_cancel_left]
    _ = ∑ k' : Fin 98, B (98 * q.val + k'.val) := Finset.sum_range (fun m => B (98 * q.val + m))

theorem sel_sum (f : Fin 100000 → EReal) (j : Fin 7) (q : Fin 128) :
    ∑ k : Fin 12544, f ⟨12544 * j.val + k.val, by omega⟩ * SEL (ix2 k q)
      = ∑ k' : Fin 98, if h : 98 * (128 * j.val + q.val) + k'.val < 100000 then
          f ⟨98 * (128 * j.val + q.val) + k'.val, h⟩ else 0 := by
  have h := sel_window (ext f) 12544 (12544 * j.val) le_rfl q
  refine Eq.trans ?_ (h.trans ?_)
  · refine Finset.sum_congr rfl fun k _ => ?_
    rw [ext_of_lt f (by omega : 12544 * j.val + k.val < 100000)]
  · refine Finset.sum_congr rfl fun k' _ => ?_
    rw [if_pos (by omega : 98 * q.val + k'.val < 12544),
      show 12544 * j.val + (98 * q.val + k'.val) = 98 * (128 * j.val + q.val) + k'.val by omega]
    rfl

theorem sel_sum_last (f : Fin 100000 → EReal) (q : Fin 128) :
    ∑ k : Fin 12192, f ⟨87808 + k.val, by omega⟩ * SEL (ix2 (⟨k.val, by omega⟩ : Fin 12544) q)
      = ∑ k' : Fin 98, if h : 98 * (896 + q.val) + k'.val < 100000 then
          f ⟨98 * (896 + q.val) + k'.val, h⟩ else 0 := by
  have h := sel_window (ext f) 12192 87808 (by norm_num) q
  refine Eq.trans ?_ (h.trans ?_)
  · refine Finset.sum_congr rfl fun k _ => ?_
    rw [ext_of_lt f (by omega : 87808 + k.val < 100000)]
  · refine Finset.sum_congr rfl fun k' _ => ?_
    by_cases hk : 98 * q.val + k'.val < 12192
    · rw [if_pos hk, dif_pos (by omega : 98 * (896 + q.val) + k'.val < 100000),
        show 87808 + (98 * q.val + k'.val) = 98 * (896 + q.val) + k'.val by omega]
      exact ext_of_lt f _
    · rw [if_neg hk, dif_neg (by omega)]

theorem gsum_eq (x : X) (row : Fin 1024) (g : Fin 1024) :
    gsum x row g = ∑ k' : Fin 98, if h : 98 * g.val + k'.val < 100000 then
      x (ix2 row ⟨98 * g.val + k'.val, h⟩) else 0 := rfl

theorem gsq_eq (x : X) (row : Fin 1024) (g : Fin 1024) :
    gsq x row g = ∑ k' : Fin 98, if h : 98 * g.val + k'.val < 100000 then
      x (ix2 row ⟨98 * g.val + k'.val, h⟩) * x (ix2 row ⟨98 * g.val + k'.val, h⟩) else 0 := by
  unfold gsq ent
  refine Finset.sum_congr rfl fun k' _ => ?_
  split_ifs
  · rfl
  · exact mul_zero _

def sqBlk (x : X) (row : Fin 1024) (j : Fin 7) (k : Fin 12544) : EReal :=
  x (ix2 row ⟨12544 * j.val + k.val, by omega⟩) * x (ix2 row ⟨12544 * j.val + k.val, by omega⟩)

def sqLast (x : X) (row : Fin 1024) (k : Fin 12192) : EReal :=
  x (ix2 row ⟨87808 + k.val, by omega⟩) * x (ix2 row ⟨87808 + k.val, by omega⟩)

theorem nrm_split (x : X) (row : Fin 1024) :
    nrm x row = (((((((∑ k : Fin 12544, sqBlk x row 0 k) + (∑ k : Fin 12544, sqBlk x row 1 k))
      + (∑ k : Fin 12544, sqBlk x row 2 k)) + (∑ k : Fin 12544, sqBlk x row 3 k))
      + (∑ k : Fin 12544, sqBlk x row 4 k)) + (∑ k : Fin 12544, sqBlk x row 5 k))
      + (∑ k : Fin 12544, sqBlk x row 6 k)) + (∑ k : Fin 12192, sqLast x row k) := by
  let S : ℕ → EReal := ext (fun j => x (ix2 row j) * x (ix2 row j))
  have hS : ∀ n (h : n < 100000), S n = x (ix2 row ⟨n, h⟩) * x (ix2 row ⟨n, h⟩) := fun n h => dif_pos h
  have hblk : ∀ j : Fin 7, ∑ m ∈ Finset.range 12544, S (12544 * j.val + m) = ∑ k : Fin 12544, sqBlk x row j k := by
    intro j
    rw [Finset.sum_range (fun m => S (12544 * j.val + m))]
    exact Finset.sum_congr rfl fun k _ => hS _ (by omega)
  have hlast : ∑ m ∈ Finset.range 12192, S (87808 + m) = ∑ k : Fin 12192, sqLast x row k := by
    rw [Finset.sum_range (fun m => S (87808 + m))]
    exact Finset.sum_congr rfl fun k _ => hS _ (by omega)
  have e0 : ∑ n ∈ Finset.range 12544, S n = ∑ m ∈ Finset.range 12544, S (12544 * (0 : Fin 7).val + m) :=
    Finset.sum_congr rfl fun m _ => by rw [show 12544 * (0 : Fin 7).val + m = m by simp]
  have e1 : ∑ n ∈ Finset.range 25088, S n
      = ∑ n ∈ Finset.range 12544, S n + ∑ m ∈ Finset.range 12544, S (12544 * (1 : Fin 7).val + m) :=
    Finset.sum_range_add S 12544 12544
  have e2 : ∑ n ∈ Finset.range 37632, S n
      = ∑ n ∈ Finset.range 25088, S n + ∑ m ∈ Finset.range 12544, S (12544 * (2 : Fin 7).val + m) :=
    Finset.sum_range_add S 25088 12544
  have e3 : ∑ n ∈ Finset.range 50176, S n
      = ∑ n ∈ Finset.range 37632, S n + ∑ m ∈ Finset.range 12544, S (12544 * (3 : Fin 7).val + m) :=
    Finset.sum_range_add S 37632 12544
  have e4 : ∑ n ∈ Finset.range 62720, S n
      = ∑ n ∈ Finset.range 50176, S n + ∑ m ∈ Finset.range 12544, S (12544 * (4 : Fin 7).val + m) :=
    Finset.sum_range_add S 50176 12544
  have e5 : ∑ n ∈ Finset.range 75264, S n
      = ∑ n ∈ Finset.range 62720, S n + ∑ m ∈ Finset.range 12544, S (12544 * (5 : Fin 7).val + m) :=
    Finset.sum_range_add S 62720 12544
  have e6 : ∑ n ∈ Finset.range 87808, S n
      = ∑ n ∈ Finset.range 75264, S n + ∑ m ∈ Finset.range 12544, S (12544 * (6 : Fin 7).val + m) :=
    Finset.sum_range_add S 75264 12544
  have e7 : ∑ n ∈ Finset.range 100000, S n
      = ∑ n ∈ Finset.range 87808, S n + ∑ m ∈ Finset.range 12192, S (87808 + m) :=
    Finset.sum_range_add S 87808 12192
  have hn : nrm x row = ∑ n ∈ Finset.range 100000, S n := by
    rw [Finset.sum_range S]
    exact Finset.sum_congr rfl fun j _ => (hS j.val j.isLt).symm
  rw [hn, e7, e6, e5, e4, e3, e2, e1, e0, hblk 0, hblk 1, hblk 2, hblk 3, hblk 4, hblk 5, hblk 6, hlast]

end Cert.Proof.SelLaws

end
-- ==== Proof.R0Value.lean ====
import proofs.«207604_g45191645889005_cont_8to1c4_5_22_alg».proof.Proof.R0Arr
import proofs.«207604_g45191645889005_cont_8to1c4_5_22_alg».proof.Proof.Spec
import proofs.«207604_g45191645889005_cont_8to1c4_5_22_alg».proof.Proof.SelLaws
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.ValueIdx
open Cert.Proof.Spec
open scoped BigOperators

abbrev DS := dot_S64x12544_S12544x128_S64x128_1_0_0_1_n_n
abbrev DL := dot_S64x12192_S12192x128_S64x128_1_0_0_1_n_n

theorem lhsS_0 (j : S64x128.Idx) (k : DS.contr.Idx) : (DS.lhsIdx j k 0 : ℕ) = j 0 := by
  simp [DotDims.lhsIdx, DS, dot_S64x12544_S12544x128_S64x128_1_0_0_1_n_n]; rfl
theorem lhsS_1 (j : S64x128.Idx) (k : DS.contr.Idx) : (DS.lhsIdx j k 1 : ℕ) = k ⟨0, by decide⟩ := by
  simp [DotDims.lhsIdx, DS, dot_S64x12544_S12544x128_S64x128_1_0_0_1_n_n]; rfl
theorem rhsS_0 (j : S64x128.Idx) (k : DS.contr.Idx) : (DS.rhsIdx j k 0 : ℕ) = k ⟨0, by decide⟩ := by
  simp [DotDims.rhsIdx, DS, dot_S64x12544_S12544x128_S64x128_1_0_0_1_n_n]; rfl
theorem rhsS_1 (j : S64x128.Idx) (k : DS.contr.Idx) : (DS.rhsIdx j k 1 : ℕ) = j 1 := by
  simp [DotDims.rhsIdx, DS, dot_S64x12544_S12544x128_S64x128_1_0_0_1_n_n]; rfl
theorem lhsL_0 (j : S64x128.Idx) (k : DL.contr.Idx) : (DL.lhsIdx j k 0 : ℕ) = j 0 := by
  simp [DotDims.lhsIdx, DL, dot_S64x12192_S12192x128_S64x128_1_0_0_1_n_n]; rfl
theorem lhsL_1 (j : S64x128.Idx) (k : DL.contr.Idx) : (DL.lhsIdx j k 1 : ℕ) = k ⟨0, by decide⟩ := by
  simp [DotDims.lhsIdx, DL, dot_S64x12192_S12192x128_S64x128_1_0_0_1_n_n]; rfl
theorem rhsL_0 (j : S64x128.Idx) (k : DL.contr.Idx) : (DL.rhsIdx j k 0 : ℕ) = k ⟨0, by decide⟩ := by
  simp [DotDims.rhsIdx, DL, dot_S64x12192_S12192x128_S64x128_1_0_0_1_n_n]; rfl
theorem rhsL_1 (j : S64x128.Idx) (k : DL.contr.Idx) : (DL.rhsIdx j k 1 : ℕ) = j 1 := by
  simp [DotDims.rhsIdx, DL, dot_S64x12192_S12192x128_S64x128_1_0_0_1_n_n]; rfl

theorem mmS_apply (A : FVec Ideal S64x12544 .f32) (T : FVec Ideal S12544x128 .bf16) (j : S64x128.Idx) :
    (matmul DS none (truncf .bf16 A bitsLt_bf16_f32) T (constant S64x128 .f32 0x00000000#32) : FVec Ideal S64x128 .f32) j
      = ∑ k : Fin 12544, A (ix2 (j 0) k) * T (ix2 k (j 1)) := by
  show FloatOps.matmul DS none (truncf .bf16 A bitsLt_bf16_f32) T (constant S64x128 .f32 0x00000000#32) j = _
  rw [Ideal.matmul_constant_zero_apply, ← Equiv.sum_comp (contrEquiv1 DS 12544 rfl rfl).symm]
  refine Finset.sum_congr rfl fun k _ => ?_
  rw [truncf_apply]
  have e1 : DS.lhsIdx j ((contrEquiv1 DS 12544 rfl rfl).symm k) = ix2 (j 0) k := by
    funext a; apply Fin.ext
    match a with
    | ⟨0, _⟩ => exact lhsS_0 _ _
    | ⟨1, _⟩ => exact (lhsS_1 _ _).trans (contrEquiv1_symm_val DS 12544 rfl rfl k)
  have e2 : DS.rhsIdx j ((contrEquiv1 DS 12544 rfl rfl).symm k) = ix2 k (j 1) := by
    funext a; apply Fin.ext
    match a with
    | ⟨0, _⟩ => exact (rhsS_0 _ _).trans (contrEquiv1_symm_val DS 12544 rfl rfl k)
    | ⟨1, _⟩ => exact rhsS_1 _ _
  rw [e1, e2]; rfl

theorem mmL_apply (A : FVec Ideal S64x12192 .f32) (T : FVec Ideal S12192x128 .bf16) (j : S64x128.Idx) :
    (matmul DL none (truncf .bf16 A bitsLt_bf16_f32) T (constant S64x128 .f32 0x00000000#32) : FVec Ideal S64x128 .f32) j
      = ∑ k : Fin 12192, A (ix2 (j 0) k) * T (ix2 k (j 1)) := by
  show FloatOps.matmul DL none (truncf .bf16 A bitsLt_bf16_f32) T (constant S64x128 .f32 0x00000000#32) j = _
  rw [Ideal.matmul_constant_zero_apply, ← Equiv.sum_comp (contrEquiv1 DL 12192 rfl rfl).symm]
  refine Finset.sum_congr rfl fun k _ => ?_
  rw [truncf_apply]
  have e1 : DL.lhsIdx j ((contrEquiv1 DL 12192 rfl rfl).symm k) = ix2 (j 0) k := by
    funext a; apply Fin.ext
    match a with
    | ⟨0, _⟩ => exact lhsL_0 _ _
    | ⟨1, _⟩ => exact (lhsL_1 _ _).trans (contrEquiv1_symm_val DL 12192 rfl rfl k)
  have e2 : DL.rhsIdx j ((contrEquiv1 DL 12192 rfl rfl).symm k) = ix2 k (j 1) := by
    funext a; apply Fin.ext
    match a with
    | ⟨0, _⟩ => exact (rhsL_0 _ _).trans (contrEquiv1_symm_val DL 12192 rfl rfl k)
    | ⟨1, _⟩ => exact rhsL_1 _ _
  rw [e1, e2]; rfl

theorem sc0 (T : Vec Ideal S12544x128 .bf16) : k0_pay7 (F := Ideal) T = T := shapeCast_self T _
theorem paySum0 (A : Vec Ideal S64x12544 .f32) (T : Vec Ideal S12544x128 .bf16) (y : S64x128.Idx) :
    (k0_pay8 A T : FVec Ideal S64x128 .f32) y = ∑ k : Fin 12544, A (ix2 (y 0) k) * T (ix2 k (y 1)) := by
  show (matmul DS none (truncf .bf16 A bitsLt_bf16_f32) (k0_pay7 T) (constant S64x128 .f32 0x00000000#32) : FVec Ideal S64x128 .f32) y = _
  rw [sc0]; exact mmS_apply A T y
theorem paySq0 (A : Vec Ideal S64x12544 .f32) (T : Vec Ideal S12544x128 .bf16) (y : S64x128.Idx) :
    (k0_pay9 A T : FVec Ideal S64x128 .f32) y = ∑ k : Fin 12544, (A (ix2 (y 0) k) * A (ix2 (y 0) k)) * T (ix2 k (y 1)) := by
  show (matmul DS none (truncf .bf16 (k0_pay6 A) bitsLt_bf16_f32) (k0_pay7 T) (constant S64x128 .f32 0x00000000#32) : FVec Ideal S64x128 .f32) y = _
  rw [sc0, mmS_apply]; rfl

theorem sc1 (T : Vec Ideal S12544x128 .bf16) : k0_pay11 (F := Ideal) T = T := shapeCast_self T _
theorem paySum1 (A : Vec Ideal S64x12544 .f32) (T : Vec Ideal S12544x128 .bf16) (y : S64x128.Idx) :
    (k0_pay12 A T : FVec Ideal S64x128 .f32) y = ∑ k : Fin 12544, A (ix2 (y 0) k) * T (ix2 k (y 1)) := by
  show (matmul DS none (truncf .bf16 A bitsLt_bf16_f32) (k0_pay11 T) (constant S64x128 .f32 0x00000000#32) : FVec Ideal S64x128 .f32) y = _
  rw [sc1]; exact mmS_apply A T y
theorem paySq1 (A : Vec Ideal S64x12544 .f32) (T : Vec Ideal S12544x128 .bf16) (y : S64x128.Idx) :
    (k0_pay13 A T : FVec Ideal S64x128 .f32) y = ∑ k : Fin 12544, (A (ix2 (y 0) k) * A (ix2 (y 0) k)) * T (ix2 k (y 1)) := by
  show (matmul DS none (truncf .bf16 (k0_pay10 A) bitsLt_bf16_f32) (k0_pay11 T) (constant S64x128 .f32 0x00000000#32) : FVec Ideal S64x128 .f32) y = _
  rw [sc1, mmS_apply]; rfl

theorem sc2 (T : Vec Ideal S12544x128 .bf16) : k0_pay16 (F := Ideal) T = T := shapeCast_self T _
theorem paySum2 (A : Vec Ideal S64x12544 .f32) (T : Vec Ideal S12544x128 .bf16) (y : S64x128.Idx) :
    (k0_pay17 A (k0_pay16 T) : FVec Ideal S64x128 .f32) y = ∑ k : Fin 12544, A (ix2 (y 0) k) * T (ix2 k (y 1)) := by
  show (matmul DS none (truncf .bf16 A bitsLt_bf16_f32) (k0_pay16 T) (constant S64x128 .f32 0x00000000#32) : FVec Ideal S64x128 .f32) y = _
  rw [sc2]; exact mmS_apply A T y
theorem paySq2 (A : Vec Ideal S64x12544 .f32) (T : Vec Ideal S12544x128 .bf16) (y : S64x128.Idx) :
    (k0_pay18 (k0_pay15 A) (k0_pay16 T) : FVec Ideal S64x128 .f32) y = ∑ k : Fin 12544, (A (ix2 (y 0) k) * A (ix2 (y 0) k)) * T (ix2 k (y 1)) := by
  show (matmul DS none (truncf .bf16 (k0_pay15 A) bitsLt_bf16_f32) (k0_pay16 T) (constant S64x128 .f32 0x00000000#32) : FVec Ideal S64x128 .f32) y = _
  rw [sc2, mmS_apply]; rfl

theorem sc3 (T : Vec Ideal S12544x128 .bf16) : k0_pay20 (F := Ideal) T = T := shapeCast_self T _
theorem paySum3 (A : Vec Ideal S64x12544 .f32) (T : Vec Ideal S12544x128 .bf16) (y : S64x128.Idx) :
    (k0_pay21 A T : FVec Ideal S64x128 .f32) y = ∑ k : Fin 12544, A (ix2 (y 0) k) * T (ix2 k (y 1)) := by
  show (matmul DS none (truncf .bf16 A bitsLt_bf16_f32) (k0_pay20 T) (constant S64x128 .f32 0x00000000#32) : FVec Ideal S64x128 .f32) y = _
  rw [sc3]; exact mmS_apply A T y
theorem paySq3 (A : Vec Ideal S64x12544 .f32) (T : Vec Ideal S12544x128 .bf16) (y : S64x128.Idx) :
    (k0_pay22 A T : FVec Ideal S64x128 .f32) y = ∑ k : Fin 12544, (A (ix2 (y 0) k) * A (ix2 (y 0) k)) * T (ix2 k (y 1)) := by
  show (matmul DS none (truncf .bf16 (k0_pay19 A) bitsLt_bf16_f32) (k0_pay20 T) (constant S64x128 .f32 0x00000000#32) : FVec Ideal S64x128 .f32) y = _
  rw [sc3, mmS_apply]; rfl

theorem sc4 (T : Vec Ideal S12544x128 .bf16) : k0_pay25 (F := Ideal) T = T := shapeCast_self T _
theorem paySum4 (A : Vec Ideal S64x12544 .f32) (T : Vec Ideal S12544x128 .bf16) (y : S64x128.Idx) :
    (k0_pay26 A T : FVec Ideal S64x128 .f32) y = ∑ k : Fin 12544, A (ix2 (y 0) k) * T (ix2 k (y 1)) := by
  show (matmul DS none (truncf .bf16 A bitsLt_bf16_f32) (k0_pay25 T) (constant S64x128 .f32 0x00000000#32) : FVec Ideal S64x128 .f32) y = _
  rw [sc4]; exact mmS_apply A T y
theorem paySq4 (A : Vec Ideal S64x12544 .f32) (T : Vec Ideal S12544x128 .bf16) (y : S64x128.Idx) :
    (k0_pay28 (k0_pay25 T) (k0_pay27 A) : FVec Ideal S64x128 .f32) y = ∑ k : Fin 12544, (A (ix2 (y 0) k) * A (ix2 (y 0) k)) * T (ix2 k (y 1)) := by
  show (matmul DS none (truncf .bf16 (k0_pay24 A) bitsLt_bf16_f32) (k0_pay25 T) (constant S64x128 .f32 0x00000000#32) : FVec Ideal S64x128 .f32) y = _
  rw [sc4, mmS_apply]; rfl

theorem sc5 (T : Vec Ideal S12544x128 .bf16) : k0_pay30 (F := Ideal) T = T := shapeCast_self T _
theorem paySum5 (A : Vec Ideal S64x12544 .f32) (T : Vec Ideal S12544x128 .bf16) (y : S64x128.Idx) :
    (k0_pay31 A T : FVec Ideal S64x128 .f32) y = ∑ k : Fin 12544, A (ix2 (y 0) k) * T (ix2 k (y 1)) := by
  show (matmul DS none (truncf .bf16 A bitsLt_bf16_f32) (k0_pay30 T) (constant S64x128 .f32 0x00000000#32) : FVec Ideal S64x128 .f32) y = _
  rw [sc5]; exact mmS_apply A T y
theorem paySq5 (A : Vec Ideal S64x12544 .f32) (T : Vec Ideal S12544x128 .bf16) (y : S64x128.Idx) :
    (k0_pay32 A T : FVec Ideal S64x128 .f32) y = ∑ k : Fin 12544, (A (ix2 (y 0) k) * A (ix2 (y 0) k)) * T (ix2 k (y 1)) := by
  show (matmul DS none (truncf .bf16 (k0_pay29 A) bitsLt_bf16_f32) (k0_pay30 T) (constant S64x128 .f32 0x00000000#32) : FVec Ideal S64x128 .f32) y = _
  rw [sc5, mmS_apply]; rfl

theorem sc6 (T : Vec Ideal S12544x128 .bf16) : k0_pay35 (F := Ideal) T = T := shapeCast_self T _
theorem paySum6 (A : Vec Ideal S64x12544 .f32) (T : Vec Ideal S12544x128 .bf16) (y : S64x128.Idx) :
    (k0_pay36 A T : FVec Ideal S64x128 .f32) y = ∑ k : Fin 12544, A (ix2 (y 0) k) * T (ix2 k (y 1)) := by
  show (matmul DS none (truncf .bf16 A bitsLt_bf16_f32) (k0_pay35 T) (constant S64x128 .f32 0x00000000#32) : FVec Ideal S64x128 .f32) y = _
  rw [sc6]; exact mmS_apply A T y
theorem paySq6 (A : Vec Ideal S64x12544 .f32) (T : Vec Ideal S12544x128 .bf16) (y : S64x128.Idx) :
    (k0_pay37 A T : FVec Ideal S64x128 .f32) y = ∑ k : Fin 12544, (A (ix2 (y 0) k) * A (ix2 (y 0) k)) * T (ix2 k (y 1)) := by
  show (matmul DS none (truncf .bf16 (k0_pay34 A) bitsLt_bf16_f32) (k0_pay35 T) (constant S64x128 .f32 0x00000000#32) : FVec Ideal S64x128 .f32) y = _
  rw [sc6, mmS_apply]; rfl

theorem sc7 (T : Vec Ideal S12192x128 .bf16) : k0_pay2 (F := Ideal) T = T := shapeCast_self T _
theorem paySum7 (A : Vec Ideal S64x12192 .f32) (T : Vec Ideal S12192x128 .bf16) (y : S64x128.Idx) :
    (k0_pay3 A T : FVec Ideal S64x128 .f32) y = ∑ k : Fin 12192, A (ix2 (y 0) k) * T (ix2 k (y 1)) := by
  show (matmul DL none (truncf .bf16 A bitsLt_bf16_f32) (k0_pay2 T) (constant S64x128 .f32 0x00000000#32) : FVec Ideal S64x128 .f32) y = _
  rw [sc7]; exact mmL_apply A T y
theorem paySq7 (A : Vec Ideal S64x12192 .f32) (T : Vec Ideal S12192x128 .bf16) (y : S64x128.Idx) :
    (k0_pay4 A T : FVec Ideal S64x128 .f32) y = ∑ k : Fin 12192, (A (ix2 (y 0) k) * A (ix2 (y 0) k)) * T (ix2 k (y 1)) := by
  show (matmul DL none (truncf .bf16 (k0_pay1 A) bitsLt_bf16_f32) (k0_pay2 T) (constant S64x128 .f32 0x00000000#32) : FVec Ideal S64x128 .f32) y = _
  rw [sc7, mmL_apply]; rfl

theorem nmA (off : ℕ) (inb) (a : Fin 64) (g : Fin 1024) (h : g.val < off ∨ off + 128 ≤ g.val) :
    (ix2 a g : S64x1024.Idx) ∉ (Rect.unit (s := S64x1024) ![0, off] S64x128.size inb).set := by
  rw [Rect.mem_set_unit]; intro hm
  have h1 : off ≤ g.val ∧ g.val < off + 128 := hm 1
  omega

theorem embA (off : ℕ) (inb) (a : Fin 64) (q : Fin 128) (g : Fin 1024) (hg : g.val = off + q.val) :
    (ix2 a g : S64x1024.Idx) = (Rect.unit (s := S64x1024) ![0, off] S64x128.size inb).emb (ix2 a q) := by
  funext d; apply Fin.ext
  match d with
  | ⟨0, _⟩ => show a.val = 0 + 1 * a.val; omega
  | ⟨1, _⟩ => show g.val = off + 1 * q.val; omega

section Canon
variable (p0 p1 p2 p3 p4 p5 p6 p7 : Vec Ideal S64x128 .f32) (a : Fin 64) (q : Fin 128) (g : Fin 1024)

theorem canonA0 (hg : g.val = 0 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p0 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [View.canon_cons_of_not_mem (⟨rA5, p5⟩ : View.Piece (Elt Ideal) S64x1024 .f32) _ (nmA 640 inb_S64x1024_S64x128_0_640 a g (by omega))]
  rw [View.canon_cons_of_not_mem (⟨rA4, p4⟩ : View.Piece (Elt Ideal) S64x1024 .f32) _ (nmA 512 inb_S64x1024_S64x128_0_512 a g (by omega))]
  rw [View.canon_cons_of_not_mem (⟨rA3, p3⟩ : View.Piece (Elt Ideal) S64x1024 .f32) _ (nmA 384 inb_S64x1024_S64x128_0_384 a g (by omega))]
  rw [View.canon_cons_of_not_mem (⟨rA2, p2⟩ : View.Piece (Elt Ideal) S64x1024 .f32) _ (nmA 256 inb_S64x1024_S64x128_0_256 a g (by omega))]
  rw [View.canon_cons_of_not_mem (⟨rA1, p1⟩ : View.Piece (Elt Ideal) S64x1024 .f32) _ (nmA 128 inb_S64x1024_S64x128_0_128 a g (by omega))]
  rw [embA 0 inb_S64x1024_S64x128_0_0 a q g hg]; exact View.canon_cons_emb _ _ _ _

theorem canonA1 (hg : g.val = 128 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p1 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [View.canon_cons_of_not_mem (⟨rA5, p5⟩ : View.Piece (Elt Ideal) S64x1024 .f32) _ (nmA 640 inb_S64x1024_S64x128_0_640 a g (by omega))]
  rw [View.canon_cons_of_not_mem (⟨rA4, p4⟩ : View.Piece (Elt Ideal) S64x1024 .f32) _ (nmA 512 inb_S64x1024_S64x128_0_512 a g (by omega))]
  rw [View.canon_cons_of_not_mem (⟨rA3, p3⟩ : View.Piece (Elt Ideal) S64x1024 .f32) _ (nmA 384 inb_S64x1024_S64x128_0_384 a g (by omega))]
  rw [View.canon_cons_of_not_mem (⟨rA2, p2⟩ : View.Piece (Elt Ideal) S64x1024 .f32) _ (nmA 256 inb_S64x1024_S64x128_0_256 a g (by omega))]
  rw [embA 128 inb_S64x1024_S64x128_0_128 a q g hg]; exact View.canon_cons_emb _ _ _ _

theorem canonA2 (hg : g.val = 256 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p2 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [View.canon_cons_of_not_mem (⟨rA5, p5⟩ : View.Piece (Elt Ideal) S64x1024 .f32) _ (nmA 640 inb_S64x1024_S64x128_0_640 a g (by omega))]
  rw [View.canon_cons_of_not_mem (⟨rA4, p4⟩ : View.Piece (Elt Ideal) S64x1024 .f32) _ (nmA 512 inb_S64x1024_S64x128_0_512 a g (by omega))]
  rw [View.canon_cons_of_not_mem (⟨rA3, p3⟩ : View.Piece (Elt Ideal) S64x1024 .f32) _ (nmA 384 inb_S64x1024_S64x128_0_384 a g (by omega))]
  rw [embA 256 inb_S64x1024_S64x128_0_256 a q g hg]; exact View.canon_cons_emb _ _ _ _

theorem canonA3 (hg : g.val = 384 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p3 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [View.canon_cons_of_not_mem (⟨rA5, p5⟩ : View.Piece (Elt Ideal) S64x1024 .f32) _ (nmA 640 inb_S64x1024_S64x128_0_640 a g (by omega))]
  rw [View.canon_cons_of_not_mem (⟨rA4, p4⟩ : View.Piece (Elt Ideal) S64x1024 .f32) _ (nmA 512 inb_S64x1024_S64x128_0_512 a g (by omega))]
  rw [embA 384 inb_S64x1024_S64x128_0_384 a q g hg]; exact View.canon_cons_emb _ _ _ _

theorem canonA4 (hg : g.val = 512 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p4 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [View.canon_cons_of_not_mem (⟨rA5, p5⟩ : View.Piece (Elt Ideal) S64x1024 .f32) _ (nmA 640 inb_S64x1024_S64x128_0_640 a g (by omega))]
  rw [embA 512 inb_S64x1024_S64x128_0_512 a q g hg]; exact View.canon_cons_emb _ _ _ _

theorem canonA5 (hg : g.val = 640 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p5 (ix2 a q) := by
  rw [View.canon_cons_of_not_mem (⟨rA7, p7⟩ : View.Piece (Elt Ideal) S64x1024 .f32) _ (nmA 896 inb_S64x1024_S64x128_0_896 a g (by omega))]
  rw [View.canon_cons_of_not_mem (⟨rA6, p6⟩ : View.Piece (Elt Ideal) S64x1024 .f32) _ (nmA 768 inb_S64x1024_S64x128_0_768 a g (by omega))]
  rw [embA 640 inb_S64x1024_S64x128_0_640 a q g hg]; exact View.canon_cons_emb _ _ _ _

theorem canonA6 (hg : g.val = 768 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p6 (ix2 a q) := by
  rw [View.canon_cons_of_not_mem (⟨rA7, p7⟩ : View.Piece (Elt Ideal) S64x1024 .f32) _ (nmA 896 inb_S64x1024_S64x128_0_896 a g (by omega))]
  rw [embA 768 inb_S64x1024_S64x128_0_768 a q g hg]; exact View.canon_cons_emb _ _ _ _

theorem canonA7 (hg : g.val = 896 + q.val) : View.canon ([⟨rA7, p7⟩, ⟨rA6, p6⟩, ⟨rA5, p5⟩, ⟨rA4, p4⟩, ⟨rA3, p3⟩, ⟨rA2, p2⟩, ⟨rA1, p1⟩, ⟨rA0, p0⟩] : List (View.Piece (Elt Ideal) S64x1024 .f32)) (ix2 a g) = p7 (ix2 a q) := by

  rw [embA 896 inb_S64x1024_S64x128_0_896 a q g hg]; exact View.canon_cons_emb _ _ _ _
end Canon

theorem ldX (X0 : Vec Ideal S64x100000 .f32) (off : ℕ) (inb) (a : Fin 64) (k : Fin 12544) (h : off + k.val < 100000) :
    View.ld X0 (Rect.unit (s := S64x100000) ![0, off] S64x12544.size inb) (ix2 a k) = X0 (ix2 a ⟨off + k.val, h⟩) := by
  show X0 _ = _
  congr 1; funext d; apply Fin.ext
  match d with
  | ⟨0, _⟩ => show 0 + 1 * a.val = a.val; omega
  | ⟨1, _⟩ => show off + 1 * k.val = off + k.val; omega

theorem ldXL (X0 : Vec Ideal S64x100000 .f32) (inb) (a : Fin 64) (k : Fin 12192) (h : 87808 + k.val < 100000) :
    View.ld X0 (Rect.unit (s := S64x100000) ![0, 87808] S64x12192.size inb) (ix2 a k) = X0 (ix2 a ⟨87808 + k.val, h⟩) := by
  show X0 _ = _
  congr 1; funext d; apply Fin.ext
  match d with
  | ⟨0, _⟩ => show 0 + 1 * a.val = a.val; omega
  | ⟨1, _⟩ => show 87808 + 1 * k.val = 87808 + k.val; omega

theorem ldT (T : Vec Ideal S12544x128 .bf16) (k : Fin 12544) (q : Fin 128) : View.ld T rT (ix2 k q) = T (ix2 k q) := by
  show T _ = _
  congr 1; funext d; apply Fin.ext
  match d with
  | ⟨0, _⟩ => show 0 + 1 * k.val = k.val; omega
  | ⟨1, _⟩ => show 0 + 1 * q.val = q.val; omega

theorem ldT' (T : Vec Ideal S12544x128 .bf16) (k : Fin 12192) (q : Fin 128) :
    View.ld T rT' (ix2 k q) = T (ix2 (⟨k.val, by omega⟩ : Fin 12544) q) := by
  show T _ = _
  congr 1; funext d; apply Fin.ext
  match d with
  | ⟨0, _⟩ => show 0 + 1 * k.val = k.val; omega
  | ⟨1, _⟩ => show 0 + 1 * q.val = q.val; omega

section Block
open Cert.Proof.SelLaws
variable (X0 : Vec Ideal S64x100000 .f32) (x : X) (row : Fin 1024) (a : Fin 64)
  (hX : ∀ cidx : Fin 100000, X0 (ix2 a cidx) = x (ix2 row cidx))
include hX

theorem out2_blk0 (q : Fin 128) :
    out2 (F := Ideal) X0 SEL (ix2 a ⟨0 + q.val, by omega⟩) = gsum x row ⟨0 + q.val, by omega⟩ := by
  unfold out2
  rw [canonA0 _ _ _ _ _ _ _ _ a q _ rfl, paySum0, gsum_eq]
  refine (Finset.sum_congr rfl fun k _ => ?_).trans (sel_sum (fun cidx => x (ix2 row cidx)) ⟨0, by decide⟩ q)
  show View.ld X0 rX0 (ix2 a k) * View.ld SEL rT (ix2 k q) = x (ix2 row ⟨0 + k.val, by omega⟩) * SEL (ix2 k q)
  rw [ldX X0 0 inb_S64x100000_S64x12544_0_0 a k (by omega), hX, ldT]

theorem out2_blk1 (q : Fin 128) :
    out2 (F := Ideal) X0 SEL (ix2 a ⟨128 + q.val, by omega⟩) = gsum x row ⟨128 + q.val, by omega⟩ := by
  unfold out2
  rw [canonA1 _ _ _ _ _ _ _ _ a q _ rfl, paySum1, gsum_eq]
  refine (Finset.sum_congr rfl fun k _ => ?_).trans (sel_sum (fun cidx => x (ix2 row cidx)) ⟨1, by decide⟩ q)
  show View.ld X0 rX1 (ix2 a k) * View.ld SEL rT (ix2 k q) = x (ix2 row ⟨12544 + k.val, by omega⟩) * SEL (ix2 k q)
  rw [ldX X0 12544 inb_S64x100000_S64x12544_0_12544 a k (by omega), hX, ldT]

theorem out2_blk2 (q : Fin 128) :
    out2 (F := Ideal) X0 SEL (ix2 a ⟨256 + q.val, by omega⟩) = gsum x row ⟨256 + q.val, by omega⟩ := by
  unfold out2
  rw [canonA2 _ _ _ _ _ _ _ _ a q _ rfl, paySum2, gsum_eq]
  refine (Finset.sum_congr rfl fun k _ => ?_).trans (sel_sum (fun cidx => x (ix2 row cidx)) ⟨2, by decide⟩ q)
  show View.ld X0 rX2 (ix2 a k) * View.ld SEL rT (ix2 k q) = x (ix2 row ⟨25088 + k.val, by omega⟩) * SEL (ix2 k q)
  rw [ldX X0 25088 inb_S64x100000_S64x12544_0_25088 a k (by omega), hX, ldT]

theorem out2_blk3 (q : Fin 128) :
    out2 (F := Ideal) X0 SEL (ix2 a ⟨384 + q.val, by omega⟩) = gsum x row ⟨384 + q.val, by omega⟩ := by
  unfold out2
  rw [canonA3 _ _ _ _ _ _ _ _ a q _ rfl, paySum3, gsum_eq]
  refine (Finset.sum_congr rfl fun k _ => ?_).trans (sel_sum (fun cidx => x (ix2 row cidx)) ⟨3, by decide⟩ q)
  show View.ld X0 rX3 (ix2 a k) * View.ld SEL rT (ix2 k q) = x (ix2 row ⟨37632 + k.val, by omega⟩) * SEL (ix2 k q)
  rw [ldX X0 37632 inb_S64x100000_S64x12544_0_37632 a k (by omega), hX, ldT]

theorem out2_blk4 (q : Fin 128) :
    out2 (F := Ideal) X0 SEL (ix2 a ⟨512 + q.val, by omega⟩) = gsum x row ⟨512 + q.val, by omega⟩ := by
  unfold out2
  rw [canonA4 _ _ _ _ _ _ _ _ a q _ rfl, paySum4, gsum_eq]
  refine (Finset.sum_congr rfl fun k _ => ?_).trans (sel_sum (fun cidx => x (ix2 row cidx)) ⟨4, by decide⟩ q)
  show View.ld X0 rX4 (ix2 a k) * View.ld SEL rT (ix2 k q) = x (ix2 row ⟨50176 + k.val, by omega⟩) * SEL (ix2 k q)
  rw [ldX X0 50176 inb_S64x100000_S64x12544_0_50176 a k (by omega), hX, ldT]

theorem out2_blk5 (q : Fin 128) :
    out2 (F := Ideal) X0 SEL (ix2 a ⟨640 + q.val, by omega⟩) = gsum x row ⟨640 + q.val, by omega⟩ := by
  unfold out2
  rw [canonA5 _ _ _ _ _ _ _ _ a q _ rfl, paySum5, gsum_eq]
  refine (Finset.sum_congr rfl fun k _ => ?_).trans (sel_sum (fun cidx => x (ix2 row cidx)) ⟨5, by decide⟩ q)
  show View.ld X0 rX5 (ix2 a k) * View.ld SEL rT (ix2 k q) = x (ix2 row ⟨62720 + k.val, by omega⟩) * SEL (ix2 k q)
  rw [ldX X0 62720 inb_S64x100000_S64x12544_0_62720 a k (by omega), hX, ldT]

theorem out2_blk6 (q : Fin 128) :
    out2 (F := Ideal) X0 SEL (ix2 a ⟨768 + q.val, by omega⟩) = gsum x row ⟨768 + q.val, by omega⟩ := by
  unfold out2
  rw [canonA6 _ _ _ _ _ _ _ _ a q _ rfl, paySum6, gsum_eq]
  refine (Finset.sum_congr rfl fun k _ => ?_).trans (sel_sum (fun cidx => x (ix2 row cidx)) ⟨6, by decide⟩ q)
  show View.ld X0 rX6 (ix2 a k) * View.ld SEL rT (ix2 k q) = x (ix2 row ⟨75264 + k.val, by omega⟩) * SEL (ix2 k q)
  rw [ldX X0 75264 inb_S64x100000_S64x12544_0_75264 a k (by omega), hX, ldT]

theorem out2_blk7 (q : Fin 128) :
    out2 (F := Ideal) X0 SEL (ix2 a ⟨896 + q.val, by omega⟩) = gsum x row ⟨896 + q.val, by omega⟩ := by
  unfold out2
  rw [canonA7 _ _ _ _ _ _ _ _ a q _ rfl, paySum7, gsum_eq]
  refine (Finset.sum_congr rfl fun k _ => ?_).trans (sel_sum_last (fun cidx => x (ix2 row cidx)) q)
  show View.ld X0 rX7 (ix2 a k) * View.ld SEL rT' (ix2 k q) = x (ix2 row ⟨87808 + k.val, by omega⟩) * SEL (ix2 (⟨k.val, by omega⟩ : Fin 12544) q)
  rw [ldXL X0 inb_S64x100000_S64x12192_0_87808 a k (by omega), hX, ldT']

theorem out2_val (g : Fin 1024) : out2 (F := Ideal) X0 SEL (ix2 a g) = gsum x row g := by
  have hg : g.val < 1024 := g.isLt
  have hq : g.val % 128 < 128 := Nat.mod_lt _ (by decide)
  rcases (by omega : g.val / 128 = 0 ∨ g.val / 128 = 1 ∨ g.val / 128 = 2 ∨ g.val / 128 = 3 ∨ g.val / 128 = 4 ∨ g.val / 128 = 5 ∨ g.val / 128 = 6 ∨ g.val / 128 = 7) with h | h | h | h | h | h | h | h
  · have e : g = ⟨0 + (⟨g.val % 128, hq⟩ : Fin 128).val, by show 0 + g.val % 128 < 1024; omega⟩ := Fin.ext (by show g.val = 0 + g.val % 128; omega)
    rw [e]; exact out2_blk0 X0 x row a hX ⟨g.val % 128, hq⟩
  · have e : g = ⟨128 + (⟨g.val % 128, hq⟩ : Fin 128).val, by show 128 + g.val % 128 < 1024; omega⟩ := Fin.ext (by show g.val = 128 + g.val % 128; omega)
    rw [e]; exact out2_blk1 X0 x row a hX ⟨g.val % 128, hq⟩
  · have e : g = ⟨256 + (⟨g.val % 128, hq⟩ : Fin 128).val, by show 256 + g.val % 128 < 1024; omega⟩ := Fin.ext (by show g.val = 256 + g.val % 128; omega)
    rw [e]; exact out2_blk2 X0 x row a hX ⟨g.val % 128, hq⟩
  · have e : g = ⟨384 + (⟨g.val % 128, hq⟩ : Fin 128).val, by show 384 + g.val % 128 < 1024; omega⟩ := Fin.ext (by show g.val = 384 + g.val % 128; omega)
    rw [e]; exact out2_blk3 X0 x row a hX ⟨g.val % 128, hq⟩
  · have e : g = ⟨512 + (⟨g.val % 128, hq⟩ : Fin 128).val, by show 512 + g.val % 128 < 1024; omega⟩ := Fin.ext (by show g.val = 512 + g.val % 128; omega)
    rw [e]; exact out2_blk4 X0 x row a hX ⟨g.val % 128, hq⟩
  · have e : g = ⟨640 + (⟨g.val % 128, hq⟩ : Fin 128).val, by show 640 + g.val % 128 < 1024; omega⟩ := Fin.ext (by show g.val = 640 + g.val % 128; omega)
    rw [e]; exact out2_blk5 X0 x row a hX ⟨g.val % 128, hq⟩
  · have e : g = ⟨768 + (⟨g.val % 128, hq⟩ : Fin 128).val, by show 768 + g.val % 128 < 1024; omega⟩ := Fin.ext (by show g.val = 768 + g.val % 128; omega)
    rw [e]; exact out2_blk6 X0 x row a hX ⟨g.val % 128, hq⟩
  · have e : g = ⟨896 + (⟨g.val % 128, hq⟩ : Fin 128).val, by show 896 + g.val % 128 < 1024; omega⟩ := Fin.ext (by show g.val = 896 + g.val % 128; omega)
    rw [e]; exact out2_blk7 X0 x row a hX ⟨g.val % 128, hq⟩

theorem out3_blk0 (q : Fin 128) :
    out3 (F := Ideal) X0 SEL (ix2 a ⟨0 + q.val, by omega⟩) = gsq x row ⟨0 + q.val, by omega⟩ := by
  unfold out3
  rw [canonA0 _ _ _ _ _ _ _ _ a q _ rfl, paySq0, gsq_eq]
  refine (Finset.sum_congr rfl fun k _ => ?_).trans (sel_sum (fun cidx => x (ix2 row cidx) * x (ix2 row cidx)) ⟨0, by decide⟩ q)
  show (View.ld X0 rX0 (ix2 a k) * View.ld X0 rX0 (ix2 a k)) * View.ld SEL rT (ix2 k q) = (x (ix2 row ⟨0 + k.val, by omega⟩) * x (ix2 row ⟨0 + k.val, by omega⟩)) * SEL (ix2 k q)
  rw [ldX X0 0 inb_S64x100000_S64x12544_0_0 a k (by omega), hX, ldT]

theorem out3_blk1 (q : Fin 128) :
    out3 (F := Ideal) X0 SEL (ix2 a ⟨128 + q.val, by omega⟩) = gsq x row ⟨128 + q.val, by omega⟩ := by
  unfold out3
  rw [canonA1 _ _ _ _ _ _ _ _ a q _ rfl, paySq1, gsq_eq]
  refine (Finset.sum_congr rfl fun k _ => ?_).trans (sel_sum (fun cidx => x (ix2 row cidx) * x (ix2 row cidx)) ⟨1, by decide⟩ q)
  show (View.ld X0 rX1 (ix2 a k) * View.ld X0 rX1 (ix2 a k)) * View.ld SEL rT (ix2 k q) = (x (ix2 row ⟨12544 + k.val, by omega⟩) * x (ix2 row ⟨12544 + k.val, by omega⟩)) * SEL (ix2 k q)
  rw [ldX X0 12544 inb_S64x100000_S64x12544_0_12544 a k (by omega), hX, ldT]

theorem out3_blk2 (q : Fin 128) :
    out3 (F := Ideal) X0 SEL (ix2 a ⟨256 + q.val, by omega⟩) = gsq x row ⟨256 + q.val, by omega⟩ := by
  unfold out3
  rw [canonA2 _ _ _ _ _ _ _ _ a q _ rfl, paySq2, gsq_eq]
  refine (Finset.sum_congr rfl fun k _ => ?_).trans (sel_sum (fun cidx => x (ix2 row cidx) * x (ix2 row cidx)) ⟨2, by decide⟩ q)
  show (View.ld X0 rX2 (ix2 a k) * View.ld X0 rX2 (ix2 a k)) * View.ld SEL rT (ix2 k q) = (x (ix2 row ⟨25088 + k.val, by omega⟩) * x (ix2 row ⟨25088 + k.val, by omega⟩)) * SEL (ix2 k q)
  rw [ldX X0 25088 inb_S64x100000_S64x12544_0_25088 a k (by omega), hX, ldT]

theorem out3_blk3 (q : Fin 128) :
    out3 (F := Ideal) X0 SEL (ix2 a ⟨384 + q.val, by omega⟩) = gsq x row ⟨384 + q.val, by omega⟩ := by
  unfold out3
  rw [canonA3 _ _ _ _ _ _ _ _ a q _ rfl, paySq3, gsq_eq]
  refine (Finset.sum_congr rfl fun k _ => ?_).trans (sel_sum (fun cidx => x (ix2 row cidx) * x (ix2 row cidx)) ⟨3, by decide⟩ q)
  show (View.ld X0 rX3 (ix2 a k) * View.ld X0 rX3 (ix2 a k)) * View.ld SEL rT (ix2 k q) = (x (ix2 row ⟨37632 + k.val, by omega⟩) * x (ix2 row ⟨37632 + k.val, by omega⟩)) * SEL (ix2 k q)
  rw [ldX X0 37632 inb_S64x100000_S64x12544_0_37632 a k (by omega), hX, ldT]

theorem out3_blk4 (q : Fin 128) :
    out3 (F := Ideal) X0 SEL (ix2 a ⟨512 + q.val, by omega⟩) = gsq x row ⟨512 + q.val, by omega⟩ := by
  unfold out3
  rw [canonA4 _ _ _ _ _ _ _ _ a q _ rfl, paySq4, gsq_eq]
  refine (Finset.sum_congr rfl fun k _ => ?_).trans (sel_sum (fun cidx => x (ix2 row cidx) * x (ix2 row cidx)) ⟨4, by decide⟩ q)
  show (View.ld X0 rX4 (ix2 a k) * View.ld X0 rX4 (ix2 a k)) * View.ld SEL rT (ix2 k q) = (x (ix2 row ⟨50176 + k.val, by omega⟩) * x (ix2 row ⟨50176 + k.val, by omega⟩)) * SEL (ix2 k q)
  rw [ldX X0 50176 inb_S64x100000_S64x12544_0_50176 a k (by omega), hX, ldT]

theorem out3_blk5 (q : Fin 128) :
    out3 (F := Ideal) X0 SEL (ix2 a ⟨640 + q.val, by omega⟩) = gsq x row ⟨640 + q.val, by omega⟩ := by
  unfold out3
  rw [canonA5 _ _ _ _ _ _ _ _ a q _ rfl, paySq5, gsq_eq]
  refine (Finset.sum_congr rfl fun k _ => ?_).trans (sel_sum (fun cidx => x (ix2 row cidx) * x (ix2 row cidx)) ⟨5, by decide⟩ q)
  show (View.ld X0 rX5 (ix2 a k) * View.ld X0 rX5 (ix2 a k)) * View.ld SEL rT (ix2 k q) = (x (ix2 row ⟨62720 + k.val, by omega⟩) * x (ix2 row ⟨62720 + k.val, by omega⟩)) * SEL (ix2 k q)
  rw [ldX X0 62720 inb_S64x100000_S64x12544_0_62720 a k (by omega), hX, ldT]

theorem out3_blk6 (q : Fin 128) :
    out3 (F := Ideal) X0 SEL (ix2 a ⟨768 + q.val, by omega⟩) = gsq x row ⟨768 + q.val, by omega⟩ := by
  unfold out3
  rw [canonA6 _ _ _ _ _ _ _ _ a q _ rfl, paySq6, gsq_eq]
  refine (Finset.sum_congr rfl fun k _ => ?_).trans (sel_sum (fun cidx => x (ix2 row cidx) * x (ix2 row cidx)) ⟨6, by decide⟩ q)
  show (View.ld X0 rX6 (ix2 a k) * View.ld X0 rX6 (ix2 a k)) * View.ld SEL rT (ix2 k q) = (x (ix2 row ⟨75264 + k.val, by omega⟩) * x (ix2 row ⟨75264 + k.val, by omega⟩)) * SEL (ix2 k q)
  rw [ldX X0 75264 inb_S64x100000_S64x12544_0_75264 a k (by omega), hX, ldT]

theorem out3_blk7 (q : Fin 128) :
    out3 (F := Ideal) X0 SEL (ix2 a ⟨896 + q.val, by omega⟩) = gsq x row ⟨896 + q.val, by omega⟩ := by
  unfold out3
  rw [canonA7 _ _ _ _ _ _ _ _ a q _ rfl, paySq7, gsq_eq]
  refine (Finset.sum_congr rfl fun k _ => ?_).trans (sel_sum_last (fun cidx => x (ix2 row cidx) * x (ix2 row cidx)) q)
  show (View.ld X0 rX7 (ix2 a k) * View.ld X0 rX7 (ix2 a k)) * View.ld SEL rT' (ix2 k q) = (x (ix2 row ⟨87808 + k.val, by omega⟩) * x (ix2 row ⟨87808 + k.val, by omega⟩)) * SEL (ix2 (⟨k.val, by omega⟩ : Fin 12544) q)
  rw [ldXL X0 inb_S64x100000_S64x12192_0_87808 a k (by omega), hX, ldT']

theorem out3_val (g : Fin 1024) : out3 (F := Ideal) X0 SEL (ix2 a g) = gsq x row g := by
  have hg : g.val < 1024 := g.isLt
  have hq : g.val % 128 < 128 := Nat.mod_lt _ (by decide)
  rcases (by omega : g.val / 128 = 0 ∨ g.val / 128 = 1 ∨ g.val / 128 = 2 ∨ g.val / 128 = 3 ∨ g.val / 128 = 4 ∨ g.val / 128 = 5 ∨ g.val / 128 = 6 ∨ g.val / 128 = 7) with h | h | h | h | h | h | h | h
  · have e : g = ⟨0 + (⟨g.val % 128, hq⟩ : Fin 128).val, by show 0 + g.val % 128 < 1024; omega⟩ := Fin.ext (by show g.val = 0 + g.val % 128; omega)
    rw [e]; exact out3_blk0 X0 x row a hX ⟨g.val % 128, hq⟩
  · have e : g = ⟨128 + (⟨g.val % 128, hq⟩ : Fin 128).val, by show 128 + g.val % 128 < 1024; omega⟩ := Fin.ext (by show g.val = 128 + g.val % 128; omega)
    rw [e]; exact out3_blk1 X0 x row a hX ⟨g.val % 128, hq⟩
  · have e : g = ⟨256 + (⟨g.val % 128, hq⟩ : Fin 128).val, by show 256 + g.val % 128 < 1024; omega⟩ := Fin.ext (by show g.val = 256 + g.val % 128; omega)
    rw [e]; exact out3_blk2 X0 x row a hX ⟨g.val % 128, hq⟩
  · have e : g = ⟨384 + (⟨g.val % 128, hq⟩ : Fin 128).val, by show 384 + g.val % 128 < 1024; omega⟩ := Fin.ext (by show g.val = 384 + g.val % 128; omega)
    rw [e]; exact out3_blk3 X0 x row a hX ⟨g.val % 128, hq⟩
  · have e : g = ⟨512 + (⟨g.val % 128, hq⟩ : Fin 128).val, by show 512 + g.val % 128 < 1024; omega⟩ := Fin.ext (by show g.val = 512 + g.val % 128; omega)
    rw [e]; exact out3_blk4 X0 x row a hX ⟨g.val % 128, hq⟩
  · have e : g = ⟨640 + (⟨g.val % 128, hq⟩ : Fin 128).val, by show 640 + g.val % 128 < 1024; omega⟩ := Fin.ext (by show g.val = 640 + g.val % 128; omega)
    rw [e]; exact out3_blk5 X0 x row a hX ⟨g.val % 128, hq⟩
  · have e : g = ⟨768 + (⟨g.val % 128, hq⟩ : Fin 128).val, by show 768 + g.val % 128 < 1024; omega⟩ := Fin.ext (by show g.val = 768 + g.val % 128; omega)
    rw [e]; exact out3_blk6 X0 x row a hX ⟨g.val % 128, hq⟩
  · have e : g = ⟨896 + (⟨g.val % 128, hq⟩ : Fin 128).val, by show 896 + g.val % 128 < 1024; omega⟩ := Fin.ext (by show g.val = 896 + g.val % 128; omega)
    rw [e]; exact out3_blk7 X0 x row a hX ⟨g.val % 128, hq⟩

end Block

theorem hz : (![0, 0] : Fin 2 → Nat) = fun _ => 0 := funext fun a => by fin_cases a <;> rfl

theorem col_apply (v : FVec Ideal S64 .f32) (a : Fin 64) :
    (shapeCast S64x1 v shapeCasts_S64_S64x1 : FVec Ideal S64x1 .f32) (ix2 a (0 : Fin 1)) = v (ix1 a) :=
  shapeCast_apply v _ _ _ (by
    rw [Shape.rowMajor_val_one, Shape.rowMajor_val_two]
    show a.val = a.val * 1 + 0
    omega)

theorem mrS_apply (B : FVec Ideal S64x12544 .f32) (a : Fin 64) :
    (multiReduction .add [1] S64 B 0x00000000#32 reduces_S64x12544_S64 (.inl rfl) rfl : FVec Ideal S64 .f32) (ix1 a)
      = ∑ k : Fin 12544, B (ix2 a k) := by
  refine (Ideal.multiReduction_add_single B 0x00000000#32 reduces_S64x12544_S64 (.inl rfl) rfl (ix1 a)).trans ?_
  refine Finset.sum_congr rfl fun k _ => congrArg B ?_
  funext d; apply Fin.ext
  match d with
  | ⟨0, _⟩ => rfl
  | ⟨1, _⟩ => rfl

theorem mrL_apply (B : FVec Ideal S64x12192 .f32) (a : Fin 64) :
    (multiReduction .add [1] S64 B 0x00000000#32 reduces_S64x12192_S64 (.inl rfl) rfl : FVec Ideal S64 .f32) (ix1 a)
      = ∑ k : Fin 12192, B (ix2 a k) := by
  refine (Ideal.multiReduction_add_single B 0x00000000#32 reduces_S64x12192_S64 (.inl rfl) rfl (ix1 a)).trans ?_
  refine Finset.sum_congr rfl fun k _ => congrArg B ?_
  funext d; apply Fin.ext
  match d with
  | ⟨0, _⟩ => rfl
  | ⟨1, _⟩ => rfl

theorem pay14_apply (A0 A1 : Vec Ideal S64x12544 .f32) (a : Fin 64) :
    (k0_pay14 A0 A1 : FVec Ideal S64x1 .f32) (ix2 a (0 : Fin 1))
      = (∑ k : Fin 12544, A0 (ix2 a k) * A0 (ix2 a k)) + (∑ k : Fin 12544, A1 (ix2 a k) * A1 (ix2 a k)) := by
  show (shapeCast S64x1 (multiReduction .add [1] S64 (k0_pay6 A0) 0x00000000#32 reduces_S64x12544_S64 (.inl rfl) rfl) shapeCasts_S64_S64x1 : FVec Ideal S64x1 .f32) (ix2 a (0 : Fin 1))
      + (shapeCast S64x1 (multiReduction .add [1] S64 (k0_pay10 A1) 0x00000000#32 reduces_S64x12544_S64 (.inl rfl) rfl) shapeCasts_S64_S64x1 : FVec Ideal S64x1 .f32) (ix2 a (0 : Fin 1)) = _
  rw [col_apply, col_apply, mrS_apply, mrS_apply]; rfl

theorem pay23_apply (v24 : FVec Ideal S64x1 .f32) (B : FVec Ideal S64x12544 .f32) (A : Vec Ideal S64x12544 .f32) (a : Fin 64) :
    (k0_pay23 v24 B A : FVec Ideal S64x1 .f32) (ix2 a (0 : Fin 1))
      = (v24 (ix2 a (0 : Fin 1)) + ∑ k : Fin 12544, B (ix2 a k)) + ∑ k : Fin 12544, A (ix2 a k) * A (ix2 a k) := by
  show (v24 (ix2 a (0 : Fin 1)) + (shapeCast S64x1 (multiReduction .add [1] S64 B 0x00000000#32 reduces_S64x12544_S64 (.inl rfl) rfl) shapeCasts_S64_S64x1 : FVec Ideal S64x1 .f32) (ix2 a (0 : Fin 1)))
      + (shapeCast S64x1 (multiReduction .add [1] S64 (k0_pay19 A) 0x00000000#32 reduces_S64x12544_S64 (.inl rfl) rfl) shapeCasts_S64_S64x1 : FVec Ideal S64x1 .f32) (ix2 a (0 : Fin 1)) = _
  rw [col_apply, col_apply, mrS_apply, mrS_apply]; rfl

theorem pay33_apply (v50 : FVec Ideal S64x1 .f32) (B : FVec Ideal S64x12544 .f32) (A : Vec Ideal S64x12544 .f32) (a : Fin 64) :
    (k0_pay33 v50 B A : FVec Ideal S64x1 .f32) (ix2 a (0 : Fin 1))
      = (v50 (ix2 a (0 : Fin 1)) + ∑ k : Fin 12544, B (ix2 a k)) + ∑ k : Fin 12544, A (ix2 a k) * A (ix2 a k) := by
  show (v50 (ix2 a (0 : Fin 1)) + (shapeCast S64x1 (multiReduction .add [1] S64 B 0x00000000#32 reduces_S64x12544_S64 (.inl rfl) rfl) shapeCasts_S64_S64x1 : FVec Ideal S64x1 .f32) (ix2 a (0 : Fin 1)))
      + (shapeCast S64x1 (multiReduction .add [1] S64 (k0_pay29 A) 0x00000000#32 reduces_S64x12544_S64 (.inl rfl) rfl) shapeCasts_S64_S64x1 : FVec Ideal S64x1 .f32) (ix2 a (0 : Fin 1)) = _
  rw [col_apply, col_apply, mrS_apply, mrS_apply]; rfl

theorem pay38_apply (A : Vec Ideal S64x12544 .f32) (a : Fin 64) :
    (k0_pay38 A : FVec Ideal S64 .f32) (ix1 a) = ∑ k : Fin 12544, A (ix2 a k) * A (ix2 a k) := by
  show (multiReduction .add [1] S64 (k0_pay34 A) 0x00000000#32 reduces_S64x12544_S64 (.inl rfl) rfl : FVec Ideal S64 .f32) (ix1 a) = _
  rw [mrS_apply]; rfl

theorem pay5_apply (v76 : FVec Ideal S64x1 .f32) (v87 : FVec Ideal S64 .f32) (A : Vec Ideal S64x12192 .f32) (a : Fin 64) (q : Fin 128) :
    (k0_pay5 v76 v87 A : FVec Ideal S64x128 .f32) (ix2 a q)
      = (v76 (ix2 a (0 : Fin 1)) + v87 (ix1 a)) + ∑ k : Fin 12192, A (ix2 a k) * A (ix2 a k) := by
  show (broadcastTo S64x128 (shapeCast S64x1 (addf (addf v76 (shapeCast S64x1 v87 shapeCasts_S64_S64x1))
      (shapeCast S64x1 (multiReduction .add [1] S64 (k0_pay1 A) 0x00000000#32 reduces_S64x12192_S64 (.inl rfl) rfl) shapeCasts_S64_S64x1)) shapeCasts_S64x1_S64x1)
      broadcasts_S64x1_S64x128 : FVec Ideal S64x128 .f32) (ix2 a q) = _
  have hk : ∀ a' : Fin S64x1.rank, ((ix2 a (0 : Fin 1) : S64x1.Idx) a').val
      = if S64x1.size a' = 1 then 0 else ((ix2 a q : S64x128.Idx) ⟨a'.val + (S64x128.rank - S64x1.rank), by have := a'.isLt; show a'.val + (2 - 2) < 2; omega⟩).val := by
    intro a'
    match a' with
    | ⟨0, _⟩ => show a.val = if (64 : ℕ) = 1 then 0 else a.val; simp
    | ⟨1, _⟩ => show (0 : ℕ) = if (1 : ℕ) = 1 then 0 else q.val; simp
  rw [broadcastTo_apply _ _ (ix2 a q) (ix2 a (0 : Fin 1)) hk, shapeCast_self]
  show (v76 (ix2 a (0 : Fin 1)) + (shapeCast S64x1 v87 shapeCasts_S64_S64x1 : FVec Ideal S64x1 .f32) (ix2 a (0 : Fin 1)))
      + (shapeCast S64x1 (multiReduction .add [1] S64 (k0_pay1 A) 0x00000000#32 reduces_S64x12192_S64 (.inl rfl) rfl) shapeCasts_S64_S64x1 : FVec Ideal S64x1 .f32) (ix2 a (0 : Fin 1)) = _
  rw [col_apply, col_apply, mrL_apply]; rfl

section Norm
open Cert.Proof.SelLaws
variable (X0 : Vec Ideal S64x100000 .f32) (x : X) (row : Fin 1024) (a : Fin 64)
  (hX : ∀ cidx : Fin 100000, X0 (ix2 a cidx) = x (ix2 row cidx))
include hX

theorem sqS (off : ℕ) (inb) (j : Fin 7) (hoff : off = 12544 * j.val) :
    (∑ k : Fin 12544, View.ld X0 (Rect.unit (s := S64x100000) ![0, off] S64x12544.size inb) (ix2 a k)
        * View.ld X0 (Rect.unit (s := S64x100000) ![0, off] S64x12544.size inb) (ix2 a k))
      = ∑ k : Fin 12544, sqBlk x row j k := by
  subst hoff
  refine Finset.sum_congr rfl fun k _ => ?_
  rw [ldX X0 (12544 * j.val) inb a k (by have := j.isLt; have := k.isLt; omega), hX]; rfl

theorem sqL :
    (∑ k : Fin 12192, View.ld X0 rX7 (ix2 a k) * View.ld X0 rX7 (ix2 a k)) = ∑ k : Fin 12192, sqLast x row k := by
  refine Finset.sum_congr rfl fun k _ => ?_
  rw [ldXL X0 inb_S64x100000_S64x12192_0_87808 a k (by have := k.isLt; omega), hX]; rfl

theorem out4_val (T : Vec Ideal S12544x128 .bf16) (q : Fin 128) : out4 (F := Ideal) X0 T (ix2 a q) = nrm x row := by
  unfold out4
  rw [View.canon_unit_zero hz]
  rw [pay5_apply, pay33_apply, pay23_apply, pay14_apply, pay38_apply, nrm_split,
    ← sqS X0 x row a hX 0 inb_S64x100000_S64x12544_0_0 0 rfl,
    ← sqS X0 x row a hX 12544 inb_S64x100000_S64x12544_0_12544 1 rfl,
    ← sqS X0 x row a hX 25088 inb_S64x100000_S64x12544_0_25088 2 rfl,
    ← sqS X0 x row a hX 37632 inb_S64x100000_S64x12544_0_37632 3 rfl,
    ← sqS X0 x row a hX 50176 inb_S64x100000_S64x12544_0_50176 4 rfl,
    ← sqS X0 x row a hX 62720 inb_S64x100000_S64x12544_0_62720 5 rfl,
    ← sqS X0 x row a hX 75264 inb_S64x100000_S64x12544_0_75264 6 rfl,
    ← sqL X0 x row a hX]
  rfl

end Norm

section Final
variable (V : (c : Dev nD) → (b : Ref sig .tc) → Buf (Elt Ideal) ((c : Thread nD τ).loc b)) (c : Dev nD) (x : X)

theorem idx_in : ∀ t : Fin cfg0.N, win0_0.index t (0 : Fin 2) = t.val + 4 ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val + 4 ∧ win0_0.index t (1 : Fin 2) = 0
    ∧ win0_1.index t (0 : Fin 2) = 0 ∧ win0_1.index t (1 : Fin 2) = 0)

theorem iblk0_apply (hx : (V c main_arg0 : SX.Idx → EReal) = x) (p : Fin cfg0.N) (a : Fin 64) (cidx : Fin 100000)
    (row : Fin 1024) (hrow : row.val = 64 * (p.val + 4) + a.val) :
    (iblk V c 0 p : Vec Ideal S64x100000 .f32) (ix2 a cidx) = x (ix2 row cidx) := by
  rw [← hx]
  show V c main_arg0 (((cfg0.win 0).blk p).view.emb (ix2 a cidx)) = V c main_arg0 (ix2 row cidx)
  congr 1; funext d; apply Fin.ext
  obtain ⟨e0, e1, -, -⟩ := idx_in p
  match d with
  | ⟨0, _⟩ => show win0_0.index p (0 : Fin 2) * 64 + 1 * a.val = row.val; rw [e0, hrow]; omega
  | ⟨1, _⟩ => show win0_0.index p (1 : Fin 2) * 100000 + 1 * cidx.val = cidx.val; rw [e1]; omega

theorem iblk1_eq (hsel : (V c main_v11 : Ssel.Idx → EReal) = SEL) (p : Fin cfg0.N) :
    (iblk V c 1 p : Vec Ideal S12544x128 .bf16) = SEL := by
  rw [← hsel]
  funext z
  show V c main_v11 (((cfg0.win 1).blk p).view.emb z) = V c main_v11 z
  congr 1; funext d; apply Fin.ext
  obtain ⟨-, -, e0, e1⟩ := idx_in p
  match d with
  | ⟨0, _⟩ => show win0_1.index p (0 : Fin 2) * 12544 + 1 * (z 0).val = (z 0).val; rw [e0]; omega
  | ⟨1, _⟩ => show win0_1.index p (1 : Fin 2) * 128 + 1 * (z 1).val = (z 1).val; rw [e1]; omega

theorem row_eq (r : Fin 768) : (rowTc r).val = 64 * ((ptOf r).val + 4) + r.val % 64 := by
  show 256 + r.val = 64 * (r.val / 64 + 4) + r.val % 64
  omega

theorem arr2_ideal (hx : (V c main_arg0 : SX.Idx → EReal) = x) (hsel : (V c main_v11 : Ssel.Idx → EReal) = SEL) :
    arr2 V c = GStc x := by
  funext i
  show out2 (iblk V c 0 (ptOf (i 0))) (iblk V c 1 (ptOf (i 0))) (ix2 ⟨(i 0).val % 64, Nat.mod_lt _ (by decide)⟩ (i 1)) = gsum x (rowTc (i 0)) (i 1)
  rw [iblk1_eq V c hsel (ptOf (i 0))]
  exact out2_val (iblk V c 0 (ptOf (i 0))) x (rowTc (i 0)) ⟨(i 0).val % 64, Nat.mod_lt _ (by decide)⟩
    (fun cidx => iblk0_apply V c x hx (ptOf (i 0)) _ cidx (rowTc (i 0)) (row_eq (i 0))) (i 1)

theorem arr3_ideal (hx : (V c main_arg0 : SX.Idx → EReal) = x) (hsel : (V c main_v11 : Ssel.Idx → EReal) = SEL) :
    arr3 V c = GSQtc x := by
  funext i
  show out3 (iblk V c 0 (ptOf (i 0))) (iblk V c 1 (ptOf (i 0))) (ix2 ⟨(i 0).val % 64, Nat.mod_lt _ (by decide)⟩ (i 1)) = gsq x (rowTc (i 0)) (i 1)
  rw [iblk1_eq V c hsel (ptOf (i 0))]
  exact out3_val (iblk V c 0 (ptOf (i 0))) x (rowTc (i 0)) ⟨(i 0).val % 64, Nat.mod_lt _ (by decide)⟩
    (fun cidx => iblk0_apply V c x hx (ptOf (i 0)) _ cidx (rowTc (i 0)) (row_eq (i 0))) (i 1)

theorem arr4_ideal (hx : (V c main_arg0 : SX.Idx → EReal) = x) : arr4 V c = NPtc x := by
  funext i
  show out4 (iblk V c 0 (ptOf (i 0))) (iblk V c 1 (ptOf (i 0))) (ix2 ⟨(i 0).val % 64, Nat.mod_lt _ (by decide)⟩ (i 1)) = nrm x (rowTc (i 0))
  exact out4_val (iblk V c 0 (ptOf (i 0))) x (rowTc (i 0)) ⟨(i 0).val % 64, Nat.mod_lt _ (by decide)⟩
    (fun cidx => iblk0_apply V c x hx (ptOf (i 0)) _ cidx (rowTc (i 0)) (row_eq (i 0))) (iblk V c 1 (ptOf (i 0))) (i 1)

end Final

end Cert.KernelIdeal.R0V

end
-- ==== Proof.SpecLaws.lean ====
import proofs.«207604_g45191645889005_cont_8to1c4_5_22_alg».proof.Proof.Spec
import Mathlib.Data.EReal.Operations
import Mathlib.Data.Fintype.BigOperators
import Mathlib.Logic.Equiv.Fin.Basic
import Mathlib.Algebra.BigOperators.Fin
import Mathlib.Algebra.BigOperators.Ring.Finset

noncomputable section

namespace Cert.Proof.SpecLaws

open Idealize.ShloMosaic Idealize.ShloMosaic.ValueIdx Cert.Proof
open scoped BigOperators

theorem sum_groups {M : Type*} [AddCommMonoid M] (f : Fin 100000 → M) :
    ∑ g : Fin 1024, ∑ k : Fin 98,
        (if h : 98 * g.val + k.val < 100000 then f ⟨98 * g.val + k.val, h⟩ else 0)
      = ∑ j : Fin 100000, f j := by
  let F : ℕ → M := fun n => if h : n < 100000 then f ⟨n, h⟩ else 0
  calc ∑ g : Fin 1024, ∑ k : Fin 98,
          (if h : 98 * g.val + k.val < 100000 then f ⟨98 * g.val + k.val, h⟩ else 0)
      = ∑ g : Fin 1024, ∑ k : Fin 98, F (98 * g.val + k.val) := rfl
    _ = ∑ p : Fin 1024 × Fin 98, F (98 * p.1.val + p.2.val) :=
          (Fintype.sum_prod_type' (fun (g : Fin 1024) (k : Fin 98) => F (98 * g.val + k.val))).symm
    _ = ∑ p : Fin 1024 × Fin 98, F ((finProdFinEquiv p).val) := by
          refine Finset.sum_congr rfl fun p _ => ?_
          rw [finProdFinEquiv_apply_val, Nat.add_comm]
    _ = ∑ q : Fin (1024 * 98), F q.val := Equiv.sum_comp finProdFinEquiv (fun q => F q.val)
    _ = ∑ n ∈ Finset.range (1024 * 98), F n := (Finset.sum_range F).symm
    _ = ∑ n ∈ Finset.range 100000, F n :=
          (Finset.sum_subset (Finset.range_mono (by norm_num))
            (fun n _ hn => dif_neg (by simpa using hn))).symm
    _ = ∑ j : Fin 100000, F j.val := Finset.sum_range F
    _ = ∑ j : Fin 100000, f j := Finset.sum_congr rfl fun j _ => dif_pos j.isLt

theorem sum_gsum (x : Spec.X) (r : Fin 1024) : ∑ g : Fin 1024, Spec.gsum x r g = Spec.tot x r :=
  sum_groups (fun j => x (ix2 r j))

theorem sum_gsq (x : Spec.X) (r : Fin 1024) : ∑ g : Fin 1024, Spec.gsq x r g = Spec.nrm x r := by
  refine Eq.trans ?_ (sum_groups (fun j => x (ix2 r j) * x (ix2 r j)))
  refine Finset.sum_congr rfl fun g _ => Finset.sum_congr rfl fun k _ => ?_
  unfold Spec.ent
  split_ifs
  · rfl
  · exact mul_zero _

def Near (S : EReal) : Prop := max (S - Spec.one) (-(S - Spec.one)) ≤ Spec.tol

def AmpK (gsq_sc : Spec.SscO.Idx → EReal) (np : Spec.StcN.Idx → EReal) : Prop :=
  (∀ r : Fin 256, Near (∑ g : Fin 1024, gsq_sc (ix2 r g))) ∧
    (∀ r : Fin 768, Near (np (ix2 r (0 : Fin 128))))

open Classical in

def FIN (gs_sc gsq_sc : Spec.SscO.Idx → EReal) (gs_tc gsq_tc : Spec.StcO.Idx → EReal)
    (np : Spec.StcN.Idx → EReal) : Spec.SO.Idx → EReal := fun i =>
  if h : (i 0).val < 256 then
    (if AmpK gsq_sc np then gsq_sc (ix2 (⟨(i 0).val, h⟩ : Fin 256) (i 1))
     else Ideal.div (gs_sc (ix2 (⟨(i 0).val, h⟩ : Fin 256) (i 1)))
       (∑ g : Fin 1024, gs_sc (ix2 (⟨(i 0).val, h⟩ : Fin 256) g)))
  else
    (if AmpK gsq_sc np then
       gsq_tc (ix2 (⟨(i 0).val - 256, by have := idx2_lt0 i; omega⟩ : Fin 768) (i 1))
     else Ideal.div (gs_tc (ix2 (⟨(i 0).val - 256, by have := idx2_lt0 i; omega⟩ : Fin 768) (i 1)))
       (∑ g : Fin 1024, gs_tc (ix2 (⟨(i 0).val - 256, by have := idx2_lt0 i; omega⟩ : Fin 768) g)))

theorem ampK_iff (x : Spec.X) : AmpK (Spec.GSQsc x) (Spec.NPtc x) ↔ Spec.IsAmp x := by
  constructor
  · rintro ⟨hsc, htc⟩ r
    by_cases h : r.val < 256
    · have := hsc ⟨r.val, h⟩
      rw [show (∑ g : Fin 1024, Spec.GSQsc x (ix2 (⟨r.val, h⟩ : Fin 256) g))
        = ∑ g : Fin 1024, Spec.gsq x r g from rfl, sum_gsq] at this
      exact this
    · have hlt : r.val - 256 < 768 := by have := r.isLt; omega
      have := htc ⟨r.val - 256, hlt⟩
      have hrow : Spec.rowTc ⟨r.val - 256, hlt⟩ = r := Fin.ext (by
        show 256 + (r.val - 256) = r.val; omega)
      rw [show Spec.NPtc x (ix2 (⟨r.val - 256, hlt⟩ : Fin 768) (0 : Fin 128))
        = Spec.nrm x (Spec.rowTc ⟨r.val - 256, hlt⟩) from rfl, hrow] at this
      exact this
  · intro h
    refine ⟨fun r => ?_, fun r => h (Spec.rowTc r)⟩
    have := h (Spec.rowSc r)
    rw [← sum_gsq] at this
    exact this

open Classical in

theorem FIN_spec (x : Spec.X) (hr : Spec.AllReal x) (ht : Spec.TotNe x) :
    FIN (Spec.GSsc x) (Spec.GSQsc x) (Spec.GStc x) (Spec.GSQtc x) (Spec.NPtc x) = Spec.G x := by
  funext i
  unfold FIN Spec.G
  by_cases h : (i 0).val < 256
  · rw [dif_pos h]
    have hrow : Spec.rowSc ⟨(i 0).val, h⟩ = i 0 := Fin.ext rfl
    rw [show (∑ g : Fin 1024, Spec.GSsc x (ix2 (⟨(i 0).val, h⟩ : Fin 256) g))
        = ∑ g : Fin 1024, Spec.gsum x (Spec.rowSc ⟨(i 0).val, h⟩) g from rfl, sum_gsum,
      show Spec.GSQsc x (ix2 (⟨(i 0).val, h⟩ : Fin 256) (i 1))
        = Spec.gsq x (Spec.rowSc ⟨(i 0).val, h⟩) (i 1) from rfl,
      show Spec.GSsc x (ix2 (⟨(i 0).val, h⟩ : Fin 256) (i 1))
        = Spec.gsum x (Spec.rowSc ⟨(i 0).val, h⟩) (i 1) from rfl, hrow]
    exact if_congr (ampK_iff x) rfl rfl
  · rw [dif_neg h]
    have hlt : (i 0).val - 256 < 768 := by have := idx2_lt0 i; omega
    have hrow : Spec.rowTc ⟨(i 0).val - 256, hlt⟩ = i 0 := Fin.ext (by
      show 256 + ((i 0).val - 256) = (i 0).val; omega)
    rw [show (∑ g : Fin 1024, Spec.GStc x (ix2 (⟨(i 0).val - 256, hlt⟩ : Fin 768) g))
        = ∑ g : Fin 1024, Spec.gsum x (Spec.rowTc ⟨(i 0).val - 256, hlt⟩) g from rfl, sum_gsum,
      show Spec.GSQtc x (ix2 (⟨(i 0).val - 256, hlt⟩ : Fin 768) (i 1))
        = Spec.gsq x (Spec.rowTc ⟨(i 0).val - 256, hlt⟩) (i 1) from rfl,
      show Spec.GStc x (ix2 (⟨(i 0).val - 256, hlt⟩ : Fin 768) (i 1))
        = Spec.gsum x (Spec.rowTc ⟨(i 0).val - 256, hlt⟩) (i 1) from rfl, hrow]
    exact if_congr (ampK_iff x) rfl rfl

theorem abs_mul_abs (a : EReal) : max a (-a) * max a (-a) = a * a := by
  rcases max_choice a (-a) with h | h <;> rw [h]
  exact neg_mul_neg a a

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

open Classical in

def REF (x : Spec.X) : Spec.SO.Idx → EReal := fun i =>
  if Spec.IsAmp x then ∑ k : Fin 98, Spec.ent x (i 0) (i 1) k * Spec.ent x (i 0) (i 1) k
  else ∑ k : Fin 98, (if h : 98 * (i 1).val + k.val < 100000 then
      Ideal.div (x (ix2 (i 0) ⟨98 * (i 1).val + k.val, h⟩)) (Spec.tot x (i 0)) else 0)

theorem ref_spec (x : Spec.X) (hr : Spec.AllReal x) (ht : Spec.TotNe x) : REF x = Spec.G x := by
  funext i
  unfold REF Spec.G
  by_cases hamp : Spec.IsAmp x
  · rw [if_pos hamp, if_pos hamp]; rfl
  · rw [if_neg hamp, if_neg hamp]
    choose v hv using hr
    have htot : Spec.tot x (i 0) = ((∑ j : Fin 100000, v (ix2 (i 0) j) : ℝ) : EReal) := by
      rw [coe_sum]; exact Finset.sum_congr rfl fun j _ => hv _
    have hne : (∑ j : Fin 100000, v (ix2 (i 0) j) : ℝ) ≠ 0 := by
      intro h0
      apply ht (i 0)
      rw [htot, h0, EReal.coe_zero]
    set T : ℝ := ∑ j : Fin 100000, v (ix2 (i 0) j) with hT
    let e : Fin 98 → ℝ := fun k =>
      if h : 98 * (i 1).val + k.val < 100000 then v (ix2 (i 0) ⟨98 * (i 1).val + k.val, h⟩) else 0
    have hent : ∀ k : Fin 98, Spec.ent x (i 0) (i 1) k = (e k : EReal) := by
      intro k
      show (if h : 98 * (i 1).val + k.val < 100000 then x (ix2 (i 0) ⟨98 * (i 1).val + k.val, h⟩) else 0) = _
      by_cases h : 98 * (i 1).val + k.val < 100000
      · rw [dif_pos h, hv]; show _ = ((if h : _ then _ else _ : ℝ) : EReal); rw [dif_pos h]
      · rw [dif_neg h]; show _ = ((if h : _ then _ else _ : ℝ) : EReal); rw [dif_neg h, EReal.coe_zero]
    have hterm : ∀ k : Fin 98, (if h : 98 * (i 1).val + k.val < 100000 then
        Ideal.div (x (ix2 (i 0) ⟨98 * (i 1).val + k.val, h⟩)) (Spec.tot x (i 0)) else 0)
        = ((e k * (1 / T) : ℝ) : EReal) := by
      intro k
      by_cases h : 98 * (i 1).val + k.val < 100000
      · rw [dif_pos h, htot, Ideal.div_coe hne, hv, ← EReal.coe_mul]
        show _ = (((if h : _ then _ else _ : ℝ) * (1 / T) : ℝ) : EReal); rw [dif_pos h]
      · rw [dif_neg h]
        show _ = (((if h : _ then _ else _ : ℝ) * (1 / T) : ℝ) : EReal)
        rw [dif_neg h, zero_mul, EReal.coe_zero]
    unfold Spec.gsum
    rw [Finset.sum_congr rfl (fun k _ => hterm k), Finset.sum_congr rfl (fun k _ => hent k), htot,
      Ideal.div_coe hne, ← coe_sum, ← coe_sum, ← EReal.coe_mul, Finset.sum_mul]

end Cert.Proof.SpecLaws

end
-- ==== Proof.R2Pay.lean ====
import proofs.«207604_g45191645889005_cont_8to1c4_5_22_alg».proof.Proof.Gen.KernelIdeal.Skeleton
import proofs.«207604_g45191645889005_cont_8to1c4_5_22_alg».proof.Proof.SpecLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.R2Pay

open Cert.KernelIdeal Cert.KernelIdeal.Gen
open Idealize.ShloMosaic Idealize.ShloMosaic.ValueIdx Cert.Proof Cert.Proof.SpecLaws
open scoped BigOperators

theorem one_pos : (0 : EReal) < Spec.one := by
  unfold Spec.one; simp [Ideal.ofBits, Ideal.ieee]
  first
    | (rw [← EReal.coe_mul, ← EReal.coe_zero, EReal.coe_lt_coe_iff]; positivity)
    | (norm_cast; positivity)
    | positivity
theorem top_pos : (0 : EReal) < Ideal.ofBits .f32 0x7F800000#32 := by
  simp [Ideal.ofBits, Ideal.ieee]

theorem rowsum_sc (v : FVec Ideal S256x1024 .f32) (r : Fin 256) :
    shapeCast S256x1 (multiReduction .add [1] S256 v 0x00000000#32 reduces_S256x1024_S256 (.inl rfl) rfl) shapeCasts_S256_S256x1 (ix2 r (0 : Fin 1))
      = ∑ g : Fin 1024, v (ix2 r g) := by
  rw [shapeCast_apply _ _ (ix2 r (0 : Fin 1)) (ix1 r) (by rw [Shape.rowMajor_val_one, Shape.rowMajor_val_two]; show r.val = r.val * 1 + 0; omega)]
  refine (Ideal.multiReduction_add_single v 0x00000000#32 _ (.inl rfl) rfl (ix1 r)).trans ?_
  refine Finset.sum_congr rfl fun k _ => congrArg v ?_
  funext a; apply Fin.ext
  match a with
  | ⟨0, _⟩ => rfl
  | ⟨1, _⟩ => rfl

theorem rowsum_tc (v : FVec Ideal S768x1024 .f32) (r : Fin 768) :
    shapeCast S768x1 (multiReduction .add [1] S768 v 0x00000000#32 reduces_S768x1024_S768 (.inl rfl) rfl) shapeCasts_S768_S768x1 (ix2 r (0 : Fin 1))
      = ∑ g : Fin 1024, v (ix2 r g) := by
  rw [shapeCast_apply _ _ (ix2 r (0 : Fin 1)) (ix1 r) (by rw [Shape.rowMajor_val_one, Shape.rowMajor_val_two]; show r.val = r.val * 1 + 0; omega)]
  refine (Ideal.multiReduction_add_single v 0x00000000#32 _ (.inl rfl) rfl (ix1 r)).trans ?_
  refine Finset.sum_congr rfl fun k _ => congrArg v ?_
  funext a; apply Fin.ext
  match a with
  | ⟨0, _⟩ => rfl
  | ⟨1, _⟩ => rfl

theorem mark_pos_iff (S : EReal) :
    (0 : EReal) < Scalar.select (Ideal.cmp .ole (max (S - Spec.one) (-(S - Spec.one))) Spec.tol) Spec.one (Ideal.ofBits .f32 0x00000000#32)
      ↔ Near S := by
  unfold Near Scalar.select Ideal.cmp
  by_cases h : max (S - Spec.one) (-(S - Spec.one)) ≤ Spec.tol
  · simp [h, one_pos]
  · simp [h, Ideal.ofBits_zero_f32]

theorem ogt_zero_iff (x : EReal) : Scalar.cmpf (F := Ideal) (φ := .f32) .ogt x (Scalar.ofBits .f32 0x00000000#32) = 1#1 ↔ 0 < x := by
  show Ideal.cmp .ogt x (Ideal.ofBits .f32 0x00000000#32) = 1#1 ↔ _
  rw [Ideal.ofBits_zero_f32]
  unfold Ideal.cmp
  by_cases h : (0 : EReal) < x <;> simp [h]

theorem min_sc_pos_iff (m : FVec Ideal S256x1 .f32) :
    (0 : EReal) < extractAt ![0, 0, 0] (shapeCast S1x1x1 (multiReduction .minimumf [1, 2] S1 (shapeCast S1x256x1 m shapeCasts_S256x1_S1x256x1) 0x7F800000#32 reduces_S1x256x1_S1 (.inl rfl) rfl) shapeCasts_S1_S1x1x1) inpos_S1x1x1_p0_0_0
      ↔ ∀ r : Fin 256, (0 : EReal) < m (ix2 r (0 : Fin 1)) := by
  unfold extractAt
  rw [shapeCast_apply _ _ _ (ix1 (0 : Fin 1)) (by rw [Shape.rowMajor_val_one, Shape.rowMajor_val_three]; rfl)]
  refine (iff_of_eq (congrArg (fun z : EReal => (0 : EReal) < z) (multiReduction_minimumf_eq_fold (shapeCast S1x256x1 m shapeCasts_S256x1_S1x256x1) 0x7F800000#32 reduces_S1x256x1_S1 (.inl rfl) rfl (ix1 (0 : Fin 1))))).trans ?_
  have hall : (Finset.univ.filter fun i : S1x256x1.Idx => reduces_S1x256x1_S1.drop i = ix1 (0 : Fin 1)) = Finset.univ := by
    ext i; simp only [Finset.mem_filter, Finset.mem_univ, true_and, iff_true]
    funext a; apply Fin.ext
    have h1 := ((reduces_S1x256x1_S1.drop i) a).isLt
    have h2 := ((ix1 (0 : Fin 1) : S1.Idx) a).isLt
    match a with
    | ⟨0, _⟩ => have h1' : ((reduces_S1x256x1_S1.drop i) 0).val < 1 := h1; show ((reduces_S1x256x1_S1.drop i) 0).val = 0; omega
  rw [hall]
  show (0 : EReal) < Finset.univ.fold min (Ideal.ofBits .f32 0x7F800000#32) _ ↔ _
  rw [Finset.lt_fold_min]
  constructor
  · rintro ⟨-, h⟩ r
    have := h (ix3 (0 : Fin 1) r (0 : Fin 1)) (Finset.mem_univ _)
    rwa [shapeCast_ab_1ab_apply] at this
  · intro h
    refine ⟨top_pos, fun i _ => ?_⟩
    obtain ⟨u, p, q, rfl⟩ : ∃ (u : Fin 1) (p : Fin 256) (q : Fin 1), i = ix3 u p q := ⟨i 0, i 1, i 2, eq_ix3 i⟩
    rw [shapeCast_ab_1ab_apply]
    have h2 : q = 0 := Subsingleton.elim _ _
    rw [h2]; exact h p

theorem min_tc_pos_iff (m : FVec Ideal S768x1 .f32) :
    (0 : EReal) < extractAt ![0, 0, 0] (shapeCast S1x1x1 (multiReduction .minimumf [1, 2] S1 (shapeCast S1x768x1 m shapeCasts_S768x1_S1x768x1) 0x7F800000#32 reduces_S1x768x1_S1 (.inl rfl) rfl) shapeCasts_S1_S1x1x1) inpos_S1x1x1_p0_0_0
      ↔ ∀ r : Fin 768, (0 : EReal) < m (ix2 r (0 : Fin 1)) := by
  unfold extractAt
  rw [shapeCast_apply _ _ _ (ix1 (0 : Fin 1)) (by rw [Shape.rowMajor_val_one, Shape.rowMajor_val_three]; rfl)]
  refine (iff_of_eq (congrArg (fun z : EReal => (0 : EReal) < z) (multiReduction_minimumf_eq_fold (shapeCast S1x768x1 m shapeCasts_S768x1_S1x768x1) 0x7F800000#32 reduces_S1x768x1_S1 (.inl rfl) rfl (ix1 (0 : Fin 1))))).trans ?_
  have hall : (Finset.univ.filter fun i : S1x768x1.Idx => reduces_S1x768x1_S1.drop i = ix1 (0 : Fin 1)) = Finset.univ := by
    ext i; simp only [Finset.mem_filter, Finset.mem_univ, true_and, iff_true]
    funext a; apply Fin.ext
    have h1 := ((reduces_S1x768x1_S1.drop i) a).isLt
    have h2 := ((ix1 (0 : Fin 1) : S1.Idx) a).isLt
    match a with
    | ⟨0, _⟩ => have h1' : ((reduces_S1x768x1_S1.drop i) 0).val < 1 := h1; show ((reduces_S1x768x1_S1.drop i) 0).val = 0; omega
  rw [hall]
  show (0 : EReal) < Finset.univ.fold min (Ideal.ofBits .f32 0x7F800000#32) _ ↔ _
  rw [Finset.lt_fold_min]
  constructor
  · rintro ⟨-, h⟩ r
    have := h (ix3 (0 : Fin 1) r (0 : Fin 1)) (Finset.mem_univ _)
    rwa [shapeCast_ab_1ab_apply] at this
  · intro h
    refine ⟨top_pos, fun i _ => ?_⟩
    obtain ⟨u, p, q, rfl⟩ : ∃ (u : Fin 1) (p : Fin 768) (q : Fin 1), i = ix3 u p q := ⟨i 0, i 1, i 2, eq_ix3 i⟩
    rw [shapeCast_ab_1ab_apply]
    have h2 : q = 0 := Subsingleton.elim _ _
    rw [h2]; exact h p

theorem pay7_bit_iff (b : Vec Ideal S256x1024 .f32) :
    Scalar.cmpf (F := Ideal) (φ := .f32) .ogt (k2_pay7 b) (Scalar.ofBits .f32 0x00000000#32) = 1#1
      ↔ ∀ r : Fin 256, Near (∑ g : Fin 1024, b (ix2 r g)) := by
  rw [ogt_zero_iff]
  unfold k2_pay7 k2_pay4
  rw [shapeCast_self]
  refine (min_sc_pos_iff _).trans (forall_congr' fun r => ?_)
  refine Iff.trans ?_ (mark_pos_iff (∑ g : Fin 1024, b (ix2 r g)))
  refine iff_of_eq (congrArg (fun z : EReal => (0 : EReal) < z) ?_)
  rw [← rowsum_sc b r]
  rfl

theorem pay8_bit_iff (e : Vec Ideal S768x1 .f32) :
    Scalar.cmpf (F := Ideal) (φ := .f32) .ogt (k2_pay8 e) (Scalar.ofBits .f32 0x00000000#32) = 1#1
      ↔ ∀ r : Fin 768, Near (e (ix2 r (0 : Fin 1))) := by
  rw [ogt_zero_iff]
  unfold k2_pay8
  rw [shapeCast_self]
  refine (min_tc_pos_iff _).trans (forall_congr' fun r => ?_)
  exact mark_pos_iff (e (ix2 r (0 : Fin 1)))

theorem scalar_select_apply {s : Shape} (c : BitVec 1) (x y : s.Idx → EReal) (i : s.Idx) :
    (Scalar.select c x y : s.Idx → EReal) i = Scalar.select c (x i) (y i) := by
  unfold Scalar.select
  split <;> rfl

theorem pay1_apply (v1 v3 : FVec Ideal S256x1024 .f32) (v24 : BitVec 1) (v36 cz : EReal) (r : Fin 256) (g : Fin 1024) :
    k2_pay1 v1 v3 v24 v36 cz (ix2 r g)
      = Scalar.select (Scalar.andi v24 (Scalar.cmpf (F := Ideal) (φ := .f32) .ogt v36 cz)) (v3 (ix2 r g))
          (Ideal.div (v1 (ix2 r g)) (∑ k : Fin 1024, v1 (ix2 r k))) := by
  unfold k2_pay1
  refine (scalar_select_apply _ _ _ _).trans ?_
  refine congrArg (Scalar.select _ (v3 (ix2 r g))) ?_
  refine (divf_apply _ _ _).trans (congrArg (Ideal.div (v1 (ix2 r g))) ?_)
  refine (broadcastTo_apply _ broadcasts_S256x1_S256x1024 (ix2 r g) (ix2 r (0 : Fin 1)) (fun a => by
    match a with
    | ⟨0, _⟩ => rfl
    | ⟨1, _⟩ => rfl)).trans ?_
  exact rowsum_sc v1 r

theorem pay2_apply (v5 v7 : FVec Ideal S768x1024 .f32) (v24 : BitVec 1) (v36 cz : EReal) (r : Fin 768) (g : Fin 1024) :
    k2_pay2 v5 v7 v24 v36 cz (ix2 r g)
      = Scalar.select (Scalar.andi v24 (Scalar.cmpf (F := Ideal) (φ := .f32) .ogt v36 cz)) (v7 (ix2 r g))
          (Ideal.div (v5 (ix2 r g)) (∑ k : Fin 1024, v5 (ix2 r k))) := by
  unfold k2_pay2
  refine (scalar_select_apply _ _ _ _).trans ?_
  refine congrArg (Scalar.select _ (v7 (ix2 r g))) ?_
  refine (divf_apply _ _ _).trans (congrArg (Ideal.div (v5 (ix2 r g))) ?_)
  refine (broadcastTo_apply _ broadcasts_S768x1_S768x1024 (ix2 r g) (ix2 r (0 : Fin 1)) (fun a => by
    match a with
    | ⟨0, _⟩ => rfl
    | ⟨1, _⟩ => rfl)).trans ?_
  exact rowsum_tc v5 r

end Cert.Proof.R2Pay

end
-- ==== Proof.R2Value.lean ====
import proofs.«207604_g45191645889005_cont_8to1c4_5_22_alg».proof.Proof.R2Frame
import proofs.«207604_g45191645889005_cont_8to1c4_5_22_alg».proof.Proof.R2Pay

set_option maxRecDepth 16384

noncomputable section

namespace Cert.Proof.R2Value

open Cert.KernelIdeal Cert.KernelIdeal.Gen Cert.KernelIdeal.R2
open Idealize.ShloMosaic Idealize.ShloMosaic.ValueIdx Cert.Proof Cert.Proof.SpecLaws Cert.Proof.R2Pay
open scoped BigOperators

theorem hz : (![0, 0] : Fin 2 → Nat) = fun _ => 0 := funext fun a => by fin_cases a <;> rfl

theorem ld_sc (x : Vec Ideal S256x1024 .f32) : View.ld x rSc = x := View.ld_unit_zero hz _ x
theorem ld_tc (x : Vec Ideal S768x1024 .f32) : View.ld x rTc = x := View.ld_unit_zero hz _ x

theorem ld_np (x : Vec Ideal S768x128 .f32) (r : Fin 768) :
    View.ld x rNp (ix2 r (0 : Fin 1)) = x (ix2 r (0 : Fin 128)) := by
  show x (rNp.idx (ix2 r (0 : Fin 1))) = _
  congr 1
  funext a; apply Fin.ext
  match a with
  | ⟨0, _⟩ => show 0 + 1 * r.val = r.val; omega
  | ⟨1, _⟩ => show 0 + 1 * 0 = 0; rfl

theorem pay3_eq (x : Vec Ideal S256x1024 .f32) : k2_pay3 x = x := by unfold k2_pay3; exact shapeCast_self _ _
theorem pay4_eq (x : Vec Ideal S256x1024 .f32) : k2_pay4 x = x := by unfold k2_pay4; exact shapeCast_self _ _
theorem pay5_eq (x : Vec Ideal S768x1024 .f32) : k2_pay5 x = x := by unfold k2_pay5; exact shapeCast_self _ _
theorem pay6_eq (x : Vec Ideal S768x1024 .f32) : k2_pay6 x = x := by unfold k2_pay6; exact shapeCast_self _ _

theorem andi_one_iff (a b : BitVec 1) : Scalar.andi a b = 1#1 ↔ a = 1#1 ∧ b = 1#1 := by
  revert a b; decide

theorem select_pos {α : Type} {c : BitVec 1} {P : Prop} (h : c = 1#1 ↔ P) (hp : P) (x y : α) : Scalar.select c x y = x := by
  unfold Scalar.select; exact if_pos (h.mpr hp)
theorem select_neg {α : Type} {c : BitVec 1} {P : Prop} (h : c = 1#1 ↔ P) (hp : ¬P) (x y : α) : Scalar.select c x y = y := by
  unfold Scalar.select; exact if_neg fun hc => hp (h.mp hc)

theorem bit_iff (b : Vec Ideal S256x1024 .f32) (e' : Vec Ideal S768x128 .f32) :
    Scalar.andi (bitSc b) (Scalar.cmpf (F := Ideal) (φ := .f32) .ogt (k2_pay8 (View.ld e' rNp)) (Scalar.ofBits .f32 0x00000000#32)) = 1#1
      ↔ AmpK b e' := by
  rw [andi_one_iff]
  unfold bitSc AmpK
  rw [ld_sc, pay7_bit_iff, pay8_bit_iff]
  refine and_congr Iff.rfl (forall_congr' fun r => ?_)
  rw [ld_np]

theorem canon_lo (P0 : Vec Ideal S768x1024 .f32) (P1 : Vec Ideal S256x1024 .f32) (p : Fin 1024) (h : p.val < 256) (q : Fin 1024) :
    View.canon ([⟨rHi, P0⟩, ⟨rLo, P1⟩] : List (View.Piece (Elt Ideal) S1024x1024 .f32)) (ix2 p q) = P1 (ix2 (⟨p.val, h⟩ : Fin 256) q) := by
  have hnot : (ix2 p q : S1024x1024.Idx) ∉ rHi.set := by
    rw [Rect.mem_set_unit]; intro hh
    have h0 : (256 : ℕ) ≤ p.val := (hh 0).1
    omega
  rw [View.canon_cons_of_not_mem (⟨rHi, P0⟩ : View.Piece (Elt Ideal) S1024x1024 .f32) [⟨rLo, P1⟩] hnot]
  have hi : (ix2 p q : S1024x1024.Idx) = rLo.emb (ix2 (⟨p.val, h⟩ : Fin 256) q) := by
    funext a; apply Fin.ext
    match a with
    | ⟨0, _⟩ => show p.val = 0 + 1 * p.val; omega
    | ⟨1, _⟩ => show q.val = 0 + 1 * q.val; omega
  rw [hi]
  exact View.canon_cons_emb rLo P1 [] (ix2 (⟨p.val, h⟩ : Fin 256) q)

theorem canon_hi (P0 : Vec Ideal S768x1024 .f32) (P1 : Vec Ideal S256x1024 .f32) (p : Fin 1024) (h : ¬ p.val < 256) (q : Fin 1024) :
    View.canon ([⟨rHi, P0⟩, ⟨rLo, P1⟩] : List (View.Piece (Elt Ideal) S1024x1024 .f32)) (ix2 p q)
      = P0 (ix2 (⟨p.val - 256, by have := p.isLt; omega⟩ : Fin 768) q) := by
  have hi : (ix2 p q : S1024x1024.Idx) = rHi.emb (ix2 (⟨p.val - 256, by have := p.isLt; omega⟩ : Fin 768) q) := by
    funext a; apply Fin.ext
    match a with
    | ⟨0, _⟩ => show p.val = 256 + 1 * (p.val - 256); omega
    | ⟨1, _⟩ => show q.val = 0 + 1 * q.val; omega
  rw [hi]
  exact View.canon_cons_emb rHi P0 [⟨rLo, P1⟩] (ix2 (⟨p.val - 256, by have := p.isLt; omega⟩ : Fin 768) q)

theorem out5_eq (a b : Vec Ideal S256x1024 .f32) (c' d' : Vec Ideal S768x1024 .f32) (e' : Vec Ideal S768x128 .f32) :
    out5 (F := Ideal) a b c' d' e' = FIN a b c' d' e' := by
  funext i
  obtain ⟨p, q, rfl⟩ : ∃ (p : Fin 1024) (q : Fin 1024), i = ix2 p q := ⟨i 0, i 1, eq_ix2 i⟩
  unfold out5
  by_cases h : p.val < 256
  · rw [canon_lo _ _ p h q, pay1_apply, pay3_eq, pay4_eq, ld_sc, ld_sc]
    unfold FIN
    rw [dif_pos (show ((ix2 p q : Spec.SO.Idx) 0).val < 256 from h)]
    by_cases hA : AmpK b e'
    · rw [select_pos (bit_iff b e') hA, if_pos hA]
    · rw [select_neg (bit_iff b e') hA, if_neg hA]
  · rw [canon_hi _ _ p h q, pay2_apply, pay5_eq, pay6_eq, ld_tc, ld_tc]
    unfold FIN
    rw [dif_neg (show ¬ ((ix2 p q : Spec.SO.Idx) 0).val < 256 from h)]
    by_cases hA : AmpK b e'
    · rw [select_pos (bit_iff b e') hA, if_pos hA]
    · rw [select_neg (bit_iff b e') hA, if_neg hA]

end Cert.Proof.R2Value

end
-- ==== Proof.Sel.lean ====
import proofs.«207604_g45191645889005_cont_8to1c4_5_22_alg».proof.Proof.Spec
import Idealize.ShloMosaic.PureOps.Vector
import Idealize.ShloMosaic.PureOps.ShapeOps
import Idealize.ShloMosaic.Lib.StableHlo.Predicate
import Idealize.ShloMosaic.Lib.Affine

noncomputable section

namespace Cert.Proof.Sel

open Idealize.ShloMosaic Idealize.ShloMosaic.ValueIdx Idealize.ShloMosaic.StableHlo.Predicate
open Cert.Proof.Spec

theorem hbc : (⟨0, ![]⟩ : Shape).BroadcastsInDim Ssel (![] : Fin 0 → Fin Ssel.rank) := by
  refine ⟨?_, ?_⟩ <;> intro a <;> exact a.elim0

def rowI : IVec Ssel 32 := iotaInDim Ssel 32 0

def colI : IVec Ssel 32 := iotaInDim Ssel 32 1

def splatI (c : BitVec 32) : IVec Ssel 32 :=
  broadcastInDim Ssel (![] : Fin 0 → Fin Ssel.rank) hbc (constantI ⟨0, ![]⟩ 32 c)

def selBit : IVec Ssel 1 :=
  andi (cmpi .sge rowI (muli colI (splatI 98#32)))
       (cmpi .slt rowI (muli (addi colI (splatI 1#32)) (splatI 98#32)))

variable {F : FTy → Type} [FloatOps F]

def selTerm : Vec F Ssel .bf16 := (uitofp .bf16 selBit : FVec F Ssel .bf16)

theorem selBit_apply (i : Ssel.Idx) :
    selBit i = if 98 * (i 1).val ≤ (i 0).val ∧ (i 0).val < 98 * ((i 1).val + 1) then 1#1 else 0#1 := by
  have ha : (i 0).val < 12544 := (i 0).isLt
  have hg : (i 1).val < 128 := (i 1).isLt
  have hrow : (rowI i).toNat = (i 0).val := by
    show (BitVec.ofNat 32 (i 0).val).toNat = _
    rw [BitVec.toNat_ofNat]; omega
  have hlo : (IntOp.muli (colI i) (splatI 98#32 i)).toNat = 98 * (i 1).val := by
    show (BitVec.ofNat 32 (i 1).val * 98#32).toNat = _
    rw [BitVec.toNat_mul, BitVec.toNat_ofNat, BitVec.toNat_ofNat]; omega
  have hhi : (IntOp.muli (IntOp.addi (colI i) (splatI 1#32 i)) (splatI 98#32 i)).toNat = 98 * ((i 1).val + 1) := by
    show ((BitVec.ofNat 32 (i 1).val + 1#32) * 98#32).toNat = _
    rw [BitVec.toNat_mul, BitVec.toNat_add, BitVec.toNat_ofNat, BitVec.toNat_ofNat, BitVec.toNat_ofNat]; omega
  have hA : IntOp.cmpi .sge (rowI i) (IntOp.muli (colI i) (splatI 98#32 i)) = 1#1 ↔ 98 * (i 1).val ≤ (i 0).val := by
    rw [sge_iff_toNat (by omega) (by omega), hlo, hrow]
  have hB : IntOp.cmpi .slt (rowI i) (IntOp.muli (IntOp.addi (colI i) (splatI 1#32 i)) (splatI 98#32 i)) = 1#1
      ↔ (i 0).val < 98 * ((i 1).val + 1) := by
    rw [slt_iff_toNat (by omega) (by omega), hhi, hrow]
  have hS : selBit i = 1#1 ↔ (98 * (i 1).val ≤ (i 0).val ∧ (i 0).val < 98 * ((i 1).val + 1)) := by
    show IntOp.andi (IntOp.cmpi .sge (rowI i) (IntOp.muli (colI i) (splatI 98#32 i)))
      (IntOp.cmpi .slt (rowI i) (IntOp.muli (IntOp.addi (colI i) (splatI 1#32 i)) (splatI 98#32 i))) = 1#1 ↔ _
    rw [IntOp.andi_eq_one, hA, hB]
  have bit : ∀ x : BitVec 1, x ≠ 1#1 → x = 0#1 := by decide
  split
  · next h => exact hS.mpr h
  · next h => exact bit _ fun e => h (hS.mp e)

theorem selTerm_ideal : (selTerm : Vec Ideal Ssel .bf16) = SEL := by
  funext i
  show ((((selBit i).toNat : ℝ)) : EReal) = SEL i
  rw [selBit_apply]
  unfold SEL
  split
  · show (((1 : ℕ) : ℝ) : EReal) = 1
    norm_cast
  · show (((0 : ℕ) : ℝ) : EReal) = 0
    norm_cast

end Cert.Proof.Sel

end
-- ==== Proof.PreFacts.lean ====
import proofs.«207604_g45191645889005_cont_8to1c4_5_22_alg».proof.Pre_finite_inputs
import proofs.«207604_g45191645889005_cont_8to1c4_5_22_alg».proof.Proof.Gen.Pre_finite_inputs
import proofs.«207604_g45191645889005_cont_8to1c4_5_22_alg».proof.Proof.Spec
import Idealize.ShloMosaic.Lib.ReduceAll
import Idealize.ShloMosaic.Lib.ValueIdx
import Idealize.ShloMosaic.PureOps.Ideal.Laws

noncomputable section

namespace Cert.Proof.PreFacts

open Idealize.ShloMosaic Idealize.ShloMosaic.ValueIdx Cert.Proof
open scoped BigOperators

variable [Cert.Pre_finite_inputs.Facts]

instance : Subsingleton Cert.Pre_finite_inputs.S_.Idx := ⟨fun a b => funext fun d => d.elim0⟩

theorem ofBits_inf : Ideal.ofBits .f32 0x7F800000#32 = ⊤ := by simp [Ideal.ofBits, Ideal.ieee]

theorem cmp_olt_eq_one {a b : EReal} (h : Ideal.cmp .olt a b = 1#1) : a < b := by
  by_contra hn
  have h0 : Ideal.cmp .olt a b = 0#1 := by simp [Ideal.cmp, hn]
  rw [h0] at h; exact absurd h (by decide)

theorem cmp_une_eq_one {a b : EReal} (h : Ideal.cmp .une a b = 1#1) : a ≠ b := by
  intro hn
  have h0 : Ideal.cmp .une a b = 0#1 := by simp [Ideal.cmp, hn]
  rw [h0] at h; exact absurd h (by decide)

theorem pre_allReal (x : Spec.X) (h : Cert.Pre_finite_inputs.fn (F := Ideal) x = fun _ => 1#1) :
    Spec.AllReal x := by
  have h0 := congrFun h ix0
  dsimp only [Cert.Pre_finite_inputs.fn] at h0
  obtain ⟨h1, h2⟩ := IntOp.andi_eq_one.1 h0
  intro i
  have e1 : Ideal.cmp .olt (max (x i) (-(x i))) (Ideal.ofBits .f32 0x7F800000#32) = 1#1 :=
    Host.reduce_andi_all _ _ _ _ _ h1 i
  rw [ofBits_inf] at e1
  have hlt := cmp_olt_eq_one e1
  have hne_top : x i ≠ ⊤ := by
    intro he; rw [he] at hlt; exact absurd hlt (by simp)
  have hne_bot : x i ≠ ⊥ := by
    intro he; rw [he] at hlt; exact absurd hlt (by simp)
  exact ⟨(x i).toReal, (EReal.coe_toReal hne_top hne_bot).symm⟩

theorem pre_totNe (x : Spec.X) (h : Cert.Pre_finite_inputs.fn (F := Ideal) x = fun _ => 1#1) :
    Spec.TotNe x := by
  have h0 := congrFun h ix0
  dsimp only [Cert.Pre_finite_inputs.fn] at h0
  obtain ⟨h1, h2⟩ := IntOp.andi_eq_one.1 h0
  intro r
  have e2 := Host.reduce_andi_all _ _ _ _ _ h2 (ix1 r)
  rw [cmpf_apply, Ideal.cmpf_def] at e2
  unfold Host.reduceAdd at e2
  rw [Ideal.hostReduceAdd_def] at e2
  have hR : Cert.Pre_finite_inputs.S1024x100000.Reduces [1] Cert.Pre_finite_inputs.S1024 := by decide
  have hl : ∀ k : Fin 100000, hR.lift (ix1 r) k = ix2 r k := fun k => funext fun a => Fin.ext (by
    match a with | ⟨0, _⟩ => rfl | ⟨1, _⟩ => rfl)
  rw [Ideal.hostReduceAdd_single _ hR] at e2
  simp only [broadcastInDim, constant_apply, Ideal.ofBits_zero_f32, zero_add] at e2
  have hne := cmp_une_eq_one e2
  intro h0
  apply hne
  rw [← h0]
  exact Finset.sum_congr rfl fun k _ => congrArg x (hl k)

end Cert.Proof.PreFacts

end
-- ==== Proof.RefSide.lean ====
import proofs.«207604_g45191645889005_cont_8to1c4_5_22_alg».proof.Defs
import proofs.«207604_g45191645889005_cont_8to1c4_5_22_alg».proof.Proof.Gen.ReferenceIdeal
import proofs.«207604_g45191645889005_cont_8to1c4_5_22_alg».proof.Proof.Gen.Pre_finite_inputs
import proofs.«207604_g45191645889005_cont_8to1c4_5_22_alg».proof.Proof.RefRun
import proofs.«207604_g45191645889005_cont_8to1c4_5_22_alg».proof.Proof.RefRead
import proofs.«207604_g45191645889005_cont_8to1c4_5_22_alg».proof.Proof.Spec
import proofs.«207604_g45191645889005_cont_8to1c4_5_22_alg».proof.Proof.SpecLaws
import proofs.«207604_g45191645889005_cont_8to1c4_5_22_alg».proof.Proof.PreFacts
import Idealize.ShloMosaic.Lib.KernelVsHost
import Idealize.ShloMosaic.Lib.ReduceAll
import Idealize.ShloMosaic.Lib.ValueIdx
import Idealize.ShloMosaic.Lib.Pipeline.Value
import Idealize.ShloMosaic.PureOps.Ideal.Laws

noncomputable section

namespace Cert.Proof.RefSide

open Idealize.ShloMosaic Idealize.ShloMosaic.ValueIdx Cert.Proof
open Cert.ReferenceIdeal Cert.ReferenceIdeal.Gen Cert.ReferenceIdeal.ReadP
open scoped BigOperators

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hall : ∀ i, x i = 1#1) : Host.reduce IntOp.andi x init h hu j = 1#1 := by
  rw [Host.reduce_eq_foldl, hinit]
  have hone : IntOp.andi 1#1 1#1 = 1#1 := by decide
  have : ∀ l : List s.Idx, l.foldl (fun r i => IntOp.andi r (x i)) 1#1 = 1#1 := by
    intro l
    induction l with
    | nil => rfl
    | cons a l ih => rw [List.foldl_cons, hall a, hone]; exact ih
  exact this _

theorem cmp_ole_eq_one {a b : EReal} : Ideal.cmp .ole a b = 1#1 ↔ a ≤ b := by
  by_cases h : a ≤ b
  · simp [Ideal.cmp, h]
  · simp [Ideal.cmp, h]

theorem v2_eq (x : Spec.X) (r : Fin 1024) : val_main_v2 (F := Ideal) x (ix1 r) = Spec.nrm x r := by
  rw [val_main_v2_apply]
  simp only [val_main_cst_apply, val_main_v1_apply, val_main_v0_apply, Ideal.ofBits_def, Ideal.ofBits_zero_f32,
    zero_add, Ideal.mulf_def, Ideal.hostAbsf_def, Ideal.absf_def, SpecLaws.abs_mul_abs]
  unfold Spec.nrm
  refine Finset.sum_congr rfl fun k _ => ?_
  have hk : idx_main_v2 (ix1 r) k = ix2 r k := funext fun a => by
    match a with | ⟨0, _⟩ => rfl | ⟨1, _⟩ => rfl
  rw [hk]

theorem v12_eq (x : Spec.X) (r : Fin 1024) : val_main_v12 (F := Ideal) x (ix1 r) = Spec.tot x r := by
  rw [val_main_v12_apply]
  simp only [val_main_cst_2_apply, Ideal.ofBits_def, Ideal.ofBits_zero_f32, zero_add]
  unfold Spec.tot
  refine Finset.sum_congr rfl fun k _ => ?_
  have hk : idx_main_v12 (ix1 r) k = ix2 r k := funext fun a => by
    match a with | ⟨0, _⟩ => rfl | ⟨1, _⟩ => rfl
  rw [hk]

theorem v8_eq (x : Spec.X) (i : S1024x1.Idx) : val_main_v8 (F := Ideal) x i
    = Ideal.cmp .ole (max (Spec.nrm x (i 0) - Spec.one) (-(Spec.nrm x (i 0) - Spec.one))) Spec.tol := by
  rw [val_main_v8_apply, val_main_v6_apply, val_main_v5_apply, val_main_v3_apply, val_main_v4_apply, val_main_v7_apply,
    val_main_cst_0_apply, val_main_cst_1_apply]
  have hi : idx_main_v3 i = ix1 (n := 1024) (i 0) := funext fun a => by match a with | ⟨0, _⟩ => rfl
  rw [hi, v2_eq x (i 0)]
  rfl

theorem v9_iff (x : Spec.X) : val_main_v9 (F := Ideal) x ix0 = 1#1 ↔ Spec.IsAmp x := by
  unfold val_main_v9
  constructor
  · intro h r
    have h8 := Host.reduce_andi_all _ _ _ _ _ h (ix2 r (0 : Fin 1))
    rw [v8_eq] at h8
    exact cmp_ole_eq_one.1 h8
  · intro h
    refine reduce_andi_of_all _ _ _ _ _ rfl (fun i => ?_)
    rw [v8_eq]
    exact cmp_ole_eq_one.2 (h (i 0))

theorem v14_eq (x : Spec.X) (j : S1024x100000.Idx) : val_main_v14 (F := Ideal) x j = Spec.tot x (j 0) := by
  rw [val_main_v14_apply, val_main_v13_apply]
  have hi : idx_main_v13 (idx_main_v14 j) = ix1 (n := 1024) (j 0) := funext fun a => by
    match a with | ⟨0, _⟩ => rfl
  rw [hi, v12_eq x (j 0)]

theorem v16_eq (x : Spec.X) (j : S1024x100000.Idx) : val_main_v16 (F := Ideal) x j
    = Scalar.select (val_main_v9 (F := Ideal) x ix0) (x j * x j) (Ideal.div (x j) (Spec.tot x (j 0))) := by
  unfold val_main_v16
  rw [select_apply, broadcastInDim_apply _ bcast_S_S1024x100000 _ j ix0 (fun a => a.elim0), val_main_v11_apply,
    val_main_v10_apply, val_main_v15_apply, v14_eq]
  simp only [Ideal.mulf_def, Ideal.hostAbsf_def, Ideal.absf_def, SpecLaws.abs_mul_abs, Ideal.hostDivf_def]

theorem v17_in (x : Spec.X) (r : Fin 1024) (c : Fin 100352) (h : c.val < 100000) :
    val_main_v17 (F := Ideal) x (ix2 r c) = val_main_v16 (F := Ideal) x (ix2 r (⟨c.val, h⟩ : Fin 100000)) := by
  unfold val_main_v17
  exact pad_apply_of_inside _ _ _ _ _ _ _ (ix2 r c) (ix2 r (⟨c.val, h⟩ : Fin 100000)) (fun a => by
    match a with
    | ⟨0, _⟩ => show r.val = 0 + r.val * (0 + 1); omega
    | ⟨1, _⟩ => show c.val = 0 + c.val * (0 + 1); omega)

theorem v17_out (x : Spec.X) (r : Fin 1024) (c : Fin 100352) (h : ¬c.val < 100000) :
    val_main_v17 (F := Ideal) x (ix2 r c) = 0 := by
  unfold val_main_v17
  rw [pad_apply_of_not_inside _ _ _ _ _ _ _ (ix2 r c) (1 : Fin 2) (by
    show ¬(0 ≤ c.val ∧ (c.val - 0) % (0 + 1) = 0 ∧ (c.val - 0) / (0 + 1) < 100000); omega)]
  rw [val_main_call1_v0_apply, val_main_c_3_apply]
  exact sitofp_zero (φ := .f32)

theorem v19_eq (x : Spec.X) : val_main_v19 (F := Ideal) x = SpecLaws.REF x := by
  funext i
  rw [val_main_v19_apply, val_main_cst_4_apply]
  simp only [Ideal.ofBits_def, Ideal.ofBits_zero_f32, zero_add]
  have hterm : ∀ k : Fin 98, val_main_v18 (F := Ideal) x (idx_main_v19 i k)
      = if h : 98 * (i 1).val + k.val < 100000 then
          val_main_v16 (F := Ideal) x (ix2 (i 0) (⟨98 * (i 1).val + k.val, h⟩ : Fin 100000)) else 0 := by
    intro k
    rw [val_main_v18_apply]
    have h1 : (i 1).val < 1024 := idx2_lt1 i
    have h0 : (i 0).val < 1024 := idx2_lt0 i
    have hlt : 98 * (i 1).val + k.val < 100352 := by have := k.isLt; omega
    have hJ : idx_main_v18 (idx_main_v19 i k) = ix2 (n0 := 1024) (i 0) (⟨98 * (i 1).val + k.val, hlt⟩ : Fin 100352) := by
      funext a
      apply Fin.ext
      match a with
      | ⟨0, _⟩ =>
        show (((i 0).val * 1024 + (i 1).val) * 98 + k.val) / 100352 = (i 0).val
        have := k.isLt; omega
      | ⟨1, _⟩ =>
        show (((i 0).val * 1024 + (i 1).val) * 98 + k.val) % 100352 = 98 * (i 1).val + k.val
        have := k.isLt; omega
    rw [hJ]
    by_cases h : 98 * (i 1).val + k.val < 100000
    · rw [dif_pos h]; exact v17_in x (i 0) _ h
    · rw [dif_neg h]; exact v17_out x (i 0) _ h
  rw [Finset.sum_congr rfl (fun k _ => hterm k)]
  unfold SpecLaws.REF
  by_cases hamp : Spec.IsAmp x
  · rw [if_pos hamp]
    have hb := (v9_iff x).2 hamp
    refine Finset.sum_congr rfl fun k _ => ?_
    unfold Spec.ent
    by_cases h : 98 * (i 1).val + k.val < 100000
    · rw [dif_pos h, dif_pos h, v16_eq, hb, select_one]
    · rw [dif_neg h, dif_neg h, mul_zero]
  · rw [if_neg hamp]
    have hb : val_main_v9 (F := Ideal) x ix0 = 0#1 := eq_zero_of_ne_one (mt (v9_iff x).1 hamp)
    refine Finset.sum_congr rfl fun k _ => ?_
    by_cases h : 98 * (i 1).val + k.val < 100000
    · rw [dif_pos h, dif_pos h, v16_eq, hb, select_zero]
    · rw [dif_neg h, dif_neg h]

theorem ref_val (x : Spec.X) (hr : Spec.AllReal x) (ht : Spec.TotNe x) : val_main_v19 (F := Ideal) x = Spec.G x :=
  (v19_eq x).trans (SpecLaws.ref_spec x hr ht)

open Idealize.SL.Sem in

theorem frame_ref [hReferenceIdeal : Cert.ReferenceIdeal.Facts] [hPre_finite_inputs : Cert.Pre_finite_inputs.Facts] :
    Cert.frame_ReferenceIdeal := fun m g _ =>
  (θ_run Cert.ReferenceIdeal.defs _ _).mono (fun _ h c => (h c).2) (Cert.ReferenceIdeal.ValueP.run (F := Ideal) m g)

open Idealize.SL.Sem in

theorem ref_run [hReferenceIdeal : Cert.ReferenceIdeal.Facts] [hPre_finite_inputs : Cert.Pre_finite_inputs.Facts]
    (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v19)
          = Spec.G (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run Cert.ReferenceIdeal.defs _ _).mono (fun _ h c =>
      ⟨(h c).1.trans ((val_main_v19_eq (F := Ideal) _).trans
        (ref_val _ (PreFacts.pre_allReal _ (hpre c)) (PreFacts.pre_totNe _ (hpre c)))), (h c).2⟩)
    (Cert.ReferenceIdeal.ValueP.run (F := Ideal) m' g')

open Idealize.SL.Sem in

theorem algebraic_ref [hKernelIdeal : Cert.KernelIdeal.Facts] [hReferenceIdeal : Cert.ReferenceIdeal.Facts] [hPre_finite_inputs : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19)
            = (Spec.G (m ((c.tc : Thread Cert.KernelIdeal.nD Cert.KernelIdeal.τ).loc Cert.KernelIdeal.main_arg0)) : Buf (Elt Ideal) ((c.tc : Thread Cert.KernelIdeal.nD Cert.KernelIdeal.τ).loc Cert.KernelIdeal.main_v14))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) := by
  have hpre' : Cert.Pre_ReferenceIdeal m' := fun c => by rw [hagree c]; exact hpre c
  refine (θ_run Cert.ReferenceIdeal.defs _ _).mono (fun _ h c => ⟨?_, (h c).2⟩) (ref_run m' g' hpre')
  rw [← hagree c]
  exact (h c).1

end Cert.Proof.RefSide

end
-- ==== Proof.Claim.lean ====
import proofs.«207604_g45191645889005_cont_8to1c4_5_22_alg».proof.Defs
import proofs.«207604_g45191645889005_cont_8to1c4_5_22_alg».proof.Proof.Assemble
import proofs.«207604_g45191645889005_cont_8to1c4_5_22_alg».proof.Proof.TileBody
import proofs.«207604_g45191645889005_cont_8to1c4_5_22_alg».proof.Proof.B.Assemble
import proofs.«207604_g45191645889005_cont_8to1c4_5_22_alg».proof.Proof.B.TileBody
import proofs.«207604_g45191645889005_cont_8to1c4_5_22_alg».proof.Proof.TileValue
import proofs.«207604_g45191645889005_cont_8to1c4_5_22_alg».proof.Proof.R0Value
import proofs.«207604_g45191645889005_cont_8to1c4_5_22_alg».proof.Proof.R2Value
import proofs.«207604_g45191645889005_cont_8to1c4_5_22_alg».proof.Proof.Sel
import proofs.«207604_g45191645889005_cont_8to1c4_5_22_alg».proof.Proof.SpecLaws
import proofs.«207604_g45191645889005_cont_8to1c4_5_22_alg».proof.Proof.PreFacts
import proofs.«207604_g45191645889005_cont_8to1c4_5_22_alg».proof.Proof.RefSide

noncomputable section

namespace Cert.Proof.Final

open Idealize.ShloMosaic Idealize.SL.Sem
open Cert.Proof

variable [hKernel : Cert.Kernel.Facts] [hKernelIdeal : Cert.KernelIdeal.Facts] [hReferenceIdeal : Cert.ReferenceIdeal.Facts]
  [hPre_finite_inputs : Cert.Pre_finite_inputs.Facts]

theorem frame_kernel : Cert.frame_Kernel := fun m g _ =>
  (θ_run (Cert.Kernel.defs (F := Bits)) _ _).mono (fun _ h c => (h c).1)
    (Cert.Kernel.Pf.run_F (F := Bits) Tile.gsOf Tile.gsqOf m g (Cert.Kernel.Pf.tileObl_closed m))

section Ideal

open Cert.KernelIdeal Cert.KernelIdeal.Pf

theorem sel_eq : ((selVal (F := Ideal) : Vec Ideal S12544x128 .bf16) : Spec.Ssel.Idx → EReal) = Spec.SEL :=
  (show (selVal (F := Ideal) : Vec Ideal S12544x128 .bf16) = (Sel.selTerm : Vec Ideal Spec.Ssel .bf16) from rfl).trans Sel.selTerm_ideal

theorem run_ideal (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩
      (QC (rOut (Tile.gsOf (F := Ideal)) Tile.gsqOf m) m) :=
  run_F (F := Ideal) Tile.gsOf Tile.gsqOf m g (tileObl_closed m)

theorem out_eq (m : (ℓ : Loc nD τ sig) → Buf (Elt Ideal) ℓ) (d : Dev nD)
    (hr : Spec.AllReal (m (xLoc d))) (ht : Spec.TotNe (m (xLoc d))) :
    rOut (Tile.gsOf (F := Ideal)) Tile.gsqOf m d = Spec.G (m (xLoc d)) := by
  have hsel : ((Va m d main_v11 : Vec Ideal S12544x128 .bf16) : Spec.Ssel.Idx → EReal) = Spec.SEL := (Va_sel m d).trans sel_eq
  rw [rOut_eq]
  show Cert.KernelIdeal.R2.out5 (Vc Tile.gsOf Tile.gsqOf m d main_v13_0) (Vc Tile.gsOf Tile.gsqOf m d main_v13_1)
      (Vc Tile.gsOf Tile.gsqOf m d main_v12_0) (Vc Tile.gsOf Tile.gsqOf m d main_v12_1) (Vc Tile.gsOf Tile.gsqOf m d main_v12_2) = _
  rw [Vc_gs, Vc_gsq, Vc_v12_0, Vc_v12_1, Vc_v12_2, Tile.gsOf_spec _ hr, Tile.gsqOf_spec _ hr,
    Cert.KernelIdeal.R0V.arr2_ideal (Va m) d (m (xLoc d)) (Va_arg0 m d) hsel,
    Cert.KernelIdeal.R0V.arr3_ideal (Va m) d (m (xLoc d)) (Va_arg0 m d) hsel,
    Cert.KernelIdeal.R0V.arr4_ideal (Va m) d (m (xLoc d)) (Va_arg0 m d)]
  exact (R2Value.out5_eq _ _ _ _ _).trans (SpecLaws.FIN_spec _ hr ht)

theorem frame_kernelIdeal : Cert.frame_KernelIdeal := fun m g _ =>
  (θ_run (Cert.KernelIdeal.defs (F := Ideal)) _ _).mono (fun _ h c => (h c).1) (run_ideal m g)

theorem algebraic : Cert.algebraic_KernelIdeal_ReferenceIdeal := fun m g m' g' hpre hagree =>
  ⟨fun c => Spec.G (m (xLoc c)),
    (θ_run (Cert.KernelIdeal.defs (F := Ideal)) _ _).mono
      (fun _ h c => ⟨(h c).2.trans (out_eq m c (PreFacts.pre_allReal _ (hpre c)) (PreFacts.pre_totNe _ (hpre c))), (h c).1⟩)
      (run_ideal m g),
    RefSide.algebraic_ref m m' g' hpre hagree⟩

end Ideal

end Cert.Proof.Final

end
-- ==== Proof.lean ====
import proofs.«207604_g45191645889005_cont_8to1c4_5_22_alg».proof.Defs
import proofs.«207604_g45191645889005_cont_8to1c4_5_22_alg».proof.Proof.Gen.Kernel
import proofs.«207604_g45191645889005_cont_8to1c4_5_22_alg».proof.Proof.Gen.KernelIdeal
import proofs.«207604_g45191645889005_cont_8to1c4_5_22_alg».proof.Proof.Gen.ReferenceIdeal
import proofs.«207604_g45191645889005_cont_8to1c4_5_22_alg».proof.Proof.Gen.Pre_finite_inputs
import proofs.«207604_g45191645889005_cont_8to1c4_5_22_alg».proof.Proof.Claim

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Final.frame_kernel, Final.frame_kernelIdeal, RefSide.frame_ref, trivial, Final.algebraic⟩

end Cert.Proof

end
